-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  main_v3
-- ==== Pre_finite_inputs_ReferenceIdeal.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  main_v3
-- ==== Kernel.lean ====
abbrev S1x2048x1024 : Shape := ⟨3, ![1, 2048, 1024]⟩
abbrev S2048x1024 : Shape := ⟨2, ![2048, 1024]⟩
abbrev S352x1024 : Shape := ⟨2, ![352, 1024]⟩
abbrev S176x1024 : Shape := ⟨2, ![176, 1024]⟩
abbrev S88x1024 : Shape := ⟨2, ![88, 1024]⟩
abbrev S320x1024 : Shape := ⟨2, ![320, 1024]⟩
abbrev S160x1024 : Shape := ⟨2, ![160, 1024]⟩
abbrev S80x1024 : Shape := ⟨2, ![80, 1024]⟩
abbrev S36 : Shape := ⟨1, ![36]⟩
abbrev S_ : Shape := ⟨0, ![]⟩
abbrev S1 : Shape := ⟨1, ![1]⟩
abbrev S1x88x1024 : Shape := ⟨3, ![1, 88, 1024]⟩
abbrev S1x176x1024 : Shape := ⟨3, ![1, 176, 1024]⟩
abbrev S1x80x1024 : Shape := ⟨3, ![1, 80, 1024]⟩
abbrev S1x160x1024 : Shape := ⟨3, ![1, 160, 1024]⟩

abbrev nBuf : Space → Nat
  | .hbm => 2
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .local _ .vmem, ⟨0, _⟩ => ⟨S1x2048x1024, .f32⟩
  | .local _ .vmem, ⟨1, _⟩ => ⟨S2048x1024, .f32⟩
  | .local _ .vmem, ⟨2, _⟩ => ⟨S352x1024, .f32⟩
  | .local _ .vmem, ⟨3, _⟩ => ⟨S352x1024, .f32⟩
  | .local _ .vmem, ⟨4, _⟩ => ⟨S176x1024, .f32⟩
  | .local _ .vmem, ⟨5, _⟩ => ⟨S88x1024, .f32⟩
  | .local _ .vmem, ⟨6, _⟩ => ⟨S352x1024, .f32⟩
  | .local _ .vmem, ⟨7, _⟩ => ⟨S352x1024, .f32⟩
  | .local _ .vmem, ⟨8, _⟩ => ⟨S176x1024, .f32⟩
  | .local _ .vmem, ⟨9, _⟩ => ⟨S88x1024, .f32⟩
  | .local _ .vmem, ⟨10, _⟩ => ⟨S320x1024, .f32⟩
  | .local _ .vmem, ⟨11, _⟩ => ⟨S320x1024, .f32⟩
  | .local _ .vmem, ⟨12, _⟩ => ⟨S160x1024, .f32⟩
  | .local _ .vmem, ⟨13, _⟩ => ⟨S80x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_33 : BitVec 32 := 1#32
  let v77 : BitVec 32 := Scalar.muli v63 c1_i32_33
  let v78 : BitVec 32 := Scalar.addi c0_i32_34 v77
  v78.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_36 : BitVec 32 := 1#32
  let v79 : BitVec 32 := Scalar.muli v69 c1_i32_36
  let v80 : BitVec 32 := Scalar.addi c0_i32_37 v79
  v80.toNat
def k0_dev3 (d0 : Dev nD) : Nat :=
  let c0_i32_40 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_39 : BitVec 32 := 1#32
  let v81 : BitVec 32 := Scalar.muli v75 c1_i32_39
  let v82 : BitVec 32 := Scalar.addi c0_i32_40 v81
  v82.toNat
def k0_off1 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v86 : BitVec 32 := Scalar.subi c1_i32_43 v46
  let c176_i32 : BitVec 32 := 176#32
  let v87 : BitVec 32 := Scalar.muli v86 c176_i32
  let c1_i32_44 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v88 : BitVec 32 := Scalar.subi c1_i32_44 v57
  let c88_i32 : BitVec 32 := 88#32
  let v89 : BitVec 32 := Scalar.muli v88 c88_i32
  let v90 : BitVec 32 := Scalar.addi v87 v89
  let c0_i32_54 : BitVec 32 := 0#32
  ![v90.toNat, 0]
def k0_off2 (d0 : Dev nD) : Fin 3 → Nat :=
  let c0_i32_49 : BitVec 32 := 0#32
  let c0_i32_42 : BitVec 32 := 0#32
  let c1_i32_41 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_41 v19
  let c352_i32 : BitVec 32 := 352#32
  let v84 : BitVec 32 := Scalar.muli v83 c352_i32
  let v85 : BitVec 32 := Scalar.addi c0_i32_42 v84
  let c1_i32_43 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v86 : BitVec 32 := Scalar.subi c1_i32_43 v46
  let c176_i32 : BitVec 32 := 176#32
  let v87 : BitVec 32 := Scalar.muli v86 c176_i32
  let c1_i32_44 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v88 : BitVec 32 := Scalar.subi c1_i32_44 v57
  let c88_i32 : BitVec 32 := 88#32
  let v89 : BitVec 32 := Scalar.muli v88 c88_i32
  let v90 : BitVec 32 := Scalar.addi v87 v89
  let v96 : BitVec 32 := Scalar.addi v85 v90
  let c0_i32_55 : BitVec 32 := 0#32
  ![0, v96.toNat, 0]
def k0_dev4 (d0 : Dev nD) : Nat :=
  let c0_i32_53 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_52 : BitVec 32 := 1#32
  let v97 : BitVec 32 := Scalar.muli v75 c1_i32_52
  let v98 : BitVec 32 := Scalar.addi c0_i32_53 v97
  v98.toNat
def k0_off3 (d0 : Dev nD) : Fin 2 → Nat :=
  let c1_i32_45 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v91 : BitVec 32 := Scalar.subi c1_i32_45 v46
  let c176_i32_46 : BitVec 32 := 176#32
  let v92 : BitVec 32 := Scalar.muli v91 c176_i32_46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_47 : BitVec 32 := 88#32
  let v93 : BitVec 32 := Scalar.muli v57 c88_i32_47
  let v94 : BitVec 32 := Scalar.addi v92 v93
  let c0_i32_61 : BitVec 32 := 0#32
  ![v94.toNat, 0]
def k0_off4 (d0 : Dev nD) : Fin 3 → Nat :=
  let c0_i32_56 : BitVec 32 := 0#32
  let c0_i32_42 : BitVec 32 := 0#32
  let c1_i32_41 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_41 v19
  let c352_i32 : BitVec 32 := 352#32
  let v84 : BitVec 32 := Scalar.muli v83 c352_i32
  let v85 : BitVec 32 := Scalar.addi c0_i32_42 v84
  let c1_i32_45 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v91 : BitVec 32 := Scalar.subi c1_i32_45 v46
  let c176_i32_46 : BitVec 32 := 176#32
  let v92 : BitVec 32 := Scalar.muli v91 c176_i32_46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_47 : BitVec 32 := 88#32
  let v93 : BitVec 32 := Scalar.muli v57 c88_i32_47
  let v94 : BitVec 32 := Scalar.addi v92 v93
  let v106 : BitVec 32 := Scalar.addi v85 v94
  let c0_i32_62 : BitVec 32 := 0#32
  ![0, v106.toNat, 0]
def k0_dev5 (d0 : Dev nD) : Nat :=
  let c0_i32_60 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_59 : BitVec 32 := 1#32
  let v107 : BitVec 32 := Scalar.muli v75 c1_i32_59
  let v108 : BitVec 32 := Scalar.addi c0_i32_60 v107
  v108.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_48 : BitVec 32 := 176#32
  let v95 : BitVec 32 := Scalar.muli v46 c176_i32_48
  let c0_i32_68 : BitVec 32 := 0#32
  ![v95.toNat, 0]
def k0_off6 (d0 : Dev nD) : Fin 3 → Nat :=
  let c0_i32_63 : BitVec 32 := 0#32
  let c0_i32_42 : BitVec 32 := 0#32
  let c1_i32_41 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_41 v19
  let c352_i32 : BitVec 32 := 352#32
  let v84 : BitVec 32 := Scalar.muli v83 c352_i32
  let v85 : BitVec 32 := Scalar.addi c0_i32_42 v84
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_48 : BitVec 32 := 176#32
  let v95 : BitVec 32 := Scalar.muli v46 c176_i32_48
  let v116 : BitVec 32 := Scalar.addi v85 v95
  let c0_i32_69 : BitVec 32 := 0#32
  ![0, v116.toNat, 0]
def k0_dev6 (d0 : Dev nD) : Nat :=
  let c0_i32_67 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_66 : BitVec 32 := 1#32
  let v117 : BitVec 32 := Scalar.muli v75 c1_i32_66
  let v118 : BitVec 32 := Scalar.addi c0_i32_67 v117
  v118.toNat
def k0_off7 (d0 : Dev nD) : Fin 2 → Nat :=
  let c1_i32_74 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v131 : BitVec 32 := Scalar.subi c1_i32_74 v57
  let c176_i32_75 : BitVec 32 := 176#32
  let v132 : BitVec 32 := Scalar.muli v131 c176_i32_75
  let c1_i32_76 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v133 : BitVec 32 := Scalar.subi c1_i32_76 v19
  let c88_i32_77 : BitVec 32 := 88#32
  let v134 : BitVec 32 := Scalar.muli v133 c88_i32_77
  let v135 : BitVec 32 := Scalar.addi v132 v134
  let c0_i32_86 : BitVec 32 := 0#32
  ![v135.toNat, 0]
def k0_off8 (d0 : Dev nD) : Fin 3 → Nat :=
  let c0_i32_82 : BitVec 32 := 0#32
  let c704_i32 : BitVec 32 := 704#32
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.subi c1_i32_72 v46
  let c352_i32_73 : BitVec 32 := 352#32
  let v129 : BitVec 32 := Scalar.muli v128 c352_i32_73
  let v130 : BitVec 32 := Scalar.addi c704_i32 v129
  let c1_i32_74 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v131 : BitVec 32 := Scalar.subi c1_i32_74 v57
  let c176_i32_75 : BitVec 32 := 176#32
  let v132 : BitVec 32 := Scalar.muli v131 c176_i32_75
  let c1_i32_76 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v133 : BitVec 32 := Scalar.subi c1_i32_76 v19
  let c88_i32_77 : BitVec 32 := 88#32
  let v134 : BitVec 32 := Scalar.muli v133 c88_i32_77
  let v135 : BitVec 32 := Scalar.addi v132 v134
  let v141 : BitVec 32 := Scalar.addi v130 v135
  let c0_i32_87 : BitVec 32 := 0#32
  ![0, v141.toNat, 0]
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_84 : BitVec 32 := 1#32
  let v142 : BitVec 32 := Scalar.muli v69 c1_i32_84
  let v143 : BitVec 32 := Scalar.addi c0_i32_85 v142
  v143.toNat
def k0_off9 (d0 : Dev nD) : Fin 2 → Nat :=
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v136 : BitVec 32 := Scalar.subi c1_i32_78 v57
  let c176_i32_79 : BitVec 32 := 176#32
  let v137 : BitVec 32 := Scalar.muli v136 c176_i32_79
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_80 : BitVec 32 := 88#32
  let v138 : BitVec 32 := Scalar.muli v19 c88_i32_80
  let v139 : BitVec 32 := Scalar.addi v137 v138
  let c0_i32_92 : BitVec 32 := 0#32
  ![v139.toNat, 0]
def k0_off10 (d0 : Dev nD) : Fin 3 → Nat :=
  let c0_i32_88 : BitVec 32 := 0#32
  let c704_i32 : BitVec 32 := 704#32
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.subi c1_i32_72 v46
  let c352_i32_73 : BitVec 32 := 352#32
  let v129 : BitVec 32 := Scalar.muli v128 c352_i32_73
  let v130 : BitVec 32 := Scalar.addi c704_i32 v129
  let c1_i32_78 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v136 : BitVec 32 := Scalar.subi c1_i32_78 v57
  let c176_i32_79 : BitVec 32 := 176#32
  let v137 : BitVec 32 := Scalar.muli v136 c176_i32_79
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_80 : BitVec 32 := 88#32
  let v138 : BitVec 32 := Scalar.muli v19 c88_i32_80
  let v139 : BitVec 32 := Scalar.addi v137 v138
  let v151 : BitVec 32 := Scalar.addi v130 v139
  let c0_i32_93 : BitVec 32 := 0#32
  ![0, v151.toNat, 0]
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_90 : BitVec 32 := 1#32
  let v152 : BitVec 32 := Scalar.muli v69 c1_i32_90
  let v153 : BitVec 32 := Scalar.addi c0_i32_91 v152
  v153.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c176_i32_81 : BitVec 32 := 176#32
  let v140 : BitVec 32 := Scalar.muli v57 c176_i32_81
  let c0_i32_98 : BitVec 32 := 0#32
  ![v140.toNat, 0]
def k0_off12 (d0 : Dev nD) : Fin 3 → Nat :=
  let c0_i32_94 : BitVec 32 := 0#32
  let c704_i32 : BitVec 32 := 704#32
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.subi c1_i32_72 v46
  let c352_i32_73 : BitVec 32 := 352#32
  let v129 : BitVec 32 := Scalar.muli v128 c352_i32_73
  let v130 : BitVec 32 := Scalar.addi c704_i32 v129
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c176_i32_81 : BitVec 32 := 176#32
  let v140 : BitVec 32 := Scalar.muli v57 c176_i32_81
  let v161 : BitVec 32 := Scalar.addi v130 v140
  let c0_i32_99 : BitVec 32 := 0#32
  ![0, v161.toNat, 0]
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_96 : BitVec 32 := 1#32
  let v162 : BitVec 32 := Scalar.muli v69 c1_i32_96
  let v163 : BitVec 32 := Scalar.addi c0_i32_97 v162
  v163.toNat
def k0_off13 (d0 : Dev nD) : Fin 2 → Nat :=
  let c1_i32_103 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v176 : BitVec 32 := Scalar.subi c1_i32_103 v19
  let c160_i32 : BitVec 32 := 160#32
  let v177 : BitVec 32 := Scalar.muli v176 c160_i32
  let c1_i32_104 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v178 : BitVec 32 := Scalar.subi c1_i32_104 v46
  let c80_i32 : BitVec 32 := 80#32
  let v179 : BitVec 32 := Scalar.muli v178 c80_i32
  let v180 : BitVec 32 := Scalar.addi v177 v179
  let c0_i32_113 : BitVec 32 := 0#32
  ![v180.toNat, 0]
def k0_off14 (d0 : Dev nD) : Fin 3 → Nat :=
  let c0_i32_109 : BitVec 32 := 0#32
  let c1408_i32 : BitVec 32 := 1408#32
  let c1_i32_102 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v173 : BitVec 32 := Scalar.subi c1_i32_102 v57
  let c320_i32 : BitVec 32 := 320#32
  let v174 : BitVec 32 := Scalar.muli v173 c320_i32
  let v175 : BitVec 32 := Scalar.addi c1408_i32 v174
  let c1_i32_103 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v176 : BitVec 32 := Scalar.subi c1_i32_103 v19
  let c160_i32 : BitVec 32 := 160#32
  let v177 : BitVec 32 := Scalar.muli v176 c160_i32
  let c1_i32_104 : BitVec 32 := 1#32
  let v178 : BitVec 32 := Scalar.subi c1_i32_104 v46
  let c80_i32 : BitVec 32 := 80#32
  let v179 : BitVec 32 := Scalar.muli v178 c80_i32
  let v180 : BitVec 32 := Scalar.addi v177 v179
  let v186 : BitVec 32 := Scalar.addi v175 v180
  let c0_i32_114 : BitVec 32 := 0#32
  ![0, v186.toNat, 0]
def k0_dev10 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_111 : BitVec 32 := 1#32
  let v187 : BitVec 32 := Scalar.muli v63 c1_i32_111
  let v188 : BitVec 32 := Scalar.addi c0_i32_112 v187
  v188.toNat
def k0_off15 (d0 : Dev nD) : Fin 2 → Nat :=
  let c1_i32_105 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v181 : BitVec 32 := Scalar.subi c1_i32_105 v19
  let c160_i32_106 : BitVec 32 := 160#32
  let v182 : BitVec 32 := Scalar.muli v181 c160_i32_106
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c80_i32_107 : BitVec 32 := 80#32
  let v183 : BitVec 32 := Scalar.muli v46 c80_i32_107
  let v184 : BitVec 32 := Scalar.addi v182 v183
  let c0_i32_119 : BitVec 32 := 0#32
  ![v184.toNat, 0]
def k0_off16 (d0 : Dev nD) : Fin 3 → Nat :=
  let c0_i32_115 : BitVec 32 := 0#32
  let c1408_i32 : BitVec 32 := 1408#32
  let c1_i32_102 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v173 : BitVec 32 := Scalar.subi c1_i32_102 v57
  let c320_i32 : BitVec 32 := 320#32
  let v174 : BitVec 32 := Scalar.muli v173 c320_i32
  let v175 : BitVec 32 := Scalar.addi c1408_i32 v174
  let c1_i32_105 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v181 : BitVec 32 := Scalar.subi c1_i32_105 v19
  let c160_i32_106 : BitVec 32 := 160#32
  let v182 : BitVec 32 := Scalar.muli v181 c160_i32_106
  let c80_i32_107 : BitVec 32 := 80#32
  let v183 : BitVec 32 := Scalar.muli v46 c80_i32_107
  let v184 : BitVec 32 := Scalar.addi v182 v183
  let v196 : BitVec 32 := Scalar.addi v175 v184
  let c0_i32_120 : BitVec 32 := 0#32
  ![0, v196.toNat, 0]
def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_117 : BitVec 32 := 1#32
  let v197 : BitVec 32 := Scalar.muli v63 c1_i32_117
  let v198 : BitVec 32 := Scalar.addi c0_i32_118 v197
  v198.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_108 : BitVec 32 := 160#32
  let v185 : BitVec 32 := Scalar.muli v19 c160_i32_108
  let c0_i32_125 : BitVec 32 := 0#32
  ![v185.toNat, 0]
def k0_off18 (d0 : Dev nD) : Fin 3 → Nat :=
  let c0_i32_121 : BitVec 32 := 0#32
  let c1408_i32 : BitVec 32 := 1408#32
  let c1_i32_102 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v173 : BitVec 32 := Scalar.subi c1_i32_102 v57
  let c320_i32 : BitVec 32 := 320#32
  let v174 : BitVec 32 := Scalar.muli v173 c320_i32
  let v175 : BitVec 32 := Scalar.addi c1408_i32 v174
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_108 : BitVec 32 := 160#32
  let v185 : BitVec 32 := Scalar.muli v19 c160_i32_108
  let v206 : BitVec 32 := Scalar.addi v175 v185
  let c0_i32_126 : BitVec 32 := 0#32
  ![0, v206.toNat, 0]
def k0_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_123 : BitVec 32 := 1#32
  let v207 : BitVec 32 := Scalar.muli v63 c1_i32_123
  let v208 : BitVec 32 := Scalar.addi c0_i32_124 v207
  v208.toNat
def k0_off19 (d0 : Dev nD) : Fin 3 → Nat :=
  let c0 : Index := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c352_i32_70 : BitVec 32 := 352#32
  let v126 : BitVec 32 := Scalar.muli v19 c352_i32_70
  let v127 : BitVec 32 := Scalar.addi c0_i32_71 v126
  let c1_i32_129 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v218 : BitVec 32 := Scalar.subi c1_i32_129 v46
  let c176_i32_130 : BitVec 32 := 176#32
  let v219 : BitVec 32 := Scalar.muli v218 c176_i32_130
  let c1_i32_132 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v221 : BitVec 32 := Scalar.subi c1_i32_132 v57
  let c88_i32_133 : BitVec 32 := 88#32
  let v222 : BitVec 32 := Scalar.muli v221 c88_i32_133
  let v223 : BitVec 32 := Scalar.addi v219 v222
  let v238 : BitVec 32 := Scalar.addi v127 v223
  let v239 : Index := Scalar.indexCast v238
  let c0_148 : Index := 0#32
  ![0, v239.toNat, 0]
def k0_off20 (d0 : Dev nD) : Fin 2 → Nat :=
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v218 : BitVec 32 := Scalar.subi c1_i32_129 v46
  let c176_i32_130 : BitVec 32 := 176#32
  let v219 : BitVec 32 := Scalar.muli v218 c176_i32_130
  let c1_i32_132 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v221 : BitVec 32 := Scalar.subi c1_i32_132 v57
  let c88_i32_133 : BitVec 32 := 88#32
  let v222 : BitVec 32 := Scalar.muli v221 c88_i32_133
  let v223 : BitVec 32 := Scalar.addi v219 v222
  let v242 : Index := Scalar.indexCast v223
  let c0_149 : Index := 0#32
  ![v242.toNat, 0]
def k0_off21 (d0 : Dev nD) : Fin 2 → Nat :=
  let c1_i32_151 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v249 : BitVec 32 := Scalar.subi c1_i32_151 v57
  let c88_i32_152 : BitVec 32 := 88#32
  let v250 : BitVec 32 := Scalar.muli v249 c88_i32_152
  let c0_i32_157 : BitVec 32 := 0#32
  ![v250.toNat, 0]
def k0_dev13 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_155 : BitVec 32 := 1#32
  let v251 : BitVec 32 := Scalar.muli v69 c1_i32_155
  let v252 : BitVec 32 := Scalar.addi c0_i32_156 v251
  v252.toNat
def k0_off22 (d0 : Dev nD) : Fin 3 → Nat :=
  let c0_172 : Index := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c352_i32_70 : BitVec 32 := 352#32
  let v126 : BitVec 32 := Scalar.muli v19 c352_i32_70
  let v127 : BitVec 32 := Scalar.addi c0_i32_71 v126
  let c1_i32_129 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v218 : BitVec 32 := Scalar.subi c1_i32_129 v46
  let c176_i32_130 : BitVec 32 := 176#32
  let v219 : BitVec 32 := Scalar.muli v218 c176_i32_130
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_134 : BitVec 32 := 88#32
  let v224 : BitVec 32 := Scalar.muli v57 c88_i32_134
  let v225 : BitVec 32 := Scalar.addi v219 v224
  let v271 : BitVec 32 := Scalar.addi v127 v225
  let v272 : Index := Scalar.indexCast v271
  let c0_173 : Index := 0#32
  ![0, v272.toNat, 0]
def k0_off23 (d0 : Dev nD) : Fin 2 → Nat :=
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v218 : BitVec 32 := Scalar.subi c1_i32_129 v46
  let c176_i32_130 : BitVec 32 := 176#32
  let v219 : BitVec 32 := Scalar.muli v218 c176_i32_130
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_134 : BitVec 32 := 88#32
  let v224 : BitVec 32 := Scalar.muli v57 c88_i32_134
  let v225 : BitVec 32 := Scalar.addi v219 v224
  let v275 : Index := Scalar.indexCast v225
  let c0_174 : Index := 0#32
  ![v275.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c88_i32_176 : BitVec 32 := 88#32
  let v282 : BitVec 32 := Scalar.muli v57 c88_i32_176
  let c0_i32_181 : BitVec 32 := 0#32
  ![v282.toNat, 0]
def k0_dev14 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_179 : BitVec 32 := 1#32
  let v283 : BitVec 32 := Scalar.muli v69 c1_i32_179
  let v284 : BitVec 32 := Scalar.addi c0_i32_180 v283
  v284.toNat
def k0_off25 (d0 : Dev nD) : Fin 3 → Nat :=
  let c0_196 : Index := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c352_i32_70 : BitVec 32 := 352#32
  let v126 : BitVec 32 := Scalar.muli v19 c352_i32_70
  let v127 : BitVec 32 := Scalar.addi c0_i32_71 v126
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let v303 : BitVec 32 := Scalar.addi v127 v220
  let v304 : Index := Scalar.indexCast v303
  let c0_197 : Index := 0#32
  ![0, v304.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let v307 : Index := Scalar.indexCast v220
  let c0_198 : Index := 0#32
  ![v307.toNat, 0]
def k0_off27 (d0 : Dev nD) : Fin 3 → Nat :=
  let c0_219 : Index := 0#32
  let c704_i32_101 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c352_i32_100 : BitVec 32 := 352#32
  let v171 : BitVec 32 := Scalar.muli v46 c352_i32_100
  let v172 : BitVec 32 := Scalar.addi c704_i32_101 v171
  let c1_i32_200 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v315 : BitVec 32 := Scalar.subi c1_i32_200 v57
  let c176_i32_201 : BitVec 32 := 176#32
  let v316 : BitVec 32 := Scalar.muli v315 c176_i32_201
  let c1_i32_203 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v318 : BitVec 32 := Scalar.subi c1_i32_203 v19
  let c88_i32_204 : BitVec 32 := 88#32
  let v319 : BitVec 32 := Scalar.muli v318 c88_i32_204
  let v320 : BitVec 32 := Scalar.addi v316 v319
  let v335 : BitVec 32 := Scalar.addi v172 v320
  let v336 : Index := Scalar.indexCast v335
  let c0_220 : Index := 0#32
  ![0, v336.toNat, 0]
def k0_off28 (d0 : Dev nD) : Fin 2 → Nat :=
  let c1_i32_200 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v315 : BitVec 32 := Scalar.subi c1_i32_200 v57
  let c176_i32_201 : BitVec 32 := 176#32
  let v316 : BitVec 32 := Scalar.muli v315 c176_i32_201
  let c1_i32_203 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v318 : BitVec 32 := Scalar.subi c1_i32_203 v19
  let c88_i32_204 : BitVec 32 := 88#32
  let v319 : BitVec 32 := Scalar.muli v318 c88_i32_204
  let v320 : BitVec 32 := Scalar.addi v316 v319
  let v339 : Index := Scalar.indexCast v320
  let c0_221 : Index := 0#32
  ![v339.toNat, 0]
def k0_off29 (d0 : Dev nD) : Fin 2 → Nat :=
  let c1_i32_223 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v346 : BitVec 32 := Scalar.subi c1_i32_223 v19
  let c88_i32_224 : BitVec 32 := 88#32
  let v347 : BitVec 32 := Scalar.muli v346 c88_i32_224
  let c0_i32_228 : BitVec 32 := 0#32
  ![v347.toNat, 0]
def k0_dev15 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_226 : BitVec 32 := 1#32
  let v348 : BitVec 32 := Scalar.muli v63 c1_i32_226
  let v349 : BitVec 32 := Scalar.addi c0_i32_227 v348
  v349.toNat
def k0_off30 (d0 : Dev nD) : Fin 3 → Nat :=
  let c0_243 : Index := 0#32
  let c704_i32_101 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c352_i32_100 : BitVec 32 := 352#32
  let v171 : BitVec 32 := Scalar.muli v46 c352_i32_100
  let v172 : BitVec 32 := Scalar.addi c704_i32_101 v171
  let c1_i32_200 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v315 : BitVec 32 := Scalar.subi c1_i32_200 v57
  let c176_i32_201 : BitVec 32 := 176#32
  let v316 : BitVec 32 := Scalar.muli v315 c176_i32_201
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_205 : BitVec 32 := 88#32
  let v321 : BitVec 32 := Scalar.muli v19 c88_i32_205
  let v322 : BitVec 32 := Scalar.addi v316 v321
  let v368 : BitVec 32 := Scalar.addi v172 v322
  let v369 : Index := Scalar.indexCast v368
  let c0_244 : Index := 0#32
  ![0, v369.toNat, 0]
def k0_off31 (d0 : Dev nD) : Fin 2 → Nat :=
  let c1_i32_200 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v315 : BitVec 32 := Scalar.subi c1_i32_200 v57
  let c176_i32_201 : BitVec 32 := 176#32
  let v316 : BitVec 32 := Scalar.muli v315 c176_i32_201
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_205 : BitVec 32 := 88#32
  let v321 : BitVec 32 := Scalar.muli v19 c88_i32_205
  let v322 : BitVec 32 := Scalar.addi v316 v321
  let v372 : Index := Scalar.indexCast v322
  let c0_245 : Index := 0#32
  ![v372.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_247 : BitVec 32 := 88#32
  let v379 : BitVec 32 := Scalar.muli v19 c88_i32_247
  let c0_i32_251 : BitVec 32 := 0#32
  ![v379.toNat, 0]
def k0_dev16 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_249 : BitVec 32 := 1#32
  let v380 : BitVec 32 := Scalar.muli v63 c1_i32_249
  let v381 : BitVec 32 := Scalar.addi c0_i32_250 v380
  v381.toNat
def k0_off33 (d0 : Dev nD) : Fin 3 → Nat :=
  let c0_266 : Index := 0#32
  let c704_i32_101 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c352_i32_100 : BitVec 32 := 352#32
  let v171 : BitVec 32 := Scalar.muli v46 c352_i32_100
  let v172 : BitVec 32 := Scalar.addi c704_i32_101 v171
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c176_i32_202 : BitVec 32 := 176#32
  let v317 : BitVec 32 := Scalar.muli v57 c176_i32_202
  let v400 : BitVec 32 := Scalar.addi v172 v317
  let v401 : Index := Scalar.indexCast v400
  let c0_267 : Index := 0#32
  ![0, v401.toNat, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c176_i32_202 : BitVec 32 := 176#32
  let v317 : BitVec 32 := Scalar.muli v57 c176_i32_202
  let v404 : Index := Scalar.indexCast v317
  let c0_268 : Index := 0#32
  ![v404.toNat, 0]
def k0_off35 (d0 : Dev nD) : Fin 3 → Nat :=
  let c0_289 : Index := 0#32
  let c1408_i32_128 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c320_i32_127 : BitVec 32 := 320#32
  let v216 : BitVec 32 := Scalar.muli v57 c320_i32_127
  let v217 : BitVec 32 := Scalar.addi c1408_i32_128 v216
  let c1_i32_270 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v412 : BitVec 32 := Scalar.subi c1_i32_270 v19
  let c160_i32_271 : BitVec 32 := 160#32
  let v413 : BitVec 32 := Scalar.muli v412 c160_i32_271
  let c1_i32_273 : BitVec 32 := 1#32
  let v415 : BitVec 32 := Scalar.subi c1_i32_273 v46
  let c80_i32_274 : BitVec 32 := 80#32
  let v416 : BitVec 32 := Scalar.muli v415 c80_i32_274
  let v417 : BitVec 32 := Scalar.addi v413 v416
  let v432 : BitVec 32 := Scalar.addi v217 v417
  let v433 : Index := Scalar.indexCast v432
  let c0_290 : Index := 0#32
  ![0, v433.toNat, 0]
def k0_off36 (d0 : Dev nD) : Fin 2 → Nat :=
  let c1_i32_270 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v412 : BitVec 32 := Scalar.subi c1_i32_270 v19
  let c160_i32_271 : BitVec 32 := 160#32
  let v413 : BitVec 32 := Scalar.muli v412 c160_i32_271
  let c1_i32_273 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v415 : BitVec 32 := Scalar.subi c1_i32_273 v46
  let c80_i32_274 : BitVec 32 := 80#32
  let v416 : BitVec 32 := Scalar.muli v415 c80_i32_274
  let v417 : BitVec 32 := Scalar.addi v413 v416
  let v436 : Index := Scalar.indexCast v417
  let c0_291 : Index := 0#32
  ![v436.toNat, 0]
def k0_off37 (d0 : Dev nD) : Fin 2 → Nat :=
  let c1_i32_293 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v443 : BitVec 32 := Scalar.subi c1_i32_293 v46
  let c80_i32_294 : BitVec 32 := 80#32
  let v444 : BitVec 32 := Scalar.muli v443 c80_i32_294
  let c0_i32_298 : BitVec 32 := 0#32
  ![v444.toNat, 0]
def k0_dev17 (d0 : Dev nD) : Nat :=
  let c0_i32_297 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_296 : BitVec 32 := 1#32
  let v445 : BitVec 32 := Scalar.muli v75 c1_i32_296
  let v446 : BitVec 32 := Scalar.addi c0_i32_297 v445
  v446.toNat
def k0_off38 (d0 : Dev nD) : Fin 3 → Nat :=
  let c0_313 : Index := 0#32
  let c1408_i32_128 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c320_i32_127 : BitVec 32 := 320#32
  let v216 : BitVec 32 := Scalar.muli v57 c320_i32_127
  let v217 : BitVec 32 := Scalar.addi c1408_i32_128 v216
  let c1_i32_270 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v412 : BitVec 32 := Scalar.subi c1_i32_270 v19
  let c160_i32_271 : BitVec 32 := 160#32
  let v413 : BitVec 32 := Scalar.muli v412 c160_i32_271
  let c80_i32_275 : BitVec 32 := 80#32
  let v418 : BitVec 32 := Scalar.muli v46 c80_i32_275
  let v419 : BitVec 32 := Scalar.addi v413 v418
  let v465 : BitVec 32 := Scalar.addi v217 v419
  let v466 : Index := Scalar.indexCast v465
  let c0_314 : Index := 0#32
  ![0, v466.toNat, 0]
def k0_off39 (d0 : Dev nD) : Fin 2 → Nat :=
  let c1_i32_270 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v412 : BitVec 32 := Scalar.subi c1_i32_270 v19
  let c160_i32_271 : BitVec 32 := 160#32
  let v413 : BitVec 32 := Scalar.muli v412 c160_i32_271
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c80_i32_275 : BitVec 32 := 80#32
  let v418 : BitVec 32 := Scalar.muli v46 c80_i32_275
  let v419 : BitVec 32 := Scalar.addi v413 v418
  let v469 : Index := Scalar.indexCast v419
  let c0_315 : Index := 0#32
  ![v469.toNat, 0]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c80_i32_317 : BitVec 32 := 80#32
  let v476 : BitVec 32 := Scalar.muli v46 c80_i32_317
  let c0_i32_321 : BitVec 32 := 0#32
  ![v476.toNat, 0]
def k0_dev18 (d0 : Dev nD) : Nat :=
  let c0_i32_320 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_319 : BitVec 32 := 1#32
  let v477 : BitVec 32 := Scalar.muli v75 c1_i32_319
  let v478 : BitVec 32 := Scalar.addi c0_i32_320 v477
  v478.toNat
def k0_off41 (d0 : Dev nD) : Fin 3 → Nat :=
  let c0_336 : Index := 0#32
  let c1408_i32_128 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c320_i32_127 : BitVec 32 := 320#32
  let v216 : BitVec 32 := Scalar.muli v57 c320_i32_127
  let v217 : BitVec 32 := Scalar.addi c1408_i32_128 v216
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let v497 : BitVec 32 := Scalar.addi v217 v414
  let v498 : Index := Scalar.indexCast v497
  let c0_337 : Index := 0#32
  ![0, v498.toNat, 0]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let v501 : Index := Scalar.indexCast v414
  let c0_338 : Index := 0#32
  ![v501.toNat, 0]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let c1_i32_340 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v509 : BitVec 32 := Scalar.subi c1_i32_340 v57
  let c88_i32_341 : BitVec 32 := 88#32
  let v510 : BitVec 32 := Scalar.muli v509 c88_i32_341
  let v522 : BitVec 32 := Scalar.addi v220 v510
  let v523 : Index := Scalar.indexCast v522
  let c0_354 : Index := 0#32
  ![v523.toNat, 0]
def k0_off44 (d0 : Dev nD) : Fin 2 → Nat :=
  let c1_i32_340 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v509 : BitVec 32 := Scalar.subi c1_i32_340 v57
  let c88_i32_341 : BitVec 32 := 88#32
  let v510 : BitVec 32 := Scalar.muli v509 c88_i32_341
  let v525 : Index := Scalar.indexCast v510
  let c0_355 : Index := 0#32
  ![v525.toNat, 0]
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let c1_i32_340 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v509 : BitVec 32 := Scalar.subi c1_i32_340 v57
  let c88_i32_341 : BitVec 32 := 88#32
  let v510 : BitVec 32 := Scalar.muli v509 c88_i32_341
  let v533 : BitVec 32 := Scalar.addi v220 v510
  let c0_i32_360 : BitVec 32 := 0#32
  ![v533.toNat, 0]
def k0_dev19 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_358 : BitVec 32 := 1#32
  let v534 : BitVec 32 := Scalar.muli v63 c1_i32_358
  let v535 : BitVec 32 := Scalar.addi c0_i32_359 v534
  v535.toNat
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_342 : BitVec 32 := 88#32
  let v511 : BitVec 32 := Scalar.muli v57 c88_i32_342
  let v551 : BitVec 32 := Scalar.addi v220 v511
  let v552 : Index := Scalar.indexCast v551
  let c0_372 : Index := 0#32
  ![v552.toNat, 0]
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c88_i32_342 : BitVec 32 := 88#32
  let v511 : BitVec 32 := Scalar.muli v57 c88_i32_342
  let v554 : Index := Scalar.indexCast v511
  let c0_373 : Index := 0#32
  ![v554.toNat, 0]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c176_i32_202 : BitVec 32 := 176#32
  let v317 : BitVec 32 := Scalar.muli v57 c176_i32_202
  let c1_i32_375 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v564 : BitVec 32 := Scalar.subi c1_i32_375 v19
  let c88_i32_376 : BitVec 32 := 88#32
  let v565 : BitVec 32 := Scalar.muli v564 c88_i32_376
  let v577 : BitVec 32 := Scalar.addi v317 v565
  let v578 : Index := Scalar.indexCast v577
  let c0_389 : Index := 0#32
  ![v578.toNat, 0]
def k0_off49 (d0 : Dev nD) : Fin 2 → Nat :=
  let c1_i32_375 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v564 : BitVec 32 := Scalar.subi c1_i32_375 v19
  let c88_i32_376 : BitVec 32 := 88#32
  let v565 : BitVec 32 := Scalar.muli v564 c88_i32_376
  let v580 : Index := Scalar.indexCast v565
  let c0_390 : Index := 0#32
  ![v580.toNat, 0]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c176_i32_202 : BitVec 32 := 176#32
  let v317 : BitVec 32 := Scalar.muli v57 c176_i32_202
  let c1_i32_375 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v564 : BitVec 32 := Scalar.subi c1_i32_375 v19
  let c88_i32_376 : BitVec 32 := 88#32
  let v565 : BitVec 32 := Scalar.muli v564 c88_i32_376
  let v588 : BitVec 32 := Scalar.addi v317 v565
  let c0_i32_395 : BitVec 32 := 0#32
  ![v588.toNat, 0]
def k0_dev20 (d0 : Dev nD) : Nat :=
  let c0_i32_394 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_393 : BitVec 32 := 1#32
  let v589 : BitVec 32 := Scalar.muli v75 c1_i32_393
  let v590 : BitVec 32 := Scalar.addi c0_i32_394 v589
  v590.toNat
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c176_i32_202 : BitVec 32 := 176#32
  let v317 : BitVec 32 := Scalar.muli v57 c176_i32_202
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_377 : BitVec 32 := 88#32
  let v566 : BitVec 32 := Scalar.muli v19 c88_i32_377
  let v606 : BitVec 32 := Scalar.addi v317 v566
  let v607 : Index := Scalar.indexCast v606
  let c0_407 : Index := 0#32
  ![v607.toNat, 0]
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_377 : BitVec 32 := 88#32
  let v566 : BitVec 32 := Scalar.muli v19 c88_i32_377
  let v609 : Index := Scalar.indexCast v566
  let c0_408 : Index := 0#32
  ![v609.toNat, 0]
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let c1_i32_410 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v619 : BitVec 32 := Scalar.subi c1_i32_410 v46
  let c80_i32_411 : BitVec 32 := 80#32
  let v620 : BitVec 32 := Scalar.muli v619 c80_i32_411
  let v632 : BitVec 32 := Scalar.addi v414 v620
  let v633 : Index := Scalar.indexCast v632
  let c0_424 : Index := 0#32
  ![v633.toNat, 0]
def k0_off54 (d0 : Dev nD) : Fin 2 → Nat :=
  let c1_i32_410 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v619 : BitVec 32 := Scalar.subi c1_i32_410 v46
  let c80_i32_411 : BitVec 32 := 80#32
  let v620 : BitVec 32 := Scalar.muli v619 c80_i32_411
  let v635 : Index := Scalar.indexCast v620
  let c0_425 : Index := 0#32
  ![v635.toNat, 0]
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let c1_i32_410 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v619 : BitVec 32 := Scalar.subi c1_i32_410 v46
  let c80_i32_411 : BitVec 32 := 80#32
  let v620 : BitVec 32 := Scalar.muli v619 c80_i32_411
  let v643 : BitVec 32 := Scalar.addi v414 v620
  let c0_i32_430 : BitVec 32 := 0#32
  ![v643.toNat, 0]
def k0_dev21 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_428 : BitVec 32 := 1#32
  let v644 : BitVec 32 := Scalar.muli v69 c1_i32_428
  let v645 : BitVec 32 := Scalar.addi c0_i32_429 v644
  v645.toNat
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c80_i32_412 : BitVec 32 := 80#32
  let v621 : BitVec 32 := Scalar.muli v46 c80_i32_412
  let v661 : BitVec 32 := Scalar.addi v414 v621
  let v662 : Index := Scalar.indexCast v661
  let c0_442 : Index := 0#32
  ![v662.toNat, 0]
def k0_off57 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c80_i32_412 : BitVec 32 := 80#32
  let v621 : BitVec 32 := Scalar.muli v46 c80_i32_412
  let v664 : Index := Scalar.indexCast v621
  let c0_443 : Index := 0#32
  ![v664.toNat, 0]
def k0_off58 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c352_i32_70 : BitVec 32 := 352#32
  let v126 : BitVec 32 := Scalar.muli v19 c352_i32_70
  let v127 : BitVec 32 := Scalar.addi c0_i32_71 v126
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let v314 : BitVec 32 := Scalar.addi v127 v220
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_342 : BitVec 32 := 88#32
  let v511 : BitVec 32 := Scalar.muli v57 c88_i32_342
  let v562 : BitVec 32 := Scalar.addi v314 v511
  let v686 : Index := Scalar.indexCast v562
  let c0_457 : Index := 0#32
  ![v686.toNat, 0]
def k0_off59 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c352_i32_70 : BitVec 32 := 352#32
  let v126 : BitVec 32 := Scalar.muli v19 c352_i32_70
  let v127 : BitVec 32 := Scalar.addi c0_i32_71 v126
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let v314 : BitVec 32 := Scalar.addi v127 v220
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_342 : BitVec 32 := 88#32
  let v511 : BitVec 32 := Scalar.muli v57 c88_i32_342
  let v562 : BitVec 32 := Scalar.addi v314 v511
  let c0_i32_461 : BitVec 32 := 0#32
  ![v562.toNat, 0]
def k0_dev22 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_459 : BitVec 32 := 1#32
  let v688 : BitVec 32 := Scalar.muli v63 c1_i32_459
  let v689 : BitVec 32 := Scalar.addi c0_i32_460 v688
  v689.toNat
def k0_dev23 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_464 : BitVec 32 := 1#32
  let v696 : BitVec 32 := Scalar.muli v69 c1_i32_464
  let v697 : BitVec 32 := Scalar.addi c0_i32_465 v696
  v697.toNat
def k0_dev24 (d0 : Dev nD) : Nat :=
  let c0_i32_470 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_469 : BitVec 32 := 1#32
  let v704 : BitVec 32 := Scalar.muli v75 c1_i32_469
  let v705 : BitVec 32 := Scalar.addi c0_i32_470 v704
  v705.toNat
def k0_off60 (d0 : Dev nD) : Fin 2 → Nat :=
  let c704_i32_101 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c352_i32_100 : BitVec 32 := 352#32
  let v171 : BitVec 32 := Scalar.muli v46 c352_i32_100
  let v172 : BitVec 32 := Scalar.addi c704_i32_101 v171
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c176_i32_202 : BitVec 32 := 176#32
  let v317 : BitVec 32 := Scalar.muli v57 c176_i32_202
  let v411 : BitVec 32 := Scalar.addi v172 v317
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_377 : BitVec 32 := 88#32
  let v566 : BitVec 32 := Scalar.muli v19 c88_i32_377
  let v617 : BitVec 32 := Scalar.addi v411 v566
  let v724 : Index := Scalar.indexCast v617
  let c0_485 : Index := 0#32
  ![v724.toNat, 0]
def k0_off61 (d0 : Dev nD) : Fin 2 → Nat :=
  let c704_i32_101 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c352_i32_100 : BitVec 32 := 352#32
  let v171 : BitVec 32 := Scalar.muli v46 c352_i32_100
  let v172 : BitVec 32 := Scalar.addi c704_i32_101 v171
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c176_i32_202 : BitVec 32 := 176#32
  let v317 : BitVec 32 := Scalar.muli v57 c176_i32_202
  let v411 : BitVec 32 := Scalar.addi v172 v317
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_377 : BitVec 32 := 88#32
  let v566 : BitVec 32 := Scalar.muli v19 c88_i32_377
  let v617 : BitVec 32 := Scalar.addi v411 v566
  let c0_i32_489 : BitVec 32 := 0#32
  ![v617.toNat, 0]
def k0_dev25 (d0 : Dev nD) : Nat :=
  let c0_i32_488 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_487 : BitVec 32 := 1#32
  let v726 : BitVec 32 := Scalar.muli v75 c1_i32_487
  let v727 : BitVec 32 := Scalar.addi c0_i32_488 v726
  v727.toNat
def k0_dev26 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_492 : BitVec 32 := 1#32
  let v734 : BitVec 32 := Scalar.muli v63 c1_i32_492
  let v735 : BitVec 32 := Scalar.addi c0_i32_493 v734
  v735.toNat
def k0_dev27 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_497 : BitVec 32 := 1#32
  let v742 : BitVec 32 := Scalar.muli v69 c1_i32_497
  let v743 : BitVec 32 := Scalar.addi c0_i32_498 v742
  v743.toNat
def k0_off62 (d0 : Dev nD) : Fin 2 → Nat :=
  let c1408_i32_128 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c320_i32_127 : BitVec 32 := 320#32
  let v216 : BitVec 32 := Scalar.muli v57 c320_i32_127
  let v217 : BitVec 32 := Scalar.addi c1408_i32_128 v216
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let v508 : BitVec 32 := Scalar.addi v217 v414
  let c80_i32_412 : BitVec 32 := 80#32
  let v621 : BitVec 32 := Scalar.muli v46 c80_i32_412
  let v672 : BitVec 32 := Scalar.addi v508 v621
  let v762 : Index := Scalar.indexCast v672
  let c0_513 : Index := 0#32
  ![v762.toNat, 0]
def k0_off63 (d0 : Dev nD) : Fin 2 → Nat :=
  let c1408_i32_128 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c320_i32_127 : BitVec 32 := 320#32
  let v216 : BitVec 32 := Scalar.muli v57 c320_i32_127
  let v217 : BitVec 32 := Scalar.addi c1408_i32_128 v216
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let v508 : BitVec 32 := Scalar.addi v217 v414
  let c80_i32_412 : BitVec 32 := 80#32
  let v621 : BitVec 32 := Scalar.muli v46 c80_i32_412
  let v672 : BitVec 32 := Scalar.addi v508 v621
  let c0_i32_517 : BitVec 32 := 0#32
  ![v672.toNat, 0]
def k0_dev28 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_515 : BitVec 32 := 1#32
  let v764 : BitVec 32 := Scalar.muli v69 c1_i32_515
  let v765 : BitVec 32 := Scalar.addi c0_i32_516 v764
  v765.toNat
def k0_dev29 (d0 : Dev nD) : Nat :=
  let c0_i32_521 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_520 : BitVec 32 := 1#32
  let v772 : BitVec 32 := Scalar.muli v75 c1_i32_520
  let v773 : BitVec 32 := Scalar.addi c0_i32_521 v772
  v773.toNat
def k0_dev30 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_525 : BitVec 32 := 1#32
  let v780 : BitVec 32 := Scalar.muli v63 c1_i32_525
  let v781 : BitVec 32 := Scalar.addi c0_i32_526 v780
  v781.toNat
def k0_off64 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c352_i32_70 : BitVec 32 := 352#32
  let v126 : BitVec 32 := Scalar.muli v19 c352_i32_70
  let v127 : BitVec 32 := Scalar.addi c0_i32_71 v126
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let v314 : BitVec 32 := Scalar.addi v127 v220
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_342 : BitVec 32 := 88#32
  let v511 : BitVec 32 := Scalar.muli v57 c88_i32_342
  let v562 : BitVec 32 := Scalar.addi v314 v511
  let c1_i32_541 : BitVec 32 := 1#32
  let c2_i32_540 : BitVec 32 := 2#32
  let v798 : BitVec 32 := Scalar.muli c2_i32_540 v57
  let v799 : BitVec 32 := Scalar.subi c1_i32_541 v798
  let c88_i32_542 : BitVec 32 := 88#32
  let v800 : BitVec 32 := Scalar.muli v799 c88_i32_542
  let v801 : BitVec 32 := Scalar.addi v562 v800
  let c0_i32_547 : BitVec 32 := 0#32
  ![v801.toNat, 0]
def k0_dev31 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_545 : BitVec 32 := 1#32
  let v802 : BitVec 32 := Scalar.muli v69 c1_i32_545
  let v803 : BitVec 32 := Scalar.addi c0_i32_546 v802
  v803.toNat
def k0_dev32 (d0 : Dev nD) : Nat :=
  let c0_i32_551 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_550 : BitVec 32 := 1#32
  let v810 : BitVec 32 := Scalar.muli v75 c1_i32_550
  let v811 : BitVec 32 := Scalar.addi c0_i32_551 v810
  v811.toNat
def k0_off65 (d0 : Dev nD) : Fin 2 → Nat :=
  let c704_i32_101 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c352_i32_100 : BitVec 32 := 352#32
  let v171 : BitVec 32 := Scalar.muli v46 c352_i32_100
  let v172 : BitVec 32 := Scalar.addi c704_i32_101 v171
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c176_i32_202 : BitVec 32 := 176#32
  let v317 : BitVec 32 := Scalar.muli v57 c176_i32_202
  let v411 : BitVec 32 := Scalar.addi v172 v317
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_377 : BitVec 32 := 88#32
  let v566 : BitVec 32 := Scalar.muli v19 c88_i32_377
  let v617 : BitVec 32 := Scalar.addi v411 v566
  let c1_i32_566 : BitVec 32 := 1#32
  let c2_i32_565 : BitVec 32 := 2#32
  let v828 : BitVec 32 := Scalar.muli c2_i32_565 v19
  let v829 : BitVec 32 := Scalar.subi c1_i32_566 v828
  let c88_i32_567 : BitVec 32 := 88#32
  let v830 : BitVec 32 := Scalar.muli v829 c88_i32_567
  let v831 : BitVec 32 := Scalar.addi v617 v830
  let c0_i32_571 : BitVec 32 := 0#32
  ![v831.toNat, 0]
def k0_dev33 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_569 : BitVec 32 := 1#32
  let v832 : BitVec 32 := Scalar.muli v63 c1_i32_569
  let v833 : BitVec 32 := Scalar.addi c0_i32_570 v832
  v833.toNat
def k0_dev34 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_574 : BitVec 32 := 1#32
  let v840 : BitVec 32 := Scalar.muli v69 c1_i32_574
  let v841 : BitVec 32 := Scalar.addi c0_i32_575 v840
  v841.toNat
def k0_off66 (d0 : Dev nD) : Fin 2 → Nat :=
  let c1408_i32_128 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c320_i32_127 : BitVec 32 := 320#32
  let v216 : BitVec 32 := Scalar.muli v57 c320_i32_127
  let v217 : BitVec 32 := Scalar.addi c1408_i32_128 v216
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let v508 : BitVec 32 := Scalar.addi v217 v414
  let c80_i32_412 : BitVec 32 := 80#32
  let v621 : BitVec 32 := Scalar.muli v46 c80_i32_412
  let v672 : BitVec 32 := Scalar.addi v508 v621
  let c1_i32_590 : BitVec 32 := 1#32
  let c2_i32_589 : BitVec 32 := 2#32
  let v858 : BitVec 32 := Scalar.muli c2_i32_589 v46
  let v859 : BitVec 32 := Scalar.subi c1_i32_590 v858
  let c80_i32_591 : BitVec 32 := 80#32
  let v860 : BitVec 32 := Scalar.muli v859 c80_i32_591
  let v861 : BitVec 32 := Scalar.addi v672 v860
  let c0_i32_595 : BitVec 32 := 0#32
  ![v861.toNat, 0]
def k0_dev35 (d0 : Dev nD) : Nat :=
  let c0_i32_594 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_593 : BitVec 32 := 1#32
  let v862 : BitVec 32 := Scalar.muli v75 c1_i32_593
  let v863 : BitVec 32 := Scalar.addi c0_i32_594 v862
  v863.toNat
def k0_dev36 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_598 : BitVec 32 := 1#32
  let v870 : BitVec 32 := Scalar.muli v63 c1_i32_598
  let v871 : BitVec 32 := Scalar.addi c0_i32_599 v870
  v871.toNat
def k0_off67 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c352_i32_70 : BitVec 32 := 352#32
  let v126 : BitVec 32 := Scalar.muli v19 c352_i32_70
  let v127 : BitVec 32 := Scalar.addi c0_i32_71 v126
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c176_i32_131 : BitVec 32 := 176#32
  let v220 : BitVec 32 := Scalar.muli v46 c176_i32_131
  let v314 : BitVec 32 := Scalar.addi v127 v220
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c88_i32_342 : BitVec 32 := 88#32
  let v511 : BitVec 32 := Scalar.muli v57 c88_i32_342
  let v562 : BitVec 32 := Scalar.addi v314 v511
  let c88_i32_624 : BitVec 32 := 88#32
  let v898 : BitVec 32 := Scalar.muli v57 c88_i32_624
  let v899 : BitVec 32 := Scalar.subi v562 v898
  let c1_i32_626 : BitVec 32 := 1#32
  let c2_i32_625 : BitVec 32 := 2#32
  let v900 : BitVec 32 := Scalar.muli c2_i32_625 v46
  let v901 : BitVec 32 := Scalar.subi c1_i32_626 v900
  let c176_i32_627 : BitVec 32 := 176#32
  let v902 : BitVec 32 := Scalar.muli v901 c176_i32_627
  let v903 : BitVec 32 := Scalar.addi v899 v902
  let c0_i32_631 : BitVec 32 := 0#32
  ![v903.toNat, 0]
def k0_dev37 (d0 : Dev nD) : Nat :=
  let c0_i32_630 : BitVec 32 := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let c4_i32_30 : BitVec 32 := 4#32
  let v71 : BitVec 32 := Scalar.muli v70 c4_i32_30
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v72 : BitVec 32 := Scalar.muli v46 c2_i32_31
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v74 : BitVec 32 := Scalar.xori v57 v46
  let v75 : BitVec 32 := Scalar.addi v73 v74
  let c1_i32_629 : BitVec 32 := 1#32
  let v904 : BitVec 32 := Scalar.muli v75 c1_i32_629
  let v905 : BitVec 32 := Scalar.addi c0_i32_630 v904
  v905.toNat
def k0_off68 (d0 : Dev nD) : Fin 2 → Nat :=
  let c704_i32_101 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c352_i32_100 : BitVec 32 := 352#32
  let v171 : BitVec 32 := Scalar.muli v46 c352_i32_100
  let v172 : BitVec 32 := Scalar.addi c704_i32_101 v171
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c176_i32_202 : BitVec 32 := 176#32
  let v317 : BitVec 32 := Scalar.muli v57 c176_i32_202
  let v411 : BitVec 32 := Scalar.addi v172 v317
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c88_i32_377 : BitVec 32 := 88#32
  let v566 : BitVec 32 := Scalar.muli v19 c88_i32_377
  let v617 : BitVec 32 := Scalar.addi v411 v566
  let c88_i32_655 : BitVec 32 := 88#32
  let v932 : BitVec 32 := Scalar.muli v19 c88_i32_655
  let v933 : BitVec 32 := Scalar.subi v617 v932
  let c1_i32_657 : BitVec 32 := 1#32
  let c2_i32_656 : BitVec 32 := 2#32
  let v934 : BitVec 32 := Scalar.muli c2_i32_656 v57
  let v935 : BitVec 32 := Scalar.subi c1_i32_657 v934
  let c176_i32_658 : BitVec 32 := 176#32
  let v936 : BitVec 32 := Scalar.muli v935 c176_i32_658
  let v937 : BitVec 32 := Scalar.addi v933 v936
  let c0_i32_662 : BitVec 32 := 0#32
  ![v937.toNat, 0]
def k0_dev38 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let v67 : BitVec 32 := Scalar.addi v65 v66
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v68 : BitVec 32 := Scalar.xori v57 v64
  let v69 : BitVec 32 := Scalar.addi v67 v68
  let c1_i32_660 : BitVec 32 := 1#32
  let v938 : BitVec 32 := Scalar.muli v69 c1_i32_660
  let v939 : BitVec 32 := Scalar.addi c0_i32_661 v938
  v939.toNat
def k0_off69 (d0 : Dev nD) : Fin 2 → Nat :=
  let c1408_i32_128 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c320_i32_127 : BitVec 32 := 320#32
  let v216 : BitVec 32 := Scalar.muli v57 c320_i32_127
  let v217 : BitVec 32 := Scalar.addi c1408_i32_128 v216
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_272 : BitVec 32 := 160#32
  let v414 : BitVec 32 := Scalar.muli v19 c160_i32_272
  let v508 : BitVec 32 := Scalar.addi v217 v414
  let c80_i32_412 : BitVec 32 := 80#32
  let v621 : BitVec 32 := Scalar.muli v46 c80_i32_412
  let v672 : BitVec 32 := Scalar.addi v508 v621
  let c80_i32_686 : BitVec 32 := 80#32
  let v966 : BitVec 32 := Scalar.muli v46 c80_i32_686
  let v967 : BitVec 32 := Scalar.subi v672 v966
  let c1_i32_688 : BitVec 32 := 1#32
  let c2_i32_687 : BitVec 32 := 2#32
  let v968 : BitVec 32 := Scalar.muli c2_i32_687 v19
  let v969 : BitVec 32 := Scalar.subi c1_i32_688 v968
  let c160_i32_689 : BitVec 32 := 160#32
  let v970 : BitVec 32 := Scalar.muli v969 c160_i32_689
  let v971 : BitVec 32 := Scalar.addi v967 v970
  let c0_i32_693 : BitVec 32 := 0#32
  ![v971.toNat, 0]
def k0_dev39 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let v61 : BitVec 32 := Scalar.addi v59 v60
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v62 : BitVec 32 := Scalar.xori v58 v46
  let v63 : BitVec 32 := Scalar.addi v61 v62
  let c1_i32_691 : BitVec 32 := 1#32
  let v972 : BitVec 32 := Scalar.muli v63 c1_i32_691
  let v973 : BitVec 32 := Scalar.addi c0_i32_692 v972
  v973.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S36_S1_0 : ∀ a, (![0] : Fin 1 → Nat) a + S1.size a ≤ S36.size a
  squeezes_S1_S_ : S1.Squeezes S_
  squeezes_S1x88x1024_S88x1024 : S1x88x1024.Squeezes S88x1024
  inb_S36_S1_1 : ∀ a, (![1] : Fin 1 → Nat) a + S1.size a ≤ S36.size a
  inb_S36_S1_2 : ∀ a, (![2] : Fin 1 → Nat) a + S1.size a ≤ S36.size a
  squeezes_S1x176x1024_S176x1024 : S1x176x1024.Squeezes S176x1024
  inb_S36_S1_12 : ∀ a, (![12] : Fin 1 → Nat) a + S1.size a ≤ S36.size a
  inb_S36_S1_13 : ∀ a, (![13] : Fin 1 → Nat) a + S1.size a ≤ S36.size a
  inb_S36_S1_14 : ∀ a, (![14] : Fin 1 → Nat) a + S1.size a ≤ S36.size a
  inb_S36_S1_24 : ∀ a, (![24] : Fin 1 → Nat) a + S1.size a ≤ S36.size a
  squeezes_S1x80x1024_S80x1024 : S1x80x1024.Squeezes S80x1024
  inb_S36_S1_25 : ∀ a, (![25] : Fin 1 → Nat) a + S1.size a ≤ S36.size a
  inb_S36_S1_26 : ∀ a, (![26] : Fin 1 → Nat) a + S1.size a ≤ S36.size a
  squeezes_S1x160x1024_S160x1024 : S1x160x1024.Squeezes S160x1024
  h_S1x88x1024 : 0 < S1x88x1024.numel
  shapeCasts_S1x88x1024_S88x1024 : S1x88x1024.ShapeCasts S88x1024
  h_S88x1024 : 0 < S88x1024.numel
  shapeCasts_S88x1024_S88x1024 : S88x1024.ShapeCasts S88x1024
  inb_S36_S1_3 : ∀ a, (![3] : Fin 1 → Nat) a + S1.size a ≤ S36.size a
  inb_S36_S1_4 : ∀ a, (![4] : Fin 1 → Nat) a + S1.size a ≤ S36.size a
  h_S1x176x1024 : 0 < S1x176x1024.numel
  shapeCasts_S1x176x1024_S176x1024 : S1x176x1024.ShapeCasts S176x1024
  h_S176x1024 : 0 < S176x1024.numel
  shapeCasts_S176x1024_S176x1024 : S176x1024.ShapeCasts S176x1024
  inb_S36_S1_15 : ∀ a, (![15] : Fin 1 → Nat) a + S1.size a ≤ S36.size a
  inb_S36_S1_16 : ∀ a, (![16] : Fin 1 → Nat) a + S1.size a ≤ S36.size a
  h_S1x80x1024 : 0 < S1x80x1024.numel
  shapeCasts_S1x80x1024_S80x1024 : S1x80x1024.ShapeCasts S80x1024
  h_S80x1024 : 0 < S80x1024.numel
  shapeCasts_S80x1024_S80x1024 : S80x1024.ShapeCasts S80x1024
  inb_S36_S1_27 : ∀ a, (![27] : Fin 1 → Nat) a + S1.size a ≤ S36.size a
  inb_S36_S1_28 : ∀ a, (![28] : Fin 1 → Nat) a + S1.size a ≤ S36.size a
  h_S1x160x1024 : 0 < S1x160x1024.numel
  shapeCasts_S1x160x1024_S160x1024 : S1x160x1024.ShapeCasts S160x1024
  h_S160x1024 : 0 < S160x1024.numel
  shapeCasts_S160x1024_S160x1024 : S160x1024.ShapeCasts S160x1024
  inb_S36_S1_5 : ∀ a, (![5] : Fin 1 → Nat) a + S1.size a ≤ S36.size a
  inb_S36_S1_17 : ∀ a, (![17] : Fin 1 → Nat) a + S1.size a ≤ S36.size a
  inb_S36_S1_29 : ∀ a, (![29] : Fin 1 → Nat) a + S1.size a ≤ S36.size a
  inb_S88x1024_S88x1024_0_0 : ∀ a, (![0, 0] : Fin 2 → Nat) a + S88x1024.size a ≤ S88x1024.size a
  inb_S36_S1_6 : ∀ a, (![6] : Fin 1 → Nat) a + S1.size a ≤ S36.size a
  inb_S36_S1_7 : ∀ a, (![7] : Fin 1 → Nat) a + S1.size a ≤ S36.size a
  inb_S36_S1_9 : ∀ a, (![9] : Fin 1 → Nat) a + S1.size a ≤ S36.size a
  inb_S36_S1_18 : ∀ a, (![18] : Fin 1 → Nat) a + S1.size a ≤ S36.size a
  inb_S36_S1_19 : ∀ a, (![19] : Fin 1 → Nat) a + S1.size a ≤ S36.size a
  inb_S36_S1_21 : ∀ a, (![21] : Fin 1 → Nat) a + S1.size a ≤ S36.size a
  inb_S80x1024_S80x1024_0_0 : ∀ a, (![0, 0] : Fin 2 → Nat) a + S80x1024.size a ≤ S80x1024.size a
  inb_S36_S1_30 : ∀ a, (![30] : Fin 1 → Nat) a + S1.size a ≤ S36.size a
  inb_S36_S1_31 : ∀ a, (![31] : Fin 1 → Nat) a + S1.size a ≤ S36.size a
  inb_S36_S1_33 : ∀ a, (![33] : Fin 1 → Nat) a + S1.size a ≤ S36.size a
  inb_S36_S1_8 : ∀ a, (![8] : Fin 1 → Nat) a + S1.size a ≤ S36.size a
  inb_S36_S1_10 : ∀ a, (![10] : Fin 1 → Nat) a + S1.size a ≤ S36.size a
  inb_S36_S1_20 : ∀ a, (![20] : Fin 1 → Nat) a + S1.size a ≤ S36.size a
  inb_S36_S1_22 : ∀ a, (![22] : Fin 1 → Nat) a + S1.size a ≤ S36.size a
  inb_S36_S1_32 : ∀ a, (![32] : Fin 1 → Nat) a + S1.size a ≤ S36.size a
  inb_S36_S1_34 : ∀ a, (![34] : Fin 1 → Nat) a + S1.size a ≤ S36.size a
  inb_S36_S1_11 : ∀ a, (![11] : Fin 1 → Nat) a + S1.size a ≤ S36.size a
  inb_S36_S1_23 : ∀ a, (![23] : Fin 1 → Nat) a + S1.size a ≤ S36.size a
  inb_S36_S1_35 : ∀ a, (![35] : Fin 1 → Nat) a + S1.size a ≤ S36.size a
  hcc0_scratch12 : 2 + S36.numel ≤ 74
  hcc0_scratch13 : 38 + S36.numel ≤ 74
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S88x1024.size a ≤ S352x1024.size a
  k0_off2_inb : ∀ d0 : Dev nD, ∀ a, (k0_off2 d0) a + S1x88x1024.size a ≤ S1x2048x1024.size a
  k0_dev4_lt : ∀ d0 : Dev nD, (k0_dev4 d0) < nD
  k0_off3_inb : ∀ d0 : Dev nD, ∀ a, (k0_off3 d0) a + S88x1024.size a ≤ S352x1024.size a
  k0_off4_inb : ∀ d0 : Dev nD, ∀ a, (k0_off4 d0) a + S1x88x1024.size a ≤ S1x2048x1024.size a
  k0_dev5_lt : ∀ d0 : Dev nD, (k0_dev5 d0) < nD
  k0_off5_inb : ∀ d0 : Dev nD, ∀ a, (k0_off5 d0) a + S176x1024.size a ≤ S352x1024.size a
  k0_off6_inb : ∀ d0 : Dev nD, ∀ a, (k0_off6 d0) a + S1x176x1024.size a ≤ S1x2048x1024.size a
  k0_dev6_lt : ∀ d0 : Dev nD, (k0_dev6 d0) < nD
  k0_off7_inb : ∀ d0 : Dev nD, ∀ a, (k0_off7 d0) a + S88x1024.size a ≤ S352x1024.size a
  k0_off8_inb : ∀ d0 : Dev nD, ∀ a, (k0_off8 d0) a + S1x88x1024.size a ≤ S1x2048x1024.size a
  k0_dev7_lt : ∀ d0 : Dev nD, (k0_dev7 d0) < nD
  k0_off9_inb : ∀ d0 : Dev nD, ∀ a, (k0_off9 d0) a + S88x1024.size a ≤ S352x1024.size a
  k0_off10_inb : ∀ d0 : Dev nD, ∀ a, (k0_off10 d0) a + S1x88x1024.size a ≤ S1x2048x1024.size a
  k0_dev8_lt : ∀ d0 : Dev nD, (k0_dev8 d0) < nD
  k0_off11_inb : ∀ d0 : Dev nD, ∀ a, (k0_off11 d0) a + S176x1024.size a ≤ S352x1024.size a
  k0_off12_inb : ∀ d0 : Dev nD, ∀ a, (k0_off12 d0) a + S1x176x1024.size a ≤ S1x2048x1024.size a
  k0_dev9_lt : ∀ d0 : Dev nD, (k0_dev9 d0) < nD
  k0_off13_inb : ∀ d0 : Dev nD, ∀ a, (k0_off13 d0) a + S80x1024.size a ≤ S320x1024.size a
  k0_off14_inb : ∀ d0 : Dev nD, ∀ a, (k0_off14 d0) a + S1x80x1024.size a ≤ S1x2048x1024.size a
  k0_dev10_lt : ∀ d0 : Dev nD, (k0_dev10 d0) < nD
  k0_off15_inb : ∀ d0 : Dev nD, ∀ a, (k0_off15 d0) a + S80x1024.size a ≤ S320x1024.size a
  k0_off16_inb : ∀ d0 : Dev nD, ∀ a, (k0_off16 d0) a + S1x80x1024.size a ≤ S1x2048x1024.size a
  k0_dev11_lt : ∀ d0 : Dev nD, (k0_dev11 d0) < nD
  k0_off17_inb : ∀ d0 : Dev nD, ∀ a, (k0_off17 d0) a + S160x1024.size a ≤ S320x1024.size a
  k0_off18_inb : ∀ d0 : Dev nD, ∀ a, (k0_off18 d0) a + S1x160x1024.size a ≤ S1x2048x1024.size a
  k0_dev12_lt : ∀ d0 : Dev nD, (k0_dev12 d0) < nD
  k0_off19_inb : ∀ d0 : Dev nD, ∀ a, (k0_off19 d0) a + S1x88x1024.size a ≤ S1x2048x1024.size a
  k0_off20_inb : ∀ d0 : Dev nD, ∀ a, (k0_off20 d0) a + S88x1024.size a ≤ S352x1024.size a
  k0_off21_inb : ∀ d0 : Dev nD, ∀ a, (k0_off21 d0) a + S88x1024.size a ≤ S176x1024.size a
  k0_dev13_lt : ∀ d0 : Dev nD, (k0_dev13 d0) < nD
  k0_off22_inb : ∀ d0 : Dev nD, ∀ a, (k0_off22 d0) a + S1x88x1024.size a ≤ S1x2048x1024.size a
  k0_off23_inb : ∀ d0 : Dev nD, ∀ a, (k0_off23 d0) a + S88x1024.size a ≤ S352x1024.size a
  k0_off24_inb : ∀ d0 : Dev nD, ∀ a, (k0_off24 d0) a + S88x1024.size a ≤ S176x1024.size a
  k0_dev14_lt : ∀ d0 : Dev nD, (k0_dev14 d0) < nD
  k0_off25_inb : ∀ d0 : Dev nD, ∀ a, (k0_off25 d0) a + S1x176x1024.size a ≤ S1x2048x1024.size a
  k0_off26_inb : ∀ d0 : Dev nD, ∀ a, (k0_off26 d0) a + S176x1024.size a ≤ S352x1024.size a
  k0_off27_inb : ∀ d0 : Dev nD, ∀ a, (k0_off27 d0) a + S1x88x1024.size a ≤ S1x2048x1024.size a
  k0_off28_inb : ∀ d0 : Dev nD, ∀ a, (k0_off28 d0) a + S88x1024.size a ≤ S352x1024.size a
  k0_off29_inb : ∀ d0 : Dev nD, ∀ a, (k0_off29 d0) a + S88x1024.size a ≤ S176x1024.size a
  k0_dev15_lt : ∀ d0 : Dev nD, (k0_dev15 d0) < nD
  k0_off30_inb : ∀ d0 : Dev nD, ∀ a, (k0_off30 d0) a + S1x88x1024.size a ≤ S1x2048x1024.size a
  k0_off31_inb : ∀ d0 : Dev nD, ∀ a, (k0_off31 d0) a + S88x1024.size a ≤ S352x1024.size a
  k0_off32_inb : ∀ d0 : Dev nD, ∀ a, (k0_off32 d0) a + S88x1024.size a ≤ S176x1024.size a
  k0_dev16_lt : ∀ d0 : Dev nD, (k0_dev16 d0) < nD
  k0_off33_inb : ∀ d0 : Dev nD, ∀ a, (k0_off33 d0) a + S1x176x1024.size a ≤ S1x2048x1024.size a
  k0_off34_inb : ∀ d0 : Dev nD, ∀ a, (k0_off34 d0) a + S176x1024.size a ≤ S352x1024.size a
  k0_off35_inb : ∀ d0 : Dev nD, ∀ a, (k0_off35 d0) a + S1x80x1024.size a ≤ S1x2048x1024.size a
  k0_off36_inb : ∀ d0 : Dev nD, ∀ a, (k0_off36 d0) a + S80x1024.size a ≤ S320x1024.size a
  k0_off37_inb : ∀ d0 : Dev nD, ∀ a, (k0_off37 d0) a + S80x1024.size a ≤ S160x1024.size a
  k0_dev17_lt : ∀ d0 : Dev nD, (k0_dev17 d0) < nD
  k0_off38_inb : ∀ d0 : Dev nD, ∀ a, (k0_off38 d0) a + S1x80x1024.size a ≤ S1x2048x1024.size a
  k0_off39_inb : ∀ d0 : Dev nD, ∀ a, (k0_off39 d0) a + S80x1024.size a ≤ S320x1024.size a
  k0_off40_inb : ∀ d0 : Dev nD, ∀ a, (k0_off40 d0) a + S80x1024.size a ≤ S160x1024.size a
  k0_dev18_lt : ∀ d0 : Dev nD, (k0_dev18 d0) < nD
  k0_off41_inb : ∀ d0 : Dev nD, ∀ a, (k0_off41 d0) a + S1x160x1024.size a ≤ S1x2048x1024.size a
  k0_off42_inb : ∀ d0 : Dev nD, ∀ a, (k0_off42 d0) a + S160x1024.size a ≤ S320x1024.size a
  k0_off43_inb : ∀ d0 : Dev nD, ∀ a, (k0_off43 d0) a + S88x1024.size a ≤ S352x1024.size a
  k0_off44_inb : ∀ d0 : Dev nD, ∀ a, (k0_off44 d0) a + S88x1024.size a ≤ S176x1024.size a
  k0_off45_inb : ∀ d0 : Dev nD, ∀ a, (k0_off45 d0) a + S88x1024.size a ≤ S352x1024.size a
  k0_dev19_lt : ∀ d0 : Dev nD, (k0_dev19 d0) < nD
  k0_off46_inb : ∀ d0 : Dev nD, ∀ a, (k0_off46 d0) a + S88x1024.size a ≤ S352x1024.size a
  k0_off47_inb : ∀ d0 : Dev nD, ∀ a, (k0_off47 d0) a + S88x1024.size a ≤ S176x1024.size a
  k0_off48_inb : ∀ d0 : Dev nD, ∀ a, (k0_off48 d0) a + S88x1024.size a ≤ S352x1024.size a
  k0_off49_inb : ∀ d0 : Dev nD, ∀ a, (k0_off49 d0) a + S88x1024.size a ≤ S176x1024.size a
  k0_off50_inb : ∀ d0 : Dev nD, ∀ a, (k0_off50 d0) a + S88x1024.size a ≤ S352x1024.size a
  k0_dev20_lt : ∀ d0 : Dev nD, (k0_dev20 d0) < nD
  k0_off51_inb : ∀ d0 : Dev nD, ∀ a, (k0_off51 d0) a + S88x1024.size a ≤ S352x1024.size a
  k0_off52_inb : ∀ d0 : Dev nD, ∀ a, (k0_off52 d0) a + S88x1024.size a ≤ S176x1024.size a
  k0_off53_inb : ∀ d0 : Dev nD, ∀ a, (k0_off53 d0) a + S80x1024.size a ≤ S320x1024.size a
  k0_off54_inb : ∀ d0 : Dev nD, ∀ a, (k0_off54 d0) a + S80x1024.size a ≤ S160x1024.size a
  k0_off55_inb : ∀ d0 : Dev nD, ∀ a, (k0_off55 d0) a + S80x1024.size a ≤ S320x1024.size a
  k0_dev21_lt : ∀ d0 : Dev nD, (k0_dev21 d0) < nD
  k0_off56_inb : ∀ d0 : Dev nD, ∀ a, (k0_off56 d0) a + S80x1024.size a ≤ S320x1024.size a
  k0_off57_inb : ∀ d0 : Dev nD, ∀ a, (k0_off57 d0) a + S80x1024.size a ≤ S160x1024.size a
  k0_off58_inb : ∀ d0 : Dev nD, ∀ a, (k0_off58 d0) a + S88x1024.size a ≤ S2048x1024.size a
  k0_off59_inb : ∀ d0 : Dev nD, ∀ a, (k0_off59 d0) a + S88x1024.size a ≤ S2048x1024.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off60_inb : ∀ d0 : Dev nD, ∀ a, (k0_off60 d0) a + S88x1024.size a ≤ S2048x1024.size a
  k0_off61_inb : ∀ d0 : Dev nD, ∀ a, (k0_off61 d0) a + S88x1024.size a ≤ S2048x1024.size a
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off62_inb : ∀ d0 : Dev nD, ∀ a, (k0_off62 d0) a + S80x1024.size a ≤ S2048x1024.size a
  k0_off63_inb : ∀ d0 : Dev nD, ∀ a, (k0_off63 d0) a + S80x1024.size a ≤ S2048x1024.size a
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off64_inb : ∀ d0 : Dev nD, ∀ a, (k0_off64 d0) a + S88x1024.size a ≤ S2048x1024.size a
  k0_dev31_lt : ∀ d0 : Dev nD, (k0_dev31 d0) < nD
  k0_dev32_lt : ∀ d0 : Dev nD, (k0_dev32 d0) < nD
  k0_off65_inb : ∀ d0 : Dev nD, ∀ a, (k0_off65 d0) a + S88x1024.size a ≤ S2048x1024.size a
  k0_dev33_lt : ∀ d0 : Dev nD, (k0_dev33 d0) < nD
  k0_dev34_lt : ∀ d0 : Dev nD, (k0_dev34 d0) < nD
  k0_off66_inb : ∀ d0 : Dev nD, ∀ a, (k0_off66 d0) a + S80x1024.size a ≤ S2048x1024.size a
  k0_dev35_lt : ∀ d0 : Dev nD, (k0_dev35 d0) < nD
  k0_dev36_lt : ∀ d0 : Dev nD, (k0_dev36 d0) < nD
  k0_off67_inb : ∀ d0 : Dev nD, ∀ a, (k0_off67 d0) a + S176x1024.size a ≤ S2048x1024.size a
  k0_dev37_lt : ∀ d0 : Dev nD, (k0_dev37 d0) < nD
  k0_off68_inb : ∀ d0 : Dev nD, ∀ a, (k0_off68 d0) a + S176x1024.size a ≤ S2048x1024.size a
  k0_dev38_lt : ∀ d0 : Dev nD, (k0_dev38 d0) < nD
  k0_off69_inb : ∀ d0 : Dev nD, ∀ a, (k0_off69 d0) a + S160x1024.size a ≤ S2048x1024.size a
  k0_dev39_lt : ∀ d0 : Dev nD, (k0_dev39 d0) < nD
  hstage0_0 : ∀ j, (stage0_0 j).IsWhole
  hstage0_1 : ∀ j, (stage0_1 j).IsWhole

variable [Facts₀]

abbrev cc0_scratch12 : DmaSems sig S36 := SemArray.consecutive 2 S36 hcc0_scratch12
abbrev cc0_scratch13 : DmaSems sig S36 := SemArray.consecutive 38 S36 hcc0_scratch13

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S_, .f32⟩
  | .hbm, ⟨2, _⟩ => ⟨S2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S8x2048x1024_S2048x1024_d0 : S8x2048x1024.ReducesTo [0] S2048x1024
  h_S_ : 0 < S_.numel

variable [Facts₀]

class Facts : Prop extends Facts₀ where

variable [Facts]
-- ==== Proof.RefSide.lean ====
import proofs.«901104_g7700000000001105_dist_treered_v7x_i8_m2048_n1024_f32_1_alg».proof.Defs
import proofs.«901104_g7700000000001105_dist_treered_v7x_i8_m2048_n1024_f32_1_alg».proof.Proof.Gen.ReferenceIdeal
import proofs.«901104_g7700000000001105_dist_treered_v7x_i8_m2048_n1024_f32_1_alg».proof.Proof.Gen.Pre_finite_inputs_ReferenceIdeal
import proofs.«901104_g7700000000001105_dist_treered_v7x_i8_m2048_n1024_f32_1_alg».proof.Proof.Gen.ReferenceIdeal.Run
import proofs.«901104_g7700000000001105_dist_treered_v7x_i8_m2048_n1024_f32_1_alg».proof.Proof.Gen.ReferenceIdeal.Read
import Idealize.ShloMosaic.Lib.Layout
import Idealize.ShloMosaic.Lib.ValueIdx
import Idealize.ShloMosaic.PureOps.Ideal.Laws
noncomputable section
open Idealize.ShloMosaic Idealize.ShloMosaic.TcCoe Idealize.SL.Sem Idealize.ShloMosaic.ValueIdx
namespace Cert.ReferenceIdeal.RefValue
open Cert.ReferenceIdeal Cert.ReferenceIdeal.Gen Cert.ReferenceIdeal.Read
def devSum (xs : Dev 8 → Vec Ideal Cert.KernelIdeal.S1x2048x1024 .f32) : Vec Ideal S2048x1024 .f32 :=
  fun i => ∑ d : Fin 8, xs d (ix3 (0 : Fin 1) (i 0 : Fin 2048) (i 1 : Fin 1024))
theorem devSum_apply (xs : Dev 8 → Vec Ideal Cert.KernelIdeal.S1x2048x1024 .f32) (i : S2048x1024.Idx) :
    devSum xs i = ∑ d : Fin 8, xs d (ix3 (0 : Fin 1) (i 0 : Fin 2048) (i 1 : Fin 1024)) := rfl
theorem block_idx (h : Layout.Tiles ⟨3, ![1, 2048, 1024]⟩ ⟨3, ![8, 2048, 1024]⟩ 0 8) (d : Fin 8) (i : S2048x1024.Idx) :
    h.idx d (ix3 (0 : Fin 1) (i 0 : Fin 2048) (i 1 : Fin 1024)) = idx_main_v0 i d := by
  funext a
  apply Fin.ext
  match a with
  | ⟨0, _⟩ => show d.val * 1 + 0 = d.val; omega
  | ⟨1, _⟩ => rfl
  | ⟨2, _⟩ => rfl
theorem reduce_eq_devSum (X : Vec Ideal S8x2048x1024 .f32) :
    Host.reduceAdd (F := Ideal) X (constant (F := Ideal) S_ .f32 0x00000000#32) reducesTo_S8x2048x1024_S2048x1024_d0 h_S_
      = devSum (fun d => Layout.block ⟨3, ![1, 2048, 1024]⟩ ⟨3, ![8, 2048, 1024]⟩ 0 8 d X) := by
  rw [val_main_v0_eq]
  funext i
  rw [val_main_v0_apply, val_main_cst_apply, devSum_apply]
  simp only [Layout.block_apply, block_idx]
  show Ideal.ofBits .f32 0x00000000#32 + _ = _
  rw [Ideal.ofBits_zero_f32, zero_add]
theorem ref_run (m' : (ℓ : Loc nD τ sig) → Buf (Elt Ideal) ℓ) (g' : Dev nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0)
          = devSum (fun d => Layout.block ⟨3, ![1, 2048, 1024]⟩ ⟨3, ![8, 2048, 1024]⟩ 0 8 d
              (m' (((0 : Dev Cert.ReferenceIdeal.nD).tc : Thread Cert.ReferenceIdeal.nD Cert.ReferenceIdeal.τ).loc Cert.ReferenceIdeal.main_arg0)))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (reduce_eq_devSum _), (h 0).2⟩)
    (Cert.ReferenceIdeal.Value.run (F := Ideal) m' g')
theorem frame_ri : Cert.frame_ReferenceIdeal := fun m ρ _ =>
  (θ_run Cert.ReferenceIdeal.defs _ _).mono (fun _ h c => (h c).2) (Cert.ReferenceIdeal.Value.run (F := Ideal) m ρ)
end Cert.ReferenceIdeal.RefValue
end
-- ==== Proof.Views.lean ====
import proofs.«901104_g7700000000001105_dist_treered_v7x_i8_m2048_n1024_f32_1_alg».proof.Proof.Gen.KernelIdeal
namespace Cert.KernelIdeal.TR
open Cert.KernelIdeal Cert.KernelIdeal.Gen Idealize.ShloMosaic
/-- The program's whole buffers, the unit rectangles at its own offset functions (one per function: its shape and size are that function's), and the cells of its two semaphore arrays, each named once. -/
abbrev b0 : Memref sig .tc .vmem S352x1024 .f32 := Memref.whole cc0_scratch0
abbrev b1 : Memref sig .tc .vmem S352x1024 .f32 := Memref.whole cc0_scratch1
abbrev b2 : Memref sig .tc .vmem S176x1024 .f32 := Memref.whole cc0_scratch2
abbrev b3 : Memref sig .tc .vmem S88x1024 .f32 := Memref.whole cc0_scratch3
abbrev b4 : Memref sig .tc .vmem S352x1024 .f32 := Memref.whole cc0_scratch4
abbrev b5 : Memref sig .tc .vmem S352x1024 .f32 := Memref.whole cc0_scratch5
abbrev b6 : Memref sig .tc .vmem S176x1024 .f32 := Memref.whole cc0_scratch6
abbrev b7 : Memref sig .tc .vmem S88x1024 .f32 := Memref.whole cc0_scratch7
abbrev b8 : Memref sig .tc .vmem S320x1024 .f32 := Memref.whole cc0_scratch8
abbrev b9 : Memref sig .tc .vmem S320x1024 .f32 := Memref.whole cc0_scratch9
abbrev b10 : Memref sig .tc .vmem S160x1024 .f32 := Memref.whole cc0_scratch10
abbrev b11 : Memref sig .tc .vmem S80x1024 .f32 := Memref.whole cc0_scratch11
abbrev bIn : Memref sig .tc .vmem S1x2048x1024 .f32 := Memref.whole cc0_stg0_0
abbrev bOut : Memref sig .tc .vmem S2048x1024 .f32 := Memref.whole cc0_stg1_0
abbrev uW88 : Rect S88x1024 := Rect.unit ![0, 0] S88x1024.size inb_S88x1024_S88x1024_0_0
abbrev uW80 : Rect S80x1024 := Rect.unit ![0, 0] S80x1024.size inb_S80x1024_S80x1024_0_0
abbrev u1 (c : Dev nD) : Rect S352x1024 := Rect.unit (k0_off1 c) S88x1024.size (k0_off1_inb c)
abbrev u2 (c : Dev nD) : Rect S1x2048x1024 := Rect.unit (k0_off2 c) S1x88x1024.size (k0_off2_inb c)
abbrev u3 (c : Dev nD) : Rect S352x1024 := Rect.unit (k0_off3 c) S88x1024.size (k0_off3_inb c)
abbrev u4 (c : Dev nD) : Rect S1x2048x1024 := Rect.unit (k0_off4 c) S1x88x1024.size (k0_off4_inb c)
abbrev u5 (c : Dev nD) : Rect S352x1024 := Rect.unit (k0_off5 c) S176x1024.size (k0_off5_inb c)
abbrev u6 (c : Dev nD) : Rect S1x2048x1024 := Rect.unit (k0_off6 c) S1x176x1024.size (k0_off6_inb c)
abbrev u7 (c : Dev nD) : Rect S352x1024 := Rect.unit (k0_off7 c) S88x1024.size (k0_off7_inb c)
abbrev u8 (c : Dev nD) : Rect S1x2048x1024 := Rect.unit (k0_off8 c) S1x88x1024.size (k0_off8_inb c)
abbrev u9 (c : Dev nD) : Rect S352x1024 := Rect.unit (k0_off9 c) S88x1024.size (k0_off9_inb c)
abbrev u10 (c : Dev nD) : Rect S1x2048x1024 := Rect.unit (k0_off10 c) S1x88x1024.size (k0_off10_inb c)
abbrev u11 (c : Dev nD) : Rect S352x1024 := Rect.unit (k0_off11 c) S176x1024.size (k0_off11_inb c)
abbrev u12 (c : Dev nD) : Rect S1x2048x1024 := Rect.unit (k0_off12 c) S1x176x1024.size (k0_off12_inb c)
abbrev u13 (c : Dev nD) : Rect S320x1024 := Rect.unit (k0_off13 c) S80x1024.size (k0_off13_inb c)
abbrev u14 (c : Dev nD) : Rect S1x2048x1024 := Rect.unit (k0_off14 c) S1x80x1024.size (k0_off14_inb c)
abbrev u15 (c : Dev nD) : Rect S320x1024 := Rect.unit (k0_off15 c) S80x1024.size (k0_off15_inb c)
abbrev u16 (c : Dev nD) : Rect S1x2048x1024 := Rect.unit (k0_off16 c) S1x80x1024.size (k0_off16_inb c)
abbrev u17 (c : Dev nD) : Rect S320x1024 := Rect.unit (k0_off17 c) S160x1024.size (k0_off17_inb c)
abbrev u18 (c : Dev nD) : Rect S1x2048x1024 := Rect.unit (k0_off18 c) S1x160x1024.size (k0_off18_inb c)
abbrev u19 (c : Dev nD) : Rect S1x2048x1024 := Rect.unit (k0_off19 c) S1x88x1024.size (k0_off19_inb c)
abbrev u20 (c : Dev nD) : Rect S352x1024 := Rect.unit (k0_off20 c) S88x1024.size (k0_off20_inb c)
abbrev u21 (c : Dev nD) : Rect S176x1024 := Rect.unit (k0_off21 c) S88x1024.size (k0_off21_inb c)
abbrev u22 (c : Dev nD) : Rect S1x2048x1024 := Rect.unit (k0_off22 c) S1x88x1024.size (k0_off22_inb c)
abbrev u23 (c : Dev nD) : Rect S352x1024 := Rect.unit (k0_off23 c) S88x1024.size (k0_off23_inb c)
abbrev u24 (c : Dev nD) : Rect S176x1024 := Rect.unit (k0_off24 c) S88x1024.size (k0_off24_inb c)
abbrev u25 (c : Dev nD) : Rect S1x2048x1024 := Rect.unit (k0_off25 c) S1x176x1024.size (k0_off25_inb c)
abbrev u26 (c : Dev nD) : Rect S352x1024 := Rect.unit (k0_off26 c) S176x1024.size (k0_off26_inb c)
abbrev u27 (c : Dev nD) : Rect S1x2048x1024 := Rect.unit (k0_off27 c) S1x88x1024.size (k0_off27_inb c)
abbrev u28 (c : Dev nD) : Rect S352x1024 := Rect.unit (k0_off28 c) S88x1024.size (k0_off28_inb c)
abbrev u29 (c : Dev nD) : Rect S176x1024 := Rect.unit (k0_off29 c) S88x1024.size (k0_off29_inb c)
abbrev u30 (c : Dev nD) : Rect S1x2048x1024 := Rect.unit (k0_off30 c) S1x88x1024.size (k0_off30_inb c)
abbrev u31 (c : Dev nD) : Rect S352x1024 := Rect.unit (k0_off31 c) S88x1024.size (k0_off31_inb c)
abbrev u32 (c : Dev nD) : Rect S176x1024 := Rect.unit (k0_off32 c) S88x1024.size (k0_off32_inb c)
abbrev u33 (c : Dev nD) : Rect S1x2048x1024 := Rect.unit (k0_off33 c) S1x176x1024.size (k0_off33_inb c)
abbrev u34 (c : Dev nD) : Rect S352x1024 := Rect.unit (k0_off34 c) S176x1024.size (k0_off34_inb c)
abbrev u35 (c : Dev nD) : Rect S1x2048x1024 := Rect.unit (k0_off35 c) S1x80x1024.size (k0_off35_inb c)
abbrev u36 (c : Dev nD) : Rect S320x1024 := Rect.unit (k0_off36 c) S80x1024.size (k0_off36_inb c)
abbrev u37 (c : Dev nD) : Rect S160x1024 := Rect.unit (k0_off37 c) S80x1024.size (k0_off37_inb c)
abbrev u38 (c : Dev nD) : Rect S1x2048x1024 := Rect.unit (k0_off38 c) S1x80x1024.size (k0_off38_inb c)
abbrev u39 (c : Dev nD) : Rect S320x1024 := Rect.unit (k0_off39 c) S80x1024.size (k0_off39_inb c)
abbrev u40 (c : Dev nD) : Rect S160x1024 := Rect.unit (k0_off40 c) S80x1024.size (k0_off40_inb c)
abbrev u41 (c : Dev nD) : Rect S1x2048x1024 := Rect.unit (k0_off41 c) S1x160x1024.size (k0_off41_inb c)
abbrev u42 (c : Dev nD) : Rect S320x1024 := Rect.unit (k0_off42 c) S160x1024.size (k0_off42_inb c)
abbrev u43 (c : Dev nD) : Rect S352x1024 := Rect.unit (k0_off43 c) S88x1024.size (k0_off43_inb c)
abbrev u44 (c : Dev nD) : Rect S176x1024 := Rect.unit (k0_off44 c) S88x1024.size (k0_off44_inb c)
abbrev u45 (c : Dev nD) : Rect S352x1024 := Rect.unit (k0_off45 c) S88x1024.size (k0_off45_inb c)
abbrev u46 (c : Dev nD) : Rect S352x1024 := Rect.unit (k0_off46 c) S88x1024.size (k0_off46_inb c)
abbrev u47 (c : Dev nD) : Rect S176x1024 := Rect.unit (k0_off47 c) S88x1024.size (k0_off47_inb c)
abbrev u48 (c : Dev nD) : Rect S352x1024 := Rect.unit (k0_off48 c) S88x1024.size (k0_off48_inb c)
abbrev u49 (c : Dev nD) : Rect S176x1024 := Rect.unit (k0_off49 c) S88x1024.size (k0_off49_inb c)
abbrev u50 (c : Dev nD) : Rect S352x1024 := Rect.unit (k0_off50 c) S88x1024.size (k0_off50_inb c)
abbrev u51 (c : Dev nD) : Rect S352x1024 := Rect.unit (k0_off51 c) S88x1024.size (k0_off51_inb c)
abbrev u52 (c : Dev nD) : Rect S176x1024 := Rect.unit (k0_off52 c) S88x1024.size (k0_off52_inb c)
abbrev u53 (c : Dev nD) : Rect S320x1024 := Rect.unit (k0_off53 c) S80x1024.size (k0_off53_inb c)
abbrev u54 (c : Dev nD) : Rect S160x1024 := Rect.unit (k0_off54 c) S80x1024.size (k0_off54_inb c)
abbrev u55 (c : Dev nD) : Rect S320x1024 := Rect.unit (k0_off55 c) S80x1024.size (k0_off55_inb c)
abbrev u56 (c : Dev nD) : Rect S320x1024 := Rect.unit (k0_off56 c) S80x1024.size (k0_off56_inb c)
abbrev u57 (c : Dev nD) : Rect S160x1024 := Rect.unit (k0_off57 c) S80x1024.size (k0_off57_inb c)
abbrev u58 (c : Dev nD) : Rect S2048x1024 := Rect.unit (k0_off58 c) S88x1024.size (k0_off58_inb c)
abbrev u59 (c : Dev nD) : Rect S2048x1024 := Rect.unit (k0_off59 c) S88x1024.size (k0_off59_inb c)
abbrev u60 (c : Dev nD) : Rect S2048x1024 := Rect.unit (k0_off60 c) S88x1024.size (k0_off60_inb c)
abbrev u61 (c : Dev nD) : Rect S2048x1024 := Rect.unit (k0_off61 c) S88x1024.size (k0_off61_inb c)
abbrev u62 (c : Dev nD) : Rect S2048x1024 := Rect.unit (k0_off62 c) S80x1024.size (k0_off62_inb c)
abbrev u63 (c : Dev nD) : Rect S2048x1024 := Rect.unit (k0_off63 c) S80x1024.size (k0_off63_inb c)
abbrev u64 (c : Dev nD) : Rect S2048x1024 := Rect.unit (k0_off64 c) S88x1024.size (k0_off64_inb c)
abbrev u65 (c : Dev nD) : Rect S2048x1024 := Rect.unit (k0_off65 c) S88x1024.size (k0_off65_inb c)
abbrev u66 (c : Dev nD) : Rect S2048x1024 := Rect.unit (k0_off66 c) S80x1024.size (k0_off66_inb c)
abbrev u67 (c : Dev nD) : Rect S2048x1024 := Rect.unit (k0_off67 c) S176x1024.size (k0_off67_inb c)
abbrev u68 (c : Dev nD) : Rect S2048x1024 := Rect.unit (k0_off68 c) S176x1024.size (k0_off68_inb c)
abbrev u69 (c : Dev nD) : Rect S2048x1024 := Rect.unit (k0_off69 c) S160x1024.size (k0_off69_inb c)
abbrev sS (off : Fin S36.rank → ℕ) (h : ∀ a, off a + S1.size a ≤ S36.size a) : DmaSem sig :=
  ((cc0_scratch12.slice (Rect.unit (s := S36) off S1.size h)).squeeze S_ squeezes_S1_S_).sem
abbrev sR (off : Fin S36.rank → ℕ) (h : ∀ a, off a + S1.size a ≤ S36.size a) : DmaSem sig :=
  ((cc0_scratch13.slice (Rect.unit (s := S36) off S1.size h)).squeeze S_ squeezes_S1_S_).sem
end Cert.KernelIdeal.TR
-- ==== Proof.Mesh.lean ====
import proofs.«901104_g7700000000001105_dist_treered_v7x_i8_m2048_n1024_f32_1_alg».proof.Proof.Views
import proofs.«901104_g7700000000001105_dist_treered_v7x_i8_m2048_n1024_f32_1_alg».proof.Proof.Gen.KernelIdeal
set_option Elab.async false
namespace Cert.KernelIdeal.TR
open Cert.KernelIdeal Cert.KernelIdeal.Gen Idealize.ShloMosaic
def mask (a : Fin 3) : Nat :=
  match a with
  | 0 => 1
  | 1 => 3
  | 2 => 4
theorem mask_lt (a : Fin 3) : mask a < 2 ^ 3 := by revert a; decide
def flip (a : Fin 3) (c : Dev nD) : Dev nD :=
  ⟨c.val ^^^ mask a, Nat.xor_lt_two_pow (n := 3) c.isLt (mask_lt a)⟩
@[simp] theorem flip_val (a : Fin 3) (c : Dev nD) : (flip a c).val = c.val ^^^ mask a := rfl
@[simp] theorem flip_flip (a : Fin 3) (c : Dev nD) : flip a (flip a c) = c := by revert a c; decide
theorem flip_ne_self (a : Fin 3) (c : Dev nD) : flip a c ≠ c := by revert a c; decide
theorem self_ne_flip (a : Fin 3) (c : Dev nD) : c ≠ flip a c := fun h => flip_ne_self a c h.symm
theorem flip_ne_flip (a a' : Fin 3) (h : a ≠ a') (c : Dev nD) : flip a c ≠ flip a' c := by
  revert a a' c; decide
theorem flip_inj (a : Fin 3) {c d : Dev nD} (h : flip a c = flip a d) : c = d := by
  rw [← flip_flip a c, ← flip_flip a d, h]
theorem flip_eq_iff (a : Fin 3) (c d : Dev nD) : flip a c = d ↔ c = flip a d :=
  ⟨fun h => by rw [← h, flip_flip], fun h => by rw [h, flip_flip]⟩
theorem flip_comm (a a' : Fin 3) (c : Dev nD) : flip a (flip a' c) = flip a' (flip a c) := by
  revert a a' c; decide
def flipE (a : Fin 3) : Dev nD ≃ Dev nD where
  toFun := flip a
  invFun := flip a
  left_inv := flip_flip a
  right_inv := flip_flip a
@[simp] theorem flipE_apply (a : Fin 3) (c : Dev nD) : flipE a c = flip a c := rfl
@[simp] theorem flipE_symm_apply (a : Fin 3) (c : Dev nD) : (flipE a).symm c = flip a c := rfl
def bit (a : Fin 3) (c : Dev nD) : Nat :=
  match a with
  | 0 => (c.val % 4 % 2) ^^^ (c.val % 4 / 2)
  | 1 => c.val % 4 / 2
  | 2 => c.val / 4
theorem bit_zero (c : Dev nD) : bit 0 c = (c.val % 4 % 2) ^^^ (c.val % 4 / 2) := rfl
theorem bit_one (c : Dev nD) : bit 1 c = c.val % 4 / 2 := rfl
theorem bit_two (c : Dev nD) : bit 2 c = c.val / 4 := rfl
theorem bit_le_one (a : Fin 3) (c : Dev nD) : bit a c ≤ 1 := by revert a c; decide
theorem bit_eq_zero_or_one (a : Fin 3) (c : Dev nD) : bit a c = 0 ∨ bit a c = 1 := by revert a c; decide
theorem bit_flip_same (a : Fin 3) (c : Dev nD) : bit a (flip a c) = 1 - bit a c := by revert a c; decide
theorem bit_flip_other (a a' : Fin 3) (h : a ≠ a') (c : Dev nD) : bit a' (flip a c) = bit a' c := by
  revert a a' c; decide
theorem val_eq_bits (c : Dev nD) : c.val = 4 * bit 2 c + 2 * bit 1 c + (bit 0 c ^^^ bit 1 c) := by
  revert c; decide
theorem eq_of_bits {c d : Dev nD} (h : ∀ a, bit a c = bit a d) : c = d := by
  revert c d; decide
theorem dev1_val : ∀ c : Dev nD, k0_dev1 c = (flip 0 c).val := by decide +kernel
theorem dev2_val : ∀ c : Dev nD, k0_dev2 c = (flip 1 c).val := by decide +kernel
theorem dev3_val : ∀ c : Dev nD, k0_dev3 c = (flip 2 c).val := by decide +kernel
theorem dev4_val : ∀ c : Dev nD, k0_dev4 c = (flip 2 c).val := by decide +kernel
theorem dev5_val : ∀ c : Dev nD, k0_dev5 c = (flip 2 c).val := by decide +kernel
theorem dev6_val : ∀ c : Dev nD, k0_dev6 c = (flip 2 c).val := by decide +kernel
theorem dev7_val : ∀ c : Dev nD, k0_dev7 c = (flip 1 c).val := by decide +kernel
theorem dev8_val : ∀ c : Dev nD, k0_dev8 c = (flip 1 c).val := by decide +kernel
theorem dev9_val : ∀ c : Dev nD, k0_dev9 c = (flip 1 c).val := by decide +kernel
theorem dev10_val : ∀ c : Dev nD, k0_dev10 c = (flip 0 c).val := by decide +kernel
theorem dev11_val : ∀ c : Dev nD, k0_dev11 c = (flip 0 c).val := by decide +kernel
theorem dev12_val : ∀ c : Dev nD, k0_dev12 c = (flip 0 c).val := by decide +kernel
theorem dev13_val : ∀ c : Dev nD, k0_dev13 c = (flip 1 c).val := by decide +kernel
theorem dev14_val : ∀ c : Dev nD, k0_dev14 c = (flip 1 c).val := by decide +kernel
theorem dev15_val : ∀ c : Dev nD, k0_dev15 c = (flip 0 c).val := by decide +kernel
theorem dev16_val : ∀ c : Dev nD, k0_dev16 c = (flip 0 c).val := by decide +kernel
theorem dev17_val : ∀ c : Dev nD, k0_dev17 c = (flip 2 c).val := by decide +kernel
theorem dev18_val : ∀ c : Dev nD, k0_dev18 c = (flip 2 c).val := by decide +kernel
theorem dev19_val : ∀ c : Dev nD, k0_dev19 c = (flip 0 c).val := by decide +kernel
theorem dev20_val : ∀ c : Dev nD, k0_dev20 c = (flip 2 c).val := by decide +kernel
theorem dev21_val : ∀ c : Dev nD, k0_dev21 c = (flip 1 c).val := by decide +kernel
theorem dev22_val : ∀ c : Dev nD, k0_dev22 c = (flip 0 c).val := by decide +kernel
theorem dev23_val : ∀ c : Dev nD, k0_dev23 c = (flip 1 c).val := by decide +kernel
theorem dev24_val : ∀ c : Dev nD, k0_dev24 c = (flip 2 c).val := by decide +kernel
theorem dev25_val : ∀ c : Dev nD, k0_dev25 c = (flip 2 c).val := by decide +kernel
theorem dev26_val : ∀ c : Dev nD, k0_dev26 c = (flip 0 c).val := by decide +kernel
theorem dev27_val : ∀ c : Dev nD, k0_dev27 c = (flip 1 c).val := by decide +kernel
theorem dev28_val : ∀ c : Dev nD, k0_dev28 c = (flip 1 c).val := by decide +kernel
theorem dev29_val : ∀ c : Dev nD, k0_dev29 c = (flip 2 c).val := by decide +kernel
theorem dev30_val : ∀ c : Dev nD, k0_dev30 c = (flip 0 c).val := by decide +kernel
theorem dev31_val : ∀ c : Dev nD, k0_dev31 c = (flip 1 c).val := by decide +kernel
theorem dev32_val : ∀ c : Dev nD, k0_dev32 c = (flip 2 c).val := by decide +kernel
theorem dev33_val : ∀ c : Dev nD, k0_dev33 c = (flip 0 c).val := by decide +kernel
theorem dev34_val : ∀ c : Dev nD, k0_dev34 c = (flip 1 c).val := by decide +kernel
theorem dev35_val : ∀ c : Dev nD, k0_dev35 c = (flip 2 c).val := by decide +kernel
theorem dev36_val : ∀ c : Dev nD, k0_dev36 c = (flip 0 c).val := by decide +kernel
theorem dev37_val : ∀ c : Dev nD, k0_dev37 c = (flip 2 c).val := by decide +kernel
theorem dev38_val : ∀ c : Dev nD, k0_dev38 c = (flip 1 c).val := by decide +kernel
theorem dev39_val : ∀ c : Dev nD, k0_dev39 c = (flip 0 c).val := by decide +kernel
@[sl_canon] theorem dev1_eq (c : Dev nD) (h : k0_dev1 c < nD) : (⟨k0_dev1 c, h⟩ : Dev nD) = flip 0 c := Fin.ext (dev1_val c)
@[sl_canon] theorem dev2_eq (c : Dev nD) (h : k0_dev2 c < nD) : (⟨k0_dev2 c, h⟩ : Dev nD) = flip 1 c := Fin.ext (dev2_val c)
@[sl_canon] theorem dev3_eq (c : Dev nD) (h : k0_dev3 c < nD) : (⟨k0_dev3 c, h⟩ : Dev nD) = flip 2 c := Fin.ext (dev3_val c)
@[sl_canon] theorem dev4_eq (c : Dev nD) (h : k0_dev4 c < nD) : (⟨k0_dev4 c, h⟩ : Dev nD) = flip 2 c := Fin.ext (dev4_val c)
@[sl_canon] theorem dev5_eq (c : Dev nD) (h : k0_dev5 c < nD) : (⟨k0_dev5 c, h⟩ : Dev nD) = flip 2 c := Fin.ext (dev5_val c)
@[sl_canon] theorem dev6_eq (c : Dev nD) (h : k0_dev6 c < nD) : (⟨k0_dev6 c, h⟩ : Dev nD) = flip 2 c := Fin.ext (dev6_val c)
@[sl_canon] theorem dev7_eq (c : Dev nD) (h : k0_dev7 c < nD) : (⟨k0_dev7 c, h⟩ : Dev nD) = flip 1 c := Fin.ext (dev7_val c)
@[sl_canon] theorem dev8_eq (c : Dev nD) (h : k0_dev8 c < nD) : (⟨k0_dev8 c, h⟩ : Dev nD) = flip 1 c := Fin.ext (dev8_val c)
@[sl_canon] theorem dev9_eq (c : Dev nD) (h : k0_dev9 c < nD) : (⟨k0_dev9 c, h⟩ : Dev nD) = flip 1 c := Fin.ext (dev9_val c)
@[sl_canon] theorem dev10_eq (c : Dev nD) (h : k0_dev10 c < nD) : (⟨k0_dev10 c, h⟩ : Dev nD) = flip 0 c := Fin.ext (dev10_val c)
@[sl_canon] theorem dev11_eq (c : Dev nD) (h : k0_dev11 c < nD) : (⟨k0_dev11 c, h⟩ : Dev nD) = flip 0 c := Fin.ext (dev11_val c)
@[sl_canon] theorem dev12_eq (c : Dev nD) (h : k0_dev12 c < nD) : (⟨k0_dev12 c, h⟩ : Dev nD) = flip 0 c := Fin.ext (dev12_val c)
@[sl_canon] theorem dev13_eq (c : Dev nD) (h : k0_dev13 c < nD) : (⟨k0_dev13 c, h⟩ : Dev nD) = flip 1 c := Fin.ext (dev13_val c)
@[sl_canon] theorem dev14_eq (c : Dev nD) (h : k0_dev14 c < nD) : (⟨k0_dev14 c, h⟩ : Dev nD) = flip 1 c := Fin.ext (dev14_val c)
@[sl_canon] theorem dev15_eq (c : Dev nD) (h : k0_dev15 c < nD) : (⟨k0_dev15 c, h⟩ : Dev nD) = flip 0 c := Fin.ext (dev15_val c)
@[sl_canon] theorem dev16_eq (c : Dev nD) (h : k0_dev16 c < nD) : (⟨k0_dev16 c, h⟩ : Dev nD) = flip 0 c := Fin.ext (dev16_val c)
@[sl_canon] theorem dev17_eq (c : Dev nD) (h : k0_dev17 c < nD) : (⟨k0_dev17 c, h⟩ : Dev nD) = flip 2 c := Fin.ext (dev17_val c)
@[sl_canon] theorem dev18_eq (c : Dev nD) (h : k0_dev18 c < nD) : (⟨k0_dev18 c, h⟩ : Dev nD) = flip 2 c := Fin.ext (dev18_val c)
@[sl_canon] theorem dev19_eq (c : Dev nD) (h : k0_dev19 c < nD) : (⟨k0_dev19 c, h⟩ : Dev nD) = flip 0 c := Fin.ext (dev19_val c)
@[sl_canon] theorem dev20_eq (c : Dev nD) (h : k0_dev20 c < nD) : (⟨k0_dev20 c, h⟩ : Dev nD) = flip 2 c := Fin.ext (dev20_val c)
@[sl_canon] theorem dev21_eq (c : Dev nD) (h : k0_dev21 c < nD) : (⟨k0_dev21 c, h⟩ : Dev nD) = flip 1 c := Fin.ext (dev21_val c)
@[sl_canon] theorem dev22_eq (c : Dev nD) (h : k0_dev22 c < nD) : (⟨k0_dev22 c, h⟩ : Dev nD) = flip 0 c := Fin.ext (dev22_val c)
@[sl_canon] theorem dev23_eq (c : Dev nD) (h : k0_dev23 c < nD) : (⟨k0_dev23 c, h⟩ : Dev nD) = flip 1 c := Fin.ext (dev23_val c)
@[sl_canon] theorem dev24_eq (c : Dev nD) (h : k0_dev24 c < nD) : (⟨k0_dev24 c, h⟩ : Dev nD) = flip 2 c := Fin.ext (dev24_val c)
@[sl_canon] theorem dev25_eq (c : Dev nD) (h : k0_dev25 c < nD) : (⟨k0_dev25 c, h⟩ : Dev nD) = flip 2 c := Fin.ext (dev25_val c)
@[sl_canon] theorem dev26_eq (c : Dev nD) (h : k0_dev26 c < nD) : (⟨k0_dev26 c, h⟩ : Dev nD) = flip 0 c := Fin.ext (dev26_val c)
@[sl_canon] theorem dev27_eq (c : Dev nD) (h : k0_dev27 c < nD) : (⟨k0_dev27 c, h⟩ : Dev nD) = flip 1 c := Fin.ext (dev27_val c)
@[sl_canon] theorem dev28_eq (c : Dev nD) (h : k0_dev28 c < nD) : (⟨k0_dev28 c, h⟩ : Dev nD) = flip 1 c := Fin.ext (dev28_val c)
@[sl_canon] theorem dev29_eq (c : Dev nD) (h : k0_dev29 c < nD) : (⟨k0_dev29 c, h⟩ : Dev nD) = flip 2 c := Fin.ext (dev29_val c)
@[sl_canon] theorem dev30_eq (c : Dev nD) (h : k0_dev30 c < nD) : (⟨k0_dev30 c, h⟩ : Dev nD) = flip 0 c := Fin.ext (dev30_val c)
@[sl_canon] theorem dev31_eq (c : Dev nD) (h : k0_dev31 c < nD) : (⟨k0_dev31 c, h⟩ : Dev nD) = flip 1 c := Fin.ext (dev31_val c)
@[sl_canon] theorem dev32_eq (c : Dev nD) (h : k0_dev32 c < nD) : (⟨k0_dev32 c, h⟩ : Dev nD) = flip 2 c := Fin.ext (dev32_val c)
@[sl_canon] theorem dev33_eq (c : Dev nD) (h : k0_dev33 c < nD) : (⟨k0_dev33 c, h⟩ : Dev nD) = flip 0 c := Fin.ext (dev33_val c)
@[sl_canon] theorem dev34_eq (c : Dev nD) (h : k0_dev34 c < nD) : (⟨k0_dev34 c, h⟩ : Dev nD) = flip 1 c := Fin.ext (dev34_val c)
@[sl_canon] theorem dev35_eq (c : Dev nD) (h : k0_dev35 c < nD) : (⟨k0_dev35 c, h⟩ : Dev nD) = flip 2 c := Fin.ext (dev35_val c)
@[sl_canon] theorem dev36_eq (c : Dev nD) (h : k0_dev36 c < nD) : (⟨k0_dev36 c, h⟩ : Dev nD) = flip 0 c := Fin.ext (dev36_val c)
@[sl_canon] theorem dev37_eq (c : Dev nD) (h : k0_dev37 c < nD) : (⟨k0_dev37 c, h⟩ : Dev nD) = flip 2 c := Fin.ext (dev37_val c)
@[sl_canon] theorem dev38_eq (c : Dev nD) (h : k0_dev38 c < nD) : (⟨k0_dev38 c, h⟩ : Dev nD) = flip 1 c := Fin.ext (dev38_val c)
@[sl_canon] theorem dev39_eq (c : Dev nD) (h : k0_dev39 c < nD) : (⟨k0_dev39 c, h⟩ : Dev nD) = flip 0 c := Fin.ext (dev39_val c)
end Cert.KernelIdeal.TR
-- ==== Proof.Spec.lean ====
import proofs.«901104_g7700000000001105_dist_treered_v7x_i8_m2048_n1024_f32_1_alg».proof.Proof.Gen.KernelIdeal
import proofs.«901104_g7700000000001105_dist_treered_v7x_i8_m2048_n1024_f32_1_alg».proof.Proof.Mesh
import Idealize.ShloMosaic.PureOps.Ideal
import Mathlib.Algebra.BigOperators.Fin
import Mathlib.Algebra.BigOperators.Group.Finset.Defs
import Mathlib.Data.Fintype.Basic
namespace Cert.KernelIdeal.TR
open Idealize.ShloMosaic
def ord (p : Fin 3) : Fin 3 → Fin 3 := ![![2, 1, 0], ![1, 0, 2], ![0, 2, 1]] p
def partOf (g : Fin 2048) : Fin 3 :=
  if g.val < 704 then 0 else if g.val < 1408 then 1 else 2
section Generic
variable {F : FTy → Type} [FloatOps F]
def P1 (p : Fin 3) (xs : Dev nD → Fin 2048 → Fin 1024 → Elt F .f32)
    (c : Dev nD) (g : Fin 2048) (k : Fin 1024) : Elt F .f32 :=
  FloatOps.addf (φ := .f32) (xs c g k) (xs (flip (ord p 0) c) g k)
def P2 (p : Fin 3) (xs : Dev nD → Fin 2048 → Fin 1024 → Elt F .f32)
    (c : Dev nD) (g : Fin 2048) (k : Fin 1024) : Elt F .f32 :=
  FloatOps.addf (φ := .f32) (P1 p xs c g k) (P1 p xs (flip (ord p 1) c) g k)
def P3 (p : Fin 3) (xs : Dev nD → Fin 2048 → Fin 1024 → Elt F .f32)
    (c : Dev nD) (g : Fin 2048) (k : Fin 1024) : Elt F .f32 :=
  FloatOps.addf (φ := .f32) (P2 p xs c g k) (P2 p xs (flip (ord p 2) c) g k)
theorem P2_def (p : Fin 3) (xs : Dev nD → Fin 2048 → Fin 1024 → Elt F .f32)
    (c : Dev nD) (g : Fin 2048) (k : Fin 1024) :
    P2 p xs c g k
      = FloatOps.addf (φ := .f32) (P1 p xs c g k) (P1 p xs (flip (ord p 1) c) g k) := rfl
theorem P3_def (p : Fin 3) (xs : Dev nD → Fin 2048 → Fin 1024 → Elt F .f32)
    (c : Dev nD) (g : Fin 2048) (k : Fin 1024) :
    P3 p xs c g k
      = FloatOps.addf (φ := .f32) (P2 p xs c g k) (P2 p xs (flip (ord p 2) c) g k) := rfl
end Generic
def leaf (p : Fin 3) (c : Dev nD) : Fin 8 → Dev nD :=
  ![c, flip (ord p 0) c,
    flip (ord p 1) c, flip (ord p 0) (flip (ord p 1) c),
    flip (ord p 2) c, flip (ord p 0) (flip (ord p 2) c),
    flip (ord p 1) (flip (ord p 2) c), flip (ord p 0) (flip (ord p 1) (flip (ord p 2) c))]
theorem leaf_bijective : ∀ (p : Fin 3) (c : Dev nD), Function.Bijective (leaf p c) := by
  decide
theorem tree_eq_sum {M : Type*} [AddCommMonoid M] (f : Fin 8 → M) :
    ((f 0 + f 1) + (f 2 + f 3)) + ((f 4 + f 5) + (f 6 + f 7)) = ∑ i, f i := by
  rw [Fin.sum_univ_eight]; simp only [add_assoc]
theorem P3_eq_sum (p : Fin 3) (xs : Dev nD → Fin 2048 → Fin 1024 → Elt Ideal .f32)
    (c : Dev nD) (g : Fin 2048) (k : Fin 1024) :
    P3 (F := Ideal) p xs c g k = ∑ d : Dev nD, xs d g k := by
  have h := tree_eq_sum (fun i => xs (leaf p c i) g k)
  rw [(leaf_bijective p c).sum_comp (fun d => xs d g k)] at h
  exact h
end Cert.KernelIdeal.TR
-- ==== Proof.Sched.lean ====
import proofs.«901104_g7700000000001105_dist_treered_v7x_i8_m2048_n1024_f32_1_alg».proof.Proof.Gen.KernelIdeal
import proofs.«901104_g7700000000001105_dist_treered_v7x_i8_m2048_n1024_f32_1_alg».proof.Proof.Gen.KernelIdeal.Launch
import proofs.«901104_g7700000000001105_dist_treered_v7x_i8_m2048_n1024_f32_1_alg».proof.Proof.Spec
import Idealize.ShloMosaic.Lib.Pipeline.Launch
import Idealize.ShloMosaic.Lib.Pipeline.Kit
import Idealize.ShloMosaic.Lib.Tactic
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UB : Type := URounds (GSem nD τ sig) (Fin 3)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
def axOf (o : Fin 3 → Fin 3) (j : Fin 12) : Fin 3 :=
  match j with
  | 0 => o 0 | 1 => o 0 | 2 => o 0 | 3 => o 1 | 4 => o 1 | 5 => o 2
  | 6 => o 2 | 7 => o 1 | 8 => o 1 | 9 => o 0 | 10 => o 0 | 11 => o 0
def ax (s : Fin 36) : Fin 3 := axOf (ord ⟨s.val / 12, by omega⟩) ⟨s.val % 12, Nat.mod_lt _ (by decide)⟩
abbrev barS : Sem sig := (SemArray.scalar (sig.barrier 0 rfl) : Sems sig S_).sem
theorem nDmaSem_eq : (sig.nDmaSem : ℕ) = 74 := rfl
def sendSem (s : Fin 36) : DmaSem sig := ⟨2 + s.val, by have := s.isLt; have := nDmaSem_eq; omega⟩
def recvSem (s : Fin 36) : DmaSem sig := ⟨38 + s.val, by have := s.isLt; have := nDmaSem_eq; omega⟩
theorem sendSem_val (s : Fin 36) : (sendSem s).val = 2 + s.val := rfl
theorem recvSem_val (s : Fin 36) : (recvSem s).val = 38 + s.val := rfl
abbrev barCell (c : Dev nD) : GSem nD τ sig := ((c : Thread nD τ), .reg barS)
abbrev sendCell (c : Dev nD) (s : Fin 36) : GSem nD τ sig := ((c : Thread nD τ), .dma (sendSem s))
abbrev recvCell (c : Dev nD) (s : Fin 36) : GSem nD τ sig := ((c : Thread nD τ), .dma (recvSem s))
theorem sendSem_ne_recvSem (s s' : Fin 36) : sendSem s ≠ recvSem s' := fun h => by
  have := congrArg Fin.val h; rw [sendSem_val, recvSem_val] at this; have := s.isLt; omega
theorem sendSem_inj : Function.Injective sendSem := fun s s' h => by
  have := congrArg Fin.val h; rw [sendSem_val, sendSem_val] at this; exact Fin.ext (by omega)
theorem recvSem_inj : Function.Injective recvSem := fun s s' h => by
  have := congrArg Fin.val h; rw [recvSem_val, recvSem_val] at this; exact Fin.ext (by omega)
inductive Role where
  | bar | send (s : Fin 36) | recv (s : Fin 36) | other
  deriving DecidableEq
def roleOf : SemLoc sig → Role
  | .reg q => if q = barS then .bar else .other
  | .dma q => if h : 2 ≤ q.val ∧ q.val < 38 then .send ⟨q.val - 2, by omega⟩
              else if h : 38 ≤ q.val ∧ q.val < 74 then .recv ⟨q.val - 38, by omega⟩ else .other
theorem roleOf_bar : roleOf (.reg barS) = .bar := by
  show (if barS = barS then Role.bar else Role.other) = _; exact if_pos rfl
theorem roleOf_send (s : Fin 36) : roleOf (.dma (sendSem s)) = .send s := by
  have hs := s.isLt
  have h : 2 ≤ (sendSem s).val ∧ (sendSem s).val < 38 := by rw [sendSem_val]; omega
  show (if h : 2 ≤ (sendSem s).val ∧ (sendSem s).val < 38 then Role.send ⟨(sendSem s).val - 2, by omega⟩
      else if h : 38 ≤ (sendSem s).val ∧ (sendSem s).val < 74 then Role.recv ⟨(sendSem s).val - 38, by omega⟩ else Role.other) = _
  rw [dif_pos h]; congr 1; exact Fin.ext (by show (sendSem s).val - 2 = s.val; rw [sendSem_val]; omega)
theorem roleOf_recv (s : Fin 36) : roleOf (.dma (recvSem s)) = .recv s := by
  have hs := s.isLt
  have h0 : ¬ (2 ≤ (recvSem s).val ∧ (recvSem s).val < 38) := by rw [recvSem_val]; omega
  have h : 38 ≤ (recvSem s).val ∧ (recvSem s).val < 74 := by rw [recvSem_val]; omega
  show (if h : 2 ≤ (recvSem s).val ∧ (recvSem s).val < 38 then Role.send ⟨(recvSem s).val - 2, by omega⟩
      else if h : 38 ≤ (recvSem s).val ∧ (recvSem s).val < 74 then Role.recv ⟨(recvSem s).val - 38, by omega⟩ else Role.other) = _
  rw [dif_neg h0, dif_pos h]; congr 1; exact Fin.ext (by show (recvSem s).val - 38 = s.val; rw [recvSem_val]; omega)
structure Pay (F : FTy → Type) [FloatOps F] where
  bar : Dev nD → Fin 3 → sProp (MT nD τ sig Unit (Elt F) ℕ UU ℕ)
  send : Dev nD → Fin 36 → sProp (MT nD τ sig Unit (Elt F) ℕ UU ℕ)
  recv : Dev nD → Fin 36 → sProp (MT nD τ sig Unit (Elt F) ℕ UU ℕ)
  cr : Fin 36 → ℕ
  cr_pos : ∀ s, 0 < cr s
  bar_storable : ∀ c a, BI.Storable (upEmb : UEmb _ (MT nD τ sig Unit (Elt F) ℕ UU ℕ)) (bar c a)
  send_storable : ∀ c s, BI.Storable (upEmb : UEmb _ (MT nD τ sig Unit (Elt F) ℕ UU ℕ)) (send c s)
  recv_storable : ∀ c s, BI.Storable (upEmb : UEmb _ (MT nD τ sig Unit (Elt F) ℕ UU ℕ)) (recv c s)
variable (P : Pay F)
def rd : Rounds.Schedule (GSem nD τ sig) (Fin 3) 𝕄 where
  duties g r :=
    if r = 0 ∧ g.1.2 = .tc then
      match roleOf g.2 with
      | .bar => Finset.univ
      | .send _ => {0}
      | .recv _ => {0}
      | .other => ∅
    else ∅
  unitless _ := False
  amount g _ _ :=
    match roleOf g.2 with
    | .send s => P.cr s
    | .recv s => P.cr s
    | _ => 1
  payload g _ d :=
    match roleOf g.2 with
    | .bar => P.bar g.1.1 d
    | .send s => P.send g.1.1 s
    | .recv s => P.recv g.1.1 s
    | .other => iprop(emp)
  amount_pos g _ _ _ := by
    cases h : roleOf g.2 <;> simp only [h] <;> first | exact Nat.one_pos | exact P.cr_pos _
instance rd_payload_storable (g : GSem nD τ sig) (r : ℕ) (d : Fin 3) :
    BI.Storable (upEmb : UEmb _ 𝕄) ((rd P).payload g r d) := by
  show BI.Storable upEmb (match roleOf g.2 with
    | .bar => P.bar g.1.1 d | .send s => P.send g.1.1 s | .recv s => P.recv g.1.1 s | .other => iprop(emp))
  cases roleOf g.2
  · exact P.bar_storable _ _
  · exact P.send_storable _ _
  · exact P.recv_storable _ _
  · infer_instance
section Tables
variable (c : Dev nD) (s : Fin 36)
theorem duties_bar : (rd P).duties (barCell c) 0 = Finset.univ := by
  dsimp only [rd]; rw [if_pos ⟨rfl, rfl⟩, roleOf_bar]
theorem duties_send : (rd P).duties (sendCell c s) 0 = {0} := by
  dsimp only [rd]; rw [if_pos ⟨rfl, rfl⟩, roleOf_send]
theorem duties_recv : (rd P).duties (recvCell c s) 0 = {0} := by
  dsimp only [rd]; rw [if_pos ⟨rfl, rfl⟩, roleOf_recv]
theorem duties_later (g : GSem nD τ sig) : ∀ r, 1 ≤ r → (rd P).duties g r = ∅ :=
  fun r hr => by dsimp only [rd]; rw [if_neg fun h => by omega]
theorem amount_bar (d : Fin 3) : (rd P).amount (barCell c) 0 d = 1 := by dsimp only [rd]; rw [roleOf_bar]
theorem amount_send (d : Fin 3) : (rd P).amount (sendCell c s) 0 d = P.cr s := by dsimp only [rd]; rw [roleOf_send]
theorem amount_recv (d : Fin 3) : (rd P).amount (recvCell c s) 0 d = P.cr s := by dsimp only [rd]; rw [roleOf_recv]
theorem expect_bar : (rd P).expect (barCell c) 0 = 3 := by
  unfold Schedule.expect Schedule.amountOf
  rw [duties_bar, Finset.sum_congr rfl fun d _ => amount_bar P c d, Finset.sum_const, Finset.card_univ, Fintype.card_fin, smul_eq_mul]
theorem expect_send : (rd P).expect (sendCell c s) 0 = P.cr s := by
  unfold Schedule.expect Schedule.amountOf; rw [duties_send, Finset.sum_singleton, amount_send]
theorem expect_recv : (rd P).expect (recvCell c s) 0 = P.cr s := by
  unfold Schedule.expect Schedule.amountOf; rw [duties_recv, Finset.sum_singleton, amount_recv]
theorem payload_bar (a : Fin 3) : (rd P).payload (barCell c) 0 a = P.bar c a := by dsimp only [rd]; rw [roleOf_bar]
theorem payload_send (d : Fin 3) : (rd P).payload (sendCell c s) 0 d = P.send c s := by dsimp only [rd]; rw [roleOf_send]
theorem payload_recv (d : Fin 3) : (rd P).payload (recvCell c s) 0 d = P.recv c s := by dsimp only [rd]; rw [roleOf_recv]
theorem rest_bar : bigSep ((rd P).duties (barCell c) 0 \ ∅) (fun d => (rd P).payload (barCell c) 0 d)
    = iprop(P.bar c 0 ∗ P.bar c 1 ∗ P.bar c 2) := by
  rw [Finset.sdiff_empty, duties_bar, bigSep_univ_eq_bigSepL [(0 : Fin 3), 1, 2] (by decide) (by decide), bigSepL_cons_cons, bigSepL_cons_cons,
    bigSepL_singleton, payload_bar, payload_bar, payload_bar]
  rfl
theorem rest_send : bigSep ((rd P).duties (sendCell c s) 0 \ ∅) (fun d => (rd P).payload (sendCell c s) 0 d) = P.send c s := by
  rw [Finset.sdiff_empty, duties_send, bigSep_singleton, payload_send]
theorem rest_recv : bigSep ((rd P).duties (recvCell c s) 0 \ ∅) (fun d => (rd P).payload (recvCell c s) 0 d) = P.recv c s := by
  rw [Finset.sdiff_empty, duties_recv, bigSep_singleton, payload_recv]
end Tables
end Cert.KernelIdeal.TR
end
-- ==== Proof.Ghost.lean ====
import proofs.«901104_g7700000000001105_dist_treered_v7x_i8_m2048_n1024_f32_1_alg».proof.Proof.Sched
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (P : Pay F)
def progList : List (Fin 36) :=
  [0, 1, 2, 12, 13, 14, 24, 25, 26,
   3, 4, 15, 16, 27, 28,
   5, 17, 29,
   6, 7, 9, 18, 19, 21, 30, 31, 33,
   8, 10, 20, 22, 32, 34,
   11, 23, 35]
def pos (s : Fin 36) : ℕ := progList.idxOf s
theorem progList_nodup : progList.Nodup := by decide
theorem progList_perm : ∀ s : Fin 36, s ∈ progList := by decide
theorem pos_lt (s : Fin 36) : pos s < 36 := by revert s; decide
def arr (c : Dev nD) (s : Fin 36) : CellTallies nD τ sig Unit := tallyAt (recvCell (flip (ax s) c) s) () (P.cr s)
def bsig (c : Dev nD) (a : Fin 3) : CellTallies nD τ sig Unit := tallyAt (barCell (flip a c)) () 1
def owedL (c : Dev nD) : List (Fin 36) → CellTallies nD τ sig Unit
  | [] => 0
  | s :: l => owedL c l + arr P c s
theorem owedL_cons (c : Dev nD) (s : Fin 36) (l : List (Fin 36)) : owedL P c (s :: l) = owedL P c l + arr P c s := rfl
def O₀ (c : Dev nD) : CellTallies nD τ sig Unit := ((owedL P c progList + bsig c 2) + bsig c 1) + bsig c 0
theorem owedL_pos {c : Dev nD} {l : List (Fin 36)} {g : GSem nD τ sig} {u : Unit} (h : 0 < owedL P c l g u) :
    ∃ s ∈ l, g = recvCell (flip (ax s) c) s := by
  induction l with
  | nil => exact absurd h (by simp [owedL])
  | cons s l ih =>
    rw [owedL_cons] at h
    rcases Pipeline.add_pos_cases h with h | h
    · obtain ⟨s', hs', hg⟩ := ih h; exact ⟨s', List.mem_cons_of_mem _ hs', hg⟩
    · unfold arr at h; rw [tallyAt_apply] at h
      by_cases hg : g = recvCell (flip (ax s) c) s ∧ u = ()
      · exact ⟨s, List.mem_cons_self, hg.1⟩
      · rw [if_neg hg] at h; exact absurd h (Nat.lt_irrefl 0)
def L (g : GSem nD τ sig) : Finset Unit := if g.1.2 = .tc then {()} else ∅
def lv (g : GSem nD τ sig) (_ : Unit) : ℕ :=
  match roleOf g.2 with
  | .bar => 1
  | .recv s => 2 + pos s
  | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [roleOf_bar]
theorem lv_send (c : Dev nD) (s : Fin 36) : lv (sendCell c s) () = 0 := by unfold lv; rw [roleOf_send]
theorem lv_recv (c : Dev nD) (s : Fin 36) : lv (recvCell c s) () = 2 + pos s := by unfold lv; rw [roleOf_recv]
theorem mayWait_owedL (c : Dev nD) (sm : SemLoc sig) (l : List (Fin 36)) (b : ℕ) (hb : lv ((c : Thread nD τ), sm) () ≤ b)
    (hl : ∀ s ∈ l, b < 2 + pos s) :
    (levAts L lv : sProp 𝕄) ⊢ MayWait (c : Thread nD τ) sm () (owedL P c l) :=
  MayOwe.of_cut (L := L) (lev := lv) b (fun p hp => by rw [Finset.mem_singleton.mp hp, L_tc]; exact Finset.mem_singleton_self _)
    (fun g u hg => by obtain ⟨s, _, rfl⟩ := owedL_pos P hg; rw [L_tc]; exact Finset.mem_singleton_self _)
    (fun p hp => by rw [Finset.mem_singleton.mp hp]; exact hb)
    (fun g u hg => by obtain ⟨s, hs, rfl⟩ := owedL_pos P hg; rw [lv_recv]; exact hl s hs)
def csem (k : Fin 73) : SemLoc sig :=
  if h : k.val = 0 then .reg barS
  else if h' : k.val < 37 then .dma (sendSem ⟨k.val - 1, by omega⟩)
  else .dma (recvSem ⟨k.val - 37, by omega⟩)
abbrev kcell (ck : Dev nD × Fin 73) : GSem nD τ sig := ((ck.1 : Thread nD τ), csem ck.2)
def kBar : Fin 73 := 0
def kSend (s : Fin 36) : Fin 73 := ⟨1 + s.val, by omega⟩
def kRecv (s : Fin 36) : Fin 73 := ⟨37 + s.val, by omega⟩
theorem csem_kBar : csem kBar = .reg barS := dif_pos rfl
theorem csem_kSend (s : Fin 36) : csem (kSend s) = .dma (sendSem s) := by
  unfold csem kSend; rw [dif_neg (by simp), dif_pos (by simp; omega)]; congr 2; exact Fin.ext (by simp)
theorem csem_kRecv (s : Fin 36) : csem (kRecv s) = .dma (recvSem s) := by
  unfold csem kRecv; rw [dif_neg (by simp), dif_neg (by simp)]; congr 2; exact Fin.ext (by simp)
theorem kcell_kBar (c : Dev nD) : kcell (c, kBar) = barCell c := by unfold kcell; rw [csem_kBar]
theorem kcell_kSend (c : Dev nD) (s : Fin 36) : kcell (c, kSend s) = sendCell c s := by unfold kcell; rw [csem_kSend]
theorem kcell_kRecv (c : Dev nD) (s : Fin 36) : kcell (c, kRecv s) = recvCell c s := by unfold kcell; rw [csem_kRecv]
def records (K : Dev nD × Fin 73 → ℕ) : sProp 𝕄 :=
  iprop((bigSep Finset.univ fun ck : Dev nD × Fin 73 => cellInv ER (rd P) (K ck) (kcell ck))
    ∗ bigSep Finset.univ fun ck : Dev nD × Fin 73 => reached ER (kcell ck) 0)
instance records_persistent (K : Dev nD × Fin 73 → ℕ) : BI.Persistent (records P K) := by unfold records; infer_instance
theorem invs_at (K : Dev nD × Fin 73 → ℕ) (ck : Dev nD × Fin 73) :
    (bigSep Finset.univ fun ck : Dev nD × Fin 73 => (cellInv ER (rd P) (K ck) (kcell ck) : sProp 𝕄)) ⊢ cellInv ER (rd P) (K ck) (kcell ck) :=
  bigSep_elim (Finset.mem_univ ck)
omit [FloatOps F] in
theorem reacheds_at (ck : Dev nD × Fin 73) :
    (bigSep Finset.univ fun ck : Dev nD × Fin 73 => (reached ER (kcell ck) 0 : sProp 𝕄)) ⊢ reached ER (kcell ck) 0 :=
  bigSep_elim (Finset.mem_univ ck)
theorem inv_at (K : Dev nD × Fin 73 → ℕ) (ck : Dev nD × Fin 73) : records P K ⊢ cellInv ER (rd P) (K ck) (kcell ck) := by
  unfold records; iintro ⟨#HI, -⟩; iapply (invs_at P K ck); iexact HI
theorem reached_at (K : Dev nD × Fin 73 → ℕ) (ck : Dev nD × Fin 73) : records P K ⊢ reached ER (kcell ck) 0 := by
  unfold records; iintro ⟨-, #HR⟩; iapply (reacheds_at (F := F) ck); iexact HR
def payToks (c : Dev nD) : sProp 𝕄 :=
  iprop((bigSep Finset.univ fun a : Fin 3 => dutyTok ER (barCell (flip a c)) 0 a)
    ∗ (bigSep Finset.univ fun s : Fin 36 => dutyTok ER (recvCell (flip (ax s) c) s) 0 (0 : Fin 3))
    ∗ (bigSep Finset.univ fun s : Fin 36 => dutyTok ER (sendCell c s) 0 (0 : Fin 3)))
def positions (c : Dev nD) : sProp 𝕄 := bigSep Finset.univ fun k : Fin 73 => atPos ER (kcell (c, k)) 0 (∅ : Finset (Fin 3)) 0
def ghost (K : Dev nD × Fin 73 → ℕ) (c : Dev nD) : sProp 𝕄 := iprop(records P K ∗ positions c ∗ payToks c)
def creds (c : Dev nD) : sProp 𝕄 :=
  iprop(cred (tallyAt (barCell c) () 3) ∗ bigSep Finset.univ fun s : Fin 36 => cred (tallyAt (recvCell c s) () (P.cr s)))
def start (c : Dev nD) : sProp 𝕄 := iprop((∃ K, ghost P K c) ∗ creds P c ∗ levAts L lv)
end Cert.KernelIdeal.TR
end
-- ==== Proof.ContentsG.lean ====
import proofs.«901104_g7700000000001105_dist_treered_v7x_i8_m2048_n1024_f32_1_alg».proof.Proof.Spec
import Idealize.ShloMosaic.Lib.ValueIdx
noncomputable section
namespace Cert.KernelIdeal.TR
open Cert.KernelIdeal Cert.KernelIdeal.Gen
open Idealize.ShloMosaic Idealize.ShloMosaic.TcCoe Idealize.ShloMosaic.ValueIdx
variable {F : FTy → Type} [FloatOps F]
variable (m : (ℓ : Loc nD τ sig) → Buf (Elt F) ℓ)
def xs (d : Dev nD) (g : Fin 2048) (k : Fin 1024) : Elt F .f32 :=
  (m ((d : Thread nD τ).loc main_arg0) : S1x2048x1024.Idx → Elt F .f32) (ix3 (0 : Fin 1) g k)
def clamp (g : ℕ) : Fin 2048 := ⟨min g 2047, by omega⟩
theorem clamp_of_lt {g : ℕ} (h : g < 2048) : clamp g = ⟨g, h⟩ := Fin.ext (by simp only [clamp]; omega)
def ownerBits (g : Fin 2048) : ℕ × ℕ × ℕ :=
  if g.val < 704 then (g.val / 352, g.val % 352 / 176, g.val % 176 / 88)
  else if g.val < 1408 then ((g.val - 704) / 352, (g.val - 704) % 352 / 176, (g.val - 704) % 176 / 88)
  else ((g.val - 1408) / 320, (g.val - 1408) % 320 / 160, (g.val - 1408) % 160 / 80)
def devOfBits (x y z : ℕ) : Dev nD := ⟨(z % 2) * 4 + (y % 2) * 2 + ((x % 2) ^^^ (y % 2)), by
  have := Nat.mod_lt z (by decide : 0 < 2); have := Nat.mod_lt y (by decide : 0 < 2)
  have hx : (x % 2) ^^^ (y % 2) < 2 := Nat.xor_lt_two_pow (n := 1) (Nat.mod_lt x (by decide)) (Nat.mod_lt y (by decide))
  show _ < 8; omega⟩
def owner (g : Fin 2048) : Dev nD :=
  let b := ownerBits g
  if g.val < 704 then devOfBits b.2.2 b.2.1 b.1
  else if g.val < 1408 then devOfBits b.2.1 b.1 b.2.2
  else devOfBits b.1 b.2.2 b.2.1
def Gout : S2048x1024.Idx → Elt F .f32 :=
  fun i => P3 (partOf (i 0 : Fin 2048)) (xs m) (owner (i 0 : Fin 2048)) (i 0 : Fin 2048) (i 1 : Fin 1024)
def Gx (c : Dev nD) : S1x2048x1024.Idx → Elt F .f32 := fun i => xs m c (i 1 : Fin 2048) (i 2 : Fin 1024)
end Cert.KernelIdeal.TR
end
-- ==== Proof.Names0.lean ====
import proofs.«901104_g7700000000001105_dist_treered_v7x_i8_m2048_n1024_f32_1_alg».proof.Proof.Spec
namespace Cert.KernelIdeal.TR.P0
abbrev pIdx : Fin 3 := 0
abbrev row0 : ℕ := 0
abbrev nH : ℕ := 352
abbrev nQ : ℕ := 176
abbrev nE : ℕ := 88
abbrev s0 : Fin 36 := 0
abbrev s1 : Fin 36 := 1
abbrev s2 : Fin 36 := 2
abbrev s3 : Fin 36 := 3
abbrev s4 : Fin 36 := 4
abbrev s5 : Fin 36 := 5
abbrev s6 : Fin 36 := 6
abbrev s7 : Fin 36 := 7
abbrev s8 : Fin 36 := 8
abbrev s9 : Fin 36 := 9
abbrev s10 : Fin 36 := 10
abbrev s11 : Fin 36 := 11
abbrev o0 : Fin 3 := 2
abbrev o1 : Fin 3 := 1
abbrev o2 : Fin 3 := 0
end Cert.KernelIdeal.TR.P0
-- ==== Proof.Contents0.lean ====
import proofs.«901104_g7700000000001105_dist_treered_v7x_i8_m2048_n1024_f32_1_alg».proof.Proof.ContentsG
import proofs.«901104_g7700000000001105_dist_treered_v7x_i8_m2048_n1024_f32_1_alg».proof.Proof.Names0
noncomputable section
namespace Cert.KernelIdeal.TR.P0
open Cert.KernelIdeal Cert.KernelIdeal.Gen
open Idealize.ShloMosaic Idealize.ShloMosaic.TcCoe
variable {F : FTy → Type} [FloatOps F]
variable (m : (ℓ : Loc nD τ sig) → Buf (Elt F) ℓ)
def glob0 (c : Dev nD) : ℕ := row0 + bit o0 c * nH
def ko (c : Dev nD) : ℕ := bit o1 c * nQ
def ko2 (c : Dev nD) : ℕ := bit o2 c * nE
def Gr0 (c : Dev nD) : S352x1024.Idx → Elt F .f32 :=
  fun i => xs m (flip o0 c) (clamp (glob0 c + (i 0).val)) (i 1 : Fin 1024)
def Ga1 (c : Dev nD) : S352x1024.Idx → Elt F .f32 :=
  fun i => P1 pIdx (xs m) c (clamp (glob0 c + (i 0).val)) (i 1 : Fin 1024)
def Gr1 (c : Dev nD) : S176x1024.Idx → Elt F .f32 :=
  fun i => P1 pIdx (xs m) (flip o1 c) (clamp (glob0 c + ko c + (i 0).val)) (i 1 : Fin 1024)
def Ga2 (c : Dev nD) : S352x1024.Idx → Elt F .f32 :=
  fun i => P2 pIdx (xs m) c (clamp (glob0 c + (i 0).val)) (i 1 : Fin 1024)
def Gr2 (c : Dev nD) : S88x1024.Idx → Elt F .f32 :=
  fun i => P2 pIdx (xs m) (flip o2 c) (clamp (glob0 c + ko c + ko2 c + (i 0).val)) (i 1 : Fin 1024)
end Cert.KernelIdeal.TR.P0
end
-- ==== Proof.Names1.lean ====
import proofs.«901104_g7700000000001105_dist_treered_v7x_i8_m2048_n1024_f32_1_alg».proof.Proof.Spec
namespace Cert.KernelIdeal.TR.P1
abbrev pIdx : Fin 3 := 1
abbrev row0 : ℕ := 704
abbrev nH : ℕ := 352
abbrev nQ : ℕ := 176
abbrev nE : ℕ := 88
abbrev s0 : Fin 36 := 12
abbrev s1 : Fin 36 := 13
abbrev s2 : Fin 36 := 14
abbrev s3 : Fin 36 := 15
abbrev s4 : Fin 36 := 16
abbrev s5 : Fin 36 := 17
abbrev s6 : Fin 36 := 18
abbrev s7 : Fin 36 := 19
abbrev s8 : Fin 36 := 20
abbrev s9 : Fin 36 := 21
abbrev s10 : Fin 36 := 22
abbrev s11 : Fin 36 := 23
abbrev o0 : Fin 3 := 1
abbrev o1 : Fin 3 := 0
abbrev o2 : Fin 3 := 2
end Cert.KernelIdeal.TR.P1
-- ==== Proof.Contents1.lean ====
import proofs.«901104_g7700000000001105_dist_treered_v7x_i8_m2048_n1024_f32_1_alg».proof.Proof.ContentsG
import proofs.«901104_g7700000000001105_dist_treered_v7x_i8_m2048_n1024_f32_1_alg».proof.Proof.Names1
noncomputable section
namespace Cert.KernelIdeal.TR.P1
open Cert.KernelIdeal Cert.KernelIdeal.Gen
open Idealize.ShloMosaic Idealize.ShloMosaic.TcCoe
variable {F : FTy → Type} [FloatOps F]
variable (m : (ℓ : Loc nD τ sig) → Buf (Elt F) ℓ)
def glob0 (c : Dev nD) : ℕ := row0 + bit o0 c * nH
def ko (c : Dev nD) : ℕ := bit o1 c * nQ
def ko2 (c : Dev nD) : ℕ := bit o2 c * nE
def Gr0 (c : Dev nD) : S352x1024.Idx → Elt F .f32 :=
  fun i => xs m (flip o0 c) (clamp (glob0 c + (i 0).val)) (i 1 : Fin 1024)
def Ga1 (c : Dev nD) : S352x1024.Idx → Elt F .f32 :=
  fun i => P1 pIdx (xs m) c (clamp (glob0 c + (i 0).val)) (i 1 : Fin 1024)
def Gr1 (c : Dev nD) : S176x1024.Idx → Elt F .f32 :=
  fun i => P1 pIdx (xs m) (flip o1 c) (clamp (glob0 c + ko c + (i 0).val)) (i 1 : Fin 1024)
def Ga2 (c : Dev nD) : S352x1024.Idx → Elt F .f32 :=
  fun i => P2 pIdx (xs m) c (clamp (glob0 c + (i 0).val)) (i 1 : Fin 1024)
def Gr2 (c : Dev nD) : S88x1024.Idx → Elt F .f32 :=
  fun i => P2 pIdx (xs m) (flip o2 c) (clamp (glob0 c + ko c + ko2 c + (i 0).val)) (i 1 : Fin 1024)
end Cert.KernelIdeal.TR.P1
end
-- ==== Proof.Names2.lean ====
import proofs.«901104_g7700000000001105_dist_treered_v7x_i8_m2048_n1024_f32_1_alg».proof.Proof.Spec
namespace Cert.KernelIdeal.TR.P2
abbrev pIdx : Fin 3 := 2
abbrev row0 : ℕ := 1408
abbrev nH : ℕ := 320
abbrev nQ : ℕ := 160
abbrev nE : ℕ := 80
abbrev s0 : Fin 36 := 24
abbrev s1 : Fin 36 := 25
abbrev s2 : Fin 36 := 26
abbrev s3 : Fin 36 := 27
abbrev s4 : Fin 36 := 28
abbrev s5 : Fin 36 := 29
abbrev s6 : Fin 36 := 30
abbrev s7 : Fin 36 := 31
abbrev s8 : Fin 36 := 32
abbrev s9 : Fin 36 := 33
abbrev s10 : Fin 36 := 34
abbrev s11 : Fin 36 := 35
abbrev o0 : Fin 3 := 0
abbrev o1 : Fin 3 := 2
abbrev o2 : Fin 3 := 1
end Cert.KernelIdeal.TR.P2
-- ==== Proof.Contents2.lean ====
import proofs.«901104_g7700000000001105_dist_treered_v7x_i8_m2048_n1024_f32_1_alg».proof.Proof.ContentsG
import proofs.«901104_g7700000000001105_dist_treered_v7x_i8_m2048_n1024_f32_1_alg».proof.Proof.Names2
noncomputable section
namespace Cert.KernelIdeal.TR.P2
open Cert.KernelIdeal Cert.KernelIdeal.Gen
open Idealize.ShloMosaic Idealize.ShloMosaic.TcCoe
variable {F : FTy → Type} [FloatOps F]
variable (m : (ℓ : Loc nD τ sig) → Buf (Elt F) ℓ)
def glob0 (c : Dev nD) : ℕ := row0 + bit o0 c * nH
def ko (c : Dev nD) : ℕ := bit o1 c * nQ
def ko2 (c : Dev nD) : ℕ := bit o2 c * nE
def Gr0 (c : Dev nD) : S320x1024.Idx → Elt F .f32 :=
  fun i => xs m (flip o0 c) (clamp (glob0 c + (i 0).val)) (i 1 : Fin 1024)
def Ga1 (c : Dev nD) : S320x1024.Idx → Elt F .f32 :=
  fun i => P1 pIdx (xs m) c (clamp (glob0 c + (i 0).val)) (i 1 : Fin 1024)
def Gr1 (c : Dev nD) : S160x1024.Idx → Elt F .f32 :=
  fun i => P1 pIdx (xs m) (flip o1 c) (clamp (glob0 c + ko c + (i 0).val)) (i 1 : Fin 1024)
def Ga2 (c : Dev nD) : S320x1024.Idx → Elt F .f32 :=
  fun i => P2 pIdx (xs m) c (clamp (glob0 c + (i 0).val)) (i 1 : Fin 1024)
def Gr2 (c : Dev nD) : S80x1024.Idx → Elt F .f32 :=
  fun i => P2 pIdx (xs m) (flip o2 c) (clamp (glob0 c + ko c + ko2 c + (i 0).val)) (i 1 : Fin 1024)
end Cert.KernelIdeal.TR.P2
end
-- ==== Proof.Payloads.lean ====
import proofs.«901104_g7700000000001105_dist_treered_v7x_i8_m2048_n1024_f32_1_alg».proof.Proof.Ghost
import proofs.«901104_g7700000000001105_dist_treered_v7x_i8_m2048_n1024_f32_1_alg».proof.Proof.Contents0
import proofs.«901104_g7700000000001105_dist_treered_v7x_i8_m2048_n1024_f32_1_alg».proof.Proof.Contents1
import proofs.«901104_g7700000000001105_dist_treered_v7x_i8_m2048_n1024_f32_1_alg».proof.Proof.Contents2
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
abbrev src0 (c : Dev nD) : Memref sig .tc .vmem S88x1024 .f32 := (bIn.slice (u2 c) (fun _ => rfl)).squeeze S88x1024 squeezes_S1x88x1024_S88x1024
abbrev dst0 (c : Dev nD) : Memref sig .tc .vmem S88x1024 .f32 := b1.slice (u1 c) (fun _ => rfl)
abbrev src1 (c : Dev nD) : Memref sig .tc .vmem S88x1024 .f32 := (bIn.slice (u4 c) (fun _ => rfl)).squeeze S88x1024 squeezes_S1x88x1024_S88x1024
abbrev dst1 (c : Dev nD) : Memref sig .tc .vmem S88x1024 .f32 := b1.slice (u3 c) (fun _ => rfl)
abbrev src2 (c : Dev nD) : Memref sig .tc .vmem S176x1024 .f32 := (bIn.slice (u6 c) (fun _ => rfl)).squeeze S176x1024 squeezes_S1x176x1024_S176x1024
abbrev dst2 (c : Dev nD) : Memref sig .tc .vmem S176x1024 .f32 := b1.slice (u5 c) (fun _ => rfl)
abbrev src3 (c : Dev nD) : Memref sig .tc .vmem S88x1024 .f32 := b0.slice (u1 c) (fun _ => rfl)
abbrev dst3 (c : Dev nD) : Memref sig .tc .vmem S88x1024 .f32 := b2.slice (u21 c) (fun _ => rfl)
abbrev src4 (c : Dev nD) : Memref sig .tc .vmem S88x1024 .f32 := b0.slice (u3 c) (fun _ => rfl)
abbrev dst4 (c : Dev nD) : Memref sig .tc .vmem S88x1024 .f32 := b2.slice (u24 c) (fun _ => rfl)
abbrev src5 (c : Dev nD) : Memref sig .tc .vmem S88x1024 .f32 := b0.slice (u45 c) (fun _ => rfl)
abbrev dst5 (c : Dev nD) : Memref sig .tc .vmem S88x1024 .f32 := b3
abbrev src6 (c : Dev nD) : Memref sig .tc .vmem S88x1024 .f32 := bOut.slice (u59 c) (fun _ => rfl)
abbrev dst6 (c : Dev nD) : Memref sig .tc .vmem S88x1024 .f32 := bOut.slice (u59 c) (fun _ => rfl)
abbrev src7 (c : Dev nD) : Memref sig .tc .vmem S88x1024 .f32 := bOut.slice (u59 c) (fun _ => rfl)
abbrev dst7 (c : Dev nD) : Memref sig .tc .vmem S88x1024 .f32 := bOut.slice (u59 c) (fun _ => rfl)
abbrev src8 (c : Dev nD) : Memref sig .tc .vmem S88x1024 .f32 := bOut.slice (u64 c) (fun _ => rfl)
abbrev dst8 (c : Dev nD) : Memref sig .tc .vmem S88x1024 .f32 := bOut.slice (u64 c) (fun _ => rfl)
abbrev src9 (c : Dev nD) : Memref sig .tc .vmem S88x1024 .f32 := bOut.slice (u59 c) (fun _ => rfl)
abbrev dst9 (c : Dev nD) : Memref sig .tc .vmem S88x1024 .f32 := bOut.slice (u59 c) (fun _ => rfl)
abbrev src10 (c : Dev nD) : Memref sig .tc .vmem S88x1024 .f32 := bOut.slice (u64 c) (fun _ => rfl)
abbrev dst10 (c : Dev nD) : Memref sig .tc .vmem S88x1024 .f32 := bOut.slice (u64 c) (fun _ => rfl)
abbrev src11 (c : Dev nD) : Memref sig .tc .vmem S176x1024 .f32 := bOut.slice (u67 c) (fun _ => rfl)
abbrev dst11 (c : Dev nD) : Memref sig .tc .vmem S176x1024 .f32 := bOut.slice (u67 c) (fun _ => rfl)
abbrev src12 (c : Dev nD) : Memref sig .tc .vmem S88x1024 .f32 := (bIn.slice (u8 c) (fun _ => rfl)).squeeze S88x1024 squeezes_S1x88x1024_S88x1024
abbrev dst12 (c : Dev nD) : Memref sig .tc .vmem S88x1024 .f32 := b5.slice (u7 c) (fun _ => rfl)
abbrev src13 (c : Dev nD) : Memref sig .tc .vmem S88x1024 .f32 := (bIn.slice (u10 c) (fun _ => rfl)).squeeze S88x1024 squeezes_S1x88x1024_S88x1024
abbrev dst13 (c : Dev nD) : Memref sig .tc .vmem S88x1024 .f32 := b5.slice (u9 c) (fun _ => rfl)
abbrev src14 (c : Dev nD) : Memref sig .tc .vmem S176x1024 .f32 := (bIn.slice (u12 c) (fun _ => rfl)).squeeze S176x1024 squeezes_S1x176x1024_S176x1024
abbrev dst14 (c : Dev nD) : Memref sig .tc .vmem S176x1024 .f32 := b5.slice (u11 c) (fun _ => rfl)
abbrev src15 (c : Dev nD) : Memref sig .tc .vmem S88x1024 .f32 := b4.slice (u7 c) (fun _ => rfl)
abbrev dst15 (c : Dev nD) : Memref sig .tc .vmem S88x1024 .f32 := b6.slice (u29 c) (fun _ => rfl)
abbrev src16 (c : Dev nD) : Memref sig .tc .vmem S88x1024 .f32 := b4.slice (u9 c) (fun _ => rfl)
abbrev dst16 (c : Dev nD) : Memref sig .tc .vmem S88x1024 .f32 := b6.slice (u32 c) (fun _ => rfl)
abbrev src17 (c : Dev nD) : Memref sig .tc .vmem S88x1024 .f32 := b4.slice (u50 c) (fun _ => rfl)
abbrev dst17 (c : Dev nD) : Memref sig .tc .vmem S88x1024 .f32 := b7
abbrev src18 (c : Dev nD) : Memref sig .tc .vmem S88x1024 .f32 := bOut.slice (u61 c) (fun _ => rfl)
abbrev dst18 (c : Dev nD) : Memref sig .tc .vmem S88x1024 .f32 := bOut.slice (u61 c) (fun _ => rfl)
abbrev src19 (c : Dev nD) : Memref sig .tc .vmem S88x1024 .f32 := bOut.slice (u61 c) (fun _ => rfl)
abbrev dst19 (c : Dev nD) : Memref sig .tc .vmem S88x1024 .f32 := bOut.slice (u61 c) (fun _ => rfl)
abbrev src20 (c : Dev nD) : Memref sig .tc .vmem S88x1024 .f32 := bOut.slice (u65 c) (fun _ => rfl)
abbrev dst20 (c : Dev nD) : Memref sig .tc .vmem S88x1024 .f32 := bOut.slice (u65 c) (fun _ => rfl)
abbrev src21 (c : Dev nD) : Memref sig .tc .vmem S88x1024 .f32 := bOut.slice (u61 c) (fun _ => rfl)
abbrev dst21 (c : Dev nD) : Memref sig .tc .vmem S88x1024 .f32 := bOut.slice (u61 c) (fun _ => rfl)
abbrev src22 (c : Dev nD) : Memref sig .tc .vmem S88x1024 .f32 := bOut.slice (u65 c) (fun _ => rfl)
abbrev dst22 (c : Dev nD) : Memref sig .tc .vmem S88x1024 .f32 := bOut.slice (u65 c) (fun _ => rfl)
abbrev src23 (c : Dev nD) : Memref sig .tc .vmem S176x1024 .f32 := bOut.slice (u68 c) (fun _ => rfl)
abbrev dst23 (c : Dev nD) : Memref sig .tc .vmem S176x1024 .f32 := bOut.slice (u68 c) (fun _ => rfl)
abbrev src24 (c : Dev nD) : Memref sig .tc .vmem S80x1024 .f32 := (bIn.slice (u14 c) (fun _ => rfl)).squeeze S80x1024 squeezes_S1x80x1024_S80x1024
abbrev dst24 (c : Dev nD) : Memref sig .tc .vmem S80x1024 .f32 := b9.slice (u13 c) (fun _ => rfl)
abbrev src25 (c : Dev nD) : Memref sig .tc .vmem S80x1024 .f32 := (bIn.slice (u16 c) (fun _ => rfl)).squeeze S80x1024 squeezes_S1x80x1024_S80x1024
abbrev dst25 (c : Dev nD) : Memref sig .tc .vmem S80x1024 .f32 := b9.slice (u15 c) (fun _ => rfl)
abbrev src26 (c : Dev nD) : Memref sig .tc .vmem S160x1024 .f32 := (bIn.slice (u18 c) (fun _ => rfl)).squeeze S160x1024 squeezes_S1x160x1024_S160x1024
abbrev dst26 (c : Dev nD) : Memref sig .tc .vmem S160x1024 .f32 := b9.slice (u17 c) (fun _ => rfl)
abbrev src27 (c : Dev nD) : Memref sig .tc .vmem S80x1024 .f32 := b8.slice (u13 c) (fun _ => rfl)
abbrev dst27 (c : Dev nD) : Memref sig .tc .vmem S80x1024 .f32 := b10.slice (u37 c) (fun _ => rfl)
abbrev src28 (c : Dev nD) : Memref sig .tc .vmem S80x1024 .f32 := b8.slice (u15 c) (fun _ => rfl)
abbrev dst28 (c : Dev nD) : Memref sig .tc .vmem S80x1024 .f32 := b10.slice (u40 c) (fun _ => rfl)
abbrev src29 (c : Dev nD) : Memref sig .tc .vmem S80x1024 .f32 := b8.slice (u55 c) (fun _ => rfl)
abbrev dst29 (c : Dev nD) : Memref sig .tc .vmem S80x1024 .f32 := b11
abbrev src30 (c : Dev nD) : Memref sig .tc .vmem S80x1024 .f32 := bOut.slice (u63 c) (fun _ => rfl)
abbrev dst30 (c : Dev nD) : Memref sig .tc .vmem S80x1024 .f32 := bOut.slice (u63 c) (fun _ => rfl)
abbrev src31 (c : Dev nD) : Memref sig .tc .vmem S80x1024 .f32 := bOut.slice (u63 c) (fun _ => rfl)
abbrev dst31 (c : Dev nD) : Memref sig .tc .vmem S80x1024 .f32 := bOut.slice (u63 c) (fun _ => rfl)
abbrev src32 (c : Dev nD) : Memref sig .tc .vmem S80x1024 .f32 := bOut.slice (u66 c) (fun _ => rfl)
abbrev dst32 (c : Dev nD) : Memref sig .tc .vmem S80x1024 .f32 := bOut.slice (u66 c) (fun _ => rfl)
abbrev src33 (c : Dev nD) : Memref sig .tc .vmem S80x1024 .f32 := bOut.slice (u63 c) (fun _ => rfl)
abbrev dst33 (c : Dev nD) : Memref sig .tc .vmem S80x1024 .f32 := bOut.slice (u63 c) (fun _ => rfl)
abbrev src34 (c : Dev nD) : Memref sig .tc .vmem S80x1024 .f32 := bOut.slice (u66 c) (fun _ => rfl)
abbrev dst34 (c : Dev nD) : Memref sig .tc .vmem S80x1024 .f32 := bOut.slice (u66 c) (fun _ => rfl)
abbrev src35 (c : Dev nD) : Memref sig .tc .vmem S160x1024 .f32 := bOut.slice (u69 c) (fun _ => rfl)
abbrev dst35 (c : Dev nD) : Memref sig .tc .vmem S160x1024 .f32 := bOut.slice (u69 c) (fun _ => rfl)
structure AnyMem where
  sp : Space
  s : Shape
  e : EltTy
  m : Memref sig .tc sp s e
def heldQ (q : PosShare TreeShare) (c : Dev nD) (v : AnyMem) : sProp 𝕄 :=
  iprop(∃ f : Buf (Elt F) (v.m.view.loc (c : Thread nD τ)), v.m.view.loc (c : Thread nD τ) ↦[v.m.view.set]{q} f)
abbrev held (c : Dev nD) (v : AnyMem) : sProp 𝕄 := heldQ fullShare c v
omit [FloatOps F] in
theorem heldQ_def (q : PosShare TreeShare) (c : Dev nD) (v : AnyMem) : heldQ (F := F) q c v
    = iprop(∃ f : Buf (Elt F) (v.m.view.loc (c : Thread nD τ)), v.m.view.loc (c : Thread nD τ) ↦[v.m.view.set]{q} f) := rfl
omit [FloatOps F] in
instance heldQ_storable (q : PosShare TreeShare) (c : Dev nD) (v : AnyMem) : BI.Storable (upEmb : UEmb _ 𝕄) (heldQ (F := F) q c v) := by
  unfold heldQ; infer_instance
def pt {ℓ : Loc nD τ sig} (S : Finset (Idx ℓ)) (q : PosShare TreeShare) (f : Buf (Elt F) ℓ) : sProp 𝕄 := ℓ ↦[S]{q} f
omit [FloatOps F] in
theorem pt_def {ℓ : Loc nD τ sig} (S : Finset (Idx ℓ)) (q : PosShare TreeShare) (f : Buf (Elt F) ℓ) : pt S q f = (ℓ ↦[S]{q} f : sProp 𝕄) := rfl
omit [FloatOps F] in
instance pt_storable {ℓ : Loc nD τ sig} (S : Finset (Idx ℓ)) (q : PosShare TreeShare) (f : Buf (Elt F) ℓ) :
    BI.Storable (upEmb : UEmb _ 𝕄) (pt (F := F) S q f) := by unfold pt; infer_instance
def shareOf (s : Fin 36) : PosShare TreeShare :=
  match s.val % 12 with
  | 6 => fullShare.left
  | 7 => fullShare.right.left
  | 9 => fullShare.right.right
  | 8 => fullShare.left
  | 10 => fullShare.right
  | _ => fullShare
def dstAny (c : Dev nD) : Fin 36 → AnyMem
  | 0 => ⟨_, _, _, dst0 c⟩
  | 1 => ⟨_, _, _, dst1 c⟩
  | 2 => ⟨_, _, _, dst2 c⟩
  | 3 => ⟨_, _, _, dst3 c⟩
  | 4 => ⟨_, _, _, dst4 c⟩
  | 5 => ⟨_, _, _, dst5 c⟩
  | 6 => ⟨_, _, _, dst6 c⟩
  | 7 => ⟨_, _, _, dst7 c⟩
  | 8 => ⟨_, _, _, dst8 c⟩
  | 9 => ⟨_, _, _, dst9 c⟩
  | 10 => ⟨_, _, _, dst10 c⟩
  | 11 => ⟨_, _, _, dst11 c⟩
  | 12 => ⟨_, _, _, dst12 c⟩
  | 13 => ⟨_, _, _, dst13 c⟩
  | 14 => ⟨_, _, _, dst14 c⟩
  | 15 => ⟨_, _, _, dst15 c⟩
  | 16 => ⟨_, _, _, dst16 c⟩
  | 17 => ⟨_, _, _, dst17 c⟩
  | 18 => ⟨_, _, _, dst18 c⟩
  | 19 => ⟨_, _, _, dst19 c⟩
  | 20 => ⟨_, _, _, dst20 c⟩
  | 21 => ⟨_, _, _, dst21 c⟩
  | 22 => ⟨_, _, _, dst22 c⟩
  | 23 => ⟨_, _, _, dst23 c⟩
  | 24 => ⟨_, _, _, dst24 c⟩
  | 25 => ⟨_, _, _, dst25 c⟩
  | 26 => ⟨_, _, _, dst26 c⟩
  | 27 => ⟨_, _, _, dst27 c⟩
  | 28 => ⟨_, _, _, dst28 c⟩
  | 29 => ⟨_, _, _, dst29 c⟩
  | 30 => ⟨_, _, _, dst30 c⟩
  | 31 => ⟨_, _, _, dst31 c⟩
  | 32 => ⟨_, _, _, dst32 c⟩
  | 33 => ⟨_, _, _, dst33 c⟩
  | 34 => ⟨_, _, _, dst34 c⟩
  | 35 => ⟨_, _, _, dst35 c⟩
  | ⟨_ + 36, h⟩ => absurd h (Nat.not_lt.2 (Nat.le_add_left _ _))
variable (m : (ℓ : Loc nD τ sig) → Buf (Elt F) ℓ)
def sendPay (c : Dev nD) : Fin 36 → sProp 𝕄
  | 0 => pt (ℓ := (src0 c).view.loc (c : Thread nD τ)) (src0 c).view.set (shareOf 0) (Gx m c)
  | 1 => pt (ℓ := (src1 c).view.loc (c : Thread nD τ)) (src1 c).view.set (shareOf 1) (Gx m c)
  | 2 => pt (ℓ := (src2 c).view.loc (c : Thread nD τ)) (src2 c).view.set (shareOf 2) (Gx m c)
  | 3 => pt (ℓ := (src3 c).view.loc (c : Thread nD τ)) (src3 c).view.set (shareOf 3) (P0.Ga1 m c)
  | 4 => pt (ℓ := (src4 c).view.loc (c : Thread nD τ)) (src4 c).view.set (shareOf 4) (P0.Ga1 m c)
  | 5 => pt (ℓ := (src5 c).view.loc (c : Thread nD τ)) (src5 c).view.set (shareOf 5) (P0.Ga2 m c)
  | 6 => pt (ℓ := (src6 c).view.loc (c : Thread nD τ)) (src6 c).view.set (shareOf 6) (Gout m)
  | 7 => pt (ℓ := (src7 c).view.loc (c : Thread nD τ)) (src7 c).view.set (shareOf 7) (Gout m)
  | 8 => pt (ℓ := (src8 c).view.loc (c : Thread nD τ)) (src8 c).view.set (shareOf 8) (Gout m)
  | 9 => pt (ℓ := (src9 c).view.loc (c : Thread nD τ)) (src9 c).view.set (shareOf 9) (Gout m)
  | 10 => pt (ℓ := (src10 c).view.loc (c : Thread nD τ)) (src10 c).view.set (shareOf 10) (Gout m)
  | 11 => pt (ℓ := (src11 c).view.loc (c : Thread nD τ)) (src11 c).view.set (shareOf 11) (Gout m)
  | 12 => pt (ℓ := (src12 c).view.loc (c : Thread nD τ)) (src12 c).view.set (shareOf 12) (Gx m c)
  | 13 => pt (ℓ := (src13 c).view.loc (c : Thread nD τ)) (src13 c).view.set (shareOf 13) (Gx m c)
  | 14 => pt (ℓ := (src14 c).view.loc (c : Thread nD τ)) (src14 c).view.set (shareOf 14) (Gx m c)
  | 15 => pt (ℓ := (src15 c).view.loc (c : Thread nD τ)) (src15 c).view.set (shareOf 15) (P1.Ga1 m c)
  | 16 => pt (ℓ := (src16 c).view.loc (c : Thread nD τ)) (src16 c).view.set (shareOf 16) (P1.Ga1 m c)
  | 17 => pt (ℓ := (src17 c).view.loc (c : Thread nD τ)) (src17 c).view.set (shareOf 17) (P1.Ga2 m c)
  | 18 => pt (ℓ := (src18 c).view.loc (c : Thread nD τ)) (src18 c).view.set (shareOf 18) (Gout m)
  | 19 => pt (ℓ := (src19 c).view.loc (c : Thread nD τ)) (src19 c).view.set (shareOf 19) (Gout m)
  | 20 => pt (ℓ := (src20 c).view.loc (c : Thread nD τ)) (src20 c).view.set (shareOf 20) (Gout m)
  | 21 => pt (ℓ := (src21 c).view.loc (c : Thread nD τ)) (src21 c).view.set (shareOf 21) (Gout m)
  | 22 => pt (ℓ := (src22 c).view.loc (c : Thread nD τ)) (src22 c).view.set (shareOf 22) (Gout m)
  | 23 => pt (ℓ := (src23 c).view.loc (c : Thread nD τ)) (src23 c).view.set (shareOf 23) (Gout m)
  | 24 => pt (ℓ := (src24 c).view.loc (c : Thread nD τ)) (src24 c).view.set (shareOf 24) (Gx m c)
  | 25 => pt (ℓ := (src25 c).view.loc (c : Thread nD τ)) (src25 c).view.set (shareOf 25) (Gx m c)
  | 26 => pt (ℓ := (src26 c).view.loc (c : Thread nD τ)) (src26 c).view.set (shareOf 26) (Gx m c)
  | 27 => pt (ℓ := (src27 c).view.loc (c : Thread nD τ)) (src27 c).view.set (shareOf 27) (P2.Ga1 m c)
  | 28 => pt (ℓ := (src28 c).view.loc (c : Thread nD τ)) (src28 c).view.set (shareOf 28) (P2.Ga1 m c)
  | 29 => pt (ℓ := (src29 c).view.loc (c : Thread nD τ)) (src29 c).view.set (shareOf 29) (P2.Ga2 m c)
  | 30 => pt (ℓ := (src30 c).view.loc (c : Thread nD τ)) (src30 c).view.set (shareOf 30) (Gout m)
  | 31 => pt (ℓ := (src31 c).view.loc (c : Thread nD τ)) (src31 c).view.set (shareOf 31) (Gout m)
  | 32 => pt (ℓ := (src32 c).view.loc (c : Thread nD τ)) (src32 c).view.set (shareOf 32) (Gout m)
  | 33 => pt (ℓ := (src33 c).view.loc (c : Thread nD τ)) (src33 c).view.set (shareOf 33) (Gout m)
  | 34 => pt (ℓ := (src34 c).view.loc (c : Thread nD τ)) (src34 c).view.set (shareOf 34) (Gout m)
  | 35 => pt (ℓ := (src35 c).view.loc (c : Thread nD τ)) (src35 c).view.set (shareOf 35) (Gout m)
  | ⟨_ + 36, h⟩ => absurd h (Nat.not_lt.2 (Nat.le_add_left _ _))
def recvPay (c : Dev nD) : Fin 36 → sProp 𝕄
  | 0 => pt (ℓ := (dst0 (flip 2 c)).view.loc (c : Thread nD τ)) (dst0 (flip 2 c)).view.set fullShare (P0.Gr0 m c)
  | 1 => pt (ℓ := (dst1 (flip 2 c)).view.loc (c : Thread nD τ)) (dst1 (flip 2 c)).view.set fullShare (P0.Gr0 m c)
  | 2 => pt (ℓ := (dst2 (flip 2 c)).view.loc (c : Thread nD τ)) (dst2 (flip 2 c)).view.set fullShare (P0.Gr0 m c)
  | 3 => pt (ℓ := (dst3 (flip 1 c)).view.loc (c : Thread nD τ)) (dst3 (flip 1 c)).view.set fullShare (P0.Gr1 m c)
  | 4 => pt (ℓ := (dst4 (flip 1 c)).view.loc (c : Thread nD τ)) (dst4 (flip 1 c)).view.set fullShare (P0.Gr1 m c)
  | 5 => pt (ℓ := (dst5 (flip 0 c)).view.loc (c : Thread nD τ)) (dst5 (flip 0 c)).view.set fullShare (P0.Gr2 m c)
  | 6 => pt (ℓ := (dst6 (flip 0 c)).view.loc (c : Thread nD τ)) (dst6 (flip 0 c)).view.set fullShare (Gout m)
  | 7 => pt (ℓ := (dst7 (flip 1 c)).view.loc (c : Thread nD τ)) (dst7 (flip 1 c)).view.set fullShare (Gout m)
  | 8 => pt (ℓ := (dst8 (flip 1 c)).view.loc (c : Thread nD τ)) (dst8 (flip 1 c)).view.set fullShare (Gout m)
  | 9 => pt (ℓ := (dst9 (flip 2 c)).view.loc (c : Thread nD τ)) (dst9 (flip 2 c)).view.set fullShare (Gout m)
  | 10 => pt (ℓ := (dst10 (flip 2 c)).view.loc (c : Thread nD τ)) (dst10 (flip 2 c)).view.set fullShare (Gout m)
  | 11 => pt (ℓ := (dst11 (flip 2 c)).view.loc (c : Thread nD τ)) (dst11 (flip 2 c)).view.set fullShare (Gout m)
  | 12 => pt (ℓ := (dst12 (flip 1 c)).view.loc (c : Thread nD τ)) (dst12 (flip 1 c)).view.set fullShare (P1.Gr0 m c)
  | 13 => pt (ℓ := (dst13 (flip 1 c)).view.loc (c : Thread nD τ)) (dst13 (flip 1 c)).view.set fullShare (P1.Gr0 m c)
  | 14 => pt (ℓ := (dst14 (flip 1 c)).view.loc (c : Thread nD τ)) (dst14 (flip 1 c)).view.set fullShare (P1.Gr0 m c)
  | 15 => pt (ℓ := (dst15 (flip 0 c)).view.loc (c : Thread nD τ)) (dst15 (flip 0 c)).view.set fullShare (P1.Gr1 m c)
  | 16 => pt (ℓ := (dst16 (flip 0 c)).view.loc (c : Thread nD τ)) (dst16 (flip 0 c)).view.set fullShare (P1.Gr1 m c)
  | 17 => pt (ℓ := (dst17 (flip 2 c)).view.loc (c : Thread nD τ)) (dst17 (flip 2 c)).view.set fullShare (P1.Gr2 m c)
  | 18 => pt (ℓ := (dst18 (flip 2 c)).view.loc (c : Thread nD τ)) (dst18 (flip 2 c)).view.set fullShare (Gout m)
  | 19 => pt (ℓ := (dst19 (flip 0 c)).view.loc (c : Thread nD τ)) (dst19 (flip 0 c)).view.set fullShare (Gout m)
  | 20 => pt (ℓ := (dst20 (flip 0 c)).view.loc (c : Thread nD τ)) (dst20 (flip 0 c)).view.set fullShare (Gout m)
  | 21 => pt (ℓ := (dst21 (flip 1 c)).view.loc (c : Thread nD τ)) (dst21 (flip 1 c)).view.set fullShare (Gout m)
  | 22 => pt (ℓ := (dst22 (flip 1 c)).view.loc (c : Thread nD τ)) (dst22 (flip 1 c)).view.set fullShare (Gout m)
  | 23 => pt (ℓ := (dst23 (flip 1 c)).view.loc (c : Thread nD τ)) (dst23 (flip 1 c)).view.set fullShare (Gout m)
  | 24 => pt (ℓ := (dst24 (flip 0 c)).view.loc (c : Thread nD τ)) (dst24 (flip 0 c)).view.set fullShare (P2.Gr0 m c)
  | 25 => pt (ℓ := (dst25 (flip 0 c)).view.loc (c : Thread nD τ)) (dst25 (flip 0 c)).view.set fullShare (P2.Gr0 m c)
  | 26 => pt (ℓ := (dst26 (flip 0 c)).view.loc (c : Thread nD τ)) (dst26 (flip 0 c)).view.set fullShare (P2.Gr0 m c)
  | 27 => pt (ℓ := (dst27 (flip 2 c)).view.loc (c : Thread nD τ)) (dst27 (flip 2 c)).view.set fullShare (P2.Gr1 m c)
  | 28 => pt (ℓ := (dst28 (flip 2 c)).view.loc (c : Thread nD τ)) (dst28 (flip 2 c)).view.set fullShare (P2.Gr1 m c)
  | 29 => pt (ℓ := (dst29 (flip 1 c)).view.loc (c : Thread nD τ)) (dst29 (flip 1 c)).view.set fullShare (P2.Gr2 m c)
  | 30 => pt (ℓ := (dst30 (flip 1 c)).view.loc (c : Thread nD τ)) (dst30 (flip 1 c)).view.set fullShare (Gout m)
  | 31 => pt (ℓ := (dst31 (flip 2 c)).view.loc (c : Thread nD τ)) (dst31 (flip 2 c)).view.set fullShare (Gout m)
  | 32 => pt (ℓ := (dst32 (flip 2 c)).view.loc (c : Thread nD τ)) (dst32 (flip 2 c)).view.set fullShare (Gout m)
  | 33 => pt (ℓ := (dst33 (flip 0 c)).view.loc (c : Thread nD τ)) (dst33 (flip 0 c)).view.set fullShare (Gout m)
  | 34 => pt (ℓ := (dst34 (flip 0 c)).view.loc (c : Thread nD τ)) (dst34 (flip 0 c)).view.set fullShare (Gout m)
  | 35 => pt (ℓ := (dst35 (flip 0 c)).view.loc (c : Thread nD τ)) (dst35 (flip 0 c)).view.set fullShare (Gout m)
  | ⟨_ + 36, h⟩ => absurd h (Nat.not_lt.2 (Nat.le_add_left _ _))
def slotsOf (a : Fin 3) : Finset (Fin 36) := Finset.univ.filter fun s => ax s = a
def barPay (c : Dev nD) (a : Fin 3) : sProp 𝕄 := bigSep (slotsOf a) fun s => held (flip a c) (dstAny c s)
def crOf (s : Fin 36) : ℕ := (dstAny (0 : Dev nD) s).m.view.dmaCredit
theorem crOf_pos : ∀ s, 0 < crOf s := by
  intro s; fin_cases s <;> exact View.dmaCredit_pos _ (by decide)
omit [FloatOps F] in
instance barPay_storable (c : Dev nD) (a : Fin 3) : BI.Storable (upEmb : UEmb _ 𝕄) (barPay (F := F) c a) := by
  unfold barPay; infer_instance
instance sendPay_storable (c : Dev nD) : (s : Fin 36) → BI.Storable (upEmb : UEmb _ 𝕄) (sendPay m c s)
  | 0 => pt_storable _ _ _
  | 1 => pt_storable _ _ _
  | 2 => pt_storable _ _ _
  | 3 => pt_storable _ _ _
  | 4 => pt_storable _ _ _
  | 5 => pt_storable _ _ _
  | 6 => pt_storable _ _ _
  | 7 => pt_storable _ _ _
  | 8 => pt_storable _ _ _
  | 9 => pt_storable _ _ _
  | 10 => pt_storable _ _ _
  | 11 => pt_storable _ _ _
  | 12 => pt_storable _ _ _
  | 13 => pt_storable _ _ _
  | 14 => pt_storable _ _ _
  | 15 => pt_storable _ _ _
  | 16 => pt_storable _ _ _
  | 17 => pt_storable _ _ _
  | 18 => pt_storable _ _ _
  | 19 => pt_storable _ _ _
  | 20 => pt_storable _ _ _
  | 21 => pt_storable _ _ _
  | 22 => pt_storable _ _ _
  | 23 => pt_storable _ _ _
  | 24 => pt_storable _ _ _
  | 25 => pt_storable _ _ _
  | 26 => pt_storable _ _ _
  | 27 => pt_storable _ _ _
  | 28 => pt_storable _ _ _
  | 29 => pt_storable _ _ _
  | 30 => pt_storable _ _ _
  | 31 => pt_storable _ _ _
  | 32 => pt_storable _ _ _
  | 33 => pt_storable _ _ _
  | 34 => pt_storable _ _ _
  | 35 => pt_storable _ _ _
  | ⟨_ + 36, h⟩ => absurd h (Nat.not_lt.2 (Nat.le_add_left _ _))
instance recvPay_storable (c : Dev nD) : (s : Fin 36) → BI.Storable (upEmb : UEmb _ 𝕄) (recvPay m c s)
  | 0 => pt_storable _ _ _
  | 1 => pt_storable _ _ _
  | 2 => pt_storable _ _ _
  | 3 => pt_storable _ _ _
  | 4 => pt_storable _ _ _
  | 5 => pt_storable _ _ _
  | 6 => pt_storable _ _ _
  | 7 => pt_storable _ _ _
  | 8 => pt_storable _ _ _
  | 9 => pt_storable _ _ _
  | 10 => pt_storable _ _ _
  | 11 => pt_storable _ _ _
  | 12 => pt_storable _ _ _
  | 13 => pt_storable _ _ _
  | 14 => pt_storable _ _ _
  | 15 => pt_storable _ _ _
  | 16 => pt_storable _ _ _
  | 17 => pt_storable _ _ _
  | 18 => pt_storable _ _ _
  | 19 => pt_storable _ _ _
  | 20 => pt_storable _ _ _
  | 21 => pt_storable _ _ _
  | 22 => pt_storable _ _ _
  | 23 => pt_storable _ _ _
  | 24 => pt_storable _ _ _
  | 25 => pt_storable _ _ _
  | 26 => pt_storable _ _ _
  | 27 => pt_storable _ _ _
  | 28 => pt_storable _ _ _
  | 29 => pt_storable _ _ _
  | 30 => pt_storable _ _ _
  | 31 => pt_storable _ _ _
  | 32 => pt_storable _ _ _
  | 33 => pt_storable _ _ _
  | 34 => pt_storable _ _ _
  | 35 => pt_storable _ _ _
  | ⟨_ + 36, h⟩ => absurd h (Nat.not_lt.2 (Nat.le_add_left _ _))
def pay : Pay F where
  bar := barPay
  send := sendPay m
  recv := recvPay m
  cr := crOf
  cr_pos := crOf_pos
  bar_storable := barPay_storable
  send_storable := sendPay_storable m
  recv_storable := recvPay_storable m
end Cert.KernelIdeal.TR
end
-- ==== Proof.LibRows.lean ====
import Idealize.ShloMosaic.Lib.Pipeline.Value
import Idealize.ShloMosaic.Lib.Rounds
noncomputable section
namespace Cert.TR.Rows
open Idealize.ShloMosaic
open Idealize.SL
open Idealize.SL.RA Idealize.SL.Sem Idealize.SL.ProofMode
open Idealize.SL.BI (sProp)
open scoped Idealize.SL.BI
open Idealize.SL.BI.BIBase Idealize.SL.BI.Laws
section Rows
variable {s : Shape} {a : Fin s.rank} {lo mid hi lo' hi' : ℕ}
def rows (s : Shape) (a : Fin s.rank) (lo hi : ℕ) : Finset s.Idx :=
  Finset.univ.filter fun i => lo ≤ (i a).val ∧ (i a).val < hi
theorem mem_rows {i : s.Idx} : i ∈ rows s a lo hi ↔ lo ≤ (i a).val ∧ (i a).val < hi := by
  simp [rows]
theorem rows_disjoint (h : hi ≤ lo') : Disjoint (rows s a lo hi) (rows s a lo' hi') := by
  rw [Finset.disjoint_left]
  intro i h₁ h₂
  have := mem_rows.mp h₁
  have := mem_rows.mp h₂
  omega
theorem rows_union (h₁ : lo ≤ mid) (h₂ : mid ≤ hi) :
    rows s a lo mid ∪ rows s a mid hi = rows s a lo hi := by
  ext i
  simp only [Finset.mem_union, mem_rows]
  omega
theorem rows_whole : rows s a 0 (s.size a) = Finset.univ := by
  ext i
  simp only [mem_rows, Finset.mem_univ, iff_true]
  exact ⟨Nat.zero_le _, (i a).isLt⟩
theorem rows_eq_univ (h : s.size a ≤ hi) : rows s a 0 hi = Finset.univ := by
  ext i
  simp only [mem_rows, Finset.mem_univ, iff_true]
  exact ⟨Nat.zero_le _, Nat.lt_of_lt_of_le (i a).isLt h⟩
end Rows
section Slab
variable {s : Shape} {a : Fin s.rank} {off size : Fin s.rank → ℕ}
def Slab (s : Shape) (a : Fin s.rank) (off size : Fin s.rank → ℕ) : Prop :=
  ∀ a', a' ≠ a → off a' = 0 ∧ size a' = s.size a'
theorem slab₂ {d off size : Fin 2 → ℕ} (h : off 1 = 0) (h' : size 1 = d 1) :
    Slab ⟨2, d⟩ 0 off size := by
  intro a' ha'
  rcases a' with ⟨_ | _ | n, hn⟩
  · exact absurd rfl ha'
  · exact ⟨h, h'⟩
  · exact absurd hn (by show ¬ (n + 1 + 1 < 2); omega)
theorem set_unit_of_slab {inb : ∀ a', off a' + size a' ≤ s.size a'} (h : Slab s a off size) :
    (Rect.unit off size inb).set = rows s a (off a) (off a + size a) := by
  ext i
  rw [Rect.mem_set_unit, mem_rows]
  constructor
  · intro hi; exact hi a
  · intro hi a'
    by_cases ha : a' = a
    · subst ha; exact hi
    · obtain ⟨h0, hs⟩ := h a' ha
      rw [h0, hs]
      exact ⟨Nat.zero_le _, by have := (i a').isLt; omega⟩
theorem mem_unit_iff_rows (inb : ∀ a', off a' + size a' ≤ s.size a') (h : Slab s a off size) {i : s.Idx} :
    i ∈ (Rect.unit off size inb).set ↔ i ∈ rows s a (off a) (off a + size a) := by
  rw [set_unit_of_slab h]
def localIdx {inb : ∀ a', off a' + size a' ≤ s.size a'} (i : s.Idx)
    (hi : i ∈ (Rect.unit off size inb).set) : (Rect.unit off size inb).shape.Idx :=
  fun a' => ⟨(i a').val - off a', by
    have := Rect.mem_set_unit.mp hi a'
    show (i a').val - off a' < size a'
    omega⟩
@[simp] theorem localIdx_val {inb : ∀ a', off a' + size a' ≤ s.size a'} (i : s.Idx)
    (hi : i ∈ (Rect.unit off size inb).set) (a' : Fin s.rank) :
    (localIdx i hi a').val = (i a').val - off a' := rfl
theorem emb_localIdx {inb : ∀ a', off a' + size a' ≤ s.size a'} (i : s.Idx)
    (hi : i ∈ (Rect.unit off size inb).set) : (Rect.unit off size inb).emb (localIdx i hi) = i := by
  funext a'
  apply Fin.ext
  have := Rect.mem_set_unit.mp hi a'
  show off a' + 1 * ((i a').val - off a') = (i a').val
  omega
theorem emb_unit_eq {inb : ∀ a', off a' + size a' ≤ s.size a'} (j : (Rect.unit off size inb).shape.Idx)
    (i : s.Idx) (h : ∀ a', (i a').val = off a' + (j a').val) : (Rect.unit off size inb).emb j = i := by
  funext a'
  apply Fin.ext
  show off a' + 1 * (j a').val = (i a').val
  rw [h a']; omega
end Slab
section Slices
variable {sig : RefSig} {κ : Kind}
theorem slice_view_set (b : Ref sig κ) {a : Fin b.ty.shape.rank} {off size : Fin b.ty.shape.rank → ℕ}
    (inb : ∀ a', off a' + size a' ≤ b.ty.shape.size a')
    (hr : ∀ a', (Rect.unit off size inb).stride a' = 1) (h : Slab b.ty.shape a off size) :
    ((Memref.whole b).slice (Rect.unit off size inb) hr).view.set
      = rows b.ty.shape a (off a) (off a + size a) :=
  (View.set_slice_whole b _).trans (set_unit_of_slab h)
theorem access_set (b : Ref sig κ) {a : Fin b.ty.shape.rank} {off size : Fin b.ty.shape.rank → ℕ}
    (inb : ∀ a', off a' + size a' ≤ b.ty.shape.size a') (h : Slab b.ty.shape a off size) :
    ((Memref.whole b).access (Rect.unit off size inb) : View sig κ _ _ _).set
      = rows b.ty.shape a (off a) (off a + size a) :=
  (View.set_slice_whole b _).trans (set_unit_of_slab h)
theorem squeeze_slice_view_set (b : Ref sig κ) {a : Fin b.ty.shape.rank} {off size : Fin b.ty.shape.rank → ℕ}
    (inb : ∀ a', off a' + size a' ≤ b.ty.shape.size a')
    (hr : ∀ a', (Rect.unit off size inb).stride a' = 1) (h : Slab b.ty.shape a off size)
    (s' : Shape) (hsq : (Rect.unit off size inb).shape.Squeezes s') :
    (((Memref.whole b).slice (Rect.unit off size inb) hr).squeeze s' hsq).view.set
      = rows b.ty.shape a (off a) (off a + size a) :=
  (View.set_reshape _ _).trans (slice_view_set b inb hr h)
variable {nD : Nat} {τ : Topo}
theorem emb_reshape_cons_one {n : ℕ} {d : Fin n → ℕ} {sp : Space} {e : EltTy}
    (v : View sig κ sp ⟨n + 1, Matrix.vecCons 1 d⟩ e)
    (h : (⟨n, d⟩ : Shape).numel = (⟨n + 1, Matrix.vecCons 1 d⟩ : Shape).numel) (j : (⟨n, d⟩ : Shape).Idx) :
    (v.reshape ⟨n, d⟩ h).emb j = v.emb (Fin.cons ⟨0, Nat.one_pos⟩ j) := by
  show v.emb (Shape.reshapeEquiv h j) = _
  rw [Shape.reshapeEquiv_cons_one]
theorem emb_unit_cons_eq {n : ℕ} {D : Fin (n + 1) → ℕ} {d : Fin n → ℕ} {off : Fin (n + 1) → ℕ}
    (inb : ∀ a, off a + Matrix.vecCons 1 d a ≤ (⟨n + 1, D⟩ : Shape).size a)
    (j : (⟨n, d⟩ : Shape).Idx) (i : (⟨n + 1, D⟩ : Shape).Idx) (h0 : (i 0).val = off 0)
    (h : ∀ a : Fin n, (i a.succ).val = off a.succ + (j a).val) :
    (Rect.unit (s := ⟨n + 1, D⟩) off (Matrix.vecCons 1 d) inb).emb (Fin.cons ⟨0, Nat.one_pos⟩ j) = i := by
  funext a'
  apply Fin.ext
  refine Fin.cases ?_ (fun a => ?_) a'
  · show off 0 + 1 * 0 = (i 0).val
    omega
  · show off a.succ + 1 * (j a).val = (i a.succ).val
    rw [h a]; omega
end Slices
section PointsTo
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl
variable {ℓ : Loc nD τ sig} {a : Fin ℓ.ty.shape.rank} {lo mid hi : ℕ} {q : PosShare TreeShare}
  {f f' : Buf Val ℓ}
theorem pointsTo_rows_split (h₁ : lo ≤ mid) (h₂ : mid ≤ hi) :
    (ℓ ↦[rows ℓ.ty.shape a lo hi]{q} f : sProp 𝕄)
      ⊣⊢ iprop((ℓ ↦[rows ℓ.ty.shape a lo mid]{q} f) ∗ ℓ ↦[rows ℓ.ty.shape a mid hi]{q} f) := by
  rw [← rows_union h₁ h₂]
  exact pointsTo_union (rows_disjoint le_rfl)
theorem pointsTo_rows_congr_eq (h : ∀ i ∈ rows ℓ.ty.shape a lo hi, f i = f' i) :
    (ℓ ↦[rows ℓ.ty.shape a lo hi]{q} f : sProp 𝕄) = ℓ ↦[rows ℓ.ty.shape a lo hi]{q} f' :=
  pointsTo_congr h
end PointsTo
section Values
variable {sig : RefSig} {κ κ' : Kind} (Val : EltTy → Type)
theorem write_access_apply (b : Ref sig κ) {off size : Fin b.ty.shape.rank → ℕ}
    (inb : ∀ a', off a' + size a' ≤ b.ty.shape.size a') (f : b.ty.Contents Val)
    (w : (Rect.unit off size inb).shape.Idx → Val b.ty.elt) (i : b.ty.shape.Idx)
    (j : (Rect.unit off size inb).shape.Idx) (hj : ∀ a', (i a').val = off a' + (j a').val) :
    ((Memref.whole b).access (Rect.unit off size inb) : View sig κ _ _ _).write Val f w Finset.univ i = w j := by
  have h := View.write_emb_of_mem (v := ((Memref.whole b).access (Rect.unit off size inb) : View sig κ _ _ _))
    (Val := Val) f w (M := Finset.univ) (x := j) (Finset.mem_univ _)
  have he : ((Memref.whole b).access (Rect.unit off size inb) : View sig κ _ _ _).emb j = i :=
    emb_unit_eq j i hj
  rw [he] at h
  exact h
theorem write_access_apply_of_mem (b : Ref sig κ) {off size : Fin b.ty.shape.rank → ℕ}
    (inb : ∀ a', off a' + size a' ≤ b.ty.shape.size a') (f : b.ty.Contents Val)
    (w : (Rect.unit off size inb).shape.Idx → Val b.ty.elt) {i : b.ty.shape.Idx}
    (hi : i ∈ (Rect.unit off size inb).set) :
    ((Memref.whole b).access (Rect.unit off size inb) : View sig κ _ _ _).write Val f w Finset.univ i
      = w (localIdx i hi) :=
  write_access_apply Val b inb f w i (localIdx i hi) fun a' => by
    have := Rect.mem_set_unit.mp hi a'
    rw [localIdx_val]; omega
theorem write_access_apply_of_not_mem (b : Ref sig κ) {off size : Fin b.ty.shape.rank → ℕ}
    (inb : ∀ a', off a' + size a' ≤ b.ty.shape.size a') (f : b.ty.Contents Val)
    (w : (Rect.unit off size inb).shape.Idx → Val b.ty.elt) {i : b.ty.shape.Idx}
    (hi : i ∉ (Rect.unit off size inb).set) :
    ((Memref.whole b).access (Rect.unit off size inb) : View sig κ _ _ _).write Val f w Finset.univ i = f i :=
  View.write_of_not_mem _ _ _ (by
    rw [View.setOn_univ]
    exact fun h => hi ((View.set_slice_whole b _) ▸ h))
theorem readAt_unit_apply (b : Ref sig κ) {off size : Fin b.ty.shape.rank → ℕ}
    (inb : ∀ a', off a' + size a' ≤ b.ty.shape.size a') (f : b.ty.Contents Val)
    (j : (Rect.unit off size inb).shape.Idx) :
    (Memref.whole b : Memref sig κ _ _ _).view.readAt Val (Rect.unit off size inb).toLoadRect f j
      = f ((Rect.unit off size inb).emb j) := rfl
variable {sp sp' : Space} {S : Shape} {e : EltTy}
theorem transfer_apply (src : View sig κ sp S e) (dst : View sig κ' sp' S e)
    (fs : src.ty.Contents Val) (fd : dst.ty.Contents Val) (i : dst.ty.Idx) (j : S.Idx)
    (hj : dst.emb j = i) :
    dst.write Val fd (src.read Val fs) Finset.univ i
      = cast (congrArg Val (src.elt_eq.trans dst.elt_eq.symm)) (fs (src.emb j)) := by
  subst hj
  rw [View.write_emb_of_mem _ _ (Finset.mem_univ j), View.read_apply, cast_cast]
theorem transfer_apply_of_not_mem (src : View sig κ sp S e) (dst : View sig κ' sp' S e)
    (fs : src.ty.Contents Val) (fd : dst.ty.Contents Val) {i : dst.ty.Idx} (hi : i ∉ dst.set) :
    dst.write Val fd (src.read Val fs) Finset.univ i = fd i :=
  View.write_of_not_mem _ _ _ (by rwa [View.setOn_univ])
theorem landed_apply {Val : EltTy → Type} {src : View sig κ sp S e} {dst : View sig κ' sp' S e}
    {fs : src.ty.Contents Val} {fd : dst.ty.Contents Val} {i : dst.ty.Idx} (j : S.Idx)
    (hj : dst.emb j = i) :
    dst.write Val fd (src.read Val fs) Finset.univ i
      = cast (congrArg Val (src.elt_eq.trans dst.elt_eq.symm)) (fs (src.emb j)) :=
  transfer_apply Val src dst fs fd i j hj
theorem slice_emb_eq {s : Shape} (v : View sig κ sp s e) {off size : Fin s.rank → ℕ}
    (inb : ∀ a', off a' + size a' ≤ s.size a') (j : (Rect.unit off size inb).shape.Idx) (i' : s.Idx)
    (h : ∀ a', (i' a').val = off a' + (j a').val) :
    (v.slice (Rect.unit off size inb)).emb j = v.emb i' := by
  show v.emb ((Rect.unit off size inb).emb j) = _
  rw [emb_unit_eq j i' h]
theorem squeeze_slice_emb_eq {n : ℕ} {D : Fin (n + 1) → ℕ} {d : Fin n → ℕ} (v : View sig κ sp ⟨n + 1, D⟩ e)
    {off : Fin (n + 1) → ℕ} (inb : ∀ a, off a + Matrix.vecCons 1 d a ≤ (⟨n + 1, D⟩ : Shape).size a)
    (hn : (⟨n, d⟩ : Shape).numel = (⟨n + 1, Matrix.vecCons 1 d⟩ : Shape).numel)
    (j : (⟨n, d⟩ : Shape).Idx) (i' : (⟨n + 1, D⟩ : Shape).Idx) (h0 : (i' 0).val = off 0)
    (h : ∀ a : Fin n, (i' a.succ).val = off a.succ + (j a).val) :
    ((v.slice (Rect.unit (s := ⟨n + 1, D⟩) off (Matrix.vecCons 1 d) inb)).reshape ⟨n, d⟩ hn).emb j = v.emb i' := by
  rw [emb_reshape_cons_one]
  show v.emb ((Rect.unit (s := ⟨n + 1, D⟩) off (Matrix.vecCons 1 d) inb).emb (Fin.cons ⟨0, Nat.one_pos⟩ j)) = _
  rw [emb_unit_cons_eq inb j i' h0 h]
end Values
section PointsToSlices
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl
theorem pointsTo_slice_eq (c : Thread nD τ) (b : Ref sig c.2.kind) {a : Fin b.ty.shape.rank}
    {off size : Fin b.ty.shape.rank → ℕ} (inb : ∀ a', off a' + size a' ≤ b.ty.shape.size a')
    (hr : ∀ a', (Rect.unit off size inb).stride a' = 1) (h : Slab b.ty.shape a off size)
    (q : PosShare TreeShare) (fs : Buf Val (c.loc b)) :
    (((Memref.whole b).slice (Rect.unit off size inb) hr).view.loc c
        ↦[((Memref.whole b).slice (Rect.unit off size inb) hr).view.set]{q} fs : sProp 𝕄)
      = (c.loc b ↦[rows b.ty.shape a (off a) (off a + size a)]{q} fs) :=
  congrArg (fun I => (c.loc b ↦[I]{q} fs : sProp 𝕄)) (slice_view_set b inb hr h)
theorem pointsTo_rows_split_at (c : Thread nD τ) (b : Ref sig c.2.kind) (a : Fin b.ty.shape.rank)
    {lo mid hi : ℕ} (h₁ : lo ≤ mid) (h₂ : mid ≤ hi) (q : PosShare TreeShare) (f : Buf Val (c.loc b)) :
    (c.loc b ↦[rows b.ty.shape a lo hi]{q} f : sProp 𝕄)
      ⊣⊢ iprop((c.loc b ↦[rows b.ty.shape a lo mid]{q} f) ∗ c.loc b ↦[rows b.ty.shape a mid hi]{q} f) :=
  pointsTo_rows_split (ℓ := c.loc b) (a := a) h₁ h₂
theorem pointsTo_rows_congr_at (c : Thread nD τ) (b : Ref sig c.2.kind) (a : Fin b.ty.shape.rank)
    {lo hi : ℕ} (q : PosShare TreeShare) {f f' : Buf Val (c.loc b)}
    (h : ∀ i ∈ rows b.ty.shape a lo hi, f i = f' i) :
    (c.loc b ↦[rows b.ty.shape a lo hi]{q} f : sProp 𝕄) = (c.loc b ↦[rows b.ty.shape a lo hi]{q} f') :=
  pointsTo_rows_congr_eq (ℓ := c.loc b) (a := a) h
end PointsToSlices
end Cert.TR.Rows
end
-- ==== Proof.Body.lean ====
import proofs.«901104_g7700000000001105_dist_treered_v7x_i8_m2048_n1024_f32_1_alg».proof.Proof.Payloads
import proofs.«901104_g7700000000001105_dist_treered_v7x_i8_m2048_n1024_f32_1_alg».proof.Proof.LibRows
import proofs.«901104_g7700000000001105_dist_treered_v7x_i8_m2048_n1024_f32_1_alg».proof.Proof.Gen.KernelIdeal.Skeleton
import proofs.«901104_g7700000000001105_dist_treered_v7x_i8_m2048_n1024_f32_1_alg».proof.Proof.Gen.KernelIdeal.Points
import Idealize.ShloMosaic.Lib.Pipeline.Launch
import Idealize.ShloMosaic.Lib.Pipeline.Kit
import Idealize.ShloMosaic.Lib.Tactic
set_option maxRecDepth 65536
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ UU ℕ
variable (m : (ℓ : Loc nD τ sig) → Buf (Elt F) ℓ) (ρ : Dev nD → PrngReg)
def s₀ : MemSt nD τ sig (Elt F) := ⟨m, fun _ => 0, ρ⟩
abbrev 𝒱₀ : Variants := Variants.none
abbrev wholeAt (c : Dev nD) (b : Ref sig .tc) : sProp 𝕄 :=
  iprop(∃ f : Buf (Elt F) ((c : Thread nD τ).loc b), ((c : Thread nD τ).loc b) ↦{fullShare} f)
def scr (c : Dev nD) : sProp 𝕄 :=
  iprop(wholeAt c cc0_scratch0 ∗ wholeAt c cc0_scratch1 ∗ wholeAt c cc0_scratch2 ∗ wholeAt c cc0_scratch3
    ∗ wholeAt c cc0_scratch4 ∗ wholeAt c cc0_scratch5 ∗ wholeAt c cc0_scratch6 ∗ wholeAt c cc0_scratch7
    ∗ wholeAt c cc0_scratch8 ∗ wholeAt c cc0_scratch9 ∗ wholeAt c cc0_scratch10 ∗ wholeAt c cc0_scratch11)
def closedSems (c : Dev nD) : sProp 𝕄 :=
  bigSep Finset.univ fun s : Fin 36 => iprop(semVal (sendCell c s) 0 ∗ semVal (recvCell c s) 0)
def Φ₀ (c : Dev nD) : sProp 𝕄 := iprop(start (pay m) c ∗ scr c)
omit m ρ in
def Φ₁ (c : Dev nD) : sProp 𝕄 := iprop(scr c ∗ closedSems c)
def xAt (c : Dev nD) : (cc0_stg0_0 : Ref sig .tc).ty.Contents (Elt F) := Gx m c
def outAt : (cc0_stg1_0 : Ref sig .tc).ty.Contents (Elt F) := Gout m
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => outAt m
  Φ t := match t with
    | ⟨0, _⟩ => Φ₀ m c
    | ⟨_ + 1, _⟩ => Φ₁ (F := F) c
  q _ := fullShare
  owed t := match t with
    | ⟨0, _⟩ => O₀ (pay m) c
    | ⟨_ + 1, _⟩ => 0
theorem fetched_x (c : Dev nD) : (win0_0.blk (0 : Fin 1)).view.read (Elt F) ((s₀ m ρ).mem ((c : Thread nD τ).loc main_arg0)) = xAt m c := by
  have h := Memref.read_access_unit_zero (Elt F) (main_arg0 : Ref sig .tc) (off := fun a => win0_0.index (0 : Fin 1) a * win0_0.size a)
    (funext fun a => Nat.zero_mul _) (fun a => Pipeline.Clip.inb (win0_0.hclip (grid0.coords (0 : Fin 1)) a)) (m ((c : Thread nD τ).loc main_arg0))
  funext i
  unfold xAt Gx xs s₀
  refine (congrFun h i).trans ?_
  have hi : i = ValueIdx.ix3 (0 : Fin 1) (i 1 : Fin 2048) (i 2 : Fin 1024) :=
    (ValueIdx.eq_ix3 i).trans (congrArg (fun z : Fin 1 => ValueIdx.ix3 z (i 1 : Fin 2048) (i 2 : Fin 1024)) (Fin.eq_zero (i 0 : Fin 1)))
  exact congrArg _ hi
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
section Body
variable (K : Dev nD × Fin 73 → ℕ)
def bodyPre (c : Dev nD) : sProp 𝕄 :=
  iprop((ghost (pay m) K c ∗ creds (pay m) c ∗ levAts L lv) ∗ scr c
    ∗ (∃ W, (owes (c : Thread nD τ) (O₀ (pay m) c) W : sProp 𝕄))
    ∗ (((c : Thread nD τ).loc cc0_stg0_0) ↦{fullShare} xAt m c) ∗ wholeAt c cc0_stg1_0)
omit ρ K in
def bodyPost (c : Dev nD) : sProp 𝕄 :=
  iprop(Φ₁ c ∗ (∃ W, (owes (c : Thread nD τ) 0 W : sProp 𝕄))
    ∗ (((c : Thread nD τ).loc cc0_stg0_0) ↦{fullShare} xAt m c) ∗ (((c : Thread nD τ).loc cc0_stg1_0) ↦{fullShare} outAt m))
end Body
end Cert.KernelIdeal.TR
end
-- ==== Proof.Slots.lean ====
import proofs.«901104_g7700000000001105_dist_treered_v7x_i8_m2048_n1024_f32_1_alg».proof.Proof.Payloads
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)
omit m in
def slotTok (c : Dev nD) (s : Fin 36) : sProp 𝕄 :=
  iprop(dutyTok ER (sendCell c s) 0 (0 : Fin 3) ∗ dutyTok ER (recvCell (flip (ax s) c) s) 0 (0 : Fin 3)
    ∗ held (flip (ax s) c) (dstAny c s) ∗ cred (tallyAt (recvCell c s) () (crOf s))
    ∗ atPos ER (sendCell c s) 0 (∅ : Finset (Fin 3)) 0 ∗ atPos ER (recvCell c s) 0 (∅ : Finset (Fin 3)) 0)
omit m in
def slotFly (c : Dev nD) (s : Fin 36) : sProp 𝕄 :=
  iprop(cred (tallyAt (sendCell c s) () (crOf s)) ∗ cred (tallyAt (recvCell c s) () (crOf s))
    ∗ atPos ER (sendCell c s) 0 (∅ : Finset (Fin 3)) 0 ∗ atPos ER (recvCell c s) 0 (∅ : Finset (Fin 3)) 0)
omit m in
def slotEnd (c : Dev nD) (s : Fin 36) : sProp 𝕄 :=
  iprop(atPos ER (sendCell c s) 1 (∅ : Finset (Fin 3)) 0 ∗ atPos ER (recvCell c s) 1 (∅ : Finset (Fin 3)) 0)
def slotPassed (c : Dev nD) (s : Fin 36) : sProp 𝕄 := iprop(sendPay m c s ∗ slotEnd c s)
def slotDone (c : Dev nD) (s : Fin 36) : sProp 𝕄 :=
  iprop(sendPay m c s ∗ recvPay m c s ∗ atPos ER (sendCell c s) 1 (∅ : Finset (Fin 3)) 0 ∗ atPos ER (recvCell c s) 1 (∅ : Finset (Fin 3)) 0)
end Cert.KernelIdeal.TR
end
-- ==== Proof.Steps.lean ====
import proofs.«901104_g7700000000001105_dist_treered_v7x_i8_m2048_n1024_f32_1_alg».proof.Proof.Slots
import Idealize.ShloMosaic.Lib.Rounds
import Idealize.ShloMosaic.Lib.Pipeline.Launch
import Idealize.ShloMosaic.Lib.Tactic
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : Dev nD × Fin 73 → ℕ) (c : Dev nD)
variable {α : Type}
theorem inv_bar : records (pay m) K ⊢ cellInv ER (rd (pay m)) (K (c, kBar)) (barCell c) := by
  have h := inv_at (pay m) K (c, kBar); rw [kcell_kBar] at h; exact h
theorem inv_send (s : Fin 36) : records (pay m) K ⊢ cellInv ER (rd (pay m)) (K (c, kSend s)) (sendCell c s) := by
  have h := inv_at (pay m) K (c, kSend s); rw [kcell_kSend] at h; exact h
theorem inv_recv (s : Fin 36) : records (pay m) K ⊢ cellInv ER (rd (pay m)) (K (c, kRecv s)) (recvCell c s) := by
  have h := inv_at (pay m) K (c, kRecv s); rw [kcell_kRecv] at h; exact h
theorem reached_bar : records (pay m) K ⊢ reached ER (barCell c) 0 := by
  have h := reached_at (pay m) K (c, kBar); rw [kcell_kBar] at h; exact h
theorem reached_send (s : Fin 36) : records (pay m) K ⊢ reached ER (sendCell c s) 0 := by
  have h := reached_at (pay m) K (c, kSend s); rw [kcell_kSend] at h; exact h
theorem reached_recv (s : Fin 36) : records (pay m) K ⊢ reached ER (recvCell c s) 0 := by
  have h := reached_at (pay m) K (c, kRecv s); rw [kcell_kRecv] at h; exact h
theorem payload_bar_pay (a : Fin 3) : (rd (pay m)).payload (barCell c) 0 a = barPay c a := payload_bar (pay m) c a
theorem rest_bar_pay : bigSep ((rd (pay m)).duties (barCell c) 0 \ ∅) (fun d => (rd (pay m)).payload (barCell c) 0 d)
    = iprop(barPay c 0 ∗ barPay c 1 ∗ barPay c 2) := rest_bar (pay m) c
theorem rest_send_pay (s : Fin 36) : bigSep ((rd (pay m)).duties (sendCell c s) 0 \ ∅) (fun d => (rd (pay m)).payload (sendCell c s) 0 d)
    = sendPay m c s := rest_send (pay m) c s
theorem rest_recv_pay (s : Fin 36) : bigSep ((rd (pay m)).duties (recvCell c s) 0 \ ∅) (fun d => (rd (pay m)).payload (recvCell c s) 0 d)
    = recvPay m c s := rest_recv (pay m) c s
theorem dstAny_credit (s : Fin 36) : (dstAny c s).m.view.dmaCredit = crOf s := by
  fin_cases s <;> rfl
theorem barPay_flip (a : Fin 3) :
    barPay (F := F) (flip a c) a = bigSep (slotsOf a) fun s => held c (dstAny (flip a c) s) := by
  unfold barPay; rw [flip_flip]
theorem step_enq (n : Dev nD) (s : Fin 36) (hn : n = flip (ax s) c)
    {sp sp' : Space} {sh : Shape} (src : Memref sig .tc sp sh .f32) (dst : Memref sig .tc sp' sh .f32)
    (hd : dstAny c s = ⟨sp', sh, .f32, dst⟩)
    (sS sR : DmaSem sig) (hS : sS = sendSem s) (hR : sR = recvSem s)
    (fs : Buf (Elt F) (src.view.loc (c : Thread nD τ)))
    (hsend : ((src.view.loc (c : Thread nD τ)) ↦[src.view.set]{shareOf s} fs : sProp 𝕄) ⊢ sendPay m c s)
    (hrecv : ∀ fd, ((dst.view.loc (Dev.tc n : Thread nD τ)) ↦[dst.view.set]{fullShare}
        (dst.view.write (Elt F) fd (src.view.read (Elt F) fs) Finset.univ) : sProp 𝕄) ⊢ recvPay m n s)
    {hsc : (dst : Memref sig (Dev.tc n : Thread nD τ).2.kind sp' sh .f32).view.ref.isScScratch = false}
    {hsrc : src.view.WordExact} {hdst : dst.view.WordExact}
    {hsem : DmaTarget.Typed sp (.dma sR) (.remote (Dev.tc n : Thread nD τ) dst (.dma sS) hsc)}
    {Q : α → sProp 𝕄} {k : PUnit → Prog (TpuEff nD τ sig (Elt F) Λ₀ .tc) α}
    (O : CellTallies nD τ sig Unit) (W : Waits sig Unit) :
    iprop(records (pay m) K ∗ slotTok c s ∗ (src.view.loc (c : Thread nD τ) ↦[src.view.set]{shareOf s} fs)
        ∗ owes (c : Thread nD τ) (O + arr (pay m) c s) W)
      ⊢ iprop(((slotFly c s ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ (.op (.enqueueDma src (.remote (Dev.tc n : Thread nD τ) dst (.dma sS) hsc) (.dma sR) hsrc hdst hsem) k) Q) := by
  subst hn hS hR
  have hN : dst.view.dmaCredit = crOf s := by
    have h := dstAny_credit c s; rw [hd] at h; exact h
  have hp₁ : (src.view.loc (c : Thread nD τ) ↦[src.view.set]{shareOf s} fs : sProp 𝕄)
      ⊢ (rd (pay m)).payload (sendCell c s) 0 (0 : Fin 3) := by
    rw [payload_send]; exact hsend
  have hp₂ (fd : Buf (Elt F) (dst.view.loc ((flip (ax s) c : Dev nD) : Thread nD τ))) :
      (dst.view.loc ((flip (ax s) c : Dev nD) : Thread nD τ) ↦[dst.view.set]{fullShare}
          (dst.view.write (Elt F) fd (src.view.read (Elt F) fs) Finset.univ) : sProp 𝕄)
        ⊢ (rd (pay m)).payload (recvCell (flip (ax s) c) s) 0 (0 : Fin 3) := by
    rw [payload_recv]; exact hrecv fd
  unfold slotTok slotFly
  rw [hd]
  simp only [held, heldQ_def]
  iintro ⟨#Hrec, ⟨HtS, HtR, ⟨%fd, Hdst⟩, HcR, HaS, HaR⟩, Hsrc, HO⟩ Hk
  iapply (Rounds.wp_send_pointsTo Variants.none ER (rd (pay m)) (c : Thread nD τ) none
      (κ₁ := K (c, kSend s)) (κ₂ := K (flip (ax s) c, kRecv s)) (r₁ := 0) (r₂ := 0) (d₁ := (0 : Fin 3)) (d₂ := (0 : Fin 3)) (fs := fs) (fd := fd)
      (sS := .dma (sendSem s)) (sem := .dma (recvSem s))
      (by rw [duties_send]; exact Finset.mem_singleton_self _) (by rw [duties_recv]; exact Finset.mem_singleton_self _)
      () () (crOf s) hN (amount_send (pay m) c s 0) (amount_recv (pay m) (flip (ax s) c) s 0) O rfl (W := W)
      hp₁ (hp₂ fd)) $$ [Hsrc Hdst HO HtS HtR]
  · isplitr; · iapply (inv_send m K c s); iexact Hrec
    isplitr; · iapply (inv_recv m K (flip (ax s) c) s); iexact Hrec
    isplitl [Hsrc]; · iexact Hsrc
    isplitl [Hdst]; · iexact Hdst
    isplitl [HO]; · iexact HO
    isplitl [HtS]; · iexact HtS
    isplitr; · iapply (reached_send m K c s); iexact Hrec
    isplitl [HtR]; · iexact HtR
    iapply (reached_recv m K (flip (ax s) c) s); iexact Hrec
  iintro ⟨HcS, HO⟩
  iapply Hk
  isplitl [HcS HcR HaS HaR]
  · iframe
  iexact HO
theorem step_wait_send (s : Fin 36) (sS : DmaSem sig) (hS : sS = sendSem s)
    {sp₁ sp₂ : Space} {sh₁ sh₂ : Shape} {e₁ e₂ : EltTy} {κ' : Kind}
    (a : Memref sig .tc sp₁ sh₁ e₁) (b : Memref sig κ' sp₂ sh₂ e₂) {h₁ : a.view.WordExact} {h₂ : b.view.WordExact}
    (hcr : b.view.dmaCredit = crOf s)
    {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma sS) () O) :
    iprop(records (pay m) K ∗ levAts L lv ∗ cred (tallyAt (sendCell c s) () (crOf s))
        ∗ atPos ER (sendCell c s) 0 (∅ : Finset (Fin 3)) 0 ∗ owes (c : Thread nD τ) O W)
      ⊢ iprop(((sendPay m c s ∗ atPos ER (sendCell c s) 1 (∅ : Finset (Fin 3)) 0 ∗ owes (c : Thread nD τ) O (insert (SemLoc.dma sS, ()) W)) -∗ wp frame (wpE (defs₀ (F := F)) Variants.none (c : Thread nD τ) none) Set.univ (k ⟨⟩) Q)
          -∗ wp frame (wpE (defs₀ (F := F)) Variants.none (c : Thread nD τ) none) Set.univ (.op (.waitDma2 sS a b h₁ h₂) k) Q) := by
  subst hS
  rw [← hcr]
  iintro ⟨#Hrec, #Hlev, Hc, Hat, HO⟩ Hk
  iapply (Rounds.wp_wait_rest_token Variants.none ER (rd (pay m)) (c : Thread nD τ) none (κ := K (c, kSend s))
      (wpE_waitDma2_eq Variants.none (c : Thread nD τ) none Set.univ) (Set.mem_univ _) () (O := O) (W := W) (R := 0) (m := 0) (T := ∅)
      (by rw [Nat.zero_add, expect_send]; exact hcr)) $$ [Hc HO Hat]
  · isplitr; · iapply (inv_send m K c s); iexact Hrec
    isplitl [Hc]; · iexact Hc
    isplitl [HO]; · iexact HO
    isplitr; · iapply hmw; iexact Hlev
    iexact Hat
  iintro ⟨HO, Hat, -, Hpay⟩
  ihave Hp := (Entails.of_eq (rest_send_pay m c s)) $$ Hpay
  iapply Hk
  iframe
theorem step_wait_recv (s : Fin 36) (sR : DmaSem sig) (hR : sR = recvSem s)
    {sp₁ sp₂ : Space} {sh₁ sh₂ : Shape} {e₁ e₂ : EltTy} {κ' : Kind}
    (a : Memref sig .tc sp₁ sh₁ e₁) (b : Memref sig κ' sp₂ sh₂ e₂) {h₁ : a.view.WordExact} {h₂ : b.view.WordExact}
    (hcr : b.view.dmaCredit = crOf s)
    {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma sR) () O) :
    iprop(records (pay m) K ∗ levAts L lv ∗ cred (tallyAt (recvCell c s) () (crOf s))
        ∗ atPos ER (recvCell c s) 0 (∅ : Finset (Fin 3)) 0 ∗ owes (c : Thread nD τ) O W)
      ⊢ iprop(((recvPay m c s ∗ atPos ER (recvCell c s) 1 (∅ : Finset (Fin 3)) 0 ∗ owes (c : Thread nD τ) O (insert (SemLoc.dma sR, ()) W)) -∗ wp frame (wpE (defs₀ (F := F)) Variants.none (c : Thread nD τ) none) Set.univ (k ⟨⟩) Q)
          -∗ wp frame (wpE (defs₀ (F := F)) Variants.none (c : Thread nD τ) none) Set.univ (.op (.waitDma2 sR a b h₁ h₂) k) Q) := by
  subst hR
  rw [← hcr]
  iintro ⟨#Hrec, #Hlev, Hc, Hat, HO⟩ Hk
  iapply (Rounds.wp_wait_rest_token Variants.none ER (rd (pay m)) (c : Thread nD τ) none (κ := K (c, kRecv s))
      (wpE_waitDma2_eq Variants.none (c : Thread nD τ) none Set.univ) (Set.mem_univ _) () (O := O) (W := W) (R := 0) (m := 0) (T := ∅)
      (by rw [Nat.zero_add, expect_recv]; exact hcr)) $$ [Hc HO Hat]
  · isplitr; · iapply (inv_recv m K c s); iexact Hrec
    isplitl [Hc]; · iexact Hc
    isplitl [HO]; · iexact HO
    isplitr; · iapply hmw; iexact Hlev
    iexact Hat
  iintro ⟨HO, Hat, -, Hpay⟩
  ihave Hp := (Entails.of_eq (rest_recv_pay m c s)) $$ Hpay
  iapply Hk
  iframe
theorem step_waits (s : Fin 36) (sS sR : DmaSem sig) (hS : sS = sendSem s) (hR : sR = recvSem s)
    {sp₁ sp₂ sp₃ sp₄ : Space} {sh₁ sh₂ sh₃ sh₄ : Shape} {e₁ e₂ e₃ e₄ : EltTy} {κ₁ κ₂ : Kind}
    (a₁ : Memref sig .tc sp₁ sh₁ e₁) (b₁ : Memref sig κ₁ sp₂ sh₂ e₂) {h₁ : a₁.view.WordExact} {h₁' : b₁.view.WordExact}
    (a₂ : Memref sig .tc sp₃ sh₃ e₃) (b₂ : Memref sig κ₂ sp₄ sh₄ e₄) {h₂ : a₂.view.WordExact} {h₂' : b₂.view.WordExact}
    (hcr₁ : b₁.view.dmaCredit = crOf s) (hcr₂ : b₂.view.dmaCredit = crOf s)
    {Q : α → sProp 𝕄} {k₂ : PUnit → Prog (TpuEff nD τ sig (Elt F) Λ₀ .tc) α}
    (O : CellTallies nD τ sig Unit) (W : Waits sig Unit)
    (hmwS : (levAts L lv : sProp 𝕄) ⊢ MayWait (c : Thread nD τ) (.dma sS) () O)
    (hmwR : (levAts L lv : sProp 𝕄) ⊢ MayWait (c : Thread nD τ) (.dma sR) () O) :
    iprop(records (pay m) K ∗ levAts L lv ∗ slotFly c s ∗ owes (c : Thread nD τ) O W)
      ⊢ iprop(((slotDone m c s ∗ ∃ W', owes (c : Thread nD τ) O W') -∗ wp frame (wpE (defs₀ (F := F)) Variants.none (c : Thread nD τ) none) Set.univ (k₂ ⟨⟩) Q)
          -∗ wp frame (wpE (defs₀ (F := F)) Variants.none (c : Thread nD τ) none) Set.univ (.op (.waitDma2 sS a₁ b₁ h₁ h₁') fun _ => .op (.waitDma2 sR a₂ b₂ h₂ h₂') k₂) Q) := by
  unfold slotFly slotDone
  iintro ⟨#Hrec, #Hlev, ⟨HcS, HcR, HaS, HaR⟩, HO⟩ Hk
  iapply (step_wait_send m K c s sS hS a₁ b₁ hcr₁ O W hmwS) $$ [HcS HaS HO]
  · iframe # ∗
  iintro ⟨Hsp, HaS, HO⟩
  iapply (step_wait_recv m K c s sR hR a₂ b₂ hcr₂ O _ hmwR) $$ [HcR HaR HO]
  · iframe # ∗
  iintro ⟨Hrp, HaR, HO⟩
  iapply Hk
  isplitl [Hsp Hrp HaS HaR]
  · iframe
  iexists _; iexact HO
theorem step_signal (n : Dev nD) (a : Fin 3) (hn : n = flip a c)
    {Q : α → sProp 𝕄} {k : PUnit → Prog (TpuEff nD τ sig (Elt F) Λ₀ .tc) α}
    (O : CellTallies nD τ sig Unit) (W : Waits sig Unit) :
    iprop(records (pay m) K ∗ dutyTok ER (barCell (flip a c)) 0 a ∗ barPay (flip a c) a ∗ owes (c : Thread nD τ) (O + bsig c a) W)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (Dev.tc n : Thread nD τ) barS 1) k) Q) := by
  subst hn
  iintro ⟨#Hrec, Htok, Hpay, HO⟩ Hk
  iapply (Rounds.wp_signal Variants.none ER (rd (pay m)) (c : Thread nD τ) none (dst := (flip a c : Thread nD τ)) (κ := K (flip a c, kBar))
      (d := a) (by rw [duties_bar]; exact Finset.mem_univ _) (amount_bar (pay m) (flip a c) a) () O rfl) $$ [HO Htok Hpay]
  · isplitr; · iapply (inv_bar m K (flip a c)); iexact Hrec
    isplitl [HO]; · iexact HO
    isplitl [Htok]; · iexact Htok
    isplitl [Hpay]; · rw [payload_bar_pay]; iexact Hpay
    iapply (reached_bar m K (flip a c)); iexact Hrec
  iexact Hk
theorem step_barwait
    {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.reg barS) () O) :
    iprop(records (pay m) K ∗ levAts L lv ∗ cred (tallyAt (barCell c) () 3) ∗ atPos ER (barCell c) 0 (∅ : Finset (Fin 3)) 0 ∗ owes (c : Thread nD τ) O W)
      ⊢ iprop(((owes (c : Thread nD τ) O (insert (SemLoc.reg barS, ()) W) ∗ atPos ER (barCell c) 1 (∅ : Finset (Fin 3)) 0
              ∗ barPay c 0 ∗ barPay c 1 ∗ barPay c 2) -∗ wp frame (wpE (defs₀ (F := F)) Variants.none (c : Thread nD τ) none) Set.univ (k ⟨⟩) Q)
          -∗ wp frame (wpE (defs₀ (F := F)) Variants.none (c : Thread nD τ) none) Set.univ (.op (.semWait barS 3) k) Q) := by
  iintro ⟨#Hrec, #Hlev, Hc, Hat, HO⟩ Hk
  iapply (Rounds.wp_wait_rest_token Variants.none ER (rd (pay m)) (c : Thread nD τ) none (κ := K (c, kBar))
      (wpE_semWait_eq Variants.none (c : Thread nD τ) none Set.univ) (Set.mem_univ _) () (O := O) (W := W) (R := 0) (m := 0) (T := ∅)
      (by rw [expect_bar])) $$ [Hc HO Hat]
  · isplitr; · iapply (inv_bar m K c); iexact Hrec
    isplitl [Hc]; · iexact Hc
    isplitl [HO]; · iexact HO
    isplitr; · iapply hmw; iexact Hlev
    iexact Hat
  iintro ⟨HO, Hat, -, Hpay⟩
  ihave Hp := (Entails.of_eq (rest_bar_pay m c)) $$ Hpay
  icases Hp with ⟨H0, H1, H2⟩
  iapply Hk
  iframe
theorem slot_close (s : Fin 36) :
    iprop(records (pay m) K ∗ atPos ER (sendCell c s) 1 (∅ : Finset (Fin 3)) 0 ∗ atPos ER (recvCell c s) 1 (∅ : Finset (Fin 3)) 0)
      ⊢ |={Set.univ}=> iprop(semVal (sendCell c s) 0 ∗ semVal (recvCell c s) 0) := by
  iintro ⟨#Hrec, HaS, HaR⟩
  imod (Rounds.cell_close ER (rd (pay m)) (Set.mem_univ (K (c, kSend s))) (fun h => h) (R := 1) (duties_later (pay m) (sendCell c s))) $$ [HaS] with HzS
  · isplitr; · iapply (inv_send m K c s); iexact Hrec
    iexact HaS
  imod (Rounds.cell_close ER (rd (pay m)) (Set.mem_univ (K (c, kRecv s))) (fun h => h) (R := 1) (duties_later (pay m) (recvCell c s))) $$ [HaR] with HzR
  · isplitr; · iapply (inv_recv m K c s); iexact Hrec
    iexact HaR
  imodintro
  isplitl [HzS] <;> iassumption
end Cert.KernelIdeal.TR
end
-- ==== Proof.Res0.lean ====
import proofs.«901104_g7700000000001105_dist_treered_v7x_i8_m2048_n1024_f32_1_alg».proof.Proof.Slots
import proofs.«901104_g7700000000001105_dist_treered_v7x_i8_m2048_n1024_f32_1_alg».proof.Proof.LibRows
noncomputable section
namespace Cert.KernelIdeal.TR.P0
open Cert.KernelIdeal Cert.KernelIdeal.Gen Cert.KernelIdeal.TR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)
def xl19 (c : Dev nD) : sProp 𝕄 := pt (ℓ := (bIn.slice (u19 c) (fun _ => rfl)).view.loc (c : Thread nD τ)) (bIn.slice (u19 c) (fun _ => rfl)).view.set fullShare (Gx m c)
def xl22 (c : Dev nD) : sProp 𝕄 := pt (ℓ := (bIn.slice (u22 c) (fun _ => rfl)).view.loc (c : Thread nD τ)) (bIn.slice (u22 c) (fun _ => rfl)).view.set fullShare (Gx m c)
def xl25 (c : Dev nD) : sProp 𝕄 := pt (ℓ := (bIn.slice (u25 c) (fun _ => rfl)).view.loc (c : Thread nD τ)) (bIn.slice (u25 c) (fun _ => rfl)).view.set fullShare (Gx m c)
def a20 (c : Dev nD) : sProp 𝕄 := held c ⟨_, _, _, (b0.slice (u20 c) (fun _ => rfl))⟩
def a23 (c : Dev nD) : sProp 𝕄 := held c ⟨_, _, _, (b0.slice (u23 c) (fun _ => rfl))⟩
def a26 (c : Dev nD) : sProp 𝕄 := held c ⟨_, _, _, (b0.slice (u26 c) (fun _ => rfl))⟩
def a26s (c : Dev nD) : sProp 𝕄 := pt (ℓ := (b0.slice (u26 c) (fun _ => rfl)).view.loc (c : Thread nD τ)) (b0.slice (u26 c) (fun _ => rfl)).view.set fullShare (Ga1 m c)
def a46s (c : Dev nD) : sProp 𝕄 := pt (ℓ := (b0.slice (u46 c) (fun _ => rfl)).view.loc (c : Thread nD τ)) (b0.slice (u46 c) (fun _ => rfl)).view.set fullShare (Ga2 m c)
def o58 (c : Dev nD) : sProp 𝕄 := held c ⟨_, _, _, (bOut.slice (u58 c) (fun _ => rfl))⟩
def xl (c : Dev nD) : sProp 𝕄 := iprop(xl19 m c ∗ xl22 m c ∗ xl25 m c)
def B0 (c : Dev nD) : sProp 𝕄 :=
  iprop((slotTok c s0 ∗ slotTok c s1 ∗ slotTok c s2 ∗ slotTok c s3 ∗ slotTok c s4 ∗ slotTok c s5 ∗ slotTok c s6 ∗ slotTok c s7 ∗ slotTok c s8 ∗ slotTok c s9 ∗ slotTok c s10 ∗ slotTok c s11)
    ∗ (sendPay m c s0 ∗ sendPay m c s1 ∗ sendPay m c s2)
    ∗ xl m c ∗ (a20 c ∗ a23 c ∗ a26 c) ∗ o58 c)
def B1 (c : Dev nD) : sProp 𝕄 :=
  iprop((slotFly c s0 ∗ slotFly c s1 ∗ slotFly c s2 ∗ slotTok c s3 ∗ slotTok c s4 ∗ slotTok c s5 ∗ slotTok c s6 ∗ slotTok c s7 ∗ slotTok c s8 ∗ slotTok c s9 ∗ slotTok c s10 ∗ slotTok c s11)
    ∗ xl m c ∗ (a20 c ∗ a23 c ∗ a26 c) ∗ o58 c)
def B2 (c : Dev nD) : sProp 𝕄 :=
  iprop((slotDone m c s0 ∗ slotDone m c s1 ∗ slotDone m c s2 ∗ slotFly c s3 ∗ slotFly c s4 ∗ slotTok c s5 ∗ slotTok c s6 ∗ slotTok c s7 ∗ slotTok c s8 ∗ slotTok c s9 ∗ slotTok c s10 ∗ slotTok c s11)
    ∗ xl m c ∗ a26s m c ∗ o58 c)
def B3 (c : Dev nD) : sProp 𝕄 :=
  iprop((slotDone m c s0 ∗ slotDone m c s1 ∗ slotDone m c s2 ∗ slotDone m c s3 ∗ slotDone m c s4 ∗ slotFly c s5 ∗ slotTok c s6 ∗ slotTok c s7 ∗ slotTok c s8 ∗ slotTok c s9 ∗ slotTok c s10 ∗ slotTok c s11)
    ∗ xl m c ∗ a46s m c ∗ o58 c)
def B4 (c : Dev nD) : sProp 𝕄 :=
  iprop((slotDone m c s0 ∗ slotDone m c s1 ∗ slotDone m c s2 ∗ slotDone m c s3 ∗ slotDone m c s4 ∗ slotDone m c s5 ∗ slotFly c s6 ∗ slotFly c s7 ∗ slotTok c s8 ∗ slotFly c s9 ∗ slotTok c s10 ∗ slotTok c s11)
    ∗ xl m c ∗ a46s m c)
def B5 (c : Dev nD) : sProp 𝕄 :=
  iprop((slotDone m c s0 ∗ slotDone m c s1 ∗ slotDone m c s2 ∗ slotDone m c s3 ∗ slotDone m c s4 ∗ slotDone m c s5 ∗ slotPassed m c s6 ∗ slotFly c s7 ∗ slotFly c s8 ∗ slotFly c s9 ∗ slotFly c s10 ∗ slotTok c s11)
    ∗ xl m c ∗ a46s m c)
def B6 (c : Dev nD) : sProp 𝕄 :=
  iprop((slotDone m c s0 ∗ slotDone m c s1 ∗ slotDone m c s2 ∗ slotDone m c s3 ∗ slotDone m c s4 ∗ slotDone m c s5 ∗ slotPassed m c s6 ∗ slotPassed m c s7 ∗ slotPassed m c s8 ∗ slotFly c s9 ∗ slotFly c s10 ∗ slotFly c s11)
    ∗ xl m c ∗ a46s m c)
def B7 (c : Dev nD) : sProp 𝕄 :=
  iprop((slotDone m c s0 ∗ slotDone m c s1 ∗ slotDone m c s2 ∗ slotDone m c s3 ∗ slotDone m c s4 ∗ slotDone m c s5 ∗ slotPassed m c s6 ∗ slotPassed m c s7 ∗ slotPassed m c s8 ∗ slotDone m c s9 ∗ slotDone m c s10 ∗ slotDone m c s11)
    ∗ xl m c ∗ a46s m c)
open Cert.TR.Rows in
def xPart (c : Dev nD) : sProp 𝕄 :=
  pt (ℓ := (c : Thread nD τ).loc cc0_stg0_0) (rows S1x2048x1024 (1 : Fin 3) row0 (row0 + 2 * nH)) fullShare (Gx m c)
open Cert.TR.Rows in
def oPart (c : Dev nD) : sProp 𝕄 :=
  iprop(∃ f : Buf (Elt F) ((c : Thread nD τ).loc cc0_stg1_0), ((c : Thread nD τ).loc cc0_stg1_0) ↦[rows S2048x1024 (0 : Fin 2) row0 (row0 + 2 * nH)]{fullShare} f)
open Cert.TR.Rows in
def oPartF (c : Dev nD) : sProp 𝕄 :=
  pt (ℓ := (c : Thread nD τ).loc cc0_stg1_0) (rows S2048x1024 (0 : Fin 2) row0 (row0 + 2 * nH)) fullShare (Gout m)
def scrP (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
def outTo0 (c : Dev nD) : sProp 𝕄 :=
  iprop(held c (dstAny (flip o0 c) s0) ∗ held c (dstAny (flip o0 c) s1) ∗ held c (dstAny (flip o0 c) s2)
    ∗ held c (dstAny (flip o0 c) s9) ∗ held c (dstAny (flip o0 c) s10) ∗ held c (dstAny (flip o0 c) s11))
def outTo1 (c : Dev nD) : sProp 𝕄 :=
  iprop(held c (dstAny (flip o1 c) s3) ∗ held c (dstAny (flip o1 c) s4) ∗ held c (dstAny (flip o1 c) s7) ∗ held c (dstAny (flip o1 c) s8))
def outTo2 (c : Dev nD) : sProp 𝕄 := iprop(held c (dstAny (flip o2 c) s5) ∗ held c (dstAny (flip o2 c) s6))
def own0 (c : Dev nD) : sProp 𝕄 :=
  iprop((sendPay m c s0 ∗ sendPay m c s1 ∗ sendPay m c s2) ∗ xl m c ∗ (a20 c ∗ a23 c ∗ a26 c) ∗ o58 c)
def ends (c : Dev nD) : sProp 𝕄 :=
  iprop(slotEnd c s0 ∗ slotEnd c s1 ∗ slotEnd c s2 ∗ slotEnd c s3 ∗ slotEnd c s4 ∗ slotEnd c s5 ∗ slotEnd c s6 ∗ slotEnd c s7 ∗ slotEnd c s8 ∗ slotEnd c s9 ∗ slotEnd c s10 ∗ slotEnd c s11)
end Cert.KernelIdeal.TR.P0
end
-- ==== Proof.Res1.lean ====
import proofs.«901104_g7700000000001105_dist_treered_v7x_i8_m2048_n1024_f32_1_alg».proof.Proof.Slots
import proofs.«901104_g7700000000001105_dist_treered_v7x_i8_m2048_n1024_f32_1_alg».proof.Proof.LibRows
noncomputable section
namespace Cert.KernelIdeal.TR.P1
open Cert.KernelIdeal Cert.KernelIdeal.Gen Cert.KernelIdeal.TR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)
def xl19 (c : Dev nD) : sProp 𝕄 := pt (ℓ := (bIn.slice (u27 c) (fun _ => rfl)).view.loc (c : Thread nD τ)) (bIn.slice (u27 c) (fun _ => rfl)).view.set fullShare (Gx m c)
def xl22 (c : Dev nD) : sProp 𝕄 := pt (ℓ := (bIn.slice (u30 c) (fun _ => rfl)).view.loc (c : Thread nD τ)) (bIn.slice (u30 c) (fun _ => rfl)).view.set fullShare (Gx m c)
def xl25 (c : Dev nD) : sProp 𝕄 := pt (ℓ := (bIn.slice (u33 c) (fun _ => rfl)).view.loc (c : Thread nD τ)) (bIn.slice (u33 c) (fun _ => rfl)).view.set fullShare (Gx m c)
def a20 (c : Dev nD) : sProp 𝕄 := held c ⟨_, _, _, (b4.slice (u28 c) (fun _ => rfl))⟩
def a23 (c : Dev nD) : sProp 𝕄 := held c ⟨_, _, _, (b4.slice (u31 c) (fun _ => rfl))⟩
def a26 (c : Dev nD) : sProp 𝕄 := held c ⟨_, _, _, (b4.slice (u34 c) (fun _ => rfl))⟩
def a26s (c : Dev nD) : sProp 𝕄 := pt (ℓ := (b4.slice (u34 c) (fun _ => rfl)).view.loc (c : Thread nD τ)) (b4.slice (u34 c) (fun _ => rfl)).view.set fullShare (Ga1 m c)
def a46s (c : Dev nD) : sProp 𝕄 := pt (ℓ := (b4.slice (u51 c) (fun _ => rfl)).view.loc (c : Thread nD τ)) (b4.slice (u51 c) (fun _ => rfl)).view.set fullShare (Ga2 m c)
def o58 (c : Dev nD) : sProp 𝕄 := held c ⟨_, _, _, (bOut.slice (u60 c) (fun _ => rfl))⟩
def xl (c : Dev nD) : sProp 𝕄 := iprop(xl19 m c ∗ xl22 m c ∗ xl25 m c)
def B0 (c : Dev nD) : sProp 𝕄 :=
  iprop((slotTok c s0 ∗ slotTok c s1 ∗ slotTok c s2 ∗ slotTok c s3 ∗ slotTok c s4 ∗ slotTok c s5 ∗ slotTok c s6 ∗ slotTok c s7 ∗ slotTok c s8 ∗ slotTok c s9 ∗ slotTok c s10 ∗ slotTok c s11)
    ∗ (sendPay m c s0 ∗ sendPay m c s1 ∗ sendPay m c s2)
    ∗ xl m c ∗ (a20 c ∗ a23 c ∗ a26 c) ∗ o58 c)
def B1 (c : Dev nD) : sProp 𝕄 :=
  iprop((slotFly c s0 ∗ slotFly c s1 ∗ slotFly c s2 ∗ slotTok c s3 ∗ slotTok c s4 ∗ slotTok c s5 ∗ slotTok c s6 ∗ slotTok c s7 ∗ slotTok c s8 ∗ slotTok c s9 ∗ slotTok c s10 ∗ slotTok c s11)
    ∗ xl m c ∗ (a20 c ∗ a23 c ∗ a26 c) ∗ o58 c)
def B2 (c : Dev nD) : sProp 𝕄 :=
  iprop((slotDone m c s0 ∗ slotDone m c s1 ∗ slotDone m c s2 ∗ slotFly c s3 ∗ slotFly c s4 ∗ slotTok c s5 ∗ slotTok c s6 ∗ slotTok c s7 ∗ slotTok c s8 ∗ slotTok c s9 ∗ slotTok c s10 ∗ slotTok c s11)
    ∗ xl m c ∗ a26s m c ∗ o58 c)
def B3 (c : Dev nD) : sProp 𝕄 :=
  iprop((slotDone m c s0 ∗ slotDone m c s1 ∗ slotDone m c s2 ∗ slotDone m c s3 ∗ slotDone m c s4 ∗ slotFly c s5 ∗ slotTok c s6 ∗ slotTok c s7 ∗ slotTok c s8 ∗ slotTok c s9 ∗ slotTok c s10 ∗ slotTok c s11)
    ∗ xl m c ∗ a46s m c ∗ o58 c)
def B4 (c : Dev nD) : sProp 𝕄 :=
  iprop((slotDone m c s0 ∗ slotDone m c s1 ∗ slotDone m c s2 ∗ slotDone m c s3 ∗ slotDone m c s4 ∗ slotDone m c s5 ∗ slotFly c s6 ∗ slotFly c s7 ∗ slotTok c s8 ∗ slotFly c s9 ∗ slotTok c s10 ∗ slotTok c s11)
    ∗ xl m c ∗ a46s m c)
def B5 (c : Dev nD) : sProp 𝕄 :=
  iprop((slotDone m c s0 ∗ slotDone m c s1 ∗ slotDone m c s2 ∗ slotDone m c s3 ∗ slotDone m c s4 ∗ slotDone m c s5 ∗ slotPassed m c s6 ∗ slotFly c s7 ∗ slotFly c s8 ∗ slotFly c s9 ∗ slotFly c s10 ∗ slotTok c s11)
    ∗ xl m c ∗ a46s m c)
def B6 (c : Dev nD) : sProp 𝕄 :=
  iprop((slotDone m c s0 ∗ slotDone m c s1 ∗ slotDone m c s2 ∗ slotDone m c s3 ∗ slotDone m c s4 ∗ slotDone m c s5 ∗ slotPassed m c s6 ∗ slotPassed m c s7 ∗ slotPassed m c s8 ∗ slotFly c s9 ∗ slotFly c s10 ∗ slotFly c s11)
    ∗ xl m c ∗ a46s m c)
def B7 (c : Dev nD) : sProp 𝕄 :=
  iprop((slotDone m c s0 ∗ slotDone m c s1 ∗ slotDone m c s2 ∗ slotDone m c s3 ∗ slotDone m c s4 ∗ slotDone m c s5 ∗ slotPassed m c s6 ∗ slotPassed m c s7 ∗ slotPassed m c s8 ∗ slotDone m c s9 ∗ slotDone m c s10 ∗ slotDone m c s11)
    ∗ xl m c ∗ a46s m c)
open Cert.TR.Rows in
def xPart (c : Dev nD) : sProp 𝕄 :=
  pt (ℓ := (c : Thread nD τ).loc cc0_stg0_0) (rows S1x2048x1024 (1 : Fin 3) row0 (row0 + 2 * nH)) fullShare (Gx m c)
open Cert.TR.Rows in
def oPart (c : Dev nD) : sProp 𝕄 :=
  iprop(∃ f : Buf (Elt F) ((c : Thread nD τ).loc cc0_stg1_0), ((c : Thread nD τ).loc cc0_stg1_0) ↦[rows S2048x1024 (0 : Fin 2) row0 (row0 + 2 * nH)]{fullShare} f)
open Cert.TR.Rows in
def oPartF (c : Dev nD) : sProp 𝕄 :=
  pt (ℓ := (c : Thread nD τ).loc cc0_stg1_0) (rows S2048x1024 (0 : Fin 2) row0 (row0 + 2 * nH)) fullShare (Gout m)
def scrP (c : Dev nD) : sProp 𝕄 :=
  iprop((∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))
def outTo0 (c : Dev nD) : sProp 𝕄 :=
  iprop(held c (dstAny (flip o0 c) s0) ∗ held c (dstAny (flip o0 c) s1) ∗ held c (dstAny (flip o0 c) s2)
    ∗ held c (dstAny (flip o0 c) s9) ∗ held c (dstAny (flip o0 c) s10) ∗ held c (dstAny (flip o0 c) s11))
def outTo1 (c : Dev nD) : sProp 𝕄 :=
  iprop(held c (dstAny (flip o1 c) s3) ∗ held c (dstAny (flip o1 c) s4) ∗ held c (dstAny (flip o1 c) s7) ∗ held c (dstAny (flip o1 c) s8))
def outTo2 (c : Dev nD) : sProp 𝕄 := iprop(held c (dstAny (flip o2 c) s5) ∗ held c (dstAny (flip o2 c) s6))
def own0 (c : Dev nD) : sProp 𝕄 :=
  iprop((sendPay m c s0 ∗ sendPay m c s1 ∗ sendPay m c s2) ∗ xl m c ∗ (a20 c ∗ a23 c ∗ a26 c) ∗ o58 c)
def ends (c : Dev nD) : sProp 𝕄 :=
  iprop(slotEnd c s0 ∗ slotEnd c s1 ∗ slotEnd c s2 ∗ slotEnd c s3 ∗ slotEnd c s4 ∗ slotEnd c s5 ∗ slotEnd c s6 ∗ slotEnd c s7 ∗ slotEnd c s8 ∗ slotEnd c s9 ∗ slotEnd c s10 ∗ slotEnd c s11)
end Cert.KernelIdeal.TR.P1
end
-- ==== Proof.Res2.lean ====
import proofs.«901104_g7700000000001105_dist_treered_v7x_i8_m2048_n1024_f32_1_alg».proof.Proof.Slots
import proofs.«901104_g7700000000001105_dist_treered_v7x_i8_m2048_n1024_f32_1_alg».proof.Proof.LibRows
noncomputable section
namespace Cert.KernelIdeal.TR.P2
open Cert.KernelIdeal Cert.KernelIdeal.Gen Cert.KernelIdeal.TR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)
def xl19 (c : Dev nD) : sProp 𝕄 := pt (ℓ := (bIn.slice (u35 c) (fun _ => rfl)).view.loc (c : Thread nD τ)) (bIn.slice (u35 c) (fun _ => rfl)).view.set fullShare (Gx m c)
def xl22 (c : Dev nD) : sProp 𝕄 := pt (ℓ := (bIn.slice (u38 c) (fun _ => rfl)).view.loc (c : Thread nD τ)) (bIn.slice (u38 c) (fun _ => rfl)).view.set fullShare (Gx m c)
def xl25 (c : Dev nD) : sProp 𝕄 := pt (ℓ := (bIn.slice (u41 c) (fun _ => rfl)).view.loc (c : Thread nD τ)) (bIn.slice (u41 c) (fun _ => rfl)).view.set fullShare (Gx m c)
def a20 (c : Dev nD) : sProp 𝕄 := held c ⟨_, _, _, (b8.slice (u36 c) (fun _ => rfl))⟩
def a23 (c : Dev nD) : sProp 𝕄 := held c ⟨_, _, _, (b8.slice (u39 c) (fun _ => rfl))⟩
def a26 (c : Dev nD) : sProp 𝕄 := held c ⟨_, _, _, (b8.slice (u42 c) (fun _ => rfl))⟩
def a26s (c : Dev nD) : sProp 𝕄 := pt (ℓ := (b8.slice (u42 c) (fun _ => rfl)).view.loc (c : Thread nD τ)) (b8.slice (u42 c) (fun _ => rfl)).view.set fullShare (Ga1 m c)
def a46s (c : Dev nD) : sProp 𝕄 := pt (ℓ := (b8.slice (u56 c) (fun _ => rfl)).view.loc (c : Thread nD τ)) (b8.slice (u56 c) (fun _ => rfl)).view.set fullShare (Ga2 m c)
def o58 (c : Dev nD) : sProp 𝕄 := held c ⟨_, _, _, (bOut.slice (u62 c) (fun _ => rfl))⟩
def xl (c : Dev nD) : sProp 𝕄 := iprop(xl19 m c ∗ xl22 m c ∗ xl25 m c)
def B0 (c : Dev nD) : sProp 𝕄 :=
  iprop((slotTok c s0 ∗ slotTok c s1 ∗ slotTok c s2 ∗ slotTok c s3 ∗ slotTok c s4 ∗ slotTok c s5 ∗ slotTok c s6 ∗ slotTok c s7 ∗ slotTok c s8 ∗ slotTok c s9 ∗ slotTok c s10 ∗ slotTok c s11)
    ∗ (sendPay m c s0 ∗ sendPay m c s1 ∗ sendPay m c s2)
    ∗ xl m c ∗ (a20 c ∗ a23 c ∗ a26 c) ∗ o58 c)
def B1 (c : Dev nD) : sProp 𝕄 :=
  iprop((slotFly c s0 ∗ slotFly c s1 ∗ slotFly c s2 ∗ slotTok c s3 ∗ slotTok c s4 ∗ slotTok c s5 ∗ slotTok c s6 ∗ slotTok c s7 ∗ slotTok c s8 ∗ slotTok c s9 ∗ slotTok c s10 ∗ slotTok c s11)
    ∗ xl m c ∗ (a20 c ∗ a23 c ∗ a26 c) ∗ o58 c)
def B2 (c : Dev nD) : sProp 𝕄 :=
  iprop((slotDone m c s0 ∗ slotDone m c s1 ∗ slotDone m c s2 ∗ slotFly c s3 ∗ slotFly c s4 ∗ slotTok c s5 ∗ slotTok c s6 ∗ slotTok c s7 ∗ slotTok c s8 ∗ slotTok c s9 ∗ slotTok c s10 ∗ slotTok c s11)
    ∗ xl m c ∗ a26s m c ∗ o58 c)
def B3 (c : Dev nD) : sProp 𝕄 :=
  iprop((slotDone m c s0 ∗ slotDone m c s1 ∗ slotDone m c s2 ∗ slotDone m c s3 ∗ slotDone m c s4 ∗ slotFly c s5 ∗ slotTok c s6 ∗ slotTok c s7 ∗ slotTok c s8 ∗ slotTok c s9 ∗ slotTok c s10 ∗ slotTok c s11)
    ∗ xl m c ∗ a46s m c ∗ o58 c)
def B4 (c : Dev nD) : sProp 𝕄 :=
  iprop((slotDone m c s0 ∗ slotDone m c s1 ∗ slotDone m c s2 ∗ slotDone m c s3 ∗ slotDone m c s4 ∗ slotDone m c s5 ∗ slotFly c s6 ∗ slotFly c s7 ∗ slotTok c s8 ∗ slotFly c s9 ∗ slotTok c s10 ∗ slotTok c s11)
    ∗ xl m c ∗ a46s m c)
def B5 (c : Dev nD) : sProp 𝕄 :=
  iprop((slotDone m c s0 ∗ slotDone m c s1 ∗ slotDone m c s2 ∗ slotDone m c s3 ∗ slotDone m c s4 ∗ slotDone m c s5 ∗ slotPassed m c s6 ∗ slotFly c s7 ∗ slotFly c s8 ∗ slotFly c s9 ∗ slotFly c s10 ∗ slotTok c s11)
    ∗ xl m c ∗ a46s m c)
def B6 (c : Dev nD) : sProp 𝕄 :=
  iprop((slotDone m c s0 ∗ slotDone m c s1 ∗ slotDone m c s2 ∗ slotDone m c s3 ∗ slotDone m c s4 ∗ slotDone m c s5 ∗ slotPassed m c s6 ∗ slotPassed m c s7 ∗ slotPassed m c s8 ∗ slotFly c s9 ∗ slotFly c s10 ∗ slotFly c s11)
    ∗ xl m c ∗ a46s m c)
def B7 (c : Dev nD) : sProp 𝕄 :=
  iprop((slotDone m c s0 ∗ slotDone m c s1 ∗ slotDone m c s2 ∗ slotDone m c s3 ∗ slotDone m c s4 ∗ slotDone m c s5 ∗ slotPassed m c s6 ∗ slotPassed m c s7 ∗ slotPassed m c s8 ∗ slotDone m c s9 ∗ slotDone m c s10 ∗ slotDone m c s11)
    ∗ xl m c ∗ a46s m c)
open Cert.TR.Rows in
def xPart (c : Dev nD) : sProp 𝕄 :=
  pt (ℓ := (c : Thread nD τ).loc cc0_stg0_0) (rows S1x2048x1024 (1 : Fin 3) row0 (row0 + 2 * nH)) fullShare (Gx m c)
open Cert.TR.Rows in
def oPart (c : Dev nD) : sProp 𝕄 :=
  iprop(∃ f : Buf (Elt F) ((c : Thread nD τ).loc cc0_stg1_0), ((c : Thread nD τ).loc cc0_stg1_0) ↦[rows S2048x1024 (0 : Fin 2) row0 (row0 + 2 * nH)]{fullShare} f)
open Cert.TR.Rows in
def oPartF (c : Dev nD) : sProp 𝕄 :=
  pt (ℓ := (c : Thread nD τ).loc cc0_stg1_0) (rows S2048x1024 (0 : Fin 2) row0 (row0 + 2 * nH)) fullShare (Gout m)
def scrP (c : Dev nD) : sProp 𝕄 :=
  iprop((∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc cc0_scratch10), ((c : Thread nD τ).loc cc0_scratch10) ↦{fullShare} f)
    ∗ (∃ f : Buf (Elt F) ((c : Thread nD τ).loc cc0_scratch11), ((c : Thread nD τ).loc cc0_scratch11) ↦{fullShare} f))
def outTo0 (c : Dev nD) : sProp 𝕄 :=
  iprop(held c (dstAny (flip o0 c) s0) ∗ held c (dstAny (flip o0 c) s1) ∗ held c (dstAny (flip o0 c) s2)
    ∗ held c (dstAny (flip o0 c) s9) ∗ held c (dstAny (flip o0 c) s10) ∗ held c (dstAny (flip o0 c) s11))
def outTo1 (c : Dev nD) : sProp 𝕄 :=
  iprop(held c (dstAny (flip o1 c) s3) ∗ held c (dstAny (flip o1 c) s4) ∗ held c (dstAny (flip o1 c) s7) ∗ held c (dstAny (flip o1 c) s8))
def outTo2 (c : Dev nD) : sProp 𝕄 := iprop(held c (dstAny (flip o2 c) s5) ∗ held c (dstAny (flip o2 c) s6))
def own0 (c : Dev nD) : sProp 𝕄 :=
  iprop((sendPay m c s0 ∗ sendPay m c s1 ∗ sendPay m c s2) ∗ xl m c ∗ (a20 c ∗ a23 c ∗ a26 c) ∗ o58 c)
def ends (c : Dev nD) : sProp 𝕄 :=
  iprop(slotEnd c s0 ∗ slotEnd c s1 ∗ slotEnd c s2 ∗ slotEnd c s3 ∗ slotEnd c s4 ∗ slotEnd c s5 ∗ slotEnd c s6 ∗ slotEnd c s7 ∗ slotEnd c s8 ∗ slotEnd c s9 ∗ slotEnd c s10 ∗ slotEnd c s11)
end Cert.KernelIdeal.TR.P2
end
-- ==== Proof.LaunchG.lean ====
import proofs.«901104_g7700000000001105_dist_treered_v7x_i8_m2048_n1024_f32_1_alg».proof.Proof.Ghost
import Idealize.ShloMosaic.Lib.Pipeline.Launch
import Idealize.ShloMosaic.Lib.Pipeline.Kit
import Idealize.ShloMosaic.Lib.Tactic
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (P : Pay F)
theorem fin73_cases (k : Fin 73) : k = kBar ∨ (∃ s, k = kSend s) ∨ (∃ s, k = kRecv s) := by
  by_cases h0 : k.val = 0
  · exact .inl (Fin.ext h0)
  · by_cases h1 : k.val < 37
    · exact .inr (.inl ⟨⟨k.val - 1, by omega⟩, Fin.ext (by show k.val = 1 + (k.val - 1); omega)⟩)
    · exact .inr (.inr ⟨⟨k.val - 37, by have := k.isLt; omega⟩, Fin.ext (by show k.val = 37 + (k.val - 37); omega)⟩)
def kOf : Role → Fin 73
  | .bar => kBar
  | .send s => kSend s
  | .recv s => kRecv s
  | .other => kBar
theorem kOf_csem (k : Fin 73) : kOf (roleOf (csem k)) = k := by
  rcases fin73_cases k with rfl | ⟨s, rfl⟩ | ⟨s, rfl⟩
  · rw [csem_kBar, roleOf_bar]; rfl
  · rw [csem_kSend, roleOf_send]; rfl
  · rw [csem_kRecv, roleOf_recv]; rfl
theorem csem_injective : Function.Injective csem :=
  Function.LeftInverse.injective (g := fun sm => kOf (roleOf sm)) kOf_csem
theorem kcell_injective : Function.Injective (kcell : Dev nD × Fin 73 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩
def e73 : Unit ⊕ (Fin 36 ⊕ Fin 36) ≃ Fin 73 where
  toFun
    | .inl _ => kBar
    | .inr (.inl s) => kSend s
    | .inr (.inr s) => kRecv s
  invFun k :=
    if h0 : k.val = 0 then .inl ()
    else if h1 : k.val < 37 then .inr (.inl ⟨k.val - 1, by omega⟩)
    else .inr (.inr ⟨k.val - 37, by have := k.isLt; omega⟩)
  left_inv x := by
    rcases x with _ | s | s
    · rfl
    · have hs := s.isLt
      show (if h0 : (kSend s).val = 0 then _ else if h1 : (kSend s).val < 37 then _ else _) = _
      rw [dif_neg (by show ¬ 1 + s.val = 0; omega), dif_pos (by show 1 + s.val < 37; omega)]
      exact congrArg Sum.inr (congrArg Sum.inl (Fin.ext (by show 1 + s.val - 1 = s.val; omega)))
    · have hs := s.isLt
      show (if h0 : (kRecv s).val = 0 then _ else if h1 : (kRecv s).val < 37 then _ else _) = _
      rw [dif_neg (by show ¬ 37 + s.val = 0; omega), dif_neg (by show ¬ 37 + s.val < 37; omega)]
      exact congrArg Sum.inr (congrArg Sum.inr (Fin.ext (by show 37 + s.val - 37 = s.val; omega)))
  right_inv k := by
    rcases fin73_cases k with rfl | ⟨s, rfl⟩ | ⟨s, rfl⟩
    · rfl
    · have hs := s.isLt
      show (match (if h0 : (kSend s).val = 0 then _ else if h1 : (kSend s).val < 37 then _ else _ : Unit ⊕ (Fin 36 ⊕ Fin 36)) with
        | .inl _ => kBar | .inr (.inl s) => kSend s | .inr (.inr s) => kRecv s) = _
      rw [dif_neg (by show ¬ 1 + s.val = 0; omega), dif_pos (by show 1 + s.val < 37; omega)]
      exact Fin.ext (by show 1 + (1 + s.val - 1) = 1 + s.val; omega)
    · have hs := s.isLt
      show (match (if h0 : (kRecv s).val = 0 then _ else if h1 : (kRecv s).val < 37 then _ else _ : Unit ⊕ (Fin 36 ⊕ Fin 36)) with
        | .inl _ => kBar | .inr (.inl s) => kSend s | .inr (.inr s) => kRecv s) = _
      rw [dif_neg (by show ¬ 37 + s.val = 0; omega), dif_neg (by show ¬ 37 + s.val < 37; omega)]
      exact Fin.ext (by show 37 + (37 + s.val - 37) = 37 + s.val; omega)
omit [FloatOps F] in
theorem bigSep_fin73 (Φ : Fin 73 → sProp 𝕄) :
    bigSep Finset.univ Φ = iprop(Φ kBar ∗ (bigSep Finset.univ fun s : Fin 36 => Φ (kSend s)) ∗ bigSep Finset.univ fun s : Fin 36 => Φ (kRecv s)) := by
  rw [bigSep_univ_equiv e73 Φ, bigSep_univ_sum, bigSep_univ_sum, bigSep_univ_of_subsingleton ()]
  rfl
abbrev TokIx : Type := Fin 3 ⊕ (Fin 36 ⊕ Fin 36)
def tokOf (cj : Dev nD × TokIx) : GSem nD τ sig × ℕ × Fin 3 :=
  match cj.2 with
  | .inl a => (barCell cj.1, 0, a)
  | .inr (.inl s) => (sendCell cj.1 s, 0, 0)
  | .inr (.inr s) => (recvCell cj.1 s, 0, 0)
theorem tokOf_injective : Function.Injective tokOf := by
  rintro ⟨c, j⟩ ⟨c', j'⟩ h
  have h1 : c = c' := by
    have := congrArg (fun x : GSem nD τ sig × ℕ × Fin 3 => x.1.1.1) h
    rcases j with a | s | s <;> rcases j' with a' | s' | s' <;> exact this
  subst h1
  have hsem := congrArg (fun x : GSem nD τ sig × ℕ × Fin 3 => x.1.2) h
  have hd := congrArg (fun x : GSem nD τ sig × ℕ × Fin 3 => x.2.2) h
  rcases j with a | s | s <;> rcases j' with a' | s' | s'
  · exact congrArg (fun a => (c, Sum.inl a)) hd
  · exact absurd hsem (fun h' => by cases h')
  · exact absurd hsem (fun h' => by cases h')
  · exact absurd hsem (fun h' => by cases h')
  · exact congrArg (fun s => (c, Sum.inr (Sum.inl s))) (sendSem_inj (SemLoc.dma.inj hsem))
  · exact absurd (SemLoc.dma.inj hsem) (sendSem_ne_recvSem s s')
  · exact absurd hsem (fun h' => by cases h')
  · exact absurd (SemLoc.dma.inj hsem).symm (sendSem_ne_recvSem s' s)
  · exact congrArg (fun s => (c, Sum.inr (Sum.inr s))) (recvSem_inj (SemLoc.dma.inj hsem))
def ringToks : Finset (GSem nD τ sig × ℕ × Fin 3) := Finset.univ.map ⟨tokOf, tokOf_injective⟩
def u₀ : UU :=
  (initOf (Pipeline.cells cfgs cellOf_inj) (Pipeline.launchToks cfgs cellOf_inj), initOf ringCells ringToks)
def toks (c : Dev nD) : sProp 𝕄 :=
  iprop((bigSep Finset.univ fun a : Fin 3 => dutyTok ER (barCell c) 0 a)
    ∗ (bigSep Finset.univ fun s : Fin 36 => dutyTok ER (sendCell c s) 0 (0 : Fin 3))
    ∗ (bigSep Finset.univ fun s : Fin 36 => dutyTok ER (recvCell c s) 0 (0 : Fin 3)))
def G (c : Dev nD) : sProp 𝕄 :=
  iprop((bigSep Finset.univ fun k : Fin 73 => roundState ER (rd P) (kcell (c, k)) 0)
    ∗ (bigSep Finset.univ fun k : Fin 73 => iprop(atPos ER (kcell (c, k)) 0 (∅ : Finset (Fin 3)) 0 ∗ reached ER (kcell (c, k)) 0)) ∗ toks c)
def G' (c : Dev nD) : sProp 𝕄 := iprop(∃ K, ghost P K c)
theorem fund_ring : BI.own (ER (initOf ringCells ringToks)) ⊢ (|==> bigSep Finset.univ (G P) : sProp 𝕄) := by
  have hX (Φ : GSem nD τ sig → sProp 𝕄) : bigSep ringCells Φ = bigSep Finset.univ fun c : Dev nD => bigSep Finset.univ fun k : Fin 73 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (rd P) ringCells ringToks) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'
theorem fund_u₀ : (ownU (u₀ : UU) : sProp 𝕄)
    ⊢ |={Set.univ}=> iprop(BI.own (EP (initOf (Pipeline.cells cfgs cellOf_inj) (Pipeline.launchToks cfgs cellOf_inj))) ∗ bigSep Finset.univ (G P)) := by
  unfold u₀
  iintro Hu
  ihave H := (ownU_pair _ _) $$ Hu
  icases H with ⟨HP, HX⟩
  imod (fund_ring P) $$ HX with HG
  imodintro
  isplitl [HP] <;> iassumption
def osem : Fin 36 ⊕ Fin 36 → SemLoc sig
  | .inl s => .dma (sendSem s)
  | .inr s => .dma (recvSem s)
theorem ownSemFacts : Pipeline.OwnSemFacts cfg0.spec osem := by decide
omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun s : Fin 36 => semVal (sendCell c s) 0) ∗ bigSep Finset.univ fun s : Fin 36 => semVal (recvCell c s) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 73 => semVal (kcell (c, k)) 0 : sProp 𝕄) := by
  rw [ownSems0_eq, unscopedSems0_eq, bigSep_fin73]
  simp only [kcell_kBar, kcell_kSend, kcell_kRecv]
  iintro ⟨⟨HS, HV⟩, HB⟩
  isplitl [HB]; · iexact HB
  isplitl [HS] <;> iassumption
theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (rd P) κ (kcell (c, k))))
          ∗ (bigSep Finset.univ fun k : Fin 73 => iprop(atPos ER (kcell (c, k)) 0 (∅ : Finset (Fin 3)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 73 => semVal (kcell (c, k)) 0) ∗ bigSep Finset.univ fun k : Fin 73 => roundState ER (rd P) (kcell (c, k)) 0)
      ⊢ (|={Set.univ}=> bigSep Finset.univ fun k => iprop(∃ κ : ℕ, cellInv ER (rd P) κ (kcell (c, k))) : sProp 𝕄) from by
        rw [← bigSep_sep']
        exact (bigSep_mono fun k _ => (Rounds.body_intro ER (rd P) (kcell (c, k))).trans inv_alloc).trans (bigSep_fupd _ _)) $$ [Hv Hst] with Hinv
  · isplitl [Hv] <;> iassumption
  imodintro
  iframe
theorem ghost_intro (K : Dev nD × Fin 73 → ℕ) (c : Dev nD) : iprop(records P K ∗ positions c ∗ payToks c) ⊢ G' P c := by
  unfold G' ghost
  iintro H; iexists K; iexact H
omit [FloatOps F] in
theorem toks_around : (bigSep Finset.univ fun c : Dev nD => (toks c : sProp 𝕄)) ⊢ bigSep Finset.univ fun c : Dev nD => payToks c := by
  have hB : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (flip a c)) 0 a := by
    rw [bigSep_univ_comm, bigSep_univ_comm (fun (c : Dev nD) (a : Fin 3) => (dutyTok ER (barCell (flip a c)) 0 a : sProp 𝕄))]
    exact bigSep_congr fun a _ => bigSep_univ_equiv (flipE a) (fun c : Dev nD => (dutyTok ER (barCell c) 0 a : sProp 𝕄))
  have hR : (bigSep Finset.univ fun c : Dev nD => bigSep Finset.univ fun s : Fin 36 => (dutyTok ER (recvCell c s) 0 (0 : Fin 3) : sProp 𝕄))
      = bigSep Finset.univ fun c : Dev nD => bigSep Finset.univ fun s : Fin 36 => dutyTok ER (recvCell (flip (ax s) c) s) 0 (0 : Fin 3) := by
    rw [bigSep_univ_comm, bigSep_univ_comm (fun (c : Dev nD) (s : Fin 36) => (dutyTok ER (recvCell (flip (ax s) c) s) 0 (0 : Fin 3) : sProp 𝕄))]
    exact bigSep_congr fun s _ => bigSep_univ_equiv (flipE (ax s)) (fun c : Dev nD => (dutyTok ER (recvCell c s) 0 (0 : Fin 3) : sProp 𝕄))
  unfold toks payToks
  rw [bigSep_sep', bigSep_sep', bigSep_sep', bigSep_sep', hB, hR]
  iintro ⟨H1, H2, H3⟩
  iframe
theorem regroup :
    (bigSep Finset.univ fun c : Dev nD => iprop((bigSep Finset.univ fun k => iprop(∃ κ : ℕ, cellInv ER (rd P) κ (kcell (c, k))))
          ∗ (bigSep Finset.univ fun k : Fin 73 => iprop(atPos ER (kcell (c, k)) 0 (∅ : Finset (Fin 3)) 0 ∗ reached ER (kcell (c, k)) 0)) ∗ toks c) : sProp 𝕄)
      ⊢ bigSep Finset.univ (G' P) := by
  rw [bigSep_sep', bigSep_sep', ← bigSep_univ_prod (fun ck : Dev nD × Fin 73 => iprop(∃ κ : ℕ, cellInv ER (rd P) κ (kcell ck))),
    bigSep_congr (s := Finset.univ) (fun (c : Dev nD) _ => bigSep_sep' Finset.univ (fun k : Fin 73 => (atPos ER (kcell (c, k)) 0 (∅ : Finset (Fin 3)) 0 : sProp 𝕄)) (fun k => reached ER (kcell (c, k)) 0)),
    bigSep_sep', ← bigSep_univ_prod (fun ck : Dev nD × Fin 73 => (reached ER (kcell ck) 0 : sProp 𝕄))]
  iintro ⟨HI, ⟨Hat, #HR⟩, Htok⟩
  ihave HK := (BI.bigSep_exists_pi Finset.univ (fun (ck : Dev nD × Fin 73) (κ : ℕ) => (cellInv ER (rd P) κ (kcell ck) : sProp 𝕄))) $$ HI
  icases HK with ⟨%K, #HI⟩
  ihave Htk := (toks_around (F := F)) $$ Htok
  iapply (bigSep_with_persistent (R := records P K) fun c _ => ghost_intro P K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))
omit [FloatOps F] in
theorem launch_bsig (a : Fin 3) (c : Dev nD) :
    (Pipeline.launchCred (fun d => bsig d a) c : sProp 𝕄) ⊢ cred (tallyAt (barCell c) () 1) :=
  Pipeline.launchCred_tallyAt (.reg barS) (flip a) (flip a) (flip_flip a) (flip_flip a) () 1 c
theorem launch_arr (s : Fin 36) (c : Dev nD) :
    (Pipeline.launchCred (fun d => arr P d s) c : sProp 𝕄) ⊢ cred (tallyAt (recvCell c s) () (P.cr s)) :=
  Pipeline.launchCred_tallyAt (.dma (recvSem s)) (flip (ax s)) (flip (ax s)) (flip_flip _) (flip_flip _) () (P.cr s) c
theorem launch_owedL (c : Dev nD) : ∀ l : List (Fin 36),
    (Pipeline.launchCred (fun d => owedL P d l) c : sProp 𝕄) ⊢ bigSepL l fun s => cred (tallyAt (recvCell c s) () (P.cr s))
  | [] => by
    rw [show (fun d => owedL P d []) = fun _ : Dev nD => (0 : CellTallies nD τ sig Unit) from rfl, Pipeline.launchCred_zero]
    exact .rfl
  | s :: l => by
    rw [show (fun d => owedL P d (s :: l)) = fun d => owedL P d l + arr P d s from rfl, Pipeline.launchCred_add, bigSepL_cons]
    show _ ⊢ iprop(cred (tallyAt (recvCell c s) () (P.cr s)) ∗ bigSepL l fun s => cred (tallyAt (recvCell c s) () (P.cr s)))
    iintro ⟨Hl, Hs⟩
    isplitl [Hs]
    · iapply (launch_arr P s c); iexact Hs
    · iapply (launch_owedL c l); iexact Hl
omit [FloatOps F] in
theorem cred_three (g : GSem nD τ sig) :
    iprop(cred (tallyAt g () 1) ∗ cred (tallyAt g () 1) ∗ cred (tallyAt g () 1)) ⊢ (cred (tallyAt g () 3) : sProp 𝕄) := by
  have h : (tallyAt g () 3 : CellTallies nD τ sig Unit) = tallyAt g () 1 + (tallyAt g () 1 + tallyAt g () 1) := by
    rw [tallyAt_add, tallyAt_add]
  rw [h]
  exact (sep_mono_right (cred_add _ _).2).trans (cred_add _ _).2
theorem progList_univ : (Finset.univ : Finset (Fin 36)) = progList.toFinset :=
  (Finset.eq_univ_of_forall fun s => List.mem_toFinset.mpr (progList_perm s)).symm
theorem creds_intro (c : Dev nD) : (Pipeline.launchCred (O₀ P) c : sProp 𝕄) ⊢ creds P c := by
  rw [show O₀ P = fun d => ((owedL P d progList + bsig d 2) + bsig d 1) + bsig d 0 from rfl,
    Pipeline.launchCred_add (fun d => (owedL P d progList + bsig d 2) + bsig d 1) (fun d => bsig d 0),
    Pipeline.launchCred_add (fun d => owedL P d progList + bsig d 2) (fun d => bsig d 1),
    Pipeline.launchCred_add (fun d => owedL P d progList) (fun d => bsig d 2)]
  unfold creds
  rw [bigSep_univ_eq_bigSepL progList progList_univ progList_nodup]
  iintro ⟨⟨⟨Hl, H2⟩, H1⟩, H0⟩
  ihave H0' := (launch_bsig (F := F) 0 c) $$ H0
  ihave H1' := (launch_bsig (F := F) 1 c) $$ H1
  ihave H2' := (launch_bsig (F := F) 2 c) $$ H2
  ihave Hl' := (launch_owedL P c progList) $$ Hl
  isplitl [H0' H1' H2']
  · iapply (cred_three (F := F) (barCell c))
    isplitl [H0']; · iexact H0'
    isplitl [H1'] <;> iassumption
  · iexact Hl'
theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred (O₀ P) c ∗ prngReg c (ρ c) ∗ G' P c)
      ⊢ |={Set.univ}=> iprop(start P c ∗ emp) := by
  iintro ⟨-, Hlev, Hcr, -, HG⟩
  ihave Hc := (creds_intro P c) $$ Hcr
  imodintro
  unfold start G'
  isplitl
  · iframe
  · iempintro
theorem O₀_pos {c : Dev nD} {g : GSem nD τ sig} {u : Unit} (h : 0 < O₀ P c g u) :
    (∃ s, g = recvCell (flip (ax s) c) s) ∨ ∃ a, g = barCell (flip a c) := by
  unfold O₀ at h
  rcases Pipeline.add_pos_cases h with h | h
  · rcases Pipeline.add_pos_cases h with h | h
    · rcases Pipeline.add_pos_cases h with h | h
      · obtain ⟨s, _, hg⟩ := owedL_pos P h; exact .inl ⟨s, hg⟩
      · exact .inr ⟨2, (Pipeline.tallyAt_pos h).1⟩
    · exact .inr ⟨1, (Pipeline.tallyAt_pos h).1⟩
  · exact .inr ⟨0, (Pipeline.tallyAt_pos h).1⟩
theorem lv_stage (c : Dev nD) (q : DmaSem sig) (hq : q.val < 2) : lv ((c : Thread nD τ), .dma q) () = 0 := by
  have hr : roleOf (.dma q) = .other := by
    show (if h : 2 ≤ q.val ∧ q.val < 38 then Role.send ⟨q.val - 2, by omega⟩
      else if h : 38 ≤ q.val ∧ q.val < 74 then Role.recv ⟨q.val - 38, by omega⟩ else Role.other) = _
    rw [dif_neg (by omega), dif_neg (by omega)]
  unfold lv; rw [hr]
theorem mayWait_stage (c : Dev nD) (q : DmaSem sig) (hq : q.val < 2) (O : CellTallies nD τ sig Unit) (hO : O = O₀ P c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos P hg with ⟨s, rfl⟩ | ⟨a, rfl⟩ <;> (rw [L_tc]; exact Finset.mem_singleton_self _))
      (fun p hp => by rw [Finset.mem_singleton.mp hp]; exact (lv_stage c q hq).le)
      (fun g u hg => by
        rcases O₀_pos P hg with ⟨s, rfl⟩ | ⟨a, rfl⟩
        · rw [lv_recv]; omega
        · rw [lv_bar]; exact Nat.one_pos)
  · rw [MayWait_zero]; iintro -; iempintro
end Cert.KernelIdeal.TR
end
-- ==== Proof.GlueA.lean ====
import proofs.«901104_g7700000000001105_dist_treered_v7x_i8_m2048_n1024_f32_1_alg».proof.Proof.Body
import proofs.«901104_g7700000000001105_dist_treered_v7x_i8_m2048_n1024_f32_1_alg».proof.Proof.Steps
import proofs.«901104_g7700000000001105_dist_treered_v7x_i8_m2048_n1024_f32_1_alg».proof.Proof.Res0
import proofs.«901104_g7700000000001105_dist_treered_v7x_i8_m2048_n1024_f32_1_alg».proof.Proof.Res1
import proofs.«901104_g7700000000001105_dist_treered_v7x_i8_m2048_n1024_f32_1_alg».proof.Proof.Res2
import proofs.«901104_g7700000000001105_dist_treered_v7x_i8_m2048_n1024_f32_1_alg».proof.Proof.LaunchG
import Idealize.ShloMosaic.Lib.Pipeline.Launch
import Idealize.ShloMosaic.Lib.Pipeline.Kit
import Idealize.ShloMosaic.Lib.Tactic
set_option maxRecDepth 65536
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
theorem bigSepL_append {I : Type} {M : Type} [URA M] (l l' : List I) (Φ : I → sProp M) :
    bigSepL (l ++ l') Φ = iprop(bigSepL l Φ ∗ bigSepL l' Φ) := by
  induction l with
  | nil => exact (equiv_iff.mp emp_sep).symm
  | cons i l ih =>
    rw [List.cons_append, bigSepL_cons, ih, bigSepL_cons]
    exact BI.Entails.antisymm (Laws.sep_assoc (PROP := sProp M)).2 (Laws.sep_assoc (PROP := sProp M)).1
def L0 : List (Fin 36) := [0, 1, 2, 3, 4, 5, 6, 7, 8, 9, 10, 11]
def L1 : List (Fin 36) := [12, 13, 14, 15, 16, 17, 18, 19, 20, 21, 22, 23]
def L2 : List (Fin 36) := [24, 25, 26, 27, 28, 29, 30, 31, 32, 33, 34, 35]
theorem univ36 : (Finset.univ : Finset (Fin 36)) = (L0 ++ (L1 ++ L2)).toFinset := by decide
theorem nodup36 : (L0 ++ (L1 ++ L2)).Nodup := by decide
omit [FloatOps F] in
theorem split36 (Φ : Fin 36 → sProp 𝕄) :
    bigSep Finset.univ Φ = iprop(bigSepL L0 Φ ∗ bigSepL L1 Φ ∗ bigSepL L2 Φ) := by
  rw [bigSep_univ_eq_bigSepL (L0 ++ (L1 ++ L2)) univ36 nodup36, bigSepL_append, bigSepL_append]
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem close_all (m : (ℓ : Loc nD τ sig) → Buf (Elt F) ℓ) (K : Dev nD × Fin 73 → ℕ) (c : Dev nD) :
    iprop(records (pay m) K ∗ P0.ends c ∗ P1.ends c ∗ P2.ends c) ⊢ |={Set.univ}=> (closedSems (F := F) c) := by
  have hE : (iprop(P0.ends c ∗ P1.ends c ∗ P2.ends c) : sProp 𝕄) = bigSep Finset.univ fun s : Fin 36 => slotEnd c s := by
    rw [split36]; rfl
  rw [hE]
  unfold closedSems
  refine (bigSep_with_persistent (R := records (pay m) K)
    (Ψ := fun s : Fin 36 => iprop(|={Set.univ}=> iprop(semVal (sendCell c s) 0 ∗ semVal (recvCell c s) 0))) fun s _ => ?_).trans (bigSep_fupd _ _)
  unfold slotEnd
  exact slot_close m K c s
theorem slots_axis0 : slotsOf 0 = (([5, 6] : List (Fin 36)) ++ ([15, 16, 19, 20] ++ [24, 25, 26, 33, 34, 35])).toFinset := by decide
theorem slots_axis1 : slotsOf 1 = (([3, 4, 7, 8] : List (Fin 36)) ++ ([12, 13, 14, 21, 22, 23] ++ [29, 30])).toFinset := by decide
theorem slots_axis2 : slotsOf 2 = (([0, 1, 2, 9, 10, 11] : List (Fin 36)) ++ ([17, 18] ++ [27, 28, 31, 32])).toFinset := by decide
theorem out_axis0 (c : Dev nD) : iprop(P0.outTo2 c ∗ P1.outTo1 c ∗ P2.outTo0 c) ⊢ (barPay (F := F) (flip 0 c) 0 : sProp 𝕄) := by
  rw [barPay_flip, bigSep_eq_bigSepL_of_eq _ slots_axis0 (by decide), bigSepL_append, bigSepL_append]
  exact .rfl
theorem out_axis1 (c : Dev nD) : iprop(P0.outTo1 c ∗ P1.outTo0 c ∗ P2.outTo2 c) ⊢ (barPay (F := F) (flip 1 c) 1 : sProp 𝕄) := by
  rw [barPay_flip, bigSep_eq_bigSepL_of_eq _ slots_axis1 (by decide), bigSepL_append, bigSepL_append]
  exact .rfl
theorem out_axis2 (c : Dev nD) : iprop(P0.outTo0 c ∗ P1.outTo2 c ∗ P2.outTo1 c) ⊢ (barPay (F := F) (flip 2 c) 2 : sProp 𝕄) := by
  rw [barPay_flip, bigSep_eq_bigSepL_of_eq _ slots_axis2 (by decide), bigSepL_append, bigSepL_append]
  exact .rfl
theorem in_all (c : Dev nD) :
    iprop(barPay (F := F) c 0 ∗ barPay c 1 ∗ barPay c 2) ⊢ (bigSep Finset.univ fun s : Fin 36 => held (flip (ax s) c) (dstAny c s) : sProp 𝕄) := by
  have hU : (Finset.univ : Finset (Fin 36)) = slotsOf 0 ∪ (slotsOf 1 ∪ slotsOf 2) := by decide
  have hax (a : Fin 3) : (bigSep (slotsOf a) fun s => (held (flip a c) (dstAny c s) : sProp 𝕄))
      = bigSep (slotsOf a) fun s => held (flip (ax s) c) (dstAny c s) :=
    bigSep_congr fun s hs => by rw [(Finset.mem_filter.mp hs).2]
  rw [hU, bigSep_union (by decide), bigSep_union (by decide)]
  unfold barPay
  rw [hax 0, hax 1, hax 2]
  exact .rfl
theorem slotToks_intro (c : Dev nD) :
    iprop((bigSep Finset.univ fun s : Fin 36 => dutyTok ER (sendCell c s) 0 (0 : Fin 3))
        ∗ (bigSep Finset.univ fun s : Fin 36 => dutyTok ER (recvCell (flip (ax s) c) s) 0 (0 : Fin 3))
        ∗ (bigSep Finset.univ fun s : Fin 36 => held (flip (ax s) c) (dstAny c s))
        ∗ (bigSep Finset.univ fun s : Fin 36 => cred (tallyAt (recvCell c s) () (crOf s)))
        ∗ (bigSep Finset.univ fun s : Fin 36 => atPos ER (sendCell c s) 0 (∅ : Finset (Fin 3)) 0)
        ∗ (bigSep Finset.univ fun s : Fin 36 => atPos ER (recvCell c s) 0 (∅ : Finset (Fin 3)) 0))
      ⊢ (bigSep Finset.univ fun s : Fin 36 => slotTok c s : sProp 𝕄) := by
  unfold slotTok
  simp only [bigSep_sep']
  exact .rfl
theorem creds_pay (m : (ℓ : Loc nD τ sig) → Buf (Elt F) ℓ) (c : Dev nD) : creds (pay m) c
    = iprop(cred (tallyAt (barCell c) () 3) ∗ bigSep Finset.univ fun s : Fin 36 => cred (tallyAt (recvCell c s) () (crOf s))) := rfl
theorem B0_eq0 (m : (ℓ : Loc nD τ sig) → Buf (Elt F) ℓ) (c : Dev nD) :
    P0.B0 m c = iprop(bigSepL L0 (fun s => slotTok c s) ∗ P0.own0 m c) := rfl
theorem B0_eq1 (m : (ℓ : Loc nD τ sig) → Buf (Elt F) ℓ) (c : Dev nD) :
    P1.B0 m c = iprop(bigSepL L1 (fun s => slotTok c s) ∗ P1.own0 m c) := rfl
theorem B0_eq2 (m : (ℓ : Loc nD τ sig) → Buf (Elt F) ℓ) (c : Dev nD) :
    P2.B0 m c = iprop(bigSepL L2 (fun s => slotTok c s) ∗ P2.own0 m c) := rfl
theorem mayWait_bar (m : (ℓ : Loc nD τ sig) → Buf (Elt F) ℓ) (c : Dev nD) :
    (levAts L lv : sProp 𝕄) ⊢ MayWait (c : Thread nD τ) (.reg barS) () (owedL (pay m) c progList) :=
  mayWait_owedL (pay m) c (.reg barS) progList 1 (lv_bar c).le (fun s _ => by omega)
theorem bar_seg (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (W : Waits sig Unit)
    (n1 n2 n3 : Dev nD) (h1 : n1 = flip 0 c) (h2 : n2 = flip 1 c) (h3 : n3 = flip 2 c) :
    iprop(records (pay m) K ∗ levAts L lv ∗ positions c ∗ payToks c ∗ creds (pay m) c
        ∗ (P0.own0 m c ∗ P0.outTo0 c ∗ P0.outTo1 c ∗ P0.outTo2 c) ∗ (P1.own0 m c ∗ P1.outTo0 c ∗ P1.outTo1 c ∗ P1.outTo2 c) ∗ (P2.own0 m c ∗ P2.outTo0 c ∗ P2.outTo1 c ∗ P2.outTo2 c)
        ∗ owes (c : Thread nD τ) (O₀ (pay m) c) W)
      ⊢ iprop(((P0.B0 m c ∗ P1.B0 m c ∗ P2.B0 m c ∗ atPos ER (barCell c) 1 (∅ : Finset (Fin 3)) 0
            ∗ ∃ W', owes (c : Thread nD τ) (owedL (pay m) c progList) W')
          -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (Dev.tc n1 : Thread nD τ) barS 1) fun _ =>
             .op (.semSignal (Dev.tc n2 : Thread nD τ) barS 1) fun _ =>
             .op (.semSignal (Dev.tc n3 : Thread nD τ) barS 1) fun _ =>
             .op (.semWait barS 3) k) Q) := by
  subst h1 h2 h3
  unfold payToks positions
  rw [creds_pay, bigSep_fin73, bigSep_fin3, B0_eq0, B0_eq1, B0_eq2]
  simp only [kcell_kBar, kcell_kSend, kcell_kRecv]
  iintro ⟨#Hrec, #Hlev, ⟨HaB, HaS, HaR⟩, ⟨⟨Ht0, Ht1, Ht2⟩, HtR, HtS⟩, ⟨HcB, HcR⟩, ⟨Hown0, H00, H01, H02⟩, ⟨Hown1, H10, H11, H12⟩, ⟨Hown2, H20, H21, H22⟩, HO⟩ Hk
  iapply (step_signal m K c (flip 0 c) 0 rfl ((owedL (pay m) c progList + bsig c 2) + bsig c 1) W) $$ [HO Ht0 H02 H11 H20]
  · isplitr; · iexact Hrec
    isplitl [Ht0]; · iexact Ht0
    isplitl [H02 H11 H20]
    · iapply (out_axis0 (F := F) c)
      isplitl [H02]; · iexact H02
      isplitl [H11] <;> iassumption
    · iexact HO
  iintro HO
  iapply (step_signal m K c (flip 1 c) 1 rfl (owedL (pay m) c progList + bsig c 2) W) $$ [HO Ht1 H01 H10 H22]
  · isplitr; · iexact Hrec
    isplitl [Ht1]; · iexact Ht1
    isplitl [H01 H10 H22]
    · iapply (out_axis1 (F := F) c)
      isplitl [H01]; · iexact H01
      isplitl [H10] <;> iassumption
    · iexact HO
  iintro HO
  iapply (step_signal m K c (flip 2 c) 2 rfl (owedL (pay m) c progList) W) $$ [HO Ht2 H00 H12 H21]
  · isplitr; · iexact Hrec
    isplitl [Ht2]; · iexact Ht2
    isplitl [H00 H12 H21]
    · iapply (out_axis2 (F := F) c)
      isplitl [H00]; · iexact H00
      isplitl [H12] <;> iassumption
    · iexact HO
  iintro HO
  iapply (step_barwait m K c (owedL (pay m) c progList) W (mayWait_bar m c)) $$ [HcB HaB HO]
  · iframe # ∗
  iintro ⟨HO, HaB, Hb0, Hb1, Hb2⟩
  iapply Hk
  ihave Hheld := (in_all (F := F) c) $$ [Hb0 Hb1 Hb2]
  · isplitl [Hb0]; · iexact Hb0
    isplitl [Hb1] <;> iassumption
  ihave Htoks := (slotToks_intro (F := F) c) $$ [HtS HtR Hheld HcR HaS HaR]
  · isplitl [HtS]; · iexact HtS
    isplitl [HtR]; · iexact HtR
    isplitl [Hheld]; · iexact Hheld
    isplitl [HcR]; · iexact HcR
    isplitl [HaS] <;> iassumption
  ihave Hsp := (Entails.of_eq (split36 (fun s => slotTok (F := F) c s))) $$ Htoks
  icases Hsp with ⟨T0, T1, T2⟩
  isplitl [T0 Hown0]; · isplitl [T0] <;> iassumption
  isplitl [T1 Hown1]; · isplitl [T1] <;> iassumption
  isplitl [T2 Hown2]; · isplitl [T2] <;> iassumption
  isplitl [HaB]; · iexact HaB
  iexists _; iexact HO
end Cert.KernelIdeal.TR
end
-- ==== Proof.GlueD.lean ====
import proofs.«901104_g7700000000001105_dist_treered_v7x_i8_m2048_n1024_f32_1_alg».proof.Proof.Body
import proofs.«901104_g7700000000001105_dist_treered_v7x_i8_m2048_n1024_f32_1_alg».proof.Proof.Res0
import proofs.«901104_g7700000000001105_dist_treered_v7x_i8_m2048_n1024_f32_1_alg».proof.Proof.Res1
import proofs.«901104_g7700000000001105_dist_treered_v7x_i8_m2048_n1024_f32_1_alg».proof.Proof.Res2
import proofs.«901104_g7700000000001105_dist_treered_v7x_i8_m2048_n1024_f32_1_alg».proof.Proof.LibRows
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
theorem stg0_split (c : Dev nD) (f : Buf (Elt F) ((c : Thread nD τ).loc cc0_stg0_0)) :
    (((c : Thread nD τ).loc cc0_stg0_0) ↦{fullShare} f : sProp 𝕄)
      ⊣⊢ iprop((((c : Thread nD τ).loc cc0_stg0_0) ↦[rows S1x2048x1024 (1 : Fin 3) P0.row0 (P0.row0 + 2 * P0.nH)]{fullShare} f)
          ∗ (((c : Thread nD τ).loc cc0_stg0_0) ↦[rows S1x2048x1024 (1 : Fin 3) P1.row0 (P1.row0 + 2 * P1.nH)]{fullShare} f)
          ∗ (((c : Thread nD τ).loc cc0_stg0_0) ↦[rows S1x2048x1024 (1 : Fin 3) P2.row0 (P2.row0 + 2 * P2.nH)]{fullShare} f)) := by
  have h1 : (((c : Thread nD τ).loc cc0_stg0_0) ↦{fullShare} f : sProp 𝕄)
      = (((c : Thread nD τ).loc cc0_stg0_0) ↦[rows S1x2048x1024 (1 : Fin 3) P0.row0 (P2.row0 + 2 * P2.nH)]{fullShare} f) :=
    congrArg (fun I => (((c : Thread nD τ).loc cc0_stg0_0) ↦[I]{fullShare} f : sProp 𝕄))
      (rows_eq_univ (s := S1x2048x1024) (a := (1 : Fin 3)) (Nat.le_of_eq (by rfl))).symm
  have h2 : (((c : Thread nD τ).loc cc0_stg0_0) ↦[rows S1x2048x1024 (1 : Fin 3) P0.row0 (P2.row0 + 2 * P2.nH)]{fullShare} f : sProp 𝕄)
      ⊣⊢ iprop((((c : Thread nD τ).loc cc0_stg0_0) ↦[rows S1x2048x1024 (1 : Fin 3) P0.row0 (P0.row0 + 2 * P0.nH)]{fullShare} f)
          ∗ (((c : Thread nD τ).loc cc0_stg0_0) ↦[rows S1x2048x1024 (1 : Fin 3) (P0.row0 + 2 * P0.nH) (P2.row0 + 2 * P2.nH)]{fullShare} f)) :=
    pointsTo_rows_split_at (c : Thread nD τ) cc0_stg0_0 (1 : Fin 3) (by decide) (by decide) fullShare f
  have h3 : (((c : Thread nD τ).loc cc0_stg0_0) ↦[rows S1x2048x1024 (1 : Fin 3) P1.row0 (P2.row0 + 2 * P2.nH)]{fullShare} f : sProp 𝕄)
      ⊣⊢ iprop((((c : Thread nD τ).loc cc0_stg0_0) ↦[rows S1x2048x1024 (1 : Fin 3) P1.row0 (P1.row0 + 2 * P1.nH)]{fullShare} f)
          ∗ (((c : Thread nD τ).loc cc0_stg0_0) ↦[rows S1x2048x1024 (1 : Fin 3) (P1.row0 + 2 * P1.nH) (P2.row0 + 2 * P2.nH)]{fullShare} f)) :=
    pointsTo_rows_split_at (c : Thread nD τ) cc0_stg0_0 (1 : Fin 3) (by decide) (by decide) fullShare f
  rw [h1]
  constructor
  · iintro H
    icases h2.1 $$ H with ⟨H0, H⟩
    icases h3.1 $$ H with ⟨H1, H2⟩
    isplitl [H0]; · iexact H0
    isplitl [H1]; · iexact H1
    iexact H2
  · iintro ⟨H0, H1, H2⟩
    iapply h2.2
    isplitl [H0]; · iexact H0
    iapply h3.2
    isplitl [H1]; · iexact H1
    iexact H2
theorem stg1_split (c : Dev nD) (f : Buf (Elt F) ((c : Thread nD τ).loc cc0_stg1_0)) :
    (((c : Thread nD τ).loc cc0_stg1_0) ↦{fullShare} f : sProp 𝕄)
      ⊣⊢ iprop((((c : Thread nD τ).loc cc0_stg1_0) ↦[rows S2048x1024 (0 : Fin 2) P0.row0 (P0.row0 + 2 * P0.nH)]{fullShare} f)
          ∗ (((c : Thread nD τ).loc cc0_stg1_0) ↦[rows S2048x1024 (0 : Fin 2) P1.row0 (P1.row0 + 2 * P1.nH)]{fullShare} f)
          ∗ (((c : Thread nD τ).loc cc0_stg1_0) ↦[rows S2048x1024 (0 : Fin 2) P2.row0 (P2.row0 + 2 * P2.nH)]{fullShare} f)) := by
  have h1 : (((c : Thread nD τ).loc cc0_stg1_0) ↦{fullShare} f : sProp 𝕄)
      = (((c : Thread nD τ).loc cc0_stg1_0) ↦[rows S2048x1024 (0 : Fin 2) P0.row0 (P2.row0 + 2 * P2.nH)]{fullShare} f) :=
    congrArg (fun I => (((c : Thread nD τ).loc cc0_stg1_0) ↦[I]{fullShare} f : sProp 𝕄))
      (rows_eq_univ (s := S2048x1024) (a := (0 : Fin 2)) (Nat.le_of_eq (by rfl))).symm
  have h2 : (((c : Thread nD τ).loc cc0_stg1_0) ↦[rows S2048x1024 (0 : Fin 2) P0.row0 (P2.row0 + 2 * P2.nH)]{fullShare} f : sProp 𝕄)
      ⊣⊢ iprop((((c : Thread nD τ).loc cc0_stg1_0) ↦[rows S2048x1024 (0 : Fin 2) P0.row0 (P0.row0 + 2 * P0.nH)]{fullShare} f)
          ∗ (((c : Thread nD τ).loc cc0_stg1_0) ↦[rows S2048x1024 (0 : Fin 2) (P0.row0 + 2 * P0.nH) (P2.row0 + 2 * P2.nH)]{fullShare} f)) :=
    pointsTo_rows_split_at (c : Thread nD τ) cc0_stg1_0 (0 : Fin 2) (by decide) (by decide) fullShare f
  have h3 : (((c : Thread nD τ).loc cc0_stg1_0) ↦[rows S2048x1024 (0 : Fin 2) P1.row0 (P2.row0 + 2 * P2.nH)]{fullShare} f : sProp 𝕄)
      ⊣⊢ iprop((((c : Thread nD τ).loc cc0_stg1_0) ↦[rows S2048x1024 (0 : Fin 2) P1.row0 (P1.row0 + 2 * P1.nH)]{fullShare} f)
          ∗ (((c : Thread nD τ).loc cc0_stg1_0) ↦[rows S2048x1024 (0 : Fin 2) (P1.row0 + 2 * P1.nH) (P2.row0 + 2 * P2.nH)]{fullShare} f)) :=
    pointsTo_rows_split_at (c : Thread nD τ) cc0_stg1_0 (0 : Fin 2) (by decide) (by decide) fullShare f
  rw [h1]
  constructor
  · iintro H
    icases h2.1 $$ H with ⟨H0, H⟩
    icases h3.1 $$ H with ⟨H1, H2⟩
    isplitl [H0]; · iexact H0
    isplitl [H1]; · iexact H1
    iexact H2
  · iintro ⟨H0, H1, H2⟩
    iapply h2.2
    isplitl [H0]; · iexact H0
    iapply h3.2
    isplitl [H1]; · iexact H1
    iexact H2
theorem pre_split (m : (ℓ : Loc nD τ sig) → Buf (Elt F) ℓ) (c : Dev nD) :
    iprop(scr (F := F) c ∗ (((c : Thread nD τ).loc cc0_stg0_0) ↦{fullShare} xAt m c) ∗ wholeAt c cc0_stg1_0)
      ⊢ iprop((P0.scrP c ∗ P0.xPart m c ∗ P0.oPart c) ∗ (P1.scrP c ∗ P1.xPart m c ∗ P1.oPart c) ∗ (P2.scrP c ∗ P2.xPart m c ∗ P2.oPart c)) := by
  unfold scr P0.scrP P1.scrP P2.scrP P0.xPart P1.xPart P2.xPart P0.oPart P1.oPart P2.oPart
  simp only [pt_def]
  iintro ⟨⟨W0, W1, W2, W3, W4, W5, W6, W7, W8, W9, W10, W11⟩, Hx, ⟨%fo, Ho⟩⟩
  icases (stg0_split c (xAt m c)).1 $$ Hx with ⟨X0, X1, X2⟩
  icases (stg1_split c fo).1 $$ Ho with ⟨O0, O1, O2⟩
  isplitl [W0 W1 W2 W3 X0 O0]
  · isplitl [W0 W1 W2 W3]
    · isplitl [W0]; · iexact W0
      isplitl [W1]; · iexact W1
      isplitl [W2]; · iexact W2
      iexact W3
    isplitl [X0]; · iexact X0
    iexists fo; iexact O0
  isplitl [W4 W5 W6 W7 X1 O1]
  · isplitl [W4 W5 W6 W7]
    · isplitl [W4]; · iexact W4
      isplitl [W5]; · iexact W5
      isplitl [W6]; · iexact W6
      iexact W7
    isplitl [X1]; · iexact X1
    iexists fo; iexact O1
  isplitl [W8 W9 W10 W11]
  · isplitl [W8]; · iexact W8
    isplitl [W9]; · iexact W9
    isplitl [W10]; · iexact W10
    iexact W11
  isplitl [X2]; · iexact X2
  iexists fo; iexact O2
theorem post_join (m : (ℓ : Loc nD τ sig) → Buf (Elt F) ℓ) (c : Dev nD) :
    iprop((P0.scrP c ∗ P0.xPart m c ∗ P0.oPartF m c) ∗ (P1.scrP c ∗ P1.xPart m c ∗ P1.oPartF m c) ∗ (P2.scrP c ∗ P2.xPart m c ∗ P2.oPartF m c))
      ⊢ iprop(scr (F := F) c ∗ (((c : Thread nD τ).loc cc0_stg0_0) ↦{fullShare} xAt m c) ∗ (((c : Thread nD τ).loc cc0_stg1_0) ↦{fullShare} outAt m)) := by
  unfold scr P0.scrP P1.scrP P2.scrP P0.xPart P1.xPart P2.xPart P0.oPartF P1.oPartF P2.oPartF
  simp only [pt_def]
  iintro ⟨⟨⟨W0, W1, W2, W3⟩, X0, O0⟩, ⟨⟨W4, W5, W6, W7⟩, X1, O1⟩, ⟨W8, W9, W10, W11⟩, X2, O2⟩
  isplitl [W0 W1 W2 W3 W4 W5 W6 W7 W8 W9 W10 W11]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexact W11
  isplitl [X0 X1 X2]
  · iapply (stg0_split c (xAt m c)).2
    isplitl [X0]; · iexact X0
    isplitl [X1]; · iexact X1
    iexact X2
  iapply (stg1_split c (outAt m)).2
  isplitl [O0]; · iexact O0
  isplitl [O1]; · iexact O1
  iexact O2
end Cert.KernelIdeal.TR
end
-- ==== Proof.Pays.lean ====
import proofs.«901104_g7700000000001105_dist_treered_v7x_i8_m2048_n1024_f32_1_alg».proof.Proof.Gen.KernelIdeal.Skeleton
import Idealize.ShloMosaic.Lib.Pipeline.Value
import Idealize.ShloMosaic.Lib.ValueLayout
import Idealize.ShloMosaic.Lib.ValueIdx
noncomputable section
namespace Cert.KernelIdeal.TR
open Cert.KernelIdeal Cert.KernelIdeal.Gen
open Idealize.ShloMosaic Idealize.ShloMosaic.ValueIdx
variable {F : FTy → Type} [FloatOps F]
theorem sum_drop {p q : ℕ} (x : Vec F ⟨3, ![1, p, q]⟩ .f32) (y : Vec F ⟨2, ![p, q]⟩ .f32)
    (h1 : (⟨3, ![1, p, q]⟩ : Shape).ShapeCasts ⟨2, ![p, q]⟩) (h2 : (⟨2, ![p, q]⟩ : Shape).ShapeCasts ⟨2, ![p, q]⟩)
    (j : (⟨2, ![p, q]⟩ : Shape).Idx) :
    shapeCast ⟨2, ![p, q]⟩ (addf (φ := .f32) (shapeCast ⟨2, ![p, q]⟩ x h1) y) h2 j
      = FloatOps.addf (φ := .f32) (x (ix3 (0 : Fin 1) (j 0 : Fin p) (j 1 : Fin q))) (y j) := by
  rw [shapeCast_self]
  have h := shapeCast_1ab_ab_apply x h1 (j 0 : Fin p) (j 1 : Fin q)
  have hj : j = ix2 (j 0 : Fin p) (j 1 : Fin q) := eq_ix2 j
  have h' : shapeCast ⟨2, ![p, q]⟩ x h1 j = x (ix3 (0 : Fin 1) (j 0 : Fin p) (j 1 : Fin q)) :=
    (congrArg (shapeCast ⟨2, ![p, q]⟩ x h1) hj).trans h
  show FloatOps.addf (φ := .f32) (shapeCast ⟨2, ![p, q]⟩ x h1 j) (y j) = _
  rw [h']
theorem sum_same {s : Shape} (x y : Vec F s .f32) (h : s.ShapeCasts s) (j : s.Idx) :
    shapeCast s (addf (φ := .f32) x y) h j = FloatOps.addf (φ := .f32) (x j) (y j) := by
  rw [shapeCast_self]; rfl
theorem pay_1 (a : Vec F S1x88x1024 .f32) (b : Vec F S88x1024 .f32) (j : S88x1024.Idx) :
    k0_pay1 a b j = FloatOps.addf (φ := .f32) (a (ix3 (0 : Fin 1) (j 0 : Fin (S88x1024.size 0)) (j 1 : Fin (S88x1024.size 1)))) (b j) :=
  sum_drop a b shapeCasts_S1x88x1024_S88x1024 shapeCasts_S88x1024_S88x1024 j
theorem pay_2 (a : Vec F S1x88x1024 .f32) (b : Vec F S88x1024 .f32) (j : S88x1024.Idx) :
    k0_pay2 a b j = FloatOps.addf (φ := .f32) (a (ix3 (0 : Fin 1) (j 0 : Fin (S88x1024.size 0)) (j 1 : Fin (S88x1024.size 1)))) (b j) :=
  sum_drop a b shapeCasts_S1x88x1024_S88x1024 shapeCasts_S88x1024_S88x1024 j
theorem pay_3 (a : Vec F S1x176x1024 .f32) (b : Vec F S176x1024 .f32) (j : S176x1024.Idx) :
    k0_pay3 a b j = FloatOps.addf (φ := .f32) (a (ix3 (0 : Fin 1) (j 0 : Fin (S176x1024.size 0)) (j 1 : Fin (S176x1024.size 1)))) (b j) :=
  sum_drop a b shapeCasts_S1x176x1024_S176x1024 shapeCasts_S176x1024_S176x1024 j
theorem pay_4 (a : Vec F S1x88x1024 .f32) (b : Vec F S88x1024 .f32) (j : S88x1024.Idx) :
    k0_pay4 a b j = FloatOps.addf (φ := .f32) (a (ix3 (0 : Fin 1) (j 0 : Fin (S88x1024.size 0)) (j 1 : Fin (S88x1024.size 1)))) (b j) :=
  sum_drop a b shapeCasts_S1x88x1024_S88x1024 shapeCasts_S88x1024_S88x1024 j
theorem pay_5 (a : Vec F S1x88x1024 .f32) (b : Vec F S88x1024 .f32) (j : S88x1024.Idx) :
    k0_pay5 a b j = FloatOps.addf (φ := .f32) (a (ix3 (0 : Fin 1) (j 0 : Fin (S88x1024.size 0)) (j 1 : Fin (S88x1024.size 1)))) (b j) :=
  sum_drop a b shapeCasts_S1x88x1024_S88x1024 shapeCasts_S88x1024_S88x1024 j
theorem pay_6 (a : Vec F S1x176x1024 .f32) (b : Vec F S176x1024 .f32) (j : S176x1024.Idx) :
    k0_pay6 a b j = FloatOps.addf (φ := .f32) (a (ix3 (0 : Fin 1) (j 0 : Fin (S176x1024.size 0)) (j 1 : Fin (S176x1024.size 1)))) (b j) :=
  sum_drop a b shapeCasts_S1x176x1024_S176x1024 shapeCasts_S176x1024_S176x1024 j
theorem pay_7 (a : Vec F S1x80x1024 .f32) (b : Vec F S80x1024 .f32) (j : S80x1024.Idx) :
    k0_pay7 a b j = FloatOps.addf (φ := .f32) (a (ix3 (0 : Fin 1) (j 0 : Fin (S80x1024.size 0)) (j 1 : Fin (S80x1024.size 1)))) (b j) :=
  sum_drop a b shapeCasts_S1x80x1024_S80x1024 shapeCasts_S80x1024_S80x1024 j
theorem pay_8 (a : Vec F S1x80x1024 .f32) (b : Vec F S80x1024 .f32) (j : S80x1024.Idx) :
    k0_pay8 a b j = FloatOps.addf (φ := .f32) (a (ix3 (0 : Fin 1) (j 0 : Fin (S80x1024.size 0)) (j 1 : Fin (S80x1024.size 1)))) (b j) :=
  sum_drop a b shapeCasts_S1x80x1024_S80x1024 shapeCasts_S80x1024_S80x1024 j
theorem pay_9 (a : Vec F S1x160x1024 .f32) (b : Vec F S160x1024 .f32) (j : S160x1024.Idx) :
    k0_pay9 a b j = FloatOps.addf (φ := .f32) (a (ix3 (0 : Fin 1) (j 0 : Fin (S160x1024.size 0)) (j 1 : Fin (S160x1024.size 1)))) (b j) :=
  sum_drop a b shapeCasts_S1x160x1024_S160x1024 shapeCasts_S160x1024_S160x1024 j
theorem pay_11_10 (a b : Vec F S88x1024 .f32) (j : S88x1024.Idx) :
    k0_pay11 (k0_pay10 a b) j = FloatOps.addf (φ := .f32) (a j) (b j) :=
  sum_same a b shapeCasts_S88x1024_S88x1024 j
theorem pay_12 (a b : Vec F S88x1024 .f32) (j : S88x1024.Idx) :
    k0_pay12 a b j = FloatOps.addf (φ := .f32) (a j) (b j) :=
  sum_same a b shapeCasts_S88x1024_S88x1024 j
theorem pay_13 (a b : Vec F S88x1024 .f32) (j : S88x1024.Idx) :
    k0_pay13 a b j = FloatOps.addf (φ := .f32) (a j) (b j) :=
  sum_same a b shapeCasts_S88x1024_S88x1024 j
theorem pay_14 (a b : Vec F S88x1024 .f32) (j : S88x1024.Idx) :
    k0_pay14 a b j = FloatOps.addf (φ := .f32) (a j) (b j) :=
  sum_same a b shapeCasts_S88x1024_S88x1024 j
theorem pay_15 (a b : Vec F S80x1024 .f32) (j : S80x1024.Idx) :
    k0_pay15 a b j = FloatOps.addf (φ := .f32) (a j) (b j) :=
  sum_same a b shapeCasts_S80x1024_S80x1024 j
theorem pay_16 (a b : Vec F S80x1024 .f32) (j : S80x1024.Idx) :
    k0_pay16 a b j = FloatOps.addf (φ := .f32) (a j) (b j) :=
  sum_same a b shapeCasts_S80x1024_S80x1024 j
theorem pay_17 (a b : Vec F S88x1024 .f32) (j : S88x1024.Idx) :
    k0_pay17 a b j = FloatOps.addf (φ := .f32) (a j) (b j) := rfl
theorem pay_18 (a b : Vec F S88x1024 .f32) (j : S88x1024.Idx) :
    k0_pay18 a b j = FloatOps.addf (φ := .f32) (a j) (b j) := rfl
theorem pay_19 (a b : Vec F S80x1024 .f32) (j : S80x1024.Idx) :
    k0_pay19 a b j = FloatOps.addf (φ := .f32) (a j) (b j) := rfl
end Cert.KernelIdeal.TR
end
-- ==== Proof.LibTile.lean ====
import proofs.«901104_g7700000000001105_dist_treered_v7x_i8_m2048_n1024_f32_1_alg».proof.Proof.LibRows
import Idealize.ShloMosaic.Lib.Pipeline.Kit
noncomputable section
namespace Cert.TR.Rows
open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws
section Tile
variable {s : Shape} {a : Fin s.rank} {k : ℕ} {lo n : Fin k → ℕ} {L N e : ℕ}
theorem biUnion_rows_eq (he : 0 < e) (hin : ∀ t, L ≤ lo t ∧ lo t + n t ≤ L + N * e)
    (hcov : ∀ u, u < N → ∃ t, lo t ≤ L + u * e ∧ L + (u + 1) * e ≤ lo t + n t) :
    (Finset.univ : Finset (Fin k)).biUnion (fun t => rows s a (lo t) (lo t + n t)) = rows s a L (L + N * e) := by
  ext i
  simp only [Finset.mem_biUnion, Finset.mem_univ, true_and, mem_rows]
  constructor
  · rintro ⟨t, h1, h2⟩
    have := hin t
    omega
  · rintro ⟨h1, h2⟩
    have hu : ((i a).val - L) / e < N := by
      rw [Nat.div_lt_iff_lt_mul he]; omega
    obtain ⟨t, ht1, ht2⟩ := hcov _ hu
    have hm := Nat.div_add_mod ((i a).val - L) e
    have hr := Nat.mod_lt ((i a).val - L) he
    have hmul : (((i a).val - L) / e + 1) * e = e * (((i a).val - L) / e) + e := by rw [Nat.add_mul, Nat.one_mul, Nat.mul_comm]
    have hmul' : ((i a).val - L) / e * e = e * (((i a).val - L) / e) := Nat.mul_comm _ _
    refine ⟨t, ?_, ?_⟩ <;> omega
theorem rows_pairwise_disjoint (hsep : ∀ t t', t ≠ t' → lo t + n t ≤ lo t' ∨ lo t' + n t' ≤ lo t) :
    ∀ t ∈ (Finset.univ : Finset (Fin k)), ∀ t' ∈ (Finset.univ : Finset (Fin k)), t ≠ t' →
      Disjoint (rows s a (lo t) (lo t + n t)) (rows s a (lo t') (lo t' + n t')) := by
  intro t _ t' _ h
  rcases hsep t t' h with h | h
  · exact rows_disjoint h
  · exact (rows_disjoint h).symm
end Tile
section TilePointsTo
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl
structure Tiles {κ : Kind} (b : Ref sig κ) (a : Fin b.ty.shape.rank) (k : ℕ)
    (off size : Fin k → Fin b.ty.shape.rank → ℕ) (L N e : ℕ) : Prop where
  pos : 0 < e
  inb : ∀ t a', off t a' + size t a' ≤ b.ty.shape.size a'
  slab : ∀ t, Slab b.ty.shape a (off t) (size t)
  inside : ∀ t, L ≤ off t a ∧ off t a + size t a ≤ L + N * e
  cover : ∀ u, u < N → ∃ t, off t a ≤ L + u * e ∧ L + (u + 1) * e ≤ off t a + size t a
  sep : ∀ t t', t ≠ t' → off t a + size t a ≤ off t' a ∨ off t' a + size t' a ≤ off t a
def Tiling (s : Shape) (a : Fin s.rank) (k : ℕ) (off size : Fin k → Fin s.rank → ℕ) (L N e : ℕ) : Prop :=
  0 < e ∧ (∀ t a', off t a' + size t a' ≤ s.size a') ∧ (∀ t a', a' ≠ a → off t a' = 0 ∧ size t a' = s.size a')
    ∧ (∀ t, L ≤ off t a ∧ off t a + size t a ≤ L + N * e)
    ∧ (∀ u : Fin N, ∃ t, off t a ≤ L + u.val * e ∧ L + (u.val + 1) * e ≤ off t a + size t a)
    ∧ (∀ t t', t ≠ t' → off t a + size t a ≤ off t' a ∨ off t' a + size t' a ≤ off t a)
instance (s : Shape) (a : Fin s.rank) (k : ℕ) (off size : Fin k → Fin s.rank → ℕ) (L N e : ℕ) :
    Decidable (Tiling s a k off size L N e) := by unfold Tiling; infer_instance
theorem Tiling.tiles {κ : Kind} {b : Ref sig κ} {a : Fin b.ty.shape.rank} {k : ℕ}
    {off size : Fin k → Fin b.ty.shape.rank → ℕ} {L N e : ℕ} (h : Tiling b.ty.shape a k off size L N e) :
    Tiles b a k off size L N e where
  pos := h.1
  inb := h.2.1
  slab := h.2.2.1
  inside := h.2.2.2.1
  cover := fun u hu => h.2.2.2.2.1 ⟨u, hu⟩
  sep := h.2.2.2.2.2
variable (c : Thread nD τ) (b : Ref sig c.2.kind) {a : Fin b.ty.shape.rank} {k : ℕ}
  {off size : Fin k → Fin b.ty.shape.rank → ℕ} {L N e : ℕ}
theorem pointsTo_tiles (h : Tiles b a k off size L N e)
    (inb : ∀ t a', off t a' + size t a' ≤ b.ty.shape.size a') (q : PosShare TreeShare) (f : Buf Val (c.loc b)) :
    (c.loc b ↦[rows b.ty.shape a L (L + N * e)]{q} f : sProp 𝕄)
      = bigSep Finset.univ fun t : Fin k =>
          (c.loc b ↦[((Memref.whole b).slice (Rect.unit (off t) (size t) (inb t)) (fun _ => rfl)).view.set]{q} f) := by
  rw [← biUnion_rows_eq (s := b.ty.shape) (a := a) (lo := fun t => off t a) (n := fun t => size t a) h.pos h.inside h.cover]
  rw [pointsTo_biUnion (ℓ := c.loc b) Finset.univ (fun t => rows b.ty.shape a (off t a) (off t a + size t a))
    (rows_pairwise_disjoint (lo := fun t => off t a) (n := fun t => size t a) h.sep)]
  congr 1
  funext t
  exact congrArg (fun I => (c.loc b ↦[I]{q} f : sProp 𝕄)) (slice_view_set b (inb t) (fun _ => rfl) (h.slab t)).symm
theorem pointsTo_tiles_join (h : Tiles b a k off size L N e)
    (inb : ∀ t a', off t a' + size t a' ≤ b.ty.shape.size a') (q : PosShare TreeShare) (fs : Fin k → Buf Val (c.loc b))
    (f₀ : Buf Val (c.loc b)) :
    (bigSep Finset.univ fun t : Fin k =>
        (c.loc b ↦[((Memref.whole b).slice (Rect.unit (off t) (size t) (inb t)) (fun _ => rfl)).view.set]{q} fs t))
      ⊢ (iprop(∃ g, c.loc b ↦[rows b.ty.shape a L (L + N * e)]{q} g) : sProp 𝕄) := by
  have hset : ∀ t, ((Memref.whole b).slice (Rect.unit (off t) (size t) (inb t)) (fun _ => rfl)).view.set
      = rows b.ty.shape a (off t a) (off t a + size t a) := fun t => slice_view_set b (inb t) (fun _ => rfl) (h.slab t)
  have e1 : (bigSep Finset.univ fun t : Fin k =>
        (c.loc b ↦[((Memref.whole b).slice (Rect.unit (off t) (size t) (inb t)) (fun _ => rfl)).view.set]{q} fs t) : sProp 𝕄)
      = bigSep Finset.univ fun t : Fin k => (c.loc b ↦[rows b.ty.shape a (off t a) (off t a + size t a)]{q} fs t) := by
    congr 1; funext t
    exact congrArg (fun I => (c.loc b ↦[I]{q} fs t : sProp 𝕄)) (hset t)
  rw [e1]
  refine (pointsTo_biUnion_join (ℓ := c.loc b) Finset.univ (fun t => rows b.ty.shape a (off t a) (off t a + size t a)) fs f₀
    (rows_pairwise_disjoint (lo := fun t => off t a) (n := fun t => size t a) h.sep)).trans ?_
  rw [biUnion_rows_eq (s := b.ty.shape) (a := a) (lo := fun t => off t a) (n := fun t => size t a) h.pos h.inside h.cover]
  iintro ⟨%g, -, H⟩
  iexists g; iexact H
end TilePointsTo
end Cert.TR.Rows
end
-- ==== Proof.Give0.lean ====
import proofs.«901104_g7700000000001105_dist_treered_v7x_i8_m2048_n1024_f32_1_alg».proof.Proof.Res0
import proofs.«901104_g7700000000001105_dist_treered_v7x_i8_m2048_n1024_f32_1_alg».proof.Proof.LibRows
import proofs.«901104_g7700000000001105_dist_treered_v7x_i8_m2048_n1024_f32_1_alg».proof.Proof.LibTile
import proofs.«901104_g7700000000001105_dist_treered_v7x_i8_m2048_n1024_f32_1_alg».proof.Proof.Mesh
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P0
abbrev offA (c : Dev nD) : Fin 3 → Fin 2 → ℕ := ![k0_off20 c, k0_off23 c, k0_off26 c]
abbrev sizeA : Fin 3 → Fin 2 → ℕ := ![S88x1024.size, S88x1024.size, S176x1024.size]
theorem tilingA : ∀ c : Dev nD, Tiling S352x1024 0 3 (offA c) sizeA 0 4 nE := by decide +kernel
theorem give_acc (c : Dev nD) :
    (iprop(∃ f : Buf (Elt F) ((c : Thread nD τ).loc cc0_scratch0), ((c : Thread nD τ).loc cc0_scratch0) ↦{fullShare} f) : sProp 𝕄)
      ⊢ iprop(a20 c ∗ a23 c ∗ a26 c) := by
  iintro ⟨%f, H⟩
  have e := pointsTo_tiles (Val := Elt F) (Ix := Unit) (Name := ℕ) (U := UU) (Lvl := ℕ) (c : Thread nD τ) cc0_scratch0
    (Tiling.tiles (b := cc0_scratch0) (tilingA c)) (Tiling.tiles (b := cc0_scratch0) (tilingA c)).inb fullShare f
  rw [bigSep_univ_eq_bigSepL [(0 : Fin 3), 1, 2] (by decide) (by decide)] at e
  simp only [bigSepL_cons_cons, bigSepL_singleton] at e
  rw [rows_eq_univ (Nat.le_of_eq (by rfl))] at e
  change _ = iprop(_ ∗ _ ∗ _) at e
  ihave H' := (Entails.of_eq e) $$ H
  icases H' with ⟨H0, H1, H2⟩
  unfold a20 a23 a26
  simp only [held, heldQ_def]
  isplitl [H0]; · iexists f; iexact H0
  isplitl [H1]; · iexists f; iexact H1
  iexists f; iexact H2
abbrev offR0 (c : Dev nD) : Fin 3 → Fin 2 → ℕ := ![k0_off1 (flip o0 c), k0_off3 (flip o0 c), k0_off5 (flip o0 c)]
theorem tilingR0 : ∀ c : Dev nD, Tiling S352x1024 0 3 (offR0 c) sizeA 0 4 nE := by decide +kernel
theorem give_r0 (c : Dev nD) :
    (iprop(∃ f : Buf (Elt F) ((c : Thread nD τ).loc cc0_scratch1), ((c : Thread nD τ).loc cc0_scratch1) ↦{fullShare} f) : sProp 𝕄)
      ⊢ iprop(held c (dstAny (flip o0 c) s0) ∗ held c (dstAny (flip o0 c) s1) ∗ held c (dstAny (flip o0 c) s2)) := by
  iintro ⟨%f, H⟩
  have e := pointsTo_tiles (Val := Elt F) (Ix := Unit) (Name := ℕ) (U := UU) (Lvl := ℕ) (c : Thread nD τ) cc0_scratch1
    (Tiling.tiles (b := cc0_scratch1) (tilingR0 c)) (Tiling.tiles (b := cc0_scratch1) (tilingR0 c)).inb fullShare f
  rw [bigSep_univ_eq_bigSepL [(0 : Fin 3), 1, 2] (by decide) (by decide)] at e
  simp only [bigSepL_cons_cons, bigSepL_singleton] at e
  rw [rows_eq_univ (Nat.le_of_eq (by rfl))] at e
  change _ = iprop(_ ∗ _ ∗ _) at e
  ihave H' := (Entails.of_eq e) $$ H
  icases H' with ⟨H0, H1, H2⟩
  simp only [held, heldQ_def, dstAny]
  isplitl [H0]; · iexists f; iexact H0
  isplitl [H1]; · iexists f; iexact H1
  iexists f; iexact H2
abbrev offR1 (c : Dev nD) : Fin 2 → Fin 2 → ℕ := ![k0_off21 (flip o1 c), k0_off24 (flip o1 c)]
abbrev sizeR1 : Fin 2 → Fin 2 → ℕ := ![S88x1024.size, S88x1024.size]
theorem tilingR1 : ∀ c : Dev nD, Tiling S176x1024 0 2 (offR1 c) sizeR1 0 2 nE := by decide +kernel
theorem give_r1 (c : Dev nD) :
    (iprop(∃ f : Buf (Elt F) ((c : Thread nD τ).loc cc0_scratch2), ((c : Thread nD τ).loc cc0_scratch2) ↦{fullShare} f) : sProp 𝕄)
      ⊢ iprop(held c (dstAny (flip o1 c) s3) ∗ held c (dstAny (flip o1 c) s4)) := by
  iintro ⟨%f, H⟩
  have e := pointsTo_tiles (Val := Elt F) (Ix := Unit) (Name := ℕ) (U := UU) (Lvl := ℕ) (c : Thread nD τ) cc0_scratch2
    (Tiling.tiles (b := cc0_scratch2) (tilingR1 c)) (Tiling.tiles (b := cc0_scratch2) (tilingR1 c)).inb fullShare f
  rw [bigSep_univ_eq_bigSepL [(0 : Fin 2), 1] (by decide) (by decide)] at e
  simp only [bigSepL_cons_cons, bigSepL_singleton] at e
  rw [rows_eq_univ (Nat.le_of_eq (by rfl))] at e
  change _ = iprop(_ ∗ _) at e
  ihave H' := (Entails.of_eq e) $$ H
  icases H' with ⟨H0, H1⟩
  simp only [held, heldQ_def, dstAny]
  isplitl [H0]; · iexists f; iexact H0
  iexists f; iexact H1
theorem pointsTo_whole_view (c : Dev nD) (b : Ref sig .tc) (q : PosShare TreeShare) (f : Buf (Elt F) ((c : Thread nD τ).loc b)) :
    ((c : Thread nD τ).loc b ↦{q} f : sProp 𝕄)
      = ((Memref.whole b).view.loc (c : Thread nD τ) ↦[(Memref.whole b).view.set]{q} f) :=
  congrArg (fun I => ((c : Thread nD τ).loc b ↦[I]{q} f : sProp 𝕄)) (View.set_whole b).symm
theorem give_r2 (c : Dev nD) :
    (iprop(∃ f : Buf (Elt F) ((c : Thread nD τ).loc cc0_scratch3), ((c : Thread nD τ).loc cc0_scratch3) ↦{fullShare} f) : sProp 𝕄)
      ⊢ held c (dstAny (flip o2 c) s5) := by
  iintro ⟨%f, H⟩
  simp only [held, heldQ_def, dstAny]
  iexists f
  ihave H' := (Entails.of_eq (pointsTo_whole_view c cc0_scratch3 fullShare f)) $$ H
  iexact H'
abbrev offO (c : Dev nD) : Fin 7 → Fin 2 → ℕ :=
  ![k0_off58 c, k0_off59 (flip o2 c), k0_off59 (flip o1 c), k0_off64 (flip o1 c), k0_off59 (flip o0 c), k0_off64 (flip o0 c), k0_off67 (flip o0 c)]
abbrev sizeO : Fin 7 → Fin 2 → ℕ :=
  ![S88x1024.size, S88x1024.size, S88x1024.size, S88x1024.size, S88x1024.size, S88x1024.size, S176x1024.size]
theorem tilingO : ∀ c : Dev nD, Tiling S2048x1024 0 7 (offO c) sizeO row0 8 nE := by decide +kernel
theorem part_rows : row0 + 8 * nE = row0 + 2 * nH := rfl
theorem give_out (c : Dev nD) :
    (oPart (F := F) c : sProp 𝕄)
      ⊢ iprop(o58 c ∗ held c (dstAny (flip o2 c) s6) ∗ held c (dstAny (flip o1 c) s7) ∗ held c (dstAny (flip o1 c) s8)
          ∗ held c (dstAny (flip o0 c) s9) ∗ held c (dstAny (flip o0 c) s10) ∗ held c (dstAny (flip o0 c) s11)) := by
  unfold oPart
  iintro ⟨%f, H⟩
  have e := pointsTo_tiles (Val := Elt F) (Ix := Unit) (Name := ℕ) (U := UU) (Lvl := ℕ) (c : Thread nD τ) cc0_stg1_0
    (Tiling.tiles (b := cc0_stg1_0) (tilingO c)) (Tiling.tiles (b := cc0_stg1_0) (tilingO c)).inb fullShare f
  rw [bigSep_univ_eq_bigSepL [(0 : Fin 7), 1, 2, 3, 4, 5, 6] (by decide) (by decide)] at e
  simp only [bigSepL_cons_cons, bigSepL_singleton] at e
  rw [part_rows] at e
  change _ = iprop(_ ∗ _ ∗ _ ∗ _ ∗ _ ∗ _ ∗ _) at e
  ihave H' := (Entails.of_eq e) $$ H
  icases H' with ⟨H0, H1, H2, H3, H4, H5, H6⟩
  unfold o58
  simp only [held, heldQ_def, dstAny]
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  iexists f; iexact H6
abbrev offX (c : Dev nD) : Fin 6 → Fin 3 → ℕ := ![k0_off2 c, k0_off4 c, k0_off6 c, k0_off19 c, k0_off22 c, k0_off25 c]
abbrev sizeX : Fin 6 → Fin 3 → ℕ :=
  ![S1x88x1024.size, S1x88x1024.size, S1x176x1024.size, S1x88x1024.size, S1x88x1024.size, S1x176x1024.size]
theorem tilingX : ∀ c : Dev nD, Tiling S1x2048x1024 1 6 (offX c) sizeX row0 8 nE := by decide +kernel
theorem pt_squeeze_eq (c : Dev nD) (b : Ref sig .tc) {off size : Fin b.ty.shape.rank → ℕ}
    (p : ∀ a, off a + size a ≤ b.ty.shape.size a) {s' : Shape} (hsq : (Rect.unit off size p).shape.Squeezes s')
    (q : PosShare TreeShare) (G : Buf (Elt F) ((c : Thread nD τ).loc b)) :
    (pt (ℓ := (c : Thread nD τ).loc b) (((Memref.whole b).slice (Rect.unit off size p) (fun _ => rfl)).squeeze s' hsq).view.set q G : sProp 𝕄)
      = ((c : Thread nD τ).loc b ↦[((Memref.whole b).slice (Rect.unit off size p) (fun _ => rfl)).view.set]{q} G) :=
  congrArg (fun I => ((c : Thread nD τ).loc b ↦[I]{q} G : sProp 𝕄)) (View.set_reshape _ _)
theorem sendPay_s0_eq (m : (ℓ : Loc nD τ sig) → Buf (Elt F) ℓ) (c : Dev nD) : sendPay m c s0
    = ((c : Thread nD τ).loc cc0_stg0_0 ↦[((Memref.whole cc0_stg0_0).slice (u2 c) (fun _ => rfl)).view.set]{fullShare} (Gx m c)) :=
  pt_squeeze_eq c cc0_stg0_0 (k0_off2_inb c) squeezes_S1x88x1024_S88x1024 fullShare (Gx m c)
theorem sendPay_s1_eq (m : (ℓ : Loc nD τ sig) → Buf (Elt F) ℓ) (c : Dev nD) : sendPay m c s1
    = ((c : Thread nD τ).loc cc0_stg0_0 ↦[((Memref.whole cc0_stg0_0).slice (u4 c) (fun _ => rfl)).view.set]{fullShare} (Gx m c)) :=
  pt_squeeze_eq c cc0_stg0_0 (k0_off4_inb c) squeezes_S1x88x1024_S88x1024 fullShare (Gx m c)
theorem sendPay_s2_eq (m : (ℓ : Loc nD τ sig) → Buf (Elt F) ℓ) (c : Dev nD) : sendPay m c s2
    = ((c : Thread nD τ).loc cc0_stg0_0 ↦[((Memref.whole cc0_stg0_0).slice (u6 c) (fun _ => rfl)).view.set]{fullShare} (Gx m c)) :=
  pt_squeeze_eq c cc0_stg0_0 (k0_off6_inb c) squeezes_S1x176x1024_S176x1024 fullShare (Gx m c)
theorem in_eq (m : (ℓ : Loc nD τ sig) → Buf (Elt F) ℓ) (c : Dev nD) :
    xPart m c = iprop(sendPay m c s0 ∗ sendPay m c s1 ∗ sendPay m c s2 ∗ xl19 m c ∗ xl22 m c ∗ xl25 m c) := by
  have e := pointsTo_tiles (Val := Elt F) (Ix := Unit) (Name := ℕ) (U := UU) (Lvl := ℕ) (c : Thread nD τ) cc0_stg0_0
    (Tiling.tiles (b := cc0_stg0_0) (tilingX c)) (Tiling.tiles (b := cc0_stg0_0) (tilingX c)).inb fullShare (Gx m c)
  rw [bigSep_univ_eq_bigSepL [(0 : Fin 6), 1, 2, 3, 4, 5] (by decide) (by decide)] at e
  simp only [bigSepL_cons_cons, bigSepL_singleton] at e
  rw [part_rows] at e
  change _ = iprop(_ ∗ _ ∗ _ ∗ _ ∗ _ ∗ _) at e
  rw [sendPay_s0_eq, sendPay_s1_eq, sendPay_s2_eq]
  unfold xPart xl19 xl22 xl25
  simp only [pt_def]
  exact e
theorem in_give (m : (ℓ : Loc nD τ sig) → Buf (Elt F) ℓ) (c : Dev nD) :
    xPart m c ⊢ iprop((sendPay m c s0 ∗ sendPay m c s1 ∗ sendPay m c s2) ∗ xl m c) := by
  refine (Entails.of_eq (in_eq m c)).trans ?_
  unfold xl
  iintro ⟨H0, H1, H2, H3, H4, H5⟩
  isplitl [H0 H1 H2]
  · iframe
  iframe
theorem in_rejoin (m : (ℓ : Loc nD τ sig) → Buf (Elt F) ℓ) (c : Dev nD) :
    iprop((sendPay m c s0 ∗ sendPay m c s1 ∗ sendPay m c s2) ∗ xl m c) ⊢ xPart m c := by
  refine BIBase.Entails.trans ?_ (Entails.of_eq (in_eq m c).symm)
  unfold xl
  iintro ⟨⟨H0, H1, H2⟩, H3, H4, H5⟩
  iframe
theorem give_p0 (m : (ℓ : Loc nD τ sig) → Buf (Elt F) ℓ) (c : Dev nD) :
    iprop(scrP (F := F) c ∗ xPart m c ∗ oPart c) ⊢ iprop(own0 m c ∗ outTo0 c ∗ outTo1 c ∗ outTo2 c) := by
  unfold scrP own0 outTo0 outTo1 outTo2
  iintro ⟨⟨Ha, Hr0, Hr1, Hr2⟩, Hx, Ho⟩
  icases (give_acc c) $$ Ha with ⟨Ha20, Ha23, Ha26⟩
  icases (give_r0 c) $$ Hr0 with ⟨Hd0, Hd1, Hd2⟩
  icases (give_r1 c) $$ Hr1 with ⟨Hd3, Hd4⟩
  ihave Hd5 := (give_r2 c) $$ Hr2
  icases (in_give m c) $$ Hx with ⟨Hsrc, Hxl⟩
  icases (give_out c) $$ Ho with ⟨Ho58, Hd6, Hd7, Hd8, Hd9, Hd10, Hd11⟩
  isplitl [Hsrc Hxl Ha20 Ha23 Ha26 Ho58]
  · isplitl [Hsrc]; · iexact Hsrc
    isplitl [Hxl]; · iexact Hxl
    isplitl [Ha20 Ha23 Ha26]
    · iframe
    iexact Ho58
  isplitl [Hd0 Hd1 Hd2 Hd9 Hd10 Hd11]
  · iframe
  isplitl [Hd3 Hd4 Hd7 Hd8]
  · iframe
  iframe
abbrev offA' (c : Dev nD) : Fin 4 → Fin 2 → ℕ := ![k0_off1 c, k0_off3 c, k0_off45 c, k0_off46 c]
abbrev sizeA' : Fin 4 → Fin 2 → ℕ := ![S88x1024.size, S88x1024.size, S88x1024.size, S88x1024.size]
theorem tilingA' : ∀ c : Dev nD, Tiling S352x1024 0 4 (offA' c) sizeA' 0 4 nE := by decide +kernel
theorem rejoin_acc (m : (ℓ : Loc nD τ sig) → Buf (Elt F) ℓ) (c : Dev nD) :
    iprop(sendPay m c s3 ∗ sendPay m c s4 ∗ sendPay m c s5 ∗ a46s m c)
      ⊢ (iprop(∃ f : Buf (Elt F) ((c : Thread nD τ).loc cc0_scratch0), ((c : Thread nD τ).loc cc0_scratch0) ↦{fullShare} f) : sProp 𝕄) := by
  have h := pointsTo_tiles_join (Val := Elt F) (Ix := Unit) (Name := ℕ) (U := UU) (Lvl := ℕ) (c : Thread nD τ) cc0_scratch0
    (Tiling.tiles (b := cc0_scratch0) (tilingA' c)) (Tiling.tiles (b := cc0_scratch0) (tilingA' c)).inb fullShare
    (![Ga1 m c, Ga1 m c, Ga2 m c, Ga2 m c] : Fin 4 → Buf (Elt F) ((c : Thread nD τ).loc cc0_scratch0)) (Ga1 m c)
  rw [bigSep_univ_eq_bigSepL [(0 : Fin 4), 1, 2, 3] (by decide) (by decide)] at h
  simp only [bigSepL_cons_cons, bigSepL_singleton] at h
  rw [rows_eq_univ (Nat.le_of_eq (by rfl))] at h
  exact h
theorem rejoin_r0 (m : (ℓ : Loc nD τ sig) → Buf (Elt F) ℓ) (c : Dev nD) :
    iprop(recvPay m c s0 ∗ recvPay m c s1 ∗ recvPay m c s2)
      ⊢ (iprop(∃ f : Buf (Elt F) ((c : Thread nD τ).loc cc0_scratch1), ((c : Thread nD τ).loc cc0_scratch1) ↦{fullShare} f) : sProp 𝕄) := by
  have h := pointsTo_tiles_join (Val := Elt F) (Ix := Unit) (Name := ℕ) (U := UU) (Lvl := ℕ) (c : Thread nD τ) cc0_scratch1
    (Tiling.tiles (b := cc0_scratch1) (tilingR0 c)) (Tiling.tiles (b := cc0_scratch1) (tilingR0 c)).inb fullShare
    (fun _ => Gr0 m c) (Gr0 m c)
  rw [bigSep_univ_eq_bigSepL [(0 : Fin 3), 1, 2] (by decide) (by decide)] at h
  simp only [bigSepL_cons_cons, bigSepL_singleton] at h
  rw [rows_eq_univ (Nat.le_of_eq (by rfl))] at h
  exact h
theorem rejoin_r1 (m : (ℓ : Loc nD τ sig) → Buf (Elt F) ℓ) (c : Dev nD) :
    iprop(recvPay m c s3 ∗ recvPay m c s4)
      ⊢ (iprop(∃ f : Buf (Elt F) ((c : Thread nD τ).loc cc0_scratch2), ((c : Thread nD τ).loc cc0_scratch2) ↦{fullShare} f) : sProp 𝕄) := by
  have h := pointsTo_tiles_join (Val := Elt F) (Ix := Unit) (Name := ℕ) (U := UU) (Lvl := ℕ) (c : Thread nD τ) cc0_scratch2
    (Tiling.tiles (b := cc0_scratch2) (tilingR1 c)) (Tiling.tiles (b := cc0_scratch2) (tilingR1 c)).inb fullShare
    (fun _ => Gr1 m c) (Gr1 m c)
  rw [bigSep_univ_eq_bigSepL [(0 : Fin 2), 1] (by decide) (by decide)] at h
  simp only [bigSepL_cons_cons, bigSepL_singleton] at h
  rw [rows_eq_univ (Nat.le_of_eq (by rfl))] at h
  exact h
theorem rejoin_r2 (m : (ℓ : Loc nD τ sig) → Buf (Elt F) ℓ) (c : Dev nD) :
    recvPay m c s5
      ⊢ (iprop(∃ f : Buf (Elt F) ((c : Thread nD τ).loc cc0_scratch3), ((c : Thread nD τ).loc cc0_scratch3) ↦{fullShare} f) : sProp 𝕄) := by
  refine (Entails.of_eq (pointsTo_whole_view c cc0_scratch3 fullShare (Gr2 m c)).symm).trans ?_
  iintro H; iexists (Gr2 m c); iexact H
abbrev offO' (c : Dev nD) : Fin 6 → Fin 2 → ℕ :=
  ![k0_off59 c, k0_off64 c, k0_off67 c, k0_off59 (flip o0 c), k0_off64 (flip o0 c), k0_off67 (flip o0 c)]
abbrev sizeO' : Fin 6 → Fin 2 → ℕ :=
  ![S88x1024.size, S88x1024.size, S176x1024.size, S88x1024.size, S88x1024.size, S176x1024.size]
theorem tilingO' : ∀ c : Dev nD, Tiling S2048x1024 0 6 (offO' c) sizeO' row0 8 nE := by decide +kernel
theorem out_eq (m : (ℓ : Loc nD τ sig) → Buf (Elt F) ℓ) (c : Dev nD) :
    oPartF m c = iprop(pt (ℓ := (c : Thread nD τ).loc cc0_stg1_0) (src6 c).view.set fullShare (Gout m)
      ∗ pt (ℓ := (c : Thread nD τ).loc cc0_stg1_0) (src8 c).view.set fullShare (Gout m)
      ∗ sendPay m c s11 ∗ recvPay m c s9 ∗ recvPay m c s10 ∗ recvPay m c s11) := by
  have e := pointsTo_tiles (Val := Elt F) (Ix := Unit) (Name := ℕ) (U := UU) (Lvl := ℕ) (c : Thread nD τ) cc0_stg1_0
    (Tiling.tiles (b := cc0_stg1_0) (tilingO' c)) (Tiling.tiles (b := cc0_stg1_0) (tilingO' c)).inb fullShare (Gout m)
  rw [bigSep_univ_eq_bigSepL [(0 : Fin 6), 1, 2, 3, 4, 5] (by decide) (by decide)] at e
  simp only [bigSepL_cons_cons, bigSepL_singleton] at e
  rw [part_rows] at e
  change _ = iprop(_ ∗ _ ∗ _ ∗ _ ∗ _ ∗ _) at e
  exact e
theorem pt_halves {ℓ : Loc nD τ sig} (S : Finset (Idx ℓ)) (q : PosShare TreeShare) (G : Buf (Elt F) ℓ) :
    (pt S q G : sProp 𝕄) ⊣⊢ iprop(pt S q.left G ∗ pt S q.right G) :=
  pointsTo_share (PosShare.mem_left_op_right q)
theorem merge_own (m : (ℓ : Loc nD τ sig) → Buf (Elt F) ℓ) (c : Dev nD) :
    iprop(sendPay m c s6 ∗ sendPay m c s7 ∗ sendPay m c s9)
      ⊢ (pt (ℓ := (c : Thread nD τ).loc cc0_stg1_0) (src6 c).view.set fullShare (Gout m) : sProp 𝕄) := by
  have j1 := (pt_halves (F := F) (ℓ := (c : Thread nD τ).loc cc0_stg1_0) (src6 c).view.set fullShare (Gout m)).2
  have j2 := (pt_halves (F := F) (ℓ := (c : Thread nD τ).loc cc0_stg1_0) (src6 c).view.set fullShare.right (Gout m)).2
  show iprop(pt (ℓ := (c : Thread nD τ).loc cc0_stg1_0) (src6 c).view.set fullShare.left (Gout m)
    ∗ pt (ℓ := (c : Thread nD τ).loc cc0_stg1_0) (src6 c).view.set fullShare.right.left (Gout m)
    ∗ pt (ℓ := (c : Thread nD τ).loc cc0_stg1_0) (src6 c).view.set fullShare.right.right (Gout m)) ⊢ _
  iintro ⟨H6, H7, H9⟩
  iapply j1
  isplitl [H6]; · iexact H6
  iapply j2
  iframe
theorem merge_sib (m : (ℓ : Loc nD τ sig) → Buf (Elt F) ℓ) (c : Dev nD) :
    iprop(sendPay m c s8 ∗ sendPay m c s10)
      ⊢ (pt (ℓ := (c : Thread nD τ).loc cc0_stg1_0) (src8 c).view.set fullShare (Gout m) : sProp 𝕄) := by
  have j1 := (pt_halves (F := F) (ℓ := (c : Thread nD τ).loc cc0_stg1_0) (src8 c).view.set fullShare (Gout m)).2
  show iprop(pt (ℓ := (c : Thread nD τ).loc cc0_stg1_0) (src8 c).view.set fullShare.left (Gout m)
    ∗ pt (ℓ := (c : Thread nD τ).loc cc0_stg1_0) (src8 c).view.set fullShare.right (Gout m)) ⊢ _
  iintro ⟨H8, H10⟩
  iapply j1
  iframe
theorem rejoin_p0 (m : (ℓ : Loc nD τ sig) → Buf (Elt F) ℓ) (c : Dev nD) :
    B7 m c ⊢ iprop(ends c ∗ scrP (F := F) c ∗ xPart m c ∗ oPartF m c) := by
  unfold B7 slotDone slotPassed ends slotEnd scrP
  iintro ⟨⟨⟨S0, R0, A0, E0⟩, ⟨S1, R1, A1, E1⟩, ⟨S2, R2, A2, E2⟩, ⟨S3, R3, A3, E3⟩, ⟨S4, R4, A4, E4⟩, ⟨S5, R5, A5, E5⟩,
    ⟨S6, A6, E6⟩, ⟨S7, A7, E7⟩, ⟨S8, A8, E8⟩, ⟨S9, R9, A9, E9⟩, ⟨S10, R10, A10, E10⟩, ⟨S11, R11, A11, E11⟩⟩, Hxl, Ha⟩
  ihave Hacc := (rejoin_acc m c) $$ [S3 S4 S5 Ha]
  · iframe
  ihave Hr0 := (rejoin_r0 m c) $$ [R0 R1 R2]
  · iframe
  ihave Hr1 := (rejoin_r1 m c) $$ [R3 R4]
  · iframe
  ihave Hr2 := (rejoin_r2 m c) $$ R5
  ihave Hx := (in_rejoin m c) $$ [S0 S1 S2 Hxl]
  · isplitl [S0 S1 S2]
    · iframe
    iexact Hxl
  ihave Hown := (merge_own m c) $$ [S6 S7 S9]
  · iframe
  ihave Hsib := (merge_sib m c) $$ [S8 S10]
  · iframe
  ihave Ho := (Entails.of_eq (out_eq m c).symm) $$ [Hown Hsib S11 R9 R10 R11]
  · iframe
  isplitl [A0 E0 A1 E1 A2 E2 A3 E3 A4 E4 A5 E5 A6 E6 A7 E7 A8 E8 A9 E9 A10 E10 A11 E11]
  · isplitl [A0 E0]; · isplitl [A0]; · iexact A0
                       iexact E0
    isplitl [A1 E1]; · isplitl [A1]; · iexact A1
                       iexact E1
    isplitl [A2 E2]; · isplitl [A2]; · iexact A2
                       iexact E2
    isplitl [A3 E3]; · isplitl [A3]; · iexact A3
                       iexact E3
    isplitl [A4 E4]; · isplitl [A4]; · iexact A4
                       iexact E4
    isplitl [A5 E5]; · isplitl [A5]; · iexact A5
                       iexact E5
    isplitl [A6 E6]; · isplitl [A6]; · iexact A6
                       iexact E6
    isplitl [A7 E7]; · isplitl [A7]; · iexact A7
                       iexact E7
    isplitl [A8 E8]; · isplitl [A8]; · iexact A8
                       iexact E8
    isplitl [A9 E9]; · isplitl [A9]; · iexact A9
                       iexact E9
    isplitl [A10 E10]; · isplitl [A10]; · iexact A10
                         iexact E10
    iframe
  isplitl [Hacc Hr0 Hr1 Hr2]
  · iframe
  iframe
end P0
end Cert.KernelIdeal.TR
end
-- ==== Proof.Give1.lean ====
import proofs.«901104_g7700000000001105_dist_treered_v7x_i8_m2048_n1024_f32_1_alg».proof.Proof.Res1
import proofs.«901104_g7700000000001105_dist_treered_v7x_i8_m2048_n1024_f32_1_alg».proof.Proof.LibRows
import proofs.«901104_g7700000000001105_dist_treered_v7x_i8_m2048_n1024_f32_1_alg».proof.Proof.LibTile
import proofs.«901104_g7700000000001105_dist_treered_v7x_i8_m2048_n1024_f32_1_alg».proof.Proof.Mesh
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P1
abbrev offA (c : Dev nD) : Fin 3 → Fin 2 → ℕ := ![k0_off28 c, k0_off31 c, k0_off34 c]
abbrev sizeA : Fin 3 → Fin 2 → ℕ := ![S88x1024.size, S88x1024.size, S176x1024.size]
theorem tilingA : ∀ c : Dev nD, Tiling S352x1024 0 3 (offA c) sizeA 0 4 nE := by decide +kernel
theorem give_acc (c : Dev nD) :
    (iprop(∃ f : Buf (Elt F) ((c : Thread nD τ).loc cc0_scratch4), ((c : Thread nD τ).loc cc0_scratch4) ↦{fullShare} f) : sProp 𝕄)
      ⊢ iprop(a20 c ∗ a23 c ∗ a26 c) := by
  iintro ⟨%f, H⟩
  have e := pointsTo_tiles (Val := Elt F) (Ix := Unit) (Name := ℕ) (U := UU) (Lvl := ℕ) (c : Thread nD τ) cc0_scratch4
    (Tiling.tiles (b := cc0_scratch4) (tilingA c)) (Tiling.tiles (b := cc0_scratch4) (tilingA c)).inb fullShare f
  rw [bigSep_univ_eq_bigSepL [(0 : Fin 3), 1, 2] (by decide) (by decide)] at e
  simp only [bigSepL_cons_cons, bigSepL_singleton] at e
  rw [rows_eq_univ (Nat.le_of_eq (by rfl))] at e
  change _ = iprop(_ ∗ _ ∗ _) at e
  ihave H' := (Entails.of_eq e) $$ H
  icases H' with ⟨H0, H1, H2⟩
  unfold a20 a23 a26
  simp only [held, heldQ_def]
  isplitl [H0]; · iexists f; iexact H0
  isplitl [H1]; · iexists f; iexact H1
  iexists f; iexact H2
abbrev offR0 (c : Dev nD) : Fin 3 → Fin 2 → ℕ := ![k0_off7 (flip o0 c), k0_off9 (flip o0 c), k0_off11 (flip o0 c)]
theorem tilingR0 : ∀ c : Dev nD, Tiling S352x1024 0 3 (offR0 c) sizeA 0 4 nE := by decide +kernel
theorem give_r0 (c : Dev nD) :
    (iprop(∃ f : Buf (Elt F) ((c : Thread nD τ).loc cc0_scratch5), ((c : Thread nD τ).loc cc0_scratch5) ↦{fullShare} f) : sProp 𝕄)
      ⊢ iprop(held c (dstAny (flip o0 c) s0) ∗ held c (dstAny (flip o0 c) s1) ∗ held c (dstAny (flip o0 c) s2)) := by
  iintro ⟨%f, H⟩
  have e := pointsTo_tiles (Val := Elt F) (Ix := Unit) (Name := ℕ) (U := UU) (Lvl := ℕ) (c : Thread nD τ) cc0_scratch5
    (Tiling.tiles (b := cc0_scratch5) (tilingR0 c)) (Tiling.tiles (b := cc0_scratch5) (tilingR0 c)).inb fullShare f
  rw [bigSep_univ_eq_bigSepL [(0 : Fin 3), 1, 2] (by decide) (by decide)] at e
  simp only [bigSepL_cons_cons, bigSepL_singleton] at e
  rw [rows_eq_univ (Nat.le_of_eq (by rfl))] at e
  change _ = iprop(_ ∗ _ ∗ _) at e
  ihave H' := (Entails.of_eq e) $$ H
  icases H' with ⟨H0, H1, H2⟩
  simp only [held, heldQ_def, dstAny]
  isplitl [H0]; · iexists f; iexact H0
  isplitl [H1]; · iexists f; iexact H1
  iexists f; iexact H2
abbrev offR1 (c : Dev nD) : Fin 2 → Fin 2 → ℕ := ![k0_off29 (flip o1 c), k0_off32 (flip o1 c)]
abbrev sizeR1 : Fin 2 → Fin 2 → ℕ := ![S88x1024.size, S88x1024.size]
theorem tilingR1 : ∀ c : Dev nD, Tiling S176x1024 0 2 (offR1 c) sizeR1 0 2 nE := by decide +kernel
theorem give_r1 (c : Dev nD) :
    (iprop(∃ f : Buf (Elt F) ((c : Thread nD τ).loc cc0_scratch6), ((c : Thread nD τ).loc cc0_scratch6) ↦{fullShare} f) : sProp 𝕄)
      ⊢ iprop(held c (dstAny (flip o1 c) s3) ∗ held c (dstAny (flip o1 c) s4)) := by
  iintro ⟨%f, H⟩
  have e := pointsTo_tiles (Val := Elt F) (Ix := Unit) (Name := ℕ) (U := UU) (Lvl := ℕ) (c : Thread nD τ) cc0_scratch6
    (Tiling.tiles (b := cc0_scratch6) (tilingR1 c)) (Tiling.tiles (b := cc0_scratch6) (tilingR1 c)).inb fullShare f
  rw [bigSep_univ_eq_bigSepL [(0 : Fin 2), 1] (by decide) (by decide)] at e
  simp only [bigSepL_cons_cons, bigSepL_singleton] at e
  rw [rows_eq_univ (Nat.le_of_eq (by rfl))] at e
  change _ = iprop(_ ∗ _) at e
  ihave H' := (Entails.of_eq e) $$ H
  icases H' with ⟨H0, H1⟩
  simp only [held, heldQ_def, dstAny]
  isplitl [H0]; · iexists f; iexact H0
  iexists f; iexact H1
theorem pointsTo_whole_view (c : Dev nD) (b : Ref sig .tc) (q : PosShare TreeShare) (f : Buf (Elt F) ((c : Thread nD τ).loc b)) :
    ((c : Thread nD τ).loc b ↦{q} f : sProp 𝕄)
      = ((Memref.whole b).view.loc (c : Thread nD τ) ↦[(Memref.whole b).view.set]{q} f) :=
  congrArg (fun I => ((c : Thread nD τ).loc b ↦[I]{q} f : sProp 𝕄)) (View.set_whole b).symm
theorem give_r2 (c : Dev nD) :
    (iprop(∃ f : Buf (Elt F) ((c : Thread nD τ).loc cc0_scratch7), ((c : Thread nD τ).loc cc0_scratch7) ↦{fullShare} f) : sProp 𝕄)
      ⊢ held c (dstAny (flip o2 c) s5) := by
  iintro ⟨%f, H⟩
  simp only [held, heldQ_def, dstAny]
  iexists f
  ihave H' := (Entails.of_eq (pointsTo_whole_view c cc0_scratch7 fullShare f)) $$ H
  iexact H'
abbrev offO (c : Dev nD) : Fin 7 → Fin 2 → ℕ :=
  ![k0_off60 c, k0_off61 (flip o2 c), k0_off61 (flip o1 c), k0_off65 (flip o1 c), k0_off61 (flip o0 c), k0_off65 (flip o0 c), k0_off68 (flip o0 c)]
abbrev sizeO : Fin 7 → Fin 2 → ℕ :=
  ![S88x1024.size, S88x1024.size, S88x1024.size, S88x1024.size, S88x1024.size, S88x1024.size, S176x1024.size]
theorem tilingO : ∀ c : Dev nD, Tiling S2048x1024 0 7 (offO c) sizeO row0 8 nE := by decide +kernel
theorem part_rows : row0 + 8 * nE = row0 + 2 * nH := rfl
theorem give_out (c : Dev nD) :
    (oPart (F := F) c : sProp 𝕄)
      ⊢ iprop(o58 c ∗ held c (dstAny (flip o2 c) s6) ∗ held c (dstAny (flip o1 c) s7) ∗ held c (dstAny (flip o1 c) s8)
          ∗ held c (dstAny (flip o0 c) s9) ∗ held c (dstAny (flip o0 c) s10) ∗ held c (dstAny (flip o0 c) s11)) := by
  unfold oPart
  iintro ⟨%f, H⟩
  have e := pointsTo_tiles (Val := Elt F) (Ix := Unit) (Name := ℕ) (U := UU) (Lvl := ℕ) (c : Thread nD τ) cc0_stg1_0
    (Tiling.tiles (b := cc0_stg1_0) (tilingO c)) (Tiling.tiles (b := cc0_stg1_0) (tilingO c)).inb fullShare f
  rw [bigSep_univ_eq_bigSepL [(0 : Fin 7), 1, 2, 3, 4, 5, 6] (by decide) (by decide)] at e
  simp only [bigSepL_cons_cons, bigSepL_singleton] at e
  rw [part_rows] at e
  change _ = iprop(_ ∗ _ ∗ _ ∗ _ ∗ _ ∗ _ ∗ _) at e
  ihave H' := (Entails.of_eq e) $$ H
  icases H' with ⟨H0, H1, H2, H3, H4, H5, H6⟩
  unfold o58
  simp only [held, heldQ_def, dstAny]
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  iexists f; iexact H6
abbrev offX (c : Dev nD) : Fin 6 → Fin 3 → ℕ := ![k0_off8 c, k0_off10 c, k0_off12 c, k0_off27 c, k0_off30 c, k0_off33 c]
abbrev sizeX : Fin 6 → Fin 3 → ℕ :=
  ![S1x88x1024.size, S1x88x1024.size, S1x176x1024.size, S1x88x1024.size, S1x88x1024.size, S1x176x1024.size]
theorem tilingX : ∀ c : Dev nD, Tiling S1x2048x1024 1 6 (offX c) sizeX row0 8 nE := by decide +kernel
theorem pt_squeeze_eq (c : Dev nD) (b : Ref sig .tc) {off size : Fin b.ty.shape.rank → ℕ}
    (p : ∀ a, off a + size a ≤ b.ty.shape.size a) {s' : Shape} (hsq : (Rect.unit off size p).shape.Squeezes s')
    (q : PosShare TreeShare) (G : Buf (Elt F) ((c : Thread nD τ).loc b)) :
    (pt (ℓ := (c : Thread nD τ).loc b) (((Memref.whole b).slice (Rect.unit off size p) (fun _ => rfl)).squeeze s' hsq).view.set q G : sProp 𝕄)
      = ((c : Thread nD τ).loc b ↦[((Memref.whole b).slice (Rect.unit off size p) (fun _ => rfl)).view.set]{q} G) :=
  congrArg (fun I => ((c : Thread nD τ).loc b ↦[I]{q} G : sProp 𝕄)) (View.set_reshape _ _)
theorem sendPay_s0_eq (m : (ℓ : Loc nD τ sig) → Buf (Elt F) ℓ) (c : Dev nD) : sendPay m c s0
    = ((c : Thread nD τ).loc cc0_stg0_0 ↦[((Memref.whole cc0_stg0_0).slice (u8 c) (fun _ => rfl)).view.set]{fullShare} (Gx m c)) :=
  pt_squeeze_eq c cc0_stg0_0 (k0_off8_inb c) squeezes_S1x88x1024_S88x1024 fullShare (Gx m c)
theorem sendPay_s1_eq (m : (ℓ : Loc nD τ sig) → Buf (Elt F) ℓ) (c : Dev nD) : sendPay m c s1
    = ((c : Thread nD τ).loc cc0_stg0_0 ↦[((Memref.whole cc0_stg0_0).slice (u10 c) (fun _ => rfl)).view.set]{fullShare} (Gx m c)) :=
  pt_squeeze_eq c cc0_stg0_0 (k0_off10_inb c) squeezes_S1x88x1024_S88x1024 fullShare (Gx m c)
theorem sendPay_s2_eq (m : (ℓ : Loc nD τ sig) → Buf (Elt F) ℓ) (c : Dev nD) : sendPay m c s2
    = ((c : Thread nD τ).loc cc0_stg0_0 ↦[((Memref.whole cc0_stg0_0).slice (u12 c) (fun _ => rfl)).view.set]{fullShare} (Gx m c)) :=
  pt_squeeze_eq c cc0_stg0_0 (k0_off12_inb c) squeezes_S1x176x1024_S176x1024 fullShare (Gx m c)
theorem in_eq (m : (ℓ : Loc nD τ sig) → Buf (Elt F) ℓ) (c : Dev nD) :
    xPart m c = iprop(sendPay m c s0 ∗ sendPay m c s1 ∗ sendPay m c s2 ∗ xl19 m c ∗ xl22 m c ∗ xl25 m c) := by
  have e := pointsTo_tiles (Val := Elt F) (Ix := Unit) (Name := ℕ) (U := UU) (Lvl := ℕ) (c : Thread nD τ) cc0_stg0_0
    (Tiling.tiles (b := cc0_stg0_0) (tilingX c)) (Tiling.tiles (b := cc0_stg0_0) (tilingX c)).inb fullShare (Gx m c)
  rw [bigSep_univ_eq_bigSepL [(0 : Fin 6), 1, 2, 3, 4, 5] (by decide) (by decide)] at e
  simp only [bigSepL_cons_cons, bigSepL_singleton] at e
  rw [part_rows] at e
  change _ = iprop(_ ∗ _ ∗ _ ∗ _ ∗ _ ∗ _) at e
  rw [sendPay_s0_eq, sendPay_s1_eq, sendPay_s2_eq]
  unfold xPart xl19 xl22 xl25
  simp only [pt_def]
  exact e
theorem in_give (m : (ℓ : Loc nD τ sig) → Buf (Elt F) ℓ) (c : Dev nD) :
    xPart m c ⊢ iprop((sendPay m c s0 ∗ sendPay m c s1 ∗ sendPay m c s2) ∗ xl m c) := by
  refine (Entails.of_eq (in_eq m c)).trans ?_
  unfold xl
  iintro ⟨H0, H1, H2, H3, H4, H5⟩
  isplitl [H0 H1 H2]
  · iframe
  iframe
theorem in_rejoin (m : (ℓ : Loc nD τ sig) → Buf (Elt F) ℓ) (c : Dev nD) :
    iprop((sendPay m c s0 ∗ sendPay m c s1 ∗ sendPay m c s2) ∗ xl m c) ⊢ xPart m c := by
  refine BIBase.Entails.trans ?_ (Entails.of_eq (in_eq m c).symm)
  unfold xl
  iintro ⟨⟨H0, H1, H2⟩, H3, H4, H5⟩
  iframe
theorem give_p0 (m : (ℓ : Loc nD τ sig) → Buf (Elt F) ℓ) (c : Dev nD) :
    iprop(scrP (F := F) c ∗ xPart m c ∗ oPart c) ⊢ iprop(own0 m c ∗ outTo0 c ∗ outTo1 c ∗ outTo2 c) := by
  unfold scrP own0 outTo0 outTo1 outTo2
  iintro ⟨⟨Ha, Hr0, Hr1, Hr2⟩, Hx, Ho⟩
  icases (give_acc c) $$ Ha with ⟨Ha20, Ha23, Ha26⟩
  icases (give_r0 c) $$ Hr0 with ⟨Hd0, Hd1, Hd2⟩
  icases (give_r1 c) $$ Hr1 with ⟨Hd3, Hd4⟩
  ihave Hd5 := (give_r2 c) $$ Hr2
  icases (in_give m c) $$ Hx with ⟨Hsrc, Hxl⟩
  icases (give_out c) $$ Ho with ⟨Ho58, Hd6, Hd7, Hd8, Hd9, Hd10, Hd11⟩
  isplitl [Hsrc Hxl Ha20 Ha23 Ha26 Ho58]
  · isplitl [Hsrc]; · iexact Hsrc
    isplitl [Hxl]; · iexact Hxl
    isplitl [Ha20 Ha23 Ha26]
    · iframe
    iexact Ho58
  isplitl [Hd0 Hd1 Hd2 Hd9 Hd10 Hd11]
  · iframe
  isplitl [Hd3 Hd4 Hd7 Hd8]
  · iframe
  iframe
abbrev offA' (c : Dev nD) : Fin 4 → Fin 2 → ℕ := ![k0_off7 c, k0_off9 c, k0_off50 c, k0_off51 c]
abbrev sizeA' : Fin 4 → Fin 2 → ℕ := ![S88x1024.size, S88x1024.size, S88x1024.size, S88x1024.size]
theorem tilingA' : ∀ c : Dev nD, Tiling S352x1024 0 4 (offA' c) sizeA' 0 4 nE := by decide +kernel
theorem rejoin_acc (m : (ℓ : Loc nD τ sig) → Buf (Elt F) ℓ) (c : Dev nD) :
    iprop(sendPay m c s3 ∗ sendPay m c s4 ∗ sendPay m c s5 ∗ a46s m c)
      ⊢ (iprop(∃ f : Buf (Elt F) ((c : Thread nD τ).loc cc0_scratch4), ((c : Thread nD τ).loc cc0_scratch4) ↦{fullShare} f) : sProp 𝕄) := by
  have h := pointsTo_tiles_join (Val := Elt F) (Ix := Unit) (Name := ℕ) (U := UU) (Lvl := ℕ) (c : Thread nD τ) cc0_scratch4
    (Tiling.tiles (b := cc0_scratch4) (tilingA' c)) (Tiling.tiles (b := cc0_scratch4) (tilingA' c)).inb fullShare
    (![Ga1 m c, Ga1 m c, Ga2 m c, Ga2 m c] : Fin 4 → Buf (Elt F) ((c : Thread nD τ).loc cc0_scratch4)) (Ga1 m c)
  rw [bigSep_univ_eq_bigSepL [(0 : Fin 4), 1, 2, 3] (by decide) (by decide)] at h
  simp only [bigSepL_cons_cons, bigSepL_singleton] at h
  rw [rows_eq_univ (Nat.le_of_eq (by rfl))] at h
  exact h
theorem rejoin_r0 (m : (ℓ : Loc nD τ sig) → Buf (Elt F) ℓ) (c : Dev nD) :
    iprop(recvPay m c s0 ∗ recvPay m c s1 ∗ recvPay m c s2)
      ⊢ (iprop(∃ f : Buf (Elt F) ((c : Thread nD τ).loc cc0_scratch5), ((c : Thread nD τ).loc cc0_scratch5) ↦{fullShare} f) : sProp 𝕄) := by
  have h := pointsTo_tiles_join (Val := Elt F) (Ix := Unit) (Name := ℕ) (U := UU) (Lvl := ℕ) (c : Thread nD τ) cc0_scratch5
    (Tiling.tiles (b := cc0_scratch5) (tilingR0 c)) (Tiling.tiles (b := cc0_scratch5) (tilingR0 c)).inb fullShare
    (fun _ => Gr0 m c) (Gr0 m c)
  rw [bigSep_univ_eq_bigSepL [(0 : Fin 3), 1, 2] (by decide) (by decide)] at h
  simp only [bigSepL_cons_cons, bigSepL_singleton] at h
  rw [rows_eq_univ (Nat.le_of_eq (by rfl))] at h
  exact h
theorem rejoin_r1 (m : (ℓ : Loc nD τ sig) → Buf (Elt F) ℓ) (c : Dev nD) :
    iprop(recvPay m c s3 ∗ recvPay m c s4)
      ⊢ (iprop(∃ f : Buf (Elt F) ((c : Thread nD τ).loc cc0_scratch6), ((c : Thread nD τ).loc cc0_scratch6) ↦{fullShare} f) : sProp 𝕄) := by
  have h := pointsTo_tiles_join (Val := Elt F) (Ix := Unit) (Name := ℕ) (U := UU) (Lvl := ℕ) (c : Thread nD τ) cc0_scratch6
    (Tiling.tiles (b := cc0_scratch6) (tilingR1 c)) (Tiling.tiles (b := cc0_scratch6) (tilingR1 c)).inb fullShare
    (fun _ => Gr1 m c) (Gr1 m c)
  rw [bigSep_univ_eq_bigSepL [(0 : Fin 2), 1] (by decide) (by decide)] at h
  simp only [bigSepL_cons_cons, bigSepL_singleton] at h
  rw [rows_eq_univ (Nat.le_of_eq (by rfl))] at h
  exact h
theorem rejoin_r2 (m : (ℓ : Loc nD τ sig) → Buf (Elt F) ℓ) (c : Dev nD) :
    recvPay m c s5
      ⊢ (iprop(∃ f : Buf (Elt F) ((c : Thread nD τ).loc cc0_scratch7), ((c : Thread nD τ).loc cc0_scratch7) ↦{fullShare} f) : sProp 𝕄) := by
  refine (Entails.of_eq (pointsTo_whole_view c cc0_scratch7 fullShare (Gr2 m c)).symm).trans ?_
  iintro H; iexists (Gr2 m c); iexact H
abbrev offO' (c : Dev nD) : Fin 6 → Fin 2 → ℕ :=
  ![k0_off61 c, k0_off65 c, k0_off68 c, k0_off61 (flip o0 c), k0_off65 (flip o0 c), k0_off68 (flip o0 c)]
abbrev sizeO' : Fin 6 → Fin 2 → ℕ :=
  ![S88x1024.size, S88x1024.size, S176x1024.size, S88x1024.size, S88x1024.size, S176x1024.size]
theorem tilingO' : ∀ c : Dev nD, Tiling S2048x1024 0 6 (offO' c) sizeO' row0 8 nE := by decide +kernel
theorem out_eq (m : (ℓ : Loc nD τ sig) → Buf (Elt F) ℓ) (c : Dev nD) :
    oPartF m c = iprop(pt (ℓ := (c : Thread nD τ).loc cc0_stg1_0) (src18 c).view.set fullShare (Gout m)
      ∗ pt (ℓ := (c : Thread nD τ).loc cc0_stg1_0) (src20 c).view.set fullShare (Gout m)
      ∗ sendPay m c s11 ∗ recvPay m c s9 ∗ recvPay m c s10 ∗ recvPay m c s11) := by
  have e := pointsTo_tiles (Val := Elt F) (Ix := Unit) (Name := ℕ) (U := UU) (Lvl := ℕ) (c : Thread nD τ) cc0_stg1_0
    (Tiling.tiles (b := cc0_stg1_0) (tilingO' c)) (Tiling.tiles (b := cc0_stg1_0) (tilingO' c)).inb fullShare (Gout m)
  rw [bigSep_univ_eq_bigSepL [(0 : Fin 6), 1, 2, 3, 4, 5] (by decide) (by decide)] at e
  simp only [bigSepL_cons_cons, bigSepL_singleton] at e
  rw [part_rows] at e
  change _ = iprop(_ ∗ _ ∗ _ ∗ _ ∗ _ ∗ _) at e
  exact e
theorem pt_halves {ℓ : Loc nD τ sig} (S : Finset (Idx ℓ)) (q : PosShare TreeShare) (G : Buf (Elt F) ℓ) :
    (pt S q G : sProp 𝕄) ⊣⊢ iprop(pt S q.left G ∗ pt S q.right G) :=
  pointsTo_share (PosShare.mem_left_op_right q)
theorem merge_own (m : (ℓ : Loc nD τ sig) → Buf (Elt F) ℓ) (c : Dev nD) :
    iprop(sendPay m c s6 ∗ sendPay m c s7 ∗ sendPay m c s9)
      ⊢ (pt (ℓ := (c : Thread nD τ).loc cc0_stg1_0) (src18 c).view.set fullShare (Gout m) : sProp 𝕄) := by
  have j1 := (pt_halves (F := F) (ℓ := (c : Thread nD τ).loc cc0_stg1_0) (src18 c).view.set fullShare (Gout m)).2
  have j2 := (pt_halves (F := F) (ℓ := (c : Thread nD τ).loc cc0_stg1_0) (src18 c).view.set fullShare.right (Gout m)).2
  show iprop(pt (ℓ := (c : Thread nD τ).loc cc0_stg1_0) (src18 c).view.set fullShare.left (Gout m)
    ∗ pt (ℓ := (c : Thread nD τ).loc cc0_stg1_0) (src18 c).view.set fullShare.right.left (Gout m)
    ∗ pt (ℓ := (c : Thread nD τ).loc cc0_stg1_0) (src18 c).view.set fullShare.right.right (Gout m)) ⊢ _
  iintro ⟨H6, H7, H9⟩
  iapply j1
  isplitl [H6]; · iexact H6
  iapply j2
  iframe
theorem merge_sib (m : (ℓ : Loc nD τ sig) → Buf (Elt F) ℓ) (c : Dev nD) :
    iprop(sendPay m c s8 ∗ sendPay m c s10)
      ⊢ (pt (ℓ := (c : Thread nD τ).loc cc0_stg1_0) (src20 c).view.set fullShare (Gout m) : sProp 𝕄) := by
  have j1 := (pt_halves (F := F) (ℓ := (c : Thread nD τ).loc cc0_stg1_0) (src20 c).view.set fullShare (Gout m)).2
  show iprop(pt (ℓ := (c : Thread nD τ).loc cc0_stg1_0) (src20 c).view.set fullShare.left (Gout m)
    ∗ pt (ℓ := (c : Thread nD τ).loc cc0_stg1_0) (src20 c).view.set fullShare.right (Gout m)) ⊢ _
  iintro ⟨H8, H10⟩
  iapply j1
  iframe
theorem rejoin_p0 (m : (ℓ : Loc nD τ sig) → Buf (Elt F) ℓ) (c : Dev nD) :
    B7 m c ⊢ iprop(ends c ∗ scrP (F := F) c ∗ xPart m c ∗ oPartF m c) := by
  unfold B7 slotDone slotPassed ends slotEnd scrP
  iintro ⟨⟨⟨S0, R0, A0, E0⟩, ⟨S1, R1, A1, E1⟩, ⟨S2, R2, A2, E2⟩, ⟨S3, R3, A3, E3⟩, ⟨S4, R4, A4, E4⟩, ⟨S5, R5, A5, E5⟩,
    ⟨S6, A6, E6⟩, ⟨S7, A7, E7⟩, ⟨S8, A8, E8⟩, ⟨S9, R9, A9, E9⟩, ⟨S10, R10, A10, E10⟩, ⟨S11, R11, A11, E11⟩⟩, Hxl, Ha⟩
  ihave Hacc := (rejoin_acc m c) $$ [S3 S4 S5 Ha]
  · iframe
  ihave Hr0 := (rejoin_r0 m c) $$ [R0 R1 R2]
  · iframe
  ihave Hr1 := (rejoin_r1 m c) $$ [R3 R4]
  · iframe
  ihave Hr2 := (rejoin_r2 m c) $$ R5
  ihave Hx := (in_rejoin m c) $$ [S0 S1 S2 Hxl]
  · isplitl [S0 S1 S2]
    · iframe
    iexact Hxl
  ihave Hown := (merge_own m c) $$ [S6 S7 S9]
  · iframe
  ihave Hsib := (merge_sib m c) $$ [S8 S10]
  · iframe
  ihave Ho := (Entails.of_eq (out_eq m c).symm) $$ [Hown Hsib S11 R9 R10 R11]
  · iframe
  isplitl [A0 E0 A1 E1 A2 E2 A3 E3 A4 E4 A5 E5 A6 E6 A7 E7 A8 E8 A9 E9 A10 E10 A11 E11]
  · isplitl [A0 E0]; · isplitl [A0]; · iexact A0
                       iexact E0
    isplitl [A1 E1]; · isplitl [A1]; · iexact A1
                       iexact E1
    isplitl [A2 E2]; · isplitl [A2]; · iexact A2
                       iexact E2
    isplitl [A3 E3]; · isplitl [A3]; · iexact A3
                       iexact E3
    isplitl [A4 E4]; · isplitl [A4]; · iexact A4
                       iexact E4
    isplitl [A5 E5]; · isplitl [A5]; · iexact A5
                       iexact E5
    isplitl [A6 E6]; · isplitl [A6]; · iexact A6
                       iexact E6
    isplitl [A7 E7]; · isplitl [A7]; · iexact A7
                       iexact E7
    isplitl [A8 E8]; · isplitl [A8]; · iexact A8
                       iexact E8
    isplitl [A9 E9]; · isplitl [A9]; · iexact A9
                       iexact E9
    isplitl [A10 E10]; · isplitl [A10]; · iexact A10
                         iexact E10
    iframe
  isplitl [Hacc Hr0 Hr1 Hr2]
  · iframe
  iframe
end P1
end Cert.KernelIdeal.TR
end
-- ==== Proof.Give2.lean ====
import proofs.«901104_g7700000000001105_dist_treered_v7x_i8_m2048_n1024_f32_1_alg».proof.Proof.Res2
import proofs.«901104_g7700000000001105_dist_treered_v7x_i8_m2048_n1024_f32_1_alg».proof.Proof.LibRows
import proofs.«901104_g7700000000001105_dist_treered_v7x_i8_m2048_n1024_f32_1_alg».proof.Proof.LibTile
import proofs.«901104_g7700000000001105_dist_treered_v7x_i8_m2048_n1024_f32_1_alg».proof.Proof.Mesh
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P2
abbrev offA (c : Dev nD) : Fin 3 → Fin 2 → ℕ := ![k0_off36 c, k0_off39 c, k0_off42 c]
abbrev sizeA : Fin 3 → Fin 2 → ℕ := ![S80x1024.size, S80x1024.size, S160x1024.size]
theorem tilingA : ∀ c : Dev nD, Tiling S320x1024 0 3 (offA c) sizeA 0 4 nE := by decide +kernel
theorem give_acc (c : Dev nD) :
    (iprop(∃ f : Buf (Elt F) ((c : Thread nD τ).loc cc0_scratch8), ((c : Thread nD τ).loc cc0_scratch8) ↦{fullShare} f) : sProp 𝕄)
      ⊢ iprop(a20 c ∗ a23 c ∗ a26 c) := by
  iintro ⟨%f, H⟩
  have e := pointsTo_tiles (Val := Elt F) (Ix := Unit) (Name := ℕ) (U := UU) (Lvl := ℕ) (c : Thread nD τ) cc0_scratch8
    (Tiling.tiles (b := cc0_scratch8) (tilingA c)) (Tiling.tiles (b := cc0_scratch8) (tilingA c)).inb fullShare f
  rw [bigSep_univ_eq_bigSepL [(0 : Fin 3), 1, 2] (by decide) (by decide)] at e
  simp only [bigSepL_cons_cons, bigSepL_singleton] at e
  rw [rows_eq_univ (Nat.le_of_eq (by rfl))] at e
  change _ = iprop(_ ∗ _ ∗ _) at e
  ihave H' := (Entails.of_eq e) $$ H
  icases H' with ⟨H0, H1, H2⟩
  unfold a20 a23 a26
  simp only [held, heldQ_def]
  isplitl [H0]; · iexists f; iexact H0
  isplitl [H1]; · iexists f; iexact H1
  iexists f; iexact H2
abbrev offR0 (c : Dev nD) : Fin 3 → Fin 2 → ℕ := ![k0_off13 (flip o0 c), k0_off15 (flip o0 c), k0_off17 (flip o0 c)]
theorem tilingR0 : ∀ c : Dev nD, Tiling S320x1024 0 3 (offR0 c) sizeA 0 4 nE := by decide +kernel
theorem give_r0 (c : Dev nD) :
    (iprop(∃ f : Buf (Elt F) ((c : Thread nD τ).loc cc0_scratch9), ((c : Thread nD τ).loc cc0_scratch9) ↦{fullShare} f) : sProp 𝕄)
      ⊢ iprop(held c (dstAny (flip o0 c) s0) ∗ held c (dstAny (flip o0 c) s1) ∗ held c (dstAny (flip o0 c) s2)) := by
  iintro ⟨%f, H⟩
  have e := pointsTo_tiles (Val := Elt F) (Ix := Unit) (Name := ℕ) (U := UU) (Lvl := ℕ) (c : Thread nD τ) cc0_scratch9
    (Tiling.tiles (b := cc0_scratch9) (tilingR0 c)) (Tiling.tiles (b := cc0_scratch9) (tilingR0 c)).inb fullShare f
  rw [bigSep_univ_eq_bigSepL [(0 : Fin 3), 1, 2] (by decide) (by decide)] at e
  simp only [bigSepL_cons_cons, bigSepL_singleton] at e
  rw [rows_eq_univ (Nat.le_of_eq (by rfl))] at e
  change _ = iprop(_ ∗ _ ∗ _) at e
  ihave H' := (Entails.of_eq e) $$ H
  icases H' with ⟨H0, H1, H2⟩
  simp only [held, heldQ_def, dstAny]
  isplitl [H0]; · iexists f; iexact H0
  isplitl [H1]; · iexists f; iexact H1
  iexists f; iexact H2
abbrev offR1 (c : Dev nD) : Fin 2 → Fin 2 → ℕ := ![k0_off37 (flip o1 c), k0_off40 (flip o1 c)]
abbrev sizeR1 : Fin 2 → Fin 2 → ℕ := ![S80x1024.size, S80x1024.size]
theorem tilingR1 : ∀ c : Dev nD, Tiling S160x1024 0 2 (offR1 c) sizeR1 0 2 nE := by decide +kernel
theorem give_r1 (c : Dev nD) :
    (iprop(∃ f : Buf (Elt F) ((c : Thread nD τ).loc cc0_scratch10), ((c : Thread nD τ).loc cc0_scratch10) ↦{fullShare} f) : sProp 𝕄)
      ⊢ iprop(held c (dstAny (flip o1 c) s3) ∗ held c (dstAny (flip o1 c) s4)) := by
  iintro ⟨%f, H⟩
  have e := pointsTo_tiles (Val := Elt F) (Ix := Unit) (Name := ℕ) (U := UU) (Lvl := ℕ) (c : Thread nD τ) cc0_scratch10
    (Tiling.tiles (b := cc0_scratch10) (tilingR1 c)) (Tiling.tiles (b := cc0_scratch10) (tilingR1 c)).inb fullShare f
  rw [bigSep_univ_eq_bigSepL [(0 : Fin 2), 1] (by decide) (by decide)] at e
  simp only [bigSepL_cons_cons, bigSepL_singleton] at e
  rw [rows_eq_univ (Nat.le_of_eq (by rfl))] at e
  change _ = iprop(_ ∗ _) at e
  ihave H' := (Entails.of_eq e) $$ H
  icases H' with ⟨H0, H1⟩
  simp only [held, heldQ_def, dstAny]
  isplitl [H0]; · iexists f; iexact H0
  iexists f; iexact H1
theorem pointsTo_whole_view (c : Dev nD) (b : Ref sig .tc) (q : PosShare TreeShare) (f : Buf (Elt F) ((c : Thread nD τ).loc b)) :
    ((c : Thread nD τ).loc b ↦{q} f : sProp 𝕄)
      = ((Memref.whole b).view.loc (c : Thread nD τ) ↦[(Memref.whole b).view.set]{q} f) :=
  congrArg (fun I => ((c : Thread nD τ).loc b ↦[I]{q} f : sProp 𝕄)) (View.set_whole b).symm
theorem give_r2 (c : Dev nD) :
    (iprop(∃ f : Buf (Elt F) ((c : Thread nD τ).loc cc0_scratch11), ((c : Thread nD τ).loc cc0_scratch11) ↦{fullShare} f) : sProp 𝕄)
      ⊢ held c (dstAny (flip o2 c) s5) := by
  iintro ⟨%f, H⟩
  simp only [held, heldQ_def, dstAny]
  iexists f
  ihave H' := (Entails.of_eq (pointsTo_whole_view c cc0_scratch11 fullShare f)) $$ H
  iexact H'
abbrev offO (c : Dev nD) : Fin 7 → Fin 2 → ℕ :=
  ![k0_off62 c, k0_off63 (flip o2 c), k0_off63 (flip o1 c), k0_off66 (flip o1 c), k0_off63 (flip o0 c), k0_off66 (flip o0 c), k0_off69 (flip o0 c)]
abbrev sizeO : Fin 7 → Fin 2 → ℕ :=
  ![S80x1024.size, S80x1024.size, S80x1024.size, S80x1024.size, S80x1024.size, S80x1024.size, S160x1024.size]
theorem tilingO : ∀ c : Dev nD, Tiling S2048x1024 0 7 (offO c) sizeO row0 8 nE := by decide +kernel
theorem part_rows : row0 + 8 * nE = row0 + 2 * nH := rfl
theorem give_out (c : Dev nD) :
    (oPart (F := F) c : sProp 𝕄)
      ⊢ iprop(o58 c ∗ held c (dstAny (flip o2 c) s6) ∗ held c (dstAny (flip o1 c) s7) ∗ held c (dstAny (flip o1 c) s8)
          ∗ held c (dstAny (flip o0 c) s9) ∗ held c (dstAny (flip o0 c) s10) ∗ held c (dstAny (flip o0 c) s11)) := by
  unfold oPart
  iintro ⟨%f, H⟩
  have e := pointsTo_tiles (Val := Elt F) (Ix := Unit) (Name := ℕ) (U := UU) (Lvl := ℕ) (c : Thread nD τ) cc0_stg1_0
    (Tiling.tiles (b := cc0_stg1_0) (tilingO c)) (Tiling.tiles (b := cc0_stg1_0) (tilingO c)).inb fullShare f
  rw [bigSep_univ_eq_bigSepL [(0 : Fin 7), 1, 2, 3, 4, 5, 6] (by decide) (by decide)] at e
  simp only [bigSepL_cons_cons, bigSepL_singleton] at e
  rw [part_rows] at e
  change _ = iprop(_ ∗ _ ∗ _ ∗ _ ∗ _ ∗ _ ∗ _) at e
  ihave H' := (Entails.of_eq e) $$ H
  icases H' with ⟨H0, H1, H2, H3, H4, H5, H6⟩
  unfold o58
  simp only [held, heldQ_def, dstAny]
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  iexists f; iexact H6
abbrev offX (c : Dev nD) : Fin 6 → Fin 3 → ℕ := ![k0_off14 c, k0_off16 c, k0_off18 c, k0_off35 c, k0_off38 c, k0_off41 c]
abbrev sizeX : Fin 6 → Fin 3 → ℕ :=
  ![S1x80x1024.size, S1x80x1024.size, S1x160x1024.size, S1x80x1024.size, S1x80x1024.size, S1x160x1024.size]
theorem tilingX : ∀ c : Dev nD, Tiling S1x2048x1024 1 6 (offX c) sizeX row0 8 nE := by decide +kernel
theorem pt_squeeze_eq (c : Dev nD) (b : Ref sig .tc) {off size : Fin b.ty.shape.rank → ℕ}
    (p : ∀ a, off a + size a ≤ b.ty.shape.size a) {s' : Shape} (hsq : (Rect.unit off size p).shape.Squeezes s')
    (q : PosShare TreeShare) (G : Buf (Elt F) ((c : Thread nD τ).loc b)) :
    (pt (ℓ := (c : Thread nD τ).loc b) (((Memref.whole b).slice (Rect.unit off size p) (fun _ => rfl)).squeeze s' hsq).view.set q G : sProp 𝕄)
      = ((c : Thread nD τ).loc b ↦[((Memref.whole b).slice (Rect.unit off size p) (fun _ => rfl)).view.set]{q} G) :=
  congrArg (fun I => ((c : Thread nD τ).loc b ↦[I]{q} G : sProp 𝕄)) (View.set_reshape _ _)
theorem sendPay_s0_eq (m : (ℓ : Loc nD τ sig) → Buf (Elt F) ℓ) (c : Dev nD) : sendPay m c s0
    = ((c : Thread nD τ).loc cc0_stg0_0 ↦[((Memref.whole cc0_stg0_0).slice (u14 c) (fun _ => rfl)).view.set]{fullShare} (Gx m c)) :=
  pt_squeeze_eq c cc0_stg0_0 (k0_off14_inb c) squeezes_S1x80x1024_S80x1024 fullShare (Gx m c)
theorem sendPay_s1_eq (m : (ℓ : Loc nD τ sig) → Buf (Elt F) ℓ) (c : Dev nD) : sendPay m c s1
    = ((c : Thread nD τ).loc cc0_stg0_0 ↦[((Memref.whole cc0_stg0_0).slice (u16 c) (fun _ => rfl)).view.set]{fullShare} (Gx m c)) :=
  pt_squeeze_eq c cc0_stg0_0 (k0_off16_inb c) squeezes_S1x80x1024_S80x1024 fullShare (Gx m c)
theorem sendPay_s2_eq (m : (ℓ : Loc nD τ sig) → Buf (Elt F) ℓ) (c : Dev nD) : sendPay m c s2
    = ((c : Thread nD τ).loc cc0_stg0_0 ↦[((Memref.whole cc0_stg0_0).slice (u18 c) (fun _ => rfl)).view.set]{fullShare} (Gx m c)) :=
  pt_squeeze_eq c cc0_stg0_0 (k0_off18_inb c) squeezes_S1x160x1024_S160x1024 fullShare (Gx m c)
theorem in_eq (m : (ℓ : Loc nD τ sig) → Buf (Elt F) ℓ) (c : Dev nD) :
    xPart m c = iprop(sendPay m c s0 ∗ sendPay m c s1 ∗ sendPay m c s2 ∗ xl19 m c ∗ xl22 m c ∗ xl25 m c) := by
  have e := pointsTo_tiles (Val := Elt F) (Ix := Unit) (Name := ℕ) (U := UU) (Lvl := ℕ) (c : Thread nD τ) cc0_stg0_0
    (Tiling.tiles (b := cc0_stg0_0) (tilingX c)) (Tiling.tiles (b := cc0_stg0_0) (tilingX c)).inb fullShare (Gx m c)
  rw [bigSep_univ_eq_bigSepL [(0 : Fin 6), 1, 2, 3, 4, 5] (by decide) (by decide)] at e
  simp only [bigSepL_cons_cons, bigSepL_singleton] at e
  rw [part_rows] at e
  change _ = iprop(_ ∗ _ ∗ _ ∗ _ ∗ _ ∗ _) at e
  rw [sendPay_s0_eq, sendPay_s1_eq, sendPay_s2_eq]
  unfold xPart xl19 xl22 xl25
  simp only [pt_def]
  exact e
theorem in_give (m : (ℓ : Loc nD τ sig) → Buf (Elt F) ℓ) (c : Dev nD) :
    xPart m c ⊢ iprop((sendPay m c s0 ∗ sendPay m c s1 ∗ sendPay m c s2) ∗ xl m c) := by
  refine (Entails.of_eq (in_eq m c)).trans ?_
  unfold xl
  iintro ⟨H0, H1, H2, H3, H4, H5⟩
  isplitl [H0 H1 H2]
  · iframe
  iframe
theorem in_rejoin (m : (ℓ : Loc nD τ sig) → Buf (Elt F) ℓ) (c : Dev nD) :
    iprop((sendPay m c s0 ∗ sendPay m c s1 ∗ sendPay m c s2) ∗ xl m c) ⊢ xPart m c := by
  refine BIBase.Entails.trans ?_ (Entails.of_eq (in_eq m c).symm)
  unfold xl
  iintro ⟨⟨H0, H1, H2⟩, H3, H4, H5⟩
  iframe
theorem give_p0 (m : (ℓ : Loc nD τ sig) → Buf (Elt F) ℓ) (c : Dev nD) :
    iprop(scrP (F := F) c ∗ xPart m c ∗ oPart c) ⊢ iprop(own0 m c ∗ outTo0 c ∗ outTo1 c ∗ outTo2 c) := by
  unfold scrP own0 outTo0 outTo1 outTo2
  iintro ⟨⟨Ha, Hr0, Hr1, Hr2⟩, Hx, Ho⟩
  icases (give_acc c) $$ Ha with ⟨Ha20, Ha23, Ha26⟩
  icases (give_r0 c) $$ Hr0 with ⟨Hd0, Hd1, Hd2⟩
  icases (give_r1 c) $$ Hr1 with ⟨Hd3, Hd4⟩
  ihave Hd5 := (give_r2 c) $$ Hr2
  icases (in_give m c) $$ Hx with ⟨Hsrc, Hxl⟩
  icases (give_out c) $$ Ho with ⟨Ho58, Hd6, Hd7, Hd8, Hd9, Hd10, Hd11⟩
  isplitl [Hsrc Hxl Ha20 Ha23 Ha26 Ho58]
  · isplitl [Hsrc]; · iexact Hsrc
    isplitl [Hxl]; · iexact Hxl
    isplitl [Ha20 Ha23 Ha26]
    · iframe
    iexact Ho58
  isplitl [Hd0 Hd1 Hd2 Hd9 Hd10 Hd11]
  · iframe
  isplitl [Hd3 Hd4 Hd7 Hd8]
  · iframe
  iframe
abbrev offA' (c : Dev nD) : Fin 4 → Fin 2 → ℕ := ![k0_off13 c, k0_off15 c, k0_off55 c, k0_off56 c]
abbrev sizeA' : Fin 4 → Fin 2 → ℕ := ![S80x1024.size, S80x1024.size, S80x1024.size, S80x1024.size]
theorem tilingA' : ∀ c : Dev nD, Tiling S320x1024 0 4 (offA' c) sizeA' 0 4 nE := by decide +kernel
theorem rejoin_acc (m : (ℓ : Loc nD τ sig) → Buf (Elt F) ℓ) (c : Dev nD) :
    iprop(sendPay m c s3 ∗ sendPay m c s4 ∗ sendPay m c s5 ∗ a46s m c)
      ⊢ (iprop(∃ f : Buf (Elt F) ((c : Thread nD τ).loc cc0_scratch8), ((c : Thread nD τ).loc cc0_scratch8) ↦{fullShare} f) : sProp 𝕄) := by
  have h := pointsTo_tiles_join (Val := Elt F) (Ix := Unit) (Name := ℕ) (U := UU) (Lvl := ℕ) (c : Thread nD τ) cc0_scratch8
    (Tiling.tiles (b := cc0_scratch8) (tilingA' c)) (Tiling.tiles (b := cc0_scratch8) (tilingA' c)).inb fullShare
    (![Ga1 m c, Ga1 m c, Ga2 m c, Ga2 m c] : Fin 4 → Buf (Elt F) ((c : Thread nD τ).loc cc0_scratch8)) (Ga1 m c)
  rw [bigSep_univ_eq_bigSepL [(0 : Fin 4), 1, 2, 3] (by decide) (by decide)] at h
  simp only [bigSepL_cons_cons, bigSepL_singleton] at h
  rw [rows_eq_univ (Nat.le_of_eq (by rfl))] at h
  exact h
theorem rejoin_r0 (m : (ℓ : Loc nD τ sig) → Buf (Elt F) ℓ) (c : Dev nD) :
    iprop(recvPay m c s0 ∗ recvPay m c s1 ∗ recvPay m c s2)
      ⊢ (iprop(∃ f : Buf (Elt F) ((c : Thread nD τ).loc cc0_scratch9), ((c : Thread nD τ).loc cc0_scratch9) ↦{fullShare} f) : sProp 𝕄) := by
  have h := pointsTo_tiles_join (Val := Elt F) (Ix := Unit) (Name := ℕ) (U := UU) (Lvl := ℕ) (c : Thread nD τ) cc0_scratch9
    (Tiling.tiles (b := cc0_scratch9) (tilingR0 c)) (Tiling.tiles (b := cc0_scratch9) (tilingR0 c)).inb fullShare
    (fun _ => Gr0 m c) (Gr0 m c)
  rw [bigSep_univ_eq_bigSepL [(0 : Fin 3), 1, 2] (by decide) (by decide)] at h
  simp only [bigSepL_cons_cons, bigSepL_singleton] at h
  rw [rows_eq_univ (Nat.le_of_eq (by rfl))] at h
  exact h
theorem rejoin_r1 (m : (ℓ : Loc nD τ sig) → Buf (Elt F) ℓ) (c : Dev nD) :
    iprop(recvPay m c s3 ∗ recvPay m c s4)
      ⊢ (iprop(∃ f : Buf (Elt F) ((c : Thread nD τ).loc cc0_scratch10), ((c : Thread nD τ).loc cc0_scratch10) ↦{fullShare} f) : sProp 𝕄) := by
  have h := pointsTo_tiles_join (Val := Elt F) (Ix := Unit) (Name := ℕ) (U := UU) (Lvl := ℕ) (c : Thread nD τ) cc0_scratch10
    (Tiling.tiles (b := cc0_scratch10) (tilingR1 c)) (Tiling.tiles (b := cc0_scratch10) (tilingR1 c)).inb fullShare
    (fun _ => Gr1 m c) (Gr1 m c)
  rw [bigSep_univ_eq_bigSepL [(0 : Fin 2), 1] (by decide) (by decide)] at h
  simp only [bigSepL_cons_cons, bigSepL_singleton] at h
  rw [rows_eq_univ (Nat.le_of_eq (by rfl))] at h
  exact h
theorem rejoin_r2 (m : (ℓ : Loc nD τ sig) → Buf (Elt F) ℓ) (c : Dev nD) :
    recvPay m c s5
      ⊢ (iprop(∃ f : Buf (Elt F) ((c : Thread nD τ).loc cc0_scratch11), ((c : Thread nD τ).loc cc0_scratch11) ↦{fullShare} f) : sProp 𝕄) := by
  refine (Entails.of_eq (pointsTo_whole_view c cc0_scratch11 fullShare (Gr2 m c)).symm).trans ?_
  iintro H; iexists (Gr2 m c); iexact H
abbrev offO' (c : Dev nD) : Fin 6 → Fin 2 → ℕ :=
  ![k0_off63 c, k0_off66 c, k0_off69 c, k0_off63 (flip o0 c), k0_off66 (flip o0 c), k0_off69 (flip o0 c)]
abbrev sizeO' : Fin 6 → Fin 2 → ℕ :=
  ![S80x1024.size, S80x1024.size, S160x1024.size, S80x1024.size, S80x1024.size, S160x1024.size]
theorem tilingO' : ∀ c : Dev nD, Tiling S2048x1024 0 6 (offO' c) sizeO' row0 8 nE := by decide +kernel
theorem out_eq (m : (ℓ : Loc nD τ sig) → Buf (Elt F) ℓ) (c : Dev nD) :
    oPartF m c = iprop(pt (ℓ := (c : Thread nD τ).loc cc0_stg1_0) (src30 c).view.set fullShare (Gout m)
      ∗ pt (ℓ := (c : Thread nD τ).loc cc0_stg1_0) (src32 c).view.set fullShare (Gout m)
      ∗ sendPay m c s11 ∗ recvPay m c s9 ∗ recvPay m c s10 ∗ recvPay m c s11) := by
  have e := pointsTo_tiles (Val := Elt F) (Ix := Unit) (Name := ℕ) (U := UU) (Lvl := ℕ) (c : Thread nD τ) cc0_stg1_0
    (Tiling.tiles (b := cc0_stg1_0) (tilingO' c)) (Tiling.tiles (b := cc0_stg1_0) (tilingO' c)).inb fullShare (Gout m)
  rw [bigSep_univ_eq_bigSepL [(0 : Fin 6), 1, 2, 3, 4, 5] (by decide) (by decide)] at e
  simp only [bigSepL_cons_cons, bigSepL_singleton] at e
  rw [part_rows] at e
  change _ = iprop(_ ∗ _ ∗ _ ∗ _ ∗ _ ∗ _) at e
  exact e
theorem pt_halves {ℓ : Loc nD τ sig} (S : Finset (Idx ℓ)) (q : PosShare TreeShare) (G : Buf (Elt F) ℓ) :
    (pt S q G : sProp 𝕄) ⊣⊢ iprop(pt S q.left G ∗ pt S q.right G) :=
  pointsTo_share (PosShare.mem_left_op_right q)
theorem merge_own (m : (ℓ : Loc nD τ sig) → Buf (Elt F) ℓ) (c : Dev nD) :
    iprop(sendPay m c s6 ∗ sendPay m c s7 ∗ sendPay m c s9)
      ⊢ (pt (ℓ := (c : Thread nD τ).loc cc0_stg1_0) (src30 c).view.set fullShare (Gout m) : sProp 𝕄) := by
  have j1 := (pt_halves (F := F) (ℓ := (c : Thread nD τ).loc cc0_stg1_0) (src30 c).view.set fullShare (Gout m)).2
  have j2 := (pt_halves (F := F) (ℓ := (c : Thread nD τ).loc cc0_stg1_0) (src30 c).view.set fullShare.right (Gout m)).2
  show iprop(pt (ℓ := (c : Thread nD τ).loc cc0_stg1_0) (src30 c).view.set fullShare.left (Gout m)
    ∗ pt (ℓ := (c : Thread nD τ).loc cc0_stg1_0) (src30 c).view.set fullShare.right.left (Gout m)
    ∗ pt (ℓ := (c : Thread nD τ).loc cc0_stg1_0) (src30 c).view.set fullShare.right.right (Gout m)) ⊢ _
  iintro ⟨H6, H7, H9⟩
  iapply j1
  isplitl [H6]; · iexact H6
  iapply j2
  iframe
theorem merge_sib (m : (ℓ : Loc nD τ sig) → Buf (Elt F) ℓ) (c : Dev nD) :
    iprop(sendPay m c s8 ∗ sendPay m c s10)
      ⊢ (pt (ℓ := (c : Thread nD τ).loc cc0_stg1_0) (src32 c).view.set fullShare (Gout m) : sProp 𝕄) := by
  have j1 := (pt_halves (F := F) (ℓ := (c : Thread nD τ).loc cc0_stg1_0) (src32 c).view.set fullShare (Gout m)).2
  show iprop(pt (ℓ := (c : Thread nD τ).loc cc0_stg1_0) (src32 c).view.set fullShare.left (Gout m)
    ∗ pt (ℓ := (c : Thread nD τ).loc cc0_stg1_0) (src32 c).view.set fullShare.right (Gout m)) ⊢ _
  iintro ⟨H8, H10⟩
  iapply j1
  iframe
theorem rejoin_p0 (m : (ℓ : Loc nD τ sig) → Buf (Elt F) ℓ) (c : Dev nD) :
    B7 m c ⊢ iprop(ends c ∗ scrP (F := F) c ∗ xPart m c ∗ oPartF m c) := by
  unfold B7 slotDone slotPassed ends slotEnd scrP
  iintro ⟨⟨⟨S0, R0, A0, E0⟩, ⟨S1, R1, A1, E1⟩, ⟨S2, R2, A2, E2⟩, ⟨S3, R3, A3, E3⟩, ⟨S4, R4, A4, E4⟩, ⟨S5, R5, A5, E5⟩,
    ⟨S6, A6, E6⟩, ⟨S7, A7, E7⟩, ⟨S8, A8, E8⟩, ⟨S9, R9, A9, E9⟩, ⟨S10, R10, A10, E10⟩, ⟨S11, R11, A11, E11⟩⟩, Hxl, Ha⟩
  ihave Hacc := (rejoin_acc m c) $$ [S3 S4 S5 Ha]
  · iframe
  ihave Hr0 := (rejoin_r0 m c) $$ [R0 R1 R2]
  · iframe
  ihave Hr1 := (rejoin_r1 m c) $$ [R3 R4]
  · iframe
  ihave Hr2 := (rejoin_r2 m c) $$ R5
  ihave Hx := (in_rejoin m c) $$ [S0 S1 S2 Hxl]
  · isplitl [S0 S1 S2]
    · iframe
    iexact Hxl
  ihave Hown := (merge_own m c) $$ [S6 S7 S9]
  · iframe
  ihave Hsib := (merge_sib m c) $$ [S8 S10]
  · iframe
  ihave Ho := (Entails.of_eq (out_eq m c).symm) $$ [Hown Hsib S11 R9 R10 R11]
  · iframe
  isplitl [A0 E0 A1 E1 A2 E2 A3 E3 A4 E4 A5 E5 A6 E6 A7 E7 A8 E8 A9 E9 A10 E10 A11 E11]
  · isplitl [A0 E0]; · isplitl [A0]; · iexact A0
                       iexact E0
    isplitl [A1 E1]; · isplitl [A1]; · iexact A1
                       iexact E1
    isplitl [A2 E2]; · isplitl [A2]; · iexact A2
                       iexact E2
    isplitl [A3 E3]; · isplitl [A3]; · iexact A3
                       iexact E3
    isplitl [A4 E4]; · isplitl [A4]; · iexact A4
                       iexact E4
    isplitl [A5 E5]; · isplitl [A5]; · iexact A5
                       iexact E5
    isplitl [A6 E6]; · isplitl [A6]; · iexact A6
                       iexact E6
    isplitl [A7 E7]; · isplitl [A7]; · iexact A7
                       iexact E7
    isplitl [A8 E8]; · isplitl [A8]; · iexact A8
                       iexact E8
    isplitl [A9 E9]; · isplitl [A9]; · iexact A9
                       iexact E9
    isplitl [A10 E10]; · isplitl [A10]; · iexact A10
                         iexact E10
    iframe
  isplitl [Hacc Hr0 Hr1 Hr2]
  · iframe
  iframe
end P2
end Cert.KernelIdeal.TR
end
-- ==== Proof.Land0.lean ====
import proofs.«901104_g7700000000001105_dist_treered_v7x_i8_m2048_n1024_f32_1_alg».proof.Proof.Payloads
import proofs.«901104_g7700000000001105_dist_treered_v7x_i8_m2048_n1024_f32_1_alg».proof.Proof.LibRows
noncomputable section
namespace Cert.KernelIdeal.TR.P0
open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.TR.Rows
variable {F : FTy → Type} [FloatOps F]
local notation "𝕄" => MT nD τ sig Unit (Elt F) ℕ UU ℕ
variable (m : (ℓ : Loc nD τ sig) → Buf (Elt F) ℓ)
theorem land_same {κ : Kind} {sp : Space} {S : Shape} {e : EltTy} (v : View sig κ sp S e)
    (G fd : v.ty.Contents (Elt F)) {i : v.ty.Idx} (hi : i ∈ v.set) :
    v.write (Elt F) fd (v.read (Elt F) G) Finset.univ i = G i := by
  obtain ⟨j, -, hj⟩ := Finset.mem_map.mp hi
  rw [transfer_apply (Elt F) v v G fd i j hj, cast_eq, hj]
theorem glob0_le : ∀ c : Dev nD, glob0 c ≤ row0 + nH := by decide +kernel
theorem part_le : row0 + nH + nH ≤ 2048 := by decide
theorem off1_col : ∀ c : Dev nD, k0_off1 c 1 = 0 := by decide +kernel
theorem off2_lead : ∀ c : Dev nD, k0_off2 c 0 = 0 := by decide +kernel
theorem off2_col : ∀ c : Dev nD, k0_off2 c 2 = 0 := by decide +kernel
theorem off2_row : ∀ c : Dev nD, k0_off2 c 1 = glob0 (flip o0 c) + k0_off1 c 0 := by decide +kernel
theorem land_s0 (c : Dev nD) (fd : cc0_scratch1.ty.Contents (Elt F)) :
    ∀ i ∈ (dst0 c).view.set,
      (dst0 c).view.write (Elt F) fd ((src0 c).view.read (Elt F) (Gx m c)) Finset.univ i = Gr0 m (flip o0 c) i := by
  intro i hi
  have hr : i ∈ rows S352x1024 0 (k0_off1 c 0) (k0_off1 c 0 + S88x1024.size 0) := by
    rwa [slice_view_set cc0_scratch1 (a := (0 : Fin 2)) (k0_off1_inb c) (fun _ => rfl) (slab₂ (size := S88x1024.size) (off1_col c) rfl)] at hi
  obtain ⟨hlo, hhi⟩ := mem_rows.mp hr
  have hb := k0_off2_inb c 1
  have hrow : k0_off2 c 1 + ((i 0).val - k0_off1 c 0) < 2048 := by
    have : S1x88x1024.size 1 = nE := rfl
    have : S1x2048x1024.size 1 = 2048 := rfl
    have : S88x1024.size 0 = nE := rfl
    omega
  have hi' : i ∈ (u1 c).set :=
    (mem_unit_iff_rows (s := S352x1024) (a := (0 : Fin 2)) (off := k0_off1 c) (size := S88x1024.size) (k0_off1_inb c) (slab₂ (off1_col c) rfl)).mpr hr
  have hland : (dst0 c).view.write (Elt F) fd ((src0 c).view.read (Elt F) (Gx m c)) Finset.univ i
      = Gx m c (ix3 (0 : Fin 1) (⟨k0_off2 c 1 + ((i 0).val - k0_off1 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off2_inb c) _ (localIdx i hi') _ (by rw [off2_lead]; rfl) ?_
    intro a
    fin_cases a
    · rfl
    · show (i 1).val = k0_off2 c 2 + ((i 1).val - k0_off1 c 1); rw [off2_col, off1_col]; omega
  rw [hland]
  show xs m c _ _ = xs m (flip o0 (flip o0 c)) _ _
  rw [flip_flip]
  congr 1
  have : glob0 (flip o0 c) + (i 0).val < 2048 := by have := off2_row c; omega
  rw [clamp_of_lt this]
  exact Fin.ext (by show k0_off2 c 1 + ((i 0).val - k0_off1 c 0) = glob0 (flip o0 c) + (i 0).val; have := off2_row c; omega)
theorem off3_col : ∀ c : Dev nD, k0_off3 c 1 = 0 := by decide +kernel
theorem off4_lead : ∀ c : Dev nD, k0_off4 c 0 = 0 := by decide +kernel
theorem off4_col : ∀ c : Dev nD, k0_off4 c 2 = 0 := by decide +kernel
theorem off4_row : ∀ c : Dev nD, k0_off4 c 1 = glob0 (flip o0 c) + k0_off3 c 0 := by decide +kernel
theorem land_s1 (c : Dev nD) (fd : cc0_scratch1.ty.Contents (Elt F)) :
    ∀ i ∈ (dst1 c).view.set,
      (dst1 c).view.write (Elt F) fd ((src1 c).view.read (Elt F) (Gx m c)) Finset.univ i = Gr0 m (flip o0 c) i := by
  intro i hi
  have hr : i ∈ rows S352x1024 0 (k0_off3 c 0) (k0_off3 c 0 + S88x1024.size 0) := by
    rwa [slice_view_set cc0_scratch1 (a := (0 : Fin 2)) (k0_off3_inb c) (fun _ => rfl) (slab₂ (size := S88x1024.size) (off3_col c) rfl)] at hi
  obtain ⟨hlo, hhi⟩ := mem_rows.mp hr
  have hb := k0_off4_inb c 1
  have hrow : k0_off4 c 1 + ((i 0).val - k0_off3 c 0) < 2048 := by
    have : S1x88x1024.size 1 = nE := rfl
    have : S1x2048x1024.size 1 = 2048 := rfl
    have : S88x1024.size 0 = nE := rfl
    omega
  have hi' : i ∈ (u3 c).set :=
    (mem_unit_iff_rows (s := S352x1024) (a := (0 : Fin 2)) (off := k0_off3 c) (size := S88x1024.size) (k0_off3_inb c) (slab₂ (off3_col c) rfl)).mpr hr
  have hland : (dst1 c).view.write (Elt F) fd ((src1 c).view.read (Elt F) (Gx m c)) Finset.univ i
      = Gx m c (ix3 (0 : Fin 1) (⟨k0_off4 c 1 + ((i 0).val - k0_off3 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off4_inb c) _ (localIdx i hi') _ (by rw [off4_lead]; rfl) ?_
    intro a
    fin_cases a
    · rfl
    · show (i 1).val = k0_off4 c 2 + ((i 1).val - k0_off3 c 1); rw [off4_col, off3_col]; omega
  rw [hland]
  show xs m c _ _ = xs m (flip o0 (flip o0 c)) _ _
  rw [flip_flip]
  congr 1
  have : glob0 (flip o0 c) + (i 0).val < 2048 := by have := off4_row c; omega
  rw [clamp_of_lt this]
  exact Fin.ext (by show k0_off4 c 1 + ((i 0).val - k0_off3 c 0) = glob0 (flip o0 c) + (i 0).val; have := off4_row c; omega)
theorem off5_col : ∀ c : Dev nD, k0_off5 c 1 = 0 := by decide +kernel
theorem off6_lead : ∀ c : Dev nD, k0_off6 c 0 = 0 := by decide +kernel
theorem off6_col : ∀ c : Dev nD, k0_off6 c 2 = 0 := by decide +kernel
theorem off6_row : ∀ c : Dev nD, k0_off6 c 1 = glob0 (flip o0 c) + k0_off5 c 0 := by decide +kernel
theorem land_s2 (c : Dev nD) (fd : cc0_scratch1.ty.Contents (Elt F)) :
    ∀ i ∈ (dst2 c).view.set,
      (dst2 c).view.write (Elt F) fd ((src2 c).view.read (Elt F) (Gx m c)) Finset.univ i = Gr0 m (flip o0 c) i := by
  intro i hi
  have hr : i ∈ rows S352x1024 0 (k0_off5 c 0) (k0_off5 c 0 + S176x1024.size 0) := by
    rwa [slice_view_set cc0_scratch1 (a := (0 : Fin 2)) (k0_off5_inb c) (fun _ => rfl) (slab₂ (size := S176x1024.size) (off5_col c) rfl)] at hi
  obtain ⟨hlo, hhi⟩ := mem_rows.mp hr
  have hb := k0_off6_inb c 1
  have hrow : k0_off6 c 1 + ((i 0).val - k0_off5 c 0) < 2048 := by
    have : S1x176x1024.size 1 = nQ := rfl
    have : S1x2048x1024.size 1 = 2048 := rfl
    have : S176x1024.size 0 = nQ := rfl
    omega
  have hi' : i ∈ (u5 c).set :=
    (mem_unit_iff_rows (s := S352x1024) (a := (0 : Fin 2)) (off := k0_off5 c) (size := S176x1024.size) (k0_off5_inb c) (slab₂ (off5_col c) rfl)).mpr hr
  have hland : (dst2 c).view.write (Elt F) fd ((src2 c).view.read (Elt F) (Gx m c)) Finset.univ i
      = Gx m c (ix3 (0 : Fin 1) (⟨k0_off6 c 1 + ((i 0).val - k0_off5 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off6_inb c) _ (localIdx i hi') _ (by rw [off6_lead]; rfl) ?_
    intro a
    fin_cases a
    · rfl
    · show (i 1).val = k0_off6 c 2 + ((i 1).val - k0_off5 c 1); rw [off6_col, off5_col]; omega
  rw [hland]
  show xs m c _ _ = xs m (flip o0 (flip o0 c)) _ _
  rw [flip_flip]
  congr 1
  have : glob0 (flip o0 c) + (i 0).val < 2048 := by have := off6_row c; omega
  rw [clamp_of_lt this]
  exact Fin.ext (by show k0_off6 c 1 + ((i 0).val - k0_off5 c 0) = glob0 (flip o0 c) + (i 0).val; have := off6_row c; omega)
theorem off21_col : ∀ c : Dev nD, k0_off21 c 1 = 0 := by decide +kernel
theorem off21_row : ∀ c : Dev nD, glob0 c + k0_off1 c 0 = glob0 (flip o1 c) + ko (flip o1 c) + k0_off21 c 0 := by decide +kernel
theorem land_s3 (c : Dev nD) (fd : cc0_scratch2.ty.Contents (Elt F)) :
    ∀ i ∈ (dst3 c).view.set,
      (dst3 c).view.write (Elt F) fd ((src3 c).view.read (Elt F) (Ga1 m c)) Finset.univ i = Gr1 m (flip o1 c) i := by
  intro i hi
  have hr : i ∈ rows S176x1024 0 (k0_off21 c 0) (k0_off21 c 0 + S88x1024.size 0) := by
    rwa [slice_view_set cc0_scratch2 (a := (0 : Fin 2)) (k0_off21_inb c) (fun _ => rfl) (slab₂ (size := S88x1024.size) (off21_col c) rfl)] at hi
  obtain ⟨hlo, hhi⟩ := mem_rows.mp hr
  have hb := k0_off1_inb c 0
  have hrow : k0_off1 c 0 + ((i 0).val - k0_off21 c 0) < nH := by
    have : S88x1024.size 0 = nE := rfl
    have : S352x1024.size 0 = nH := rfl
    omega
  have hi' : i ∈ (u21 c).set :=
    (mem_unit_iff_rows (s := S176x1024) (a := (0 : Fin 2)) (off := k0_off21 c) (size := S88x1024.size) (k0_off21_inb c) (slab₂ (off21_col c) rfl)).mpr hr
  have hland : (dst3 c).view.write (Elt F) fd ((src3 c).view.read (Elt F) (Ga1 m c)) Finset.univ i
      = Ga1 m c (ix2 (⟨k0_off1 c 0 + ((i 0).val - k0_off21 c 0), hrow⟩ : Fin nH) (i 1 : Fin 1024)) := by
    refine (landed_apply (localIdx i hi') ?_).trans ?_
    · exact emb_localIdx i hi'
    rw [cast_eq]
    congr 1
    refine slice_emb_eq (View.whole cc0_scratch0) (k0_off1_inb c) (localIdx (s := S176x1024) (size := S88x1024.size) i hi') _ ?_
    intro a
    fin_cases a
    · rfl
    · show (i 1).val = k0_off1 c 1 + ((i 1).val - k0_off21 c 1); rw [off1_col, off21_col]; omega
  rw [hland]
  show P1 pIdx (xs m) c _ _ = P1 pIdx (xs m) (flip o1 (flip o1 c)) _ _
  rw [flip_flip]
  congr 1
  have hg := glob0_le c
  have hp := part_le
  have h1 : glob0 c + (k0_off1 c 0 + ((i 0).val - k0_off21 c 0)) < 2048 := by omega
  have h2 : glob0 (flip o1 c) + ko (flip o1 c) + (i 0).val < 2048 := by have := off21_row c; omega
  rw [clamp_of_lt h1, clamp_of_lt h2]
  exact Fin.ext (by show glob0 c + (k0_off1 c 0 + ((i 0).val - k0_off21 c 0)) = glob0 (flip o1 c) + ko (flip o1 c) + (i 0).val; have := off21_row c; omega)
theorem off24_col : ∀ c : Dev nD, k0_off24 c 1 = 0 := by decide +kernel
theorem off24_row : ∀ c : Dev nD, glob0 c + k0_off3 c 0 = glob0 (flip o1 c) + ko (flip o1 c) + k0_off24 c 0 := by decide +kernel
theorem land_s4 (c : Dev nD) (fd : cc0_scratch2.ty.Contents (Elt F)) :
    ∀ i ∈ (dst4 c).view.set,
      (dst4 c).view.write (Elt F) fd ((src4 c).view.read (Elt F) (Ga1 m c)) Finset.univ i = Gr1 m (flip o1 c) i := by
  intro i hi
  have hr : i ∈ rows S176x1024 0 (k0_off24 c 0) (k0_off24 c 0 + S88x1024.size 0) := by
    rwa [slice_view_set cc0_scratch2 (a := (0 : Fin 2)) (k0_off24_inb c) (fun _ => rfl) (slab₂ (size := S88x1024.size) (off24_col c) rfl)] at hi
  obtain ⟨hlo, hhi⟩ := mem_rows.mp hr
  have hb := k0_off3_inb c 0
  have hrow : k0_off3 c 0 + ((i 0).val - k0_off24 c 0) < nH := by
    have : S88x1024.size 0 = nE := rfl
    have : S352x1024.size 0 = nH := rfl
    omega
  have hi' : i ∈ (u24 c).set :=
    (mem_unit_iff_rows (s := S176x1024) (a := (0 : Fin 2)) (off := k0_off24 c) (size := S88x1024.size) (k0_off24_inb c) (slab₂ (off24_col c) rfl)).mpr hr
  have hland : (dst4 c).view.write (Elt F) fd ((src4 c).view.read (Elt F) (Ga1 m c)) Finset.univ i
      = Ga1 m c (ix2 (⟨k0_off3 c 0 + ((i 0).val - k0_off24 c 0), hrow⟩ : Fin nH) (i 1 : Fin 1024)) := by
    refine (landed_apply (localIdx i hi') ?_).trans ?_
    · exact emb_localIdx i hi'
    rw [cast_eq]
    congr 1
    refine slice_emb_eq (View.whole cc0_scratch0) (k0_off3_inb c) (localIdx (s := S176x1024) (size := S88x1024.size) i hi') _ ?_
    intro a
    fin_cases a
    · rfl
    · show (i 1).val = k0_off3 c 1 + ((i 1).val - k0_off24 c 1); rw [off3_col, off24_col]; omega
  rw [hland]
  show P1 pIdx (xs m) c _ _ = P1 pIdx (xs m) (flip o1 (flip o1 c)) _ _
  rw [flip_flip]
  congr 1
  have hg := glob0_le c
  have hp := part_le
  have h1 : glob0 c + (k0_off3 c 0 + ((i 0).val - k0_off24 c 0)) < 2048 := by omega
  have h2 : glob0 (flip o1 c) + ko (flip o1 c) + (i 0).val < 2048 := by have := off24_row c; omega
  rw [clamp_of_lt h1, clamp_of_lt h2]
  exact Fin.ext (by show glob0 c + (k0_off3 c 0 + ((i 0).val - k0_off24 c 0)) = glob0 (flip o1 c) + ko (flip o1 c) + (i 0).val; have := off24_row c; omega)
theorem off45_col : ∀ c : Dev nD, k0_off45 c 1 = 0 := by decide +kernel
theorem off45_row : ∀ c : Dev nD, glob0 c + k0_off45 c 0 = glob0 (flip o2 c) + ko (flip o2 c) + ko2 (flip o2 c) := by decide +kernel
theorem land_s5 (c : Dev nD) (fd : cc0_scratch3.ty.Contents (Elt F)) :
    ∀ i ∈ (dst5 c).view.set,
      (dst5 c).view.write (Elt F) fd ((src5 c).view.read (Elt F) (Ga2 m c)) Finset.univ i = Gr2 m (flip o2 c) i := by
  intro i _
  have hb := k0_off45_inb c 0
  have hi0 : (i 0).val < nE := (i 0).isLt
  have hrow : k0_off45 c 0 + (i 0).val < nH := by
    have : S88x1024.size 0 = nE := rfl
    have : S352x1024.size 0 = nH := rfl
    omega
  have hland : (dst5 c).view.write (Elt F) fd ((src5 c).view.read (Elt F) (Ga2 m c)) Finset.univ i
      = Ga2 m c (ix2 (⟨k0_off45 c 0 + (i 0).val, hrow⟩ : Fin nH) (i 1 : Fin 1024)) := by
    refine (landed_apply (i : S88x1024.Idx) rfl).trans ?_
    rw [cast_eq]
    congr 1
    refine slice_emb_eq (View.whole cc0_scratch0) (k0_off45_inb c) (i : S88x1024.Idx) _ ?_
    intro a
    fin_cases a
    · rfl
    · show (i 1).val = k0_off45 c 1 + (i 1).val; rw [off45_col]; omega
  rw [hland]
  show P2 pIdx (xs m) c _ _ = P2 pIdx (xs m) (flip o2 (flip o2 c)) _ _
  rw [flip_flip]
  congr 1
  have hg := glob0_le c
  have hp := part_le
  have h1 : glob0 c + (k0_off45 c 0 + (i 0).val) < 2048 := by omega
  have h2 : glob0 (flip o2 c) + ko (flip o2 c) + ko2 (flip o2 c) + (i 0).val < 2048 := by have := off45_row c; omega
  rw [clamp_of_lt h1, clamp_of_lt h2]
  exact Fin.ext (by show glob0 c + (k0_off45 c 0 + (i 0).val) = glob0 (flip o2 c) + ko (flip o2 c) + ko2 (flip o2 c) + (i 0).val; have := off45_row c; omega)
theorem land_s6 (c : Dev nD) (fd : cc0_stg1_0.ty.Contents (Elt F)) :
    ∀ i ∈ (dst6 c).view.set,
      (dst6 c).view.write (Elt F) fd ((src6 c).view.read (Elt F) (Gout m)) Finset.univ i = Gout m i :=
  fun i hi => land_same (dst6 c).view (Gout m) fd hi
theorem land_s7 (c : Dev nD) (fd : cc0_stg1_0.ty.Contents (Elt F)) :
    ∀ i ∈ (dst7 c).view.set,
      (dst7 c).view.write (Elt F) fd ((src7 c).view.read (Elt F) (Gout m)) Finset.univ i = Gout m i :=
  fun i hi => land_same (dst7 c).view (Gout m) fd hi
theorem land_s8 (c : Dev nD) (fd : cc0_stg1_0.ty.Contents (Elt F)) :
    ∀ i ∈ (dst8 c).view.set,
      (dst8 c).view.write (Elt F) fd ((src8 c).view.read (Elt F) (Gout m)) Finset.univ i = Gout m i :=
  fun i hi => land_same (dst8 c).view (Gout m) fd hi
theorem land_s9 (c : Dev nD) (fd : cc0_stg1_0.ty.Contents (Elt F)) :
    ∀ i ∈ (dst9 c).view.set,
      (dst9 c).view.write (Elt F) fd ((src9 c).view.read (Elt F) (Gout m)) Finset.univ i = Gout m i :=
  fun i hi => land_same (dst9 c).view (Gout m) fd hi
theorem land_s10 (c : Dev nD) (fd : cc0_stg1_0.ty.Contents (Elt F)) :
    ∀ i ∈ (dst10 c).view.set,
      (dst10 c).view.write (Elt F) fd ((src10 c).view.read (Elt F) (Gout m)) Finset.univ i = Gout m i :=
  fun i hi => land_same (dst10 c).view (Gout m) fd hi
theorem land_s11 (c : Dev nD) (fd : cc0_stg1_0.ty.Contents (Elt F)) :
    ∀ i ∈ (dst11 c).view.set,
      (dst11 c).view.write (Elt F) fd ((src11 c).view.read (Elt F) (Gout m)) Finset.univ i = Gout m i :=
  fun i hi => land_same (dst11 c).view (Gout m) fd hi
theorem hrecv_s0 (c : Dev nD) (fd : Buf (Elt F) ((dst0 c).view.loc (Dev.tc (flip o0 c) : Thread nD τ))) :
    (((dst0 c).view.loc (Dev.tc (flip o0 c) : Thread nD τ)) ↦[(dst0 c).view.set]{fullShare}
        ((dst0 c).view.write (Elt F) fd ((src0 c).view.read (Elt F) (Gx m c)) Finset.univ) : sProp 𝕄)
      ⊢ recvPay m (flip o0 c) s0 := by
  have e : recvPay m (flip o0 c) s0
      = pt (ℓ := (dst0 (flip o0 (flip o0 c))).view.loc ((flip o0 c : Dev nD) : Thread nD τ))
          (dst0 (flip o0 (flip o0 c))).view.set fullShare (Gr0 m (flip o0 c)) := rfl
  rw [e, flip_flip, pt_def]
  exact Entails.of_eq (pointsTo_congr (land_s0 m c fd))
theorem hrecv_s1 (c : Dev nD) (fd : Buf (Elt F) ((dst1 c).view.loc (Dev.tc (flip o0 c) : Thread nD τ))) :
    (((dst1 c).view.loc (Dev.tc (flip o0 c) : Thread nD τ)) ↦[(dst1 c).view.set]{fullShare}
        ((dst1 c).view.write (Elt F) fd ((src1 c).view.read (Elt F) (Gx m c)) Finset.univ) : sProp 𝕄)
      ⊢ recvPay m (flip o0 c) s1 := by
  have e : recvPay m (flip o0 c) s1
      = pt (ℓ := (dst1 (flip o0 (flip o0 c))).view.loc ((flip o0 c : Dev nD) : Thread nD τ))
          (dst1 (flip o0 (flip o0 c))).view.set fullShare (Gr0 m (flip o0 c)) := rfl
  rw [e, flip_flip, pt_def]
  exact Entails.of_eq (pointsTo_congr (land_s1 m c fd))
theorem hrecv_s2 (c : Dev nD) (fd : Buf (Elt F) ((dst2 c).view.loc (Dev.tc (flip o0 c) : Thread nD τ))) :
    (((dst2 c).view.loc (Dev.tc (flip o0 c) : Thread nD τ)) ↦[(dst2 c).view.set]{fullShare}
        ((dst2 c).view.write (Elt F) fd ((src2 c).view.read (Elt F) (Gx m c)) Finset.univ) : sProp 𝕄)
      ⊢ recvPay m (flip o0 c) s2 := by
  have e : recvPay m (flip o0 c) s2
      = pt (ℓ := (dst2 (flip o0 (flip o0 c))).view.loc ((flip o0 c : Dev nD) : Thread nD τ))
          (dst2 (flip o0 (flip o0 c))).view.set fullShare (Gr0 m (flip o0 c)) := rfl
  rw [e, flip_flip, pt_def]
  exact Entails.of_eq (pointsTo_congr (land_s2 m c fd))
theorem hrecv_s3 (c : Dev nD) (fd : Buf (Elt F) ((dst3 c).view.loc (Dev.tc (flip o1 c) : Thread nD τ))) :
    (((dst3 c).view.loc (Dev.tc (flip o1 c) : Thread nD τ)) ↦[(dst3 c).view.set]{fullShare}
        ((dst3 c).view.write (Elt F) fd ((src3 c).view.read (Elt F) (Ga1 m c)) Finset.univ) : sProp 𝕄)
      ⊢ recvPay m (flip o1 c) s3 := by
  have e : recvPay m (flip o1 c) s3
      = pt (ℓ := (dst3 (flip o1 (flip o1 c))).view.loc ((flip o1 c : Dev nD) : Thread nD τ))
          (dst3 (flip o1 (flip o1 c))).view.set fullShare (Gr1 m (flip o1 c)) := rfl
  rw [e, flip_flip, pt_def]
  exact Entails.of_eq (pointsTo_congr (land_s3 m c fd))
theorem hrecv_s4 (c : Dev nD) (fd : Buf (Elt F) ((dst4 c).view.loc (Dev.tc (flip o1 c) : Thread nD τ))) :
    (((dst4 c).view.loc (Dev.tc (flip o1 c) : Thread nD τ)) ↦[(dst4 c).view.set]{fullShare}
        ((dst4 c).view.write (Elt F) fd ((src4 c).view.read (Elt F) (Ga1 m c)) Finset.univ) : sProp 𝕄)
      ⊢ recvPay m (flip o1 c) s4 := by
  have e : recvPay m (flip o1 c) s4
      = pt (ℓ := (dst4 (flip o1 (flip o1 c))).view.loc ((flip o1 c : Dev nD) : Thread nD τ))
          (dst4 (flip o1 (flip o1 c))).view.set fullShare (Gr1 m (flip o1 c)) := rfl
  rw [e, flip_flip, pt_def]
  exact Entails.of_eq (pointsTo_congr (land_s4 m c fd))
theorem hrecv_s5 (c : Dev nD) (fd : Buf (Elt F) ((dst5 c).view.loc (Dev.tc (flip o2 c) : Thread nD τ))) :
    (((dst5 c).view.loc (Dev.tc (flip o2 c) : Thread nD τ)) ↦[(dst5 c).view.set]{fullShare}
        ((dst5 c).view.write (Elt F) fd ((src5 c).view.read (Elt F) (Ga2 m c)) Finset.univ) : sProp 𝕄)
      ⊢ recvPay m (flip o2 c) s5 := by
  have e : recvPay m (flip o2 c) s5
      = pt (ℓ := (dst5 (flip o2 (flip o2 c))).view.loc ((flip o2 c : Dev nD) : Thread nD τ))
          (dst5 (flip o2 (flip o2 c))).view.set fullShare (Gr2 m (flip o2 c)) := rfl
  rw [e, flip_flip, pt_def]
  exact Entails.of_eq (pointsTo_congr (land_s5 m c fd))
theorem hrecv_s6 (c : Dev nD) (fd : Buf (Elt F) ((dst6 c).view.loc (Dev.tc (flip o2 c) : Thread nD τ))) :
    (((dst6 c).view.loc (Dev.tc (flip o2 c) : Thread nD τ)) ↦[(dst6 c).view.set]{fullShare}
        ((dst6 c).view.write (Elt F) fd ((src6 c).view.read (Elt F) (Gout m)) Finset.univ) : sProp 𝕄)
      ⊢ recvPay m (flip o2 c) s6 := by
  have e : recvPay m (flip o2 c) s6
      = pt (ℓ := (dst6 (flip o2 (flip o2 c))).view.loc ((flip o2 c : Dev nD) : Thread nD τ))
          (dst6 (flip o2 (flip o2 c))).view.set fullShare (Gout m) := rfl
  rw [e, flip_flip, pt_def]
  exact Entails.of_eq (pointsTo_congr (land_s6 m c fd))
theorem hrecv_s7 (c : Dev nD) (fd : Buf (Elt F) ((dst7 c).view.loc (Dev.tc (flip o1 c) : Thread nD τ))) :
    (((dst7 c).view.loc (Dev.tc (flip o1 c) : Thread nD τ)) ↦[(dst7 c).view.set]{fullShare}
        ((dst7 c).view.write (Elt F) fd ((src7 c).view.read (Elt F) (Gout m)) Finset.univ) : sProp 𝕄)
      ⊢ recvPay m (flip o1 c) s7 := by
  have e : recvPay m (flip o1 c) s7
      = pt (ℓ := (dst7 (flip o1 (flip o1 c))).view.loc ((flip o1 c : Dev nD) : Thread nD τ))
          (dst7 (flip o1 (flip o1 c))).view.set fullShare (Gout m) := rfl
  rw [e, flip_flip, pt_def]
  exact Entails.of_eq (pointsTo_congr (land_s7 m c fd))
theorem hrecv_s8 (c : Dev nD) (fd : Buf (Elt F) ((dst8 c).view.loc (Dev.tc (flip o1 c) : Thread nD τ))) :
    (((dst8 c).view.loc (Dev.tc (flip o1 c) : Thread nD τ)) ↦[(dst8 c).view.set]{fullShare}
        ((dst8 c).view.write (Elt F) fd ((src8 c).view.read (Elt F) (Gout m)) Finset.univ) : sProp 𝕄)
      ⊢ recvPay m (flip o1 c) s8 := by
  have e : recvPay m (flip o1 c) s8
      = pt (ℓ := (dst8 (flip o1 (flip o1 c))).view.loc ((flip o1 c : Dev nD) : Thread nD τ))
          (dst8 (flip o1 (flip o1 c))).view.set fullShare (Gout m) := rfl
  rw [e, flip_flip, pt_def]
  exact Entails.of_eq (pointsTo_congr (land_s8 m c fd))
theorem hrecv_s9 (c : Dev nD) (fd : Buf (Elt F) ((dst9 c).view.loc (Dev.tc (flip o0 c) : Thread nD τ))) :
    (((dst9 c).view.loc (Dev.tc (flip o0 c) : Thread nD τ)) ↦[(dst9 c).view.set]{fullShare}
        ((dst9 c).view.write (Elt F) fd ((src9 c).view.read (Elt F) (Gout m)) Finset.univ) : sProp 𝕄)
      ⊢ recvPay m (flip o0 c) s9 := by
  have e : recvPay m (flip o0 c) s9
      = pt (ℓ := (dst9 (flip o0 (flip o0 c))).view.loc ((flip o0 c : Dev nD) : Thread nD τ))
          (dst9 (flip o0 (flip o0 c))).view.set fullShare (Gout m) := rfl
  rw [e, flip_flip, pt_def]
  exact Entails.of_eq (pointsTo_congr (land_s9 m c fd))
theorem hrecv_s10 (c : Dev nD) (fd : Buf (Elt F) ((dst10 c).view.loc (Dev.tc (flip o0 c) : Thread nD τ))) :
    (((dst10 c).view.loc (Dev.tc (flip o0 c) : Thread nD τ)) ↦[(dst10 c).view.set]{fullShare}
        ((dst10 c).view.write (Elt F) fd ((src10 c).view.read (Elt F) (Gout m)) Finset.univ) : sProp 𝕄)
      ⊢ recvPay m (flip o0 c) s10 := by
  have e : recvPay m (flip o0 c) s10
      = pt (ℓ := (dst10 (flip o0 (flip o0 c))).view.loc ((flip o0 c : Dev nD) : Thread nD τ))
          (dst10 (flip o0 (flip o0 c))).view.set fullShare (Gout m) := rfl
  rw [e, flip_flip, pt_def]
  exact Entails.of_eq (pointsTo_congr (land_s10 m c fd))
theorem hrecv_s11 (c : Dev nD) (fd : Buf (Elt F) ((dst11 c).view.loc (Dev.tc (flip o0 c) : Thread nD τ))) :
    (((dst11 c).view.loc (Dev.tc (flip o0 c) : Thread nD τ)) ↦[(dst11 c).view.set]{fullShare}
        ((dst11 c).view.write (Elt F) fd ((src11 c).view.read (Elt F) (Gout m)) Finset.univ) : sProp 𝕄)
      ⊢ recvPay m (flip o0 c) s11 := by
  have e : recvPay m (flip o0 c) s11
      = pt (ℓ := (dst11 (flip o0 (flip o0 c))).view.loc ((flip o0 c : Dev nD) : Thread nD τ))
          (dst11 (flip o0 (flip o0 c))).view.set fullShare (Gout m) := rfl
  rw [e, flip_flip, pt_def]
  exact Entails.of_eq (pointsTo_congr (land_s11 m c fd))
end Cert.KernelIdeal.TR.P0
end
-- ==== Proof.Land1.lean ====
import proofs.«901104_g7700000000001105_dist_treered_v7x_i8_m2048_n1024_f32_1_alg».proof.Proof.Payloads
import proofs.«901104_g7700000000001105_dist_treered_v7x_i8_m2048_n1024_f32_1_alg».proof.Proof.LibRows
noncomputable section
namespace Cert.KernelIdeal.TR.P1
open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.TR.Rows
variable {F : FTy → Type} [FloatOps F]
local notation "𝕄" => MT nD τ sig Unit (Elt F) ℕ UU ℕ
variable (m : (ℓ : Loc nD τ sig) → Buf (Elt F) ℓ)
theorem land_same {κ : Kind} {sp : Space} {S : Shape} {e : EltTy} (v : View sig κ sp S e)
    (G fd : v.ty.Contents (Elt F)) {i : v.ty.Idx} (hi : i ∈ v.set) :
    v.write (Elt F) fd (v.read (Elt F) G) Finset.univ i = G i := by
  obtain ⟨j, -, hj⟩ := Finset.mem_map.mp hi
  rw [transfer_apply (Elt F) v v G fd i j hj, cast_eq, hj]
theorem glob0_le : ∀ c : Dev nD, glob0 c ≤ row0 + nH := by decide +kernel
theorem part_le : row0 + nH + nH ≤ 2048 := by decide
theorem off1_col : ∀ c : Dev nD, k0_off7 c 1 = 0 := by decide +kernel
theorem off2_lead : ∀ c : Dev nD, k0_off8 c 0 = 0 := by decide +kernel
theorem off2_col : ∀ c : Dev nD, k0_off8 c 2 = 0 := by decide +kernel
theorem off2_row : ∀ c : Dev nD, k0_off8 c 1 = glob0 (flip o0 c) + k0_off7 c 0 := by decide +kernel
theorem land_s0 (c : Dev nD) (fd : cc0_scratch5.ty.Contents (Elt F)) :
    ∀ i ∈ (dst12 c).view.set,
      (dst12 c).view.write (Elt F) fd ((src12 c).view.read (Elt F) (Gx m c)) Finset.univ i = Gr0 m (flip o0 c) i := by
  intro i hi
  have hr : i ∈ rows S352x1024 0 (k0_off7 c 0) (k0_off7 c 0 + S88x1024.size 0) := by
    rwa [slice_view_set cc0_scratch5 (a := (0 : Fin 2)) (k0_off7_inb c) (fun _ => rfl) (slab₂ (size := S88x1024.size) (off1_col c) rfl)] at hi
  obtain ⟨hlo, hhi⟩ := mem_rows.mp hr
  have hb := k0_off8_inb c 1
  have hrow : k0_off8 c 1 + ((i 0).val - k0_off7 c 0) < 2048 := by
    have : S1x88x1024.size 1 = nE := rfl
    have : S1x2048x1024.size 1 = 2048 := rfl
    have : S88x1024.size 0 = nE := rfl
    omega
  have hi' : i ∈ (u7 c).set :=
    (mem_unit_iff_rows (s := S352x1024) (a := (0 : Fin 2)) (off := k0_off7 c) (size := S88x1024.size) (k0_off7_inb c) (slab₂ (off1_col c) rfl)).mpr hr
  have hland : (dst12 c).view.write (Elt F) fd ((src12 c).view.read (Elt F) (Gx m c)) Finset.univ i
      = Gx m c (ix3 (0 : Fin 1) (⟨k0_off8 c 1 + ((i 0).val - k0_off7 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off8_inb c) _ (localIdx i hi') _ (by rw [off2_lead]; rfl) ?_
    intro a
    fin_cases a
    · rfl
    · show (i 1).val = k0_off8 c 2 + ((i 1).val - k0_off7 c 1); rw [off2_col, off1_col]; omega
  rw [hland]
  show xs m c _ _ = xs m (flip o0 (flip o0 c)) _ _
  rw [flip_flip]
  congr 1
  have : glob0 (flip o0 c) + (i 0).val < 2048 := by have := off2_row c; omega
  rw [clamp_of_lt this]
  exact Fin.ext (by show k0_off8 c 1 + ((i 0).val - k0_off7 c 0) = glob0 (flip o0 c) + (i 0).val; have := off2_row c; omega)
theorem off3_col : ∀ c : Dev nD, k0_off9 c 1 = 0 := by decide +kernel
theorem off4_lead : ∀ c : Dev nD, k0_off10 c 0 = 0 := by decide +kernel
theorem off4_col : ∀ c : Dev nD, k0_off10 c 2 = 0 := by decide +kernel
theorem off4_row : ∀ c : Dev nD, k0_off10 c 1 = glob0 (flip o0 c) + k0_off9 c 0 := by decide +kernel
theorem land_s1 (c : Dev nD) (fd : cc0_scratch5.ty.Contents (Elt F)) :
    ∀ i ∈ (dst13 c).view.set,
      (dst13 c).view.write (Elt F) fd ((src13 c).view.read (Elt F) (Gx m c)) Finset.univ i = Gr0 m (flip o0 c) i := by
  intro i hi
  have hr : i ∈ rows S352x1024 0 (k0_off9 c 0) (k0_off9 c 0 + S88x1024.size 0) := by
    rwa [slice_view_set cc0_scratch5 (a := (0 : Fin 2)) (k0_off9_inb c) (fun _ => rfl) (slab₂ (size := S88x1024.size) (off3_col c) rfl)] at hi
  obtain ⟨hlo, hhi⟩ := mem_rows.mp hr
  have hb := k0_off10_inb c 1
  have hrow : k0_off10 c 1 + ((i 0).val - k0_off9 c 0) < 2048 := by
    have : S1x88x1024.size 1 = nE := rfl
    have : S1x2048x1024.size 1 = 2048 := rfl
    have : S88x1024.size 0 = nE := rfl
    omega
  have hi' : i ∈ (u9 c).set :=
    (mem_unit_iff_rows (s := S352x1024) (a := (0 : Fin 2)) (off := k0_off9 c) (size := S88x1024.size) (k0_off9_inb c) (slab₂ (off3_col c) rfl)).mpr hr
  have hland : (dst13 c).view.write (Elt F) fd ((src13 c).view.read (Elt F) (Gx m c)) Finset.univ i
      = Gx m c (ix3 (0 : Fin 1) (⟨k0_off10 c 1 + ((i 0).val - k0_off9 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off10_inb c) _ (localIdx i hi') _ (by rw [off4_lead]; rfl) ?_
    intro a
    fin_cases a
    · rfl
    · show (i 1).val = k0_off10 c 2 + ((i 1).val - k0_off9 c 1); rw [off4_col, off3_col]; omega
  rw [hland]
  show xs m c _ _ = xs m (flip o0 (flip o0 c)) _ _
  rw [flip_flip]
  congr 1
  have : glob0 (flip o0 c) + (i 0).val < 2048 := by have := off4_row c; omega
  rw [clamp_of_lt this]
  exact Fin.ext (by show k0_off10 c 1 + ((i 0).val - k0_off9 c 0) = glob0 (flip o0 c) + (i 0).val; have := off4_row c; omega)
theorem off5_col : ∀ c : Dev nD, k0_off11 c 1 = 0 := by decide +kernel
theorem off6_lead : ∀ c : Dev nD, k0_off12 c 0 = 0 := by decide +kernel
theorem off6_col : ∀ c : Dev nD, k0_off12 c 2 = 0 := by decide +kernel
theorem off6_row : ∀ c : Dev nD, k0_off12 c 1 = glob0 (flip o0 c) + k0_off11 c 0 := by decide +kernel
theorem land_s2 (c : Dev nD) (fd : cc0_scratch5.ty.Contents (Elt F)) :
    ∀ i ∈ (dst14 c).view.set,
      (dst14 c).view.write (Elt F) fd ((src14 c).view.read (Elt F) (Gx m c)) Finset.univ i = Gr0 m (flip o0 c) i := by
  intro i hi
  have hr : i ∈ rows S352x1024 0 (k0_off11 c 0) (k0_off11 c 0 + S176x1024.size 0) := by
    rwa [slice_view_set cc0_scratch5 (a := (0 : Fin 2)) (k0_off11_inb c) (fun _ => rfl) (slab₂ (size := S176x1024.size) (off5_col c) rfl)] at hi
  obtain ⟨hlo, hhi⟩ := mem_rows.mp hr
  have hb := k0_off12_inb c 1
  have hrow : k0_off12 c 1 + ((i 0).val - k0_off11 c 0) < 2048 := by
    have : S1x176x1024.size 1 = nQ := rfl
    have : S1x2048x1024.size 1 = 2048 := rfl
    have : S176x1024.size 0 = nQ := rfl
    omega
  have hi' : i ∈ (u11 c).set :=
    (mem_unit_iff_rows (s := S352x1024) (a := (0 : Fin 2)) (off := k0_off11 c) (size := S176x1024.size) (k0_off11_inb c) (slab₂ (off5_col c) rfl)).mpr hr
  have hland : (dst14 c).view.write (Elt F) fd ((src14 c).view.read (Elt F) (Gx m c)) Finset.univ i
      = Gx m c (ix3 (0 : Fin 1) (⟨k0_off12 c 1 + ((i 0).val - k0_off11 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off12_inb c) _ (localIdx i hi') _ (by rw [off6_lead]; rfl) ?_
    intro a
    fin_cases a
    · rfl
    · show (i 1).val = k0_off12 c 2 + ((i 1).val - k0_off11 c 1); rw [off6_col, off5_col]; omega
  rw [hland]
  show xs m c _ _ = xs m (flip o0 (flip o0 c)) _ _
  rw [flip_flip]
  congr 1
  have : glob0 (flip o0 c) + (i 0).val < 2048 := by have := off6_row c; omega
  rw [clamp_of_lt this]
  exact Fin.ext (by show k0_off12 c 1 + ((i 0).val - k0_off11 c 0) = glob0 (flip o0 c) + (i 0).val; have := off6_row c; omega)
theorem off21_col : ∀ c : Dev nD, k0_off29 c 1 = 0 := by decide +kernel
theorem off21_row : ∀ c : Dev nD, glob0 c + k0_off7 c 0 = glob0 (flip o1 c) + ko (flip o1 c) + k0_off29 c 0 := by decide +kernel
theorem land_s3 (c : Dev nD) (fd : cc0_scratch6.ty.Contents (Elt F)) :
    ∀ i ∈ (dst15 c).view.set,
      (dst15 c).view.write (Elt F) fd ((src15 c).view.read (Elt F) (Ga1 m c)) Finset.univ i = Gr1 m (flip o1 c) i := by
  intro i hi
  have hr : i ∈ rows S176x1024 0 (k0_off29 c 0) (k0_off29 c 0 + S88x1024.size 0) := by
    rwa [slice_view_set cc0_scratch6 (a := (0 : Fin 2)) (k0_off29_inb c) (fun _ => rfl) (slab₂ (size := S88x1024.size) (off21_col c) rfl)] at hi
  obtain ⟨hlo, hhi⟩ := mem_rows.mp hr
  have hb := k0_off7_inb c 0
  have hrow : k0_off7 c 0 + ((i 0).val - k0_off29 c 0) < nH := by
    have : S88x1024.size 0 = nE := rfl
    have : S352x1024.size 0 = nH := rfl
    omega
  have hi' : i ∈ (u29 c).set :=
    (mem_unit_iff_rows (s := S176x1024) (a := (0 : Fin 2)) (off := k0_off29 c) (size := S88x1024.size) (k0_off29_inb c) (slab₂ (off21_col c) rfl)).mpr hr
  have hland : (dst15 c).view.write (Elt F) fd ((src15 c).view.read (Elt F) (Ga1 m c)) Finset.univ i
      = Ga1 m c (ix2 (⟨k0_off7 c 0 + ((i 0).val - k0_off29 c 0), hrow⟩ : Fin nH) (i 1 : Fin 1024)) := by
    refine (landed_apply (localIdx i hi') ?_).trans ?_
    · exact emb_localIdx i hi'
    rw [cast_eq]
    congr 1
    refine slice_emb_eq (View.whole cc0_scratch4) (k0_off7_inb c) (localIdx (s := S176x1024) (size := S88x1024.size) i hi') _ ?_
    intro a
    fin_cases a
    · rfl
    · show (i 1).val = k0_off7 c 1 + ((i 1).val - k0_off29 c 1); rw [off1_col, off21_col]; omega
  rw [hland]
  show P1 pIdx (xs m) c _ _ = P1 pIdx (xs m) (flip o1 (flip o1 c)) _ _
  rw [flip_flip]
  congr 1
  have hg := glob0_le c
  have hp := part_le
  have h1 : glob0 c + (k0_off7 c 0 + ((i 0).val - k0_off29 c 0)) < 2048 := by omega
  have h2 : glob0 (flip o1 c) + ko (flip o1 c) + (i 0).val < 2048 := by have := off21_row c; omega
  rw [clamp_of_lt h1, clamp_of_lt h2]
  exact Fin.ext (by show glob0 c + (k0_off7 c 0 + ((i 0).val - k0_off29 c 0)) = glob0 (flip o1 c) + ko (flip o1 c) + (i 0).val; have := off21_row c; omega)
theorem off24_col : ∀ c : Dev nD, k0_off32 c 1 = 0 := by decide +kernel
theorem off24_row : ∀ c : Dev nD, glob0 c + k0_off9 c 0 = glob0 (flip o1 c) + ko (flip o1 c) + k0_off32 c 0 := by decide +kernel
theorem land_s4 (c : Dev nD) (fd : cc0_scratch6.ty.Contents (Elt F)) :
    ∀ i ∈ (dst16 c).view.set,
      (dst16 c).view.write (Elt F) fd ((src16 c).view.read (Elt F) (Ga1 m c)) Finset.univ i = Gr1 m (flip o1 c) i := by
  intro i hi
  have hr : i ∈ rows S176x1024 0 (k0_off32 c 0) (k0_off32 c 0 + S88x1024.size 0) := by
    rwa [slice_view_set cc0_scratch6 (a := (0 : Fin 2)) (k0_off32_inb c) (fun _ => rfl) (slab₂ (size := S88x1024.size) (off24_col c) rfl)] at hi
  obtain ⟨hlo, hhi⟩ := mem_rows.mp hr
  have hb := k0_off9_inb c 0
  have hrow : k0_off9 c 0 + ((i 0).val - k0_off32 c 0) < nH := by
    have : S88x1024.size 0 = nE := rfl
    have : S352x1024.size 0 = nH := rfl
    omega
  have hi' : i ∈ (u32 c).set :=
    (mem_unit_iff_rows (s := S176x1024) (a := (0 : Fin 2)) (off := k0_off32 c) (size := S88x1024.size) (k0_off32_inb c) (slab₂ (off24_col c) rfl)).mpr hr
  have hland : (dst16 c).view.write (Elt F) fd ((src16 c).view.read (Elt F) (Ga1 m c)) Finset.univ i
      = Ga1 m c (ix2 (⟨k0_off9 c 0 + ((i 0).val - k0_off32 c 0), hrow⟩ : Fin nH) (i 1 : Fin 1024)) := by
    refine (landed_apply (localIdx i hi') ?_).trans ?_
    · exact emb_localIdx i hi'
    rw [cast_eq]
    congr 1
    refine slice_emb_eq (View.whole cc0_scratch4) (k0_off9_inb c) (localIdx (s := S176x1024) (size := S88x1024.size) i hi') _ ?_
    intro a
    fin_cases a
    · rfl
    · show (i 1).val = k0_off9 c 1 + ((i 1).val - k0_off32 c 1); rw [off3_col, off24_col]; omega
  rw [hland]
  show P1 pIdx (xs m) c _ _ = P1 pIdx (xs m) (flip o1 (flip o1 c)) _ _
  rw [flip_flip]
  congr 1
  have hg := glob0_le c
  have hp := part_le
  have h1 : glob0 c + (k0_off9 c 0 + ((i 0).val - k0_off32 c 0)) < 2048 := by omega
  have h2 : glob0 (flip o1 c) + ko (flip o1 c) + (i 0).val < 2048 := by have := off24_row c; omega
  rw [clamp_of_lt h1, clamp_of_lt h2]
  exact Fin.ext (by show glob0 c + (k0_off9 c 0 + ((i 0).val - k0_off32 c 0)) = glob0 (flip o1 c) + ko (flip o1 c) + (i 0).val; have := off24_row c; omega)
theorem off45_col : ∀ c : Dev nD, k0_off50 c 1 = 0 := by decide +kernel
theorem off45_row : ∀ c : Dev nD, glob0 c + k0_off50 c 0 = glob0 (flip o2 c) + ko (flip o2 c) + ko2 (flip o2 c) := by decide +kernel
theorem land_s5 (c : Dev nD) (fd : cc0_scratch7.ty.Contents (Elt F)) :
    ∀ i ∈ (dst17 c).view.set,
      (dst17 c).view.write (Elt F) fd ((src17 c).view.read (Elt F) (Ga2 m c)) Finset.univ i = Gr2 m (flip o2 c) i := by
  intro i _
  have hb := k0_off50_inb c 0
  have hi0 : (i 0).val < nE := (i 0).isLt
  have hrow : k0_off50 c 0 + (i 0).val < nH := by
    have : S88x1024.size 0 = nE := rfl
    have : S352x1024.size 0 = nH := rfl
    omega
  have hland : (dst17 c).view.write (Elt F) fd ((src17 c).view.read (Elt F) (Ga2 m c)) Finset.univ i
      = Ga2 m c (ix2 (⟨k0_off50 c 0 + (i 0).val, hrow⟩ : Fin nH) (i 1 : Fin 1024)) := by
    refine (landed_apply (i : S88x1024.Idx) rfl).trans ?_
    rw [cast_eq]
    congr 1
    refine slice_emb_eq (View.whole cc0_scratch4) (k0_off50_inb c) (i : S88x1024.Idx) _ ?_
    intro a
    fin_cases a
    · rfl
    · show (i 1).val = k0_off50 c 1 + (i 1).val; rw [off45_col]; omega
  rw [hland]
  show P2 pIdx (xs m) c _ _ = P2 pIdx (xs m) (flip o2 (flip o2 c)) _ _
  rw [flip_flip]
  congr 1
  have hg := glob0_le c
  have hp := part_le
  have h1 : glob0 c + (k0_off50 c 0 + (i 0).val) < 2048 := by omega
  have h2 : glob0 (flip o2 c) + ko (flip o2 c) + ko2 (flip o2 c) + (i 0).val < 2048 := by have := off45_row c; omega
  rw [clamp_of_lt h1, clamp_of_lt h2]
  exact Fin.ext (by show glob0 c + (k0_off50 c 0 + (i 0).val) = glob0 (flip o2 c) + ko (flip o2 c) + ko2 (flip o2 c) + (i 0).val; have := off45_row c; omega)
theorem land_s6 (c : Dev nD) (fd : cc0_stg1_0.ty.Contents (Elt F)) :
    ∀ i ∈ (dst18 c).view.set,
      (dst18 c).view.write (Elt F) fd ((src18 c).view.read (Elt F) (Gout m)) Finset.univ i = Gout m i :=
  fun i hi => land_same (dst18 c).view (Gout m) fd hi
theorem land_s7 (c : Dev nD) (fd : cc0_stg1_0.ty.Contents (Elt F)) :
    ∀ i ∈ (dst19 c).view.set,
      (dst19 c).view.write (Elt F) fd ((src19 c).view.read (Elt F) (Gout m)) Finset.univ i = Gout m i :=
  fun i hi => land_same (dst19 c).view (Gout m) fd hi
theorem land_s8 (c : Dev nD) (fd : cc0_stg1_0.ty.Contents (Elt F)) :
    ∀ i ∈ (dst20 c).view.set,
      (dst20 c).view.write (Elt F) fd ((src20 c).view.read (Elt F) (Gout m)) Finset.univ i = Gout m i :=
  fun i hi => land_same (dst20 c).view (Gout m) fd hi
theorem land_s9 (c : Dev nD) (fd : cc0_stg1_0.ty.Contents (Elt F)) :
    ∀ i ∈ (dst21 c).view.set,
      (dst21 c).view.write (Elt F) fd ((src21 c).view.read (Elt F) (Gout m)) Finset.univ i = Gout m i :=
  fun i hi => land_same (dst21 c).view (Gout m) fd hi
theorem land_s10 (c : Dev nD) (fd : cc0_stg1_0.ty.Contents (Elt F)) :
    ∀ i ∈ (dst22 c).view.set,
      (dst22 c).view.write (Elt F) fd ((src22 c).view.read (Elt F) (Gout m)) Finset.univ i = Gout m i :=
  fun i hi => land_same (dst22 c).view (Gout m) fd hi
theorem land_s11 (c : Dev nD) (fd : cc0_stg1_0.ty.Contents (Elt F)) :
    ∀ i ∈ (dst23 c).view.set,
      (dst23 c).view.write (Elt F) fd ((src23 c).view.read (Elt F) (Gout m)) Finset.univ i = Gout m i :=
  fun i hi => land_same (dst23 c).view (Gout m) fd hi
theorem hrecv_s0 (c : Dev nD) (fd : Buf (Elt F) ((dst12 c).view.loc (Dev.tc (flip o0 c) : Thread nD τ))) :
    (((dst12 c).view.loc (Dev.tc (flip o0 c) : Thread nD τ)) ↦[(dst12 c).view.set]{fullShare}
        ((dst12 c).view.write (Elt F) fd ((src12 c).view.read (Elt F) (Gx m c)) Finset.univ) : sProp 𝕄)
      ⊢ recvPay m (flip o0 c) s0 := by
  have e : recvPay m (flip o0 c) s0
      = pt (ℓ := (dst12 (flip o0 (flip o0 c))).view.loc ((flip o0 c : Dev nD) : Thread nD τ))
          (dst12 (flip o0 (flip o0 c))).view.set fullShare (Gr0 m (flip o0 c)) := rfl
  rw [e, flip_flip, pt_def]
  exact Entails.of_eq (pointsTo_congr (land_s0 m c fd))
theorem hrecv_s1 (c : Dev nD) (fd : Buf (Elt F) ((dst13 c).view.loc (Dev.tc (flip o0 c) : Thread nD τ))) :
    (((dst13 c).view.loc (Dev.tc (flip o0 c) : Thread nD τ)) ↦[(dst13 c).view.set]{fullShare}
        ((dst13 c).view.write (Elt F) fd ((src13 c).view.read (Elt F) (Gx m c)) Finset.univ) : sProp 𝕄)
      ⊢ recvPay m (flip o0 c) s1 := by
  have e : recvPay m (flip o0 c) s1
      = pt (ℓ := (dst13 (flip o0 (flip o0 c))).view.loc ((flip o0 c : Dev nD) : Thread nD τ))
          (dst13 (flip o0 (flip o0 c))).view.set fullShare (Gr0 m (flip o0 c)) := rfl
  rw [e, flip_flip, pt_def]
  exact Entails.of_eq (pointsTo_congr (land_s1 m c fd))
theorem hrecv_s2 (c : Dev nD) (fd : Buf (Elt F) ((dst14 c).view.loc (Dev.tc (flip o0 c) : Thread nD τ))) :
    (((dst14 c).view.loc (Dev.tc (flip o0 c) : Thread nD τ)) ↦[(dst14 c).view.set]{fullShare}
        ((dst14 c).view.write (Elt F) fd ((src14 c).view.read (Elt F) (Gx m c)) Finset.univ) : sProp 𝕄)
      ⊢ recvPay m (flip o0 c) s2 := by
  have e : recvPay m (flip o0 c) s2
      = pt (ℓ := (dst14 (flip o0 (flip o0 c))).view.loc ((flip o0 c : Dev nD) : Thread nD τ))
          (dst14 (flip o0 (flip o0 c))).view.set fullShare (Gr0 m (flip o0 c)) := rfl
  rw [e, flip_flip, pt_def]
  exact Entails.of_eq (pointsTo_congr (land_s2 m c fd))
theorem hrecv_s3 (c : Dev nD) (fd : Buf (Elt F) ((dst15 c).view.loc (Dev.tc (flip o1 c) : Thread nD τ))) :
    (((dst15 c).view.loc (Dev.tc (flip o1 c) : Thread nD τ)) ↦[(dst15 c).view.set]{fullShare}
        ((dst15 c).view.write (Elt F) fd ((src15 c).view.read (Elt F) (Ga1 m c)) Finset.univ) : sProp 𝕄)
      ⊢ recvPay m (flip o1 c) s3 := by
  have e : recvPay m (flip o1 c) s3
      = pt (ℓ := (dst15 (flip o1 (flip o1 c))).view.loc ((flip o1 c : Dev nD) : Thread nD τ))
          (dst15 (flip o1 (flip o1 c))).view.set fullShare (Gr1 m (flip o1 c)) := rfl
  rw [e, flip_flip, pt_def]
  exact Entails.of_eq (pointsTo_congr (land_s3 m c fd))
theorem hrecv_s4 (c : Dev nD) (fd : Buf (Elt F) ((dst16 c).view.loc (Dev.tc (flip o1 c) : Thread nD τ))) :
    (((dst16 c).view.loc (Dev.tc (flip o1 c) : Thread nD τ)) ↦[(dst16 c).view.set]{fullShare}
        ((dst16 c).view.write (Elt F) fd ((src16 c).view.read (Elt F) (Ga1 m c)) Finset.univ) : sProp 𝕄)
      ⊢ recvPay m (flip o1 c) s4 := by
  have e : recvPay m (flip o1 c) s4
      = pt (ℓ := (dst16 (flip o1 (flip o1 c))).view.loc ((flip o1 c : Dev nD) : Thread nD τ))
          (dst16 (flip o1 (flip o1 c))).view.set fullShare (Gr1 m (flip o1 c)) := rfl
  rw [e, flip_flip, pt_def]
  exact Entails.of_eq (pointsTo_congr (land_s4 m c fd))
theorem hrecv_s5 (c : Dev nD) (fd : Buf (Elt F) ((dst17 c).view.loc (Dev.tc (flip o2 c) : Thread nD τ))) :
    (((dst17 c).view.loc (Dev.tc (flip o2 c) : Thread nD τ)) ↦[(dst17 c).view.set]{fullShare}
        ((dst17 c).view.write (Elt F) fd ((src17 c).view.read (Elt F) (Ga2 m c)) Finset.univ) : sProp 𝕄)
      ⊢ recvPay m (flip o2 c) s5 := by
  have e : recvPay m (flip o2 c) s5
      = pt (ℓ := (dst17 (flip o2 (flip o2 c))).view.loc ((flip o2 c : Dev nD) : Thread nD τ))
          (dst17 (flip o2 (flip o2 c))).view.set fullShare (Gr2 m (flip o2 c)) := rfl
  rw [e, flip_flip, pt_def]
  exact Entails.of_eq (pointsTo_congr (land_s5 m c fd))
theorem hrecv_s6 (c : Dev nD) (fd : Buf (Elt F) ((dst18 c).view.loc (Dev.tc (flip o2 c) : Thread nD τ))) :
    (((dst18 c).view.loc (Dev.tc (flip o2 c) : Thread nD τ)) ↦[(dst18 c).view.set]{fullShare}
        ((dst18 c).view.write (Elt F) fd ((src18 c).view.read (Elt F) (Gout m)) Finset.univ) : sProp 𝕄)
      ⊢ recvPay m (flip o2 c) s6 := by
  have e : recvPay m (flip o2 c) s6
      = pt (ℓ := (dst18 (flip o2 (flip o2 c))).view.loc ((flip o2 c : Dev nD) : Thread nD τ))
          (dst18 (flip o2 (flip o2 c))).view.set fullShare (Gout m) := rfl
  rw [e, flip_flip, pt_def]
  exact Entails.of_eq (pointsTo_congr (land_s6 m c fd))
theorem hrecv_s7 (c : Dev nD) (fd : Buf (Elt F) ((dst19 c).view.loc (Dev.tc (flip o1 c) : Thread nD τ))) :
    (((dst19 c).view.loc (Dev.tc (flip o1 c) : Thread nD τ)) ↦[(dst19 c).view.set]{fullShare}
        ((dst19 c).view.write (Elt F) fd ((src19 c).view.read (Elt F) (Gout m)) Finset.univ) : sProp 𝕄)
      ⊢ recvPay m (flip o1 c) s7 := by
  have e : recvPay m (flip o1 c) s7
      = pt (ℓ := (dst19 (flip o1 (flip o1 c))).view.loc ((flip o1 c : Dev nD) : Thread nD τ))
          (dst19 (flip o1 (flip o1 c))).view.set fullShare (Gout m) := rfl
  rw [e, flip_flip, pt_def]
  exact Entails.of_eq (pointsTo_congr (land_s7 m c fd))
theorem hrecv_s8 (c : Dev nD) (fd : Buf (Elt F) ((dst20 c).view.loc (Dev.tc (flip o1 c) : Thread nD τ))) :
    (((dst20 c).view.loc (Dev.tc (flip o1 c) : Thread nD τ)) ↦[(dst20 c).view.set]{fullShare}
        ((dst20 c).view.write (Elt F) fd ((src20 c).view.read (Elt F) (Gout m)) Finset.univ) : sProp 𝕄)
      ⊢ recvPay m (flip o1 c) s8 := by
  have e : recvPay m (flip o1 c) s8
      = pt (ℓ := (dst20 (flip o1 (flip o1 c))).view.loc ((flip o1 c : Dev nD) : Thread nD τ))
          (dst20 (flip o1 (flip o1 c))).view.set fullShare (Gout m) := rfl
  rw [e, flip_flip, pt_def]
  exact Entails.of_eq (pointsTo_congr (land_s8 m c fd))
theorem hrecv_s9 (c : Dev nD) (fd : Buf (Elt F) ((dst21 c).view.loc (Dev.tc (flip o0 c) : Thread nD τ))) :
    (((dst21 c).view.loc (Dev.tc (flip o0 c) : Thread nD τ)) ↦[(dst21 c).view.set]{fullShare}
        ((dst21 c).view.write (Elt F) fd ((src21 c).view.read (Elt F) (Gout m)) Finset.univ) : sProp 𝕄)
      ⊢ recvPay m (flip o0 c) s9 := by
  have e : recvPay m (flip o0 c) s9
      = pt (ℓ := (dst21 (flip o0 (flip o0 c))).view.loc ((flip o0 c : Dev nD) : Thread nD τ))
          (dst21 (flip o0 (flip o0 c))).view.set fullShare (Gout m) := rfl
  rw [e, flip_flip, pt_def]
  exact Entails.of_eq (pointsTo_congr (land_s9 m c fd))
theorem hrecv_s10 (c : Dev nD) (fd : Buf (Elt F) ((dst22 c).view.loc (Dev.tc (flip o0 c) : Thread nD τ))) :
    (((dst22 c).view.loc (Dev.tc (flip o0 c) : Thread nD τ)) ↦[(dst22 c).view.set]{fullShare}
        ((dst22 c).view.write (Elt F) fd ((src22 c).view.read (Elt F) (Gout m)) Finset.univ) : sProp 𝕄)
      ⊢ recvPay m (flip o0 c) s10 := by
  have e : recvPay m (flip o0 c) s10
      = pt (ℓ := (dst22 (flip o0 (flip o0 c))).view.loc ((flip o0 c : Dev nD) : Thread nD τ))
          (dst22 (flip o0 (flip o0 c))).view.set fullShare (Gout m) := rfl
  rw [e, flip_flip, pt_def]
  exact Entails.of_eq (pointsTo_congr (land_s10 m c fd))
theorem hrecv_s11 (c : Dev nD) (fd : Buf (Elt F) ((dst23 c).view.loc (Dev.tc (flip o0 c) : Thread nD τ))) :
    (((dst23 c).view.loc (Dev.tc (flip o0 c) : Thread nD τ)) ↦[(dst23 c).view.set]{fullShare}
        ((dst23 c).view.write (Elt F) fd ((src23 c).view.read (Elt F) (Gout m)) Finset.univ) : sProp 𝕄)
      ⊢ recvPay m (flip o0 c) s11 := by
  have e : recvPay m (flip o0 c) s11
      = pt (ℓ := (dst23 (flip o0 (flip o0 c))).view.loc ((flip o0 c : Dev nD) : Thread nD τ))
          (dst23 (flip o0 (flip o0 c))).view.set fullShare (Gout m) := rfl
  rw [e, flip_flip, pt_def]
  exact Entails.of_eq (pointsTo_congr (land_s11 m c fd))
end Cert.KernelIdeal.TR.P1
end
-- ==== Proof.Land2.lean ====
import proofs.«901104_g7700000000001105_dist_treered_v7x_i8_m2048_n1024_f32_1_alg».proof.Proof.Payloads
import proofs.«901104_g7700000000001105_dist_treered_v7x_i8_m2048_n1024_f32_1_alg».proof.Proof.LibRows
noncomputable section
namespace Cert.KernelIdeal.TR.P2
open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.TR.Rows
variable {F : FTy → Type} [FloatOps F]
local notation "𝕄" => MT nD τ sig Unit (Elt F) ℕ UU ℕ
variable (m : (ℓ : Loc nD τ sig) → Buf (Elt F) ℓ)
theorem land_same {κ : Kind} {sp : Space} {S : Shape} {e : EltTy} (v : View sig κ sp S e)
    (G fd : v.ty.Contents (Elt F)) {i : v.ty.Idx} (hi : i ∈ v.set) :
    v.write (Elt F) fd (v.read (Elt F) G) Finset.univ i = G i := by
  obtain ⟨j, -, hj⟩ := Finset.mem_map.mp hi
  rw [transfer_apply (Elt F) v v G fd i j hj, cast_eq, hj]
theorem glob0_le : ∀ c : Dev nD, glob0 c ≤ row0 + nH := by decide +kernel
theorem part_le : row0 + nH + nH ≤ 2048 := by decide
theorem off1_col : ∀ c : Dev nD, k0_off13 c 1 = 0 := by decide +kernel
theorem off2_lead : ∀ c : Dev nD, k0_off14 c 0 = 0 := by decide +kernel
theorem off2_col : ∀ c : Dev nD, k0_off14 c 2 = 0 := by decide +kernel
theorem off2_row : ∀ c : Dev nD, k0_off14 c 1 = glob0 (flip o0 c) + k0_off13 c 0 := by decide +kernel
theorem land_s0 (c : Dev nD) (fd : cc0_scratch9.ty.Contents (Elt F)) :
    ∀ i ∈ (dst24 c).view.set,
      (dst24 c).view.write (Elt F) fd ((src24 c).view.read (Elt F) (Gx m c)) Finset.univ i = Gr0 m (flip o0 c) i := by
  intro i hi
  have hr : i ∈ rows S320x1024 0 (k0_off13 c 0) (k0_off13 c 0 + S80x1024.size 0) := by
    rwa [slice_view_set cc0_scratch9 (a := (0 : Fin 2)) (k0_off13_inb c) (fun _ => rfl) (slab₂ (size := S80x1024.size) (off1_col c) rfl)] at hi
  obtain ⟨hlo, hhi⟩ := mem_rows.mp hr
  have hb := k0_off14_inb c 1
  have hrow : k0_off14 c 1 + ((i 0).val - k0_off13 c 0) < 2048 := by
    have : S1x80x1024.size 1 = nE := rfl
    have : S1x2048x1024.size 1 = 2048 := rfl
    have : S80x1024.size 0 = nE := rfl
    omega
  have hi' : i ∈ (u13 c).set :=
    (mem_unit_iff_rows (s := S320x1024) (a := (0 : Fin 2)) (off := k0_off13 c) (size := S80x1024.size) (k0_off13_inb c) (slab₂ (off1_col c) rfl)).mpr hr
  have hland : (dst24 c).view.write (Elt F) fd ((src24 c).view.read (Elt F) (Gx m c)) Finset.univ i
      = Gx m c (ix3 (0 : Fin 1) (⟨k0_off14 c 1 + ((i 0).val - k0_off13 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off14_inb c) _ (localIdx i hi') _ (by rw [off2_lead]; rfl) ?_
    intro a
    fin_cases a
    · rfl
    · show (i 1).val = k0_off14 c 2 + ((i 1).val - k0_off13 c 1); rw [off2_col, off1_col]; omega
  rw [hland]
  show xs m c _ _ = xs m (flip o0 (flip o0 c)) _ _
  rw [flip_flip]
  congr 1
  have : glob0 (flip o0 c) + (i 0).val < 2048 := by have := off2_row c; omega
  rw [clamp_of_lt this]
  exact Fin.ext (by show k0_off14 c 1 + ((i 0).val - k0_off13 c 0) = glob0 (flip o0 c) + (i 0).val; have := off2_row c; omega)
theorem off3_col : ∀ c : Dev nD, k0_off15 c 1 = 0 := by decide +kernel
theorem off4_lead : ∀ c : Dev nD, k0_off16 c 0 = 0 := by decide +kernel
theorem off4_col : ∀ c : Dev nD, k0_off16 c 2 = 0 := by decide +kernel
theorem off4_row : ∀ c : Dev nD, k0_off16 c 1 = glob0 (flip o0 c) + k0_off15 c 0 := by decide +kernel
theorem land_s1 (c : Dev nD) (fd : cc0_scratch9.ty.Contents (Elt F)) :
    ∀ i ∈ (dst25 c).view.set,
      (dst25 c).view.write (Elt F) fd ((src25 c).view.read (Elt F) (Gx m c)) Finset.univ i = Gr0 m (flip o0 c) i := by
  intro i hi
  have hr : i ∈ rows S320x1024 0 (k0_off15 c 0) (k0_off15 c 0 + S80x1024.size 0) := by
    rwa [slice_view_set cc0_scratch9 (a := (0 : Fin 2)) (k0_off15_inb c) (fun _ => rfl) (slab₂ (size := S80x1024.size) (off3_col c) rfl)] at hi
  obtain ⟨hlo, hhi⟩ := mem_rows.mp hr
  have hb := k0_off16_inb c 1
  have hrow : k0_off16 c 1 + ((i 0).val - k0_off15 c 0) < 2048 := by
    have : S1x80x1024.size 1 = nE := rfl
    have : S1x2048x1024.size 1 = 2048 := rfl
    have : S80x1024.size 0 = nE := rfl
    omega
  have hi' : i ∈ (u15 c).set :=
    (mem_unit_iff_rows (s := S320x1024) (a := (0 : Fin 2)) (off := k0_off15 c) (size := S80x1024.size) (k0_off15_inb c) (slab₂ (off3_col c) rfl)).mpr hr
  have hland : (dst25 c).view.write (Elt F) fd ((src25 c).view.read (Elt F) (Gx m c)) Finset.univ i
      = Gx m c (ix3 (0 : Fin 1) (⟨k0_off16 c 1 + ((i 0).val - k0_off15 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off16_inb c) _ (localIdx i hi') _ (by rw [off4_lead]; rfl) ?_
    intro a
    fin_cases a
    · rfl
    · show (i 1).val = k0_off16 c 2 + ((i 1).val - k0_off15 c 1); rw [off4_col, off3_col]; omega
  rw [hland]
  show xs m c _ _ = xs m (flip o0 (flip o0 c)) _ _
  rw [flip_flip]
  congr 1
  have : glob0 (flip o0 c) + (i 0).val < 2048 := by have := off4_row c; omega
  rw [clamp_of_lt this]
  exact Fin.ext (by show k0_off16 c 1 + ((i 0).val - k0_off15 c 0) = glob0 (flip o0 c) + (i 0).val; have := off4_row c; omega)
theorem off5_col : ∀ c : Dev nD, k0_off17 c 1 = 0 := by decide +kernel
theorem off6_lead : ∀ c : Dev nD, k0_off18 c 0 = 0 := by decide +kernel
theorem off6_col : ∀ c : Dev nD, k0_off18 c 2 = 0 := by decide +kernel
theorem off6_row : ∀ c : Dev nD, k0_off18 c 1 = glob0 (flip o0 c) + k0_off17 c 0 := by decide +kernel
theorem land_s2 (c : Dev nD) (fd : cc0_scratch9.ty.Contents (Elt F)) :
    ∀ i ∈ (dst26 c).view.set,
      (dst26 c).view.write (Elt F) fd ((src26 c).view.read (Elt F) (Gx m c)) Finset.univ i = Gr0 m (flip o0 c) i := by
  intro i hi
  have hr : i ∈ rows S320x1024 0 (k0_off17 c 0) (k0_off17 c 0 + S160x1024.size 0) := by
    rwa [slice_view_set cc0_scratch9 (a := (0 : Fin 2)) (k0_off17_inb c) (fun _ => rfl) (slab₂ (size := S160x1024.size) (off5_col c) rfl)] at hi
  obtain ⟨hlo, hhi⟩ := mem_rows.mp hr
  have hb := k0_off18_inb c 1
  have hrow : k0_off18 c 1 + ((i 0).val - k0_off17 c 0) < 2048 := by
    have : S1x160x1024.size 1 = nQ := rfl
    have : S1x2048x1024.size 1 = 2048 := rfl
    have : S160x1024.size 0 = nQ := rfl
    omega
  have hi' : i ∈ (u17 c).set :=
    (mem_unit_iff_rows (s := S320x1024) (a := (0 : Fin 2)) (off := k0_off17 c) (size := S160x1024.size) (k0_off17_inb c) (slab₂ (off5_col c) rfl)).mpr hr
  have hland : (dst26 c).view.write (Elt F) fd ((src26 c).view.read (Elt F) (Gx m c)) Finset.univ i
      = Gx m c (ix3 (0 : Fin 1) (⟨k0_off18 c 1 + ((i 0).val - k0_off17 c 0), hrow⟩ : Fin 2048) (i 1 : Fin 1024)) := by
    refine (landed_apply (localIdx i hi') ?_).trans ?_
    · exact emb_localIdx i hi'
    rw [cast_eq]
    congr 1
    refine squeeze_slice_emb_eq (View.whole cc0_stg0_0) (k0_off18_inb c) _ (localIdx i hi') _ (by rw [off6_lead]; rfl) ?_
    intro a
    fin_cases a
    · rfl
    · show (i 1).val = k0_off18 c 2 + ((i 1).val - k0_off17 c 1); rw [off6_col, off5_col]; omega
  rw [hland]
  show xs m c _ _ = xs m (flip o0 (flip o0 c)) _ _
  rw [flip_flip]
  congr 1
  have : glob0 (flip o0 c) + (i 0).val < 2048 := by have := off6_row c; omega
  rw [clamp_of_lt this]
  exact Fin.ext (by show k0_off18 c 1 + ((i 0).val - k0_off17 c 0) = glob0 (flip o0 c) + (i 0).val; have := off6_row c; omega)
theorem off21_col : ∀ c : Dev nD, k0_off37 c 1 = 0 := by decide +kernel
theorem off21_row : ∀ c : Dev nD, glob0 c + k0_off13 c 0 = glob0 (flip o1 c) + ko (flip o1 c) + k0_off37 c 0 := by decide +kernel
theorem land_s3 (c : Dev nD) (fd : cc0_scratch10.ty.Contents (Elt F)) :
    ∀ i ∈ (dst27 c).view.set,
      (dst27 c).view.write (Elt F) fd ((src27 c).view.read (Elt F) (Ga1 m c)) Finset.univ i = Gr1 m (flip o1 c) i := by
  intro i hi
  have hr : i ∈ rows S160x1024 0 (k0_off37 c 0) (k0_off37 c 0 + S80x1024.size 0) := by
    rwa [slice_view_set cc0_scratch10 (a := (0 : Fin 2)) (k0_off37_inb c) (fun _ => rfl) (slab₂ (size := S80x1024.size) (off21_col c) rfl)] at hi
  obtain ⟨hlo, hhi⟩ := mem_rows.mp hr
  have hb := k0_off13_inb c 0
  have hrow : k0_off13 c 0 + ((i 0).val - k0_off37 c 0) < nH := by
    have : S80x1024.size 0 = nE := rfl
    have : S320x1024.size 0 = nH := rfl
    omega
  have hi' : i ∈ (u37 c).set :=
    (mem_unit_iff_rows (s := S160x1024) (a := (0 : Fin 2)) (off := k0_off37 c) (size := S80x1024.size) (k0_off37_inb c) (slab₂ (off21_col c) rfl)).mpr hr
  have hland : (dst27 c).view.write (Elt F) fd ((src27 c).view.read (Elt F) (Ga1 m c)) Finset.univ i
      = Ga1 m c (ix2 (⟨k0_off13 c 0 + ((i 0).val - k0_off37 c 0), hrow⟩ : Fin nH) (i 1 : Fin 1024)) := by
    refine (landed_apply (localIdx i hi') ?_).trans ?_
    · exact emb_localIdx i hi'
    rw [cast_eq]
    congr 1
    refine slice_emb_eq (View.whole cc0_scratch8) (k0_off13_inb c) (localIdx (s := S160x1024) (size := S80x1024.size) i hi') _ ?_
    intro a
    fin_cases a
    · rfl
    · show (i 1).val = k0_off13 c 1 + ((i 1).val - k0_off37 c 1); rw [off1_col, off21_col]; omega
  rw [hland]
  show P1 pIdx (xs m) c _ _ = P1 pIdx (xs m) (flip o1 (flip o1 c)) _ _
  rw [flip_flip]
  congr 1
  have hg := glob0_le c
  have hp := part_le
  have h1 : glob0 c + (k0_off13 c 0 + ((i 0).val - k0_off37 c 0)) < 2048 := by omega
  have h2 : glob0 (flip o1 c) + ko (flip o1 c) + (i 0).val < 2048 := by have := off21_row c; omega
  rw [clamp_of_lt h1, clamp_of_lt h2]
  exact Fin.ext (by show glob0 c + (k0_off13 c 0 + ((i 0).val - k0_off37 c 0)) = glob0 (flip o1 c) + ko (flip o1 c) + (i 0).val; have := off21_row c; omega)
theorem off24_col : ∀ c : Dev nD, k0_off40 c 1 = 0 := by decide +kernel
theorem off24_row : ∀ c : Dev nD, glob0 c + k0_off15 c 0 = glob0 (flip o1 c) + ko (flip o1 c) + k0_off40 c 0 := by decide +kernel
theorem land_s4 (c : Dev nD) (fd : cc0_scratch10.ty.Contents (Elt F)) :
    ∀ i ∈ (dst28 c).view.set,
      (dst28 c).view.write (Elt F) fd ((src28 c).view.read (Elt F) (Ga1 m c)) Finset.univ i = Gr1 m (flip o1 c) i := by
  intro i hi
  have hr : i ∈ rows S160x1024 0 (k0_off40 c 0) (k0_off40 c 0 + S80x1024.size 0) := by
    rwa [slice_view_set cc0_scratch10 (a := (0 : Fin 2)) (k0_off40_inb c) (fun _ => rfl) (slab₂ (size := S80x1024.size) (off24_col c) rfl)] at hi
  obtain ⟨hlo, hhi⟩ := mem_rows.mp hr
  have hb := k0_off15_inb c 0
  have hrow : k0_off15 c 0 + ((i 0).val - k0_off40 c 0) < nH := by
    have : S80x1024.size 0 = nE := rfl
    have : S320x1024.size 0 = nH := rfl
    omega
  have hi' : i ∈ (u40 c).set :=
    (mem_unit_iff_rows (s := S160x1024) (a := (0 : Fin 2)) (off := k0_off40 c) (size := S80x1024.size) (k0_off40_inb c) (slab₂ (off24_col c) rfl)).mpr hr
  have hland : (dst28 c).view.write (Elt F) fd ((src28 c).view.read (Elt F) (Ga1 m c)) Finset.univ i
      = Ga1 m c (ix2 (⟨k0_off15 c 0 + ((i 0).val - k0_off40 c 0), hrow⟩ : Fin nH) (i 1 : Fin 1024)) := by
    refine (landed_apply (localIdx i hi') ?_).trans ?_
    · exact emb_localIdx i hi'
    rw [cast_eq]
    congr 1
    refine slice_emb_eq (View.whole cc0_scratch8) (k0_off15_inb c) (localIdx (s := S160x1024) (size := S80x1024.size) i hi') _ ?_
    intro a
    fin_cases a
    · rfl
    · show (i 1).val = k0_off15 c 1 + ((i 1).val - k0_off40 c 1); rw [off3_col, off24_col]; omega
  rw [hland]
  show P1 pIdx (xs m) c _ _ = P1 pIdx (xs m) (flip o1 (flip o1 c)) _ _
  rw [flip_flip]
  congr 1
  have hg := glob0_le c
  have hp := part_le
  have h1 : glob0 c + (k0_off15 c 0 + ((i 0).val - k0_off40 c 0)) < 2048 := by omega
  have h2 : glob0 (flip o1 c) + ko (flip o1 c) + (i 0).val < 2048 := by have := off24_row c; omega
  rw [clamp_of_lt h1, clamp_of_lt h2]
  exact Fin.ext (by show glob0 c + (k0_off15 c 0 + ((i 0).val - k0_off40 c 0)) = glob0 (flip o1 c) + ko (flip o1 c) + (i 0).val; have := off24_row c; omega)
theorem off45_col : ∀ c : Dev nD, k0_off55 c 1 = 0 := by decide +kernel
theorem off45_row : ∀ c : Dev nD, glob0 c + k0_off55 c 0 = glob0 (flip o2 c) + ko (flip o2 c) + ko2 (flip o2 c) := by decide +kernel
theorem land_s5 (c : Dev nD) (fd : cc0_scratch11.ty.Contents (Elt F)) :
    ∀ i ∈ (dst29 c).view.set,
      (dst29 c).view.write (Elt F) fd ((src29 c).view.read (Elt F) (Ga2 m c)) Finset.univ i = Gr2 m (flip o2 c) i := by
  intro i _
  have hb := k0_off55_inb c 0
  have hi0 : (i 0).val < nE := (i 0).isLt
  have hrow : k0_off55 c 0 + (i 0).val < nH := by
    have : S80x1024.size 0 = nE := rfl
    have : S320x1024.size 0 = nH := rfl
    omega
  have hland : (dst29 c).view.write (Elt F) fd ((src29 c).view.read (Elt F) (Ga2 m c)) Finset.univ i
      = Ga2 m c (ix2 (⟨k0_off55 c 0 + (i 0).val, hrow⟩ : Fin nH) (i 1 : Fin 1024)) := by
    refine (landed_apply (i : S80x1024.Idx) rfl).trans ?_
    rw [cast_eq]
    congr 1
    refine slice_emb_eq (View.whole cc0_scratch8) (k0_off55_inb c) (i : S80x1024.Idx) _ ?_
    intro a
    fin_cases a
    · rfl
    · show (i 1).val = k0_off55 c 1 + (i 1).val; rw [off45_col]; omega
  rw [hland]
  show P2 pIdx (xs m) c _ _ = P2 pIdx (xs m) (flip o2 (flip o2 c)) _ _
  rw [flip_flip]
  congr 1
  have hg := glob0_le c
  have hp := part_le
  have h1 : glob0 c + (k0_off55 c 0 + (i 0).val) < 2048 := by omega
  have h2 : glob0 (flip o2 c) + ko (flip o2 c) + ko2 (flip o2 c) + (i 0).val < 2048 := by have := off45_row c; omega
  rw [clamp_of_lt h1, clamp_of_lt h2]
  exact Fin.ext (by show glob0 c + (k0_off55 c 0 + (i 0).val) = glob0 (flip o2 c) + ko (flip o2 c) + ko2 (flip o2 c) + (i 0).val; have := off45_row c; omega)
theorem land_s6 (c : Dev nD) (fd : cc0_stg1_0.ty.Contents (Elt F)) :
    ∀ i ∈ (dst30 c).view.set,
      (dst30 c).view.write (Elt F) fd ((src30 c).view.read (Elt F) (Gout m)) Finset.univ i = Gout m i :=
  fun i hi => land_same (dst30 c).view (Gout m) fd hi
theorem land_s7 (c : Dev nD) (fd : cc0_stg1_0.ty.Contents (Elt F)) :
    ∀ i ∈ (dst31 c).view.set,
      (dst31 c).view.write (Elt F) fd ((src31 c).view.read (Elt F) (Gout m)) Finset.univ i = Gout m i :=
  fun i hi => land_same (dst31 c).view (Gout m) fd hi
theorem land_s8 (c : Dev nD) (fd : cc0_stg1_0.ty.Contents (Elt F)) :
    ∀ i ∈ (dst32 c).view.set,
      (dst32 c).view.write (Elt F) fd ((src32 c).view.read (Elt F) (Gout m)) Finset.univ i = Gout m i :=
  fun i hi => land_same (dst32 c).view (Gout m) fd hi
theorem land_s9 (c : Dev nD) (fd : cc0_stg1_0.ty.Contents (Elt F)) :
    ∀ i ∈ (dst33 c).view.set,
      (dst33 c).view.write (Elt F) fd ((src33 c).view.read (Elt F) (Gout m)) Finset.univ i = Gout m i :=
  fun i hi => land_same (dst33 c).view (Gout m) fd hi
theorem land_s10 (c : Dev nD) (fd : cc0_stg1_0.ty.Contents (Elt F)) :
    ∀ i ∈ (dst34 c).view.set,
      (dst34 c).view.write (Elt F) fd ((src34 c).view.read (Elt F) (Gout m)) Finset.univ i = Gout m i :=
  fun i hi => land_same (dst34 c).view (Gout m) fd hi
theorem land_s11 (c : Dev nD) (fd : cc0_stg1_0.ty.Contents (Elt F)) :
    ∀ i ∈ (dst35 c).view.set,
      (dst35 c).view.write (Elt F) fd ((src35 c).view.read (Elt F) (Gout m)) Finset.univ i = Gout m i :=
  fun i hi => land_same (dst35 c).view (Gout m) fd hi
theorem hrecv_s0 (c : Dev nD) (fd : Buf (Elt F) ((dst24 c).view.loc (Dev.tc (flip o0 c) : Thread nD τ))) :
    (((dst24 c).view.loc (Dev.tc (flip o0 c) : Thread nD τ)) ↦[(dst24 c).view.set]{fullShare}
        ((dst24 c).view.write (Elt F) fd ((src24 c).view.read (Elt F) (Gx m c)) Finset.univ) : sProp 𝕄)
      ⊢ recvPay m (flip o0 c) s0 := by
  have e : recvPay m (flip o0 c) s0
      = pt (ℓ := (dst24 (flip o0 (flip o0 c))).view.loc ((flip o0 c : Dev nD) : Thread nD τ))
          (dst24 (flip o0 (flip o0 c))).view.set fullShare (Gr0 m (flip o0 c)) := rfl
  rw [e, flip_flip, pt_def]
  exact Entails.of_eq (pointsTo_congr (land_s0 m c fd))
theorem hrecv_s1 (c : Dev nD) (fd : Buf (Elt F) ((dst25 c).view.loc (Dev.tc (flip o0 c) : Thread nD τ))) :
    (((dst25 c).view.loc (Dev.tc (flip o0 c) : Thread nD τ)) ↦[(dst25 c).view.set]{fullShare}
        ((dst25 c).view.write (Elt F) fd ((src25 c).view.read (Elt F) (Gx m c)) Finset.univ) : sProp 𝕄)
      ⊢ recvPay m (flip o0 c) s1 := by
  have e : recvPay m (flip o0 c) s1
      = pt (ℓ := (dst25 (flip o0 (flip o0 c))).view.loc ((flip o0 c : Dev nD) : Thread nD τ))
          (dst25 (flip o0 (flip o0 c))).view.set fullShare (Gr0 m (flip o0 c)) := rfl
  rw [e, flip_flip, pt_def]
  exact Entails.of_eq (pointsTo_congr (land_s1 m c fd))
theorem hrecv_s2 (c : Dev nD) (fd : Buf (Elt F) ((dst26 c).view.loc (Dev.tc (flip o0 c) : Thread nD τ))) :
    (((dst26 c).view.loc (Dev.tc (flip o0 c) : Thread nD τ)) ↦[(dst26 c).view.set]{fullShare}
        ((dst26 c).view.write (Elt F) fd ((src26 c).view.read (Elt F) (Gx m c)) Finset.univ) : sProp 𝕄)
      ⊢ recvPay m (flip o0 c) s2 := by
  have e : recvPay m (flip o0 c) s2
      = pt (ℓ := (dst26 (flip o0 (flip o0 c))).view.loc ((flip o0 c : Dev nD) : Thread nD τ))
          (dst26 (flip o0 (flip o0 c))).view.set fullShare (Gr0 m (flip o0 c)) := rfl
  rw [e, flip_flip, pt_def]
  exact Entails.of_eq (pointsTo_congr (land_s2 m c fd))
theorem hrecv_s3 (c : Dev nD) (fd : Buf (Elt F) ((dst27 c).view.loc (Dev.tc (flip o1 c) : Thread nD τ))) :
    (((dst27 c).view.loc (Dev.tc (flip o1 c) : Thread nD τ)) ↦[(dst27 c).view.set]{fullShare}
        ((dst27 c).view.write (Elt F) fd ((src27 c).view.read (Elt F) (Ga1 m c)) Finset.univ) : sProp 𝕄)
      ⊢ recvPay m (flip o1 c) s3 := by
  have e : recvPay m (flip o1 c) s3
      = pt (ℓ := (dst27 (flip o1 (flip o1 c))).view.loc ((flip o1 c : Dev nD) : Thread nD τ))
          (dst27 (flip o1 (flip o1 c))).view.set fullShare (Gr1 m (flip o1 c)) := rfl
  rw [e, flip_flip, pt_def]
  exact Entails.of_eq (pointsTo_congr (land_s3 m c fd))
theorem hrecv_s4 (c : Dev nD) (fd : Buf (Elt F) ((dst28 c).view.loc (Dev.tc (flip o1 c) : Thread nD τ))) :
    (((dst28 c).view.loc (Dev.tc (flip o1 c) : Thread nD τ)) ↦[(dst28 c).view.set]{fullShare}
        ((dst28 c).view.write (Elt F) fd ((src28 c).view.read (Elt F) (Ga1 m c)) Finset.univ) : sProp 𝕄)
      ⊢ recvPay m (flip o1 c) s4 := by
  have e : recvPay m (flip o1 c) s4
      = pt (ℓ := (dst28 (flip o1 (flip o1 c))).view.loc ((flip o1 c : Dev nD) : Thread nD τ))
          (dst28 (flip o1 (flip o1 c))).view.set fullShare (Gr1 m (flip o1 c)) := rfl
  rw [e, flip_flip, pt_def]
  exact Entails.of_eq (pointsTo_congr (land_s4 m c fd))
theorem hrecv_s5 (c : Dev nD) (fd : Buf (Elt F) ((dst29 c).view.loc (Dev.tc (flip o2 c) : Thread nD τ))) :
    (((dst29 c).view.loc (Dev.tc (flip o2 c) : Thread nD τ)) ↦[(dst29 c).view.set]{fullShare}
        ((dst29 c).view.write (Elt F) fd ((src29 c).view.read (Elt F) (Ga2 m c)) Finset.univ) : sProp 𝕄)
      ⊢ recvPay m (flip o2 c) s5 := by
  have e : recvPay m (flip o2 c) s5
      = pt (ℓ := (dst29 (flip o2 (flip o2 c))).view.loc ((flip o2 c : Dev nD) : Thread nD τ))
          (dst29 (flip o2 (flip o2 c))).view.set fullShare (Gr2 m (flip o2 c)) := rfl
  rw [e, flip_flip, pt_def]
  exact Entails.of_eq (pointsTo_congr (land_s5 m c fd))
theorem hrecv_s6 (c : Dev nD) (fd : Buf (Elt F) ((dst30 c).view.loc (Dev.tc (flip o2 c) : Thread nD τ))) :
    (((dst30 c).view.loc (Dev.tc (flip o2 c) : Thread nD τ)) ↦[(dst30 c).view.set]{fullShare}
        ((dst30 c).view.write (Elt F) fd ((src30 c).view.read (Elt F) (Gout m)) Finset.univ) : sProp 𝕄)
      ⊢ recvPay m (flip o2 c) s6 := by
  have e : recvPay m (flip o2 c) s6
      = pt (ℓ := (dst30 (flip o2 (flip o2 c))).view.loc ((flip o2 c : Dev nD) : Thread nD τ))
          (dst30 (flip o2 (flip o2 c))).view.set fullShare (Gout m) := rfl
  rw [e, flip_flip, pt_def]
  exact Entails.of_eq (pointsTo_congr (land_s6 m c fd))
theorem hrecv_s7 (c : Dev nD) (fd : Buf (Elt F) ((dst31 c).view.loc (Dev.tc (flip o1 c) : Thread nD τ))) :
    (((dst31 c).view.loc (Dev.tc (flip o1 c) : Thread nD τ)) ↦[(dst31 c).view.set]{fullShare}
        ((dst31 c).view.write (Elt F) fd ((src31 c).view.read (Elt F) (Gout m)) Finset.univ) : sProp 𝕄)
      ⊢ recvPay m (flip o1 c) s7 := by
  have e : recvPay m (flip o1 c) s7
      = pt (ℓ := (dst31 (flip o1 (flip o1 c))).view.loc ((flip o1 c : Dev nD) : Thread nD τ))
          (dst31 (flip o1 (flip o1 c))).view.set fullShare (Gout m) := rfl
  rw [e, flip_flip, pt_def]
  exact Entails.of_eq (pointsTo_congr (land_s7 m c fd))
theorem hrecv_s8 (c : Dev nD) (fd : Buf (Elt F) ((dst32 c).view.loc (Dev.tc (flip o1 c) : Thread nD τ))) :
    (((dst32 c).view.loc (Dev.tc (flip o1 c) : Thread nD τ)) ↦[(dst32 c).view.set]{fullShare}
        ((dst32 c).view.write (Elt F) fd ((src32 c).view.read (Elt F) (Gout m)) Finset.univ) : sProp 𝕄)
      ⊢ recvPay m (flip o1 c) s8 := by
  have e : recvPay m (flip o1 c) s8
      = pt (ℓ := (dst32 (flip o1 (flip o1 c))).view.loc ((flip o1 c : Dev nD) : Thread nD τ))
          (dst32 (flip o1 (flip o1 c))).view.set fullShare (Gout m) := rfl
  rw [e, flip_flip, pt_def]
  exact Entails.of_eq (pointsTo_congr (land_s8 m c fd))
theorem hrecv_s9 (c : Dev nD) (fd : Buf (Elt F) ((dst33 c).view.loc (Dev.tc (flip o0 c) : Thread nD τ))) :
    (((dst33 c).view.loc (Dev.tc (flip o0 c) : Thread nD τ)) ↦[(dst33 c).view.set]{fullShare}
        ((dst33 c).view.write (Elt F) fd ((src33 c).view.read (Elt F) (Gout m)) Finset.univ) : sProp 𝕄)
      ⊢ recvPay m (flip o0 c) s9 := by
  have e : recvPay m (flip o0 c) s9
      = pt (ℓ := (dst33 (flip o0 (flip o0 c))).view.loc ((flip o0 c : Dev nD) : Thread nD τ))
          (dst33 (flip o0 (flip o0 c))).view.set fullShare (Gout m) := rfl
  rw [e, flip_flip, pt_def]
  exact Entails.of_eq (pointsTo_congr (land_s9 m c fd))
theorem hrecv_s10 (c : Dev nD) (fd : Buf (Elt F) ((dst34 c).view.loc (Dev.tc (flip o0 c) : Thread nD τ))) :
    (((dst34 c).view.loc (Dev.tc (flip o0 c) : Thread nD τ)) ↦[(dst34 c).view.set]{fullShare}
        ((dst34 c).view.write (Elt F) fd ((src34 c).view.read (Elt F) (Gout m)) Finset.univ) : sProp 𝕄)
      ⊢ recvPay m (flip o0 c) s10 := by
  have e : recvPay m (flip o0 c) s10
      = pt (ℓ := (dst34 (flip o0 (flip o0 c))).view.loc ((flip o0 c : Dev nD) : Thread nD τ))
          (dst34 (flip o0 (flip o0 c))).view.set fullShare (Gout m) := rfl
  rw [e, flip_flip, pt_def]
  exact Entails.of_eq (pointsTo_congr (land_s10 m c fd))
theorem hrecv_s11 (c : Dev nD) (fd : Buf (Elt F) ((dst35 c).view.loc (Dev.tc (flip o0 c) : Thread nD τ))) :
    (((dst35 c).view.loc (Dev.tc (flip o0 c) : Thread nD τ)) ↦[(dst35 c).view.set]{fullShare}
        ((dst35 c).view.write (Elt F) fd ((src35 c).view.read (Elt F) (Gout m)) Finset.univ) : sProp 𝕄)
      ⊢ recvPay m (flip o0 c) s11 := by
  have e : recvPay m (flip o0 c) s11
      = pt (ℓ := (dst35 (flip o0 (flip o0 c))).view.loc ((flip o0 c : Dev nD) : Thread nD τ))
          (dst35 (flip o0 (flip o0 c))).view.set fullShare (Gout m) := rfl
  rw [e, flip_flip, pt_def]
  exact Entails.of_eq (pointsTo_congr (land_s11 m c fd))
end Cert.KernelIdeal.TR.P2
end
-- ==== Proof.Seg0B.lean ====
import proofs.«901104_g7700000000001105_dist_treered_v7x_i8_m2048_n1024_f32_1_alg».proof.Proof.Res0
import proofs.«901104_g7700000000001105_dist_treered_v7x_i8_m2048_n1024_f32_1_alg».proof.Proof.Steps
import proofs.«901104_g7700000000001105_dist_treered_v7x_i8_m2048_n1024_f32_1_alg».proof.Proof.LibRows
set_option Elab.async false
noncomputable section
namespace Cert.KernelIdeal.TR
open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P0
theorem off1_flip (c : Dev nD) : k0_off1 (flip o0 c) = k0_off20 c := by revert c; decide +kernel
theorem off3_flip (c : Dev nD) : k0_off3 (flip o0 c) = k0_off23 c := by revert c; decide +kernel
theorem off5_flip (c : Dev nD) : k0_off5 (flip o0 c) = k0_off26 c := by revert c; decide +kernel
theorem off1_eq (c : Dev nD) : k0_off1 c = k0_off20 c := by revert c; decide +kernel
theorem off3_eq (c : Dev nD) : k0_off3 c = k0_off23 c := by revert c; decide +kernel
theorem ax_s0 : ax s0 = o0 := by decide
theorem ax_s1 : ax s1 = o0 := by decide
theorem ax_s2 : ax s2 = o0 := by decide
theorem ax_s3 : ax s3 = o1 := by decide
theorem ax_s4 : ax s4 = o1 := by decide
theorem pos_s0_s3 : pos s0 < pos s3 := by decide
theorem pos_s0_s4 : pos s0 < pos s4 := by decide
theorem pos_s1_s4 : pos s1 < pos s4 := by decide
theorem pos_s0_s2 : pos s0 < pos s2 := by decide
theorem pos_s1_s2 : pos s1 < pos s2 := by decide
theorem set_slice_congr {sp : Space} {S : Shape} {e : EltTy} (M : Memref sig .tc sp S e) (sz : Fin S.rank → ℕ)
    {o o' : Fin S.rank → ℕ} (h : o = o') (i : ∀ a, o a + sz a ≤ S.size a) (i' : ∀ a, o' a + sz a ≤ S.size a) :
    (M.access (Rect.unit (s := S) o sz i)).set = (M.access (Rect.unit (s := S) o' sz i')).set := by
  subst h; rfl
variable (m : (ℓ : Loc nD τ sig) → Buf (Elt F) ℓ)
variable (K : Dev nD × Fin 73 → ℕ) (c : Dev nD)
theorem sendPay_s0 : sendPay m c s0 = ((src0 c).view.loc (c : Thread nD τ) ↦[(src0 c).view.set]{shareOf s0} (Gx m c) : sProp 𝕄) := rfl
theorem sendPay_s1 : sendPay m c s1 = ((src1 c).view.loc (c : Thread nD τ) ↦[(src1 c).view.set]{shareOf s1} (Gx m c) : sProp 𝕄) := rfl
theorem sendPay_s2 : sendPay m c s2 = ((src2 c).view.loc (c : Thread nD τ) ↦[(src2 c).view.set]{shareOf s2} (Gx m c) : sProp 𝕄) := rfl
theorem sendPay_s3 : sendPay m c s3 = ((src3 c).view.loc (c : Thread nD τ) ↦[(src3 c).view.set]{shareOf s3} (Ga1 m c) : sProp 𝕄) := rfl
theorem sendPay_s4 : sendPay m c s4 = ((src4 c).view.loc (c : Thread nD τ) ↦[(src4 c).view.set]{shareOf s4} (Ga1 m c) : sProp 𝕄) := rfl
theorem recvPay_s0 : recvPay m c s0 = (((c : Thread nD τ).loc cc0_scratch1) ↦[(b1.access (u20 c)).set]{fullShare} (Gr0 m c) : sProp 𝕄) := by
  show (((c : Thread nD τ).loc cc0_scratch1) ↦[(b1.access (u1 (flip o0 c))).set]{fullShare} (Gr0 m c) : sProp 𝕄) = _
  rw [set_slice_congr b1 S88x1024.size (off1_flip c) (k0_off1_inb (flip o0 c)) (k0_off20_inb c)]
theorem recvPay_s1 : recvPay m c s1 = (((c : Thread nD τ).loc cc0_scratch1) ↦[(b1.access (u23 c)).set]{fullShare} (Gr0 m c) : sProp 𝕄) := by
  show (((c : Thread nD τ).loc cc0_scratch1) ↦[(b1.access (u3 (flip o0 c))).set]{fullShare} (Gr0 m c) : sProp 𝕄) = _
  rw [set_slice_congr b1 S88x1024.size (off3_flip c) (k0_off3_inb (flip o0 c)) (k0_off23_inb c)]
theorem recvPay_s2 : recvPay m c s2 = (((c : Thread nD τ).loc cc0_scratch1) ↦[(b1.access (u26 c)).set]{fullShare} (Gr0 m c) : sProp 𝕄) := by
  show (((c : Thread nD τ).loc cc0_scratch1) ↦[(b1.access (u5 (flip o0 c))).set]{fullShare} (Gr0 m c) : sProp 𝕄) = _
  rw [set_slice_congr b1 S176x1024.size (off5_flip c) (k0_off5_inb (flip o0 c)) (k0_off26_inb c)]
theorem offs0 (c : Dev nD) : (k0_off19 c) 1 = glob0 c + (k0_off20 c) 0 ∧ (k0_off19 c) 2 = 0 ∧ (k0_off20 c) 1 = 0 ∧ glob0 c + S352x1024.size 0 ≤ 2048 := by
  revert c; decide +kernel
theorem sum0 (w : Vec F S1x88x1024 .f32 → Vec F S88x1024 .f32 → FVec F S88x1024 .f32)
    (hw : ∀ (a : Vec F S1x88x1024 .f32) (b : Vec F S88x1024 .f32) (j : S88x1024.Idx), w a b j = FloatOps.addf (φ := .f32) (a (ix3 (0 : Fin 1) (j 0 : Fin (S88x1024.size 0)) (j 1 : Fin (S88x1024.size 1)))) (b j))
    (fa : Buf (Elt F) ((c : Thread nD τ).loc cc0_scratch0)) :
    ∀ i ∈ (b0.access (u20 c)).set,
      (b0.access (u20 c)).write (Elt F) fa
          (w ((bIn.access (u19 c)).read (Elt F) (Gx m c)) ((b1.access (u20 c)).read (Elt F) (Gr0 m c))) Finset.univ i
        = Ga1 m c i := by
  intro i hi
  have hi' : i ∈ (u20 c).set := (View.set_slice_whole cc0_scratch0 _) ▸ hi
  obtain ⟨h1, h2, h3, hg⟩ := offs0 c
  have hm := Rect.mem_set_unit.mp hi'
  rw [write_access_apply_of_mem (Elt F) cc0_scratch0 (k0_off20_inb c) fa _ hi', hw]
  have hr : (b1.access (u20 c)).read (Elt F) (Gr0 m c) (localIdx i hi') = Gr0 m c i := by
    show Gr0 m c ((u20 c).emb (localIdx i hi')) = _
    rw [emb_localIdx]
  have hx : (bIn.access (u19 c)).read (Elt F) (Gx m c) (ix3 (0 : Fin 1) (localIdx i hi' 0 : Fin (S88x1024.size 0)) (localIdx i hi' 1 : Fin (S88x1024.size 1)))
      = xs m c (clamp (glob0 c + (i 0).val)) (i 1 : Fin 1024) := by
    show Gx m c ((u19 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off19 c) 1 + 1 * ((i 0).val - (k0_off20 c) 0) = glob0 c + (i 0).val
      omega
    · apply Fin.ext
      show (k0_off19 c) 2 + 1 * ((i 1).val - (k0_off20 c) 1) = (i 1).val
      omega
  rw [hr, hx]
  rfl
theorem offs1 (c : Dev nD) : (k0_off22 c) 1 = glob0 c + (k0_off23 c) 0 ∧ (k0_off22 c) 2 = 0 ∧ (k0_off23 c) 1 = 0 ∧ glob0 c + S352x1024.size 0 ≤ 2048 := by
  revert c; decide +kernel
theorem sum1 (w : Vec F S1x88x1024 .f32 → Vec F S88x1024 .f32 → FVec F S88x1024 .f32)
    (hw : ∀ (a : Vec F S1x88x1024 .f32) (b : Vec F S88x1024 .f32) (j : S88x1024.Idx), w a b j = FloatOps.addf (φ := .f32) (a (ix3 (0 : Fin 1) (j 0 : Fin (S88x1024.size 0)) (j 1 : Fin (S88x1024.size 1)))) (b j))
    (fa : Buf (Elt F) ((c : Thread nD τ).loc cc0_scratch0)) :
    ∀ i ∈ (b0.access (u23 c)).set,
      (b0.access (u23 c)).write (Elt F) fa
          (w ((bIn.access (u22 c)).read (Elt F) (Gx m c)) ((b1.access (u23 c)).read (Elt F) (Gr0 m c))) Finset.univ i
        = Ga1 m c i := by
  intro i hi
  have hi' : i ∈ (u23 c).set := (View.set_slice_whole cc0_scratch0 _) ▸ hi
  obtain ⟨h1, h2, h3, hg⟩ := offs1 c
  have hm := Rect.mem_set_unit.mp hi'
  rw [write_access_apply_of_mem (Elt F) cc0_scratch0 (k0_off23_inb c) fa _ hi', hw]
  have hr : (b1.access (u23 c)).read (Elt F) (Gr0 m c) (localIdx i hi') = Gr0 m c i := by
    show Gr0 m c ((u23 c).emb (localIdx i hi')) = _
    rw [emb_localIdx]
  have hx : (bIn.access (u22 c)).read (Elt F) (Gx m c) (ix3 (0 : Fin 1) (localIdx i hi' 0 : Fin (S88x1024.size 0)) (localIdx i hi' 1 : Fin (S88x1024.size 1)))
      = xs m c (clamp (glob0 c + (i 0).val)) (i 1 : Fin 1024) := by
    show Gx m c ((u22 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off22 c) 1 + 1 * ((i 0).val - (k0_off23 c) 0) = glob0 c + (i 0).val
      omega
    · apply Fin.ext
      show (k0_off22 c) 2 + 1 * ((i 1).val - (k0_off23 c) 1) = (i 1).val
      omega
  rw [hr, hx]
  rfl
theorem offs2 (c : Dev nD) : (k0_off25 c) 1 = glob0 c + (k0_off26 c) 0 ∧ (k0_off25 c) 2 = 0 ∧ (k0_off26 c) 1 = 0 ∧ glob0 c + S352x1024.size 0 ≤ 2048 := by
  revert c; decide +kernel
theorem sum2 (w : Vec F S1x176x1024 .f32 → Vec F S176x1024 .f32 → FVec F S176x1024 .f32)
    (hw : ∀ (a : Vec F S1x176x1024 .f32) (b : Vec F S176x1024 .f32) (j : S176x1024.Idx), w a b j = FloatOps.addf (φ := .f32) (a (ix3 (0 : Fin 1) (j 0 : Fin (S176x1024.size 0)) (j 1 : Fin (S176x1024.size 1)))) (b j))
    (fa : Buf (Elt F) ((c : Thread nD τ).loc cc0_scratch0)) :
    ∀ i ∈ (b0.access (u26 c)).set,
      (b0.access (u26 c)).write (Elt F) fa
          (w ((bIn.access (u25 c)).read (Elt F) (Gx m c)) ((b1.access (u26 c)).read (Elt F) (Gr0 m c))) Finset.univ i
        = Ga1 m c i := by
  intro i hi
  have hi' : i ∈ (u26 c).set := (View.set_slice_whole cc0_scratch0 _) ▸ hi
  obtain ⟨h1, h2, h3, hg⟩ := offs2 c
  have hm := Rect.mem_set_unit.mp hi'
  rw [write_access_apply_of_mem (Elt F) cc0_scratch0 (k0_off26_inb c) fa _ hi', hw]
  have hr : (b1.access (u26 c)).read (Elt F) (Gr0 m c) (localIdx i hi') = Gr0 m c i := by
    show Gr0 m c ((u26 c).emb (localIdx i hi')) = _
    rw [emb_localIdx]
  have hx : (bIn.access (u25 c)).read (Elt F) (Gx m c) (ix3 (0 : Fin 1) (localIdx i hi' 0 : Fin (S176x1024.size 0)) (localIdx i hi' 1 : Fin (S176x1024.size 1)))
      = xs m c (clamp (glob0 c + (i 0).val)) (i 1 : Fin 1024) := by
    show Gx m c ((u25 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off25 c) 1 + 1 * ((i 0).val - (k0_off26 c) 0) = glob0 c + (i 0).val
      omega
    · apply Fin.ext
      show (k0_off25 c) 2 + 1 * ((i 1).val - (k0_off26 c) 1) = (i 1).val
      omega
  rw [hr, hx]
  rfl
theorem store0 (w : Vec F S1x88x1024 .f32 → Vec F S88x1024 .f32 → FVec F S88x1024 .f32)
    (hw : ∀ (a : Vec F S1x88x1024 .f32) (b : Vec F S88x1024 .f32) (j : S88x1024.Idx), w a b j = FloatOps.addf (φ := .f32) (a (ix3 (0 : Fin 1) (j 0 : Fin (S88x1024.size 0)) (j 1 : Fin (S88x1024.size 1)))) (b j))
    (fa : Buf (Elt F) ((c : Thread nD τ).loc cc0_scratch0)) :
    (((c : Thread nD τ).loc cc0_scratch0) ↦[(b0.access (u20 c)).set]{fullShare}
        ((b0.access (u20 c)).write (Elt F) fa
          (w ((bIn.access (u19 c)).read (Elt F) (Gx m c)) ((b1.access (u20 c)).read (Elt F) (Gr0 m c))) Finset.univ) : sProp 𝕄)
      ⊢ ((src3 c).view.loc (c : Thread nD τ) ↦[(src3 c).view.set]{shareOf s3} (Ga1 m c) : sProp 𝕄) :=
  (Entails.of_eq (pointsTo_congr (q := fullShare) (sum0 m c w hw fa))).trans (Entails.of_eq (congrArg (fun I => (((c : Thread nD τ).loc cc0_scratch0) ↦[I]{fullShare} (Ga1 m c) : sProp 𝕄)) (set_slice_congr b0 S88x1024.size (off1_eq c).symm (k0_off20_inb c) (k0_off1_inb c))))
theorem store1 (w : Vec F S1x88x1024 .f32 → Vec F S88x1024 .f32 → FVec F S88x1024 .f32)
    (hw : ∀ (a : Vec F S1x88x1024 .f32) (b : Vec F S88x1024 .f32) (j : S88x1024.Idx), w a b j = FloatOps.addf (φ := .f32) (a (ix3 (0 : Fin 1) (j 0 : Fin (S88x1024.size 0)) (j 1 : Fin (S88x1024.size 1)))) (b j))
    (fa : Buf (Elt F) ((c : Thread nD τ).loc cc0_scratch0)) :
    (((c : Thread nD τ).loc cc0_scratch0) ↦[(b0.access (u23 c)).set]{fullShare}
        ((b0.access (u23 c)).write (Elt F) fa
          (w ((bIn.access (u22 c)).read (Elt F) (Gx m c)) ((b1.access (u23 c)).read (Elt F) (Gr0 m c))) Finset.univ) : sProp 𝕄)
      ⊢ ((src4 c).view.loc (c : Thread nD τ) ↦[(src4 c).view.set]{shareOf s4} (Ga1 m c) : sProp 𝕄) :=
  (Entails.of_eq (pointsTo_congr (q := fullShare) (sum1 m c w hw fa))).trans (Entails.of_eq (congrArg (fun I => (((c : Thread nD τ).loc cc0_scratch0) ↦[I]{fullShare} (Ga1 m c) : sProp 𝕄)) (set_slice_congr b0 S88x1024.size (off3_eq c).symm (k0_off23_inb c) (k0_off3_inb c))))
theorem store2 (w : Vec F S1x176x1024 .f32 → Vec F S176x1024 .f32 → FVec F S176x1024 .f32)
    (hw : ∀ (a : Vec F S1x176x1024 .f32) (b : Vec F S176x1024 .f32) (j : S176x1024.Idx), w a b j = FloatOps.addf (φ := .f32) (a (ix3 (0 : Fin 1) (j 0 : Fin (S176x1024.size 0)) (j 1 : Fin (S176x1024.size 1)))) (b j))
    (fa : Buf (Elt F) ((c : Thread nD τ).loc cc0_scratch0)) :
    (((c : Thread nD τ).loc cc0_scratch0) ↦[(b0.access (u26 c)).set]{fullShare}
        ((b0.access (u26 c)).write (Elt F) fa
          (w ((bIn.access (u25 c)).read (Elt F) (Gx m c)) ((b1.access (u26 c)).read (Elt F) (Gr0 m c))) Finset.univ) : sProp 𝕄)
      ⊢ a26s m c :=
  (Entails.of_eq (pointsTo_congr (q := fullShare) (sum2 m c w hw fa))).trans (Entails.of_eq rfl)
theorem seg_p0 {α : Type} {Q : α → sProp 𝕄} (k : PUnit → Prog (TpuEff nD τ sig (Elt F) Λ₀ .tc) α) (l : List (Fin 36)) (W : Waits sig Unit)
    (n0 n1 n2 : Dev nD) (hn0 : n0 = flip o0 c) (hn1 : n1 = flip o0 c) (hn2 : n2 = flip o0 c)
    (sS0 sR0 : DmaSem sig) (hS0 : sS0 = sendSem s0) (hR0 : sR0 = recvSem s0)
    (sS1 sR1 : DmaSem sig) (hS1 : sS1 = sendSem s1) (hR1 : sR1 = recvSem s1)
    (sS2 sR2 : DmaSem sig) (hS2 : sS2 = sendSem s2) (hR2 : sR2 = recvSem s2)
    (hland_s0 : ∀ fd : Buf (Elt F) ((dst0 c).view.loc (Dev.tc n0 : Thread nD τ)), (((dst0 c).view.loc (Dev.tc n0 : Thread nD τ)) ↦[(dst0 c).view.set]{fullShare} ((dst0 c).view.write (Elt F) fd ((src0 c).view.read (Elt F) (Gx m c)) Finset.univ) : sProp 𝕄) ⊢ recvPay m n0 s0)
    (hland_s1 : ∀ fd : Buf (Elt F) ((dst1 c).view.loc (Dev.tc n1 : Thread nD τ)), (((dst1 c).view.loc (Dev.tc n1 : Thread nD τ)) ↦[(dst1 c).view.set]{fullShare} ((dst1 c).view.write (Elt F) fd ((src1 c).view.read (Elt F) (Gx m c)) Finset.univ) : sProp 𝕄) ⊢ recvPay m n1 s1)
    (hland_s2 : ∀ fd : Buf (Elt F) ((dst2 c).view.loc (Dev.tc n2 : Thread nD τ)), (((dst2 c).view.loc (Dev.tc n2 : Thread nD τ)) ↦[(dst2 c).view.set]{fullShare} ((dst2 c).view.write (Elt F) fd ((src2 c).view.read (Elt F) (Gx m c)) Finset.univ) : sProp 𝕄) ⊢ recvPay m n2 s2)
    {hsc0 : ((dst0 c) : Memref sig (Dev.tc n0 : Thread nD τ).2.kind .vmem _ .f32).view.ref.isScScratch = false} {hsrc0 : (src0 c).view.WordExact} {hdst0 : (dst0 c).view.WordExact} {hsem0 : DmaTarget.Typed .vmem (.dma sR0) (.remote (Dev.tc n0 : Thread nD τ) (dst0 c) (.dma sS0) hsc0)}
    {hsc1 : ((dst1 c) : Memref sig (Dev.tc n1 : Thread nD τ).2.kind .vmem _ .f32).view.ref.isScScratch = false} {hsrc1 : (src1 c).view.WordExact} {hdst1 : (dst1 c).view.WordExact} {hsem1 : DmaTarget.Typed .vmem (.dma sR1) (.remote (Dev.tc n1 : Thread nD τ) (dst1 c) (.dma sS1) hsc1)}
    {hsc2 : ((dst2 c) : Memref sig (Dev.tc n2 : Thread nD τ).2.kind .vmem _ .f32).view.ref.isScScratch = false} {hsrc2 : (src2 c).view.WordExact} {hdst2 : (dst2 c).view.WordExact} {hsem2 : DmaTarget.Typed .vmem (.dma sR2) (.remote (Dev.tc n2 : Thread nD τ) (dst2 c) (.dma sS2) hsc2)} :
    iprop(records (pay m) K ∗ levAts L lv ∗ B0 m c ∗ owes (c : Thread nD τ) (owedL (pay m) c (s0 :: s1 :: s2 :: l)) W)
      ⊢ iprop(((B1 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (
            .op (.enqueueDma (src0 c) (.remote (Dev.tc n0 : Thread nD τ) (dst0 c) (.dma sS0) hsc0) (.dma sR0) hsrc0 hdst0 hsem0) fun _ =>
            .op (.enqueueDma (src1 c) (.remote (Dev.tc n1 : Thread nD τ) (dst1 c) (.dma sS1) hsc1) (.dma sR1) hsrc1 hdst1 hsem1) fun _ =>
            .op (.enqueueDma (src2 c) (.remote (Dev.tc n2 : Thread nD τ) (dst2 c) (.dma sS2) hsc2) (.dma sR2) hsrc2 hdst2 hsem2) k) Q) := by
  unfold B0 B1
  iintro ⟨#HR, #HL, ⟨⟨T0, T1, T2, Trest⟩, ⟨S0, S1, S2⟩, Hrest⟩, HO⟩ Hk
  ihave S0 := (Entails.of_eq (sendPay_s0 m c)) $$ S0
  iapply (step_enq m K c n0 s0 (by rw [ax_s0]; exact hn0) (src0 c) (dst0 c) rfl sS0 sR0 hS0 hR0 (Gx m c) (Entails.of_eq (sendPay_s0 m c).symm) hland_s0 (owedL (pay m) c (s1 :: s2 :: l)) W) $$ [T0 S0 HO]
  · isplitr; · iexact HR
    isplitl [T0]; · iexact T0
    isplitl [S0]; · iexact S0
    iexact HO
  iintro ⟨Fl0, HO⟩
  ihave S1 := (Entails.of_eq (sendPay_s1 m c)) $$ S1
  iapply (step_enq m K c n1 s1 (by rw [ax_s1]; exact hn1) (src1 c) (dst1 c) rfl sS1 sR1 hS1 hR1 (Gx m c) (Entails.of_eq (sendPay_s1 m c).symm) hland_s1 (owedL (pay m) c (s2 :: l)) W) $$ [T1 S1 HO]
  · isplitr; · iexact HR
    isplitl [T1]; · iexact T1
    isplitl [S1]; · iexact S1
    iexact HO
  iintro ⟨Fl1, HO⟩
  ihave S2 := (Entails.of_eq (sendPay_s2 m c)) $$ S2
  iapply (step_enq m K c n2 s2 (by rw [ax_s2]; exact hn2) (src2 c) (dst2 c) rfl sS2 sR2 hS2 hR2 (Gx m c) (Entails.of_eq (sendPay_s2 m c).symm) hland_s2 (owedL (pay m) c l) W) $$ [T2 S2 HO]
  · isplitr; · iexact HR
    isplitl [T2]; · iexact T2
    isplitl [S2]; · iexact S2
    iexact HO
  iintro ⟨Fl2, HO⟩
  iapply Hk
  isplitr [HO]
  · isplitr [Hrest]
    · iframe
    iexact Hrest
  iexists W; iexact HO
theorem seg_p1 {α : Type} {Q : α → sProp 𝕄} (k : PUnit → Prog (TpuEff nD τ sig (Elt F) Λ₀ .tc) α) (l : List (Fin 36)) (W : Waits sig Unit)
    (hl : ∀ s ∈ l, pos s2 < pos s)
    (n3 n4 : Dev nD) (hn3 : n3 = flip o1 c) (hn4 : n4 = flip o1 c)
    (sS0 sR0 : DmaSem sig) (hS0 : sS0 = sendSem s0) (hR0 : sR0 = recvSem s0)
    (sS1 sR1 : DmaSem sig) (hS1 : sS1 = sendSem s1) (hR1 : sR1 = recvSem s1)
    (sS2 sR2 : DmaSem sig) (hS2 : sS2 = sendSem s2) (hR2 : sR2 = recvSem s2)
    (sS3 sR3 : DmaSem sig) (hS3 : sS3 = sendSem s3) (hR3 : sR3 = recvSem s3)
    (sS4 sR4 : DmaSem sig) (hS4 : sS4 = sendSem s4) (hR4 : sR4 = recvSem s4)
    (w0 : Vec F S1x88x1024 .f32 → Vec F S88x1024 .f32 → FVec F S88x1024 .f32) (w1 : Vec F S1x88x1024 .f32 → Vec F S88x1024 .f32 → FVec F S88x1024 .f32) (w2 : Vec F S1x176x1024 .f32 → Vec F S176x1024 .f32 → FVec F S176x1024 .f32)
    (hw0 : ∀ (a : Vec F S1x88x1024 .f32) (b : Vec F S88x1024 .f32) (j : S88x1024.Idx), w0 a b j = FloatOps.addf (φ := .f32) (a (ix3 (0 : Fin 1) (j 0 : Fin (S88x1024.size 0)) (j 1 : Fin (S88x1024.size 1)))) (b j))
    (hw1 : ∀ (a : Vec F S1x88x1024 .f32) (b : Vec F S88x1024 .f32) (j : S88x1024.Idx), w1 a b j = FloatOps.addf (φ := .f32) (a (ix3 (0 : Fin 1) (j 0 : Fin (S88x1024.size 0)) (j 1 : Fin (S88x1024.size 1)))) (b j))
    (hw2 : ∀ (a : Vec F S1x176x1024 .f32) (b : Vec F S176x1024 .f32) (j : S176x1024.Idx), w2 a b j = FloatOps.addf (φ := .f32) (a (ix3 (0 : Fin 1) (j 0 : Fin (S176x1024.size 0)) (j 1 : Fin (S176x1024.size 1)))) (b j))
    (hland_s3 : ∀ fd : Buf (Elt F) ((dst3 c).view.loc (Dev.tc n3 : Thread nD τ)), (((dst3 c).view.loc (Dev.tc n3 : Thread nD τ)) ↦[(dst3 c).view.set]{fullShare} ((dst3 c).view.write (Elt F) fd ((src3 c).view.read (Elt F) (Ga1 m c)) Finset.univ) : sProp 𝕄) ⊢ recvPay m n3 s3)
    (hland_s4 : ∀ fd : Buf (Elt F) ((dst4 c).view.loc (Dev.tc n4 : Thread nD τ)), (((dst4 c).view.loc (Dev.tc n4 : Thread nD τ)) ↦[(dst4 c).view.set]{fullShare} ((dst4 c).view.write (Elt F) fd ((src4 c).view.read (Elt F) (Ga1 m c)) Finset.univ) : sProp 𝕄) ⊢ recvPay m n4 s4)
    {hwa0 : (dst0 c).view.WordExact} {hwb0 : (src0 c).view.WordExact} {hwc0 : (src0 c).view.WordExact} {hwd0 : (dst0 c).view.WordExact}
    {hwa1 : (dst1 c).view.WordExact} {hwb1 : (src1 c).view.WordExact} {hwc1 : (src1 c).view.WordExact} {hwd1 : (dst1 c).view.WordExact}
    {hwa2 : (dst2 c).view.WordExact} {hwb2 : (src2 c).view.WordExact} {hwc2 : (src2 c).view.WordExact} {hwd2 : (dst2 c).view.WordExact}
    {hlx0 : bIn.view.LoadsAt (u19 c).toLoadRect} {hlr0 : b1.view.LoadsAt (u20 c).toLoadRect} {hla0 : b0.view.LoadsAt (u20 c).toLoadRect} {hx0 : (b0.access (u20 c)).Stores Finset.univ} {hm0 : (Finset.univ : Finset (u20 c).shape.Idx) = Finset.univ ∨ ∀ a, (u20 c).stride a = 1}
    {hlx1 : bIn.view.LoadsAt (u22 c).toLoadRect} {hlr1 : b1.view.LoadsAt (u23 c).toLoadRect} {hla1 : b0.view.LoadsAt (u23 c).toLoadRect} {hx1 : (b0.access (u23 c)).Stores Finset.univ} {hm1 : (Finset.univ : Finset (u23 c).shape.Idx) = Finset.univ ∨ ∀ a, (u23 c).stride a = 1}
    {hlx2 : bIn.view.LoadsAt (u25 c).toLoadRect} {hlr2 : b1.view.LoadsAt (u26 c).toLoadRect} {hla2 : b0.view.LoadsAt (u26 c).toLoadRect} {hx2 : (b0.access (u26 c)).Stores Finset.univ} {hm2 : (Finset.univ : Finset (u26 c).shape.Idx) = Finset.univ ∨ ∀ a, (u26 c).stride a = 1}
    {hsc3 : ((dst3 c) : Memref sig (Dev.tc n3 : Thread nD τ).2.kind .vmem _ .f32).view.ref.isScScratch = false} {hsrc3 : (src3 c).view.WordExact} {hdst3 : (dst3 c).view.WordExact} {hsem3 : DmaTarget.Typed .vmem (.dma sR3) (.remote (Dev.tc n3 : Thread nD τ) (dst3 c) (.dma sS3) hsc3)}
    {hsc4 : ((dst4 c) : Memref sig (Dev.tc n4 : Thread nD τ).2.kind .vmem _ .f32).view.ref.isScScratch = false} {hsrc4 : (src4 c).view.WordExact} {hdst4 : (dst4 c).view.WordExact} {hsem4 : DmaTarget.Typed .vmem (.dma sR4) (.remote (Dev.tc n4 : Thread nD τ) (dst4 c) (.dma sS4) hsc4)} :
    iprop(records (pay m) K ∗ levAts L lv ∗ B1 m c ∗ owes (c : Thread nD τ) (owedL (pay m) c (s3 :: s4 :: l)) W)
      ⊢ iprop(((B2 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (
            .op (.waitDma2 sS0 (dst0 c) (src0 c) hwa0 hwb0) fun _ =>
            .op (.waitDma2 sR0 (src0 c) (dst0 c) hwc0 hwd0) fun _ =>
            .op (.load bIn (u19 c).toLoadRect hlx0) fun vx0 =>
            .op (.load b1 (u20 c).toLoadRect hlr0) fun vr0 =>
            .op (.load b0 (u20 c).toLoadRect hla0) fun va0 =>
            .op (.store b0 (u20 c) (w0 vx0 vr0) Finset.univ hx0 hm0) fun _ =>
            .op (.enqueueDma (src3 c) (.remote (Dev.tc n3 : Thread nD τ) (dst3 c) (.dma sS3) hsc3) (.dma sR3) hsrc3 hdst3 hsem3) fun _ =>
            .op (.waitDma2 sS1 (dst1 c) (src1 c) hwa1 hwb1) fun _ =>
            .op (.waitDma2 sR1 (src1 c) (dst1 c) hwc1 hwd1) fun _ =>
            .op (.load bIn (u22 c).toLoadRect hlx1) fun vx1 =>
            .op (.load b1 (u23 c).toLoadRect hlr1) fun vr1 =>
            .op (.load b0 (u23 c).toLoadRect hla1) fun va1 =>
            .op (.store b0 (u23 c) (w1 vx1 vr1) Finset.univ hx1 hm1) fun _ =>
            .op (.enqueueDma (src4 c) (.remote (Dev.tc n4 : Thread nD τ) (dst4 c) (.dma sS4) hsc4) (.dma sR4) hsrc4 hdst4 hsem4) fun _ =>
            .op (.waitDma2 sS2 (dst2 c) (src2 c) hwa2 hwb2) fun _ =>
            .op (.waitDma2 sR2 (src2 c) (dst2 c) hwc2 hwd2) fun _ =>
            .op (.load bIn (u25 c).toLoadRect hlx2) fun vx2 =>
            .op (.load b1 (u26 c).toLoadRect hlr2) fun vr2 =>
            .op (.load b0 (u26 c).toLoadRect hla2) fun va2 =>
            .op (.store b0 (u26 c) (w2 vx2 vr2) Finset.univ hx2 hm2) k) Q) := by
  have hl0 : ∀ s ∈ s3 :: s4 :: l, 2 + pos s0 < 2 + pos s := by
    intro s hs
    rcases List.mem_cons.mp hs with rfl | hs
    · exact Nat.add_lt_add_left pos_s0_s3 2
    rcases List.mem_cons.mp hs with rfl | hs
    · exact Nat.add_lt_add_left pos_s0_s4 2
    · exact Nat.add_lt_add_left (pos_s0_s2.trans (hl s hs)) 2
  have hl1 : ∀ s ∈ s4 :: l, 2 + pos s1 < 2 + pos s := by
    intro s hs
    rcases List.mem_cons.mp hs with rfl | hs
    · exact Nat.add_lt_add_left pos_s1_s4 2
    · exact Nat.add_lt_add_left (pos_s1_s2.trans (hl s hs)) 2
  have hl2 : ∀ s ∈ l, 2 + pos s2 < 2 + pos s := fun s hs => Nat.add_lt_add_left (hl s hs) 2
  unfold B1 B2 xl xl19 xl22 xl25 a20 a23 a26 pt
  simp only [held, heldQ_def]
  iintro ⟨#HR, #HL, ⟨⟨Fl0, Fl1, Fl2, T3, T4, Trest⟩, ⟨X0, X1, X2⟩, ⟨A0, A1, A2⟩, Ho⟩, HO⟩ Hk
  iapply (step_waits m K c s0 sS0 sR0 hS0 hR0 (dst0 c) (src0 c) (src0 c) (dst0 c) rfl (dstAny_credit c s0) (owedL (pay m) c (s3 :: s4 :: l)) W
      (mayWait_owedL (pay m) c (.dma sS0) (s3 :: s4 :: l) (2 + pos s0) (by subst hS0; rw [lv_send]; exact Nat.zero_le _) hl0)
      (mayWait_owedL (pay m) c (.dma sR0) (s3 :: s4 :: l) (2 + pos s0) (by subst hR0; exact (lv_recv c s0).le) hl0)) $$ [Fl0 HO]
  · iframe # ∗
  iintro ⟨D0, ⟨%W0, HO⟩⟩
  unfold slotDone
  icases D0 with ⟨SP0, RP0, Ata0, Atb0⟩
  ihave RP0 := (Entails.of_eq (recvPay_s0 m c)) $$ RP0
  icases A0 with ⟨%fa0, A0⟩
  iapply (wp_load_rect Variants.none (c : Thread nD τ) none Set.univ (m := bIn) (r := (u19 c)) (Finset.Subset.refl _)) $$ X0; iintro X0
  iapply (wp_load_rect Variants.none (c : Thread nD τ) none Set.univ (m := b1) (r := (u20 c)) (Finset.Subset.refl _)) $$ RP0; iintro RP0
  iapply (wp_load_rect Variants.none (c : Thread nD τ) none Set.univ (m := b0) (r := (u20 c)) (Finset.Subset.refl _)) $$ A0; iintro A0
  iapply (wp_store Variants.none (c : Thread nD τ) none Set.univ (m := b0) (r := (u20 c)) (Mk := Finset.univ) (S := (b0.access (u20 c)).set) (Finset.Subset.refl _)) $$ A0; iintro A0
  ihave RP0 := (Entails.of_eq (recvPay_s0 m c).symm) $$ RP0
  ihave A0 := (store0 m c w0 hw0 fa0) $$ A0
  iapply (step_enq m K c n3 s3 (by rw [ax_s3]; exact hn3) (src3 c) (dst3 c) rfl sS3 sR3 hS3 hR3 (Ga1 m c) (Entails.of_eq (sendPay_s3 m c).symm) hland_s3 (owedL (pay m) c (s4 :: l)) W0) $$ [T3 A0 HO]
  · isplitr; · iexact HR
    isplitl [T3]; · iexact T3
    isplitl [A0]; · iexact A0
    iexact HO
  iintro ⟨Fl3, HO⟩
  iapply (step_waits m K c s1 sS1 sR1 hS1 hR1 (dst1 c) (src1 c) (src1 c) (dst1 c) rfl (dstAny_credit c s1) (owedL (pay m) c (s4 :: l)) W0
      (mayWait_owedL (pay m) c (.dma sS1) (s4 :: l) (2 + pos s1) (by subst hS1; rw [lv_send]; exact Nat.zero_le _) hl1)
      (mayWait_owedL (pay m) c (.dma sR1) (s4 :: l) (2 + pos s1) (by subst hR1; exact (lv_recv c s1).le) hl1)) $$ [Fl1 HO]
  · iframe # ∗
  iintro ⟨D1, ⟨%W1, HO⟩⟩
  unfold slotDone
  icases D1 with ⟨SP1, RP1, Ata1, Atb1⟩
  ihave RP1 := (Entails.of_eq (recvPay_s1 m c)) $$ RP1
  icases A1 with ⟨%fa1, A1⟩
  iapply (wp_load_rect Variants.none (c : Thread nD τ) none Set.univ (m := bIn) (r := (u22 c)) (Finset.Subset.refl _)) $$ X1; iintro X1
  iapply (wp_load_rect Variants.none (c : Thread nD τ) none Set.univ (m := b1) (r := (u23 c)) (Finset.Subset.refl _)) $$ RP1; iintro RP1
  iapply (wp_load_rect Variants.none (c : Thread nD τ) none Set.univ (m := b0) (r := (u23 c)) (Finset.Subset.refl _)) $$ A1; iintro A1
  iapply (wp_store Variants.none (c : Thread nD τ) none Set.univ (m := b0) (r := (u23 c)) (Mk := Finset.univ) (S := (b0.access (u23 c)).set) (Finset.Subset.refl _)) $$ A1; iintro A1
  ihave RP1 := (Entails.of_eq (recvPay_s1 m c).symm) $$ RP1
  ihave A1 := (store1 m c w1 hw1 fa1) $$ A1
  iapply (step_enq m K c n4 s4 (by rw [ax_s4]; exact hn4) (src4 c) (dst4 c) rfl sS4 sR4 hS4 hR4 (Ga1 m c) (Entails.of_eq (sendPay_s4 m c).symm) hland_s4 (owedL (pay m) c l) W1) $$ [T4 A1 HO]
  · isplitr; · iexact HR
    isplitl [T4]; · iexact T4
    isplitl [A1]; · iexact A1
    iexact HO
  iintro ⟨Fl4, HO⟩
  iapply (step_waits m K c s2 sS2 sR2 hS2 hR2 (dst2 c) (src2 c) (src2 c) (dst2 c) rfl (dstAny_credit c s2) (owedL (pay m) c l) W1
      (mayWait_owedL (pay m) c (.dma sS2) l (2 + pos s2) (by subst hS2; rw [lv_send]; exact Nat.zero_le _) hl2)
      (mayWait_owedL (pay m) c (.dma sR2) l (2 + pos s2) (by subst hR2; exact (lv_recv c s2).le) hl2)) $$ [Fl2 HO]
  · iframe # ∗
  iintro ⟨D2, ⟨%W2, HO⟩⟩
  unfold slotDone
  icases D2 with ⟨SP2, RP2, Ata2, Atb2⟩
  ihave RP2 := (Entails.of_eq (recvPay_s2 m c)) $$ RP2
  icases A2 with ⟨%fa2, A2⟩
  iapply (wp_load_rect Variants.none (c : Thread nD τ) none Set.univ (m := bIn) (r := (u25 c)) (Finset.Subset.refl _)) $$ X2; iintro X2
  iapply (wp_load_rect Variants.none (c : Thread nD τ) none Set.univ (m := b1) (r := (u26 c)) (Finset.Subset.refl _)) $$ RP2; iintro RP2
  iapply (wp_load_rect Variants.none (c : Thread nD τ) none Set.univ (m := b0) (r := (u26 c)) (Finset.Subset.refl _)) $$ A2; iintro A2
  iapply (wp_store Variants.none (c : Thread nD τ) none Set.univ (m := b0) (r := (u26 c)) (Mk := Finset.univ) (S := (b0.access (u26 c)).set) (Finset.Subset.refl _)) $$ A2; iintro A2
  ihave RP2 := (Entails.of_eq (recvPay_s2 m c).symm) $$ RP2
  ihave A2 := (store2 m c w2 hw2 fa2) $$ A2
  iapply Hk
  isplitr [HO]
  · isplitr [X0 X1 X2 A2 Ho]
    ·
      isplitl [SP0 RP0 Ata0 Atb0]
      · iframe
      isplitl [SP1 RP1 Ata1 Atb1]
      · iframe
      isplitl [SP2 RP2 Ata2 Atb2]
      · iframe
      iframe
    · isplitl [X0 X1 X2]
      · iframe
      iframe
  · iexists W2; iexact HO
end P0
end Cert.KernelIdeal.TR
end
-- ==== Proof.Seg1B.lean ====
import proofs.«901104_g7700000000001105_dist_treered_v7x_i8_m2048_n1024_f32_1_alg».proof.Proof.Res1
import proofs.«901104_g7700000000001105_dist_treered_v7x_i8_m2048_n1024_f32_1_alg».proof.Proof.Steps
import proofs.«901104_g7700000000001105_dist_treered_v7x_i8_m2048_n1024_f32_1_alg».proof.Proof.LibRows
set_option Elab.async false
noncomputable section
namespace Cert.KernelIdeal.TR
open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P1
theorem off1_flip (c : Dev nD) : k0_off7 (flip o0 c) = k0_off28 c := by revert c; decide +kernel
theorem off3_flip (c : Dev nD) : k0_off9 (flip o0 c) = k0_off31 c := by revert c; decide +kernel
theorem off5_flip (c : Dev nD) : k0_off11 (flip o0 c) = k0_off34 c := by revert c; decide +kernel
theorem off1_eq (c : Dev nD) : k0_off7 c = k0_off28 c := by revert c; decide +kernel
theorem off3_eq (c : Dev nD) : k0_off9 c = k0_off31 c := by revert c; decide +kernel
theorem ax_s0 : ax s0 = o0 := by decide
theorem ax_s1 : ax s1 = o0 := by decide
theorem ax_s2 : ax s2 = o0 := by decide
theorem ax_s3 : ax s3 = o1 := by decide
theorem ax_s4 : ax s4 = o1 := by decide
theorem pos_s0_s3 : pos s0 < pos s3 := by decide
theorem pos_s0_s4 : pos s0 < pos s4 := by decide
theorem pos_s1_s4 : pos s1 < pos s4 := by decide
theorem pos_s0_s2 : pos s0 < pos s2 := by decide
theorem pos_s1_s2 : pos s1 < pos s2 := by decide
theorem set_slice_congr {sp : Space} {S : Shape} {e : EltTy} (M : Memref sig .tc sp S e) (sz : Fin S.rank → ℕ)
    {o o' : Fin S.rank → ℕ} (h : o = o') (i : ∀ a, o a + sz a ≤ S.size a) (i' : ∀ a, o' a + sz a ≤ S.size a) :
    (M.access (Rect.unit (s := S) o sz i)).set = (M.access (Rect.unit (s := S) o' sz i')).set := by
  subst h; rfl
variable (m : (ℓ : Loc nD τ sig) → Buf (Elt F) ℓ)
variable (K : Dev nD × Fin 73 → ℕ) (c : Dev nD)
theorem sendPay_s0 : sendPay m c s0 = ((src12 c).view.loc (c : Thread nD τ) ↦[(src12 c).view.set]{shareOf s0} (Gx m c) : sProp 𝕄) := rfl
theorem sendPay_s1 : sendPay m c s1 = ((src13 c).view.loc (c : Thread nD τ) ↦[(src13 c).view.set]{shareOf s1} (Gx m c) : sProp 𝕄) := rfl
theorem sendPay_s2 : sendPay m c s2 = ((src14 c).view.loc (c : Thread nD τ) ↦[(src14 c).view.set]{shareOf s2} (Gx m c) : sProp 𝕄) := rfl
theorem sendPay_s3 : sendPay m c s3 = ((src15 c).view.loc (c : Thread nD τ) ↦[(src15 c).view.set]{shareOf s3} (Ga1 m c) : sProp 𝕄) := rfl
theorem sendPay_s4 : sendPay m c s4 = ((src16 c).view.loc (c : Thread nD τ) ↦[(src16 c).view.set]{shareOf s4} (Ga1 m c) : sProp 𝕄) := rfl
theorem recvPay_s0 : recvPay m c s0 = (((c : Thread nD τ).loc cc0_scratch5) ↦[(b5.access (u28 c)).set]{fullShare} (Gr0 m c) : sProp 𝕄) := by
  show (((c : Thread nD τ).loc cc0_scratch5) ↦[(b5.access (u7 (flip o0 c))).set]{fullShare} (Gr0 m c) : sProp 𝕄) = _
  rw [set_slice_congr b5 S88x1024.size (off1_flip c) (k0_off7_inb (flip o0 c)) (k0_off28_inb c)]
theorem recvPay_s1 : recvPay m c s1 = (((c : Thread nD τ).loc cc0_scratch5) ↦[(b5.access (u31 c)).set]{fullShare} (Gr0 m c) : sProp 𝕄) := by
  show (((c : Thread nD τ).loc cc0_scratch5) ↦[(b5.access (u9 (flip o0 c))).set]{fullShare} (Gr0 m c) : sProp 𝕄) = _
  rw [set_slice_congr b5 S88x1024.size (off3_flip c) (k0_off9_inb (flip o0 c)) (k0_off31_inb c)]
theorem recvPay_s2 : recvPay m c s2 = (((c : Thread nD τ).loc cc0_scratch5) ↦[(b5.access (u34 c)).set]{fullShare} (Gr0 m c) : sProp 𝕄) := by
  show (((c : Thread nD τ).loc cc0_scratch5) ↦[(b5.access (u11 (flip o0 c))).set]{fullShare} (Gr0 m c) : sProp 𝕄) = _
  rw [set_slice_congr b5 S176x1024.size (off5_flip c) (k0_off11_inb (flip o0 c)) (k0_off34_inb c)]
theorem offs0 (c : Dev nD) : (k0_off27 c) 1 = glob0 c + (k0_off28 c) 0 ∧ (k0_off27 c) 2 = 0 ∧ (k0_off28 c) 1 = 0 ∧ glob0 c + S352x1024.size 0 ≤ 2048 := by
  revert c; decide +kernel
theorem sum0 (w : Vec F S1x88x1024 .f32 → Vec F S88x1024 .f32 → FVec F S88x1024 .f32)
    (hw : ∀ (a : Vec F S1x88x1024 .f32) (b : Vec F S88x1024 .f32) (j : S88x1024.Idx), w a b j = FloatOps.addf (φ := .f32) (a (ix3 (0 : Fin 1) (j 0 : Fin (S88x1024.size 0)) (j 1 : Fin (S88x1024.size 1)))) (b j))
    (fa : Buf (Elt F) ((c : Thread nD τ).loc cc0_scratch4)) :
    ∀ i ∈ (b4.access (u28 c)).set,
      (b4.access (u28 c)).write (Elt F) fa
          (w ((bIn.access (u27 c)).read (Elt F) (Gx m c)) ((b5.access (u28 c)).read (Elt F) (Gr0 m c))) Finset.univ i
        = Ga1 m c i := by
  intro i hi
  have hi' : i ∈ (u28 c).set := (View.set_slice_whole cc0_scratch4 _) ▸ hi
  obtain ⟨h1, h2, h3, hg⟩ := offs0 c
  have hm := Rect.mem_set_unit.mp hi'
  rw [write_access_apply_of_mem (Elt F) cc0_scratch4 (k0_off28_inb c) fa _ hi', hw]
  have hr : (b5.access (u28 c)).read (Elt F) (Gr0 m c) (localIdx i hi') = Gr0 m c i := by
    show Gr0 m c ((u28 c).emb (localIdx i hi')) = _
    rw [emb_localIdx]
  have hx : (bIn.access (u27 c)).read (Elt F) (Gx m c) (ix3 (0 : Fin 1) (localIdx i hi' 0 : Fin (S88x1024.size 0)) (localIdx i hi' 1 : Fin (S88x1024.size 1)))
      = xs m c (clamp (glob0 c + (i 0).val)) (i 1 : Fin 1024) := by
    show Gx m c ((u27 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off27 c) 1 + 1 * ((i 0).val - (k0_off28 c) 0) = glob0 c + (i 0).val
      omega
    · apply Fin.ext
      show (k0_off27 c) 2 + 1 * ((i 1).val - (k0_off28 c) 1) = (i 1).val
      omega
  rw [hr, hx]
  rfl
theorem offs1 (c : Dev nD) : (k0_off30 c) 1 = glob0 c + (k0_off31 c) 0 ∧ (k0_off30 c) 2 = 0 ∧ (k0_off31 c) 1 = 0 ∧ glob0 c + S352x1024.size 0 ≤ 2048 := by
  revert c; decide +kernel
theorem sum1 (w : Vec F S1x88x1024 .f32 → Vec F S88x1024 .f32 → FVec F S88x1024 .f32)
    (hw : ∀ (a : Vec F S1x88x1024 .f32) (b : Vec F S88x1024 .f32) (j : S88x1024.Idx), w a b j = FloatOps.addf (φ := .f32) (a (ix3 (0 : Fin 1) (j 0 : Fin (S88x1024.size 0)) (j 1 : Fin (S88x1024.size 1)))) (b j))
    (fa : Buf (Elt F) ((c : Thread nD τ).loc cc0_scratch4)) :
    ∀ i ∈ (b4.access (u31 c)).set,
      (b4.access (u31 c)).write (Elt F) fa
          (w ((bIn.access (u30 c)).read (Elt F) (Gx m c)) ((b5.access (u31 c)).read (Elt F) (Gr0 m c))) Finset.univ i
        = Ga1 m c i := by
  intro i hi
  have hi' : i ∈ (u31 c).set := (View.set_slice_whole cc0_scratch4 _) ▸ hi
  obtain ⟨h1, h2, h3, hg⟩ := offs1 c
  have hm := Rect.mem_set_unit.mp hi'
  rw [write_access_apply_of_mem (Elt F) cc0_scratch4 (k0_off31_inb c) fa _ hi', hw]
  have hr : (b5.access (u31 c)).read (Elt F) (Gr0 m c) (localIdx i hi') = Gr0 m c i := by
    show Gr0 m c ((u31 c).emb (localIdx i hi')) = _
    rw [emb_localIdx]
  have hx : (bIn.access (u30 c)).read (Elt F) (Gx m c) (ix3 (0 : Fin 1) (localIdx i hi' 0 : Fin (S88x1024.size 0)) (localIdx i hi' 1 : Fin (S88x1024.size 1)))
      = xs m c (clamp (glob0 c + (i 0).val)) (i 1 : Fin 1024) := by
    show Gx m c ((u30 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off30 c) 1 + 1 * ((i 0).val - (k0_off31 c) 0) = glob0 c + (i 0).val
      omega
    · apply Fin.ext
      show (k0_off30 c) 2 + 1 * ((i 1).val - (k0_off31 c) 1) = (i 1).val
      omega
  rw [hr, hx]
  rfl
theorem offs2 (c : Dev nD) : (k0_off33 c) 1 = glob0 c + (k0_off34 c) 0 ∧ (k0_off33 c) 2 = 0 ∧ (k0_off34 c) 1 = 0 ∧ glob0 c + S352x1024.size 0 ≤ 2048 := by
  revert c; decide +kernel
theorem sum2 (w : Vec F S1x176x1024 .f32 → Vec F S176x1024 .f32 → FVec F S176x1024 .f32)
    (hw : ∀ (a : Vec F S1x176x1024 .f32) (b : Vec F S176x1024 .f32) (j : S176x1024.Idx), w a b j = FloatOps.addf (φ := .f32) (a (ix3 (0 : Fin 1) (j 0 : Fin (S176x1024.size 0)) (j 1 : Fin (S176x1024.size 1)))) (b j))
    (fa : Buf (Elt F) ((c : Thread nD τ).loc cc0_scratch4)) :
    ∀ i ∈ (b4.access (u34 c)).set,
      (b4.access (u34 c)).write (Elt F) fa
          (w ((bIn.access (u33 c)).read (Elt F) (Gx m c)) ((b5.access (u34 c)).read (Elt F) (Gr0 m c))) Finset.univ i
        = Ga1 m c i := by
  intro i hi
  have hi' : i ∈ (u34 c).set := (View.set_slice_whole cc0_scratch4 _) ▸ hi
  obtain ⟨h1, h2, h3, hg⟩ := offs2 c
  have hm := Rect.mem_set_unit.mp hi'
  rw [write_access_apply_of_mem (Elt F) cc0_scratch4 (k0_off34_inb c) fa _ hi', hw]
  have hr : (b5.access (u34 c)).read (Elt F) (Gr0 m c) (localIdx i hi') = Gr0 m c i := by
    show Gr0 m c ((u34 c).emb (localIdx i hi')) = _
    rw [emb_localIdx]
  have hx : (bIn.access (u33 c)).read (Elt F) (Gx m c) (ix3 (0 : Fin 1) (localIdx i hi' 0 : Fin (S176x1024.size 0)) (localIdx i hi' 1 : Fin (S176x1024.size 1)))
      = xs m c (clamp (glob0 c + (i 0).val)) (i 1 : Fin 1024) := by
    show Gx m c ((u33 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off33 c) 1 + 1 * ((i 0).val - (k0_off34 c) 0) = glob0 c + (i 0).val
      omega
    · apply Fin.ext
      show (k0_off33 c) 2 + 1 * ((i 1).val - (k0_off34 c) 1) = (i 1).val
      omega
  rw [hr, hx]
  rfl
theorem store0 (w : Vec F S1x88x1024 .f32 → Vec F S88x1024 .f32 → FVec F S88x1024 .f32)
    (hw : ∀ (a : Vec F S1x88x1024 .f32) (b : Vec F S88x1024 .f32) (j : S88x1024.Idx), w a b j = FloatOps.addf (φ := .f32) (a (ix3 (0 : Fin 1) (j 0 : Fin (S88x1024.size 0)) (j 1 : Fin (S88x1024.size 1)))) (b j))
    (fa : Buf (Elt F) ((c : Thread nD τ).loc cc0_scratch4)) :
    (((c : Thread nD τ).loc cc0_scratch4) ↦[(b4.access (u28 c)).set]{fullShare}
        ((b4.access (u28 c)).write (Elt F) fa
          (w ((bIn.access (u27 c)).read (Elt F) (Gx m c)) ((b5.access (u28 c)).read (Elt F) (Gr0 m c))) Finset.univ) : sProp 𝕄)
      ⊢ ((src15 c).view.loc (c : Thread nD τ) ↦[(src15 c).view.set]{shareOf s3} (Ga1 m c) : sProp 𝕄) :=
  (Entails.of_eq (pointsTo_congr (q := fullShare) (sum0 m c w hw fa))).trans (Entails.of_eq (congrArg (fun I => (((c : Thread nD τ).loc cc0_scratch4) ↦[I]{fullShare} (Ga1 m c) : sProp 𝕄)) (set_slice_congr b4 S88x1024.size (off1_eq c).symm (k0_off28_inb c) (k0_off7_inb c))))
theorem store1 (w : Vec F S1x88x1024 .f32 → Vec F S88x1024 .f32 → FVec F S88x1024 .f32)
    (hw : ∀ (a : Vec F S1x88x1024 .f32) (b : Vec F S88x1024 .f32) (j : S88x1024.Idx), w a b j = FloatOps.addf (φ := .f32) (a (ix3 (0 : Fin 1) (j 0 : Fin (S88x1024.size 0)) (j 1 : Fin (S88x1024.size 1)))) (b j))
    (fa : Buf (Elt F) ((c : Thread nD τ).loc cc0_scratch4)) :
    (((c : Thread nD τ).loc cc0_scratch4) ↦[(b4.access (u31 c)).set]{fullShare}
        ((b4.access (u31 c)).write (Elt F) fa
          (w ((bIn.access (u30 c)).read (Elt F) (Gx m c)) ((b5.access (u31 c)).read (Elt F) (Gr0 m c))) Finset.univ) : sProp 𝕄)
      ⊢ ((src16 c).view.loc (c : Thread nD τ) ↦[(src16 c).view.set]{shareOf s4} (Ga1 m c) : sProp 𝕄) :=
  (Entails.of_eq (pointsTo_congr (q := fullShare) (sum1 m c w hw fa))).trans (Entails.of_eq (congrArg (fun I => (((c : Thread nD τ).loc cc0_scratch4) ↦[I]{fullShare} (Ga1 m c) : sProp 𝕄)) (set_slice_congr b4 S88x1024.size (off3_eq c).symm (k0_off31_inb c) (k0_off9_inb c))))
theorem store2 (w : Vec F S1x176x1024 .f32 → Vec F S176x1024 .f32 → FVec F S176x1024 .f32)
    (hw : ∀ (a : Vec F S1x176x1024 .f32) (b : Vec F S176x1024 .f32) (j : S176x1024.Idx), w a b j = FloatOps.addf (φ := .f32) (a (ix3 (0 : Fin 1) (j 0 : Fin (S176x1024.size 0)) (j 1 : Fin (S176x1024.size 1)))) (b j))
    (fa : Buf (Elt F) ((c : Thread nD τ).loc cc0_scratch4)) :
    (((c : Thread nD τ).loc cc0_scratch4) ↦[(b4.access (u34 c)).set]{fullShare}
        ((b4.access (u34 c)).write (Elt F) fa
          (w ((bIn.access (u33 c)).read (Elt F) (Gx m c)) ((b5.access (u34 c)).read (Elt F) (Gr0 m c))) Finset.univ) : sProp 𝕄)
      ⊢ a26s m c :=
  (Entails.of_eq (pointsTo_congr (q := fullShare) (sum2 m c w hw fa))).trans (Entails.of_eq rfl)
theorem seg_p0 {α : Type} {Q : α → sProp 𝕄} (k : PUnit → Prog (TpuEff nD τ sig (Elt F) Λ₀ .tc) α) (l : List (Fin 36)) (W : Waits sig Unit)
    (n0 n1 n2 : Dev nD) (hn0 : n0 = flip o0 c) (hn1 : n1 = flip o0 c) (hn2 : n2 = flip o0 c)
    (sS0 sR0 : DmaSem sig) (hS0 : sS0 = sendSem s0) (hR0 : sR0 = recvSem s0)
    (sS1 sR1 : DmaSem sig) (hS1 : sS1 = sendSem s1) (hR1 : sR1 = recvSem s1)
    (sS2 sR2 : DmaSem sig) (hS2 : sS2 = sendSem s2) (hR2 : sR2 = recvSem s2)
    (hland_s0 : ∀ fd : Buf (Elt F) ((dst12 c).view.loc (Dev.tc n0 : Thread nD τ)), (((dst12 c).view.loc (Dev.tc n0 : Thread nD τ)) ↦[(dst12 c).view.set]{fullShare} ((dst12 c).view.write (Elt F) fd ((src12 c).view.read (Elt F) (Gx m c)) Finset.univ) : sProp 𝕄) ⊢ recvPay m n0 s0)
    (hland_s1 : ∀ fd : Buf (Elt F) ((dst13 c).view.loc (Dev.tc n1 : Thread nD τ)), (((dst13 c).view.loc (Dev.tc n1 : Thread nD τ)) ↦[(dst13 c).view.set]{fullShare} ((dst13 c).view.write (Elt F) fd ((src13 c).view.read (Elt F) (Gx m c)) Finset.univ) : sProp 𝕄) ⊢ recvPay m n1 s1)
    (hland_s2 : ∀ fd : Buf (Elt F) ((dst14 c).view.loc (Dev.tc n2 : Thread nD τ)), (((dst14 c).view.loc (Dev.tc n2 : Thread nD τ)) ↦[(dst14 c).view.set]{fullShare} ((dst14 c).view.write (Elt F) fd ((src14 c).view.read (Elt F) (Gx m c)) Finset.univ) : sProp 𝕄) ⊢ recvPay m n2 s2)
    {hsc0 : ((dst12 c) : Memref sig (Dev.tc n0 : Thread nD τ).2.kind .vmem _ .f32).view.ref.isScScratch = false} {hsrc0 : (src12 c).view.WordExact} {hdst0 : (dst12 c).view.WordExact} {hsem0 : DmaTarget.Typed .vmem (.dma sR0) (.remote (Dev.tc n0 : Thread nD τ) (dst12 c) (.dma sS0) hsc0)}
    {hsc1 : ((dst13 c) : Memref sig (Dev.tc n1 : Thread nD τ).2.kind .vmem _ .f32).view.ref.isScScratch = false} {hsrc1 : (src13 c).view.WordExact} {hdst1 : (dst13 c).view.WordExact} {hsem1 : DmaTarget.Typed .vmem (.dma sR1) (.remote (Dev.tc n1 : Thread nD τ) (dst13 c) (.dma sS1) hsc1)}
    {hsc2 : ((dst14 c) : Memref sig (Dev.tc n2 : Thread nD τ).2.kind .vmem _ .f32).view.ref.isScScratch = false} {hsrc2 : (src14 c).view.WordExact} {hdst2 : (dst14 c).view.WordExact} {hsem2 : DmaTarget.Typed .vmem (.dma sR2) (.remote (Dev.tc n2 : Thread nD τ) (dst14 c) (.dma sS2) hsc2)} :
    iprop(records (pay m) K ∗ levAts L lv ∗ B0 m c ∗ owes (c : Thread nD τ) (owedL (pay m) c (s0 :: s1 :: s2 :: l)) W)
      ⊢ iprop(((B1 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (
            .op (.enqueueDma (src12 c) (.remote (Dev.tc n0 : Thread nD τ) (dst12 c) (.dma sS0) hsc0) (.dma sR0) hsrc0 hdst0 hsem0) fun _ =>
            .op (.enqueueDma (src13 c) (.remote (Dev.tc n1 : Thread nD τ) (dst13 c) (.dma sS1) hsc1) (.dma sR1) hsrc1 hdst1 hsem1) fun _ =>
            .op (.enqueueDma (src14 c) (.remote (Dev.tc n2 : Thread nD τ) (dst14 c) (.dma sS2) hsc2) (.dma sR2) hsrc2 hdst2 hsem2) k) Q) := by
  unfold B0 B1
  iintro ⟨#HR, #HL, ⟨⟨T0, T1, T2, Trest⟩, ⟨S0, S1, S2⟩, Hrest⟩, HO⟩ Hk
  ihave S0 := (Entails.of_eq (sendPay_s0 m c)) $$ S0
  iapply (step_enq m K c n0 s0 (by rw [ax_s0]; exact hn0) (src12 c) (dst12 c) rfl sS0 sR0 hS0 hR0 (Gx m c) (Entails.of_eq (sendPay_s0 m c).symm) hland_s0 (owedL (pay m) c (s1 :: s2 :: l)) W) $$ [T0 S0 HO]
  · isplitr; · iexact HR
    isplitl [T0]; · iexact T0
    isplitl [S0]; · iexact S0
    iexact HO
  iintro ⟨Fl0, HO⟩
  ihave S1 := (Entails.of_eq (sendPay_s1 m c)) $$ S1
  iapply (step_enq m K c n1 s1 (by rw [ax_s1]; exact hn1) (src13 c) (dst13 c) rfl sS1 sR1 hS1 hR1 (Gx m c) (Entails.of_eq (sendPay_s1 m c).symm) hland_s1 (owedL (pay m) c (s2 :: l)) W) $$ [T1 S1 HO]
  · isplitr; · iexact HR
    isplitl [T1]; · iexact T1
    isplitl [S1]; · iexact S1
    iexact HO
  iintro ⟨Fl1, HO⟩
  ihave S2 := (Entails.of_eq (sendPay_s2 m c)) $$ S2
  iapply (step_enq m K c n2 s2 (by rw [ax_s2]; exact hn2) (src14 c) (dst14 c) rfl sS2 sR2 hS2 hR2 (Gx m c) (Entails.of_eq (sendPay_s2 m c).symm) hland_s2 (owedL (pay m) c l) W) $$ [T2 S2 HO]
  · isplitr; · iexact HR
    isplitl [T2]; · iexact T2
    isplitl [S2]; · iexact S2
    iexact HO
  iintro ⟨Fl2, HO⟩
  iapply Hk
  isplitr [HO]
  · isplitr [Hrest]
    · iframe
    iexact Hrest
  iexists W; iexact HO
theorem seg_p1 {α : Type} {Q : α → sProp 𝕄} (k : PUnit → Prog (TpuEff nD τ sig (Elt F) Λ₀ .tc) α) (l : List (Fin 36)) (W : Waits sig Unit)
    (hl : ∀ s ∈ l, pos s2 < pos s)
    (n3 n4 : Dev nD) (hn3 : n3 = flip o1 c) (hn4 : n4 = flip o1 c)
    (sS0 sR0 : DmaSem sig) (hS0 : sS0 = sendSem s0) (hR0 : sR0 = recvSem s0)
    (sS1 sR1 : DmaSem sig) (hS1 : sS1 = sendSem s1) (hR1 : sR1 = recvSem s1)
    (sS2 sR2 : DmaSem sig) (hS2 : sS2 = sendSem s2) (hR2 : sR2 = recvSem s2)
    (sS3 sR3 : DmaSem sig) (hS3 : sS3 = sendSem s3) (hR3 : sR3 = recvSem s3)
    (sS4 sR4 : DmaSem sig) (hS4 : sS4 = sendSem s4) (hR4 : sR4 = recvSem s4)
    (w0 : Vec F S1x88x1024 .f32 → Vec F S88x1024 .f32 → FVec F S88x1024 .f32) (w1 : Vec F S1x88x1024 .f32 → Vec F S88x1024 .f32 → FVec F S88x1024 .f32) (w2 : Vec F S1x176x1024 .f32 → Vec F S176x1024 .f32 → FVec F S176x1024 .f32)
    (hw0 : ∀ (a : Vec F S1x88x1024 .f32) (b : Vec F S88x1024 .f32) (j : S88x1024.Idx), w0 a b j = FloatOps.addf (φ := .f32) (a (ix3 (0 : Fin 1) (j 0 : Fin (S88x1024.size 0)) (j 1 : Fin (S88x1024.size 1)))) (b j))
    (hw1 : ∀ (a : Vec F S1x88x1024 .f32) (b : Vec F S88x1024 .f32) (j : S88x1024.Idx), w1 a b j = FloatOps.addf (φ := .f32) (a (ix3 (0 : Fin 1) (j 0 : Fin (S88x1024.size 0)) (j 1 : Fin (S88x1024.size 1)))) (b j))
    (hw2 : ∀ (a : Vec F S1x176x1024 .f32) (b : Vec F S176x1024 .f32) (j : S176x1024.Idx), w2 a b j = FloatOps.addf (φ := .f32) (a (ix3 (0 : Fin 1) (j 0 : Fin (S176x1024.size 0)) (j 1 : Fin (S176x1024.size 1)))) (b j))
    (hland_s3 : ∀ fd : Buf (Elt F) ((dst15 c).view.loc (Dev.tc n3 : Thread nD τ)), (((dst15 c).view.loc (Dev.tc n3 : Thread nD τ)) ↦[(dst15 c).view.set]{fullShare} ((dst15 c).view.write (Elt F) fd ((src15 c).view.read (Elt F) (Ga1 m c)) Finset.univ) : sProp 𝕄) ⊢ recvPay m n3 s3)
    (hland_s4 : ∀ fd : Buf (Elt F) ((dst16 c).view.loc (Dev.tc n4 : Thread nD τ)), (((dst16 c).view.loc (Dev.tc n4 : Thread nD τ)) ↦[(dst16 c).view.set]{fullShare} ((dst16 c).view.write (Elt F) fd ((src16 c).view.read (Elt F) (Ga1 m c)) Finset.univ) : sProp 𝕄) ⊢ recvPay m n4 s4)
    {hwa0 : (dst12 c).view.WordExact} {hwb0 : (src12 c).view.WordExact} {hwc0 : (src12 c).view.WordExact} {hwd0 : (dst12 c).view.WordExact}
    {hwa1 : (dst13 c).view.WordExact} {hwb1 : (src13 c).view.WordExact} {hwc1 : (src13 c).view.WordExact} {hwd1 : (dst13 c).view.WordExact}
    {hwa2 : (dst14 c).view.WordExact} {hwb2 : (src14 c).view.WordExact} {hwc2 : (src14 c).view.WordExact} {hwd2 : (dst14 c).view.WordExact}
    {hlx0 : bIn.view.LoadsAt (u27 c).toLoadRect} {hlr0 : b5.view.LoadsAt (u28 c).toLoadRect} {hla0 : b4.view.LoadsAt (u28 c).toLoadRect} {hx0 : (b4.access (u28 c)).Stores Finset.univ} {hm0 : (Finset.univ : Finset (u28 c).shape.Idx) = Finset.univ ∨ ∀ a, (u28 c).stride a = 1}
    {hlx1 : bIn.view.LoadsAt (u30 c).toLoadRect} {hlr1 : b5.view.LoadsAt (u31 c).toLoadRect} {hla1 : b4.view.LoadsAt (u31 c).toLoadRect} {hx1 : (b4.access (u31 c)).Stores Finset.univ} {hm1 : (Finset.univ : Finset (u31 c).shape.Idx) = Finset.univ ∨ ∀ a, (u31 c).stride a = 1}
    {hlx2 : bIn.view.LoadsAt (u33 c).toLoadRect} {hlr2 : b5.view.LoadsAt (u34 c).toLoadRect} {hla2 : b4.view.LoadsAt (u34 c).toLoadRect} {hx2 : (b4.access (u34 c)).Stores Finset.univ} {hm2 : (Finset.univ : Finset (u34 c).shape.Idx) = Finset.univ ∨ ∀ a, (u34 c).stride a = 1}
    {hsc3 : ((dst15 c) : Memref sig (Dev.tc n3 : Thread nD τ).2.kind .vmem _ .f32).view.ref.isScScratch = false} {hsrc3 : (src15 c).view.WordExact} {hdst3 : (dst15 c).view.WordExact} {hsem3 : DmaTarget.Typed .vmem (.dma sR3) (.remote (Dev.tc n3 : Thread nD τ) (dst15 c) (.dma sS3) hsc3)}
    {hsc4 : ((dst16 c) : Memref sig (Dev.tc n4 : Thread nD τ).2.kind .vmem _ .f32).view.ref.isScScratch = false} {hsrc4 : (src16 c).view.WordExact} {hdst4 : (dst16 c).view.WordExact} {hsem4 : DmaTarget.Typed .vmem (.dma sR4) (.remote (Dev.tc n4 : Thread nD τ) (dst16 c) (.dma sS4) hsc4)} :
    iprop(records (pay m) K ∗ levAts L lv ∗ B1 m c ∗ owes (c : Thread nD τ) (owedL (pay m) c (s3 :: s4 :: l)) W)
      ⊢ iprop(((B2 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (
            .op (.waitDma2 sS0 (dst12 c) (src12 c) hwa0 hwb0) fun _ =>
            .op (.waitDma2 sR0 (src12 c) (dst12 c) hwc0 hwd0) fun _ =>
            .op (.load bIn (u27 c).toLoadRect hlx0) fun vx0 =>
            .op (.load b5 (u28 c).toLoadRect hlr0) fun vr0 =>
            .op (.load b4 (u28 c).toLoadRect hla0) fun va0 =>
            .op (.store b4 (u28 c) (w0 vx0 vr0) Finset.univ hx0 hm0) fun _ =>
            .op (.enqueueDma (src15 c) (.remote (Dev.tc n3 : Thread nD τ) (dst15 c) (.dma sS3) hsc3) (.dma sR3) hsrc3 hdst3 hsem3) fun _ =>
            .op (.waitDma2 sS1 (dst13 c) (src13 c) hwa1 hwb1) fun _ =>
            .op (.waitDma2 sR1 (src13 c) (dst13 c) hwc1 hwd1) fun _ =>
            .op (.load bIn (u30 c).toLoadRect hlx1) fun vx1 =>
            .op (.load b5 (u31 c).toLoadRect hlr1) fun vr1 =>
            .op (.load b4 (u31 c).toLoadRect hla1) fun va1 =>
            .op (.store b4 (u31 c) (w1 vx1 vr1) Finset.univ hx1 hm1) fun _ =>
            .op (.enqueueDma (src16 c) (.remote (Dev.tc n4 : Thread nD τ) (dst16 c) (.dma sS4) hsc4) (.dma sR4) hsrc4 hdst4 hsem4) fun _ =>
            .op (.waitDma2 sS2 (dst14 c) (src14 c) hwa2 hwb2) fun _ =>
            .op (.waitDma2 sR2 (src14 c) (dst14 c) hwc2 hwd2) fun _ =>
            .op (.load bIn (u33 c).toLoadRect hlx2) fun vx2 =>
            .op (.load b5 (u34 c).toLoadRect hlr2) fun vr2 =>
            .op (.load b4 (u34 c).toLoadRect hla2) fun va2 =>
            .op (.store b4 (u34 c) (w2 vx2 vr2) Finset.univ hx2 hm2) k) Q) := by
  have hl0 : ∀ s ∈ s3 :: s4 :: l, 2 + pos s0 < 2 + pos s := by
    intro s hs
    rcases List.mem_cons.mp hs with rfl | hs
    · exact Nat.add_lt_add_left pos_s0_s3 2
    rcases List.mem_cons.mp hs with rfl | hs
    · exact Nat.add_lt_add_left pos_s0_s4 2
    · exact Nat.add_lt_add_left (pos_s0_s2.trans (hl s hs)) 2
  have hl1 : ∀ s ∈ s4 :: l, 2 + pos s1 < 2 + pos s := by
    intro s hs
    rcases List.mem_cons.mp hs with rfl | hs
    · exact Nat.add_lt_add_left pos_s1_s4 2
    · exact Nat.add_lt_add_left (pos_s1_s2.trans (hl s hs)) 2
  have hl2 : ∀ s ∈ l, 2 + pos s2 < 2 + pos s := fun s hs => Nat.add_lt_add_left (hl s hs) 2
  unfold B1 B2 xl xl19 xl22 xl25 a20 a23 a26 pt
  simp only [held, heldQ_def]
  iintro ⟨#HR, #HL, ⟨⟨Fl0, Fl1, Fl2, T3, T4, Trest⟩, ⟨X0, X1, X2⟩, ⟨A0, A1, A2⟩, Ho⟩, HO⟩ Hk
  iapply (step_waits m K c s0 sS0 sR0 hS0 hR0 (dst12 c) (src12 c) (src12 c) (dst12 c) rfl (dstAny_credit c s0) (owedL (pay m) c (s3 :: s4 :: l)) W
      (mayWait_owedL (pay m) c (.dma sS0) (s3 :: s4 :: l) (2 + pos s0) (by subst hS0; rw [lv_send]; exact Nat.zero_le _) hl0)
      (mayWait_owedL (pay m) c (.dma sR0) (s3 :: s4 :: l) (2 + pos s0) (by subst hR0; exact (lv_recv c s0).le) hl0)) $$ [Fl0 HO]
  · iframe # ∗
  iintro ⟨D0, ⟨%W0, HO⟩⟩
  unfold slotDone
  icases D0 with ⟨SP0, RP0, Ata0, Atb0⟩
  ihave RP0 := (Entails.of_eq (recvPay_s0 m c)) $$ RP0
  icases A0 with ⟨%fa0, A0⟩
  iapply (wp_load_rect Variants.none (c : Thread nD τ) none Set.univ (m := bIn) (r := (u27 c)) (Finset.Subset.refl _)) $$ X0; iintro X0
  iapply (wp_load_rect Variants.none (c : Thread nD τ) none Set.univ (m := b5) (r := (u28 c)) (Finset.Subset.refl _)) $$ RP0; iintro RP0
  iapply (wp_load_rect Variants.none (c : Thread nD τ) none Set.univ (m := b4) (r := (u28 c)) (Finset.Subset.refl _)) $$ A0; iintro A0
  iapply (wp_store Variants.none (c : Thread nD τ) none Set.univ (m := b4) (r := (u28 c)) (Mk := Finset.univ) (S := (b4.access (u28 c)).set) (Finset.Subset.refl _)) $$ A0; iintro A0
  ihave RP0 := (Entails.of_eq (recvPay_s0 m c).symm) $$ RP0
  ihave A0 := (store0 m c w0 hw0 fa0) $$ A0
  iapply (step_enq m K c n3 s3 (by rw [ax_s3]; exact hn3) (src15 c) (dst15 c) rfl sS3 sR3 hS3 hR3 (Ga1 m c) (Entails.of_eq (sendPay_s3 m c).symm) hland_s3 (owedL (pay m) c (s4 :: l)) W0) $$ [T3 A0 HO]
  · isplitr; · iexact HR
    isplitl [T3]; · iexact T3
    isplitl [A0]; · iexact A0
    iexact HO
  iintro ⟨Fl3, HO⟩
  iapply (step_waits m K c s1 sS1 sR1 hS1 hR1 (dst13 c) (src13 c) (src13 c) (dst13 c) rfl (dstAny_credit c s1) (owedL (pay m) c (s4 :: l)) W0
      (mayWait_owedL (pay m) c (.dma sS1) (s4 :: l) (2 + pos s1) (by subst hS1; rw [lv_send]; exact Nat.zero_le _) hl1)
      (mayWait_owedL (pay m) c (.dma sR1) (s4 :: l) (2 + pos s1) (by subst hR1; exact (lv_recv c s1).le) hl1)) $$ [Fl1 HO]
  · iframe # ∗
  iintro ⟨D1, ⟨%W1, HO⟩⟩
  unfold slotDone
  icases D1 with ⟨SP1, RP1, Ata1, Atb1⟩
  ihave RP1 := (Entails.of_eq (recvPay_s1 m c)) $$ RP1
  icases A1 with ⟨%fa1, A1⟩
  iapply (wp_load_rect Variants.none (c : Thread nD τ) none Set.univ (m := bIn) (r := (u30 c)) (Finset.Subset.refl _)) $$ X1; iintro X1
  iapply (wp_load_rect Variants.none (c : Thread nD τ) none Set.univ (m := b5) (r := (u31 c)) (Finset.Subset.refl _)) $$ RP1; iintro RP1
  iapply (wp_load_rect Variants.none (c : Thread nD τ) none Set.univ (m := b4) (r := (u31 c)) (Finset.Subset.refl _)) $$ A1; iintro A1
  iapply (wp_store Variants.none (c : Thread nD τ) none Set.univ (m := b4) (r := (u31 c)) (Mk := Finset.univ) (S := (b4.access (u31 c)).set) (Finset.Subset.refl _)) $$ A1; iintro A1
  ihave RP1 := (Entails.of_eq (recvPay_s1 m c).symm) $$ RP1
  ihave A1 := (store1 m c w1 hw1 fa1) $$ A1
  iapply (step_enq m K c n4 s4 (by rw [ax_s4]; exact hn4) (src16 c) (dst16 c) rfl sS4 sR4 hS4 hR4 (Ga1 m c) (Entails.of_eq (sendPay_s4 m c).symm) hland_s4 (owedL (pay m) c l) W1) $$ [T4 A1 HO]
  · isplitr; · iexact HR
    isplitl [T4]; · iexact T4
    isplitl [A1]; · iexact A1
    iexact HO
  iintro ⟨Fl4, HO⟩
  iapply (step_waits m K c s2 sS2 sR2 hS2 hR2 (dst14 c) (src14 c) (src14 c) (dst14 c) rfl (dstAny_credit c s2) (owedL (pay m) c l) W1
      (mayWait_owedL (pay m) c (.dma sS2) l (2 + pos s2) (by subst hS2; rw [lv_send]; exact Nat.zero_le _) hl2)
      (mayWait_owedL (pay m) c (.dma sR2) l (2 + pos s2) (by subst hR2; exact (lv_recv c s2).le) hl2)) $$ [Fl2 HO]
  · iframe # ∗
  iintro ⟨D2, ⟨%W2, HO⟩⟩
  unfold slotDone
  icases D2 with ⟨SP2, RP2, Ata2, Atb2⟩
  ihave RP2 := (Entails.of_eq (recvPay_s2 m c)) $$ RP2
  icases A2 with ⟨%fa2, A2⟩
  iapply (wp_load_rect Variants.none (c : Thread nD τ) none Set.univ (m := bIn) (r := (u33 c)) (Finset.Subset.refl _)) $$ X2; iintro X2
  iapply (wp_load_rect Variants.none (c : Thread nD τ) none Set.univ (m := b5) (r := (u34 c)) (Finset.Subset.refl _)) $$ RP2; iintro RP2
  iapply (wp_load_rect Variants.none (c : Thread nD τ) none Set.univ (m := b4) (r := (u34 c)) (Finset.Subset.refl _)) $$ A2; iintro A2
  iapply (wp_store Variants.none (c : Thread nD τ) none Set.univ (m := b4) (r := (u34 c)) (Mk := Finset.univ) (S := (b4.access (u34 c)).set) (Finset.Subset.refl _)) $$ A2; iintro A2
  ihave RP2 := (Entails.of_eq (recvPay_s2 m c).symm) $$ RP2
  ihave A2 := (store2 m c w2 hw2 fa2) $$ A2
  iapply Hk
  isplitr [HO]
  · isplitr [X0 X1 X2 A2 Ho]
    ·
      isplitl [SP0 RP0 Ata0 Atb0]
      · iframe
      isplitl [SP1 RP1 Ata1 Atb1]
      · iframe
      isplitl [SP2 RP2 Ata2 Atb2]
      · iframe
      iframe
    · isplitl [X0 X1 X2]
      · iframe
      iframe
  · iexists W2; iexact HO
end P1
end Cert.KernelIdeal.TR
end
-- ==== Proof.Seg2B.lean ====
import proofs.«901104_g7700000000001105_dist_treered_v7x_i8_m2048_n1024_f32_1_alg».proof.Proof.Res2
import proofs.«901104_g7700000000001105_dist_treered_v7x_i8_m2048_n1024_f32_1_alg».proof.Proof.Steps
import proofs.«901104_g7700000000001105_dist_treered_v7x_i8_m2048_n1024_f32_1_alg».proof.Proof.LibRows
set_option Elab.async false
noncomputable section
namespace Cert.KernelIdeal.TR
open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P2
theorem off1_flip (c : Dev nD) : k0_off13 (flip o0 c) = k0_off36 c := by revert c; decide +kernel
theorem off3_flip (c : Dev nD) : k0_off15 (flip o0 c) = k0_off39 c := by revert c; decide +kernel
theorem off5_flip (c : Dev nD) : k0_off17 (flip o0 c) = k0_off42 c := by revert c; decide +kernel
theorem off1_eq (c : Dev nD) : k0_off13 c = k0_off36 c := by revert c; decide +kernel
theorem off3_eq (c : Dev nD) : k0_off15 c = k0_off39 c := by revert c; decide +kernel
theorem ax_s0 : ax s0 = o0 := by decide
theorem ax_s1 : ax s1 = o0 := by decide
theorem ax_s2 : ax s2 = o0 := by decide
theorem ax_s3 : ax s3 = o1 := by decide
theorem ax_s4 : ax s4 = o1 := by decide
theorem pos_s0_s3 : pos s0 < pos s3 := by decide
theorem pos_s0_s4 : pos s0 < pos s4 := by decide
theorem pos_s1_s4 : pos s1 < pos s4 := by decide
theorem pos_s0_s2 : pos s0 < pos s2 := by decide
theorem pos_s1_s2 : pos s1 < pos s2 := by decide
theorem set_slice_congr {sp : Space} {S : Shape} {e : EltTy} (M : Memref sig .tc sp S e) (sz : Fin S.rank → ℕ)
    {o o' : Fin S.rank → ℕ} (h : o = o') (i : ∀ a, o a + sz a ≤ S.size a) (i' : ∀ a, o' a + sz a ≤ S.size a) :
    (M.access (Rect.unit (s := S) o sz i)).set = (M.access (Rect.unit (s := S) o' sz i')).set := by
  subst h; rfl
variable (m : (ℓ : Loc nD τ sig) → Buf (Elt F) ℓ)
variable (K : Dev nD × Fin 73 → ℕ) (c : Dev nD)
theorem sendPay_s0 : sendPay m c s0 = ((src24 c).view.loc (c : Thread nD τ) ↦[(src24 c).view.set]{shareOf s0} (Gx m c) : sProp 𝕄) := rfl
theorem sendPay_s1 : sendPay m c s1 = ((src25 c).view.loc (c : Thread nD τ) ↦[(src25 c).view.set]{shareOf s1} (Gx m c) : sProp 𝕄) := rfl
theorem sendPay_s2 : sendPay m c s2 = ((src26 c).view.loc (c : Thread nD τ) ↦[(src26 c).view.set]{shareOf s2} (Gx m c) : sProp 𝕄) := rfl
theorem sendPay_s3 : sendPay m c s3 = ((src27 c).view.loc (c : Thread nD τ) ↦[(src27 c).view.set]{shareOf s3} (Ga1 m c) : sProp 𝕄) := rfl
theorem sendPay_s4 : sendPay m c s4 = ((src28 c).view.loc (c : Thread nD τ) ↦[(src28 c).view.set]{shareOf s4} (Ga1 m c) : sProp 𝕄) := rfl
theorem recvPay_s0 : recvPay m c s0 = (((c : Thread nD τ).loc cc0_scratch9) ↦[(b9.access (u36 c)).set]{fullShare} (Gr0 m c) : sProp 𝕄) := by
  show (((c : Thread nD τ).loc cc0_scratch9) ↦[(b9.access (u13 (flip o0 c))).set]{fullShare} (Gr0 m c) : sProp 𝕄) = _
  rw [set_slice_congr b9 S80x1024.size (off1_flip c) (k0_off13_inb (flip o0 c)) (k0_off36_inb c)]
theorem recvPay_s1 : recvPay m c s1 = (((c : Thread nD τ).loc cc0_scratch9) ↦[(b9.access (u39 c)).set]{fullShare} (Gr0 m c) : sProp 𝕄) := by
  show (((c : Thread nD τ).loc cc0_scratch9) ↦[(b9.access (u15 (flip o0 c))).set]{fullShare} (Gr0 m c) : sProp 𝕄) = _
  rw [set_slice_congr b9 S80x1024.size (off3_flip c) (k0_off15_inb (flip o0 c)) (k0_off39_inb c)]
theorem recvPay_s2 : recvPay m c s2 = (((c : Thread nD τ).loc cc0_scratch9) ↦[(b9.access (u42 c)).set]{fullShare} (Gr0 m c) : sProp 𝕄) := by
  show (((c : Thread nD τ).loc cc0_scratch9) ↦[(b9.access (u17 (flip o0 c))).set]{fullShare} (Gr0 m c) : sProp 𝕄) = _
  rw [set_slice_congr b9 S160x1024.size (off5_flip c) (k0_off17_inb (flip o0 c)) (k0_off42_inb c)]
theorem offs0 (c : Dev nD) : (k0_off35 c) 1 = glob0 c + (k0_off36 c) 0 ∧ (k0_off35 c) 2 = 0 ∧ (k0_off36 c) 1 = 0 ∧ glob0 c + S320x1024.size 0 ≤ 2048 := by
  revert c; decide +kernel
theorem sum0 (w : Vec F S1x80x1024 .f32 → Vec F S80x1024 .f32 → FVec F S80x1024 .f32)
    (hw : ∀ (a : Vec F S1x80x1024 .f32) (b : Vec F S80x1024 .f32) (j : S80x1024.Idx), w a b j = FloatOps.addf (φ := .f32) (a (ix3 (0 : Fin 1) (j 0 : Fin (S80x1024.size 0)) (j 1 : Fin (S80x1024.size 1)))) (b j))
    (fa : Buf (Elt F) ((c : Thread nD τ).loc cc0_scratch8)) :
    ∀ i ∈ (b8.access (u36 c)).set,
      (b8.access (u36 c)).write (Elt F) fa
          (w ((bIn.access (u35 c)).read (Elt F) (Gx m c)) ((b9.access (u36 c)).read (Elt F) (Gr0 m c))) Finset.univ i
        = Ga1 m c i := by
  intro i hi
  have hi' : i ∈ (u36 c).set := (View.set_slice_whole cc0_scratch8 _) ▸ hi
  obtain ⟨h1, h2, h3, hg⟩ := offs0 c
  have hm := Rect.mem_set_unit.mp hi'
  rw [write_access_apply_of_mem (Elt F) cc0_scratch8 (k0_off36_inb c) fa _ hi', hw]
  have hr : (b9.access (u36 c)).read (Elt F) (Gr0 m c) (localIdx i hi') = Gr0 m c i := by
    show Gr0 m c ((u36 c).emb (localIdx i hi')) = _
    rw [emb_localIdx]
  have hx : (bIn.access (u35 c)).read (Elt F) (Gx m c) (ix3 (0 : Fin 1) (localIdx i hi' 0 : Fin (S80x1024.size 0)) (localIdx i hi' 1 : Fin (S80x1024.size 1)))
      = xs m c (clamp (glob0 c + (i 0).val)) (i 1 : Fin 1024) := by
    show Gx m c ((u35 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off35 c) 1 + 1 * ((i 0).val - (k0_off36 c) 0) = glob0 c + (i 0).val
      omega
    · apply Fin.ext
      show (k0_off35 c) 2 + 1 * ((i 1).val - (k0_off36 c) 1) = (i 1).val
      omega
  rw [hr, hx]
  rfl
theorem offs1 (c : Dev nD) : (k0_off38 c) 1 = glob0 c + (k0_off39 c) 0 ∧ (k0_off38 c) 2 = 0 ∧ (k0_off39 c) 1 = 0 ∧ glob0 c + S320x1024.size 0 ≤ 2048 := by
  revert c; decide +kernel
theorem sum1 (w : Vec F S1x80x1024 .f32 → Vec F S80x1024 .f32 → FVec F S80x1024 .f32)
    (hw : ∀ (a : Vec F S1x80x1024 .f32) (b : Vec F S80x1024 .f32) (j : S80x1024.Idx), w a b j = FloatOps.addf (φ := .f32) (a (ix3 (0 : Fin 1) (j 0 : Fin (S80x1024.size 0)) (j 1 : Fin (S80x1024.size 1)))) (b j))
    (fa : Buf (Elt F) ((c : Thread nD τ).loc cc0_scratch8)) :
    ∀ i ∈ (b8.access (u39 c)).set,
      (b8.access (u39 c)).write (Elt F) fa
          (w ((bIn.access (u38 c)).read (Elt F) (Gx m c)) ((b9.access (u39 c)).read (Elt F) (Gr0 m c))) Finset.univ i
        = Ga1 m c i := by
  intro i hi
  have hi' : i ∈ (u39 c).set := (View.set_slice_whole cc0_scratch8 _) ▸ hi
  obtain ⟨h1, h2, h3, hg⟩ := offs1 c
  have hm := Rect.mem_set_unit.mp hi'
  rw [write_access_apply_of_mem (Elt F) cc0_scratch8 (k0_off39_inb c) fa _ hi', hw]
  have hr : (b9.access (u39 c)).read (Elt F) (Gr0 m c) (localIdx i hi') = Gr0 m c i := by
    show Gr0 m c ((u39 c).emb (localIdx i hi')) = _
    rw [emb_localIdx]
  have hx : (bIn.access (u38 c)).read (Elt F) (Gx m c) (ix3 (0 : Fin 1) (localIdx i hi' 0 : Fin (S80x1024.size 0)) (localIdx i hi' 1 : Fin (S80x1024.size 1)))
      = xs m c (clamp (glob0 c + (i 0).val)) (i 1 : Fin 1024) := by
    show Gx m c ((u38 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off38 c) 1 + 1 * ((i 0).val - (k0_off39 c) 0) = glob0 c + (i 0).val
      omega
    · apply Fin.ext
      show (k0_off38 c) 2 + 1 * ((i 1).val - (k0_off39 c) 1) = (i 1).val
      omega
  rw [hr, hx]
  rfl
theorem offs2 (c : Dev nD) : (k0_off41 c) 1 = glob0 c + (k0_off42 c) 0 ∧ (k0_off41 c) 2 = 0 ∧ (k0_off42 c) 1 = 0 ∧ glob0 c + S320x1024.size 0 ≤ 2048 := by
  revert c; decide +kernel
theorem sum2 (w : Vec F S1x160x1024 .f32 → Vec F S160x1024 .f32 → FVec F S160x1024 .f32)
    (hw : ∀ (a : Vec F S1x160x1024 .f32) (b : Vec F S160x1024 .f32) (j : S160x1024.Idx), w a b j = FloatOps.addf (φ := .f32) (a (ix3 (0 : Fin 1) (j 0 : Fin (S160x1024.size 0)) (j 1 : Fin (S160x1024.size 1)))) (b j))
    (fa : Buf (Elt F) ((c : Thread nD τ).loc cc0_scratch8)) :
    ∀ i ∈ (b8.access (u42 c)).set,
      (b8.access (u42 c)).write (Elt F) fa
          (w ((bIn.access (u41 c)).read (Elt F) (Gx m c)) ((b9.access (u42 c)).read (Elt F) (Gr0 m c))) Finset.univ i
        = Ga1 m c i := by
  intro i hi
  have hi' : i ∈ (u42 c).set := (View.set_slice_whole cc0_scratch8 _) ▸ hi
  obtain ⟨h1, h2, h3, hg⟩ := offs2 c
  have hm := Rect.mem_set_unit.mp hi'
  rw [write_access_apply_of_mem (Elt F) cc0_scratch8 (k0_off42_inb c) fa _ hi', hw]
  have hr : (b9.access (u42 c)).read (Elt F) (Gr0 m c) (localIdx i hi') = Gr0 m c i := by
    show Gr0 m c ((u42 c).emb (localIdx i hi')) = _
    rw [emb_localIdx]
  have hx : (bIn.access (u41 c)).read (Elt F) (Gx m c) (ix3 (0 : Fin 1) (localIdx i hi' 0 : Fin (S160x1024.size 0)) (localIdx i hi' 1 : Fin (S160x1024.size 1)))
      = xs m c (clamp (glob0 c + (i 0).val)) (i 1 : Fin 1024) := by
    show Gx m c ((u41 c).emb _) = _
    unfold Gx
    have hi0 := hm 0
    have hi1 := hm 1
    have hlt : glob0 c + (i 0).val < 2048 := by have := (i 0).isLt; show glob0 c + (i 0).val < 2048; omega
    congr 1
    · rw [clamp_of_lt hlt]; apply Fin.ext
      show (k0_off41 c) 1 + 1 * ((i 0).val - (k0_off42 c) 0) = glob0 c + (i 0).val
      omega
    · apply Fin.ext
      show (k0_off41 c) 2 + 1 * ((i 1).val - (k0_off42 c) 1) = (i 1).val
      omega
  rw [hr, hx]
  rfl
theorem store0 (w : Vec F S1x80x1024 .f32 → Vec F S80x1024 .f32 → FVec F S80x1024 .f32)
    (hw : ∀ (a : Vec F S1x80x1024 .f32) (b : Vec F S80x1024 .f32) (j : S80x1024.Idx), w a b j = FloatOps.addf (φ := .f32) (a (ix3 (0 : Fin 1) (j 0 : Fin (S80x1024.size 0)) (j 1 : Fin (S80x1024.size 1)))) (b j))
    (fa : Buf (Elt F) ((c : Thread nD τ).loc cc0_scratch8)) :
    (((c : Thread nD τ).loc cc0_scratch8) ↦[(b8.access (u36 c)).set]{fullShare}
        ((b8.access (u36 c)).write (Elt F) fa
          (w ((bIn.access (u35 c)).read (Elt F) (Gx m c)) ((b9.access (u36 c)).read (Elt F) (Gr0 m c))) Finset.univ) : sProp 𝕄)
      ⊢ ((src27 c).view.loc (c : Thread nD τ) ↦[(src27 c).view.set]{shareOf s3} (Ga1 m c) : sProp 𝕄) :=
  (Entails.of_eq (pointsTo_congr (q := fullShare) (sum0 m c w hw fa))).trans (Entails.of_eq (congrArg (fun I => (((c : Thread nD τ).loc cc0_scratch8) ↦[I]{fullShare} (Ga1 m c) : sProp 𝕄)) (set_slice_congr b8 S80x1024.size (off1_eq c).symm (k0_off36_inb c) (k0_off13_inb c))))
theorem store1 (w : Vec F S1x80x1024 .f32 → Vec F S80x1024 .f32 → FVec F S80x1024 .f32)
    (hw : ∀ (a : Vec F S1x80x1024 .f32) (b : Vec F S80x1024 .f32) (j : S80x1024.Idx), w a b j = FloatOps.addf (φ := .f32) (a (ix3 (0 : Fin 1) (j 0 : Fin (S80x1024.size 0)) (j 1 : Fin (S80x1024.size 1)))) (b j))
    (fa : Buf (Elt F) ((c : Thread nD τ).loc cc0_scratch8)) :
    (((c : Thread nD τ).loc cc0_scratch8) ↦[(b8.access (u39 c)).set]{fullShare}
        ((b8.access (u39 c)).write (Elt F) fa
          (w ((bIn.access (u38 c)).read (Elt F) (Gx m c)) ((b9.access (u39 c)).read (Elt F) (Gr0 m c))) Finset.univ) : sProp 𝕄)
      ⊢ ((src28 c).view.loc (c : Thread nD τ) ↦[(src28 c).view.set]{shareOf s4} (Ga1 m c) : sProp 𝕄) :=
  (Entails.of_eq (pointsTo_congr (q := fullShare) (sum1 m c w hw fa))).trans (Entails.of_eq (congrArg (fun I => (((c : Thread nD τ).loc cc0_scratch8) ↦[I]{fullShare} (Ga1 m c) : sProp 𝕄)) (set_slice_congr b8 S80x1024.size (off3_eq c).symm (k0_off39_inb c) (k0_off15_inb c))))
theorem store2 (w : Vec F S1x160x1024 .f32 → Vec F S160x1024 .f32 → FVec F S160x1024 .f32)
    (hw : ∀ (a : Vec F S1x160x1024 .f32) (b : Vec F S160x1024 .f32) (j : S160x1024.Idx), w a b j = FloatOps.addf (φ := .f32) (a (ix3 (0 : Fin 1) (j 0 : Fin (S160x1024.size 0)) (j 1 : Fin (S160x1024.size 1)))) (b j))
    (fa : Buf (Elt F) ((c : Thread nD τ).loc cc0_scratch8)) :
    (((c : Thread nD τ).loc cc0_scratch8) ↦[(b8.access (u42 c)).set]{fullShare}
        ((b8.access (u42 c)).write (Elt F) fa
          (w ((bIn.access (u41 c)).read (Elt F) (Gx m c)) ((b9.access (u42 c)).read (Elt F) (Gr0 m c))) Finset.univ) : sProp 𝕄)
      ⊢ a26s m c :=
  (Entails.of_eq (pointsTo_congr (q := fullShare) (sum2 m c w hw fa))).trans (Entails.of_eq rfl)
theorem seg_p0 {α : Type} {Q : α → sProp 𝕄} (k : PUnit → Prog (TpuEff nD τ sig (Elt F) Λ₀ .tc) α) (l : List (Fin 36)) (W : Waits sig Unit)
    (n0 n1 n2 : Dev nD) (hn0 : n0 = flip o0 c) (hn1 : n1 = flip o0 c) (hn2 : n2 = flip o0 c)
    (sS0 sR0 : DmaSem sig) (hS0 : sS0 = sendSem s0) (hR0 : sR0 = recvSem s0)
    (sS1 sR1 : DmaSem sig) (hS1 : sS1 = sendSem s1) (hR1 : sR1 = recvSem s1)
    (sS2 sR2 : DmaSem sig) (hS2 : sS2 = sendSem s2) (hR2 : sR2 = recvSem s2)
    (hland_s0 : ∀ fd : Buf (Elt F) ((dst24 c).view.loc (Dev.tc n0 : Thread nD τ)), (((dst24 c).view.loc (Dev.tc n0 : Thread nD τ)) ↦[(dst24 c).view.set]{fullShare} ((dst24 c).view.write (Elt F) fd ((src24 c).view.read (Elt F) (Gx m c)) Finset.univ) : sProp 𝕄) ⊢ recvPay m n0 s0)
    (hland_s1 : ∀ fd : Buf (Elt F) ((dst25 c).view.loc (Dev.tc n1 : Thread nD τ)), (((dst25 c).view.loc (Dev.tc n1 : Thread nD τ)) ↦[(dst25 c).view.set]{fullShare} ((dst25 c).view.write (Elt F) fd ((src25 c).view.read (Elt F) (Gx m c)) Finset.univ) : sProp 𝕄) ⊢ recvPay m n1 s1)
    (hland_s2 : ∀ fd : Buf (Elt F) ((dst26 c).view.loc (Dev.tc n2 : Thread nD τ)), (((dst26 c).view.loc (Dev.tc n2 : Thread nD τ)) ↦[(dst26 c).view.set]{fullShare} ((dst26 c).view.write (Elt F) fd ((src26 c).view.read (Elt F) (Gx m c)) Finset.univ) : sProp 𝕄) ⊢ recvPay m n2 s2)
    {hsc0 : ((dst24 c) : Memref sig (Dev.tc n0 : Thread nD τ).2.kind .vmem _ .f32).view.ref.isScScratch = false} {hsrc0 : (src24 c).view.WordExact} {hdst0 : (dst24 c).view.WordExact} {hsem0 : DmaTarget.Typed .vmem (.dma sR0) (.remote (Dev.tc n0 : Thread nD τ) (dst24 c) (.dma sS0) hsc0)}
    {hsc1 : ((dst25 c) : Memref sig (Dev.tc n1 : Thread nD τ).2.kind .vmem _ .f32).view.ref.isScScratch = false} {hsrc1 : (src25 c).view.WordExact} {hdst1 : (dst25 c).view.WordExact} {hsem1 : DmaTarget.Typed .vmem (.dma sR1) (.remote (Dev.tc n1 : Thread nD τ) (dst25 c) (.dma sS1) hsc1)}
    {hsc2 : ((dst26 c) : Memref sig (Dev.tc n2 : Thread nD τ).2.kind .vmem _ .f32).view.ref.isScScratch = false} {hsrc2 : (src26 c).view.WordExact} {hdst2 : (dst26 c).view.WordExact} {hsem2 : DmaTarget.Typed .vmem (.dma sR2) (.remote (Dev.tc n2 : Thread nD τ) (dst26 c) (.dma sS2) hsc2)} :
    iprop(records (pay m) K ∗ levAts L lv ∗ B0 m c ∗ owes (c : Thread nD τ) (owedL (pay m) c (s0 :: s1 :: s2 :: l)) W)
      ⊢ iprop(((B1 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (
            .op (.enqueueDma (src24 c) (.remote (Dev.tc n0 : Thread nD τ) (dst24 c) (.dma sS0) hsc0) (.dma sR0) hsrc0 hdst0 hsem0) fun _ =>
            .op (.enqueueDma (src25 c) (.remote (Dev.tc n1 : Thread nD τ) (dst25 c) (.dma sS1) hsc1) (.dma sR1) hsrc1 hdst1 hsem1) fun _ =>
            .op (.enqueueDma (src26 c) (.remote (Dev.tc n2 : Thread nD τ) (dst26 c) (.dma sS2) hsc2) (.dma sR2) hsrc2 hdst2 hsem2) k) Q) := by
  unfold B0 B1
  iintro ⟨#HR, #HL, ⟨⟨T0, T1, T2, Trest⟩, ⟨S0, S1, S2⟩, Hrest⟩, HO⟩ Hk
  ihave S0 := (Entails.of_eq (sendPay_s0 m c)) $$ S0
  iapply (step_enq m K c n0 s0 (by rw [ax_s0]; exact hn0) (src24 c) (dst24 c) rfl sS0 sR0 hS0 hR0 (Gx m c) (Entails.of_eq (sendPay_s0 m c).symm) hland_s0 (owedL (pay m) c (s1 :: s2 :: l)) W) $$ [T0 S0 HO]
  · isplitr; · iexact HR
    isplitl [T0]; · iexact T0
    isplitl [S0]; · iexact S0
    iexact HO
  iintro ⟨Fl0, HO⟩
  ihave S1 := (Entails.of_eq (sendPay_s1 m c)) $$ S1
  iapply (step_enq m K c n1 s1 (by rw [ax_s1]; exact hn1) (src25 c) (dst25 c) rfl sS1 sR1 hS1 hR1 (Gx m c) (Entails.of_eq (sendPay_s1 m c).symm) hland_s1 (owedL (pay m) c (s2 :: l)) W) $$ [T1 S1 HO]
  · isplitr; · iexact HR
    isplitl [T1]; · iexact T1
    isplitl [S1]; · iexact S1
    iexact HO
  iintro ⟨Fl1, HO⟩
  ihave S2 := (Entails.of_eq (sendPay_s2 m c)) $$ S2
  iapply (step_enq m K c n2 s2 (by rw [ax_s2]; exact hn2) (src26 c) (dst26 c) rfl sS2 sR2 hS2 hR2 (Gx m c) (Entails.of_eq (sendPay_s2 m c).symm) hland_s2 (owedL (pay m) c l) W) $$ [T2 S2 HO]
  · isplitr; · iexact HR
    isplitl [T2]; · iexact T2
    isplitl [S2]; · iexact S2
    iexact HO
  iintro ⟨Fl2, HO⟩
  iapply Hk
  isplitr [HO]
  · isplitr [Hrest]
    · iframe
    iexact Hrest
  iexists W; iexact HO
theorem seg_p1 {α : Type} {Q : α → sProp 𝕄} (k : PUnit → Prog (TpuEff nD τ sig (Elt F) Λ₀ .tc) α) (l : List (Fin 36)) (W : Waits sig Unit)
    (hl : ∀ s ∈ l, pos s2 < pos s)
    (n3 n4 : Dev nD) (hn3 : n3 = flip o1 c) (hn4 : n4 = flip o1 c)
    (sS0 sR0 : DmaSem sig) (hS0 : sS0 = sendSem s0) (hR0 : sR0 = recvSem s0)
    (sS1 sR1 : DmaSem sig) (hS1 : sS1 = sendSem s1) (hR1 : sR1 = recvSem s1)
    (sS2 sR2 : DmaSem sig) (hS2 : sS2 = sendSem s2) (hR2 : sR2 = recvSem s2)
    (sS3 sR3 : DmaSem sig) (hS3 : sS3 = sendSem s3) (hR3 : sR3 = recvSem s3)
    (sS4 sR4 : DmaSem sig) (hS4 : sS4 = sendSem s4) (hR4 : sR4 = recvSem s4)
    (w0 : Vec F S1x80x1024 .f32 → Vec F S80x1024 .f32 → FVec F S80x1024 .f32) (w1 : Vec F S1x80x1024 .f32 → Vec F S80x1024 .f32 → FVec F S80x1024 .f32) (w2 : Vec F S1x160x1024 .f32 → Vec F S160x1024 .f32 → FVec F S160x1024 .f32)
    (hw0 : ∀ (a : Vec F S1x80x1024 .f32) (b : Vec F S80x1024 .f32) (j : S80x1024.Idx), w0 a b j = FloatOps.addf (φ := .f32) (a (ix3 (0 : Fin 1) (j 0 : Fin (S80x1024.size 0)) (j 1 : Fin (S80x1024.size 1)))) (b j))
    (hw1 : ∀ (a : Vec F S1x80x1024 .f32) (b : Vec F S80x1024 .f32) (j : S80x1024.Idx), w1 a b j = FloatOps.addf (φ := .f32) (a (ix3 (0 : Fin 1) (j 0 : Fin (S80x1024.size 0)) (j 1 : Fin (S80x1024.size 1)))) (b j))
    (hw2 : ∀ (a : Vec F S1x160x1024 .f32) (b : Vec F S160x1024 .f32) (j : S160x1024.Idx), w2 a b j = FloatOps.addf (φ := .f32) (a (ix3 (0 : Fin 1) (j 0 : Fin (S160x1024.size 0)) (j 1 : Fin (S160x1024.size 1)))) (b j))
    (hland_s3 : ∀ fd : Buf (Elt F) ((dst27 c).view.loc (Dev.tc n3 : Thread nD τ)), (((dst27 c).view.loc (Dev.tc n3 : Thread nD τ)) ↦[(dst27 c).view.set]{fullShare} ((dst27 c).view.write (Elt F) fd ((src27 c).view.read (Elt F) (Ga1 m c)) Finset.univ) : sProp 𝕄) ⊢ recvPay m n3 s3)
    (hland_s4 : ∀ fd : Buf (Elt F) ((dst28 c).view.loc (Dev.tc n4 : Thread nD τ)), (((dst28 c).view.loc (Dev.tc n4 : Thread nD τ)) ↦[(dst28 c).view.set]{fullShare} ((dst28 c).view.write (Elt F) fd ((src28 c).view.read (Elt F) (Ga1 m c)) Finset.univ) : sProp 𝕄) ⊢ recvPay m n4 s4)
    {hwa0 : (dst24 c).view.WordExact} {hwb0 : (src24 c).view.WordExact} {hwc0 : (src24 c).view.WordExact} {hwd0 : (dst24 c).view.WordExact}
    {hwa1 : (dst25 c).view.WordExact} {hwb1 : (src25 c).view.WordExact} {hwc1 : (src25 c).view.WordExact} {hwd1 : (dst25 c).view.WordExact}
    {hwa2 : (dst26 c).view.WordExact} {hwb2 : (src26 c).view.WordExact} {hwc2 : (src26 c).view.WordExact} {hwd2 : (dst26 c).view.WordExact}
    {hlx0 : bIn.view.LoadsAt (u35 c).toLoadRect} {hlr0 : b9.view.LoadsAt (u36 c).toLoadRect} {hla0 : b8.view.LoadsAt (u36 c).toLoadRect} {hx0 : (b8.access (u36 c)).Stores Finset.univ} {hm0 : (Finset.univ : Finset (u36 c).shape.Idx) = Finset.univ ∨ ∀ a, (u36 c).stride a = 1}
    {hlx1 : bIn.view.LoadsAt (u38 c).toLoadRect} {hlr1 : b9.view.LoadsAt (u39 c).toLoadRect} {hla1 : b8.view.LoadsAt (u39 c).toLoadRect} {hx1 : (b8.access (u39 c)).Stores Finset.univ} {hm1 : (Finset.univ : Finset (u39 c).shape.Idx) = Finset.univ ∨ ∀ a, (u39 c).stride a = 1}
    {hlx2 : bIn.view.LoadsAt (u41 c).toLoadRect} {hlr2 : b9.view.LoadsAt (u42 c).toLoadRect} {hla2 : b8.view.LoadsAt (u42 c).toLoadRect} {hx2 : (b8.access (u42 c)).Stores Finset.univ} {hm2 : (Finset.univ : Finset (u42 c).shape.Idx) = Finset.univ ∨ ∀ a, (u42 c).stride a = 1}
    {hsc3 : ((dst27 c) : Memref sig (Dev.tc n3 : Thread nD τ).2.kind .vmem _ .f32).view.ref.isScScratch = false} {hsrc3 : (src27 c).view.WordExact} {hdst3 : (dst27 c).view.WordExact} {hsem3 : DmaTarget.Typed .vmem (.dma sR3) (.remote (Dev.tc n3 : Thread nD τ) (dst27 c) (.dma sS3) hsc3)}
    {hsc4 : ((dst28 c) : Memref sig (Dev.tc n4 : Thread nD τ).2.kind .vmem _ .f32).view.ref.isScScratch = false} {hsrc4 : (src28 c).view.WordExact} {hdst4 : (dst28 c).view.WordExact} {hsem4 : DmaTarget.Typed .vmem (.dma sR4) (.remote (Dev.tc n4 : Thread nD τ) (dst28 c) (.dma sS4) hsc4)} :
    iprop(records (pay m) K ∗ levAts L lv ∗ B1 m c ∗ owes (c : Thread nD τ) (owedL (pay m) c (s3 :: s4 :: l)) W)
      ⊢ iprop(((B2 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (
            .op (.waitDma2 sS0 (dst24 c) (src24 c) hwa0 hwb0) fun _ =>
            .op (.waitDma2 sR0 (src24 c) (dst24 c) hwc0 hwd0) fun _ =>
            .op (.load bIn (u35 c).toLoadRect hlx0) fun vx0 =>
            .op (.load b9 (u36 c).toLoadRect hlr0) fun vr0 =>
            .op (.load b8 (u36 c).toLoadRect hla0) fun va0 =>
            .op (.store b8 (u36 c) (w0 vx0 vr0) Finset.univ hx0 hm0) fun _ =>
            .op (.enqueueDma (src27 c) (.remote (Dev.tc n3 : Thread nD τ) (dst27 c) (.dma sS3) hsc3) (.dma sR3) hsrc3 hdst3 hsem3) fun _ =>
            .op (.waitDma2 sS1 (dst25 c) (src25 c) hwa1 hwb1) fun _ =>
            .op (.waitDma2 sR1 (src25 c) (dst25 c) hwc1 hwd1) fun _ =>
            .op (.load bIn (u38 c).toLoadRect hlx1) fun vx1 =>
            .op (.load b9 (u39 c).toLoadRect hlr1) fun vr1 =>
            .op (.load b8 (u39 c).toLoadRect hla1) fun va1 =>
            .op (.store b8 (u39 c) (w1 vx1 vr1) Finset.univ hx1 hm1) fun _ =>
            .op (.enqueueDma (src28 c) (.remote (Dev.tc n4 : Thread nD τ) (dst28 c) (.dma sS4) hsc4) (.dma sR4) hsrc4 hdst4 hsem4) fun _ =>
            .op (.waitDma2 sS2 (dst26 c) (src26 c) hwa2 hwb2) fun _ =>
            .op (.waitDma2 sR2 (src26 c) (dst26 c) hwc2 hwd2) fun _ =>
            .op (.load bIn (u41 c).toLoadRect hlx2) fun vx2 =>
            .op (.load b9 (u42 c).toLoadRect hlr2) fun vr2 =>
            .op (.load b8 (u42 c).toLoadRect hla2) fun va2 =>
            .op (.store b8 (u42 c) (w2 vx2 vr2) Finset.univ hx2 hm2) k) Q) := by
  have hl0 : ∀ s ∈ s3 :: s4 :: l, 2 + pos s0 < 2 + pos s := by
    intro s hs
    rcases List.mem_cons.mp hs with rfl | hs
    · exact Nat.add_lt_add_left pos_s0_s3 2
    rcases List.mem_cons.mp hs with rfl | hs
    · exact Nat.add_lt_add_left pos_s0_s4 2
    · exact Nat.add_lt_add_left (pos_s0_s2.trans (hl s hs)) 2
  have hl1 : ∀ s ∈ s4 :: l, 2 + pos s1 < 2 + pos s := by
    intro s hs
    rcases List.mem_cons.mp hs with rfl | hs
    · exact Nat.add_lt_add_left pos_s1_s4 2
    · exact Nat.add_lt_add_left (pos_s1_s2.trans (hl s hs)) 2
  have hl2 : ∀ s ∈ l, 2 + pos s2 < 2 + pos s := fun s hs => Nat.add_lt_add_left (hl s hs) 2
  unfold B1 B2 xl xl19 xl22 xl25 a20 a23 a26 pt
  simp only [held, heldQ_def]
  iintro ⟨#HR, #HL, ⟨⟨Fl0, Fl1, Fl2, T3, T4, Trest⟩, ⟨X0, X1, X2⟩, ⟨A0, A1, A2⟩, Ho⟩, HO⟩ Hk
  iapply (step_waits m K c s0 sS0 sR0 hS0 hR0 (dst24 c) (src24 c) (src24 c) (dst24 c) rfl (dstAny_credit c s0) (owedL (pay m) c (s3 :: s4 :: l)) W
      (mayWait_owedL (pay m) c (.dma sS0) (s3 :: s4 :: l) (2 + pos s0) (by subst hS0; rw [lv_send]; exact Nat.zero_le _) hl0)
      (mayWait_owedL (pay m) c (.dma sR0) (s3 :: s4 :: l) (2 + pos s0) (by subst hR0; exact (lv_recv c s0).le) hl0)) $$ [Fl0 HO]
  · iframe # ∗
  iintro ⟨D0, ⟨%W0, HO⟩⟩
  unfold slotDone
  icases D0 with ⟨SP0, RP0, Ata0, Atb0⟩
  ihave RP0 := (Entails.of_eq (recvPay_s0 m c)) $$ RP0
  icases A0 with ⟨%fa0, A0⟩
  iapply (wp_load_rect Variants.none (c : Thread nD τ) none Set.univ (m := bIn) (r := (u35 c)) (Finset.Subset.refl _)) $$ X0; iintro X0
  iapply (wp_load_rect Variants.none (c : Thread nD τ) none Set.univ (m := b9) (r := (u36 c)) (Finset.Subset.refl _)) $$ RP0; iintro RP0
  iapply (wp_load_rect Variants.none (c : Thread nD τ) none Set.univ (m := b8) (r := (u36 c)) (Finset.Subset.refl _)) $$ A0; iintro A0
  iapply (wp_store Variants.none (c : Thread nD τ) none Set.univ (m := b8) (r := (u36 c)) (Mk := Finset.univ) (S := (b8.access (u36 c)).set) (Finset.Subset.refl _)) $$ A0; iintro A0
  ihave RP0 := (Entails.of_eq (recvPay_s0 m c).symm) $$ RP0
  ihave A0 := (store0 m c w0 hw0 fa0) $$ A0
  iapply (step_enq m K c n3 s3 (by rw [ax_s3]; exact hn3) (src27 c) (dst27 c) rfl sS3 sR3 hS3 hR3 (Ga1 m c) (Entails.of_eq (sendPay_s3 m c).symm) hland_s3 (owedL (pay m) c (s4 :: l)) W0) $$ [T3 A0 HO]
  · isplitr; · iexact HR
    isplitl [T3]; · iexact T3
    isplitl [A0]; · iexact A0
    iexact HO
  iintro ⟨Fl3, HO⟩
  iapply (step_waits m K c s1 sS1 sR1 hS1 hR1 (dst25 c) (src25 c) (src25 c) (dst25 c) rfl (dstAny_credit c s1) (owedL (pay m) c (s4 :: l)) W0
      (mayWait_owedL (pay m) c (.dma sS1) (s4 :: l) (2 + pos s1) (by subst hS1; rw [lv_send]; exact Nat.zero_le _) hl1)
      (mayWait_owedL (pay m) c (.dma sR1) (s4 :: l) (2 + pos s1) (by subst hR1; exact (lv_recv c s1).le) hl1)) $$ [Fl1 HO]
  · iframe # ∗
  iintro ⟨D1, ⟨%W1, HO⟩⟩
  unfold slotDone
  icases D1 with ⟨SP1, RP1, Ata1, Atb1⟩
  ihave RP1 := (Entails.of_eq (recvPay_s1 m c)) $$ RP1
  icases A1 with ⟨%fa1, A1⟩
  iapply (wp_load_rect Variants.none (c : Thread nD τ) none Set.univ (m := bIn) (r := (u38 c)) (Finset.Subset.refl _)) $$ X1; iintro X1
  iapply (wp_load_rect Variants.none (c : Thread nD τ) none Set.univ (m := b9) (r := (u39 c)) (Finset.Subset.refl _)) $$ RP1; iintro RP1
  iapply (wp_load_rect Variants.none (c : Thread nD τ) none Set.univ (m := b8) (r := (u39 c)) (Finset.Subset.refl _)) $$ A1; iintro A1
  iapply (wp_store Variants.none (c : Thread nD τ) none Set.univ (m := b8) (r := (u39 c)) (Mk := Finset.univ) (S := (b8.access (u39 c)).set) (Finset.Subset.refl _)) $$ A1; iintro A1
  ihave RP1 := (Entails.of_eq (recvPay_s1 m c).symm) $$ RP1
  ihave A1 := (store1 m c w1 hw1 fa1) $$ A1
  iapply (step_enq m K c n4 s4 (by rw [ax_s4]; exact hn4) (src28 c) (dst28 c) rfl sS4 sR4 hS4 hR4 (Ga1 m c) (Entails.of_eq (sendPay_s4 m c).symm) hland_s4 (owedL (pay m) c l) W1) $$ [T4 A1 HO]
  · isplitr; · iexact HR
    isplitl [T4]; · iexact T4
    isplitl [A1]; · iexact A1
    iexact HO
  iintro ⟨Fl4, HO⟩
  iapply (step_waits m K c s2 sS2 sR2 hS2 hR2 (dst26 c) (src26 c) (src26 c) (dst26 c) rfl (dstAny_credit c s2) (owedL (pay m) c l) W1
      (mayWait_owedL (pay m) c (.dma sS2) l (2 + pos s2) (by subst hS2; rw [lv_send]; exact Nat.zero_le _) hl2)
      (mayWait_owedL (pay m) c (.dma sR2) l (2 + pos s2) (by subst hR2; exact (lv_recv c s2).le) hl2)) $$ [Fl2 HO]
  · iframe # ∗
  iintro ⟨D2, ⟨%W2, HO⟩⟩
  unfold slotDone
  icases D2 with ⟨SP2, RP2, Ata2, Atb2⟩
  ihave RP2 := (Entails.of_eq (recvPay_s2 m c)) $$ RP2
  icases A2 with ⟨%fa2, A2⟩
  iapply (wp_load_rect Variants.none (c : Thread nD τ) none Set.univ (m := bIn) (r := (u41 c)) (Finset.Subset.refl _)) $$ X2; iintro X2
  iapply (wp_load_rect Variants.none (c : Thread nD τ) none Set.univ (m := b9) (r := (u42 c)) (Finset.Subset.refl _)) $$ RP2; iintro RP2
  iapply (wp_load_rect Variants.none (c : Thread nD τ) none Set.univ (m := b8) (r := (u42 c)) (Finset.Subset.refl _)) $$ A2; iintro A2
  iapply (wp_store Variants.none (c : Thread nD τ) none Set.univ (m := b8) (r := (u42 c)) (Mk := Finset.univ) (S := (b8.access (u42 c)).set) (Finset.Subset.refl _)) $$ A2; iintro A2
  ihave RP2 := (Entails.of_eq (recvPay_s2 m c).symm) $$ RP2
  ihave A2 := (store2 m c w2 hw2 fa2) $$ A2
  iapply Hk
  isplitr [HO]
  · isplitr [X0 X1 X2 A2 Ho]
    ·
      isplitl [SP0 RP0 Ata0 Atb0]
      · iframe
      isplitl [SP1 RP1 Ata1 Atb1]
      · iframe
      isplitl [SP2 RP2 Ata2 Atb2]
      · iframe
      iframe
    · isplitl [X0 X1 X2]
      · iframe
      iframe
  · iexists W2; iexact HO
end P2
end Cert.KernelIdeal.TR
end
-- ==== Proof.Seg0C.lean ====
import proofs.«901104_g7700000000001105_dist_treered_v7x_i8_m2048_n1024_f32_1_alg».proof.Proof.Res0
import proofs.«901104_g7700000000001105_dist_treered_v7x_i8_m2048_n1024_f32_1_alg».proof.Proof.Steps
import proofs.«901104_g7700000000001105_dist_treered_v7x_i8_m2048_n1024_f32_1_alg».proof.Proof.LibRows
import proofs.«901104_g7700000000001105_dist_treered_v7x_i8_m2048_n1024_f32_1_alg».proof.Proof.Mesh
import Idealize.ShloMosaic.Lib.Tactic
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P0
theorem off26_col : ∀ c : Dev nD, k0_off26 c 1 = 0 := by decide +kernel
theorem off43_col : ∀ c : Dev nD, k0_off43 c 1 = 0 := by decide +kernel
theorem off44_col : ∀ c : Dev nD, k0_off44 c 1 = 0 := by decide +kernel
theorem off45_colC : ∀ c : Dev nD, k0_off45 c 1 = 0 := by decide +kernel
theorem off46_col : ∀ c : Dev nD, k0_off46 c 1 = 0 := by decide +kernel
theorem off47_col : ∀ c : Dev nD, k0_off47 c 1 = 0 := by decide +kernel
theorem off58_col : ∀ c : Dev nD, k0_off58 c 1 = 0 := by decide +kernel
theorem off59_col : ∀ c : Dev nD, k0_off59 c 1 = 0 := by decide +kernel
theorem off43_off46_split : ∀ c : Dev nD,
    (k0_off43 c 0 = k0_off26 c 0 ∧ k0_off46 c 0 = k0_off26 c 0 + S88x1024.size 0)
      ∨ (k0_off46 c 0 = k0_off26 c 0 ∧ k0_off43 c 0 = k0_off26 c 0 + S88x1024.size 0) := by decide +kernel
theorem off45_eq : ∀ c : Dev nD, k0_off45 c = k0_off43 c := by decide +kernel
theorem off44_flip : ∀ c : Dev nD, k0_off44 c = k0_off21 (flip o1 c) := by decide +kernel
theorem off47_flip : ∀ c : Dev nD, k0_off47 c = k0_off24 (flip o1 c) := by decide +kernel
theorem off59_eq : ∀ c : Dev nD, k0_off59 c = k0_off58 c := by decide +kernel
theorem size176 : S176x1024.size 0 = S88x1024.size 0 + S88x1024.size 0 := by decide
theorem off43_row : ∀ c : Dev nD, k0_off43 c 0 = ko c + k0_off44 c 0 := by decide +kernel
theorem off46_row : ∀ c : Dev nD, k0_off46 c 0 = ko c + k0_off47 c 0 := by decide +kernel
theorem off58_row : ∀ c : Dev nD, k0_off58 c 0 = glob0 c + ko c + ko2 c := by decide +kernel
theorem off58_acc : ∀ c : Dev nD, k0_off58 c 0 = glob0 c + k0_off46 c 0 := by decide +kernel
theorem glob0_leC : ∀ c : Dev nD, glob0 c + nH ≤ 2048 := by decide +kernel
theorem owner58 : ∀ c : Dev nD, ∀ j : Fin nE, owner (clamp (k0_off58 c 0 + j.val)) = c ∧ partOf (clamp (k0_off58 c 0 + j.val)) = pIdx := by decide +kernel
theorem ord_pIdx_1 : ord pIdx 1 = o1 := by decide
theorem ord_pIdx_2 : ord pIdx 2 = o2 := by decide
theorem off21_colC : ∀ c : Dev nD, k0_off21 c 1 = 0 := by decide +kernel
theorem off24_colC : ∀ c : Dev nD, k0_off24 c 1 = 0 := by decide +kernel
theorem ax_s3C : ax s3 = o1 := by decide
theorem ax_s4C : ax s4 = o1 := by decide
theorem ax_s5 : ax s5 = o2 := by decide
theorem ax_s6C : ax s6 = o2 := by decide
theorem ax_s7C : ax s7 = o1 := by decide
theorem ax_s9 : ax s9 = o0 := by decide
theorem pos_s3_s5 : pos s3 < pos s5 := by decide
theorem pos_s4_s5 : pos s4 < pos s5 := by decide
theorem pos_s5_s6 : pos s5 < pos s6 := by decide
theorem pos_s5_s7 : pos s5 < pos s7 := by decide
theorem pos_s5_s9 : pos s5 < pos s9 := by decide
variable (m : (ℓ : Loc nD τ sig) → Buf (Elt F) ℓ)
theorem slab43 (c : Dev nD) : Slab S352x1024 (0 : Fin 2) (k0_off43 c) S88x1024.size :=
  slab₂ (d := S352x1024.size) (off := k0_off43 c) (size := S88x1024.size) (off43_col c) rfl
theorem slab44 (c : Dev nD) : Slab S176x1024 (0 : Fin 2) (k0_off44 c) S88x1024.size :=
  slab₂ (d := S176x1024.size) (off := k0_off44 c) (size := S88x1024.size) (off44_col c) rfl
/-- A row of an eighth after the second round's store: the device's sum of two plus its second-axis neighbour's sum of two of the same global row. -/
theorem store_q (c : Dev nD) (oA oR : Fin 2 → ℕ) (iA : ∀ a, oA a + S88x1024.size a ≤ S352x1024.size a) (iR : ∀ a, oR a + S88x1024.size a ≤ S176x1024.size a)
    (hcA : oA 1 = 0) (hcR : oR 1 = 0) (hrow : oA 0 = ko c + oR 0)
    (w : (S88x1024.Idx → Elt F .f32) → (S88x1024.Idx → Elt F .f32) → S88x1024.Idx → Elt F .f32)
    (hw : ∀ a b j, w a b j = FloatOps.addf (φ := .f32) (a j) (b j))
    (i : S352x1024.Idx) (hi : i ∈ rows S352x1024 (0 : Fin 2) (oA 0) (oA 0 + S88x1024.size 0)) :
    (b0.access (Rect.unit (s := S352x1024) oA S88x1024.size iA)).write (Elt F) (Ga1 m c)
        (w (b0.view.readAt (Elt F) (Rect.unit (s := S352x1024) oA S88x1024.size iA).toLoadRect (Ga1 m c))
           (b2.view.readAt (Elt F) (Rect.unit (s := S176x1024) oR S88x1024.size iR).toLoadRect (Gr1 m c)))
        Finset.univ i
      = Ga2 m c i := by
  have hi' : i ∈ (Rect.unit (s := S352x1024) oA S88x1024.size iA).set :=
    (mem_unit_iff_rows (s := S352x1024) (a := (0 : Fin 2)) (off := oA) (size := S88x1024.size) iA (slab₂ hcA rfl)).mpr hi
  have hr := (mem_rows.mp hi)
  rw [write_access_apply_of_mem (Elt F) cc0_scratch0 (off := oA) (size := S88x1024.size) iA (Ga1 m c) _ hi', hw,
    readAt_unit_apply (Elt F) cc0_scratch0 (off := oA) (size := S88x1024.size) iA,
    readAt_unit_apply (Elt F) cc0_scratch2 (off := oR) (size := S88x1024.size) iR, emb_localIdx]
  generalize hj : localIdx i hi' = j
  have hj0 : (j 0).val = (i 0).val - oA 0 := by rw [← hj]; rfl
  have hj1 : (j 1).val = (i 1).val - oA 1 := by rw [← hj]; rfl
  have h0 : ((Rect.unit (s := S176x1024) oR S88x1024.size iR).emb j 0).val = oR 0 + 1 * (j 0).val := rfl
  have h1 : ((Rect.unit (s := S176x1024) oR S88x1024.size iR).emb j 1).val = oR 1 + 1 * (j 1).val := rfl
  have e1 : ((Rect.unit (s := S176x1024) oR S88x1024.size iR).emb j 1 : Fin 1024) = (i 1 : Fin 1024) :=
    Fin.ext (by rw [h1, hj1, hcR, hcA]; omega)
  have e0 : clamp (glob0 c + ko c + ((Rect.unit (s := S176x1024) oR S88x1024.size iR).emb j 0).val)
      = clamp (glob0 c + (i 0).val) := by
    rw [h0, hj0]; congr 1; omega
  have key : ∀ (g g' : Fin 2048) (k k' : Fin 1024), g' = g → k' = k →
      FloatOps.addf (φ := .f32) (P1 pIdx (xs m) c g k) (P1 pIdx (xs m) (flip o1 c) g' k') = P2 pIdx (xs m) c g k := by
    intro g g' k k' hg hk; subst hg; subst hk; rw [P2_def, ord_pIdx_1]
  exact key _ _ _ _ e0 e1
theorem slab46 (c : Dev nD) : Slab S352x1024 (0 : Fin 2) (k0_off46 c) S88x1024.size :=
  slab₂ (d := S352x1024.size) (off := k0_off46 c) (size := S88x1024.size) (off46_col c) rfl
theorem slab47 (c : Dev nD) : Slab S176x1024 (0 : Fin 2) (k0_off47 c) S88x1024.size :=
  slab₂ (d := S176x1024.size) (off := k0_off47 c) (size := S88x1024.size) (off47_col c) rfl
theorem slab58 (c : Dev nD) : Slab S2048x1024 (0 : Fin 2) (k0_off58 c) S88x1024.size :=
  slab₂ (d := S2048x1024.size) (off := k0_off58 c) (size := S88x1024.size) (off58_col c) rfl
theorem store58 (c : Dev nD)
    (w : (S88x1024.Idx → Elt F .f32) → (S88x1024.Idx → Elt F .f32) → S88x1024.Idx → Elt F .f32)
    (hw : ∀ a b j, w a b j = FloatOps.addf (φ := .f32) (a j) (b j))
    (f : S2048x1024.Idx → Elt F .f32)
    (i : S2048x1024.Idx) (hi : i ∈ rows S2048x1024 (0 : Fin 2) (k0_off58 c 0) (k0_off58 c 0 + S88x1024.size 0)) :
    (bOut.access (u58 c)).write (Elt F) f
        (w (b0.view.readAt (Elt F) (u46 c).toLoadRect (Ga2 m c))
           (b3.view.readAt (Elt F) uW88.toLoadRect (Gr2 m c)))
        Finset.univ i
      = Gout m i := by
  have hi' : i ∈ (u58 c).set :=
    (mem_unit_iff_rows (s := S2048x1024) (a := (0 : Fin 2)) (off := k0_off58 c) (size := S88x1024.size) (k0_off58_inb c) (slab58 c)).mpr hi
  have hr := (mem_rows.mp hi)
  rw [write_access_apply_of_mem (Elt F) cc0_stg1_0 (off := k0_off58 c) (size := S88x1024.size) (k0_off58_inb c) f _ hi', hw,
    readAt_unit_apply (Elt F) cc0_scratch0 (off := k0_off46 c) (size := S88x1024.size) (k0_off46_inb c),
    readAt_unit_apply (Elt F) cc0_scratch3 (off := ![0, 0]) (size := S88x1024.size) inb_S88x1024_S88x1024_0_0]
  generalize hj : localIdx i hi' = j
  have hj0 : (j 0).val = (i 0).val - k0_off58 c 0 := by rw [← hj]; rfl
  have hj1 : (j 1).val = (i 1).val - k0_off58 c 1 := by rw [← hj]; rfl
  have hs : S88x1024.size 0 = nE := rfl
  have hlt : (i 0).val - k0_off58 c 0 < nE := by rw [hs] at hr; omega
  have hcl : clamp (i 0).val = (i 0 : Fin 2048) := clamp_of_lt (i 0).isLt
  have hsum : k0_off58 c 0 + ((i 0).val - k0_off58 c 0) = (i 0).val := by omega
  have ho := owner58 c ⟨(i 0).val - k0_off58 c 0, hlt⟩
  simp only [hsum, hcl] at ho
  have a0 : ((u46 c).emb j 0).val = k0_off46 c 0 + 1 * (j 0).val := rfl
  have a1 : ((u46 c).emb j 1).val = k0_off46 c 1 + 1 * (j 1).val := rfl
  have r0 : (uW88.emb j 0).val = 0 + 1 * (j 0).val := rfl
  have r1 : (uW88.emb j 1).val = 0 + 1 * (j 1).val := rfl
  have ea1 : ((u46 c).emb j 1 : Fin 1024) = (i 1 : Fin 1024) :=
    Fin.ext (by rw [a1, hj1, off46_col, off58_col]; omega)
  have er1 : (uW88.emb j 1 : Fin 1024) = (i 1 : Fin 1024) :=
    Fin.ext (by rw [r1, hj1, off58_col]; omega)
  have ea0 : clamp (glob0 c + ((u46 c).emb j 0).val) = (i 0 : Fin 2048) := by
    rw [a0, hj0, ← hcl]; congr 1; have := off58_acc c; omega
  have er0 : clamp (glob0 c + ko c + ko2 c + (uW88.emb j 0).val) = (i 0 : Fin 2048) := by
    rw [r0, hj0, ← hcl]; congr 1; have := off58_row c; omega
  have key : ∀ (p : Fin 3) (d : Dev nD) (g ga gr : Fin 2048) (k ka kr : Fin 1024), p = pIdx → d = c → ga = g → gr = g → ka = k → kr = k →
      FloatOps.addf (φ := .f32) (P2 pIdx (xs m) c ga ka) (P2 pIdx (xs m) (flip o2 c) gr kr) = P3 p (xs m) d g k := by
    intro p d g ga gr k ka kr hp hd h1 h2 h3 h4; subst hp; subst hd; subst h1; subst h2; subst h3; subst h4; rw [P3_def, ord_pIdx_2]
  exact key _ _ _ _ _ _ _ _ ho.2 ho.1 ea0 er0 ea1 er1
theorem slab26 (c : Dev nD) : Slab S352x1024 (0 : Fin 2) (k0_off26 c) S176x1024.size :=
  slab₂ (d := S352x1024.size) (off := k0_off26 c) (size := S176x1024.size) (off26_col c) rfl
theorem slab45 (c : Dev nD) : Slab S352x1024 (0 : Fin 2) (k0_off45 c) S88x1024.size :=
  slab₂ (d := S352x1024.size) (off := k0_off45 c) (size := S88x1024.size) (off45_colC c) rfl
theorem slab21f (c : Dev nD) : Slab S176x1024 (0 : Fin 2) (k0_off21 (flip o1 c)) S88x1024.size :=
  slab₂ (d := S176x1024.size) (off := k0_off21 (flip o1 c)) (size := S88x1024.size) (off21_colC (flip o1 c)) rfl
theorem slab24f (c : Dev nD) : Slab S176x1024 (0 : Fin 2) (k0_off24 (flip o1 c)) S88x1024.size :=
  slab₂ (d := S176x1024.size) (off := k0_off24 (flip o1 c)) (size := S88x1024.size) (off24_colC (flip o1 c)) rfl
theorem a26s_split (c : Dev nD) :
    a26s m c ⊢ iprop((((c : Thread nD τ).loc cc0_scratch0) ↦[rows S352x1024 (0 : Fin 2) (k0_off43 c 0) (k0_off43 c 0 + S88x1024.size 0)]{fullShare} (Ga1 m c))
      ∗ (((c : Thread nD τ).loc cc0_scratch0) ↦[rows S352x1024 (0 : Fin 2) (k0_off46 c 0) (k0_off46 c 0 + S88x1024.size 0)]{fullShare} (Ga1 m c))) := by
  have e : a26s m c = (((c : Thread nD τ).loc cc0_scratch0) ↦[rows S352x1024 (0 : Fin 2) (k0_off26 c 0) (k0_off26 c 0 + S176x1024.size 0)]{fullShare} (Ga1 m c) : sProp 𝕄) :=
    pointsTo_slice_eq (c : Thread nD τ) cc0_scratch0 (a := (0 : Fin 2)) (off := k0_off26 c) (size := S176x1024.size) (k0_off26_inb c) (fun _ => rfl) (slab26 c) fullShare (Ga1 m c)
  have e2 : k0_off26 c 0 + S176x1024.size 0 = k0_off26 c 0 + S88x1024.size 0 + S88x1024.size 0 := by rw [size176, Nat.add_assoc]
  rw [e, e2]
  have hsp : (((c : Thread nD τ).loc cc0_scratch0) ↦[rows S352x1024 (0 : Fin 2) (k0_off26 c 0) (k0_off26 c 0 + S88x1024.size 0 + S88x1024.size 0)]{fullShare} (Ga1 m c) : sProp 𝕄)
      ⊢ iprop((((c : Thread nD τ).loc cc0_scratch0) ↦[rows S352x1024 (0 : Fin 2) (k0_off26 c 0) (k0_off26 c 0 + S88x1024.size 0)]{fullShare} (Ga1 m c))
        ∗ (((c : Thread nD τ).loc cc0_scratch0) ↦[rows S352x1024 (0 : Fin 2) (k0_off26 c 0 + S88x1024.size 0) (k0_off26 c 0 + S88x1024.size 0 + S88x1024.size 0)]{fullShare} (Ga1 m c))) :=
    (pointsTo_rows_split_at (c : Thread nD τ) cc0_scratch0 (0 : Fin 2) (lo := k0_off26 c 0) (mid := k0_off26 c 0 + S88x1024.size 0)
      (hi := k0_off26 c 0 + S88x1024.size 0 + S88x1024.size 0) (Nat.le_add_right _ _) (Nat.le_add_right _ _) fullShare (Ga1 m c)).1
  rcases off43_off46_split c with ⟨h43, h46⟩ | ⟨h46, h43⟩
  · rw [h43, h46]; exact hsp
  · rw [h43, h46]; exact hsp.trans sep_comm.1
theorem acc43_to_src5 (c : Dev nD)
    (w : (S88x1024.Idx → Elt F .f32) → (S88x1024.Idx → Elt F .f32) → S88x1024.Idx → Elt F .f32)
    (hw : ∀ a b j, w a b j = FloatOps.addf (φ := .f32) (a j) (b j)) :
    ((((b0.access (u43 c)).loc (c : Thread nD τ)) ↦[rows S352x1024 (0 : Fin 2) (k0_off43 c 0) (k0_off43 c 0 + S88x1024.size 0)]{fullShare}
        ((b0.access (u43 c)).write (Elt F) (Ga1 m c)
          (w ((b0.access (u43 c)).read (Elt F) (Ga1 m c)) ((b2.access (u44 c)).read (Elt F) (Gr1 m c))) Finset.univ)) : sProp 𝕄)
      ⊢ (((src5 c).view.loc (c : Thread nD τ)) ↦[(src5 c).view.set]{shareOf s5} (Ga2 m c)) := by
  have e : ((((src5 c).view.loc (c : Thread nD τ)) ↦[(src5 c).view.set]{shareOf s5} (Ga2 m c)) : sProp 𝕄)
      = (((c : Thread nD τ).loc cc0_scratch0) ↦[rows S352x1024 (0 : Fin 2) (k0_off45 c 0) (k0_off45 c 0 + S88x1024.size 0)]{fullShare} (Ga2 m c)) :=
    pointsTo_slice_eq (c : Thread nD τ) cc0_scratch0 (a := (0 : Fin 2)) (off := k0_off45 c) (size := S88x1024.size) (k0_off45_inb c) (fun _ => rfl) (slab45 c) fullShare (Ga2 m c)
  rw [e, off45_eq c]
  exact Entails.of_eq (pointsTo_rows_congr_at (c : Thread nD τ) cc0_scratch0 (0 : Fin 2) fullShare (fun i hi => store_q m c _ _ (k0_off43_inb c) (k0_off44_inb c) (off43_col c) (off44_col c) (off43_row c) w hw i hi))
theorem acc46_to_a46s (c : Dev nD)
    (w : (S88x1024.Idx → Elt F .f32) → (S88x1024.Idx → Elt F .f32) → S88x1024.Idx → Elt F .f32)
    (hw : ∀ a b j, w a b j = FloatOps.addf (φ := .f32) (a j) (b j)) :
    ((((b0.access (u46 c)).loc (c : Thread nD τ)) ↦[rows S352x1024 (0 : Fin 2) (k0_off46 c 0) (k0_off46 c 0 + S88x1024.size 0)]{fullShare}
        ((b0.access (u46 c)).write (Elt F) (Ga1 m c)
          (w ((b0.access (u46 c)).read (Elt F) (Ga1 m c)) ((b2.access (u47 c)).read (Elt F) (Gr1 m c))) Finset.univ)) : sProp 𝕄)
      ⊢ a46s m c := by
  have e : a46s m c = (((c : Thread nD τ).loc cc0_scratch0) ↦[rows S352x1024 (0 : Fin 2) (k0_off46 c 0) (k0_off46 c 0 + S88x1024.size 0)]{fullShare} (Ga2 m c) : sProp 𝕄) :=
    pointsTo_slice_eq (c : Thread nD τ) cc0_scratch0 (a := (0 : Fin 2)) (off := k0_off46 c) (size := S88x1024.size) (k0_off46_inb c) (fun _ => rfl) (slab46 c) fullShare (Ga2 m c)
  rw [e]
  exact Entails.of_eq (pointsTo_rows_congr_at (c : Thread nD τ) cc0_scratch0 (0 : Fin 2) fullShare (fun i hi => store_q m c _ _ (k0_off46_inb c) (k0_off47_inb c) (off46_col c) (off47_col c) (off46_row c) w hw i hi))
theorem recv3_rows (c : Dev nD) (G : S176x1024.Idx → Elt F .f32) :
    ((((dst3 (flip o1 c)).view.loc (c : Thread nD τ)) ↦[(dst3 (flip o1 c)).view.set]{fullShare} G) : sProp 𝕄)
      = (((c : Thread nD τ).loc cc0_scratch2) ↦[rows S176x1024 (0 : Fin 2) (k0_off44 c 0) (k0_off44 c 0 + S88x1024.size 0)]{fullShare} G) := by
  rw [off44_flip c]
  exact pointsTo_slice_eq (c : Thread nD τ) cc0_scratch2 (a := (0 : Fin 2)) (off := k0_off21 (flip o1 c)) (size := S88x1024.size) (k0_off21_inb (flip o1 c)) (fun _ => rfl) (slab21f c) fullShare G
theorem recv4_rows (c : Dev nD) (G : S176x1024.Idx → Elt F .f32) :
    ((((dst4 (flip o1 c)).view.loc (c : Thread nD τ)) ↦[(dst4 (flip o1 c)).view.set]{fullShare} G) : sProp 𝕄)
      = (((c : Thread nD τ).loc cc0_scratch2) ↦[rows S176x1024 (0 : Fin 2) (k0_off47 c 0) (k0_off47 c 0 + S88x1024.size 0)]{fullShare} G) := by
  rw [off47_flip c]
  exact pointsTo_slice_eq (c : Thread nD τ) cc0_scratch2 (a := (0 : Fin 2)) (off := k0_off24 (flip o1 c)) (size := S88x1024.size) (k0_off24_inb (flip o1 c)) (fun _ => rfl) (slab24f c) fullShare G
theorem sub43 (c : Dev nD) : (b0.access (u43 c)).set ⊆ rows S352x1024 (0 : Fin 2) (k0_off43 c 0) (k0_off43 c 0 + S88x1024.size 0) :=
  (access_set cc0_scratch0 (a := (0 : Fin 2)) (off := k0_off43 c) (size := S88x1024.size) (k0_off43_inb c) (slab43 c)).subset
theorem sub44 (c : Dev nD) : (b2.access (u44 c)).set ⊆ rows S176x1024 (0 : Fin 2) (k0_off44 c 0) (k0_off44 c 0 + S88x1024.size 0) :=
  (access_set cc0_scratch2 (a := (0 : Fin 2)) (off := k0_off44 c) (size := S88x1024.size) (k0_off44_inb c) (slab44 c)).subset
theorem sub46 (c : Dev nD) : (b0.access (u46 c)).set ⊆ rows S352x1024 (0 : Fin 2) (k0_off46 c 0) (k0_off46 c 0 + S88x1024.size 0) :=
  (access_set cc0_scratch0 (a := (0 : Fin 2)) (off := k0_off46 c) (size := S88x1024.size) (k0_off46_inb c) (slab46 c)).subset
theorem sub47 (c : Dev nD) : (b2.access (u47 c)).set ⊆ rows S176x1024 (0 : Fin 2) (k0_off47 c 0) (k0_off47 c 0 + S88x1024.size 0) :=
  (access_set cc0_scratch2 (a := (0 : Fin 2)) (off := k0_off47 c) (size := S88x1024.size) (k0_off47_inb c) (slab47 c)).subset
/-- Read a rectangle of the accumulator and the facing rectangle of the landing buffer and store their combination back on the accumulator's: both stay held, the accumulator's at the written contents. -/
theorem acc_step (c : Dev nD) {α : Type} {Q : α → sProp 𝕄} (rA : Rect S352x1024) (rR : Rect S176x1024)
    {RA : Finset S352x1024.Idx} {RR : Finset S176x1024.Idx} (hSA : (b0.access rA).set ⊆ RA) (hSR : (b2.access rR).set ⊆ RR)
    (k : PUnit → Prog (TpuEff nD τ sig (Elt F) Λ₀ .tc) α)
    (w : (rA.shape.Idx → Elt F .f32) → (rR.shape.Idx → Elt F .f32) → (rA.shape.Idx → Elt F .f32) → rA.shape.Idx → Elt F .f32)
    {hl1 : b0.view.LoadsAt rA.toLoadRect}
    {hl2 : b2.view.LoadsAt rR.toLoadRect}
    {hl3 : b0.view.LoadsAt rA.toLoadRect}
    {hx : (b0.access rA).Stores Finset.univ}
    {hm : (Finset.univ : Finset rA.shape.Idx) = Finset.univ ∨ ∀ a, rA.stride a = 1} :
    iprop((((c : Thread nD τ).loc cc0_scratch0) ↦[RA]{fullShare} (Ga1 m c))
        ∗ (((c : Thread nD τ).loc cc0_scratch2) ↦[RR]{fullShare} (Gr1 m c)))
      ⊢ iprop((((((b0.access rA).loc (c : Thread nD τ)) ↦[RA]{fullShare} ((b0.access rA).write (Elt F) (Ga1 m c) (w ((b0.access rA).read (Elt F) (Ga1 m c)) ((b2.access rR).read (Elt F) (Gr1 m c)) ((b0.access rA).read (Elt F) (Ga1 m c))) Finset.univ))
            ∗ (((c : Thread nD τ).loc cc0_scratch2) ↦[RR]{fullShare} (Gr1 m c))) -∗ wp frame (wpE (defs₀ (F := F)) Variants.none (c : Thread nD τ) none) Set.univ (k ⟨⟩) Q)
          -∗ wp frame (wpE (defs₀ (F := F)) Variants.none (c : Thread nD τ) none) Set.univ (.op (.load b0 rA.toLoadRect hl1) fun va =>
              .op (.load b2 rR.toLoadRect hl2) fun vb =>
              .op (.load b0 rA.toLoadRect hl3) fun va' =>
              .op (.store b0 rA (w va vb va') Finset.univ hx hm) k) Q) := by
  have hSA' : (b0.access rA).setOn Finset.univ ⊆ RA := by
    rw [View.setOn_univ]; exact hSA
  iintro ⟨HA, HR⟩ Hk
  iapply (wp_load_rect Variants.none (c : Thread nD τ) none Set.univ (m := b0) (r := rA) hSA) $$ HA; iintro HA
  iapply (wp_load_rect Variants.none (c : Thread nD τ) none Set.univ (m := b2) (r := rR) hSR) $$ HR; iintro HR
  iapply (wp_load_rect Variants.none (c : Thread nD τ) none Set.univ (m := b0) (r := rA) hSA) $$ HA; iintro HA
  iapply (wp_store Variants.none (c : Thread nD τ) none Set.univ (m := b0) (r := rA) (Mk := Finset.univ) hSA') $$ HA; iintro HA
  iapply Hk
  isplitl [HA]
  · iexact HA
  · iexact HR
theorem slab59 (c : Dev nD) : Slab S2048x1024 (0 : Fin 2) (k0_off59 c) S88x1024.size :=
  slab₂ (d := S2048x1024.size) (off := k0_off59 c) (size := S88x1024.size) (off59_col c) rfl
theorem out58_to_src6 (c : Dev nD)
    (w : (S88x1024.Idx → Elt F .f32) → (S88x1024.Idx → Elt F .f32) → S88x1024.Idx → Elt F .f32)
    (hw : ∀ a b j, w a b j = FloatOps.addf (φ := .f32) (a j) (b j))
    (f : S2048x1024.Idx → Elt F .f32) :
    ((((bOut.access (u58 c)).loc (c : Thread nD τ)) ↦[((bOut.slice (u58 c) (fun _ => rfl))).view.set]{fullShare}
        ((bOut.access (u58 c)).write (Elt F) f
          (w ((b0.access (u46 c)).read (Elt F) (Ga2 m c)) ((b3.access uW88).read (Elt F) (Gr2 m c))) Finset.univ)) : sProp 𝕄)
      ⊢ (((src6 c).view.loc (c : Thread nD τ)) ↦[(src6 c).view.set]{fullShare} (Gout m)) := by
  have e1 : ∀ g : S2048x1024.Idx → Elt F .f32, (((((bOut.slice (u58 c) (fun _ => rfl))).view.loc (c : Thread nD τ)) ↦[((bOut.slice (u58 c) (fun _ => rfl))).view.set]{fullShare} g) : sProp 𝕄)
      = (((c : Thread nD τ).loc cc0_stg1_0) ↦[rows S2048x1024 (0 : Fin 2) (k0_off58 c 0) (k0_off58 c 0 + S88x1024.size 0)]{fullShare} g) := fun g =>
    pointsTo_slice_eq (c : Thread nD τ) cc0_stg1_0 (a := (0 : Fin 2)) (off := k0_off58 c) (size := S88x1024.size) (k0_off58_inb c) (fun _ => rfl) (slab58 c) fullShare g
  have e2 : ((((src6 c).view.loc (c : Thread nD τ)) ↦[(src6 c).view.set]{fullShare} (Gout m)) : sProp 𝕄)
      = (((c : Thread nD τ).loc cc0_stg1_0) ↦[rows S2048x1024 (0 : Fin 2) (k0_off59 c 0) (k0_off59 c 0 + S88x1024.size 0)]{fullShare} (Gout m)) :=
    pointsTo_slice_eq (c : Thread nD τ) cc0_stg1_0 (a := (0 : Fin 2)) (off := k0_off59 c) (size := S88x1024.size) (k0_off59_inb c) (fun _ => rfl) (slab59 c) fullShare (Gout m)
  rw [e2, off59_eq c]
  refine (Entails.of_eq (e1 _)).trans ?_
  exact Entails.of_eq (pointsTo_rows_congr_at (c : Thread nD τ) cc0_stg1_0 (0 : Fin 2) fullShare (fun i hi => store58 m c w hw f i hi))
set_option maxRecDepth 65536 in
theorem seg_p2 (K : Dev nD × Fin 73 → ℕ) (c : Dev nD) {α : Type} {Q : α → sProp 𝕄}
    (k : PUnit → Prog (TpuEff nD τ sig (Elt F) Λ₀ .tc) α) (l : List (Fin 36)) (W : Waits sig Unit)
    (hl : ∀ s ∈ l, pos s5 < pos s)
    (n19 : Dev nD) (hn19 : n19 = flip o2 c)
    (sS3 sR3 sS4 sR4 sS5 sR5 : DmaSem sig)
    (hS3 : sS3 = sendSem s3) (hR3 : sR3 = recvSem s3) (hS4 : sS4 = sendSem s4) (hR4 : sR4 = recvSem s4)
    (hS5 : sS5 = sendSem s5) (hR5 : sR5 = recvSem s5)
    (w78 w85 : (S88x1024.Idx → Elt F .f32) → (S88x1024.Idx → Elt F .f32) → (S88x1024.Idx → Elt F .f32) → S88x1024.Idx → Elt F .f32)
    (hw78 : ∀ a b a' j, w78 a b a' j = FloatOps.addf (φ := .f32) (a j) (b j))
    (hw85 : ∀ a b a' j, w85 a b a' j = FloatOps.addf (φ := .f32) (a j) (b j))
    (hland_s5 : ∀ fd, (((dst5 c).view.loc (Dev.tc n19 : Thread nD τ)) ↦[(dst5 c).view.set]{fullShare}
        ((dst5 c).view.write (Elt F) fd ((src5 c).view.read (Elt F) (Ga2 m c)) Finset.univ) : sProp 𝕄) ⊢ recvPay m n19 s5)
    {h73a : (dst3 c).view.WordExact} {h73b : (src3 c).view.WordExact} {h74a : (src3 c).view.WordExact} {h74b : (dst3 c).view.WordExact}
    {h80a : (dst4 c).view.WordExact} {h80b : (src4 c).view.WordExact} {h81a : (src4 c).view.WordExact} {h81b : (dst4 c).view.WordExact}
    {hl75 : b0.view.LoadsAt (u43 c).toLoadRect}
    {hl76 : b2.view.LoadsAt (u44 c).toLoadRect}
    {hl77 : b0.view.LoadsAt (u43 c).toLoadRect}
    {hx78 : (b0.access (u43 c)).Stores Finset.univ}
    {hm78 : (Finset.univ : Finset (u43 c).shape.Idx) = Finset.univ ∨ ∀ a, (u43 c).stride a = 1}
    {hsc79 : ((dst5 c) : Memref sig (Dev.tc n19 : Thread nD τ).2.kind .vmem S88x1024 .f32).view.ref.isScScratch = false}
    {hsrc79 : (src5 c).view.WordExact} {hdst79 : (dst5 c).view.WordExact}
    {hsem79 : DmaTarget.Typed .vmem (.dma sR5) (.remote (Dev.tc n19 : Thread nD τ) (dst5 c) (.dma sS5) hsc79)}
    {hl82 : b0.view.LoadsAt (u46 c).toLoadRect}
    {hl83 : b2.view.LoadsAt (u47 c).toLoadRect}
    {hl84 : b0.view.LoadsAt (u46 c).toLoadRect}
    {hx85 : (b0.access (u46 c)).Stores Finset.univ}
    {hm85 : (Finset.univ : Finset (u46 c).shape.Idx) = Finset.univ ∨ ∀ a, (u46 c).stride a = 1} :
    iprop(records (pay m) K ∗ levAts L lv ∗ B2 m c ∗ owes (c : Thread nD τ) (owedL (pay m) c (s5 :: l)) W)
      ⊢ iprop(((B3 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (.op (.waitDma2 sS3 (dst3 c) (src3 c) h73a h73b) fun _ =>
              .op (.waitDma2 sR3 (src3 c) (dst3 c) h74a h74b) fun _ =>
              .op (.load b0 (u43 c).toLoadRect hl75) fun v524 =>
              .op (.load b2 (u44 c).toLoadRect hl76) fun v526 =>
              .op (.load b0 (u43 c).toLoadRect hl77) fun v530 =>
              .op (.store b0 (u43 c) (w78 v524 v526 v530) Finset.univ hx78 hm78) fun _ =>
              .op (.enqueueDma (src5 c) (.remote (Dev.tc n19 : Thread nD τ) (dst5 c) (.dma sS5) hsc79) (.dma sR5) hsrc79 hdst79 hsem79) fun _ =>
              .op (.waitDma2 sS4 (dst4 c) (src4 c) h80a h80b) fun _ =>
              .op (.waitDma2 sR4 (src4 c) (dst4 c) h81a h81b) fun _ =>
              .op (.load b0 (u46 c).toLoadRect hl82) fun v553 =>
              .op (.load b2 (u47 c).toLoadRect hl83) fun v555 =>
              .op (.load b0 (u46 c).toLoadRect hl84) fun v559 =>
              .op (.store b0 (u46 c) (w85 v553 v555 v559) Finset.univ hx85 hm85) k) Q) := by
  subst hS3 hR3 hS4 hR4 hS5 hR5
  have hn19' : n19 = flip (ax s5) c := by rw [ax_s5]; exact hn19
  have mwS3 : (levAts L lv : sProp 𝕄) ⊢ MayWait (c : Thread nD τ) (.dma (sendSem s3)) () (owedL (pay m) c (s5 :: l)) :=
    mayWait_owedL (pay m) c (.dma (sendSem s3)) (s5 :: l) (2 + pos s3) (by rw [lv_send]; exact Nat.zero_le _)
      (fun s hs => by rcases List.mem_cons.mp hs with rfl | hs; exacts [by have := pos_s3_s5; omega, by have := hl s hs; have := pos_s3_s5; omega])
  have mwR3 : (levAts L lv : sProp 𝕄) ⊢ MayWait (c : Thread nD τ) (.dma (recvSem s3)) () (owedL (pay m) c (s5 :: l)) :=
    mayWait_owedL (pay m) c (.dma (recvSem s3)) (s5 :: l) (2 + pos s3) (by rw [lv_recv])
      (fun s hs => by rcases List.mem_cons.mp hs with rfl | hs; exacts [by have := pos_s3_s5; omega, by have := hl s hs; have := pos_s3_s5; omega])
  have mwS4 : (levAts L lv : sProp 𝕄) ⊢ MayWait (c : Thread nD τ) (.dma (sendSem s4)) () (owedL (pay m) c (l)) :=
    mayWait_owedL (pay m) c (.dma (sendSem s4)) (l) (2 + pos s4) (by rw [lv_send]; exact Nat.zero_le _)
      (fun s hs => by have := hl s hs; have := pos_s4_s5; omega)
  have mwR4 : (levAts L lv : sProp 𝕄) ⊢ MayWait (c : Thread nD τ) (.dma (recvSem s4)) () (owedL (pay m) c (l)) :=
    mayWait_owedL (pay m) c (.dma (recvSem s4)) (l) (2 + pos s4) (by rw [lv_recv])
      (fun s hs => by have := hl s hs; have := pos_s4_s5; omega)
  unfold B2 B3
  iintro ⟨#HR, #HL, ⟨⟨D0, D1, D2, F3, F4, T5, T6, T7, T8, T9, T10, T11⟩, Hxl, Ha26, Ho58⟩, Ho⟩ Hk
  iapply (step_waits m K c s3 (sendSem s3) (recvSem s3) rfl rfl (dst3 c) (src3 c) (src3 c) (dst3 c) rfl (dstAny_credit c s3) (owedL (pay m) c (s5 :: l)) W mwS3 mwR3) $$ [F3 Ho]
  · iframe # ∗
  iintro ⟨D3, %W1, Ho⟩
  ihave D3 := (Entails.of_eq rfl : slotDone m c s3 ⊢ iprop(sendPay m c s3 ∗ (((dst3 (flip o1 c)).view.loc (c : Thread nD τ)) ↦[(dst3 (flip o1 c)).view.set]{fullShare} (Gr1 m c)) ∗ atPos ER (sendCell c s3) 1 (∅ : Finset (Fin 3)) 0 ∗ atPos ER (recvCell c s3) 1 (∅ : Finset (Fin 3)) 0)) $$ D3
  icases D3 with ⟨S3, Rv3, P3a, P3b⟩
  ihave Rv3 := (Entails.of_eq (recv3_rows c (Gr1 m c))) $$ Rv3
  ihave Ha := (a26s_split m c) $$ Ha26
  icases Ha with ⟨A43, A46⟩
  iapply (acc_step m c (u43 c) (u44 c) (sub43 c) (sub44 c) _ w78) $$ [A43 Rv3]
  · iframe
  iintro ⟨A43, Rv3⟩
  ihave Hsrc := (acc43_to_src5 m c (fun a b => w78 a b ((b0.access (u43 c)).read (Elt F) (Ga1 m c))) (fun a b j => hw78 a b ((b0.access (u43 c)).read (Elt F) (Ga1 m c)) j)) $$ A43
  iapply (step_enq m K c n19 s5 hn19' (src5 c) (dst5 c) rfl (sendSem s5) (recvSem s5) rfl rfl (Ga2 m c) (Entails.of_eq rfl) hland_s5 (owedL (pay m) c l) W1) $$ [T5 Hsrc Ho]
  · isplitr; · iexact HR
    isplitl [T5]; · iexact T5
    isplitl [Hsrc]; · iexact Hsrc
    iexact Ho
  iintro ⟨F5, Ho⟩
  iapply (step_waits m K c s4 (sendSem s4) (recvSem s4) rfl rfl (dst4 c) (src4 c) (src4 c) (dst4 c) rfl (dstAny_credit c s4) (owedL (pay m) c l) W1 mwS4 mwR4) $$ [F4 Ho]
  · iframe # ∗
  iintro ⟨D4, %W2, Ho⟩
  ihave D4 := (Entails.of_eq rfl : slotDone m c s4 ⊢ iprop(sendPay m c s4 ∗ (((dst4 (flip o1 c)).view.loc (c : Thread nD τ)) ↦[(dst4 (flip o1 c)).view.set]{fullShare} (Gr1 m c)) ∗ atPos ER (sendCell c s4) 1 (∅ : Finset (Fin 3)) 0 ∗ atPos ER (recvCell c s4) 1 (∅ : Finset (Fin 3)) 0)) $$ D4
  icases D4 with ⟨S4, Rv4, P4a, P4b⟩
  ihave Rv4 := (Entails.of_eq (recv4_rows c (Gr1 m c))) $$ Rv4
  iapply (acc_step m c (u46 c) (u47 c) (sub46 c) (sub47 c) _ w85) $$ [A46 Rv4]
  · iframe
  iintro ⟨A46, Rv4⟩
  ihave Ha46 := (acc46_to_a46s m c (fun a b => w85 a b ((b0.access (u46 c)).read (Elt F) (Ga1 m c))) (fun a b j => hw85 a b ((b0.access (u46 c)).read (Elt F) (Ga1 m c)) j)) $$ A46
  ihave Rv3 := (Entails.of_eq (recv3_rows c (Gr1 m c)).symm) $$ Rv3
  ihave Rv4 := (Entails.of_eq (recv4_rows c (Gr1 m c)).symm) $$ Rv4
  ihave D3 := (Entails.of_eq rfl : iprop(sendPay m c s3 ∗ (((dst3 (flip o1 c)).view.loc (c : Thread nD τ)) ↦[(dst3 (flip o1 c)).view.set]{fullShare} (Gr1 m c)) ∗ atPos ER (sendCell c s3) 1 (∅ : Finset (Fin 3)) 0 ∗ atPos ER (recvCell c s3) 1 (∅ : Finset (Fin 3)) 0) ⊢ slotDone m c s3) $$ [S3 Rv3 P3a P3b]
  · iframe
  ihave D4 := (Entails.of_eq rfl : iprop(sendPay m c s4 ∗ (((dst4 (flip o1 c)).view.loc (c : Thread nD τ)) ↦[(dst4 (flip o1 c)).view.set]{fullShare} (Gr1 m c)) ∗ atPos ER (sendCell c s4) 1 (∅ : Finset (Fin 3)) 0 ∗ atPos ER (recvCell c s4) 1 (∅ : Finset (Fin 3)) 0) ⊢ slotDone m c s4) $$ [S4 Rv4 P4a P4b]
  · iframe
  iapply Hk
  isplitr [Ho]
  · iframe
  · iexists W2; iexact Ho
set_option maxRecDepth 65536 in
theorem seg_p3 (K : Dev nD × Fin 73 → ℕ) (c : Dev nD) {α : Type} {Q : α → sProp 𝕄}
    (k : PUnit → Prog (TpuEff nD τ sig (Elt F) Λ₀ .tc) α) (l : List (Fin 36)) (W : Waits sig Unit)
    (hl : ∀ s ∈ l, pos s9 < pos s)
    (n22 n23 n24 : Dev nD) (hn22 : n22 = flip o2 c) (hn23 : n23 = flip o1 c) (hn24 : n24 = flip o0 c)
    (sS5 sR5 sS6 sR6 sS7 sR7 sS9 sR9 : DmaSem sig)
    (hS5 : sS5 = sendSem s5) (hR5 : sR5 = recvSem s5) (hS6 : sS6 = sendSem s6) (hR6 : sR6 = recvSem s6)
    (hS7 : sS7 = sendSem s7) (hR7 : sR7 = recvSem s7) (hS9 : sS9 = sendSem s9) (hR9 : sR9 = recvSem s9)
    (w117 : (S88x1024.Idx → Elt F .f32) → (S88x1024.Idx → Elt F .f32) → (S88x1024.Idx → Elt F .f32) → S88x1024.Idx → Elt F .f32)
    (hw117 : ∀ a b a' j, w117 a b a' j = FloatOps.addf (φ := .f32) (a j) (b j))
    (hland_s6 : ∀ fd, (((dst6 c).view.loc (Dev.tc n22 : Thread nD τ)) ↦[(dst6 c).view.set]{fullShare}
        ((dst6 c).view.write (Elt F) fd ((src6 c).view.read (Elt F) (Gout m)) Finset.univ) : sProp 𝕄) ⊢ recvPay m n22 s6)
    (hland_s7 : ∀ fd, (((dst7 c).view.loc (Dev.tc n23 : Thread nD τ)) ↦[(dst7 c).view.set]{fullShare}
        ((dst7 c).view.write (Elt F) fd ((src7 c).view.read (Elt F) (Gout m)) Finset.univ) : sProp 𝕄) ⊢ recvPay m n23 s7)
    (hland_s9 : ∀ fd, (((dst9 c).view.loc (Dev.tc n24 : Thread nD τ)) ↦[(dst9 c).view.set]{fullShare}
        ((dst9 c).view.write (Elt F) fd ((src9 c).view.read (Elt F) (Gout m)) Finset.univ) : sProp 𝕄) ⊢ recvPay m n24 s9)
    {h112a : (dst5 c).view.WordExact} {h112b : (src5 c).view.WordExact} {h113a : (src5 c).view.WordExact} {h113b : (dst5 c).view.WordExact}
    {hl114 : b0.view.LoadsAt (u46 c).toLoadRect}
    {hl115 : b3.view.LoadsAt uW88.toLoadRect}
    {hl116 : bOut.view.LoadsAt (u58 c).toLoadRect}
    {hx117 : (bOut.access (u58 c)).Stores Finset.univ}
    {hm117 : (Finset.univ : Finset (u58 c).shape.Idx) = Finset.univ ∨ ∀ a, (u58 c).stride a = 1}
    {hsc118 : ((dst6 c) : Memref sig (Dev.tc n22 : Thread nD τ).2.kind .vmem S88x1024 .f32).view.ref.isScScratch = false}
    {hsrc118 : (src6 c).view.WordExact} {hdst118 : (dst6 c).view.WordExact}
    {hsem118 : DmaTarget.Typed .vmem (.dma sR6) (.remote (Dev.tc n22 : Thread nD τ) (dst6 c) (.dma sS6) hsc118)}
    {hsc119 : ((dst7 c) : Memref sig (Dev.tc n23 : Thread nD τ).2.kind .vmem S88x1024 .f32).view.ref.isScScratch = false}
    {hsrc119 : (src7 c).view.WordExact} {hdst119 : (dst7 c).view.WordExact}
    {hsem119 : DmaTarget.Typed .vmem (.dma sR7) (.remote (Dev.tc n23 : Thread nD τ) (dst7 c) (.dma sS7) hsc119)}
    {hsc120 : ((dst9 c) : Memref sig (Dev.tc n24 : Thread nD τ).2.kind .vmem S88x1024 .f32).view.ref.isScScratch = false}
    {hsrc120 : (src9 c).view.WordExact} {hdst120 : (dst9 c).view.WordExact}
    {hsem120 : DmaTarget.Typed .vmem (.dma sR9) (.remote (Dev.tc n24 : Thread nD τ) (dst9 c) (.dma sS9) hsc120)} :
    iprop(records (pay m) K ∗ levAts L lv ∗ B3 m c ∗ owes (c : Thread nD τ) (owedL (pay m) c (s6 :: s7 :: s9 :: l)) W)
      ⊢ iprop(((B4 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (.op (.waitDma2 sS5 (dst5 c) (src5 c) h112a h112b) fun _ =>
              .op (.waitDma2 sR5 (src5 c) (dst5 c) h113a h113b) fun _ =>
              .op (.load b0 (u46 c).toLoadRect hl114) fun v683 =>
              .op (.load b3 uW88.toLoadRect hl115) fun v684 =>
              .op (.load bOut (u58 c).toLoadRect hl116) fun v687 =>
              .op (.store bOut (u58 c) (w117 v683 v684 v687) Finset.univ hx117 hm117) fun _ =>
              .op (.enqueueDma (src6 c) (.remote (Dev.tc n22 : Thread nD τ) (dst6 c) (.dma sS6) hsc118) (.dma sR6) hsrc118 hdst118 hsem118) fun _ =>
              .op (.enqueueDma (src7 c) (.remote (Dev.tc n23 : Thread nD τ) (dst7 c) (.dma sS7) hsc119) (.dma sR7) hsrc119 hdst119 hsem119) fun _ =>
              .op (.enqueueDma (src9 c) (.remote (Dev.tc n24 : Thread nD τ) (dst9 c) (.dma sS9) hsc120) (.dma sR9) hsrc120 hdst120 hsem120) k) Q) := by
  subst hS5 hR5 hS6 hR6 hS7 hR7 hS9 hR9
  have hn22' : n22 = flip (ax s6) c := by rw [ax_s6C]; exact hn22
  have hn23' : n23 = flip (ax s7) c := by rw [ax_s7C]; exact hn23
  have hn24' : n24 = flip (ax s9) c := by rw [ax_s9]; exact hn24
  have mwS5 : (levAts L lv : sProp 𝕄) ⊢ MayWait (c : Thread nD τ) (.dma (sendSem s5)) () (owedL (pay m) c (s6 :: s7 :: s9 :: l)) :=
    mayWait_owedL (pay m) c (.dma (sendSem s5)) (s6 :: s7 :: s9 :: l) (2 + pos s5) (by rw [lv_send]; exact Nat.zero_le _)
      (fun s hs => by
        simp only [List.mem_cons] at hs
        rcases hs with rfl | rfl | rfl | hs
        exacts [by have := pos_s5_s6; omega, by have := pos_s5_s7; omega, by have := pos_s5_s9; omega, by have := hl s hs; have := pos_s5_s9; omega])
  have mwR5 : (levAts L lv : sProp 𝕄) ⊢ MayWait (c : Thread nD τ) (.dma (recvSem s5)) () (owedL (pay m) c (s6 :: s7 :: s9 :: l)) :=
    mayWait_owedL (pay m) c (.dma (recvSem s5)) (s6 :: s7 :: s9 :: l) (2 + pos s5) (by rw [lv_recv])
      (fun s hs => by
        simp only [List.mem_cons] at hs
        rcases hs with rfl | rfl | rfl | hs
        exacts [by have := pos_s5_s6; omega, by have := pos_s5_s7; omega, by have := pos_s5_s9; omega, by have := hl s hs; have := pos_s5_s9; omega])
  have hS46 : (b0.access (u46 c)).set ⊆ ((b0.slice (u46 c) (fun _ => rfl))).view.set :=
    ((access_set cc0_scratch0 (a := (0 : Fin 2)) (off := k0_off46 c) (size := S88x1024.size) (k0_off46_inb c) (slab46 c)).trans
      (slice_view_set cc0_scratch0 (a := (0 : Fin 2)) (off := k0_off46 c) (size := S88x1024.size) (k0_off46_inb c) (fun _ => rfl) (slab46 c)).symm).subset
  have hS0 : (b3.access uW88).set ⊆ (dst5 (flip o2 c)).view.set := by
    have h : (dst5 (flip o2 c)).view.set = Finset.univ := View.setOn_whole_univ cc0_scratch3
    rw [h]; exact Finset.subset_univ _
  have hS58 : (bOut.access (u58 c)).set ⊆ ((bOut.slice (u58 c) (fun _ => rfl))).view.set :=
    ((access_set cc0_stg1_0 (a := (0 : Fin 2)) (off := k0_off58 c) (size := S88x1024.size) (k0_off58_inb c) (slab58 c)).trans
      (slice_view_set cc0_stg1_0 (a := (0 : Fin 2)) (off := k0_off58 c) (size := S88x1024.size) (k0_off58_inb c) (fun _ => rfl) (slab58 c)).symm).subset
  have hS58' : (bOut.access (u58 c)).setOn Finset.univ ⊆ ((bOut.slice (u58 c) (fun _ => rfl))).view.set := hS58
  unfold B3 B4
  iintro ⟨#HR, #HL, ⟨⟨D0, D1, D2, D3, D4, F5, T6, T7, T8, T9, T10, T11⟩, Hxl, Ha46, Ho58⟩, Ho⟩ Hk
  iapply (step_waits m K c s5 (sendSem s5) (recvSem s5) rfl rfl (dst5 c) (src5 c) (src5 c) (dst5 c) rfl (dstAny_credit c s5) (owedL (pay m) c (s6 :: s7 :: s9 :: l)) W mwS5 mwR5) $$ [F5 Ho]
  · iframe # ∗
  iintro ⟨D5, %W1, Ho⟩
  ihave D5 := (Entails.of_eq rfl : slotDone m c s5 ⊢ iprop(sendPay m c s5 ∗ (((dst5 (flip o2 c)).view.loc (c : Thread nD τ)) ↦[(dst5 (flip o2 c)).view.set]{fullShare} (Gr2 m c)) ∗ atPos ER (sendCell c s5) 1 (∅ : Finset (Fin 3)) 0 ∗ atPos ER (recvCell c s5) 1 (∅ : Finset (Fin 3)) 0)) $$ D5
  icases D5 with ⟨S5, Rv5, P5a, P5b⟩
  ihave Ha46 := (Entails.of_eq rfl : a46s m c ⊢ ((((b0.slice (u46 c) (fun _ => rfl))).view.loc (c : Thread nD τ)) ↦[((b0.slice (u46 c) (fun _ => rfl))).view.set]{fullShare} (Ga2 m c))) $$ Ha46
  ihave Ho58 := (Entails.of_eq (heldQ_def fullShare c _) : o58 c ⊢ _) $$ Ho58
  icases Ho58 with ⟨%f58, Ho58⟩
  iapply (wp_load_rect Variants.none (c : Thread nD τ) none Set.univ (m := b0) (r := (u46 c)) hS46) $$ Ha46; iintro Ha46
  iapply (wp_load_rect Variants.none (c : Thread nD τ) none Set.univ (m := b3) (r := uW88) hS0) $$ Rv5; iintro Rv5
  iapply (wp_load_rect Variants.none (c : Thread nD τ) none Set.univ (m := bOut) (r := (u58 c)) hS58) $$ Ho58; iintro Ho58
  iapply (wp_store Variants.none (c : Thread nD τ) none Set.univ (m := bOut) (r := (u58 c)) (Mk := Finset.univ) hS58') $$ Ho58; iintro Ho58
  ihave Hsrc := (out58_to_src6 m c (fun a b => w117 a b ((bOut.access (u58 c)).read (Elt F) f58)) (fun a b j => hw117 a b ((bOut.access (u58 c)).read (Elt F) f58) j) f58) $$ Ho58
  ihave Hsrc := (pointsTo_share (PosShare.mem_left_op_right fullShare)).1 $$ Hsrc
  icases Hsrc with ⟨H6, Hsrc⟩
  ihave Hsrc := (pointsTo_share (PosShare.mem_left_op_right fullShare.right)).1 $$ Hsrc
  icases Hsrc with ⟨H7, H9⟩
  ihave H6 := (Entails.of_eq rfl : (((src6 c).view.loc (c : Thread nD τ)) ↦[(src6 c).view.set]{fullShare.left} (Gout m)) ⊢ (((src6 c).view.loc (c : Thread nD τ)) ↦[(src6 c).view.set]{shareOf s6} (Gout m))) $$ H6
  ihave H7 := (Entails.of_eq rfl : (((src6 c).view.loc (c : Thread nD τ)) ↦[(src6 c).view.set]{fullShare.right.left} (Gout m)) ⊢ (((src7 c).view.loc (c : Thread nD τ)) ↦[(src7 c).view.set]{shareOf s7} (Gout m))) $$ H7
  ihave H9 := (Entails.of_eq rfl : (((src6 c).view.loc (c : Thread nD τ)) ↦[(src6 c).view.set]{fullShare.right.right} (Gout m)) ⊢ (((src9 c).view.loc (c : Thread nD τ)) ↦[(src9 c).view.set]{shareOf s9} (Gout m))) $$ H9
  iapply (step_enq m K c n22 s6 hn22' (src6 c) (dst6 c) rfl (sendSem s6) (recvSem s6) rfl rfl (Gout m) (Entails.of_eq rfl) hland_s6 (owedL (pay m) c (s7 :: s9 :: l)) W1) $$ [T6 H6 Ho]
  · isplitr; · iexact HR
    isplitl [T6]; · iexact T6
    isplitl [H6]; · iexact H6
    iexact Ho
  iintro ⟨F6, Ho⟩
  iapply (step_enq m K c n23 s7 hn23' (src7 c) (dst7 c) rfl (sendSem s7) (recvSem s7) rfl rfl (Gout m) (Entails.of_eq rfl) hland_s7 (owedL (pay m) c (s9 :: l)) W1) $$ [T7 H7 Ho]
  · isplitr; · iexact HR
    isplitl [T7]; · iexact T7
    isplitl [H7]; · iexact H7
    iexact Ho
  iintro ⟨F7, Ho⟩
  iapply (step_enq m K c n24 s9 hn24' (src9 c) (dst9 c) rfl (sendSem s9) (recvSem s9) rfl rfl (Gout m) (Entails.of_eq rfl) hland_s9 (owedL (pay m) c l) W1) $$ [T9 H9 Ho]
  · isplitr; · iexact HR
    isplitl [T9]; · iexact T9
    isplitl [H9]; · iexact H9
    iexact Ho
  iintro ⟨F9, Ho⟩
  ihave Ha46 := (Entails.of_eq rfl : ((((b0.slice (u46 c) (fun _ => rfl))).view.loc (c : Thread nD τ)) ↦[((b0.slice (u46 c) (fun _ => rfl))).view.set]{fullShare} (Ga2 m c)) ⊢ a46s m c) $$ Ha46
  ihave D5 := (Entails.of_eq rfl : iprop(sendPay m c s5 ∗ (((dst5 (flip o2 c)).view.loc (c : Thread nD τ)) ↦[(dst5 (flip o2 c)).view.set]{fullShare} (Gr2 m c)) ∗ atPos ER (sendCell c s5) 1 (∅ : Finset (Fin 3)) 0 ∗ atPos ER (recvCell c s5) 1 (∅ : Finset (Fin 3)) 0) ⊢ slotDone m c s5) $$ [S5 Rv5 P5a P5b]
  · iframe
  iapply Hk
  isplitr [Ho]
  · iframe
  · iexists W1; iexact Ho
end P0
end Cert.KernelIdeal.TR
end
-- ==== Proof.Seg1C.lean ====
import proofs.«901104_g7700000000001105_dist_treered_v7x_i8_m2048_n1024_f32_1_alg».proof.Proof.Res1
import proofs.«901104_g7700000000001105_dist_treered_v7x_i8_m2048_n1024_f32_1_alg».proof.Proof.Steps
import proofs.«901104_g7700000000001105_dist_treered_v7x_i8_m2048_n1024_f32_1_alg».proof.Proof.LibRows
import proofs.«901104_g7700000000001105_dist_treered_v7x_i8_m2048_n1024_f32_1_alg».proof.Proof.Mesh
import Idealize.ShloMosaic.Lib.Tactic
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P1
theorem off26_col : ∀ c : Dev nD, k0_off34 c 1 = 0 := by decide +kernel
theorem off43_col : ∀ c : Dev nD, k0_off48 c 1 = 0 := by decide +kernel
theorem off44_col : ∀ c : Dev nD, k0_off49 c 1 = 0 := by decide +kernel
theorem off45_colC : ∀ c : Dev nD, k0_off50 c 1 = 0 := by decide +kernel
theorem off46_col : ∀ c : Dev nD, k0_off51 c 1 = 0 := by decide +kernel
theorem off47_col : ∀ c : Dev nD, k0_off52 c 1 = 0 := by decide +kernel
theorem off58_col : ∀ c : Dev nD, k0_off60 c 1 = 0 := by decide +kernel
theorem off59_col : ∀ c : Dev nD, k0_off61 c 1 = 0 := by decide +kernel
theorem off43_off46_split : ∀ c : Dev nD,
    (k0_off48 c 0 = k0_off34 c 0 ∧ k0_off51 c 0 = k0_off34 c 0 + S88x1024.size 0)
      ∨ (k0_off51 c 0 = k0_off34 c 0 ∧ k0_off48 c 0 = k0_off34 c 0 + S88x1024.size 0) := by decide +kernel
theorem off45_eq : ∀ c : Dev nD, k0_off50 c = k0_off48 c := by decide +kernel
theorem off44_flip : ∀ c : Dev nD, k0_off49 c = k0_off29 (flip o1 c) := by decide +kernel
theorem off47_flip : ∀ c : Dev nD, k0_off52 c = k0_off32 (flip o1 c) := by decide +kernel
theorem off59_eq : ∀ c : Dev nD, k0_off61 c = k0_off60 c := by decide +kernel
theorem size176 : S176x1024.size 0 = S88x1024.size 0 + S88x1024.size 0 := by decide
theorem off43_row : ∀ c : Dev nD, k0_off48 c 0 = ko c + k0_off49 c 0 := by decide +kernel
theorem off46_row : ∀ c : Dev nD, k0_off51 c 0 = ko c + k0_off52 c 0 := by decide +kernel
theorem off58_row : ∀ c : Dev nD, k0_off60 c 0 = glob0 c + ko c + ko2 c := by decide +kernel
theorem off58_acc : ∀ c : Dev nD, k0_off60 c 0 = glob0 c + k0_off51 c 0 := by decide +kernel
theorem glob0_leC : ∀ c : Dev nD, glob0 c + nH ≤ 2048 := by decide +kernel
theorem owner58 : ∀ c : Dev nD, ∀ j : Fin nE, owner (clamp (k0_off60 c 0 + j.val)) = c ∧ partOf (clamp (k0_off60 c 0 + j.val)) = pIdx := by decide +kernel
theorem ord_pIdx_1 : ord pIdx 1 = o1 := by decide
theorem ord_pIdx_2 : ord pIdx 2 = o2 := by decide
theorem off21_colC : ∀ c : Dev nD, k0_off29 c 1 = 0 := by decide +kernel
theorem off24_colC : ∀ c : Dev nD, k0_off32 c 1 = 0 := by decide +kernel
theorem ax_s3C : ax s3 = o1 := by decide
theorem ax_s4C : ax s4 = o1 := by decide
theorem ax_s5 : ax s5 = o2 := by decide
theorem ax_s6C : ax s6 = o2 := by decide
theorem ax_s7C : ax s7 = o1 := by decide
theorem ax_s9 : ax s9 = o0 := by decide
theorem pos_s3_s5 : pos s3 < pos s5 := by decide
theorem pos_s4_s5 : pos s4 < pos s5 := by decide
theorem pos_s5_s6 : pos s5 < pos s6 := by decide
theorem pos_s5_s7 : pos s5 < pos s7 := by decide
theorem pos_s5_s9 : pos s5 < pos s9 := by decide
variable (m : (ℓ : Loc nD τ sig) → Buf (Elt F) ℓ)
theorem slab43 (c : Dev nD) : Slab S352x1024 (0 : Fin 2) (k0_off48 c) S88x1024.size :=
  slab₂ (d := S352x1024.size) (off := k0_off48 c) (size := S88x1024.size) (off43_col c) rfl
theorem slab44 (c : Dev nD) : Slab S176x1024 (0 : Fin 2) (k0_off49 c) S88x1024.size :=
  slab₂ (d := S176x1024.size) (off := k0_off49 c) (size := S88x1024.size) (off44_col c) rfl
/-- A row of an eighth after the second round's store: the device's sum of two plus its second-axis neighbour's sum of two of the same global row. -/
theorem store_q (c : Dev nD) (oA oR : Fin 2 → ℕ) (iA : ∀ a, oA a + S88x1024.size a ≤ S352x1024.size a) (iR : ∀ a, oR a + S88x1024.size a ≤ S176x1024.size a)
    (hcA : oA 1 = 0) (hcR : oR 1 = 0) (hrow : oA 0 = ko c + oR 0)
    (w : (S88x1024.Idx → Elt F .f32) → (S88x1024.Idx → Elt F .f32) → S88x1024.Idx → Elt F .f32)
    (hw : ∀ a b j, w a b j = FloatOps.addf (φ := .f32) (a j) (b j))
    (i : S352x1024.Idx) (hi : i ∈ rows S352x1024 (0 : Fin 2) (oA 0) (oA 0 + S88x1024.size 0)) :
    (b4.access (Rect.unit (s := S352x1024) oA S88x1024.size iA)).write (Elt F) (Ga1 m c)
        (w (b4.view.readAt (Elt F) (Rect.unit (s := S352x1024) oA S88x1024.size iA).toLoadRect (Ga1 m c))
           (b6.view.readAt (Elt F) (Rect.unit (s := S176x1024) oR S88x1024.size iR).toLoadRect (Gr1 m c)))
        Finset.univ i
      = Ga2 m c i := by
  have hi' : i ∈ (Rect.unit (s := S352x1024) oA S88x1024.size iA).set :=
    (mem_unit_iff_rows (s := S352x1024) (a := (0 : Fin 2)) (off := oA) (size := S88x1024.size) iA (slab₂ hcA rfl)).mpr hi
  have hr := (mem_rows.mp hi)
  rw [write_access_apply_of_mem (Elt F) cc0_scratch4 (off := oA) (size := S88x1024.size) iA (Ga1 m c) _ hi', hw,
    readAt_unit_apply (Elt F) cc0_scratch4 (off := oA) (size := S88x1024.size) iA,
    readAt_unit_apply (Elt F) cc0_scratch6 (off := oR) (size := S88x1024.size) iR, emb_localIdx]
  generalize hj : localIdx i hi' = j
  have hj0 : (j 0).val = (i 0).val - oA 0 := by rw [← hj]; rfl
  have hj1 : (j 1).val = (i 1).val - oA 1 := by rw [← hj]; rfl
  have h0 : ((Rect.unit (s := S176x1024) oR S88x1024.size iR).emb j 0).val = oR 0 + 1 * (j 0).val := rfl
  have h1 : ((Rect.unit (s := S176x1024) oR S88x1024.size iR).emb j 1).val = oR 1 + 1 * (j 1).val := rfl
  have e1 : ((Rect.unit (s := S176x1024) oR S88x1024.size iR).emb j 1 : Fin 1024) = (i 1 : Fin 1024) :=
    Fin.ext (by rw [h1, hj1, hcR, hcA]; omega)
  have e0 : clamp (glob0 c + ko c + ((Rect.unit (s := S176x1024) oR S88x1024.size iR).emb j 0).val)
      = clamp (glob0 c + (i 0).val) := by
    rw [h0, hj0]; congr 1; omega
  have key : ∀ (g g' : Fin 2048) (k k' : Fin 1024), g' = g → k' = k →
      FloatOps.addf (φ := .f32) (P1 pIdx (xs m) c g k) (P1 pIdx (xs m) (flip o1 c) g' k') = P2 pIdx (xs m) c g k := by
    intro g g' k k' hg hk; subst hg; subst hk; rw [P2_def, ord_pIdx_1]
  exact key _ _ _ _ e0 e1
theorem slab46 (c : Dev nD) : Slab S352x1024 (0 : Fin 2) (k0_off51 c) S88x1024.size :=
  slab₂ (d := S352x1024.size) (off := k0_off51 c) (size := S88x1024.size) (off46_col c) rfl
theorem slab47 (c : Dev nD) : Slab S176x1024 (0 : Fin 2) (k0_off52 c) S88x1024.size :=
  slab₂ (d := S176x1024.size) (off := k0_off52 c) (size := S88x1024.size) (off47_col c) rfl
theorem slab58 (c : Dev nD) : Slab S2048x1024 (0 : Fin 2) (k0_off60 c) S88x1024.size :=
  slab₂ (d := S2048x1024.size) (off := k0_off60 c) (size := S88x1024.size) (off58_col c) rfl
theorem store58 (c : Dev nD)
    (w : (S88x1024.Idx → Elt F .f32) → (S88x1024.Idx → Elt F .f32) → S88x1024.Idx → Elt F .f32)
    (hw : ∀ a b j, w a b j = FloatOps.addf (φ := .f32) (a j) (b j))
    (f : S2048x1024.Idx → Elt F .f32)
    (i : S2048x1024.Idx) (hi : i ∈ rows S2048x1024 (0 : Fin 2) (k0_off60 c 0) (k0_off60 c 0 + S88x1024.size 0)) :
    (bOut.access (u60 c)).write (Elt F) f
        (w (b4.view.readAt (Elt F) (u51 c).toLoadRect (Ga2 m c))
           (b7.view.readAt (Elt F) uW88.toLoadRect (Gr2 m c)))
        Finset.univ i
      = Gout m i := by
  have hi' : i ∈ (u60 c).set :=
    (mem_unit_iff_rows (s := S2048x1024) (a := (0 : Fin 2)) (off := k0_off60 c) (size := S88x1024.size) (k0_off60_inb c) (slab58 c)).mpr hi
  have hr := (mem_rows.mp hi)
  rw [write_access_apply_of_mem (Elt F) cc0_stg1_0 (off := k0_off60 c) (size := S88x1024.size) (k0_off60_inb c) f _ hi', hw,
    readAt_unit_apply (Elt F) cc0_scratch4 (off := k0_off51 c) (size := S88x1024.size) (k0_off51_inb c),
    readAt_unit_apply (Elt F) cc0_scratch7 (off := ![0, 0]) (size := S88x1024.size) inb_S88x1024_S88x1024_0_0]
  generalize hj : localIdx i hi' = j
  have hj0 : (j 0).val = (i 0).val - k0_off60 c 0 := by rw [← hj]; rfl
  have hj1 : (j 1).val = (i 1).val - k0_off60 c 1 := by rw [← hj]; rfl
  have hs : S88x1024.size 0 = nE := rfl
  have hlt : (i 0).val - k0_off60 c 0 < nE := by rw [hs] at hr; omega
  have hcl : clamp (i 0).val = (i 0 : Fin 2048) := clamp_of_lt (i 0).isLt
  have hsum : k0_off60 c 0 + ((i 0).val - k0_off60 c 0) = (i 0).val := by omega
  have ho := owner58 c ⟨(i 0).val - k0_off60 c 0, hlt⟩
  simp only [hsum, hcl] at ho
  have a0 : ((u51 c).emb j 0).val = k0_off51 c 0 + 1 * (j 0).val := rfl
  have a1 : ((u51 c).emb j 1).val = k0_off51 c 1 + 1 * (j 1).val := rfl
  have r0 : (uW88.emb j 0).val = 0 + 1 * (j 0).val := rfl
  have r1 : (uW88.emb j 1).val = 0 + 1 * (j 1).val := rfl
  have ea1 : ((u51 c).emb j 1 : Fin 1024) = (i 1 : Fin 1024) :=
    Fin.ext (by rw [a1, hj1, off46_col, off58_col]; omega)
  have er1 : (uW88.emb j 1 : Fin 1024) = (i 1 : Fin 1024) :=
    Fin.ext (by rw [r1, hj1, off58_col]; omega)
  have ea0 : clamp (glob0 c + ((u51 c).emb j 0).val) = (i 0 : Fin 2048) := by
    rw [a0, hj0, ← hcl]; congr 1; have := off58_acc c; omega
  have er0 : clamp (glob0 c + ko c + ko2 c + (uW88.emb j 0).val) = (i 0 : Fin 2048) := by
    rw [r0, hj0, ← hcl]; congr 1; have := off58_row c; omega
  have key : ∀ (p : Fin 3) (d : Dev nD) (g ga gr : Fin 2048) (k ka kr : Fin 1024), p = pIdx → d = c → ga = g → gr = g → ka = k → kr = k →
      FloatOps.addf (φ := .f32) (P2 pIdx (xs m) c ga ka) (P2 pIdx (xs m) (flip o2 c) gr kr) = P3 p (xs m) d g k := by
    intro p d g ga gr k ka kr hp hd h1 h2 h3 h4; subst hp; subst hd; subst h1; subst h2; subst h3; subst h4; rw [P3_def, ord_pIdx_2]
  exact key _ _ _ _ _ _ _ _ ho.2 ho.1 ea0 er0 ea1 er1
theorem slab26 (c : Dev nD) : Slab S352x1024 (0 : Fin 2) (k0_off34 c) S176x1024.size :=
  slab₂ (d := S352x1024.size) (off := k0_off34 c) (size := S176x1024.size) (off26_col c) rfl
theorem slab45 (c : Dev nD) : Slab S352x1024 (0 : Fin 2) (k0_off50 c) S88x1024.size :=
  slab₂ (d := S352x1024.size) (off := k0_off50 c) (size := S88x1024.size) (off45_colC c) rfl
theorem slab21f (c : Dev nD) : Slab S176x1024 (0 : Fin 2) (k0_off29 (flip o1 c)) S88x1024.size :=
  slab₂ (d := S176x1024.size) (off := k0_off29 (flip o1 c)) (size := S88x1024.size) (off21_colC (flip o1 c)) rfl
theorem slab24f (c : Dev nD) : Slab S176x1024 (0 : Fin 2) (k0_off32 (flip o1 c)) S88x1024.size :=
  slab₂ (d := S176x1024.size) (off := k0_off32 (flip o1 c)) (size := S88x1024.size) (off24_colC (flip o1 c)) rfl
theorem a26s_split (c : Dev nD) :
    a26s m c ⊢ iprop((((c : Thread nD τ).loc cc0_scratch4) ↦[rows S352x1024 (0 : Fin 2) (k0_off48 c 0) (k0_off48 c 0 + S88x1024.size 0)]{fullShare} (Ga1 m c))
      ∗ (((c : Thread nD τ).loc cc0_scratch4) ↦[rows S352x1024 (0 : Fin 2) (k0_off51 c 0) (k0_off51 c 0 + S88x1024.size 0)]{fullShare} (Ga1 m c))) := by
  have e : a26s m c = (((c : Thread nD τ).loc cc0_scratch4) ↦[rows S352x1024 (0 : Fin 2) (k0_off34 c 0) (k0_off34 c 0 + S176x1024.size 0)]{fullShare} (Ga1 m c) : sProp 𝕄) :=
    pointsTo_slice_eq (c : Thread nD τ) cc0_scratch4 (a := (0 : Fin 2)) (off := k0_off34 c) (size := S176x1024.size) (k0_off34_inb c) (fun _ => rfl) (slab26 c) fullShare (Ga1 m c)
  have e2 : k0_off34 c 0 + S176x1024.size 0 = k0_off34 c 0 + S88x1024.size 0 + S88x1024.size 0 := by rw [size176, Nat.add_assoc]
  rw [e, e2]
  have hsp : (((c : Thread nD τ).loc cc0_scratch4) ↦[rows S352x1024 (0 : Fin 2) (k0_off34 c 0) (k0_off34 c 0 + S88x1024.size 0 + S88x1024.size 0)]{fullShare} (Ga1 m c) : sProp 𝕄)
      ⊢ iprop((((c : Thread nD τ).loc cc0_scratch4) ↦[rows S352x1024 (0 : Fin 2) (k0_off34 c 0) (k0_off34 c 0 + S88x1024.size 0)]{fullShare} (Ga1 m c))
        ∗ (((c : Thread nD τ).loc cc0_scratch4) ↦[rows S352x1024 (0 : Fin 2) (k0_off34 c 0 + S88x1024.size 0) (k0_off34 c 0 + S88x1024.size 0 + S88x1024.size 0)]{fullShare} (Ga1 m c))) :=
    (pointsTo_rows_split_at (c : Thread nD τ) cc0_scratch4 (0 : Fin 2) (lo := k0_off34 c 0) (mid := k0_off34 c 0 + S88x1024.size 0)
      (hi := k0_off34 c 0 + S88x1024.size 0 + S88x1024.size 0) (Nat.le_add_right _ _) (Nat.le_add_right _ _) fullShare (Ga1 m c)).1
  rcases off43_off46_split c with ⟨h43, h46⟩ | ⟨h46, h43⟩
  · rw [h43, h46]; exact hsp
  · rw [h43, h46]; exact hsp.trans sep_comm.1
theorem acc43_to_src5 (c : Dev nD)
    (w : (S88x1024.Idx → Elt F .f32) → (S88x1024.Idx → Elt F .f32) → S88x1024.Idx → Elt F .f32)
    (hw : ∀ a b j, w a b j = FloatOps.addf (φ := .f32) (a j) (b j)) :
    ((((b4.access (u48 c)).loc (c : Thread nD τ)) ↦[rows S352x1024 (0 : Fin 2) (k0_off48 c 0) (k0_off48 c 0 + S88x1024.size 0)]{fullShare}
        ((b4.access (u48 c)).write (Elt F) (Ga1 m c)
          (w ((b4.access (u48 c)).read (Elt F) (Ga1 m c)) ((b6.access (u49 c)).read (Elt F) (Gr1 m c))) Finset.univ)) : sProp 𝕄)
      ⊢ (((src17 c).view.loc (c : Thread nD τ)) ↦[(src17 c).view.set]{shareOf s5} (Ga2 m c)) := by
  have e : ((((src17 c).view.loc (c : Thread nD τ)) ↦[(src17 c).view.set]{shareOf s5} (Ga2 m c)) : sProp 𝕄)
      = (((c : Thread nD τ).loc cc0_scratch4) ↦[rows S352x1024 (0 : Fin 2) (k0_off50 c 0) (k0_off50 c 0 + S88x1024.size 0)]{fullShare} (Ga2 m c)) :=
    pointsTo_slice_eq (c : Thread nD τ) cc0_scratch4 (a := (0 : Fin 2)) (off := k0_off50 c) (size := S88x1024.size) (k0_off50_inb c) (fun _ => rfl) (slab45 c) fullShare (Ga2 m c)
  rw [e, off45_eq c]
  exact Entails.of_eq (pointsTo_rows_congr_at (c : Thread nD τ) cc0_scratch4 (0 : Fin 2) fullShare (fun i hi => store_q m c _ _ (k0_off48_inb c) (k0_off49_inb c) (off43_col c) (off44_col c) (off43_row c) w hw i hi))
theorem acc46_to_a46s (c : Dev nD)
    (w : (S88x1024.Idx → Elt F .f32) → (S88x1024.Idx → Elt F .f32) → S88x1024.Idx → Elt F .f32)
    (hw : ∀ a b j, w a b j = FloatOps.addf (φ := .f32) (a j) (b j)) :
    ((((b4.access (u51 c)).loc (c : Thread nD τ)) ↦[rows S352x1024 (0 : Fin 2) (k0_off51 c 0) (k0_off51 c 0 + S88x1024.size 0)]{fullShare}
        ((b4.access (u51 c)).write (Elt F) (Ga1 m c)
          (w ((b4.access (u51 c)).read (Elt F) (Ga1 m c)) ((b6.access (u52 c)).read (Elt F) (Gr1 m c))) Finset.univ)) : sProp 𝕄)
      ⊢ a46s m c := by
  have e : a46s m c = (((c : Thread nD τ).loc cc0_scratch4) ↦[rows S352x1024 (0 : Fin 2) (k0_off51 c 0) (k0_off51 c 0 + S88x1024.size 0)]{fullShare} (Ga2 m c) : sProp 𝕄) :=
    pointsTo_slice_eq (c : Thread nD τ) cc0_scratch4 (a := (0 : Fin 2)) (off := k0_off51 c) (size := S88x1024.size) (k0_off51_inb c) (fun _ => rfl) (slab46 c) fullShare (Ga2 m c)
  rw [e]
  exact Entails.of_eq (pointsTo_rows_congr_at (c : Thread nD τ) cc0_scratch4 (0 : Fin 2) fullShare (fun i hi => store_q m c _ _ (k0_off51_inb c) (k0_off52_inb c) (off46_col c) (off47_col c) (off46_row c) w hw i hi))
theorem recv3_rows (c : Dev nD) (G : S176x1024.Idx → Elt F .f32) :
    ((((dst15 (flip o1 c)).view.loc (c : Thread nD τ)) ↦[(dst15 (flip o1 c)).view.set]{fullShare} G) : sProp 𝕄)
      = (((c : Thread nD τ).loc cc0_scratch6) ↦[rows S176x1024 (0 : Fin 2) (k0_off49 c 0) (k0_off49 c 0 + S88x1024.size 0)]{fullShare} G) := by
  rw [off44_flip c]
  exact pointsTo_slice_eq (c : Thread nD τ) cc0_scratch6 (a := (0 : Fin 2)) (off := k0_off29 (flip o1 c)) (size := S88x1024.size) (k0_off29_inb (flip o1 c)) (fun _ => rfl) (slab21f c) fullShare G
theorem recv4_rows (c : Dev nD) (G : S176x1024.Idx → Elt F .f32) :
    ((((dst16 (flip o1 c)).view.loc (c : Thread nD τ)) ↦[(dst16 (flip o1 c)).view.set]{fullShare} G) : sProp 𝕄)
      = (((c : Thread nD τ).loc cc0_scratch6) ↦[rows S176x1024 (0 : Fin 2) (k0_off52 c 0) (k0_off52 c 0 + S88x1024.size 0)]{fullShare} G) := by
  rw [off47_flip c]
  exact pointsTo_slice_eq (c : Thread nD τ) cc0_scratch6 (a := (0 : Fin 2)) (off := k0_off32 (flip o1 c)) (size := S88x1024.size) (k0_off32_inb (flip o1 c)) (fun _ => rfl) (slab24f c) fullShare G
theorem sub43 (c : Dev nD) : (b4.access (u48 c)).set ⊆ rows S352x1024 (0 : Fin 2) (k0_off48 c 0) (k0_off48 c 0 + S88x1024.size 0) :=
  (access_set cc0_scratch4 (a := (0 : Fin 2)) (off := k0_off48 c) (size := S88x1024.size) (k0_off48_inb c) (slab43 c)).subset
theorem sub44 (c : Dev nD) : (b6.access (u49 c)).set ⊆ rows S176x1024 (0 : Fin 2) (k0_off49 c 0) (k0_off49 c 0 + S88x1024.size 0) :=
  (access_set cc0_scratch6 (a := (0 : Fin 2)) (off := k0_off49 c) (size := S88x1024.size) (k0_off49_inb c) (slab44 c)).subset
theorem sub46 (c : Dev nD) : (b4.access (u51 c)).set ⊆ rows S352x1024 (0 : Fin 2) (k0_off51 c 0) (k0_off51 c 0 + S88x1024.size 0) :=
  (access_set cc0_scratch4 (a := (0 : Fin 2)) (off := k0_off51 c) (size := S88x1024.size) (k0_off51_inb c) (slab46 c)).subset
theorem sub47 (c : Dev nD) : (b6.access (u52 c)).set ⊆ rows S176x1024 (0 : Fin 2) (k0_off52 c 0) (k0_off52 c 0 + S88x1024.size 0) :=
  (access_set cc0_scratch6 (a := (0 : Fin 2)) (off := k0_off52 c) (size := S88x1024.size) (k0_off52_inb c) (slab47 c)).subset
/-- Read a rectangle of the accumulator and the facing rectangle of the landing buffer and store their combination back on the accumulator's: both stay held, the accumulator's at the written contents. -/
theorem acc_step (c : Dev nD) {α : Type} {Q : α → sProp 𝕄} (rA : Rect S352x1024) (rR : Rect S176x1024)
    {RA : Finset S352x1024.Idx} {RR : Finset S176x1024.Idx} (hSA : (b4.access rA).set ⊆ RA) (hSR : (b6.access rR).set ⊆ RR)
    (k : PUnit → Prog (TpuEff nD τ sig (Elt F) Λ₀ .tc) α)
    (w : (rA.shape.Idx → Elt F .f32) → (rR.shape.Idx → Elt F .f32) → (rA.shape.Idx → Elt F .f32) → rA.shape.Idx → Elt F .f32)
    {hl1 : b4.view.LoadsAt rA.toLoadRect}
    {hl2 : b6.view.LoadsAt rR.toLoadRect}
    {hl3 : b4.view.LoadsAt rA.toLoadRect}
    {hx : (b4.access rA).Stores Finset.univ}
    {hm : (Finset.univ : Finset rA.shape.Idx) = Finset.univ ∨ ∀ a, rA.stride a = 1} :
    iprop((((c : Thread nD τ).loc cc0_scratch4) ↦[RA]{fullShare} (Ga1 m c))
        ∗ (((c : Thread nD τ).loc cc0_scratch6) ↦[RR]{fullShare} (Gr1 m c)))
      ⊢ iprop((((((b4.access rA).loc (c : Thread nD τ)) ↦[RA]{fullShare} ((b4.access rA).write (Elt F) (Ga1 m c) (w ((b4.access rA).read (Elt F) (Ga1 m c)) ((b6.access rR).read (Elt F) (Gr1 m c)) ((b4.access rA).read (Elt F) (Ga1 m c))) Finset.univ))
            ∗ (((c : Thread nD τ).loc cc0_scratch6) ↦[RR]{fullShare} (Gr1 m c))) -∗ wp frame (wpE (defs₀ (F := F)) Variants.none (c : Thread nD τ) none) Set.univ (k ⟨⟩) Q)
          -∗ wp frame (wpE (defs₀ (F := F)) Variants.none (c : Thread nD τ) none) Set.univ (.op (.load b4 rA.toLoadRect hl1) fun va =>
              .op (.load b6 rR.toLoadRect hl2) fun vb =>
              .op (.load b4 rA.toLoadRect hl3) fun va' =>
              .op (.store b4 rA (w va vb va') Finset.univ hx hm) k) Q) := by
  have hSA' : (b4.access rA).setOn Finset.univ ⊆ RA := by
    rw [View.setOn_univ]; exact hSA
  iintro ⟨HA, HR⟩ Hk
  iapply (wp_load_rect Variants.none (c : Thread nD τ) none Set.univ (m := b4) (r := rA) hSA) $$ HA; iintro HA
  iapply (wp_load_rect Variants.none (c : Thread nD τ) none Set.univ (m := b6) (r := rR) hSR) $$ HR; iintro HR
  iapply (wp_load_rect Variants.none (c : Thread nD τ) none Set.univ (m := b4) (r := rA) hSA) $$ HA; iintro HA
  iapply (wp_store Variants.none (c : Thread nD τ) none Set.univ (m := b4) (r := rA) (Mk := Finset.univ) hSA') $$ HA; iintro HA
  iapply Hk
  isplitl [HA]
  · iexact HA
  · iexact HR
theorem slab59 (c : Dev nD) : Slab S2048x1024 (0 : Fin 2) (k0_off61 c) S88x1024.size :=
  slab₂ (d := S2048x1024.size) (off := k0_off61 c) (size := S88x1024.size) (off59_col c) rfl
theorem out58_to_src6 (c : Dev nD)
    (w : (S88x1024.Idx → Elt F .f32) → (S88x1024.Idx → Elt F .f32) → S88x1024.Idx → Elt F .f32)
    (hw : ∀ a b j, w a b j = FloatOps.addf (φ := .f32) (a j) (b j))
    (f : S2048x1024.Idx → Elt F .f32) :
    ((((bOut.access (u60 c)).loc (c : Thread nD τ)) ↦[((bOut.slice (u60 c) (fun _ => rfl))).view.set]{fullShare}
        ((bOut.access (u60 c)).write (Elt F) f
          (w ((b4.access (u51 c)).read (Elt F) (Ga2 m c)) ((b7.access uW88).read (Elt F) (Gr2 m c))) Finset.univ)) : sProp 𝕄)
      ⊢ (((src18 c).view.loc (c : Thread nD τ)) ↦[(src18 c).view.set]{fullShare} (Gout m)) := by
  have e1 : ∀ g : S2048x1024.Idx → Elt F .f32, (((((bOut.slice (u60 c) (fun _ => rfl))).view.loc (c : Thread nD τ)) ↦[((bOut.slice (u60 c) (fun _ => rfl))).view.set]{fullShare} g) : sProp 𝕄)
      = (((c : Thread nD τ).loc cc0_stg1_0) ↦[rows S2048x1024 (0 : Fin 2) (k0_off60 c 0) (k0_off60 c 0 + S88x1024.size 0)]{fullShare} g) := fun g =>
    pointsTo_slice_eq (c : Thread nD τ) cc0_stg1_0 (a := (0 : Fin 2)) (off := k0_off60 c) (size := S88x1024.size) (k0_off60_inb c) (fun _ => rfl) (slab58 c) fullShare g
  have e2 : ((((src18 c).view.loc (c : Thread nD τ)) ↦[(src18 c).view.set]{fullShare} (Gout m)) : sProp 𝕄)
      = (((c : Thread nD τ).loc cc0_stg1_0) ↦[rows S2048x1024 (0 : Fin 2) (k0_off61 c 0) (k0_off61 c 0 + S88x1024.size 0)]{fullShare} (Gout m)) :=
    pointsTo_slice_eq (c : Thread nD τ) cc0_stg1_0 (a := (0 : Fin 2)) (off := k0_off61 c) (size := S88x1024.size) (k0_off61_inb c) (fun _ => rfl) (slab59 c) fullShare (Gout m)
  rw [e2, off59_eq c]
  refine (Entails.of_eq (e1 _)).trans ?_
  exact Entails.of_eq (pointsTo_rows_congr_at (c : Thread nD τ) cc0_stg1_0 (0 : Fin 2) fullShare (fun i hi => store58 m c w hw f i hi))
set_option maxRecDepth 65536 in
theorem seg_p2 (K : Dev nD × Fin 73 → ℕ) (c : Dev nD) {α : Type} {Q : α → sProp 𝕄}
    (k : PUnit → Prog (TpuEff nD τ sig (Elt F) Λ₀ .tc) α) (l : List (Fin 36)) (W : Waits sig Unit)
    (hl : ∀ s ∈ l, pos s5 < pos s)
    (n19 : Dev nD) (hn19 : n19 = flip o2 c)
    (sS3 sR3 sS4 sR4 sS5 sR5 : DmaSem sig)
    (hS3 : sS3 = sendSem s3) (hR3 : sR3 = recvSem s3) (hS4 : sS4 = sendSem s4) (hR4 : sR4 = recvSem s4)
    (hS5 : sS5 = sendSem s5) (hR5 : sR5 = recvSem s5)
    (w78 w85 : (S88x1024.Idx → Elt F .f32) → (S88x1024.Idx → Elt F .f32) → (S88x1024.Idx → Elt F .f32) → S88x1024.Idx → Elt F .f32)
    (hw78 : ∀ a b a' j, w78 a b a' j = FloatOps.addf (φ := .f32) (a j) (b j))
    (hw85 : ∀ a b a' j, w85 a b a' j = FloatOps.addf (φ := .f32) (a j) (b j))
    (hland_s5 : ∀ fd, (((dst17 c).view.loc (Dev.tc n19 : Thread nD τ)) ↦[(dst17 c).view.set]{fullShare}
        ((dst17 c).view.write (Elt F) fd ((src17 c).view.read (Elt F) (Ga2 m c)) Finset.univ) : sProp 𝕄) ⊢ recvPay m n19 s5)
    {h73a : (dst15 c).view.WordExact} {h73b : (src15 c).view.WordExact} {h74a : (src15 c).view.WordExact} {h74b : (dst15 c).view.WordExact}
    {h80a : (dst16 c).view.WordExact} {h80b : (src16 c).view.WordExact} {h81a : (src16 c).view.WordExact} {h81b : (dst16 c).view.WordExact}
    {hl75 : b4.view.LoadsAt (u48 c).toLoadRect}
    {hl76 : b6.view.LoadsAt (u49 c).toLoadRect}
    {hl77 : b4.view.LoadsAt (u48 c).toLoadRect}
    {hx78 : (b4.access (u48 c)).Stores Finset.univ}
    {hm78 : (Finset.univ : Finset (u48 c).shape.Idx) = Finset.univ ∨ ∀ a, (u48 c).stride a = 1}
    {hsc79 : ((dst17 c) : Memref sig (Dev.tc n19 : Thread nD τ).2.kind .vmem S88x1024 .f32).view.ref.isScScratch = false}
    {hsrc79 : (src17 c).view.WordExact} {hdst79 : (dst17 c).view.WordExact}
    {hsem79 : DmaTarget.Typed .vmem (.dma sR5) (.remote (Dev.tc n19 : Thread nD τ) (dst17 c) (.dma sS5) hsc79)}
    {hl82 : b4.view.LoadsAt (u51 c).toLoadRect}
    {hl83 : b6.view.LoadsAt (u52 c).toLoadRect}
    {hl84 : b4.view.LoadsAt (u51 c).toLoadRect}
    {hx85 : (b4.access (u51 c)).Stores Finset.univ}
    {hm85 : (Finset.univ : Finset (u51 c).shape.Idx) = Finset.univ ∨ ∀ a, (u51 c).stride a = 1} :
    iprop(records (pay m) K ∗ levAts L lv ∗ B2 m c ∗ owes (c : Thread nD τ) (owedL (pay m) c (s5 :: l)) W)
      ⊢ iprop(((B3 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (.op (.waitDma2 sS3 (dst15 c) (src15 c) h73a h73b) fun _ =>
              .op (.waitDma2 sR3 (src15 c) (dst15 c) h74a h74b) fun _ =>
              .op (.load b4 (u48 c).toLoadRect hl75) fun v524 =>
              .op (.load b6 (u49 c).toLoadRect hl76) fun v526 =>
              .op (.load b4 (u48 c).toLoadRect hl77) fun v530 =>
              .op (.store b4 (u48 c) (w78 v524 v526 v530) Finset.univ hx78 hm78) fun _ =>
              .op (.enqueueDma (src17 c) (.remote (Dev.tc n19 : Thread nD τ) (dst17 c) (.dma sS5) hsc79) (.dma sR5) hsrc79 hdst79 hsem79) fun _ =>
              .op (.waitDma2 sS4 (dst16 c) (src16 c) h80a h80b) fun _ =>
              .op (.waitDma2 sR4 (src16 c) (dst16 c) h81a h81b) fun _ =>
              .op (.load b4 (u51 c).toLoadRect hl82) fun v553 =>
              .op (.load b6 (u52 c).toLoadRect hl83) fun v555 =>
              .op (.load b4 (u51 c).toLoadRect hl84) fun v559 =>
              .op (.store b4 (u51 c) (w85 v553 v555 v559) Finset.univ hx85 hm85) k) Q) := by
  subst hS3 hR3 hS4 hR4 hS5 hR5
  have hn19' : n19 = flip (ax s5) c := by rw [ax_s5]; exact hn19
  have mwS3 : (levAts L lv : sProp 𝕄) ⊢ MayWait (c : Thread nD τ) (.dma (sendSem s3)) () (owedL (pay m) c (s5 :: l)) :=
    mayWait_owedL (pay m) c (.dma (sendSem s3)) (s5 :: l) (2 + pos s3) (by rw [lv_send]; exact Nat.zero_le _)
      (fun s hs => by rcases List.mem_cons.mp hs with rfl | hs; exacts [by have := pos_s3_s5; omega, by have := hl s hs; have := pos_s3_s5; omega])
  have mwR3 : (levAts L lv : sProp 𝕄) ⊢ MayWait (c : Thread nD τ) (.dma (recvSem s3)) () (owedL (pay m) c (s5 :: l)) :=
    mayWait_owedL (pay m) c (.dma (recvSem s3)) (s5 :: l) (2 + pos s3) (by rw [lv_recv])
      (fun s hs => by rcases List.mem_cons.mp hs with rfl | hs; exacts [by have := pos_s3_s5; omega, by have := hl s hs; have := pos_s3_s5; omega])
  have mwS4 : (levAts L lv : sProp 𝕄) ⊢ MayWait (c : Thread nD τ) (.dma (sendSem s4)) () (owedL (pay m) c (l)) :=
    mayWait_owedL (pay m) c (.dma (sendSem s4)) (l) (2 + pos s4) (by rw [lv_send]; exact Nat.zero_le _)
      (fun s hs => by have := hl s hs; have := pos_s4_s5; omega)
  have mwR4 : (levAts L lv : sProp 𝕄) ⊢ MayWait (c : Thread nD τ) (.dma (recvSem s4)) () (owedL (pay m) c (l)) :=
    mayWait_owedL (pay m) c (.dma (recvSem s4)) (l) (2 + pos s4) (by rw [lv_recv])
      (fun s hs => by have := hl s hs; have := pos_s4_s5; omega)
  unfold B2 B3
  iintro ⟨#HR, #HL, ⟨⟨D0, D1, D2, F3, F4, T5, T6, T7, T8, T9, T10, T11⟩, Hxl, Ha26, Ho58⟩, Ho⟩ Hk
  iapply (step_waits m K c s3 (sendSem s3) (recvSem s3) rfl rfl (dst15 c) (src15 c) (src15 c) (dst15 c) rfl (dstAny_credit c s3) (owedL (pay m) c (s5 :: l)) W mwS3 mwR3) $$ [F3 Ho]
  · iframe # ∗
  iintro ⟨D3, %W1, Ho⟩
  ihave D3 := (Entails.of_eq rfl : slotDone m c s3 ⊢ iprop(sendPay m c s3 ∗ (((dst15 (flip o1 c)).view.loc (c : Thread nD τ)) ↦[(dst15 (flip o1 c)).view.set]{fullShare} (Gr1 m c)) ∗ atPos ER (sendCell c s3) 1 (∅ : Finset (Fin 3)) 0 ∗ atPos ER (recvCell c s3) 1 (∅ : Finset (Fin 3)) 0)) $$ D3
  icases D3 with ⟨S3, Rv3, P3a, P3b⟩
  ihave Rv3 := (Entails.of_eq (recv3_rows c (Gr1 m c))) $$ Rv3
  ihave Ha := (a26s_split m c) $$ Ha26
  icases Ha with ⟨A43, A46⟩
  iapply (acc_step m c (u48 c) (u49 c) (sub43 c) (sub44 c) _ w78) $$ [A43 Rv3]
  · iframe
  iintro ⟨A43, Rv3⟩
  ihave Hsrc := (acc43_to_src5 m c (fun a b => w78 a b ((b4.access (u48 c)).read (Elt F) (Ga1 m c))) (fun a b j => hw78 a b ((b4.access (u48 c)).read (Elt F) (Ga1 m c)) j)) $$ A43
  iapply (step_enq m K c n19 s5 hn19' (src17 c) (dst17 c) rfl (sendSem s5) (recvSem s5) rfl rfl (Ga2 m c) (Entails.of_eq rfl) hland_s5 (owedL (pay m) c l) W1) $$ [T5 Hsrc Ho]
  · isplitr; · iexact HR
    isplitl [T5]; · iexact T5
    isplitl [Hsrc]; · iexact Hsrc
    iexact Ho
  iintro ⟨F5, Ho⟩
  iapply (step_waits m K c s4 (sendSem s4) (recvSem s4) rfl rfl (dst16 c) (src16 c) (src16 c) (dst16 c) rfl (dstAny_credit c s4) (owedL (pay m) c l) W1 mwS4 mwR4) $$ [F4 Ho]
  · iframe # ∗
  iintro ⟨D4, %W2, Ho⟩
  ihave D4 := (Entails.of_eq rfl : slotDone m c s4 ⊢ iprop(sendPay m c s4 ∗ (((dst16 (flip o1 c)).view.loc (c : Thread nD τ)) ↦[(dst16 (flip o1 c)).view.set]{fullShare} (Gr1 m c)) ∗ atPos ER (sendCell c s4) 1 (∅ : Finset (Fin 3)) 0 ∗ atPos ER (recvCell c s4) 1 (∅ : Finset (Fin 3)) 0)) $$ D4
  icases D4 with ⟨S4, Rv4, P4a, P4b⟩
  ihave Rv4 := (Entails.of_eq (recv4_rows c (Gr1 m c))) $$ Rv4
  iapply (acc_step m c (u51 c) (u52 c) (sub46 c) (sub47 c) _ w85) $$ [A46 Rv4]
  · iframe
  iintro ⟨A46, Rv4⟩
  ihave Ha46 := (acc46_to_a46s m c (fun a b => w85 a b ((b4.access (u51 c)).read (Elt F) (Ga1 m c))) (fun a b j => hw85 a b ((b4.access (u51 c)).read (Elt F) (Ga1 m c)) j)) $$ A46
  ihave Rv3 := (Entails.of_eq (recv3_rows c (Gr1 m c)).symm) $$ Rv3
  ihave Rv4 := (Entails.of_eq (recv4_rows c (Gr1 m c)).symm) $$ Rv4
  ihave D3 := (Entails.of_eq rfl : iprop(sendPay m c s3 ∗ (((dst15 (flip o1 c)).view.loc (c : Thread nD τ)) ↦[(dst15 (flip o1 c)).view.set]{fullShare} (Gr1 m c)) ∗ atPos ER (sendCell c s3) 1 (∅ : Finset (Fin 3)) 0 ∗ atPos ER (recvCell c s3) 1 (∅ : Finset (Fin 3)) 0) ⊢ slotDone m c s3) $$ [S3 Rv3 P3a P3b]
  · iframe
  ihave D4 := (Entails.of_eq rfl : iprop(sendPay m c s4 ∗ (((dst16 (flip o1 c)).view.loc (c : Thread nD τ)) ↦[(dst16 (flip o1 c)).view.set]{fullShare} (Gr1 m c)) ∗ atPos ER (sendCell c s4) 1 (∅ : Finset (Fin 3)) 0 ∗ atPos ER (recvCell c s4) 1 (∅ : Finset (Fin 3)) 0) ⊢ slotDone m c s4) $$ [S4 Rv4 P4a P4b]
  · iframe
  iapply Hk
  isplitr [Ho]
  · iframe
  · iexists W2; iexact Ho
set_option maxRecDepth 65536 in
theorem seg_p3 (K : Dev nD × Fin 73 → ℕ) (c : Dev nD) {α : Type} {Q : α → sProp 𝕄}
    (k : PUnit → Prog (TpuEff nD τ sig (Elt F) Λ₀ .tc) α) (l : List (Fin 36)) (W : Waits sig Unit)
    (hl : ∀ s ∈ l, pos s9 < pos s)
    (n22 n23 n24 : Dev nD) (hn22 : n22 = flip o2 c) (hn23 : n23 = flip o1 c) (hn24 : n24 = flip o0 c)
    (sS5 sR5 sS6 sR6 sS7 sR7 sS9 sR9 : DmaSem sig)
    (hS5 : sS5 = sendSem s5) (hR5 : sR5 = recvSem s5) (hS6 : sS6 = sendSem s6) (hR6 : sR6 = recvSem s6)
    (hS7 : sS7 = sendSem s7) (hR7 : sR7 = recvSem s7) (hS9 : sS9 = sendSem s9) (hR9 : sR9 = recvSem s9)
    (w117 : (S88x1024.Idx → Elt F .f32) → (S88x1024.Idx → Elt F .f32) → (S88x1024.Idx → Elt F .f32) → S88x1024.Idx → Elt F .f32)
    (hw117 : ∀ a b a' j, w117 a b a' j = FloatOps.addf (φ := .f32) (a j) (b j))
    (hland_s6 : ∀ fd, (((dst18 c).view.loc (Dev.tc n22 : Thread nD τ)) ↦[(dst18 c).view.set]{fullShare}
        ((dst18 c).view.write (Elt F) fd ((src18 c).view.read (Elt F) (Gout m)) Finset.univ) : sProp 𝕄) ⊢ recvPay m n22 s6)
    (hland_s7 : ∀ fd, (((dst19 c).view.loc (Dev.tc n23 : Thread nD τ)) ↦[(dst19 c).view.set]{fullShare}
        ((dst19 c).view.write (Elt F) fd ((src19 c).view.read (Elt F) (Gout m)) Finset.univ) : sProp 𝕄) ⊢ recvPay m n23 s7)
    (hland_s9 : ∀ fd, (((dst21 c).view.loc (Dev.tc n24 : Thread nD τ)) ↦[(dst21 c).view.set]{fullShare}
        ((dst21 c).view.write (Elt F) fd ((src21 c).view.read (Elt F) (Gout m)) Finset.univ) : sProp 𝕄) ⊢ recvPay m n24 s9)
    {h112a : (dst17 c).view.WordExact} {h112b : (src17 c).view.WordExact} {h113a : (src17 c).view.WordExact} {h113b : (dst17 c).view.WordExact}
    {hl114 : b4.view.LoadsAt (u51 c).toLoadRect}
    {hl115 : b7.view.LoadsAt uW88.toLoadRect}
    {hl116 : bOut.view.LoadsAt (u60 c).toLoadRect}
    {hx117 : (bOut.access (u60 c)).Stores Finset.univ}
    {hm117 : (Finset.univ : Finset (u60 c).shape.Idx) = Finset.univ ∨ ∀ a, (u60 c).stride a = 1}
    {hsc118 : ((dst18 c) : Memref sig (Dev.tc n22 : Thread nD τ).2.kind .vmem S88x1024 .f32).view.ref.isScScratch = false}
    {hsrc118 : (src18 c).view.WordExact} {hdst118 : (dst18 c).view.WordExact}
    {hsem118 : DmaTarget.Typed .vmem (.dma sR6) (.remote (Dev.tc n22 : Thread nD τ) (dst18 c) (.dma sS6) hsc118)}
    {hsc119 : ((dst19 c) : Memref sig (Dev.tc n23 : Thread nD τ).2.kind .vmem S88x1024 .f32).view.ref.isScScratch = false}
    {hsrc119 : (src19 c).view.WordExact} {hdst119 : (dst19 c).view.WordExact}
    {hsem119 : DmaTarget.Typed .vmem (.dma sR7) (.remote (Dev.tc n23 : Thread nD τ) (dst19 c) (.dma sS7) hsc119)}
    {hsc120 : ((dst21 c) : Memref sig (Dev.tc n24 : Thread nD τ).2.kind .vmem S88x1024 .f32).view.ref.isScScratch = false}
    {hsrc120 : (src21 c).view.WordExact} {hdst120 : (dst21 c).view.WordExact}
    {hsem120 : DmaTarget.Typed .vmem (.dma sR9) (.remote (Dev.tc n24 : Thread nD τ) (dst21 c) (.dma sS9) hsc120)} :
    iprop(records (pay m) K ∗ levAts L lv ∗ B3 m c ∗ owes (c : Thread nD τ) (owedL (pay m) c (s6 :: s7 :: s9 :: l)) W)
      ⊢ iprop(((B4 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (.op (.waitDma2 sS5 (dst17 c) (src17 c) h112a h112b) fun _ =>
              .op (.waitDma2 sR5 (src17 c) (dst17 c) h113a h113b) fun _ =>
              .op (.load b4 (u51 c).toLoadRect hl114) fun v683 =>
              .op (.load b7 uW88.toLoadRect hl115) fun v684 =>
              .op (.load bOut (u60 c).toLoadRect hl116) fun v687 =>
              .op (.store bOut (u60 c) (w117 v683 v684 v687) Finset.univ hx117 hm117) fun _ =>
              .op (.enqueueDma (src18 c) (.remote (Dev.tc n22 : Thread nD τ) (dst18 c) (.dma sS6) hsc118) (.dma sR6) hsrc118 hdst118 hsem118) fun _ =>
              .op (.enqueueDma (src19 c) (.remote (Dev.tc n23 : Thread nD τ) (dst19 c) (.dma sS7) hsc119) (.dma sR7) hsrc119 hdst119 hsem119) fun _ =>
              .op (.enqueueDma (src21 c) (.remote (Dev.tc n24 : Thread nD τ) (dst21 c) (.dma sS9) hsc120) (.dma sR9) hsrc120 hdst120 hsem120) k) Q) := by
  subst hS5 hR5 hS6 hR6 hS7 hR7 hS9 hR9
  have hn22' : n22 = flip (ax s6) c := by rw [ax_s6C]; exact hn22
  have hn23' : n23 = flip (ax s7) c := by rw [ax_s7C]; exact hn23
  have hn24' : n24 = flip (ax s9) c := by rw [ax_s9]; exact hn24
  have mwS5 : (levAts L lv : sProp 𝕄) ⊢ MayWait (c : Thread nD τ) (.dma (sendSem s5)) () (owedL (pay m) c (s6 :: s7 :: s9 :: l)) :=
    mayWait_owedL (pay m) c (.dma (sendSem s5)) (s6 :: s7 :: s9 :: l) (2 + pos s5) (by rw [lv_send]; exact Nat.zero_le _)
      (fun s hs => by
        simp only [List.mem_cons] at hs
        rcases hs with rfl | rfl | rfl | hs
        exacts [by have := pos_s5_s6; omega, by have := pos_s5_s7; omega, by have := pos_s5_s9; omega, by have := hl s hs; have := pos_s5_s9; omega])
  have mwR5 : (levAts L lv : sProp 𝕄) ⊢ MayWait (c : Thread nD τ) (.dma (recvSem s5)) () (owedL (pay m) c (s6 :: s7 :: s9 :: l)) :=
    mayWait_owedL (pay m) c (.dma (recvSem s5)) (s6 :: s7 :: s9 :: l) (2 + pos s5) (by rw [lv_recv])
      (fun s hs => by
        simp only [List.mem_cons] at hs
        rcases hs with rfl | rfl | rfl | hs
        exacts [by have := pos_s5_s6; omega, by have := pos_s5_s7; omega, by have := pos_s5_s9; omega, by have := hl s hs; have := pos_s5_s9; omega])
  have hS46 : (b4.access (u51 c)).set ⊆ ((b4.slice (u51 c) (fun _ => rfl))).view.set :=
    ((access_set cc0_scratch4 (a := (0 : Fin 2)) (off := k0_off51 c) (size := S88x1024.size) (k0_off51_inb c) (slab46 c)).trans
      (slice_view_set cc0_scratch4 (a := (0 : Fin 2)) (off := k0_off51 c) (size := S88x1024.size) (k0_off51_inb c) (fun _ => rfl) (slab46 c)).symm).subset
  have hS0 : (b7.access uW88).set ⊆ (dst17 (flip o2 c)).view.set := by
    have h : (dst17 (flip o2 c)).view.set = Finset.univ := View.setOn_whole_univ cc0_scratch7
    rw [h]; exact Finset.subset_univ _
  have hS58 : (bOut.access (u60 c)).set ⊆ ((bOut.slice (u60 c) (fun _ => rfl))).view.set :=
    ((access_set cc0_stg1_0 (a := (0 : Fin 2)) (off := k0_off60 c) (size := S88x1024.size) (k0_off60_inb c) (slab58 c)).trans
      (slice_view_set cc0_stg1_0 (a := (0 : Fin 2)) (off := k0_off60 c) (size := S88x1024.size) (k0_off60_inb c) (fun _ => rfl) (slab58 c)).symm).subset
  have hS58' : (bOut.access (u60 c)).setOn Finset.univ ⊆ ((bOut.slice (u60 c) (fun _ => rfl))).view.set := hS58
  unfold B3 B4
  iintro ⟨#HR, #HL, ⟨⟨D0, D1, D2, D3, D4, F5, T6, T7, T8, T9, T10, T11⟩, Hxl, Ha46, Ho58⟩, Ho⟩ Hk
  iapply (step_waits m K c s5 (sendSem s5) (recvSem s5) rfl rfl (dst17 c) (src17 c) (src17 c) (dst17 c) rfl (dstAny_credit c s5) (owedL (pay m) c (s6 :: s7 :: s9 :: l)) W mwS5 mwR5) $$ [F5 Ho]
  · iframe # ∗
  iintro ⟨D5, %W1, Ho⟩
  ihave D5 := (Entails.of_eq rfl : slotDone m c s5 ⊢ iprop(sendPay m c s5 ∗ (((dst17 (flip o2 c)).view.loc (c : Thread nD τ)) ↦[(dst17 (flip o2 c)).view.set]{fullShare} (Gr2 m c)) ∗ atPos ER (sendCell c s5) 1 (∅ : Finset (Fin 3)) 0 ∗ atPos ER (recvCell c s5) 1 (∅ : Finset (Fin 3)) 0)) $$ D5
  icases D5 with ⟨S5, Rv5, P5a, P5b⟩
  ihave Ha46 := (Entails.of_eq rfl : a46s m c ⊢ ((((b4.slice (u51 c) (fun _ => rfl))).view.loc (c : Thread nD τ)) ↦[((b4.slice (u51 c) (fun _ => rfl))).view.set]{fullShare} (Ga2 m c))) $$ Ha46
  ihave Ho58 := (Entails.of_eq (heldQ_def fullShare c _) : o58 c ⊢ _) $$ Ho58
  icases Ho58 with ⟨%f58, Ho58⟩
  iapply (wp_load_rect Variants.none (c : Thread nD τ) none Set.univ (m := b4) (r := (u51 c)) hS46) $$ Ha46; iintro Ha46
  iapply (wp_load_rect Variants.none (c : Thread nD τ) none Set.univ (m := b7) (r := uW88) hS0) $$ Rv5; iintro Rv5
  iapply (wp_load_rect Variants.none (c : Thread nD τ) none Set.univ (m := bOut) (r := (u60 c)) hS58) $$ Ho58; iintro Ho58
  iapply (wp_store Variants.none (c : Thread nD τ) none Set.univ (m := bOut) (r := (u60 c)) (Mk := Finset.univ) hS58') $$ Ho58; iintro Ho58
  ihave Hsrc := (out58_to_src6 m c (fun a b => w117 a b ((bOut.access (u60 c)).read (Elt F) f58)) (fun a b j => hw117 a b ((bOut.access (u60 c)).read (Elt F) f58) j) f58) $$ Ho58
  ihave Hsrc := (pointsTo_share (PosShare.mem_left_op_right fullShare)).1 $$ Hsrc
  icases Hsrc with ⟨H6, Hsrc⟩
  ihave Hsrc := (pointsTo_share (PosShare.mem_left_op_right fullShare.right)).1 $$ Hsrc
  icases Hsrc with ⟨H7, H9⟩
  ihave H6 := (Entails.of_eq rfl : (((src18 c).view.loc (c : Thread nD τ)) ↦[(src18 c).view.set]{fullShare.left} (Gout m)) ⊢ (((src18 c).view.loc (c : Thread nD τ)) ↦[(src18 c).view.set]{shareOf s6} (Gout m))) $$ H6
  ihave H7 := (Entails.of_eq rfl : (((src18 c).view.loc (c : Thread nD τ)) ↦[(src18 c).view.set]{fullShare.right.left} (Gout m)) ⊢ (((src19 c).view.loc (c : Thread nD τ)) ↦[(src19 c).view.set]{shareOf s7} (Gout m))) $$ H7
  ihave H9 := (Entails.of_eq rfl : (((src18 c).view.loc (c : Thread nD τ)) ↦[(src18 c).view.set]{fullShare.right.right} (Gout m)) ⊢ (((src21 c).view.loc (c : Thread nD τ)) ↦[(src21 c).view.set]{shareOf s9} (Gout m))) $$ H9
  iapply (step_enq m K c n22 s6 hn22' (src18 c) (dst18 c) rfl (sendSem s6) (recvSem s6) rfl rfl (Gout m) (Entails.of_eq rfl) hland_s6 (owedL (pay m) c (s7 :: s9 :: l)) W1) $$ [T6 H6 Ho]
  · isplitr; · iexact HR
    isplitl [T6]; · iexact T6
    isplitl [H6]; · iexact H6
    iexact Ho
  iintro ⟨F6, Ho⟩
  iapply (step_enq m K c n23 s7 hn23' (src19 c) (dst19 c) rfl (sendSem s7) (recvSem s7) rfl rfl (Gout m) (Entails.of_eq rfl) hland_s7 (owedL (pay m) c (s9 :: l)) W1) $$ [T7 H7 Ho]
  · isplitr; · iexact HR
    isplitl [T7]; · iexact T7
    isplitl [H7]; · iexact H7
    iexact Ho
  iintro ⟨F7, Ho⟩
  iapply (step_enq m K c n24 s9 hn24' (src21 c) (dst21 c) rfl (sendSem s9) (recvSem s9) rfl rfl (Gout m) (Entails.of_eq rfl) hland_s9 (owedL (pay m) c l) W1) $$ [T9 H9 Ho]
  · isplitr; · iexact HR
    isplitl [T9]; · iexact T9
    isplitl [H9]; · iexact H9
    iexact Ho
  iintro ⟨F9, Ho⟩
  ihave Ha46 := (Entails.of_eq rfl : ((((b4.slice (u51 c) (fun _ => rfl))).view.loc (c : Thread nD τ)) ↦[((b4.slice (u51 c) (fun _ => rfl))).view.set]{fullShare} (Ga2 m c)) ⊢ a46s m c) $$ Ha46
  ihave D5 := (Entails.of_eq rfl : iprop(sendPay m c s5 ∗ (((dst17 (flip o2 c)).view.loc (c : Thread nD τ)) ↦[(dst17 (flip o2 c)).view.set]{fullShare} (Gr2 m c)) ∗ atPos ER (sendCell c s5) 1 (∅ : Finset (Fin 3)) 0 ∗ atPos ER (recvCell c s5) 1 (∅ : Finset (Fin 3)) 0) ⊢ slotDone m c s5) $$ [S5 Rv5 P5a P5b]
  · iframe
  iapply Hk
  isplitr [Ho]
  · iframe
  · iexists W1; iexact Ho
end P1
end Cert.KernelIdeal.TR
end
-- ==== Proof.Seg2C.lean ====
import proofs.«901104_g7700000000001105_dist_treered_v7x_i8_m2048_n1024_f32_1_alg».proof.Proof.Res2
import proofs.«901104_g7700000000001105_dist_treered_v7x_i8_m2048_n1024_f32_1_alg».proof.Proof.Steps
import proofs.«901104_g7700000000001105_dist_treered_v7x_i8_m2048_n1024_f32_1_alg».proof.Proof.LibRows
import proofs.«901104_g7700000000001105_dist_treered_v7x_i8_m2048_n1024_f32_1_alg».proof.Proof.Mesh
import Idealize.ShloMosaic.Lib.Tactic
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P2
theorem off26_col : ∀ c : Dev nD, k0_off42 c 1 = 0 := by decide +kernel
theorem off43_col : ∀ c : Dev nD, k0_off53 c 1 = 0 := by decide +kernel
theorem off44_col : ∀ c : Dev nD, k0_off54 c 1 = 0 := by decide +kernel
theorem off45_colC : ∀ c : Dev nD, k0_off55 c 1 = 0 := by decide +kernel
theorem off46_col : ∀ c : Dev nD, k0_off56 c 1 = 0 := by decide +kernel
theorem off47_col : ∀ c : Dev nD, k0_off57 c 1 = 0 := by decide +kernel
theorem off58_col : ∀ c : Dev nD, k0_off62 c 1 = 0 := by decide +kernel
theorem off59_col : ∀ c : Dev nD, k0_off63 c 1 = 0 := by decide +kernel
theorem off43_off46_split : ∀ c : Dev nD,
    (k0_off53 c 0 = k0_off42 c 0 ∧ k0_off56 c 0 = k0_off42 c 0 + S80x1024.size 0)
      ∨ (k0_off56 c 0 = k0_off42 c 0 ∧ k0_off53 c 0 = k0_off42 c 0 + S80x1024.size 0) := by decide +kernel
theorem off45_eq : ∀ c : Dev nD, k0_off55 c = k0_off53 c := by decide +kernel
theorem off44_flip : ∀ c : Dev nD, k0_off54 c = k0_off37 (flip o1 c) := by decide +kernel
theorem off47_flip : ∀ c : Dev nD, k0_off57 c = k0_off40 (flip o1 c) := by decide +kernel
theorem off59_eq : ∀ c : Dev nD, k0_off63 c = k0_off62 c := by decide +kernel
theorem size176 : S160x1024.size 0 = S80x1024.size 0 + S80x1024.size 0 := by decide
theorem off43_row : ∀ c : Dev nD, k0_off53 c 0 = ko c + k0_off54 c 0 := by decide +kernel
theorem off46_row : ∀ c : Dev nD, k0_off56 c 0 = ko c + k0_off57 c 0 := by decide +kernel
theorem off58_row : ∀ c : Dev nD, k0_off62 c 0 = glob0 c + ko c + ko2 c := by decide +kernel
theorem off58_acc : ∀ c : Dev nD, k0_off62 c 0 = glob0 c + k0_off56 c 0 := by decide +kernel
theorem glob0_leC : ∀ c : Dev nD, glob0 c + nH ≤ 2048 := by decide +kernel
theorem owner58 : ∀ c : Dev nD, ∀ j : Fin nE, owner (clamp (k0_off62 c 0 + j.val)) = c ∧ partOf (clamp (k0_off62 c 0 + j.val)) = pIdx := by decide +kernel
theorem ord_pIdx_1 : ord pIdx 1 = o1 := by decide
theorem ord_pIdx_2 : ord pIdx 2 = o2 := by decide
theorem off21_colC : ∀ c : Dev nD, k0_off37 c 1 = 0 := by decide +kernel
theorem off24_colC : ∀ c : Dev nD, k0_off40 c 1 = 0 := by decide +kernel
theorem ax_s3C : ax s3 = o1 := by decide
theorem ax_s4C : ax s4 = o1 := by decide
theorem ax_s5 : ax s5 = o2 := by decide
theorem ax_s6C : ax s6 = o2 := by decide
theorem ax_s7C : ax s7 = o1 := by decide
theorem ax_s9 : ax s9 = o0 := by decide
theorem pos_s3_s5 : pos s3 < pos s5 := by decide
theorem pos_s4_s5 : pos s4 < pos s5 := by decide
theorem pos_s5_s6 : pos s5 < pos s6 := by decide
theorem pos_s5_s7 : pos s5 < pos s7 := by decide
theorem pos_s5_s9 : pos s5 < pos s9 := by decide
variable (m : (ℓ : Loc nD τ sig) → Buf (Elt F) ℓ)
theorem slab43 (c : Dev nD) : Slab S320x1024 (0 : Fin 2) (k0_off53 c) S80x1024.size :=
  slab₂ (d := S320x1024.size) (off := k0_off53 c) (size := S80x1024.size) (off43_col c) rfl
theorem slab44 (c : Dev nD) : Slab S160x1024 (0 : Fin 2) (k0_off54 c) S80x1024.size :=
  slab₂ (d := S160x1024.size) (off := k0_off54 c) (size := S80x1024.size) (off44_col c) rfl
/-- A row of an eighth after the second round's store: the device's sum of two plus its second-axis neighbour's sum of two of the same global row. -/
theorem store_q (c : Dev nD) (oA oR : Fin 2 → ℕ) (iA : ∀ a, oA a + S80x1024.size a ≤ S320x1024.size a) (iR : ∀ a, oR a + S80x1024.size a ≤ S160x1024.size a)
    (hcA : oA 1 = 0) (hcR : oR 1 = 0) (hrow : oA 0 = ko c + oR 0)
    (w : (S80x1024.Idx → Elt F .f32) → (S80x1024.Idx → Elt F .f32) → S80x1024.Idx → Elt F .f32)
    (hw : ∀ a b j, w a b j = FloatOps.addf (φ := .f32) (a j) (b j))
    (i : S320x1024.Idx) (hi : i ∈ rows S320x1024 (0 : Fin 2) (oA 0) (oA 0 + S80x1024.size 0)) :
    (b8.access (Rect.unit (s := S320x1024) oA S80x1024.size iA)).write (Elt F) (Ga1 m c)
        (w (b8.view.readAt (Elt F) (Rect.unit (s := S320x1024) oA S80x1024.size iA).toLoadRect (Ga1 m c))
           (b10.view.readAt (Elt F) (Rect.unit (s := S160x1024) oR S80x1024.size iR).toLoadRect (Gr1 m c)))
        Finset.univ i
      = Ga2 m c i := by
  have hi' : i ∈ (Rect.unit (s := S320x1024) oA S80x1024.size iA).set :=
    (mem_unit_iff_rows (s := S320x1024) (a := (0 : Fin 2)) (off := oA) (size := S80x1024.size) iA (slab₂ hcA rfl)).mpr hi
  have hr := (mem_rows.mp hi)
  rw [write_access_apply_of_mem (Elt F) cc0_scratch8 (off := oA) (size := S80x1024.size) iA (Ga1 m c) _ hi', hw,
    readAt_unit_apply (Elt F) cc0_scratch8 (off := oA) (size := S80x1024.size) iA,
    readAt_unit_apply (Elt F) cc0_scratch10 (off := oR) (size := S80x1024.size) iR, emb_localIdx]
  generalize hj : localIdx i hi' = j
  have hj0 : (j 0).val = (i 0).val - oA 0 := by rw [← hj]; rfl
  have hj1 : (j 1).val = (i 1).val - oA 1 := by rw [← hj]; rfl
  have h0 : ((Rect.unit (s := S160x1024) oR S80x1024.size iR).emb j 0).val = oR 0 + 1 * (j 0).val := rfl
  have h1 : ((Rect.unit (s := S160x1024) oR S80x1024.size iR).emb j 1).val = oR 1 + 1 * (j 1).val := rfl
  have e1 : ((Rect.unit (s := S160x1024) oR S80x1024.size iR).emb j 1 : Fin 1024) = (i 1 : Fin 1024) :=
    Fin.ext (by rw [h1, hj1, hcR, hcA]; omega)
  have e0 : clamp (glob0 c + ko c + ((Rect.unit (s := S160x1024) oR S80x1024.size iR).emb j 0).val)
      = clamp (glob0 c + (i 0).val) := by
    rw [h0, hj0]; congr 1; omega
  have key : ∀ (g g' : Fin 2048) (k k' : Fin 1024), g' = g → k' = k →
      FloatOps.addf (φ := .f32) (P1 pIdx (xs m) c g k) (P1 pIdx (xs m) (flip o1 c) g' k') = P2 pIdx (xs m) c g k := by
    intro g g' k k' hg hk; subst hg; subst hk; rw [P2_def, ord_pIdx_1]
  exact key _ _ _ _ e0 e1
theorem slab46 (c : Dev nD) : Slab S320x1024 (0 : Fin 2) (k0_off56 c) S80x1024.size :=
  slab₂ (d := S320x1024.size) (off := k0_off56 c) (size := S80x1024.size) (off46_col c) rfl
theorem slab47 (c : Dev nD) : Slab S160x1024 (0 : Fin 2) (k0_off57 c) S80x1024.size :=
  slab₂ (d := S160x1024.size) (off := k0_off57 c) (size := S80x1024.size) (off47_col c) rfl
theorem slab58 (c : Dev nD) : Slab S2048x1024 (0 : Fin 2) (k0_off62 c) S80x1024.size :=
  slab₂ (d := S2048x1024.size) (off := k0_off62 c) (size := S80x1024.size) (off58_col c) rfl
theorem store58 (c : Dev nD)
    (w : (S80x1024.Idx → Elt F .f32) → (S80x1024.Idx → Elt F .f32) → S80x1024.Idx → Elt F .f32)
    (hw : ∀ a b j, w a b j = FloatOps.addf (φ := .f32) (a j) (b j))
    (f : S2048x1024.Idx → Elt F .f32)
    (i : S2048x1024.Idx) (hi : i ∈ rows S2048x1024 (0 : Fin 2) (k0_off62 c 0) (k0_off62 c 0 + S80x1024.size 0)) :
    (bOut.access (u62 c)).write (Elt F) f
        (w (b8.view.readAt (Elt F) (u56 c).toLoadRect (Ga2 m c))
           (b11.view.readAt (Elt F) uW80.toLoadRect (Gr2 m c)))
        Finset.univ i
      = Gout m i := by
  have hi' : i ∈ (u62 c).set :=
    (mem_unit_iff_rows (s := S2048x1024) (a := (0 : Fin 2)) (off := k0_off62 c) (size := S80x1024.size) (k0_off62_inb c) (slab58 c)).mpr hi
  have hr := (mem_rows.mp hi)
  rw [write_access_apply_of_mem (Elt F) cc0_stg1_0 (off := k0_off62 c) (size := S80x1024.size) (k0_off62_inb c) f _ hi', hw,
    readAt_unit_apply (Elt F) cc0_scratch8 (off := k0_off56 c) (size := S80x1024.size) (k0_off56_inb c),
    readAt_unit_apply (Elt F) cc0_scratch11 (off := ![0, 0]) (size := S80x1024.size) inb_S80x1024_S80x1024_0_0]
  generalize hj : localIdx i hi' = j
  have hj0 : (j 0).val = (i 0).val - k0_off62 c 0 := by rw [← hj]; rfl
  have hj1 : (j 1).val = (i 1).val - k0_off62 c 1 := by rw [← hj]; rfl
  have hs : S80x1024.size 0 = nE := rfl
  have hlt : (i 0).val - k0_off62 c 0 < nE := by rw [hs] at hr; omega
  have hcl : clamp (i 0).val = (i 0 : Fin 2048) := clamp_of_lt (i 0).isLt
  have hsum : k0_off62 c 0 + ((i 0).val - k0_off62 c 0) = (i 0).val := by omega
  have ho := owner58 c ⟨(i 0).val - k0_off62 c 0, hlt⟩
  simp only [hsum, hcl] at ho
  have a0 : ((u56 c).emb j 0).val = k0_off56 c 0 + 1 * (j 0).val := rfl
  have a1 : ((u56 c).emb j 1).val = k0_off56 c 1 + 1 * (j 1).val := rfl
  have r0 : (uW80.emb j 0).val = 0 + 1 * (j 0).val := rfl
  have r1 : (uW80.emb j 1).val = 0 + 1 * (j 1).val := rfl
  have ea1 : ((u56 c).emb j 1 : Fin 1024) = (i 1 : Fin 1024) :=
    Fin.ext (by rw [a1, hj1, off46_col, off58_col]; omega)
  have er1 : (uW80.emb j 1 : Fin 1024) = (i 1 : Fin 1024) :=
    Fin.ext (by rw [r1, hj1, off58_col]; omega)
  have ea0 : clamp (glob0 c + ((u56 c).emb j 0).val) = (i 0 : Fin 2048) := by
    rw [a0, hj0, ← hcl]; congr 1; have := off58_acc c; omega
  have er0 : clamp (glob0 c + ko c + ko2 c + (uW80.emb j 0).val) = (i 0 : Fin 2048) := by
    rw [r0, hj0, ← hcl]; congr 1; have := off58_row c; omega
  have key : ∀ (p : Fin 3) (d : Dev nD) (g ga gr : Fin 2048) (k ka kr : Fin 1024), p = pIdx → d = c → ga = g → gr = g → ka = k → kr = k →
      FloatOps.addf (φ := .f32) (P2 pIdx (xs m) c ga ka) (P2 pIdx (xs m) (flip o2 c) gr kr) = P3 p (xs m) d g k := by
    intro p d g ga gr k ka kr hp hd h1 h2 h3 h4; subst hp; subst hd; subst h1; subst h2; subst h3; subst h4; rw [P3_def, ord_pIdx_2]
  exact key _ _ _ _ _ _ _ _ ho.2 ho.1 ea0 er0 ea1 er1
theorem slab26 (c : Dev nD) : Slab S320x1024 (0 : Fin 2) (k0_off42 c) S160x1024.size :=
  slab₂ (d := S320x1024.size) (off := k0_off42 c) (size := S160x1024.size) (off26_col c) rfl
theorem slab45 (c : Dev nD) : Slab S320x1024 (0 : Fin 2) (k0_off55 c) S80x1024.size :=
  slab₂ (d := S320x1024.size) (off := k0_off55 c) (size := S80x1024.size) (off45_colC c) rfl
theorem slab21f (c : Dev nD) : Slab S160x1024 (0 : Fin 2) (k0_off37 (flip o1 c)) S80x1024.size :=
  slab₂ (d := S160x1024.size) (off := k0_off37 (flip o1 c)) (size := S80x1024.size) (off21_colC (flip o1 c)) rfl
theorem slab24f (c : Dev nD) : Slab S160x1024 (0 : Fin 2) (k0_off40 (flip o1 c)) S80x1024.size :=
  slab₂ (d := S160x1024.size) (off := k0_off40 (flip o1 c)) (size := S80x1024.size) (off24_colC (flip o1 c)) rfl
theorem a26s_split (c : Dev nD) :
    a26s m c ⊢ iprop((((c : Thread nD τ).loc cc0_scratch8) ↦[rows S320x1024 (0 : Fin 2) (k0_off53 c 0) (k0_off53 c 0 + S80x1024.size 0)]{fullShare} (Ga1 m c))
      ∗ (((c : Thread nD τ).loc cc0_scratch8) ↦[rows S320x1024 (0 : Fin 2) (k0_off56 c 0) (k0_off56 c 0 + S80x1024.size 0)]{fullShare} (Ga1 m c))) := by
  have e : a26s m c = (((c : Thread nD τ).loc cc0_scratch8) ↦[rows S320x1024 (0 : Fin 2) (k0_off42 c 0) (k0_off42 c 0 + S160x1024.size 0)]{fullShare} (Ga1 m c) : sProp 𝕄) :=
    pointsTo_slice_eq (c : Thread nD τ) cc0_scratch8 (a := (0 : Fin 2)) (off := k0_off42 c) (size := S160x1024.size) (k0_off42_inb c) (fun _ => rfl) (slab26 c) fullShare (Ga1 m c)
  have e2 : k0_off42 c 0 + S160x1024.size 0 = k0_off42 c 0 + S80x1024.size 0 + S80x1024.size 0 := by rw [size176, Nat.add_assoc]
  rw [e, e2]
  have hsp : (((c : Thread nD τ).loc cc0_scratch8) ↦[rows S320x1024 (0 : Fin 2) (k0_off42 c 0) (k0_off42 c 0 + S80x1024.size 0 + S80x1024.size 0)]{fullShare} (Ga1 m c) : sProp 𝕄)
      ⊢ iprop((((c : Thread nD τ).loc cc0_scratch8) ↦[rows S320x1024 (0 : Fin 2) (k0_off42 c 0) (k0_off42 c 0 + S80x1024.size 0)]{fullShare} (Ga1 m c))
        ∗ (((c : Thread nD τ).loc cc0_scratch8) ↦[rows S320x1024 (0 : Fin 2) (k0_off42 c 0 + S80x1024.size 0) (k0_off42 c 0 + S80x1024.size 0 + S80x1024.size 0)]{fullShare} (Ga1 m c))) :=
    (pointsTo_rows_split_at (c : Thread nD τ) cc0_scratch8 (0 : Fin 2) (lo := k0_off42 c 0) (mid := k0_off42 c 0 + S80x1024.size 0)
      (hi := k0_off42 c 0 + S80x1024.size 0 + S80x1024.size 0) (Nat.le_add_right _ _) (Nat.le_add_right _ _) fullShare (Ga1 m c)).1
  rcases off43_off46_split c with ⟨h43, h46⟩ | ⟨h46, h43⟩
  · rw [h43, h46]; exact hsp
  · rw [h43, h46]; exact hsp.trans sep_comm.1
theorem acc43_to_src5 (c : Dev nD)
    (w : (S80x1024.Idx → Elt F .f32) → (S80x1024.Idx → Elt F .f32) → S80x1024.Idx → Elt F .f32)
    (hw : ∀ a b j, w a b j = FloatOps.addf (φ := .f32) (a j) (b j)) :
    ((((b8.access (u53 c)).loc (c : Thread nD τ)) ↦[rows S320x1024 (0 : Fin 2) (k0_off53 c 0) (k0_off53 c 0 + S80x1024.size 0)]{fullShare}
        ((b8.access (u53 c)).write (Elt F) (Ga1 m c)
          (w ((b8.access (u53 c)).read (Elt F) (Ga1 m c)) ((b10.access (u54 c)).read (Elt F) (Gr1 m c))) Finset.univ)) : sProp 𝕄)
      ⊢ (((src29 c).view.loc (c : Thread nD τ)) ↦[(src29 c).view.set]{shareOf s5} (Ga2 m c)) := by
  have e : ((((src29 c).view.loc (c : Thread nD τ)) ↦[(src29 c).view.set]{shareOf s5} (Ga2 m c)) : sProp 𝕄)
      = (((c : Thread nD τ).loc cc0_scratch8) ↦[rows S320x1024 (0 : Fin 2) (k0_off55 c 0) (k0_off55 c 0 + S80x1024.size 0)]{fullShare} (Ga2 m c)) :=
    pointsTo_slice_eq (c : Thread nD τ) cc0_scratch8 (a := (0 : Fin 2)) (off := k0_off55 c) (size := S80x1024.size) (k0_off55_inb c) (fun _ => rfl) (slab45 c) fullShare (Ga2 m c)
  rw [e, off45_eq c]
  exact Entails.of_eq (pointsTo_rows_congr_at (c : Thread nD τ) cc0_scratch8 (0 : Fin 2) fullShare (fun i hi => store_q m c _ _ (k0_off53_inb c) (k0_off54_inb c) (off43_col c) (off44_col c) (off43_row c) w hw i hi))
theorem acc46_to_a46s (c : Dev nD)
    (w : (S80x1024.Idx → Elt F .f32) → (S80x1024.Idx → Elt F .f32) → S80x1024.Idx → Elt F .f32)
    (hw : ∀ a b j, w a b j = FloatOps.addf (φ := .f32) (a j) (b j)) :
    ((((b8.access (u56 c)).loc (c : Thread nD τ)) ↦[rows S320x1024 (0 : Fin 2) (k0_off56 c 0) (k0_off56 c 0 + S80x1024.size 0)]{fullShare}
        ((b8.access (u56 c)).write (Elt F) (Ga1 m c)
          (w ((b8.access (u56 c)).read (Elt F) (Ga1 m c)) ((b10.access (u57 c)).read (Elt F) (Gr1 m c))) Finset.univ)) : sProp 𝕄)
      ⊢ a46s m c := by
  have e : a46s m c = (((c : Thread nD τ).loc cc0_scratch8) ↦[rows S320x1024 (0 : Fin 2) (k0_off56 c 0) (k0_off56 c 0 + S80x1024.size 0)]{fullShare} (Ga2 m c) : sProp 𝕄) :=
    pointsTo_slice_eq (c : Thread nD τ) cc0_scratch8 (a := (0 : Fin 2)) (off := k0_off56 c) (size := S80x1024.size) (k0_off56_inb c) (fun _ => rfl) (slab46 c) fullShare (Ga2 m c)
  rw [e]
  exact Entails.of_eq (pointsTo_rows_congr_at (c : Thread nD τ) cc0_scratch8 (0 : Fin 2) fullShare (fun i hi => store_q m c _ _ (k0_off56_inb c) (k0_off57_inb c) (off46_col c) (off47_col c) (off46_row c) w hw i hi))
theorem recv3_rows (c : Dev nD) (G : S160x1024.Idx → Elt F .f32) :
    ((((dst27 (flip o1 c)).view.loc (c : Thread nD τ)) ↦[(dst27 (flip o1 c)).view.set]{fullShare} G) : sProp 𝕄)
      = (((c : Thread nD τ).loc cc0_scratch10) ↦[rows S160x1024 (0 : Fin 2) (k0_off54 c 0) (k0_off54 c 0 + S80x1024.size 0)]{fullShare} G) := by
  rw [off44_flip c]
  exact pointsTo_slice_eq (c : Thread nD τ) cc0_scratch10 (a := (0 : Fin 2)) (off := k0_off37 (flip o1 c)) (size := S80x1024.size) (k0_off37_inb (flip o1 c)) (fun _ => rfl) (slab21f c) fullShare G
theorem recv4_rows (c : Dev nD) (G : S160x1024.Idx → Elt F .f32) :
    ((((dst28 (flip o1 c)).view.loc (c : Thread nD τ)) ↦[(dst28 (flip o1 c)).view.set]{fullShare} G) : sProp 𝕄)
      = (((c : Thread nD τ).loc cc0_scratch10) ↦[rows S160x1024 (0 : Fin 2) (k0_off57 c 0) (k0_off57 c 0 + S80x1024.size 0)]{fullShare} G) := by
  rw [off47_flip c]
  exact pointsTo_slice_eq (c : Thread nD τ) cc0_scratch10 (a := (0 : Fin 2)) (off := k0_off40 (flip o1 c)) (size := S80x1024.size) (k0_off40_inb (flip o1 c)) (fun _ => rfl) (slab24f c) fullShare G
theorem sub43 (c : Dev nD) : (b8.access (u53 c)).set ⊆ rows S320x1024 (0 : Fin 2) (k0_off53 c 0) (k0_off53 c 0 + S80x1024.size 0) :=
  (access_set cc0_scratch8 (a := (0 : Fin 2)) (off := k0_off53 c) (size := S80x1024.size) (k0_off53_inb c) (slab43 c)).subset
theorem sub44 (c : Dev nD) : (b10.access (u54 c)).set ⊆ rows S160x1024 (0 : Fin 2) (k0_off54 c 0) (k0_off54 c 0 + S80x1024.size 0) :=
  (access_set cc0_scratch10 (a := (0 : Fin 2)) (off := k0_off54 c) (size := S80x1024.size) (k0_off54_inb c) (slab44 c)).subset
theorem sub46 (c : Dev nD) : (b8.access (u56 c)).set ⊆ rows S320x1024 (0 : Fin 2) (k0_off56 c 0) (k0_off56 c 0 + S80x1024.size 0) :=
  (access_set cc0_scratch8 (a := (0 : Fin 2)) (off := k0_off56 c) (size := S80x1024.size) (k0_off56_inb c) (slab46 c)).subset
theorem sub47 (c : Dev nD) : (b10.access (u57 c)).set ⊆ rows S160x1024 (0 : Fin 2) (k0_off57 c 0) (k0_off57 c 0 + S80x1024.size 0) :=
  (access_set cc0_scratch10 (a := (0 : Fin 2)) (off := k0_off57 c) (size := S80x1024.size) (k0_off57_inb c) (slab47 c)).subset
/-- Read a rectangle of the accumulator and the facing rectangle of the landing buffer and store their combination back on the accumulator's: both stay held, the accumulator's at the written contents. -/
theorem acc_step (c : Dev nD) {α : Type} {Q : α → sProp 𝕄} (rA : Rect S320x1024) (rR : Rect S160x1024)
    {RA : Finset S320x1024.Idx} {RR : Finset S160x1024.Idx} (hSA : (b8.access rA).set ⊆ RA) (hSR : (b10.access rR).set ⊆ RR)
    (k : PUnit → Prog (TpuEff nD τ sig (Elt F) Λ₀ .tc) α)
    (w : (rA.shape.Idx → Elt F .f32) → (rR.shape.Idx → Elt F .f32) → (rA.shape.Idx → Elt F .f32) → rA.shape.Idx → Elt F .f32)
    {hl1 : b8.view.LoadsAt rA.toLoadRect}
    {hl2 : b10.view.LoadsAt rR.toLoadRect}
    {hl3 : b8.view.LoadsAt rA.toLoadRect}
    {hx : (b8.access rA).Stores Finset.univ}
    {hm : (Finset.univ : Finset rA.shape.Idx) = Finset.univ ∨ ∀ a, rA.stride a = 1} :
    iprop((((c : Thread nD τ).loc cc0_scratch8) ↦[RA]{fullShare} (Ga1 m c))
        ∗ (((c : Thread nD τ).loc cc0_scratch10) ↦[RR]{fullShare} (Gr1 m c)))
      ⊢ iprop((((((b8.access rA).loc (c : Thread nD τ)) ↦[RA]{fullShare} ((b8.access rA).write (Elt F) (Ga1 m c) (w ((b8.access rA).read (Elt F) (Ga1 m c)) ((b10.access rR).read (Elt F) (Gr1 m c)) ((b8.access rA).read (Elt F) (Ga1 m c))) Finset.univ))
            ∗ (((c : Thread nD τ).loc cc0_scratch10) ↦[RR]{fullShare} (Gr1 m c))) -∗ wp frame (wpE (defs₀ (F := F)) Variants.none (c : Thread nD τ) none) Set.univ (k ⟨⟩) Q)
          -∗ wp frame (wpE (defs₀ (F := F)) Variants.none (c : Thread nD τ) none) Set.univ (.op (.load b8 rA.toLoadRect hl1) fun va =>
              .op (.load b10 rR.toLoadRect hl2) fun vb =>
              .op (.load b8 rA.toLoadRect hl3) fun va' =>
              .op (.store b8 rA (w va vb va') Finset.univ hx hm) k) Q) := by
  have hSA' : (b8.access rA).setOn Finset.univ ⊆ RA := by
    rw [View.setOn_univ]; exact hSA
  iintro ⟨HA, HR⟩ Hk
  iapply (wp_load_rect Variants.none (c : Thread nD τ) none Set.univ (m := b8) (r := rA) hSA) $$ HA; iintro HA
  iapply (wp_load_rect Variants.none (c : Thread nD τ) none Set.univ (m := b10) (r := rR) hSR) $$ HR; iintro HR
  iapply (wp_load_rect Variants.none (c : Thread nD τ) none Set.univ (m := b8) (r := rA) hSA) $$ HA; iintro HA
  iapply (wp_store Variants.none (c : Thread nD τ) none Set.univ (m := b8) (r := rA) (Mk := Finset.univ) hSA') $$ HA; iintro HA
  iapply Hk
  isplitl [HA]
  · iexact HA
  · iexact HR
theorem slab59 (c : Dev nD) : Slab S2048x1024 (0 : Fin 2) (k0_off63 c) S80x1024.size :=
  slab₂ (d := S2048x1024.size) (off := k0_off63 c) (size := S80x1024.size) (off59_col c) rfl
theorem out58_to_src6 (c : Dev nD)
    (w : (S80x1024.Idx → Elt F .f32) → (S80x1024.Idx → Elt F .f32) → S80x1024.Idx → Elt F .f32)
    (hw : ∀ a b j, w a b j = FloatOps.addf (φ := .f32) (a j) (b j))
    (f : S2048x1024.Idx → Elt F .f32) :
    ((((bOut.access (u62 c)).loc (c : Thread nD τ)) ↦[((bOut.slice (u62 c) (fun _ => rfl))).view.set]{fullShare}
        ((bOut.access (u62 c)).write (Elt F) f
          (w ((b8.access (u56 c)).read (Elt F) (Ga2 m c)) ((b11.access uW80).read (Elt F) (Gr2 m c))) Finset.univ)) : sProp 𝕄)
      ⊢ (((src30 c).view.loc (c : Thread nD τ)) ↦[(src30 c).view.set]{fullShare} (Gout m)) := by
  have e1 : ∀ g : S2048x1024.Idx → Elt F .f32, (((((bOut.slice (u62 c) (fun _ => rfl))).view.loc (c : Thread nD τ)) ↦[((bOut.slice (u62 c) (fun _ => rfl))).view.set]{fullShare} g) : sProp 𝕄)
      = (((c : Thread nD τ).loc cc0_stg1_0) ↦[rows S2048x1024 (0 : Fin 2) (k0_off62 c 0) (k0_off62 c 0 + S80x1024.size 0)]{fullShare} g) := fun g =>
    pointsTo_slice_eq (c : Thread nD τ) cc0_stg1_0 (a := (0 : Fin 2)) (off := k0_off62 c) (size := S80x1024.size) (k0_off62_inb c) (fun _ => rfl) (slab58 c) fullShare g
  have e2 : ((((src30 c).view.loc (c : Thread nD τ)) ↦[(src30 c).view.set]{fullShare} (Gout m)) : sProp 𝕄)
      = (((c : Thread nD τ).loc cc0_stg1_0) ↦[rows S2048x1024 (0 : Fin 2) (k0_off63 c 0) (k0_off63 c 0 + S80x1024.size 0)]{fullShare} (Gout m)) :=
    pointsTo_slice_eq (c : Thread nD τ) cc0_stg1_0 (a := (0 : Fin 2)) (off := k0_off63 c) (size := S80x1024.size) (k0_off63_inb c) (fun _ => rfl) (slab59 c) fullShare (Gout m)
  rw [e2, off59_eq c]
  refine (Entails.of_eq (e1 _)).trans ?_
  exact Entails.of_eq (pointsTo_rows_congr_at (c : Thread nD τ) cc0_stg1_0 (0 : Fin 2) fullShare (fun i hi => store58 m c w hw f i hi))
set_option maxRecDepth 65536 in
theorem seg_p2 (K : Dev nD × Fin 73 → ℕ) (c : Dev nD) {α : Type} {Q : α → sProp 𝕄}
    (k : PUnit → Prog (TpuEff nD τ sig (Elt F) Λ₀ .tc) α) (l : List (Fin 36)) (W : Waits sig Unit)
    (hl : ∀ s ∈ l, pos s5 < pos s)
    (n19 : Dev nD) (hn19 : n19 = flip o2 c)
    (sS3 sR3 sS4 sR4 sS5 sR5 : DmaSem sig)
    (hS3 : sS3 = sendSem s3) (hR3 : sR3 = recvSem s3) (hS4 : sS4 = sendSem s4) (hR4 : sR4 = recvSem s4)
    (hS5 : sS5 = sendSem s5) (hR5 : sR5 = recvSem s5)
    (w78 w85 : (S80x1024.Idx → Elt F .f32) → (S80x1024.Idx → Elt F .f32) → (S80x1024.Idx → Elt F .f32) → S80x1024.Idx → Elt F .f32)
    (hw78 : ∀ a b a' j, w78 a b a' j = FloatOps.addf (φ := .f32) (a j) (b j))
    (hw85 : ∀ a b a' j, w85 a b a' j = FloatOps.addf (φ := .f32) (a j) (b j))
    (hland_s5 : ∀ fd, (((dst29 c).view.loc (Dev.tc n19 : Thread nD τ)) ↦[(dst29 c).view.set]{fullShare}
        ((dst29 c).view.write (Elt F) fd ((src29 c).view.read (Elt F) (Ga2 m c)) Finset.univ) : sProp 𝕄) ⊢ recvPay m n19 s5)
    {h73a : (dst27 c).view.WordExact} {h73b : (src27 c).view.WordExact} {h74a : (src27 c).view.WordExact} {h74b : (dst27 c).view.WordExact}
    {h80a : (dst28 c).view.WordExact} {h80b : (src28 c).view.WordExact} {h81a : (src28 c).view.WordExact} {h81b : (dst28 c).view.WordExact}
    {hl75 : b8.view.LoadsAt (u53 c).toLoadRect}
    {hl76 : b10.view.LoadsAt (u54 c).toLoadRect}
    {hl77 : b8.view.LoadsAt (u53 c).toLoadRect}
    {hx78 : (b8.access (u53 c)).Stores Finset.univ}
    {hm78 : (Finset.univ : Finset (u53 c).shape.Idx) = Finset.univ ∨ ∀ a, (u53 c).stride a = 1}
    {hsc79 : ((dst29 c) : Memref sig (Dev.tc n19 : Thread nD τ).2.kind .vmem S80x1024 .f32).view.ref.isScScratch = false}
    {hsrc79 : (src29 c).view.WordExact} {hdst79 : (dst29 c).view.WordExact}
    {hsem79 : DmaTarget.Typed .vmem (.dma sR5) (.remote (Dev.tc n19 : Thread nD τ) (dst29 c) (.dma sS5) hsc79)}
    {hl82 : b8.view.LoadsAt (u56 c).toLoadRect}
    {hl83 : b10.view.LoadsAt (u57 c).toLoadRect}
    {hl84 : b8.view.LoadsAt (u56 c).toLoadRect}
    {hx85 : (b8.access (u56 c)).Stores Finset.univ}
    {hm85 : (Finset.univ : Finset (u56 c).shape.Idx) = Finset.univ ∨ ∀ a, (u56 c).stride a = 1} :
    iprop(records (pay m) K ∗ levAts L lv ∗ B2 m c ∗ owes (c : Thread nD τ) (owedL (pay m) c (s5 :: l)) W)
      ⊢ iprop(((B3 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (.op (.waitDma2 sS3 (dst27 c) (src27 c) h73a h73b) fun _ =>
              .op (.waitDma2 sR3 (src27 c) (dst27 c) h74a h74b) fun _ =>
              .op (.load b8 (u53 c).toLoadRect hl75) fun v524 =>
              .op (.load b10 (u54 c).toLoadRect hl76) fun v526 =>
              .op (.load b8 (u53 c).toLoadRect hl77) fun v530 =>
              .op (.store b8 (u53 c) (w78 v524 v526 v530) Finset.univ hx78 hm78) fun _ =>
              .op (.enqueueDma (src29 c) (.remote (Dev.tc n19 : Thread nD τ) (dst29 c) (.dma sS5) hsc79) (.dma sR5) hsrc79 hdst79 hsem79) fun _ =>
              .op (.waitDma2 sS4 (dst28 c) (src28 c) h80a h80b) fun _ =>
              .op (.waitDma2 sR4 (src28 c) (dst28 c) h81a h81b) fun _ =>
              .op (.load b8 (u56 c).toLoadRect hl82) fun v553 =>
              .op (.load b10 (u57 c).toLoadRect hl83) fun v555 =>
              .op (.load b8 (u56 c).toLoadRect hl84) fun v559 =>
              .op (.store b8 (u56 c) (w85 v553 v555 v559) Finset.univ hx85 hm85) k) Q) := by
  subst hS3 hR3 hS4 hR4 hS5 hR5
  have hn19' : n19 = flip (ax s5) c := by rw [ax_s5]; exact hn19
  have mwS3 : (levAts L lv : sProp 𝕄) ⊢ MayWait (c : Thread nD τ) (.dma (sendSem s3)) () (owedL (pay m) c (s5 :: l)) :=
    mayWait_owedL (pay m) c (.dma (sendSem s3)) (s5 :: l) (2 + pos s3) (by rw [lv_send]; exact Nat.zero_le _)
      (fun s hs => by rcases List.mem_cons.mp hs with rfl | hs; exacts [by have := pos_s3_s5; omega, by have := hl s hs; have := pos_s3_s5; omega])
  have mwR3 : (levAts L lv : sProp 𝕄) ⊢ MayWait (c : Thread nD τ) (.dma (recvSem s3)) () (owedL (pay m) c (s5 :: l)) :=
    mayWait_owedL (pay m) c (.dma (recvSem s3)) (s5 :: l) (2 + pos s3) (by rw [lv_recv])
      (fun s hs => by rcases List.mem_cons.mp hs with rfl | hs; exacts [by have := pos_s3_s5; omega, by have := hl s hs; have := pos_s3_s5; omega])
  have mwS4 : (levAts L lv : sProp 𝕄) ⊢ MayWait (c : Thread nD τ) (.dma (sendSem s4)) () (owedL (pay m) c (l)) :=
    mayWait_owedL (pay m) c (.dma (sendSem s4)) (l) (2 + pos s4) (by rw [lv_send]; exact Nat.zero_le _)
      (fun s hs => by have := hl s hs; have := pos_s4_s5; omega)
  have mwR4 : (levAts L lv : sProp 𝕄) ⊢ MayWait (c : Thread nD τ) (.dma (recvSem s4)) () (owedL (pay m) c (l)) :=
    mayWait_owedL (pay m) c (.dma (recvSem s4)) (l) (2 + pos s4) (by rw [lv_recv])
      (fun s hs => by have := hl s hs; have := pos_s4_s5; omega)
  unfold B2 B3
  iintro ⟨#HR, #HL, ⟨⟨D0, D1, D2, F3, F4, T5, T6, T7, T8, T9, T10, T11⟩, Hxl, Ha26, Ho58⟩, Ho⟩ Hk
  iapply (step_waits m K c s3 (sendSem s3) (recvSem s3) rfl rfl (dst27 c) (src27 c) (src27 c) (dst27 c) rfl (dstAny_credit c s3) (owedL (pay m) c (s5 :: l)) W mwS3 mwR3) $$ [F3 Ho]
  · iframe # ∗
  iintro ⟨D3, %W1, Ho⟩
  ihave D3 := (Entails.of_eq rfl : slotDone m c s3 ⊢ iprop(sendPay m c s3 ∗ (((dst27 (flip o1 c)).view.loc (c : Thread nD τ)) ↦[(dst27 (flip o1 c)).view.set]{fullShare} (Gr1 m c)) ∗ atPos ER (sendCell c s3) 1 (∅ : Finset (Fin 3)) 0 ∗ atPos ER (recvCell c s3) 1 (∅ : Finset (Fin 3)) 0)) $$ D3
  icases D3 with ⟨S3, Rv3, P3a, P3b⟩
  ihave Rv3 := (Entails.of_eq (recv3_rows c (Gr1 m c))) $$ Rv3
  ihave Ha := (a26s_split m c) $$ Ha26
  icases Ha with ⟨A43, A46⟩
  iapply (acc_step m c (u53 c) (u54 c) (sub43 c) (sub44 c) _ w78) $$ [A43 Rv3]
  · iframe
  iintro ⟨A43, Rv3⟩
  ihave Hsrc := (acc43_to_src5 m c (fun a b => w78 a b ((b8.access (u53 c)).read (Elt F) (Ga1 m c))) (fun a b j => hw78 a b ((b8.access (u53 c)).read (Elt F) (Ga1 m c)) j)) $$ A43
  iapply (step_enq m K c n19 s5 hn19' (src29 c) (dst29 c) rfl (sendSem s5) (recvSem s5) rfl rfl (Ga2 m c) (Entails.of_eq rfl) hland_s5 (owedL (pay m) c l) W1) $$ [T5 Hsrc Ho]
  · isplitr; · iexact HR
    isplitl [T5]; · iexact T5
    isplitl [Hsrc]; · iexact Hsrc
    iexact Ho
  iintro ⟨F5, Ho⟩
  iapply (step_waits m K c s4 (sendSem s4) (recvSem s4) rfl rfl (dst28 c) (src28 c) (src28 c) (dst28 c) rfl (dstAny_credit c s4) (owedL (pay m) c l) W1 mwS4 mwR4) $$ [F4 Ho]
  · iframe # ∗
  iintro ⟨D4, %W2, Ho⟩
  ihave D4 := (Entails.of_eq rfl : slotDone m c s4 ⊢ iprop(sendPay m c s4 ∗ (((dst28 (flip o1 c)).view.loc (c : Thread nD τ)) ↦[(dst28 (flip o1 c)).view.set]{fullShare} (Gr1 m c)) ∗ atPos ER (sendCell c s4) 1 (∅ : Finset (Fin 3)) 0 ∗ atPos ER (recvCell c s4) 1 (∅ : Finset (Fin 3)) 0)) $$ D4
  icases D4 with ⟨S4, Rv4, P4a, P4b⟩
  ihave Rv4 := (Entails.of_eq (recv4_rows c (Gr1 m c))) $$ Rv4
  iapply (acc_step m c (u56 c) (u57 c) (sub46 c) (sub47 c) _ w85) $$ [A46 Rv4]
  · iframe
  iintro ⟨A46, Rv4⟩
  ihave Ha46 := (acc46_to_a46s m c (fun a b => w85 a b ((b8.access (u56 c)).read (Elt F) (Ga1 m c))) (fun a b j => hw85 a b ((b8.access (u56 c)).read (Elt F) (Ga1 m c)) j)) $$ A46
  ihave Rv3 := (Entails.of_eq (recv3_rows c (Gr1 m c)).symm) $$ Rv3
  ihave Rv4 := (Entails.of_eq (recv4_rows c (Gr1 m c)).symm) $$ Rv4
  ihave D3 := (Entails.of_eq rfl : iprop(sendPay m c s3 ∗ (((dst27 (flip o1 c)).view.loc (c : Thread nD τ)) ↦[(dst27 (flip o1 c)).view.set]{fullShare} (Gr1 m c)) ∗ atPos ER (sendCell c s3) 1 (∅ : Finset (Fin 3)) 0 ∗ atPos ER (recvCell c s3) 1 (∅ : Finset (Fin 3)) 0) ⊢ slotDone m c s3) $$ [S3 Rv3 P3a P3b]
  · iframe
  ihave D4 := (Entails.of_eq rfl : iprop(sendPay m c s4 ∗ (((dst28 (flip o1 c)).view.loc (c : Thread nD τ)) ↦[(dst28 (flip o1 c)).view.set]{fullShare} (Gr1 m c)) ∗ atPos ER (sendCell c s4) 1 (∅ : Finset (Fin 3)) 0 ∗ atPos ER (recvCell c s4) 1 (∅ : Finset (Fin 3)) 0) ⊢ slotDone m c s4) $$ [S4 Rv4 P4a P4b]
  · iframe
  iapply Hk
  isplitr [Ho]
  · iframe
  · iexists W2; iexact Ho
set_option maxRecDepth 65536 in
theorem seg_p3 (K : Dev nD × Fin 73 → ℕ) (c : Dev nD) {α : Type} {Q : α → sProp 𝕄}
    (k : PUnit → Prog (TpuEff nD τ sig (Elt F) Λ₀ .tc) α) (l : List (Fin 36)) (W : Waits sig Unit)
    (hl : ∀ s ∈ l, pos s9 < pos s)
    (n22 n23 n24 : Dev nD) (hn22 : n22 = flip o2 c) (hn23 : n23 = flip o1 c) (hn24 : n24 = flip o0 c)
    (sS5 sR5 sS6 sR6 sS7 sR7 sS9 sR9 : DmaSem sig)
    (hS5 : sS5 = sendSem s5) (hR5 : sR5 = recvSem s5) (hS6 : sS6 = sendSem s6) (hR6 : sR6 = recvSem s6)
    (hS7 : sS7 = sendSem s7) (hR7 : sR7 = recvSem s7) (hS9 : sS9 = sendSem s9) (hR9 : sR9 = recvSem s9)
    (w117 : (S80x1024.Idx → Elt F .f32) → (S80x1024.Idx → Elt F .f32) → (S80x1024.Idx → Elt F .f32) → S80x1024.Idx → Elt F .f32)
    (hw117 : ∀ a b a' j, w117 a b a' j = FloatOps.addf (φ := .f32) (a j) (b j))
    (hland_s6 : ∀ fd, (((dst30 c).view.loc (Dev.tc n22 : Thread nD τ)) ↦[(dst30 c).view.set]{fullShare}
        ((dst30 c).view.write (Elt F) fd ((src30 c).view.read (Elt F) (Gout m)) Finset.univ) : sProp 𝕄) ⊢ recvPay m n22 s6)
    (hland_s7 : ∀ fd, (((dst31 c).view.loc (Dev.tc n23 : Thread nD τ)) ↦[(dst31 c).view.set]{fullShare}
        ((dst31 c).view.write (Elt F) fd ((src31 c).view.read (Elt F) (Gout m)) Finset.univ) : sProp 𝕄) ⊢ recvPay m n23 s7)
    (hland_s9 : ∀ fd, (((dst33 c).view.loc (Dev.tc n24 : Thread nD τ)) ↦[(dst33 c).view.set]{fullShare}
        ((dst33 c).view.write (Elt F) fd ((src33 c).view.read (Elt F) (Gout m)) Finset.univ) : sProp 𝕄) ⊢ recvPay m n24 s9)
    {h112a : (dst29 c).view.WordExact} {h112b : (src29 c).view.WordExact} {h113a : (src29 c).view.WordExact} {h113b : (dst29 c).view.WordExact}
    {hl114 : b8.view.LoadsAt (u56 c).toLoadRect}
    {hl115 : b11.view.LoadsAt uW80.toLoadRect}
    {hl116 : bOut.view.LoadsAt (u62 c).toLoadRect}
    {hx117 : (bOut.access (u62 c)).Stores Finset.univ}
    {hm117 : (Finset.univ : Finset (u62 c).shape.Idx) = Finset.univ ∨ ∀ a, (u62 c).stride a = 1}
    {hsc118 : ((dst30 c) : Memref sig (Dev.tc n22 : Thread nD τ).2.kind .vmem S80x1024 .f32).view.ref.isScScratch = false}
    {hsrc118 : (src30 c).view.WordExact} {hdst118 : (dst30 c).view.WordExact}
    {hsem118 : DmaTarget.Typed .vmem (.dma sR6) (.remote (Dev.tc n22 : Thread nD τ) (dst30 c) (.dma sS6) hsc118)}
    {hsc119 : ((dst31 c) : Memref sig (Dev.tc n23 : Thread nD τ).2.kind .vmem S80x1024 .f32).view.ref.isScScratch = false}
    {hsrc119 : (src31 c).view.WordExact} {hdst119 : (dst31 c).view.WordExact}
    {hsem119 : DmaTarget.Typed .vmem (.dma sR7) (.remote (Dev.tc n23 : Thread nD τ) (dst31 c) (.dma sS7) hsc119)}
    {hsc120 : ((dst33 c) : Memref sig (Dev.tc n24 : Thread nD τ).2.kind .vmem S80x1024 .f32).view.ref.isScScratch = false}
    {hsrc120 : (src33 c).view.WordExact} {hdst120 : (dst33 c).view.WordExact}
    {hsem120 : DmaTarget.Typed .vmem (.dma sR9) (.remote (Dev.tc n24 : Thread nD τ) (dst33 c) (.dma sS9) hsc120)} :
    iprop(records (pay m) K ∗ levAts L lv ∗ B3 m c ∗ owes (c : Thread nD τ) (owedL (pay m) c (s6 :: s7 :: s9 :: l)) W)
      ⊢ iprop(((B4 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ (.op (.waitDma2 sS5 (dst29 c) (src29 c) h112a h112b) fun _ =>
              .op (.waitDma2 sR5 (src29 c) (dst29 c) h113a h113b) fun _ =>
              .op (.load b8 (u56 c).toLoadRect hl114) fun v683 =>
              .op (.load b11 uW80.toLoadRect hl115) fun v684 =>
              .op (.load bOut (u62 c).toLoadRect hl116) fun v687 =>
              .op (.store bOut (u62 c) (w117 v683 v684 v687) Finset.univ hx117 hm117) fun _ =>
              .op (.enqueueDma (src30 c) (.remote (Dev.tc n22 : Thread nD τ) (dst30 c) (.dma sS6) hsc118) (.dma sR6) hsrc118 hdst118 hsem118) fun _ =>
              .op (.enqueueDma (src31 c) (.remote (Dev.tc n23 : Thread nD τ) (dst31 c) (.dma sS7) hsc119) (.dma sR7) hsrc119 hdst119 hsem119) fun _ =>
              .op (.enqueueDma (src33 c) (.remote (Dev.tc n24 : Thread nD τ) (dst33 c) (.dma sS9) hsc120) (.dma sR9) hsrc120 hdst120 hsem120) k) Q) := by
  subst hS5 hR5 hS6 hR6 hS7 hR7 hS9 hR9
  have hn22' : n22 = flip (ax s6) c := by rw [ax_s6C]; exact hn22
  have hn23' : n23 = flip (ax s7) c := by rw [ax_s7C]; exact hn23
  have hn24' : n24 = flip (ax s9) c := by rw [ax_s9]; exact hn24
  have mwS5 : (levAts L lv : sProp 𝕄) ⊢ MayWait (c : Thread nD τ) (.dma (sendSem s5)) () (owedL (pay m) c (s6 :: s7 :: s9 :: l)) :=
    mayWait_owedL (pay m) c (.dma (sendSem s5)) (s6 :: s7 :: s9 :: l) (2 + pos s5) (by rw [lv_send]; exact Nat.zero_le _)
      (fun s hs => by
        simp only [List.mem_cons] at hs
        rcases hs with rfl | rfl | rfl | hs
        exacts [by have := pos_s5_s6; omega, by have := pos_s5_s7; omega, by have := pos_s5_s9; omega, by have := hl s hs; have := pos_s5_s9; omega])
  have mwR5 : (levAts L lv : sProp 𝕄) ⊢ MayWait (c : Thread nD τ) (.dma (recvSem s5)) () (owedL (pay m) c (s6 :: s7 :: s9 :: l)) :=
    mayWait_owedL (pay m) c (.dma (recvSem s5)) (s6 :: s7 :: s9 :: l) (2 + pos s5) (by rw [lv_recv])
      (fun s hs => by
        simp only [List.mem_cons] at hs
        rcases hs with rfl | rfl | rfl | hs
        exacts [by have := pos_s5_s6; omega, by have := pos_s5_s7; omega, by have := pos_s5_s9; omega, by have := hl s hs; have := pos_s5_s9; omega])
  have hS46 : (b8.access (u56 c)).set ⊆ ((b8.slice (u56 c) (fun _ => rfl))).view.set :=
    ((access_set cc0_scratch8 (a := (0 : Fin 2)) (off := k0_off56 c) (size := S80x1024.size) (k0_off56_inb c) (slab46 c)).trans
      (slice_view_set cc0_scratch8 (a := (0 : Fin 2)) (off := k0_off56 c) (size := S80x1024.size) (k0_off56_inb c) (fun _ => rfl) (slab46 c)).symm).subset
  have hS0 : (b11.access uW80).set ⊆ (dst29 (flip o2 c)).view.set := by
    have h : (dst29 (flip o2 c)).view.set = Finset.univ := View.setOn_whole_univ cc0_scratch11
    rw [h]; exact Finset.subset_univ _
  have hS58 : (bOut.access (u62 c)).set ⊆ ((bOut.slice (u62 c) (fun _ => rfl))).view.set :=
    ((access_set cc0_stg1_0 (a := (0 : Fin 2)) (off := k0_off62 c) (size := S80x1024.size) (k0_off62_inb c) (slab58 c)).trans
      (slice_view_set cc0_stg1_0 (a := (0 : Fin 2)) (off := k0_off62 c) (size := S80x1024.size) (k0_off62_inb c) (fun _ => rfl) (slab58 c)).symm).subset
  have hS58' : (bOut.access (u62 c)).setOn Finset.univ ⊆ ((bOut.slice (u62 c) (fun _ => rfl))).view.set := hS58
  unfold B3 B4
  iintro ⟨#HR, #HL, ⟨⟨D0, D1, D2, D3, D4, F5, T6, T7, T8, T9, T10, T11⟩, Hxl, Ha46, Ho58⟩, Ho⟩ Hk
  iapply (step_waits m K c s5 (sendSem s5) (recvSem s5) rfl rfl (dst29 c) (src29 c) (src29 c) (dst29 c) rfl (dstAny_credit c s5) (owedL (pay m) c (s6 :: s7 :: s9 :: l)) W mwS5 mwR5) $$ [F5 Ho]
  · iframe # ∗
  iintro ⟨D5, %W1, Ho⟩
  ihave D5 := (Entails.of_eq rfl : slotDone m c s5 ⊢ iprop(sendPay m c s5 ∗ (((dst29 (flip o2 c)).view.loc (c : Thread nD τ)) ↦[(dst29 (flip o2 c)).view.set]{fullShare} (Gr2 m c)) ∗ atPos ER (sendCell c s5) 1 (∅ : Finset (Fin 3)) 0 ∗ atPos ER (recvCell c s5) 1 (∅ : Finset (Fin 3)) 0)) $$ D5
  icases D5 with ⟨S5, Rv5, P5a, P5b⟩
  ihave Ha46 := (Entails.of_eq rfl : a46s m c ⊢ ((((b8.slice (u56 c) (fun _ => rfl))).view.loc (c : Thread nD τ)) ↦[((b8.slice (u56 c) (fun _ => rfl))).view.set]{fullShare} (Ga2 m c))) $$ Ha46
  ihave Ho58 := (Entails.of_eq (heldQ_def fullShare c _) : o58 c ⊢ _) $$ Ho58
  icases Ho58 with ⟨%f58, Ho58⟩
  iapply (wp_load_rect Variants.none (c : Thread nD τ) none Set.univ (m := b8) (r := (u56 c)) hS46) $$ Ha46; iintro Ha46
  iapply (wp_load_rect Variants.none (c : Thread nD τ) none Set.univ (m := b11) (r := uW80) hS0) $$ Rv5; iintro Rv5
  iapply (wp_load_rect Variants.none (c : Thread nD τ) none Set.univ (m := bOut) (r := (u62 c)) hS58) $$ Ho58; iintro Ho58
  iapply (wp_store Variants.none (c : Thread nD τ) none Set.univ (m := bOut) (r := (u62 c)) (Mk := Finset.univ) hS58') $$ Ho58; iintro Ho58
  ihave Hsrc := (out58_to_src6 m c (fun a b => w117 a b ((bOut.access (u62 c)).read (Elt F) f58)) (fun a b j => hw117 a b ((bOut.access (u62 c)).read (Elt F) f58) j) f58) $$ Ho58
  ihave Hsrc := (pointsTo_share (PosShare.mem_left_op_right fullShare)).1 $$ Hsrc
  icases Hsrc with ⟨H6, Hsrc⟩
  ihave Hsrc := (pointsTo_share (PosShare.mem_left_op_right fullShare.right)).1 $$ Hsrc
  icases Hsrc with ⟨H7, H9⟩
  ihave H6 := (Entails.of_eq rfl : (((src30 c).view.loc (c : Thread nD τ)) ↦[(src30 c).view.set]{fullShare.left} (Gout m)) ⊢ (((src30 c).view.loc (c : Thread nD τ)) ↦[(src30 c).view.set]{shareOf s6} (Gout m))) $$ H6
  ihave H7 := (Entails.of_eq rfl : (((src30 c).view.loc (c : Thread nD τ)) ↦[(src30 c).view.set]{fullShare.right.left} (Gout m)) ⊢ (((src31 c).view.loc (c : Thread nD τ)) ↦[(src31 c).view.set]{shareOf s7} (Gout m))) $$ H7
  ihave H9 := (Entails.of_eq rfl : (((src30 c).view.loc (c : Thread nD τ)) ↦[(src30 c).view.set]{fullShare.right.right} (Gout m)) ⊢ (((src33 c).view.loc (c : Thread nD τ)) ↦[(src33 c).view.set]{shareOf s9} (Gout m))) $$ H9
  iapply (step_enq m K c n22 s6 hn22' (src30 c) (dst30 c) rfl (sendSem s6) (recvSem s6) rfl rfl (Gout m) (Entails.of_eq rfl) hland_s6 (owedL (pay m) c (s7 :: s9 :: l)) W1) $$ [T6 H6 Ho]
  · isplitr; · iexact HR
    isplitl [T6]; · iexact T6
    isplitl [H6]; · iexact H6
    iexact Ho
  iintro ⟨F6, Ho⟩
  iapply (step_enq m K c n23 s7 hn23' (src31 c) (dst31 c) rfl (sendSem s7) (recvSem s7) rfl rfl (Gout m) (Entails.of_eq rfl) hland_s7 (owedL (pay m) c (s9 :: l)) W1) $$ [T7 H7 Ho]
  · isplitr; · iexact HR
    isplitl [T7]; · iexact T7
    isplitl [H7]; · iexact H7
    iexact Ho
  iintro ⟨F7, Ho⟩
  iapply (step_enq m K c n24 s9 hn24' (src33 c) (dst33 c) rfl (sendSem s9) (recvSem s9) rfl rfl (Gout m) (Entails.of_eq rfl) hland_s9 (owedL (pay m) c l) W1) $$ [T9 H9 Ho]
  · isplitr; · iexact HR
    isplitl [T9]; · iexact T9
    isplitl [H9]; · iexact H9
    iexact Ho
  iintro ⟨F9, Ho⟩
  ihave Ha46 := (Entails.of_eq rfl : ((((b8.slice (u56 c) (fun _ => rfl))).view.loc (c : Thread nD τ)) ↦[((b8.slice (u56 c) (fun _ => rfl))).view.set]{fullShare} (Ga2 m c)) ⊢ a46s m c) $$ Ha46
  ihave D5 := (Entails.of_eq rfl : iprop(sendPay m c s5 ∗ (((dst29 (flip o2 c)).view.loc (c : Thread nD τ)) ↦[(dst29 (flip o2 c)).view.set]{fullShare} (Gr2 m c)) ∗ atPos ER (sendCell c s5) 1 (∅ : Finset (Fin 3)) 0 ∗ atPos ER (recvCell c s5) 1 (∅ : Finset (Fin 3)) 0) ⊢ slotDone m c s5) $$ [S5 Rv5 P5a P5b]
  · iframe
  iapply Hk
  isplitr [Ho]
  · iframe
  · iexists W1; iexact Ho
end P2
end Cert.KernelIdeal.TR
end
-- ==== Proof.Seg0D.lean ====
import proofs.«901104_g7700000000001105_dist_treered_v7x_i8_m2048_n1024_f32_1_alg».proof.Proof.Steps
import proofs.«901104_g7700000000001105_dist_treered_v7x_i8_m2048_n1024_f32_1_alg».proof.Proof.Res0
import proofs.«901104_g7700000000001105_dist_treered_v7x_i8_m2048_n1024_f32_1_alg».proof.Proof.LibRows
import proofs.«901104_g7700000000001105_dist_treered_v7x_i8_m2048_n1024_f32_1_alg».proof.Proof.Mesh
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P0
theorem pos_s6_s8 : pos s6 < pos s8 := by decide
theorem pos_s6_s10 : pos s6 < pos s10 := by decide
theorem pos_s7_s8 : pos s7 < pos s8 := by decide
theorem pos_s7_s11 : pos s7 < pos s11 := by decide
theorem pos_s8_s11 : pos s8 < pos s11 := by decide
theorem pos_s9_s11 : pos s9 < pos s11 := by decide
theorem pos_s10_s11 : pos s10 < pos s11 := by decide
theorem ax_s6 : ax s6 = o2 := by decide
theorem ax_s7 : ax s7 = o1 := by decide
theorem ax_s8 : ax s8 = o1 := by decide
theorem ax_s10 : ax s10 = o0 := by decide
theorem ax_s11 : ax s11 = o0 := by decide
theorem pt_slice_congr (c : Dev nD) (b : Ref sig .tc) {off off' size : Fin b.ty.shape.rank → ℕ} (h : off = off')
    (p : ∀ a, off a + size a ≤ b.ty.shape.size a) (p' : ∀ a, off' a + size a ≤ b.ty.shape.size a)
    (q : PosShare TreeShare) (G : Buf (Elt F) ((c : Thread nD τ).loc b)) :
    (pt (ℓ := (c : Thread nD τ).loc b) ((Memref.whole b).slice (Rect.unit off size p) (fun _ => rfl)).view.set q G : sProp 𝕄)
      = pt (ℓ := (c : Thread nD τ).loc b) ((Memref.whole b).slice (Rect.unit off' size p') (fun _ => rfl)).view.set q G := by
  subst h; rfl
theorem pt_split {ℓ : Loc nD τ sig} (S : Finset (Idx ℓ)) (q : PosShare TreeShare) (G : Buf (Elt F) ℓ) :
    (pt S q G : sProp 𝕄) ⊣⊢ iprop(pt S q.left G ∗ pt S q.right G) :=
  pointsTo_share (PosShare.mem_left_op_right q)
theorem pt_union {ℓ : Loc nD τ sig} {S T U : Finset (Idx ℓ)} (hd : Disjoint S T) (hu : S ∪ T = U) (q : PosShare TreeShare)
    (G : Buf (Elt F) ℓ) : (pt U q G : sProp 𝕄) ⊣⊢ iprop(pt S q G ∗ pt T q G) := by
  subst hu; exact pointsTo_union hd
theorem land_self {sp : Space} {sh : Shape} (n : Dev nD) (v : Memref sig .tc sp sh .f32) (q : PosShare TreeShare)
    (G fd : Buf (Elt F) (v.view.loc (n : Thread nD τ))) :
    (v.view.loc (n : Thread nD τ) ↦[v.view.set]{q} (v.view.write (Elt F) fd (v.view.read (Elt F) G) Finset.univ) : sProp 𝕄)
      = (v.view.loc (n : Thread nD τ) ↦[v.view.set]{q} G) := by
  refine pointsTo_congr fun i hi => ?_
  rw [View.write_read_eq_piecewise, View.setOn_univ, Finset.piecewise_eq_of_mem _ _ _ hi]
theorem mw_send (m : (ℓ : Loc nD τ sig) → Buf (Elt F) ℓ) (c : Dev nD) (s : Fin 36) (sS : DmaSem sig) (hS : sS = sendSem s) (l : List (Fin 36)) :
    (levAts L lv : sProp 𝕄) ⊢ MayWait (c : Thread nD τ) (.dma sS) () (owedL (pay m) c l) := by
  subst hS
  exact mayWait_owedL (pay m) c _ l 0 (by rw [lv_send]) (fun s' _ => by omega)
theorem mw_recv (m : (ℓ : Loc nD τ sig) → Buf (Elt F) ℓ) (c : Dev nD) (s : Fin 36) (sR : DmaSem sig) (hR : sR = recvSem s) (l : List (Fin 36))
    (hl : ∀ s' ∈ l, pos s < pos s') :
    (levAts L lv : sProp 𝕄) ⊢ MayWait (c : Thread nD τ) (.dma sR) () (owedL (pay m) c l) := by
  subst hR
  exact mayWait_owedL (pay m) c _ l (2 + pos s) (by rw [lv_recv]) (fun s' hs' => by have := hl s' hs'; omega)
theorem seg_p6 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS9 sR9 sS10 sR10 sS11 sR11 : DmaSem sig)
    (hS9 : sS9 = sendSem s9) (hR9 : sR9 = recvSem s9) (hS10 : sS10 = sendSem s10) (hR10 : sR10 = recvSem s10)
    (hS11 : sS11 = sendSem s11) (hR11 : sR11 = recvSem s11)
    (hl : ∀ s ∈ l, pos s11 < pos s) :
    iprop(records (pay m) K ∗ levAts L lv ∗ B6 m c ∗ owes (c : Thread nD τ) (owedL (pay m) c l) W)
      ⊢ iprop(((B7 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS9 (src9 c) (dst9 c) (View.wordExact_bits rfl) (View.wordExact_bits rfl)) fun _ =>
             .op (.waitDma2 sR9 (src9 c) (dst9 c) (View.wordExact_bits rfl) (View.wordExact_bits rfl)) fun _ =>
             .op (.waitDma2 sS10 (src10 c) (dst10 c) (View.wordExact_bits rfl) (View.wordExact_bits rfl)) fun _ =>
             .op (.waitDma2 sR10 (src10 c) (dst10 c) (View.wordExact_bits rfl) (View.wordExact_bits rfl)) fun _ =>
             .op (.waitDma2 sS11 (src11 c) (dst11 c) (View.wordExact_bits rfl) (View.wordExact_bits rfl)) fun _ =>
             .op (.waitDma2 sR11 (src11 c) (dst11 c) (View.wordExact_bits rfl) (View.wordExact_bits rfl)) k) Q) := by
  unfold B6 B7
  iintro ⟨#Hrec, #Hlev, ⟨⟨H0, H1, H2, H3, H4, H5, H6, H7, H8, H9, H10, H11⟩, Hxl, Ha⟩, HO⟩ Hk
  iapply (step_waits m K c s9 sS9 sR9 hS9 hR9 (src9 c) (dst9 c) (src9 c) (dst9 c) (dstAny_credit c s9) (dstAny_credit c s9)
      (owedL (pay m) c l) W (mw_send m c s9 sS9 hS9 l)
      (mw_recv m c s9 sR9 hR9 l (fun s hs => Nat.lt_trans pos_s9_s11 (hl s hs)))) $$ [H9 HO]
  · iframe # ∗
  iintro ⟨H9, %W1, HO⟩
  iapply (step_waits m K c s10 sS10 sR10 hS10 hR10 (src10 c) (dst10 c) (src10 c) (dst10 c) (dstAny_credit c s10) (dstAny_credit c s10)
      (owedL (pay m) c l) W1 (mw_send m c s10 sS10 hS10 l)
      (mw_recv m c s10 sR10 hR10 l (fun s hs => Nat.lt_trans pos_s10_s11 (hl s hs)))) $$ [H10 HO]
  · iframe # ∗
  iintro ⟨H10, %W2, HO⟩
  iapply (step_waits m K c s11 sS11 sR11 hS11 hR11 (src11 c) (dst11 c) (src11 c) (dst11 c) (dstAny_credit c s11) (dstAny_credit c s11)
      (owedL (pay m) c l) W2 (mw_send m c s11 sS11 hS11 l)
      (mw_recv m c s11 sR11 hR11 l hl)) $$ [H11 HO]
  · iframe # ∗
  iintro ⟨H11, %W3, HO⟩
  iapply Hk
  isplitr [HO]
  · isplitr [Hxl Ha]
    · iframe
    iframe
  iexists W3; iexact HO
theorem off59_flip_o2 : ∀ c : Dev nD, k0_off59 (flip o2 c) = k0_off64 c := by decide +kernel
theorem recvPay_s6 (m : (ℓ : Loc nD τ sig) → Buf (Elt F) ℓ) (c : Dev nD) :
    recvPay m c s6 = pt (ℓ := (c : Thread nD τ).loc cc0_stg1_0) (src8 c).view.set fullShare (Gout m) :=
  pt_slice_congr c cc0_stg1_0 (off59_flip_o2 c) (k0_off59_inb (flip o2 c)) (k0_off64_inb c) fullShare (Gout m)
theorem src_s8 (m : (ℓ : Loc nD τ sig) → Buf (Elt F) ℓ) (c : Dev nD) :
    (pt (ℓ := (c : Thread nD τ).loc cc0_stg1_0) (src8 c).view.set fullShare.left (Gout m) : sProp 𝕄)
      = ((src8 c).view.loc (c : Thread nD τ) ↦[(src8 c).view.set]{shareOf s8} (Gout m)) := rfl
theorem src_s10 (m : (ℓ : Loc nD τ sig) → Buf (Elt F) ℓ) (c : Dev nD) :
    (pt (ℓ := (c : Thread nD τ).loc cc0_stg1_0) (src8 c).view.set fullShare.right (Gout m) : sProp 𝕄)
      = ((src10 c).view.loc (c : Thread nD τ) ↦[(src10 c).view.set]{shareOf s10} (Gout m)) := rfl
theorem seg_p4 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS6 sR6 sS8 sR8 sS10 sR10 : DmaSem sig)
    (hS6 : sS6 = sendSem s6) (hR6 : sR6 = recvSem s6) (hS8 : sS8 = sendSem s8) (hR8 : sR8 = recvSem s8)
    (hS10 : sS10 = sendSem s10) (hR10 : sR10 = recvSem s10)
    (n8 n10 : Dev nD) (hn8 : n8 = flip o1 c) (hn10 : n10 = flip o0 c)
    {hsc8 : (dst8 c : Memref sig (Dev.tc n8 : Thread nD τ).2.kind .vmem S88x1024 .f32).view.ref.isScScratch = false}
    {hsem8 : DmaTarget.Typed .vmem (.dma sR8) (.remote (Dev.tc n8 : Thread nD τ) (dst8 c) (.dma sS8) hsc8)}
    {hsc10 : (dst10 c : Memref sig (Dev.tc n10 : Thread nD τ).2.kind .vmem S88x1024 .f32).view.ref.isScScratch = false}
    {hsem10 : DmaTarget.Typed .vmem (.dma sR10) (.remote (Dev.tc n10 : Thread nD τ) (dst10 c) (.dma sS10) hsc10)}
    (hland_s8 : ∀ fd, ((dst8 c).view.loc (Dev.tc n8 : Thread nD τ) ↦[(dst8 c).view.set]{fullShare}
        ((dst8 c).view.write (Elt F) fd ((src8 c).view.read (Elt F) (Gout m)) Finset.univ) : sProp 𝕄) ⊢ recvPay m n8 s8)
    (hland_s10 : ∀ fd, ((dst10 c).view.loc (Dev.tc n10 : Thread nD τ) ↦[(dst10 c).view.set]{fullShare}
        ((dst10 c).view.write (Elt F) fd ((src10 c).view.read (Elt F) (Gout m)) Finset.univ) : sProp 𝕄) ⊢ recvPay m n10 s10)
    (hl : ∀ s ∈ l, pos s6 < pos s) :
    iprop(records (pay m) K ∗ levAts L lv ∗ B4 m c ∗ owes (c : Thread nD τ) (owedL (pay m) c (s8 :: s10 :: l)) W)
      ⊢ iprop(((B5 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS6 (src6 c) (dst6 c) (View.wordExact_bits rfl) (View.wordExact_bits rfl)) fun _ =>
             .op (.waitDma2 sR6 (src6 c) (dst6 c) (View.wordExact_bits rfl) (View.wordExact_bits rfl)) fun _ =>
             .op (.enqueueDma (src8 c) (.remote (Dev.tc n8 : Thread nD τ) (dst8 c) (.dma sS8) hsc8) (.dma sR8) (View.wordExact_bits rfl) (View.wordExact_bits rfl) hsem8) fun _ =>
             .op (.enqueueDma (src10 c) (.remote (Dev.tc n10 : Thread nD τ) (dst10 c) (.dma sS10) hsc10) (.dma sR10) (View.wordExact_bits rfl) (View.wordExact_bits rfl) hsem10) k) Q) := by
  unfold B4 B5
  iintro ⟨#Hrec, #Hlev, ⟨⟨H0, H1, H2, H3, H4, H5, H6, H7, H8, H9, H10, H11⟩, Hxl, Ha⟩, HO⟩ Hk
  iapply (step_waits m K c s6 sS6 sR6 hS6 hR6 (src6 c) (dst6 c) (src6 c) (dst6 c) (dstAny_credit c s6) (dstAny_credit c s6)
      (owedL (pay m) c (s8 :: s10 :: l)) W (mw_send m c s6 sS6 hS6 _)
      (mw_recv m c s6 sR6 hR6 _ (fun s hs => by
        rcases List.mem_cons.mp hs with rfl | hs
        · exact pos_s6_s8
        rcases List.mem_cons.mp hs with rfl | hs
        · exact pos_s6_s10
        exact hl s hs))) $$ [H6 HO]
  · iframe # ∗
  iintro ⟨H6, %W1, HO⟩
  unfold slotDone
  icases H6 with ⟨H6s, H6r, H6a, H6b⟩
  ihave Hs8 := (Entails.of_eq (recvPay_s6 m c)) $$ H6r
  icases (pt_split (src8 c).view.set fullShare (Gout m)).1 $$ Hs8 with ⟨Hsl0, Hsr0⟩
  ihave Hsl := (Entails.of_eq (src_s8 m c)) $$ Hsl0
  ihave Hsr := (Entails.of_eq (src_s10 m c)) $$ Hsr0
  iapply (step_enq m K c n8 s8 (hn8.trans (by rw [ax_s8])) (src8 c) (dst8 c) rfl sS8 sR8 hS8 hR8 (Gout m)
      (Entails.of_eq rfl) hland_s8 (owedL (pay m) c (s10 :: l)) W1) $$ [H8 Hsl HO]
  · isplitr; · iexact Hrec
    isplitl [H8]; · iexact H8
    isplitl [Hsl]; · iexact Hsl
    iexact HO
  iintro ⟨H8, HO⟩
  iapply (step_enq m K c n10 s10 (hn10.trans (by rw [ax_s10])) (src10 c) (dst10 c) rfl sS10 sR10 hS10 hR10 (Gout m)
      (Entails.of_eq rfl) hland_s10 (owedL (pay m) c l) W1) $$ [H10 Hsr HO]
  · isplitr; · iexact Hrec
    isplitl [H10]; · iexact H10
    isplitl [Hsr]; · iexact Hsr
    iexact HO
  iintro ⟨H10, HO⟩
  iapply Hk
  isplitr [HO]
  · isplitr [Hxl Ha]
    · isplitl [H0]; · iexact H0
      isplitl [H1]; · iexact H1
      isplitl [H2]; · iexact H2
      isplitl [H3]; · iexact H3
      isplitl [H4]; · iexact H4
      isplitl [H5]; · iexact H5
      isplitl [H6s H6a H6b]
      · unfold slotPassed slotEnd
        iframe
      iframe
    iframe
  iexists W1; iexact HO
theorem off67_tile : ∀ c : Dev nD,
    (k0_off59 (flip o1 c) 1 = 0 ∧ k0_off64 (flip o1 c) 1 = 0 ∧ k0_off67 c 1 = 0) ∧
    ((k0_off59 (flip o1 c) 0 = k0_off67 c 0 ∧ k0_off64 (flip o1 c) 0 = k0_off67 c 0 + S88x1024.size 0) ∨
     (k0_off64 (flip o1 c) 0 = k0_off67 c 0 ∧ k0_off59 (flip o1 c) 0 = k0_off67 c 0 + S88x1024.size 0)) := by decide +kernel
theorem size_quarter : S176x1024.size 0 = S88x1024.size 0 + S88x1024.size 0 := rfl
theorem tile_s11 (c : Dev nD) :
    Disjoint (dst7 (flip o1 c)).view.set (dst8 (flip o1 c)).view.set
      ∧ (dst7 (flip o1 c)).view.set ∪ (dst8 (flip o1 c)).view.set = (src11 c).view.set := by
  obtain ⟨⟨h59, h64, h67⟩, hcase⟩ := off67_tile c
  rw [slice_view_set cc0_stg1_0 (a := (0 : Fin 2)) (k0_off59_inb (flip o1 c)) (fun _ => rfl) (slab₂ (size := S88x1024.size) h59 rfl),
    slice_view_set cc0_stg1_0 (a := (0 : Fin 2)) (k0_off64_inb (flip o1 c)) (fun _ => rfl) (slab₂ (size := S88x1024.size) h64 rfl),
    slice_view_set cc0_stg1_0 (a := (0 : Fin 2)) (k0_off67_inb c) (fun _ => rfl) (slab₂ (size := S176x1024.size) h67 rfl),
    size_quarter, ← Nat.add_assoc]
  rcases hcase with ⟨e1, e2⟩ | ⟨e1, e2⟩
  · rw [e1, e2]
    exact ⟨rows_disjoint le_rfl, rows_union (Nat.le_add_right _ _) (Nat.le_add_right _ _)⟩
  · rw [e1, e2, Finset.union_comm]
    exact ⟨(rows_disjoint le_rfl).symm, rows_union (Nat.le_add_right _ _) (Nat.le_add_right _ _)⟩
theorem join_s11 (m : (ℓ : Loc nD τ sig) → Buf (Elt F) ℓ) (c : Dev nD) :
    iprop(recvPay m c s7 ∗ recvPay m c s8)
      ⊢ (pt (ℓ := (c : Thread nD τ).loc cc0_stg1_0) (src11 c).view.set fullShare (Gout m) : sProp 𝕄) :=
  (pt_union (ℓ := (c : Thread nD τ).loc cc0_stg1_0) (tile_s11 c).1 (tile_s11 c).2 fullShare (Gout m)).2
theorem src_s11 (m : (ℓ : Loc nD τ sig) → Buf (Elt F) ℓ) (c : Dev nD) :
    (pt (ℓ := (c : Thread nD τ).loc cc0_stg1_0) (src11 c).view.set fullShare (Gout m) : sProp 𝕄)
      = ((src11 c).view.loc (c : Thread nD τ) ↦[(src11 c).view.set]{shareOf s11} (Gout m)) := rfl
theorem seg_p5 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS7 sR7 sS8 sR8 sS11 sR11 : DmaSem sig)
    (hS7 : sS7 = sendSem s7) (hR7 : sR7 = recvSem s7) (hS8 : sS8 = sendSem s8) (hR8 : sR8 = recvSem s8)
    (hS11 : sS11 = sendSem s11) (hR11 : sR11 = recvSem s11)
    (n11 : Dev nD) (hn11 : n11 = flip o0 c)
    {hsc11 : (dst11 c : Memref sig (Dev.tc n11 : Thread nD τ).2.kind .vmem S176x1024 .f32).view.ref.isScScratch = false}
    {hsem11 : DmaTarget.Typed .vmem (.dma sR11) (.remote (Dev.tc n11 : Thread nD τ) (dst11 c) (.dma sS11) hsc11)}
    (hland_s11 : ∀ fd, ((dst11 c).view.loc (Dev.tc n11 : Thread nD τ) ↦[(dst11 c).view.set]{fullShare}
        ((dst11 c).view.write (Elt F) fd ((src11 c).view.read (Elt F) (Gout m)) Finset.univ) : sProp 𝕄) ⊢ recvPay m n11 s11)
    (hl : ∀ s ∈ l, pos s8 < pos s) :
    iprop(records (pay m) K ∗ levAts L lv ∗ B5 m c ∗ owes (c : Thread nD τ) (owedL (pay m) c (s11 :: l)) W)
      ⊢ iprop(((B6 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS7 (src7 c) (dst7 c) (View.wordExact_bits rfl) (View.wordExact_bits rfl)) fun _ =>
             .op (.waitDma2 sR7 (src7 c) (dst7 c) (View.wordExact_bits rfl) (View.wordExact_bits rfl)) fun _ =>
             .op (.waitDma2 sS8 (src8 c) (dst8 c) (View.wordExact_bits rfl) (View.wordExact_bits rfl)) fun _ =>
             .op (.waitDma2 sR8 (src8 c) (dst8 c) (View.wordExact_bits rfl) (View.wordExact_bits rfl)) fun _ =>
             .op (.enqueueDma (src11 c) (.remote (Dev.tc n11 : Thread nD τ) (dst11 c) (.dma sS11) hsc11) (.dma sR11) (View.wordExact_bits rfl) (View.wordExact_bits rfl) hsem11) k) Q) := by
  unfold B5 B6
  iintro ⟨#Hrec, #Hlev, ⟨⟨H0, H1, H2, H3, H4, H5, H6, H7, H8, H9, H10, H11⟩, Hxl, Ha⟩, HO⟩ Hk
  have hl' : ∀ s ∈ s11 :: l, pos s8 < pos s := fun s hs => by
    rcases List.mem_cons.mp hs with rfl | hs
    · exact pos_s8_s11
    exact hl s hs
  iapply (step_waits m K c s7 sS7 sR7 hS7 hR7 (src7 c) (dst7 c) (src7 c) (dst7 c) (dstAny_credit c s7) (dstAny_credit c s7)
      (owedL (pay m) c (s11 :: l)) W (mw_send m c s7 sS7 hS7 _)
      (mw_recv m c s7 sR7 hR7 _ (fun s hs => Nat.lt_trans pos_s7_s8 (hl' s hs)))) $$ [H7 HO]
  · iframe # ∗
  iintro ⟨H7, %W1, HO⟩
  iapply (step_waits m K c s8 sS8 sR8 hS8 hR8 (src8 c) (dst8 c) (src8 c) (dst8 c) (dstAny_credit c s8) (dstAny_credit c s8)
      (owedL (pay m) c (s11 :: l)) W1 (mw_send m c s8 sS8 hS8 _)
      (mw_recv m c s8 sR8 hR8 _ hl')) $$ [H8 HO]
  · iframe # ∗
  iintro ⟨H8, %W2, HO⟩
  unfold slotDone
  icases H7 with ⟨H7s, H7r, H7a, H7b⟩
  icases H8 with ⟨H8s, H8r, H8a, H8b⟩
  ihave Hs11' := (join_s11 m c) $$ [H7r H8r]
  · iframe
  ihave Hs11 := (Entails.of_eq (src_s11 m c)) $$ Hs11'
  iapply (step_enq m K c n11 s11 (hn11.trans (by rw [ax_s11])) (src11 c) (dst11 c) rfl sS11 sR11 hS11 hR11 (Gout m)
      (Entails.of_eq rfl) hland_s11 (owedL (pay m) c l) W2) $$ [H11 Hs11 HO]
  · isplitr; · iexact Hrec
    isplitl [H11]; · iexact H11
    isplitl [Hs11]; · iexact Hs11
    iexact HO
  iintro ⟨H11, HO⟩
  iapply Hk
  isplitr [HO]
  · isplitr [Hxl Ha]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7s H7a H7b]
      · unfold slotPassed slotEnd
        iframe
      isplitl [H8s H8a H8b]
      · unfold slotPassed slotEnd
        iframe
      iframe
    iframe
  iexists W2; iexact HO
end P0
end Cert.KernelIdeal.TR
end
-- ==== Proof.Seg1D.lean ====
import proofs.«901104_g7700000000001105_dist_treered_v7x_i8_m2048_n1024_f32_1_alg».proof.Proof.Steps
import proofs.«901104_g7700000000001105_dist_treered_v7x_i8_m2048_n1024_f32_1_alg».proof.Proof.Res1
import proofs.«901104_g7700000000001105_dist_treered_v7x_i8_m2048_n1024_f32_1_alg».proof.Proof.LibRows
import proofs.«901104_g7700000000001105_dist_treered_v7x_i8_m2048_n1024_f32_1_alg».proof.Proof.Mesh
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P1
theorem pos_s6_s8 : pos s6 < pos s8 := by decide
theorem pos_s6_s10 : pos s6 < pos s10 := by decide
theorem pos_s7_s8 : pos s7 < pos s8 := by decide
theorem pos_s7_s11 : pos s7 < pos s11 := by decide
theorem pos_s8_s11 : pos s8 < pos s11 := by decide
theorem pos_s9_s11 : pos s9 < pos s11 := by decide
theorem pos_s10_s11 : pos s10 < pos s11 := by decide
theorem ax_s6 : ax s6 = o2 := by decide
theorem ax_s7 : ax s7 = o1 := by decide
theorem ax_s8 : ax s8 = o1 := by decide
theorem ax_s10 : ax s10 = o0 := by decide
theorem ax_s11 : ax s11 = o0 := by decide
theorem pt_slice_congr (c : Dev nD) (b : Ref sig .tc) {off off' size : Fin b.ty.shape.rank → ℕ} (h : off = off')
    (p : ∀ a, off a + size a ≤ b.ty.shape.size a) (p' : ∀ a, off' a + size a ≤ b.ty.shape.size a)
    (q : PosShare TreeShare) (G : Buf (Elt F) ((c : Thread nD τ).loc b)) :
    (pt (ℓ := (c : Thread nD τ).loc b) ((Memref.whole b).slice (Rect.unit off size p) (fun _ => rfl)).view.set q G : sProp 𝕄)
      = pt (ℓ := (c : Thread nD τ).loc b) ((Memref.whole b).slice (Rect.unit off' size p') (fun _ => rfl)).view.set q G := by
  subst h; rfl
theorem pt_split {ℓ : Loc nD τ sig} (S : Finset (Idx ℓ)) (q : PosShare TreeShare) (G : Buf (Elt F) ℓ) :
    (pt S q G : sProp 𝕄) ⊣⊢ iprop(pt S q.left G ∗ pt S q.right G) :=
  pointsTo_share (PosShare.mem_left_op_right q)
theorem pt_union {ℓ : Loc nD τ sig} {S T U : Finset (Idx ℓ)} (hd : Disjoint S T) (hu : S ∪ T = U) (q : PosShare TreeShare)
    (G : Buf (Elt F) ℓ) : (pt U q G : sProp 𝕄) ⊣⊢ iprop(pt S q G ∗ pt T q G) := by
  subst hu; exact pointsTo_union hd
theorem land_self {sp : Space} {sh : Shape} (n : Dev nD) (v : Memref sig .tc sp sh .f32) (q : PosShare TreeShare)
    (G fd : Buf (Elt F) (v.view.loc (n : Thread nD τ))) :
    (v.view.loc (n : Thread nD τ) ↦[v.view.set]{q} (v.view.write (Elt F) fd (v.view.read (Elt F) G) Finset.univ) : sProp 𝕄)
      = (v.view.loc (n : Thread nD τ) ↦[v.view.set]{q} G) := by
  refine pointsTo_congr fun i hi => ?_
  rw [View.write_read_eq_piecewise, View.setOn_univ, Finset.piecewise_eq_of_mem _ _ _ hi]
theorem mw_send (m : (ℓ : Loc nD τ sig) → Buf (Elt F) ℓ) (c : Dev nD) (s : Fin 36) (sS : DmaSem sig) (hS : sS = sendSem s) (l : List (Fin 36)) :
    (levAts L lv : sProp 𝕄) ⊢ MayWait (c : Thread nD τ) (.dma sS) () (owedL (pay m) c l) := by
  subst hS
  exact mayWait_owedL (pay m) c _ l 0 (by rw [lv_send]) (fun s' _ => by omega)
theorem mw_recv (m : (ℓ : Loc nD τ sig) → Buf (Elt F) ℓ) (c : Dev nD) (s : Fin 36) (sR : DmaSem sig) (hR : sR = recvSem s) (l : List (Fin 36))
    (hl : ∀ s' ∈ l, pos s < pos s') :
    (levAts L lv : sProp 𝕄) ⊢ MayWait (c : Thread nD τ) (.dma sR) () (owedL (pay m) c l) := by
  subst hR
  exact mayWait_owedL (pay m) c _ l (2 + pos s) (by rw [lv_recv]) (fun s' hs' => by have := hl s' hs'; omega)
theorem seg_p6 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS9 sR9 sS10 sR10 sS11 sR11 : DmaSem sig)
    (hS9 : sS9 = sendSem s9) (hR9 : sR9 = recvSem s9) (hS10 : sS10 = sendSem s10) (hR10 : sR10 = recvSem s10)
    (hS11 : sS11 = sendSem s11) (hR11 : sR11 = recvSem s11)
    (hl : ∀ s ∈ l, pos s11 < pos s) :
    iprop(records (pay m) K ∗ levAts L lv ∗ B6 m c ∗ owes (c : Thread nD τ) (owedL (pay m) c l) W)
      ⊢ iprop(((B7 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS9 (src21 c) (dst21 c) (View.wordExact_bits rfl) (View.wordExact_bits rfl)) fun _ =>
             .op (.waitDma2 sR9 (src21 c) (dst21 c) (View.wordExact_bits rfl) (View.wordExact_bits rfl)) fun _ =>
             .op (.waitDma2 sS10 (src22 c) (dst22 c) (View.wordExact_bits rfl) (View.wordExact_bits rfl)) fun _ =>
             .op (.waitDma2 sR10 (src22 c) (dst22 c) (View.wordExact_bits rfl) (View.wordExact_bits rfl)) fun _ =>
             .op (.waitDma2 sS11 (src23 c) (dst23 c) (View.wordExact_bits rfl) (View.wordExact_bits rfl)) fun _ =>
             .op (.waitDma2 sR11 (src23 c) (dst23 c) (View.wordExact_bits rfl) (View.wordExact_bits rfl)) k) Q) := by
  unfold B6 B7
  iintro ⟨#Hrec, #Hlev, ⟨⟨H0, H1, H2, H3, H4, H5, H6, H7, H8, H9, H10, H11⟩, Hxl, Ha⟩, HO⟩ Hk
  iapply (step_waits m K c s9 sS9 sR9 hS9 hR9 (src21 c) (dst21 c) (src21 c) (dst21 c) (dstAny_credit c s9) (dstAny_credit c s9)
      (owedL (pay m) c l) W (mw_send m c s9 sS9 hS9 l)
      (mw_recv m c s9 sR9 hR9 l (fun s hs => Nat.lt_trans pos_s9_s11 (hl s hs)))) $$ [H9 HO]
  · iframe # ∗
  iintro ⟨H9, %W1, HO⟩
  iapply (step_waits m K c s10 sS10 sR10 hS10 hR10 (src22 c) (dst22 c) (src22 c) (dst22 c) (dstAny_credit c s10) (dstAny_credit c s10)
      (owedL (pay m) c l) W1 (mw_send m c s10 sS10 hS10 l)
      (mw_recv m c s10 sR10 hR10 l (fun s hs => Nat.lt_trans pos_s10_s11 (hl s hs)))) $$ [H10 HO]
  · iframe # ∗
  iintro ⟨H10, %W2, HO⟩
  iapply (step_waits m K c s11 sS11 sR11 hS11 hR11 (src23 c) (dst23 c) (src23 c) (dst23 c) (dstAny_credit c s11) (dstAny_credit c s11)
      (owedL (pay m) c l) W2 (mw_send m c s11 sS11 hS11 l)
      (mw_recv m c s11 sR11 hR11 l hl)) $$ [H11 HO]
  · iframe # ∗
  iintro ⟨H11, %W3, HO⟩
  iapply Hk
  isplitr [HO]
  · isplitr [Hxl Ha]
    · iframe
    iframe
  iexists W3; iexact HO
theorem off59_flip_o2 : ∀ c : Dev nD, k0_off61 (flip o2 c) = k0_off65 c := by decide +kernel
theorem recvPay_s6 (m : (ℓ : Loc nD τ sig) → Buf (Elt F) ℓ) (c : Dev nD) :
    recvPay m c s6 = pt (ℓ := (c : Thread nD τ).loc cc0_stg1_0) (src20 c).view.set fullShare (Gout m) :=
  pt_slice_congr c cc0_stg1_0 (off59_flip_o2 c) (k0_off61_inb (flip o2 c)) (k0_off65_inb c) fullShare (Gout m)
theorem src_s8 (m : (ℓ : Loc nD τ sig) → Buf (Elt F) ℓ) (c : Dev nD) :
    (pt (ℓ := (c : Thread nD τ).loc cc0_stg1_0) (src20 c).view.set fullShare.left (Gout m) : sProp 𝕄)
      = ((src20 c).view.loc (c : Thread nD τ) ↦[(src20 c).view.set]{shareOf s8} (Gout m)) := rfl
theorem src_s10 (m : (ℓ : Loc nD τ sig) → Buf (Elt F) ℓ) (c : Dev nD) :
    (pt (ℓ := (c : Thread nD τ).loc cc0_stg1_0) (src20 c).view.set fullShare.right (Gout m) : sProp 𝕄)
      = ((src22 c).view.loc (c : Thread nD τ) ↦[(src22 c).view.set]{shareOf s10} (Gout m)) := rfl
theorem seg_p4 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS6 sR6 sS8 sR8 sS10 sR10 : DmaSem sig)
    (hS6 : sS6 = sendSem s6) (hR6 : sR6 = recvSem s6) (hS8 : sS8 = sendSem s8) (hR8 : sR8 = recvSem s8)
    (hS10 : sS10 = sendSem s10) (hR10 : sR10 = recvSem s10)
    (n8 n10 : Dev nD) (hn8 : n8 = flip o1 c) (hn10 : n10 = flip o0 c)
    {hsc8 : (dst20 c : Memref sig (Dev.tc n8 : Thread nD τ).2.kind .vmem S88x1024 .f32).view.ref.isScScratch = false}
    {hsem8 : DmaTarget.Typed .vmem (.dma sR8) (.remote (Dev.tc n8 : Thread nD τ) (dst20 c) (.dma sS8) hsc8)}
    {hsc10 : (dst22 c : Memref sig (Dev.tc n10 : Thread nD τ).2.kind .vmem S88x1024 .f32).view.ref.isScScratch = false}
    {hsem10 : DmaTarget.Typed .vmem (.dma sR10) (.remote (Dev.tc n10 : Thread nD τ) (dst22 c) (.dma sS10) hsc10)}
    (hland_s8 : ∀ fd, ((dst20 c).view.loc (Dev.tc n8 : Thread nD τ) ↦[(dst20 c).view.set]{fullShare}
        ((dst20 c).view.write (Elt F) fd ((src20 c).view.read (Elt F) (Gout m)) Finset.univ) : sProp 𝕄) ⊢ recvPay m n8 s8)
    (hland_s10 : ∀ fd, ((dst22 c).view.loc (Dev.tc n10 : Thread nD τ) ↦[(dst22 c).view.set]{fullShare}
        ((dst22 c).view.write (Elt F) fd ((src22 c).view.read (Elt F) (Gout m)) Finset.univ) : sProp 𝕄) ⊢ recvPay m n10 s10)
    (hl : ∀ s ∈ l, pos s6 < pos s) :
    iprop(records (pay m) K ∗ levAts L lv ∗ B4 m c ∗ owes (c : Thread nD τ) (owedL (pay m) c (s8 :: s10 :: l)) W)
      ⊢ iprop(((B5 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS6 (src18 c) (dst18 c) (View.wordExact_bits rfl) (View.wordExact_bits rfl)) fun _ =>
             .op (.waitDma2 sR6 (src18 c) (dst18 c) (View.wordExact_bits rfl) (View.wordExact_bits rfl)) fun _ =>
             .op (.enqueueDma (src20 c) (.remote (Dev.tc n8 : Thread nD τ) (dst20 c) (.dma sS8) hsc8) (.dma sR8) (View.wordExact_bits rfl) (View.wordExact_bits rfl) hsem8) fun _ =>
             .op (.enqueueDma (src22 c) (.remote (Dev.tc n10 : Thread nD τ) (dst22 c) (.dma sS10) hsc10) (.dma sR10) (View.wordExact_bits rfl) (View.wordExact_bits rfl) hsem10) k) Q) := by
  unfold B4 B5
  iintro ⟨#Hrec, #Hlev, ⟨⟨H0, H1, H2, H3, H4, H5, H6, H7, H8, H9, H10, H11⟩, Hxl, Ha⟩, HO⟩ Hk
  iapply (step_waits m K c s6 sS6 sR6 hS6 hR6 (src18 c) (dst18 c) (src18 c) (dst18 c) (dstAny_credit c s6) (dstAny_credit c s6)
      (owedL (pay m) c (s8 :: s10 :: l)) W (mw_send m c s6 sS6 hS6 _)
      (mw_recv m c s6 sR6 hR6 _ (fun s hs => by
        rcases List.mem_cons.mp hs with rfl | hs
        · exact pos_s6_s8
        rcases List.mem_cons.mp hs with rfl | hs
        · exact pos_s6_s10
        exact hl s hs))) $$ [H6 HO]
  · iframe # ∗
  iintro ⟨H6, %W1, HO⟩
  unfold slotDone
  icases H6 with ⟨H6s, H6r, H6a, H6b⟩
  ihave Hs8 := (Entails.of_eq (recvPay_s6 m c)) $$ H6r
  icases (pt_split (src20 c).view.set fullShare (Gout m)).1 $$ Hs8 with ⟨Hsl0, Hsr0⟩
  ihave Hsl := (Entails.of_eq (src_s8 m c)) $$ Hsl0
  ihave Hsr := (Entails.of_eq (src_s10 m c)) $$ Hsr0
  iapply (step_enq m K c n8 s8 (hn8.trans (by rw [ax_s8])) (src20 c) (dst20 c) rfl sS8 sR8 hS8 hR8 (Gout m)
      (Entails.of_eq rfl) hland_s8 (owedL (pay m) c (s10 :: l)) W1) $$ [H8 Hsl HO]
  · isplitr; · iexact Hrec
    isplitl [H8]; · iexact H8
    isplitl [Hsl]; · iexact Hsl
    iexact HO
  iintro ⟨H8, HO⟩
  iapply (step_enq m K c n10 s10 (hn10.trans (by rw [ax_s10])) (src22 c) (dst22 c) rfl sS10 sR10 hS10 hR10 (Gout m)
      (Entails.of_eq rfl) hland_s10 (owedL (pay m) c l) W1) $$ [H10 Hsr HO]
  · isplitr; · iexact Hrec
    isplitl [H10]; · iexact H10
    isplitl [Hsr]; · iexact Hsr
    iexact HO
  iintro ⟨H10, HO⟩
  iapply Hk
  isplitr [HO]
  · isplitr [Hxl Ha]
    · isplitl [H0]; · iexact H0
      isplitl [H1]; · iexact H1
      isplitl [H2]; · iexact H2
      isplitl [H3]; · iexact H3
      isplitl [H4]; · iexact H4
      isplitl [H5]; · iexact H5
      isplitl [H6s H6a H6b]
      · unfold slotPassed slotEnd
        iframe
      iframe
    iframe
  iexists W1; iexact HO
theorem off67_tile : ∀ c : Dev nD,
    (k0_off61 (flip o1 c) 1 = 0 ∧ k0_off65 (flip o1 c) 1 = 0 ∧ k0_off68 c 1 = 0) ∧
    ((k0_off61 (flip o1 c) 0 = k0_off68 c 0 ∧ k0_off65 (flip o1 c) 0 = k0_off68 c 0 + S88x1024.size 0) ∨
     (k0_off65 (flip o1 c) 0 = k0_off68 c 0 ∧ k0_off61 (flip o1 c) 0 = k0_off68 c 0 + S88x1024.size 0)) := by decide +kernel
theorem size_quarter : S176x1024.size 0 = S88x1024.size 0 + S88x1024.size 0 := rfl
theorem tile_s11 (c : Dev nD) :
    Disjoint (dst19 (flip o1 c)).view.set (dst20 (flip o1 c)).view.set
      ∧ (dst19 (flip o1 c)).view.set ∪ (dst20 (flip o1 c)).view.set = (src23 c).view.set := by
  obtain ⟨⟨h59, h64, h67⟩, hcase⟩ := off67_tile c
  rw [slice_view_set cc0_stg1_0 (a := (0 : Fin 2)) (k0_off61_inb (flip o1 c)) (fun _ => rfl) (slab₂ (size := S88x1024.size) h59 rfl),
    slice_view_set cc0_stg1_0 (a := (0 : Fin 2)) (k0_off65_inb (flip o1 c)) (fun _ => rfl) (slab₂ (size := S88x1024.size) h64 rfl),
    slice_view_set cc0_stg1_0 (a := (0 : Fin 2)) (k0_off68_inb c) (fun _ => rfl) (slab₂ (size := S176x1024.size) h67 rfl),
    size_quarter, ← Nat.add_assoc]
  rcases hcase with ⟨e1, e2⟩ | ⟨e1, e2⟩
  · rw [e1, e2]
    exact ⟨rows_disjoint le_rfl, rows_union (Nat.le_add_right _ _) (Nat.le_add_right _ _)⟩
  · rw [e1, e2, Finset.union_comm]
    exact ⟨(rows_disjoint le_rfl).symm, rows_union (Nat.le_add_right _ _) (Nat.le_add_right _ _)⟩
theorem join_s11 (m : (ℓ : Loc nD τ sig) → Buf (Elt F) ℓ) (c : Dev nD) :
    iprop(recvPay m c s7 ∗ recvPay m c s8)
      ⊢ (pt (ℓ := (c : Thread nD τ).loc cc0_stg1_0) (src23 c).view.set fullShare (Gout m) : sProp 𝕄) :=
  (pt_union (ℓ := (c : Thread nD τ).loc cc0_stg1_0) (tile_s11 c).1 (tile_s11 c).2 fullShare (Gout m)).2
theorem src_s11 (m : (ℓ : Loc nD τ sig) → Buf (Elt F) ℓ) (c : Dev nD) :
    (pt (ℓ := (c : Thread nD τ).loc cc0_stg1_0) (src23 c).view.set fullShare (Gout m) : sProp 𝕄)
      = ((src23 c).view.loc (c : Thread nD τ) ↦[(src23 c).view.set]{shareOf s11} (Gout m)) := rfl
theorem seg_p5 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS7 sR7 sS8 sR8 sS11 sR11 : DmaSem sig)
    (hS7 : sS7 = sendSem s7) (hR7 : sR7 = recvSem s7) (hS8 : sS8 = sendSem s8) (hR8 : sR8 = recvSem s8)
    (hS11 : sS11 = sendSem s11) (hR11 : sR11 = recvSem s11)
    (n11 : Dev nD) (hn11 : n11 = flip o0 c)
    {hsc11 : (dst23 c : Memref sig (Dev.tc n11 : Thread nD τ).2.kind .vmem S176x1024 .f32).view.ref.isScScratch = false}
    {hsem11 : DmaTarget.Typed .vmem (.dma sR11) (.remote (Dev.tc n11 : Thread nD τ) (dst23 c) (.dma sS11) hsc11)}
    (hland_s11 : ∀ fd, ((dst23 c).view.loc (Dev.tc n11 : Thread nD τ) ↦[(dst23 c).view.set]{fullShare}
        ((dst23 c).view.write (Elt F) fd ((src23 c).view.read (Elt F) (Gout m)) Finset.univ) : sProp 𝕄) ⊢ recvPay m n11 s11)
    (hl : ∀ s ∈ l, pos s8 < pos s) :
    iprop(records (pay m) K ∗ levAts L lv ∗ B5 m c ∗ owes (c : Thread nD τ) (owedL (pay m) c (s11 :: l)) W)
      ⊢ iprop(((B6 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS7 (src19 c) (dst19 c) (View.wordExact_bits rfl) (View.wordExact_bits rfl)) fun _ =>
             .op (.waitDma2 sR7 (src19 c) (dst19 c) (View.wordExact_bits rfl) (View.wordExact_bits rfl)) fun _ =>
             .op (.waitDma2 sS8 (src20 c) (dst20 c) (View.wordExact_bits rfl) (View.wordExact_bits rfl)) fun _ =>
             .op (.waitDma2 sR8 (src20 c) (dst20 c) (View.wordExact_bits rfl) (View.wordExact_bits rfl)) fun _ =>
             .op (.enqueueDma (src23 c) (.remote (Dev.tc n11 : Thread nD τ) (dst23 c) (.dma sS11) hsc11) (.dma sR11) (View.wordExact_bits rfl) (View.wordExact_bits rfl) hsem11) k) Q) := by
  unfold B5 B6
  iintro ⟨#Hrec, #Hlev, ⟨⟨H0, H1, H2, H3, H4, H5, H6, H7, H8, H9, H10, H11⟩, Hxl, Ha⟩, HO⟩ Hk
  have hl' : ∀ s ∈ s11 :: l, pos s8 < pos s := fun s hs => by
    rcases List.mem_cons.mp hs with rfl | hs
    · exact pos_s8_s11
    exact hl s hs
  iapply (step_waits m K c s7 sS7 sR7 hS7 hR7 (src19 c) (dst19 c) (src19 c) (dst19 c) (dstAny_credit c s7) (dstAny_credit c s7)
      (owedL (pay m) c (s11 :: l)) W (mw_send m c s7 sS7 hS7 _)
      (mw_recv m c s7 sR7 hR7 _ (fun s hs => Nat.lt_trans pos_s7_s8 (hl' s hs)))) $$ [H7 HO]
  · iframe # ∗
  iintro ⟨H7, %W1, HO⟩
  iapply (step_waits m K c s8 sS8 sR8 hS8 hR8 (src20 c) (dst20 c) (src20 c) (dst20 c) (dstAny_credit c s8) (dstAny_credit c s8)
      (owedL (pay m) c (s11 :: l)) W1 (mw_send m c s8 sS8 hS8 _)
      (mw_recv m c s8 sR8 hR8 _ hl')) $$ [H8 HO]
  · iframe # ∗
  iintro ⟨H8, %W2, HO⟩
  unfold slotDone
  icases H7 with ⟨H7s, H7r, H7a, H7b⟩
  icases H8 with ⟨H8s, H8r, H8a, H8b⟩
  ihave Hs11' := (join_s11 m c) $$ [H7r H8r]
  · iframe
  ihave Hs11 := (Entails.of_eq (src_s11 m c)) $$ Hs11'
  iapply (step_enq m K c n11 s11 (hn11.trans (by rw [ax_s11])) (src23 c) (dst23 c) rfl sS11 sR11 hS11 hR11 (Gout m)
      (Entails.of_eq rfl) hland_s11 (owedL (pay m) c l) W2) $$ [H11 Hs11 HO]
  · isplitr; · iexact Hrec
    isplitl [H11]; · iexact H11
    isplitl [Hs11]; · iexact Hs11
    iexact HO
  iintro ⟨H11, HO⟩
  iapply Hk
  isplitr [HO]
  · isplitr [Hxl Ha]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7s H7a H7b]
      · unfold slotPassed slotEnd
        iframe
      isplitl [H8s H8a H8b]
      · unfold slotPassed slotEnd
        iframe
      iframe
    iframe
  iexists W2; iexact HO
end P1
end Cert.KernelIdeal.TR
end
-- ==== Proof.Seg2D.lean ====
import proofs.«901104_g7700000000001105_dist_treered_v7x_i8_m2048_n1024_f32_1_alg».proof.Proof.Steps
import proofs.«901104_g7700000000001105_dist_treered_v7x_i8_m2048_n1024_f32_1_alg».proof.Proof.Res2
import proofs.«901104_g7700000000001105_dist_treered_v7x_i8_m2048_n1024_f32_1_alg».proof.Proof.LibRows
import proofs.«901104_g7700000000001105_dist_treered_v7x_i8_m2048_n1024_f32_1_alg».proof.Proof.Mesh
set_option Elab.async false
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TR.Rows
variable {F : FTy → Type} [FloatOps F]
local notation "𝕄" => MT nD τ sig Unit (Elt F) ℕ UU ℕ
namespace P2
theorem pos_s6_s8 : pos s6 < pos s8 := by decide
theorem pos_s6_s10 : pos s6 < pos s10 := by decide
theorem pos_s7_s8 : pos s7 < pos s8 := by decide
theorem pos_s7_s11 : pos s7 < pos s11 := by decide
theorem pos_s8_s11 : pos s8 < pos s11 := by decide
theorem pos_s9_s11 : pos s9 < pos s11 := by decide
theorem pos_s10_s11 : pos s10 < pos s11 := by decide
theorem ax_s6 : ax s6 = o2 := by decide
theorem ax_s7 : ax s7 = o1 := by decide
theorem ax_s8 : ax s8 = o1 := by decide
theorem ax_s10 : ax s10 = o0 := by decide
theorem ax_s11 : ax s11 = o0 := by decide
theorem pt_slice_congr (c : Dev nD) (b : Ref sig .tc) {off off' size : Fin b.ty.shape.rank → ℕ} (h : off = off')
    (p : ∀ a, off a + size a ≤ b.ty.shape.size a) (p' : ∀ a, off' a + size a ≤ b.ty.shape.size a)
    (q : PosShare TreeShare) (G : Buf (Elt F) ((c : Thread nD τ).loc b)) :
    (pt (ℓ := (c : Thread nD τ).loc b) ((Memref.whole b).slice (Rect.unit off size p) (fun _ => rfl)).view.set q G : sProp 𝕄)
      = pt (ℓ := (c : Thread nD τ).loc b) ((Memref.whole b).slice (Rect.unit off' size p') (fun _ => rfl)).view.set q G := by
  subst h; rfl
theorem pt_split {ℓ : Loc nD τ sig} (S : Finset (Idx ℓ)) (q : PosShare TreeShare) (G : Buf (Elt F) ℓ) :
    (pt S q G : sProp 𝕄) ⊣⊢ iprop(pt S q.left G ∗ pt S q.right G) :=
  pointsTo_share (PosShare.mem_left_op_right q)
theorem pt_union {ℓ : Loc nD τ sig} {S T U : Finset (Idx ℓ)} (hd : Disjoint S T) (hu : S ∪ T = U) (q : PosShare TreeShare)
    (G : Buf (Elt F) ℓ) : (pt U q G : sProp 𝕄) ⊣⊢ iprop(pt S q G ∗ pt T q G) := by
  subst hu; exact pointsTo_union hd
theorem land_self {sp : Space} {sh : Shape} (n : Dev nD) (v : Memref sig .tc sp sh .f32) (q : PosShare TreeShare)
    (G fd : Buf (Elt F) (v.view.loc (n : Thread nD τ))) :
    (v.view.loc (n : Thread nD τ) ↦[v.view.set]{q} (v.view.write (Elt F) fd (v.view.read (Elt F) G) Finset.univ) : sProp 𝕄)
      = (v.view.loc (n : Thread nD τ) ↦[v.view.set]{q} G) := by
  refine pointsTo_congr fun i hi => ?_
  rw [View.write_read_eq_piecewise, View.setOn_univ, Finset.piecewise_eq_of_mem _ _ _ hi]
theorem mw_send (m : (ℓ : Loc nD τ sig) → Buf (Elt F) ℓ) (c : Dev nD) (s : Fin 36) (sS : DmaSem sig) (hS : sS = sendSem s) (l : List (Fin 36)) :
    (levAts L lv : sProp 𝕄) ⊢ MayWait (c : Thread nD τ) (.dma sS) () (owedL (pay m) c l) := by
  subst hS
  exact mayWait_owedL (pay m) c _ l 0 (by rw [lv_send]) (fun s' _ => by omega)
theorem mw_recv (m : (ℓ : Loc nD τ sig) → Buf (Elt F) ℓ) (c : Dev nD) (s : Fin 36) (sR : DmaSem sig) (hR : sR = recvSem s) (l : List (Fin 36))
    (hl : ∀ s' ∈ l, pos s < pos s') :
    (levAts L lv : sProp 𝕄) ⊢ MayWait (c : Thread nD τ) (.dma sR) () (owedL (pay m) c l) := by
  subst hR
  exact mayWait_owedL (pay m) c _ l (2 + pos s) (by rw [lv_recv]) (fun s' hs' => by have := hl s' hs'; omega)
theorem seg_p6 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS9 sR9 sS10 sR10 sS11 sR11 : DmaSem sig)
    (hS9 : sS9 = sendSem s9) (hR9 : sR9 = recvSem s9) (hS10 : sS10 = sendSem s10) (hR10 : sR10 = recvSem s10)
    (hS11 : sS11 = sendSem s11) (hR11 : sR11 = recvSem s11)
    (hl : ∀ s ∈ l, pos s11 < pos s) :
    iprop(records (pay m) K ∗ levAts L lv ∗ B6 m c ∗ owes (c : Thread nD τ) (owedL (pay m) c l) W)
      ⊢ iprop(((B7 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS9 (src33 c) (dst33 c) (View.wordExact_bits rfl) (View.wordExact_bits rfl)) fun _ =>
             .op (.waitDma2 sR9 (src33 c) (dst33 c) (View.wordExact_bits rfl) (View.wordExact_bits rfl)) fun _ =>
             .op (.waitDma2 sS10 (src34 c) (dst34 c) (View.wordExact_bits rfl) (View.wordExact_bits rfl)) fun _ =>
             .op (.waitDma2 sR10 (src34 c) (dst34 c) (View.wordExact_bits rfl) (View.wordExact_bits rfl)) fun _ =>
             .op (.waitDma2 sS11 (src35 c) (dst35 c) (View.wordExact_bits rfl) (View.wordExact_bits rfl)) fun _ =>
             .op (.waitDma2 sR11 (src35 c) (dst35 c) (View.wordExact_bits rfl) (View.wordExact_bits rfl)) k) Q) := by
  unfold B6 B7
  iintro ⟨#Hrec, #Hlev, ⟨⟨H0, H1, H2, H3, H4, H5, H6, H7, H8, H9, H10, H11⟩, Hxl, Ha⟩, HO⟩ Hk
  iapply (step_waits m K c s9 sS9 sR9 hS9 hR9 (src33 c) (dst33 c) (src33 c) (dst33 c) (dstAny_credit c s9) (dstAny_credit c s9)
      (owedL (pay m) c l) W (mw_send m c s9 sS9 hS9 l)
      (mw_recv m c s9 sR9 hR9 l (fun s hs => Nat.lt_trans pos_s9_s11 (hl s hs)))) $$ [H9 HO]
  · iframe # ∗
  iintro ⟨H9, %W1, HO⟩
  iapply (step_waits m K c s10 sS10 sR10 hS10 hR10 (src34 c) (dst34 c) (src34 c) (dst34 c) (dstAny_credit c s10) (dstAny_credit c s10)
      (owedL (pay m) c l) W1 (mw_send m c s10 sS10 hS10 l)
      (mw_recv m c s10 sR10 hR10 l (fun s hs => Nat.lt_trans pos_s10_s11 (hl s hs)))) $$ [H10 HO]
  · iframe # ∗
  iintro ⟨H10, %W2, HO⟩
  iapply (step_waits m K c s11 sS11 sR11 hS11 hR11 (src35 c) (dst35 c) (src35 c) (dst35 c) (dstAny_credit c s11) (dstAny_credit c s11)
      (owedL (pay m) c l) W2 (mw_send m c s11 sS11 hS11 l)
      (mw_recv m c s11 sR11 hR11 l hl)) $$ [H11 HO]
  · iframe # ∗
  iintro ⟨H11, %W3, HO⟩
  iapply Hk
  isplitr [HO]
  · isplitr [Hxl Ha]
    · iframe
    iframe
  iexists W3; iexact HO
theorem off59_flip_o2 : ∀ c : Dev nD, k0_off63 (flip o2 c) = k0_off66 c := by decide +kernel
theorem recvPay_s6 (m : (ℓ : Loc nD τ sig) → Buf (Elt F) ℓ) (c : Dev nD) :
    recvPay m c s6 = pt (ℓ := (c : Thread nD τ).loc cc0_stg1_0) (src32 c).view.set fullShare (Gout m) :=
  pt_slice_congr c cc0_stg1_0 (off59_flip_o2 c) (k0_off63_inb (flip o2 c)) (k0_off66_inb c) fullShare (Gout m)
theorem src_s8 (m : (ℓ : Loc nD τ sig) → Buf (Elt F) ℓ) (c : Dev nD) :
    (pt (ℓ := (c : Thread nD τ).loc cc0_stg1_0) (src32 c).view.set fullShare.left (Gout m) : sProp 𝕄)
      = ((src32 c).view.loc (c : Thread nD τ) ↦[(src32 c).view.set]{shareOf s8} (Gout m)) := rfl
theorem src_s10 (m : (ℓ : Loc nD τ sig) → Buf (Elt F) ℓ) (c : Dev nD) :
    (pt (ℓ := (c : Thread nD τ).loc cc0_stg1_0) (src32 c).view.set fullShare.right (Gout m) : sProp 𝕄)
      = ((src34 c).view.loc (c : Thread nD τ) ↦[(src34 c).view.set]{shareOf s10} (Gout m)) := rfl
theorem seg_p4 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS6 sR6 sS8 sR8 sS10 sR10 : DmaSem sig)
    (hS6 : sS6 = sendSem s6) (hR6 : sR6 = recvSem s6) (hS8 : sS8 = sendSem s8) (hR8 : sR8 = recvSem s8)
    (hS10 : sS10 = sendSem s10) (hR10 : sR10 = recvSem s10)
    (n8 n10 : Dev nD) (hn8 : n8 = flip o1 c) (hn10 : n10 = flip o0 c)
    {hsc8 : (dst32 c : Memref sig (Dev.tc n8 : Thread nD τ).2.kind .vmem S80x1024 .f32).view.ref.isScScratch = false}
    {hsem8 : DmaTarget.Typed .vmem (.dma sR8) (.remote (Dev.tc n8 : Thread nD τ) (dst32 c) (.dma sS8) hsc8)}
    {hsc10 : (dst34 c : Memref sig (Dev.tc n10 : Thread nD τ).2.kind .vmem S80x1024 .f32).view.ref.isScScratch = false}
    {hsem10 : DmaTarget.Typed .vmem (.dma sR10) (.remote (Dev.tc n10 : Thread nD τ) (dst34 c) (.dma sS10) hsc10)}
    (hland_s8 : ∀ fd, ((dst32 c).view.loc (Dev.tc n8 : Thread nD τ) ↦[(dst32 c).view.set]{fullShare}
        ((dst32 c).view.write (Elt F) fd ((src32 c).view.read (Elt F) (Gout m)) Finset.univ) : sProp 𝕄) ⊢ recvPay m n8 s8)
    (hland_s10 : ∀ fd, ((dst34 c).view.loc (Dev.tc n10 : Thread nD τ) ↦[(dst34 c).view.set]{fullShare}
        ((dst34 c).view.write (Elt F) fd ((src34 c).view.read (Elt F) (Gout m)) Finset.univ) : sProp 𝕄) ⊢ recvPay m n10 s10)
    (hl : ∀ s ∈ l, pos s6 < pos s) :
    iprop(records (pay m) K ∗ levAts L lv ∗ B4 m c ∗ owes (c : Thread nD τ) (owedL (pay m) c (s8 :: s10 :: l)) W)
      ⊢ iprop(((B5 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS6 (src30 c) (dst30 c) (View.wordExact_bits rfl) (View.wordExact_bits rfl)) fun _ =>
             .op (.waitDma2 sR6 (src30 c) (dst30 c) (View.wordExact_bits rfl) (View.wordExact_bits rfl)) fun _ =>
             .op (.enqueueDma (src32 c) (.remote (Dev.tc n8 : Thread nD τ) (dst32 c) (.dma sS8) hsc8) (.dma sR8) (View.wordExact_bits rfl) (View.wordExact_bits rfl) hsem8) fun _ =>
             .op (.enqueueDma (src34 c) (.remote (Dev.tc n10 : Thread nD τ) (dst34 c) (.dma sS10) hsc10) (.dma sR10) (View.wordExact_bits rfl) (View.wordExact_bits rfl) hsem10) k) Q) := by
  unfold B4 B5
  iintro ⟨#Hrec, #Hlev, ⟨⟨H0, H1, H2, H3, H4, H5, H6, H7, H8, H9, H10, H11⟩, Hxl, Ha⟩, HO⟩ Hk
  iapply (step_waits m K c s6 sS6 sR6 hS6 hR6 (src30 c) (dst30 c) (src30 c) (dst30 c) (dstAny_credit c s6) (dstAny_credit c s6)
      (owedL (pay m) c (s8 :: s10 :: l)) W (mw_send m c s6 sS6 hS6 _)
      (mw_recv m c s6 sR6 hR6 _ (fun s hs => by
        rcases List.mem_cons.mp hs with rfl | hs
        · exact pos_s6_s8
        rcases List.mem_cons.mp hs with rfl | hs
        · exact pos_s6_s10
        exact hl s hs))) $$ [H6 HO]
  · iframe # ∗
  iintro ⟨H6, %W1, HO⟩
  unfold slotDone
  icases H6 with ⟨H6s, H6r, H6a, H6b⟩
  ihave Hs8 := (Entails.of_eq (recvPay_s6 m c)) $$ H6r
  icases (pt_split (src32 c).view.set fullShare (Gout m)).1 $$ Hs8 with ⟨Hsl0, Hsr0⟩
  ihave Hsl := (Entails.of_eq (src_s8 m c)) $$ Hsl0
  ihave Hsr := (Entails.of_eq (src_s10 m c)) $$ Hsr0
  iapply (step_enq m K c n8 s8 (hn8.trans (by rw [ax_s8])) (src32 c) (dst32 c) rfl sS8 sR8 hS8 hR8 (Gout m)
      (Entails.of_eq rfl) hland_s8 (owedL (pay m) c (s10 :: l)) W1) $$ [H8 Hsl HO]
  · isplitr; · iexact Hrec
    isplitl [H8]; · iexact H8
    isplitl [Hsl]; · iexact Hsl
    iexact HO
  iintro ⟨H8, HO⟩
  iapply (step_enq m K c n10 s10 (hn10.trans (by rw [ax_s10])) (src34 c) (dst34 c) rfl sS10 sR10 hS10 hR10 (Gout m)
      (Entails.of_eq rfl) hland_s10 (owedL (pay m) c l) W1) $$ [H10 Hsr HO]
  · isplitr; · iexact Hrec
    isplitl [H10]; · iexact H10
    isplitl [Hsr]; · iexact Hsr
    iexact HO
  iintro ⟨H10, HO⟩
  iapply Hk
  isplitr [HO]
  · isplitr [Hxl Ha]
    · isplitl [H0]; · iexact H0
      isplitl [H1]; · iexact H1
      isplitl [H2]; · iexact H2
      isplitl [H3]; · iexact H3
      isplitl [H4]; · iexact H4
      isplitl [H5]; · iexact H5
      isplitl [H6s H6a H6b]
      · unfold slotPassed slotEnd
        iframe
      iframe
    iframe
  iexists W1; iexact HO
theorem off67_tile : ∀ c : Dev nD,
    (k0_off63 (flip o1 c) 1 = 0 ∧ k0_off66 (flip o1 c) 1 = 0 ∧ k0_off69 c 1 = 0) ∧
    ((k0_off63 (flip o1 c) 0 = k0_off69 c 0 ∧ k0_off66 (flip o1 c) 0 = k0_off69 c 0 + S80x1024.size 0) ∨
     (k0_off66 (flip o1 c) 0 = k0_off69 c 0 ∧ k0_off63 (flip o1 c) 0 = k0_off69 c 0 + S80x1024.size 0)) := by decide +kernel
theorem size_quarter : S160x1024.size 0 = S80x1024.size 0 + S80x1024.size 0 := rfl
theorem tile_s11 (c : Dev nD) :
    Disjoint (dst31 (flip o1 c)).view.set (dst32 (flip o1 c)).view.set
      ∧ (dst31 (flip o1 c)).view.set ∪ (dst32 (flip o1 c)).view.set = (src35 c).view.set := by
  obtain ⟨⟨h59, h64, h67⟩, hcase⟩ := off67_tile c
  rw [slice_view_set cc0_stg1_0 (a := (0 : Fin 2)) (k0_off63_inb (flip o1 c)) (fun _ => rfl) (slab₂ (size := S80x1024.size) h59 rfl),
    slice_view_set cc0_stg1_0 (a := (0 : Fin 2)) (k0_off66_inb (flip o1 c)) (fun _ => rfl) (slab₂ (size := S80x1024.size) h64 rfl),
    slice_view_set cc0_stg1_0 (a := (0 : Fin 2)) (k0_off69_inb c) (fun _ => rfl) (slab₂ (size := S160x1024.size) h67 rfl),
    size_quarter, ← Nat.add_assoc]
  rcases hcase with ⟨e1, e2⟩ | ⟨e1, e2⟩
  · rw [e1, e2]
    exact ⟨rows_disjoint le_rfl, rows_union (Nat.le_add_right _ _) (Nat.le_add_right _ _)⟩
  · rw [e1, e2, Finset.union_comm]
    exact ⟨(rows_disjoint le_rfl).symm, rows_union (Nat.le_add_right _ _) (Nat.le_add_right _ _)⟩
theorem join_s11 (m : (ℓ : Loc nD τ sig) → Buf (Elt F) ℓ) (c : Dev nD) :
    iprop(recvPay m c s7 ∗ recvPay m c s8)
      ⊢ (pt (ℓ := (c : Thread nD τ).loc cc0_stg1_0) (src35 c).view.set fullShare (Gout m) : sProp 𝕄) :=
  (pt_union (ℓ := (c : Thread nD τ).loc cc0_stg1_0) (tile_s11 c).1 (tile_s11 c).2 fullShare (Gout m)).2
theorem src_s11 (m : (ℓ : Loc nD τ sig) → Buf (Elt F) ℓ) (c : Dev nD) :
    (pt (ℓ := (c : Thread nD τ).loc cc0_stg1_0) (src35 c).view.set fullShare (Gout m) : sProp 𝕄)
      = ((src35 c).view.loc (c : Thread nD τ) ↦[(src35 c).view.set]{shareOf s11} (Gout m)) := rfl
theorem seg_p5 (m : (ℓ : Loc nD τ sig) → Buf (Elt F) ℓ) (K : Dev nD × Fin 73 → ℕ) (c : Dev nD) {α : Type} {Q : α → sProp 𝕄}
    (k : PUnit → Prog (TpuEff nD τ sig (Elt F) Λ₀ .tc) α) (l : List (Fin 36)) (W : Waits sig Unit)
    (sS7 sR7 sS8 sR8 sS11 sR11 : DmaSem sig)
    (hS7 : sS7 = sendSem s7) (hR7 : sR7 = recvSem s7) (hS8 : sS8 = sendSem s8) (hR8 : sR8 = recvSem s8)
    (hS11 : sS11 = sendSem s11) (hR11 : sR11 = recvSem s11)
    (n11 : Dev nD) (hn11 : n11 = flip o0 c)
    {hsc11 : (dst35 c : Memref sig (Dev.tc n11 : Thread nD τ).2.kind .vmem S160x1024 .f32).view.ref.isScScratch = false}
    {hsem11 : DmaTarget.Typed .vmem (.dma sR11) (.remote (Dev.tc n11 : Thread nD τ) (dst35 c) (.dma sS11) hsc11)}
    (hland_s11 : ∀ fd, ((dst35 c).view.loc (Dev.tc n11 : Thread nD τ) ↦[(dst35 c).view.set]{fullShare}
        ((dst35 c).view.write (Elt F) fd ((src35 c).view.read (Elt F) (Gout m)) Finset.univ) : sProp 𝕄) ⊢ recvPay m n11 s11)
    (hl : ∀ s ∈ l, pos s8 < pos s) :
    iprop(records (pay m) K ∗ levAts L lv ∗ B5 m c ∗ owes (c : Thread nD τ) (owedL (pay m) c (s11 :: l)) W)
      ⊢ iprop(((B6 m c ∗ ∃ W', owes (c : Thread nD τ) (owedL (pay m) c l) W') -∗ wp frame (wpE (defs₀ (F := F)) Variants.none (c : Thread nD τ) none) Set.univ (k ⟨⟩) Q)
          -∗ wp frame (wpE (defs₀ (F := F)) Variants.none (c : Thread nD τ) none) Set.univ
            (.op (.waitDma2 sS7 (src31 c) (dst31 c) (View.wordExact_bits rfl) (View.wordExact_bits rfl)) fun _ =>
             .op (.waitDma2 sR7 (src31 c) (dst31 c) (View.wordExact_bits rfl) (View.wordExact_bits rfl)) fun _ =>
             .op (.waitDma2 sS8 (src32 c) (dst32 c) (View.wordExact_bits rfl) (View.wordExact_bits rfl)) fun _ =>
             .op (.waitDma2 sR8 (src32 c) (dst32 c) (View.wordExact_bits rfl) (View.wordExact_bits rfl)) fun _ =>
             .op (.enqueueDma (src35 c) (.remote (Dev.tc n11 : Thread nD τ) (dst35 c) (.dma sS11) hsc11) (.dma sR11) (View.wordExact_bits rfl) (View.wordExact_bits rfl) hsem11) k) Q) := by
  unfold B5 B6
  iintro ⟨#Hrec, #Hlev, ⟨⟨H0, H1, H2, H3, H4, H5, H6, H7, H8, H9, H10, H11⟩, Hxl, Ha⟩, HO⟩ Hk
  have hl' : ∀ s ∈ s11 :: l, pos s8 < pos s := fun s hs => by
    rcases List.mem_cons.mp hs with rfl | hs
    · exact pos_s8_s11
    exact hl s hs
  iapply (step_waits m K c s7 sS7 sR7 hS7 hR7 (src31 c) (dst31 c) (src31 c) (dst31 c) (dstAny_credit c s7) (dstAny_credit c s7)
      (owedL (pay m) c (s11 :: l)) W (mw_send m c s7 sS7 hS7 _)
      (mw_recv m c s7 sR7 hR7 _ (fun s hs => Nat.lt_trans pos_s7_s8 (hl' s hs)))) $$ [H7 HO]
  · iframe # ∗
  iintro ⟨H7, %W1, HO⟩
  iapply (step_waits m K c s8 sS8 sR8 hS8 hR8 (src32 c) (dst32 c) (src32 c) (dst32 c) (dstAny_credit c s8) (dstAny_credit c s8)
      (owedL (pay m) c (s11 :: l)) W1 (mw_send m c s8 sS8 hS8 _)
      (mw_recv m c s8 sR8 hR8 _ hl')) $$ [H8 HO]
  · iframe # ∗
  iintro ⟨H8, %W2, HO⟩
  unfold slotDone
  icases H7 with ⟨H7s, H7r, H7a, H7b⟩
  icases H8 with ⟨H8s, H8r, H8a, H8b⟩
  ihave Hs11' := (join_s11 m c) $$ [H7r H8r]
  · iframe
  ihave Hs11 := (Entails.of_eq (src_s11 m c)) $$ Hs11'
  iapply (step_enq m K c n11 s11 (hn11.trans (by rw [ax_s11])) (src35 c) (dst35 c) rfl sS11 sR11 hS11 hR11 (Gout m)
      (Entails.of_eq rfl) hland_s11 (owedL (pay m) c l) W2) $$ [H11 Hs11 HO]
  · isplitr; · iexact Hrec
    isplitl [H11]; · iexact H11
    isplitl [Hs11]; · iexact Hs11
    iexact HO
  iintro ⟨H11, HO⟩
  iapply Hk
  isplitr [HO]
  · isplitr [Hxl Ha]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7s H7a H7b]
      · unfold slotPassed slotEnd
        iframe
      isplitl [H8s H8a H8b]
      · unfold slotPassed slotEnd
        iframe
      iframe
    iframe
  iexists W2; iexact HO
end P2
end Cert.KernelIdeal.TR
end
-- ==== Proof.Chain.lean ====
import proofs.«901104_g7700000000001105_dist_treered_v7x_i8_m2048_n1024_f32_1_alg».proof.Proof.Body
import proofs.«901104_g7700000000001105_dist_treered_v7x_i8_m2048_n1024_f32_1_alg».proof.Proof.Steps
import proofs.«901104_g7700000000001105_dist_treered_v7x_i8_m2048_n1024_f32_1_alg».proof.Proof.GlueA
import proofs.«901104_g7700000000001105_dist_treered_v7x_i8_m2048_n1024_f32_1_alg».proof.Proof.GlueD
import proofs.«901104_g7700000000001105_dist_treered_v7x_i8_m2048_n1024_f32_1_alg».proof.Proof.Pays
import proofs.«901104_g7700000000001105_dist_treered_v7x_i8_m2048_n1024_f32_1_alg».proof.Proof.Give0
import proofs.«901104_g7700000000001105_dist_treered_v7x_i8_m2048_n1024_f32_1_alg».proof.Proof.Give1
import proofs.«901104_g7700000000001105_dist_treered_v7x_i8_m2048_n1024_f32_1_alg».proof.Proof.Give2
import proofs.«901104_g7700000000001105_dist_treered_v7x_i8_m2048_n1024_f32_1_alg».proof.Proof.Land0
import proofs.«901104_g7700000000001105_dist_treered_v7x_i8_m2048_n1024_f32_1_alg».proof.Proof.Land1
import proofs.«901104_g7700000000001105_dist_treered_v7x_i8_m2048_n1024_f32_1_alg».proof.Proof.Land2
import proofs.«901104_g7700000000001105_dist_treered_v7x_i8_m2048_n1024_f32_1_alg».proof.Proof.Seg0B
import proofs.«901104_g7700000000001105_dist_treered_v7x_i8_m2048_n1024_f32_1_alg».proof.Proof.Seg1B
import proofs.«901104_g7700000000001105_dist_treered_v7x_i8_m2048_n1024_f32_1_alg».proof.Proof.Seg2B
import proofs.«901104_g7700000000001105_dist_treered_v7x_i8_m2048_n1024_f32_1_alg».proof.Proof.Seg0C
import proofs.«901104_g7700000000001105_dist_treered_v7x_i8_m2048_n1024_f32_1_alg».proof.Proof.Seg1C
import proofs.«901104_g7700000000001105_dist_treered_v7x_i8_m2048_n1024_f32_1_alg».proof.Proof.Seg2C
import proofs.«901104_g7700000000001105_dist_treered_v7x_i8_m2048_n1024_f32_1_alg».proof.Proof.Seg0D
import proofs.«901104_g7700000000001105_dist_treered_v7x_i8_m2048_n1024_f32_1_alg».proof.Proof.Seg1D
import proofs.«901104_g7700000000001105_dist_treered_v7x_i8_m2048_n1024_f32_1_alg».proof.Proof.Seg2D
import Idealize.ShloMosaic.Lib.Pipeline.Launch
import Idealize.ShloMosaic.Lib.Pipeline.Kit
import Idealize.ShloMosaic.Lib.Tactic
set_option maxRecDepth 65536
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : Dev nD × Fin 73 → ℕ)
set_option maxHeartbeats 64000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  simp only [semSignalWord, semWaitWord, Prog.lift, Prog.bind_op, Prog.bind_ret, Prog.pure_eq_ret, wp_deviceId]
  unfold bodyPre ghost
  iintro ⟨⟨⟨⟨#Hrec, Hpos, Htok⟩, Hcr, #Hlev⟩, Hscr, ⟨%W, HO⟩, Hx, Ho⟩, Hk⟩
  ihave Hp := (pre_split m c) $$ [Hscr Hx Ho]
  · isplitl [Hscr]; · iexact Hscr
    isplitl [Hx] <;> iassumption
  icases Hp with ⟨⟨Hs0, Hx0, Ho0⟩, ⟨Hs1, Hx1, Ho1⟩, ⟨Hs2, Hx2, Ho2⟩⟩
  ihave G0 := (P0.give_p0 m c) $$ [Hs0 Hx0 Ho0]
  · isplitl [Hs0]; · iexact Hs0
    isplitl [Hx0] <;> iassumption
  ihave G1 := (P1.give_p0 m c) $$ [Hs1 Hx1 Ho1]
  · isplitl [Hs1]; · iexact Hs1
    isplitl [Hx1] <;> iassumption
  ihave G2 := (P2.give_p0 m c) $$ [Hs2 Hx2 Ho2]
  · isplitl [Hs2]; · iexact Hs2
    isplitl [Hx2] <;> iassumption
  iapply (bar_seg m K c (k := _) W (⟨k0_dev1 c, k0_dev1_lt c⟩ : Dev nD) (⟨k0_dev2 c, k0_dev2_lt c⟩ : Dev nD) (⟨k0_dev3 c, k0_dev3_lt c⟩ : Dev nD) (dev1_eq c _) (dev2_eq c _) (dev3_eq c _)) $$ [Hpos Htok Hcr G0 G1 G2 HO]
  · iframe # ∗
  iintro ⟨HB0, HB1, HB2, -, ⟨%W0, HO⟩⟩
  ihave HO := (Entails.of_eq (show (owes (c : Thread nD τ) (owedL (pay m) c progList) W0 : sProp 𝕄) = owes (c : Thread nD τ) (owedL (pay m) c ([0, 1, 2, 12, 13, 14, 24, 25, 26, 3, 4, 15, 16, 27, 28, 5, 17, 29, 6, 7, 9, 18, 19, 21, 30, 31, 33, 8, 10, 20, 22, 32, 34, 11, 23, 35] : List (Fin 36))) W0 from rfl)) $$ HO
  iapply (P0.seg_p0 m K c (k := _) (l := ([12, 13, 14, 24, 25, 26, 3, 4, 15, 16, 27, 28, 5, 17, 29, 6, 7, 9, 18, 19, 21, 30, 31, 33, 8, 10, 20, 22, 32, 34, 11, 23, 35] : List (Fin 36))) (W := W0)
      (n0 := (⟨k0_dev4 c, k0_dev4_lt c⟩ : Dev nD)) (n1 := (⟨k0_dev5 c, k0_dev5_lt c⟩ : Dev nD)) (n2 := (⟨k0_dev6 c, k0_dev6_lt c⟩ : Dev nD))
      (hn0 := dev4_eq c _) (hn1 := dev5_eq c _) (hn2 := dev6_eq c _)
      (sS0 := (sS ![0] inb_S36_S1_0)) (sR0 := (sR ![0] inb_S36_S1_0)) (hS0 := by decide) (hR0 := by decide)
      (sS1 := (sS ![1] inb_S36_S1_1)) (sR1 := (sR ![1] inb_S36_S1_1)) (hS1 := by decide) (hR1 := by decide)
      (sS2 := (sS ![2] inb_S36_S1_2)) (sR2 := (sR ![2] inb_S36_S1_2)) (hS2 := by decide) (hR2 := by decide)
      (hland_s0 := by rw [dev4_eq c _]; exact P0.hrecv_s0 m c)
      (hland_s1 := by rw [dev5_eq c _]; exact P0.hrecv_s1 m c)
      (hland_s2 := by rw [dev6_eq c _]; exact P0.hrecv_s2 m c)) $$ [HB0 HO]
  · iframe # ∗
  iintro ⟨HB0, ⟨%W1, HO⟩⟩
  iapply (P1.seg_p0 m K c (k := _) (l := ([24, 25, 26, 3, 4, 15, 16, 27, 28, 5, 17, 29, 6, 7, 9, 18, 19, 21, 30, 31, 33, 8, 10, 20, 22, 32, 34, 11, 23, 35] : List (Fin 36))) (W := W1)
      (n0 := (⟨k0_dev7 c, k0_dev7_lt c⟩ : Dev nD)) (n1 := (⟨k0_dev8 c, k0_dev8_lt c⟩ : Dev nD)) (n2 := (⟨k0_dev9 c, k0_dev9_lt c⟩ : Dev nD))
      (hn0 := dev7_eq c _) (hn1 := dev8_eq c _) (hn2 := dev9_eq c _)
      (sS0 := (sS ![12] inb_S36_S1_12)) (sR0 := (sR ![12] inb_S36_S1_12)) (hS0 := by decide) (hR0 := by decide)
      (sS1 := (sS ![13] inb_S36_S1_13)) (sR1 := (sR ![13] inb_S36_S1_13)) (hS1 := by decide) (hR1 := by decide)
      (sS2 := (sS ![14] inb_S36_S1_14)) (sR2 := (sR ![14] inb_S36_S1_14)) (hS2 := by decide) (hR2 := by decide)
      (hland_s0 := by rw [dev7_eq c _]; exact P1.hrecv_s0 m c)
      (hland_s1 := by rw [dev8_eq c _]; exact P1.hrecv_s1 m c)
      (hland_s2 := by rw [dev9_eq c _]; exact P1.hrecv_s2 m c)) $$ [HB1 HO]
  · iframe # ∗
  iintro ⟨HB1, ⟨%W2, HO⟩⟩
  iapply (P2.seg_p0 m K c (k := _) (l := ([3, 4, 15, 16, 27, 28, 5, 17, 29, 6, 7, 9, 18, 19, 21, 30, 31, 33, 8, 10, 20, 22, 32, 34, 11, 23, 35] : List (Fin 36))) (W := W2)
      (n0 := (⟨k0_dev10 c, k0_dev10_lt c⟩ : Dev nD)) (n1 := (⟨k0_dev11 c, k0_dev11_lt c⟩ : Dev nD)) (n2 := (⟨k0_dev12 c, k0_dev12_lt c⟩ : Dev nD))
      (hn0 := dev10_eq c _) (hn1 := dev11_eq c _) (hn2 := dev12_eq c _)
      (sS0 := (sS ![24] inb_S36_S1_24)) (sR0 := (sR ![24] inb_S36_S1_24)) (hS0 := by decide) (hR0 := by decide)
      (sS1 := (sS ![25] inb_S36_S1_25)) (sR1 := (sR ![25] inb_S36_S1_25)) (hS1 := by decide) (hR1 := by decide)
      (sS2 := (sS ![26] inb_S36_S1_26)) (sR2 := (sR ![26] inb_S36_S1_26)) (hS2 := by decide) (hR2 := by decide)
      (hland_s0 := by rw [dev10_eq c _]; exact P2.hrecv_s0 m c)
      (hland_s1 := by rw [dev11_eq c _]; exact P2.hrecv_s1 m c)
      (hland_s2 := by rw [dev12_eq c _]; exact P2.hrecv_s2 m c)) $$ [HB2 HO]
  · iframe # ∗
  iintro ⟨HB2, ⟨%W3, HO⟩⟩
  iapply (P0.seg_p1 m K c (k := _) (l := ([15, 16, 27, 28, 5, 17, 29, 6, 7, 9, 18, 19, 21, 30, 31, 33, 8, 10, 20, 22, 32, 34, 11, 23, 35] : List (Fin 36))) (W := W3) (hl := by decide)
      (n3 := (⟨k0_dev13 c, k0_dev13_lt c⟩ : Dev nD)) (n4 := (⟨k0_dev14 c, k0_dev14_lt c⟩ : Dev nD)) (hn3 := dev13_eq c _) (hn4 := dev14_eq c _)
      (sS0 := (sS ![0] inb_S36_S1_0)) (sR0 := (sR ![0] inb_S36_S1_0)) (hS0 := by decide) (hR0 := by decide)
      (sS1 := (sS ![1] inb_S36_S1_1)) (sR1 := (sR ![1] inb_S36_S1_1)) (hS1 := by decide) (hR1 := by decide)
      (sS2 := (sS ![2] inb_S36_S1_2)) (sR2 := (sR ![2] inb_S36_S1_2)) (hS2 := by decide) (hR2 := by decide)
      (sS3 := (sS ![3] inb_S36_S1_3)) (sR3 := (sR ![3] inb_S36_S1_3)) (hS3 := by decide) (hR3 := by decide)
      (sS4 := (sS ![4] inb_S36_S1_4)) (sR4 := (sR ![4] inb_S36_S1_4)) (hS4 := by decide) (hR4 := by decide)
      (w0 := k0_pay1) (w1 := k0_pay2) (w2 := k0_pay3) (hw0 := pay_1) (hw1 := pay_2) (hw2 := pay_3)
      (hland_s3 := by rw [dev13_eq c _]; exact P0.hrecv_s3 m c)
      (hland_s4 := by rw [dev14_eq c _]; exact P0.hrecv_s4 m c)) $$ [HB0 HO]
  · iframe # ∗
  iintro ⟨HB0, ⟨%W4, HO⟩⟩
  iapply (P1.seg_p1 m K c (k := _) (l := ([27, 28, 5, 17, 29, 6, 7, 9, 18, 19, 21, 30, 31, 33, 8, 10, 20, 22, 32, 34, 11, 23, 35] : List (Fin 36))) (W := W4) (hl := by decide)
      (n3 := (⟨k0_dev15 c, k0_dev15_lt c⟩ : Dev nD)) (n4 := (⟨k0_dev16 c, k0_dev16_lt c⟩ : Dev nD)) (hn3 := dev15_eq c _) (hn4 := dev16_eq c _)
      (sS0 := (sS ![12] inb_S36_S1_12)) (sR0 := (sR ![12] inb_S36_S1_12)) (hS0 := by decide) (hR0 := by decide)
      (sS1 := (sS ![13] inb_S36_S1_13)) (sR1 := (sR ![13] inb_S36_S1_13)) (hS1 := by decide) (hR1 := by decide)
      (sS2 := (sS ![14] inb_S36_S1_14)) (sR2 := (sR ![14] inb_S36_S1_14)) (hS2 := by decide) (hR2 := by decide)
      (sS3 := (sS ![15] inb_S36_S1_15)) (sR3 := (sR ![15] inb_S36_S1_15)) (hS3 := by decide) (hR3 := by decide)
      (sS4 := (sS ![16] inb_S36_S1_16)) (sR4 := (sR ![16] inb_S36_S1_16)) (hS4 := by decide) (hR4 := by decide)
      (w0 := k0_pay4) (w1 := k0_pay5) (w2 := k0_pay6) (hw0 := pay_4) (hw1 := pay_5) (hw2 := pay_6)
      (hland_s3 := by rw [dev15_eq c _]; exact P1.hrecv_s3 m c)
      (hland_s4 := by rw [dev16_eq c _]; exact P1.hrecv_s4 m c)) $$ [HB1 HO]
  · iframe # ∗
  iintro ⟨HB1, ⟨%W5, HO⟩⟩
  iapply (P2.seg_p1 m K c (k := _) (l := ([5, 17, 29, 6, 7, 9, 18, 19, 21, 30, 31, 33, 8, 10, 20, 22, 32, 34, 11, 23, 35] : List (Fin 36))) (W := W5) (hl := by decide)
      (n3 := (⟨k0_dev17 c, k0_dev17_lt c⟩ : Dev nD)) (n4 := (⟨k0_dev18 c, k0_dev18_lt c⟩ : Dev nD)) (hn3 := dev17_eq c _) (hn4 := dev18_eq c _)
      (sS0 := (sS ![24] inb_S36_S1_24)) (sR0 := (sR ![24] inb_S36_S1_24)) (hS0 := by decide) (hR0 := by decide)
      (sS1 := (sS ![25] inb_S36_S1_25)) (sR1 := (sR ![25] inb_S36_S1_25)) (hS1 := by decide) (hR1 := by decide)
      (sS2 := (sS ![26] inb_S36_S1_26)) (sR2 := (sR ![26] inb_S36_S1_26)) (hS2 := by decide) (hR2 := by decide)
      (sS3 := (sS ![27] inb_S36_S1_27)) (sR3 := (sR ![27] inb_S36_S1_27)) (hS3 := by decide) (hR3 := by decide)
      (sS4 := (sS ![28] inb_S36_S1_28)) (sR4 := (sR ![28] inb_S36_S1_28)) (hS4 := by decide) (hR4 := by decide)
      (w0 := k0_pay7) (w1 := k0_pay8) (w2 := k0_pay9) (hw0 := pay_7) (hw1 := pay_8) (hw2 := pay_9)
      (hland_s3 := by rw [dev17_eq c _]; exact P2.hrecv_s3 m c)
      (hland_s4 := by rw [dev18_eq c _]; exact P2.hrecv_s4 m c)) $$ [HB2 HO]
  · iframe # ∗
  iintro ⟨HB2, ⟨%W6, HO⟩⟩
  iapply (P0.seg_p2 m K c (k := _) (l := ([17, 29, 6, 7, 9, 18, 19, 21, 30, 31, 33, 8, 10, 20, 22, 32, 34, 11, 23, 35] : List (Fin 36))) (W := W6) (hl := by decide)
      (n19 := (⟨k0_dev19 c, k0_dev19_lt c⟩ : Dev nD)) (hn19 := dev19_eq c _)
      (sS3 := (sS ![3] inb_S36_S1_3)) (sR3 := (sR ![3] inb_S36_S1_3)) (hS3 := by decide) (hR3 := by decide)
      (sS4 := (sS ![4] inb_S36_S1_4)) (sR4 := (sR ![4] inb_S36_S1_4)) (hS4 := by decide) (hR4 := by decide)
      (sS5 := (sS ![5] inb_S36_S1_5)) (sR5 := (sR ![5] inb_S36_S1_5)) (hS5 := by decide) (hR5 := by decide)
      (w78 := (fun a b _ => k0_pay11 (k0_pay10 a b))) (w85 := (fun a b _ => k0_pay12 a b)) (hw78 := (fun a b _ j => pay_11_10 a b j)) (hw85 := (fun a b _ j => pay_12 a b j))
      (hland_s5 := by rw [dev19_eq c _]; exact P0.hrecv_s5 m c)) $$ [HB0 HO]
  · iframe # ∗
  iintro ⟨HB0, ⟨%W7, HO⟩⟩
  iapply (P1.seg_p2 m K c (k := _) (l := ([29, 6, 7, 9, 18, 19, 21, 30, 31, 33, 8, 10, 20, 22, 32, 34, 11, 23, 35] : List (Fin 36))) (W := W7) (hl := by decide)
      (n19 := (⟨k0_dev20 c, k0_dev20_lt c⟩ : Dev nD)) (hn19 := dev20_eq c _)
      (sS3 := (sS ![15] inb_S36_S1_15)) (sR3 := (sR ![15] inb_S36_S1_15)) (hS3 := by decide) (hR3 := by decide)
      (sS4 := (sS ![16] inb_S36_S1_16)) (sR4 := (sR ![16] inb_S36_S1_16)) (hS4 := by decide) (hR4 := by decide)
      (sS5 := (sS ![17] inb_S36_S1_17)) (sR5 := (sR ![17] inb_S36_S1_17)) (hS5 := by decide) (hR5 := by decide)
      (w78 := (fun a b _ => k0_pay13 a b)) (w85 := (fun a b _ => k0_pay14 a b)) (hw78 := (fun a b _ j => pay_13 a b j)) (hw85 := (fun a b _ j => pay_14 a b j))
      (hland_s5 := by rw [dev20_eq c _]; exact P1.hrecv_s5 m c)) $$ [HB1 HO]
  · iframe # ∗
  iintro ⟨HB1, ⟨%W8, HO⟩⟩
  iapply (P2.seg_p2 m K c (k := _) (l := ([6, 7, 9, 18, 19, 21, 30, 31, 33, 8, 10, 20, 22, 32, 34, 11, 23, 35] : List (Fin 36))) (W := W8) (hl := by decide)
      (n19 := (⟨k0_dev21 c, k0_dev21_lt c⟩ : Dev nD)) (hn19 := dev21_eq c _)
      (sS3 := (sS ![27] inb_S36_S1_27)) (sR3 := (sR ![27] inb_S36_S1_27)) (hS3 := by decide) (hR3 := by decide)
      (sS4 := (sS ![28] inb_S36_S1_28)) (sR4 := (sR ![28] inb_S36_S1_28)) (hS4 := by decide) (hR4 := by decide)
      (sS5 := (sS ![29] inb_S36_S1_29)) (sR5 := (sR ![29] inb_S36_S1_29)) (hS5 := by decide) (hR5 := by decide)
      (w78 := (fun a b _ => k0_pay15 a b)) (w85 := (fun a b _ => k0_pay16 a b)) (hw78 := (fun a b _ j => pay_15 a b j)) (hw85 := (fun a b _ j => pay_16 a b j))
      (hland_s5 := by rw [dev21_eq c _]; exact P2.hrecv_s5 m c)) $$ [HB2 HO]
  · iframe # ∗
  iintro ⟨HB2, ⟨%W9, HO⟩⟩
  iapply (P0.seg_p3 m K c (k := _) (l := ([18, 19, 21, 30, 31, 33, 8, 10, 20, 22, 32, 34, 11, 23, 35] : List (Fin 36))) (W := W9) (hl := by decide)
      (n22 := (⟨k0_dev22 c, k0_dev22_lt c⟩ : Dev nD)) (n23 := (⟨k0_dev23 c, k0_dev23_lt c⟩ : Dev nD)) (n24 := (⟨k0_dev24 c, k0_dev24_lt c⟩ : Dev nD)) (hn22 := dev22_eq c _) (hn23 := dev23_eq c _) (hn24 := dev24_eq c _)
      (sS5 := (sS ![5] inb_S36_S1_5)) (sR5 := (sR ![5] inb_S36_S1_5)) (hS5 := by decide) (hR5 := by decide)
      (sS6 := (sS ![6] inb_S36_S1_6)) (sR6 := (sR ![6] inb_S36_S1_6)) (hS6 := by decide) (hR6 := by decide)
      (sS7 := (sS ![7] inb_S36_S1_7)) (sR7 := (sR ![7] inb_S36_S1_7)) (hS7 := by decide) (hR7 := by decide)
      (sS9 := (sS ![9] inb_S36_S1_9)) (sR9 := (sR ![9] inb_S36_S1_9)) (hS9 := by decide) (hR9 := by decide)
      (w117 := (fun a b _ => k0_pay17 a b)) (hw117 := (fun a b _ j => pay_17 a b j))
      (hland_s6 := by rw [dev22_eq c _]; exact P0.hrecv_s6 m c)
      (hland_s7 := by rw [dev23_eq c _]; exact P0.hrecv_s7 m c)
      (hland_s9 := by rw [dev24_eq c _]; exact P0.hrecv_s9 m c)) $$ [HB0 HO]
  · iframe # ∗
  iintro ⟨HB0, ⟨%W10, HO⟩⟩
  iapply (P1.seg_p3 m K c (k := _) (l := ([30, 31, 33, 8, 10, 20, 22, 32, 34, 11, 23, 35] : List (Fin 36))) (W := W10) (hl := by decide)
      (n22 := (⟨k0_dev25 c, k0_dev25_lt c⟩ : Dev nD)) (n23 := (⟨k0_dev26 c, k0_dev26_lt c⟩ : Dev nD)) (n24 := (⟨k0_dev27 c, k0_dev27_lt c⟩ : Dev nD)) (hn22 := dev25_eq c _) (hn23 := dev26_eq c _) (hn24 := dev27_eq c _)
      (sS5 := (sS ![17] inb_S36_S1_17)) (sR5 := (sR ![17] inb_S36_S1_17)) (hS5 := by decide) (hR5 := by decide)
      (sS6 := (sS ![18] inb_S36_S1_18)) (sR6 := (sR ![18] inb_S36_S1_18)) (hS6 := by decide) (hR6 := by decide)
      (sS7 := (sS ![19] inb_S36_S1_19)) (sR7 := (sR ![19] inb_S36_S1_19)) (hS7 := by decide) (hR7 := by decide)
      (sS9 := (sS ![21] inb_S36_S1_21)) (sR9 := (sR ![21] inb_S36_S1_21)) (hS9 := by decide) (hR9 := by decide)
      (w117 := (fun a b _ => k0_pay18 a b)) (hw117 := (fun a b _ j => pay_18 a b j))
      (hland_s6 := by rw [dev25_eq c _]; exact P1.hrecv_s6 m c)
      (hland_s7 := by rw [dev26_eq c _]; exact P1.hrecv_s7 m c)
      (hland_s9 := by rw [dev27_eq c _]; exact P1.hrecv_s9 m c)) $$ [HB1 HO]
  · iframe # ∗
  iintro ⟨HB1, ⟨%W11, HO⟩⟩
  iapply (P2.seg_p3 m K c (k := _) (l := ([8, 10, 20, 22, 32, 34, 11, 23, 35] : List (Fin 36))) (W := W11) (hl := by decide)
      (n22 := (⟨k0_dev28 c, k0_dev28_lt c⟩ : Dev nD)) (n23 := (⟨k0_dev29 c, k0_dev29_lt c⟩ : Dev nD)) (n24 := (⟨k0_dev30 c, k0_dev30_lt c⟩ : Dev nD)) (hn22 := dev28_eq c _) (hn23 := dev29_eq c _) (hn24 := dev30_eq c _)
      (sS5 := (sS ![29] inb_S36_S1_29)) (sR5 := (sR ![29] inb_S36_S1_29)) (hS5 := by decide) (hR5 := by decide)
      (sS6 := (sS ![30] inb_S36_S1_30)) (sR6 := (sR ![30] inb_S36_S1_30)) (hS6 := by decide) (hR6 := by decide)
      (sS7 := (sS ![31] inb_S36_S1_31)) (sR7 := (sR ![31] inb_S36_S1_31)) (hS7 := by decide) (hR7 := by decide)
      (sS9 := (sS ![33] inb_S36_S1_33)) (sR9 := (sR ![33] inb_S36_S1_33)) (hS9 := by decide) (hR9 := by decide)
      (w117 := (fun a b _ => k0_pay19 a b)) (hw117 := (fun a b _ j => pay_19 a b j))
      (hland_s6 := by rw [dev28_eq c _]; exact P2.hrecv_s6 m c)
      (hland_s7 := by rw [dev29_eq c _]; exact P2.hrecv_s7 m c)
      (hland_s9 := by rw [dev30_eq c _]; exact P2.hrecv_s9 m c)) $$ [HB2 HO]
  · iframe # ∗
  iintro ⟨HB2, ⟨%W12, HO⟩⟩
  iapply (P0.seg_p4 m K c (k := _) (l := ([20, 22, 32, 34, 11, 23, 35] : List (Fin 36))) (W := W12)
      (sS6 := (sS ![6] inb_S36_S1_6)) (sR6 := (sR ![6] inb_S36_S1_6)) (hS6 := by decide) (hR6 := by decide)
      (sS8 := (sS ![8] inb_S36_S1_8)) (sR8 := (sR ![8] inb_S36_S1_8)) (hS8 := by decide) (hR8 := by decide)
      (sS10 := (sS ![10] inb_S36_S1_10)) (sR10 := (sR ![10] inb_S36_S1_10)) (hS10 := by decide) (hR10 := by decide)
      (n8 := (⟨k0_dev31 c, k0_dev31_lt c⟩ : Dev nD)) (n10 := (⟨k0_dev32 c, k0_dev32_lt c⟩ : Dev nD)) (hn8 := dev31_eq c _) (hn10 := dev32_eq c _)
      (hland_s8 := by rw [dev31_eq c _]; exact P0.hrecv_s8 m c)
      (hland_s10 := by rw [dev32_eq c _]; exact P0.hrecv_s10 m c) (hl := by decide)) $$ [HB0 HO]
  · iframe # ∗
  iintro ⟨HB0, ⟨%W13, HO⟩⟩
  iapply (P1.seg_p4 m K c (k := _) (l := ([32, 34, 11, 23, 35] : List (Fin 36))) (W := W13)
      (sS6 := (sS ![18] inb_S36_S1_18)) (sR6 := (sR ![18] inb_S36_S1_18)) (hS6 := by decide) (hR6 := by decide)
      (sS8 := (sS ![20] inb_S36_S1_20)) (sR8 := (sR ![20] inb_S36_S1_20)) (hS8 := by decide) (hR8 := by decide)
      (sS10 := (sS ![22] inb_S36_S1_22)) (sR10 := (sR ![22] inb_S36_S1_22)) (hS10 := by decide) (hR10 := by decide)
      (n8 := (⟨k0_dev33 c, k0_dev33_lt c⟩ : Dev nD)) (n10 := (⟨k0_dev34 c, k0_dev34_lt c⟩ : Dev nD)) (hn8 := dev33_eq c _) (hn10 := dev34_eq c _)
      (hland_s8 := by rw [dev33_eq c _]; exact P1.hrecv_s8 m c)
      (hland_s10 := by rw [dev34_eq c _]; exact P1.hrecv_s10 m c) (hl := by decide)) $$ [HB1 HO]
  · iframe # ∗
  iintro ⟨HB1, ⟨%W14, HO⟩⟩
  iapply (P2.seg_p4 m K c (k := _) (l := ([11, 23, 35] : List (Fin 36))) (W := W14)
      (sS6 := (sS ![30] inb_S36_S1_30)) (sR6 := (sR ![30] inb_S36_S1_30)) (hS6 := by decide) (hR6 := by decide)
      (sS8 := (sS ![32] inb_S36_S1_32)) (sR8 := (sR ![32] inb_S36_S1_32)) (hS8 := by decide) (hR8 := by decide)
      (sS10 := (sS ![34] inb_S36_S1_34)) (sR10 := (sR ![34] inb_S36_S1_34)) (hS10 := by decide) (hR10 := by decide)
      (n8 := (⟨k0_dev35 c, k0_dev35_lt c⟩ : Dev nD)) (n10 := (⟨k0_dev36 c, k0_dev36_lt c⟩ : Dev nD)) (hn8 := dev35_eq c _) (hn10 := dev36_eq c _)
      (hland_s8 := by rw [dev35_eq c _]; exact P2.hrecv_s8 m c)
      (hland_s10 := by rw [dev36_eq c _]; exact P2.hrecv_s10 m c) (hl := by decide)) $$ [HB2 HO]
  · iframe # ∗
  iintro ⟨HB2, ⟨%W15, HO⟩⟩
  iapply (P0.seg_p5 m K c (k := _) (l := ([23, 35] : List (Fin 36))) (W := W15)
      (sS7 := (sS ![7] inb_S36_S1_7)) (sR7 := (sR ![7] inb_S36_S1_7)) (hS7 := by decide) (hR7 := by decide)
      (sS8 := (sS ![8] inb_S36_S1_8)) (sR8 := (sR ![8] inb_S36_S1_8)) (hS8 := by decide) (hR8 := by decide)
      (sS11 := (sS ![11] inb_S36_S1_11)) (sR11 := (sR ![11] inb_S36_S1_11)) (hS11 := by decide) (hR11 := by decide)
      (n11 := (⟨k0_dev37 c, k0_dev37_lt c⟩ : Dev nD)) (hn11 := dev37_eq c _)
      (hland_s11 := by rw [dev37_eq c _]; exact P0.hrecv_s11 m c) (hl := by decide)) $$ [HB0 HO]
  · iframe # ∗
  iintro ⟨HB0, ⟨%W16, HO⟩⟩
  iapply (P1.seg_p5 m K c (k := _) (l := ([35] : List (Fin 36))) (W := W16)
      (sS7 := (sS ![19] inb_S36_S1_19)) (sR7 := (sR ![19] inb_S36_S1_19)) (hS7 := by decide) (hR7 := by decide)
      (sS8 := (sS ![20] inb_S36_S1_20)) (sR8 := (sR ![20] inb_S36_S1_20)) (hS8 := by decide) (hR8 := by decide)
      (sS11 := (sS ![23] inb_S36_S1_23)) (sR11 := (sR ![23] inb_S36_S1_23)) (hS11 := by decide) (hR11 := by decide)
      (n11 := (⟨k0_dev38 c, k0_dev38_lt c⟩ : Dev nD)) (hn11 := dev38_eq c _)
      (hland_s11 := by rw [dev38_eq c _]; exact P1.hrecv_s11 m c) (hl := by decide)) $$ [HB1 HO]
  · iframe # ∗
  iintro ⟨HB1, ⟨%W17, HO⟩⟩
  iapply (P2.seg_p5 m K c (k := _) (l := ([] : List (Fin 36))) (W := W17)
      (sS7 := (sS ![31] inb_S36_S1_31)) (sR7 := (sR ![31] inb_S36_S1_31)) (hS7 := by decide) (hR7 := by decide)
      (sS8 := (sS ![32] inb_S36_S1_32)) (sR8 := (sR ![32] inb_S36_S1_32)) (hS8 := by decide) (hR8 := by decide)
      (sS11 := (sS ![35] inb_S36_S1_35)) (sR11 := (sR ![35] inb_S36_S1_35)) (hS11 := by decide) (hR11 := by decide)
      (n11 := (⟨k0_dev39 c, k0_dev39_lt c⟩ : Dev nD)) (hn11 := dev39_eq c _)
      (hland_s11 := by rw [dev39_eq c _]; exact P2.hrecv_s11 m c) (hl := by decide)) $$ [HB2 HO]
  · iframe # ∗
  iintro ⟨HB2, ⟨%W18, HO⟩⟩
  iapply (P0.seg_p6 m K c (k := _) (l := ([] : List (Fin 36))) (W := W18)
      (sS9 := (sS ![9] inb_S36_S1_9)) (sR9 := (sR ![9] inb_S36_S1_9)) (hS9 := by decide) (hR9 := by decide)
      (sS10 := (sS ![10] inb_S36_S1_10)) (sR10 := (sR ![10] inb_S36_S1_10)) (hS10 := by decide) (hR10 := by decide)
      (sS11 := (sS ![11] inb_S36_S1_11)) (sR11 := (sR ![11] inb_S36_S1_11)) (hS11 := by decide) (hR11 := by decide) (hl := by decide)) $$ [HB0 HO]
  · iframe # ∗
  iintro ⟨HB0, ⟨%W19, HO⟩⟩
  iapply (P1.seg_p6 m K c (k := _) (l := ([] : List (Fin 36))) (W := W19)
      (sS9 := (sS ![21] inb_S36_S1_21)) (sR9 := (sR ![21] inb_S36_S1_21)) (hS9 := by decide) (hR9 := by decide)
      (sS10 := (sS ![22] inb_S36_S1_22)) (sR10 := (sR ![22] inb_S36_S1_22)) (hS10 := by decide) (hR10 := by decide)
      (sS11 := (sS ![23] inb_S36_S1_23)) (sR11 := (sR ![23] inb_S36_S1_23)) (hS11 := by decide) (hR11 := by decide) (hl := by decide)) $$ [HB1 HO]
  · iframe # ∗
  iintro ⟨HB1, ⟨%W20, HO⟩⟩
  iapply (P2.seg_p6 m K c (k := _) (l := ([] : List (Fin 36))) (W := W20)
      (sS9 := (sS ![33] inb_S36_S1_33)) (sR9 := (sR ![33] inb_S36_S1_33)) (hS9 := by decide) (hR9 := by decide)
      (sS10 := (sS ![34] inb_S36_S1_34)) (sR10 := (sR ![34] inb_S36_S1_34)) (hS10 := by decide) (hR10 := by decide)
      (sS11 := (sS ![35] inb_S36_S1_35)) (sR11 := (sR ![35] inb_S36_S1_35)) (hS11 := by decide) (hR11 := by decide) (hl := by decide)) $$ [HB2 HO]
  · iframe # ∗
  iintro ⟨HB2, ⟨%W21, HO⟩⟩
  ihave R0 := (P0.rejoin_p0 m c) $$ HB0
  icases R0 with ⟨He0, Hs0, Hx0, Ho0⟩
  ihave R1 := (P1.rejoin_p0 m c) $$ HB1
  icases R1 with ⟨He1, Hs1, Hx1, Ho1⟩
  ihave R2 := (P2.rejoin_p0 m c) $$ HB2
  icases R2 with ⟨He2, Hs2, Hx2, Ho2⟩
  imod (close_all m K c) $$ [He0 He1 He2] with Hcl
  · isplitr; · iexact Hrec
    isplitl [He0]; · iexact He0
    isplitl [He1] <;> iassumption
  ihave Hfin := (post_join m c) $$ [Hs0 Hx0 Ho0 Hs1 Hx1 Ho1 Hs2 Hx2 Ho2]
  · isplitl [Hs0 Hx0 Ho0]
    · isplitl [Hs0]; · iexact Hs0
      isplitl [Hx0] <;> iassumption
    isplitl [Hs1 Hx1 Ho1]
    · isplitl [Hs1]; · iexact Hs1
      isplitl [Hx1] <;> iassumption
    isplitl [Hs2]; · iexact Hs2
    isplitl [Hx2] <;> iassumption
  icases Hfin with ⟨Hscr, Hx, Ho⟩
  rw [wp_ret]; imodintro
  iapply Hk
  unfold bodyPost Φ₁
  isplitl [Hscr Hcl]
  · isplitl [Hscr] <;> iassumption
  isplitl [HO]
  · iexists W21; iexact HO
  isplitl [Hx] <;> iassumption
end Cert.KernelIdeal.TR
end
-- ==== Proof.Oblig.lean ====
import proofs.«901104_g7700000000001105_dist_treered_v7x_i8_m2048_n1024_f32_1_alg».proof.Proof.Chain
import Idealize.ShloMosaic.Lib.Pipeline.Launch
import Idealize.ShloMosaic.Lib.Pipeline.Kit
import Idealize.ShloMosaic.Lib.Tactic
set_option maxRecDepth 65536
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ UU ℕ
variable (m : (ℓ : Loc nD τ sig) → Buf (Elt F) ℓ) (ρ : Dev nD → PrngReg)
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
theorem fetch_0 (t : Fin cfg0.N) : (cfg0.win (0 : Fin 2)).fetch t = true := by rw [fin_N t]; rfl
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem body_obligation (c : Dev nD) : Pipeline.BodyObligation (dats (F := F) m ρ 0 c) (defs₀ (F := F)) 𝒱₀ () Set.univ := fun t => by
  rw [fin_N t]
  rw [bigSep_W0, bigSep_W0]
  simp only [owns_whole_eq]
  show iprop(Φ₀ m c ∗ (dats (F := F) m ρ 0 c).owesAt () t₀.castSucc
      ∗ (∃ d, stg c cc0_stg0_0 ((dats (F := F) m ρ 0 c).before (0 : Fin 2) t₀ d))
      ∗ (∃ d, stg c cc0_stg1_0 ((dats (F := F) m ρ 0 c).before (1 : Fin 2) t₀ d)))
    ⊢ wp frame (wpE (defs₀ (F := F)) 𝒱₀ c none) Set.univ (bodyAt0 (F := F) t₀) (fun _ =>
        iprop(Φ₁ (F := F) c ∗ (dats (F := F) m ρ 0 c).owesAt () t₀.succ ∗ stg c cc0_stg0_0 (xAt m c) ∗ stg c cc0_stg1_0 (outAt m)))
  unfold Φ₀ start Dat.owesAt Pipeline.owesWithin
  rw [show (dats (F := F) m ρ 0 c).owed t₀.castSucc = O₀ (pay m) c from rfl]
  iintro ⟨⟨⟨⟨%K, Hg⟩, Hcr, Hlev⟩, Hscr⟩, ⟨%W, %hW, HO⟩, ⟨%d0, %g0, %hg0, Hx⟩, ⟨%d1, %g1, %hg1, Ho⟩⟩
  have hx : g0 = xAt m c := by
    rw [hg0]; unfold Dat.before; rw [if_pos (fetch_0 t₀)]; exact fetched_x m ρ c
  subst hx
  iapply (sound_body m K c fun _ => _)
  isplitl
  · unfold bodyPre
    isplitl [Hg Hcr Hlev]
    · isplitl [Hg]; · iexact Hg
      isplitl [Hcr] <;> iassumption
    isplitl [Hscr]; · iexact Hscr
    isplitl [HO]; · iexists W; iexact HO
    isplitl [Hx]; · iexact Hx
    iexists g1; iexact Ho
  · unfold bodyPost
    iintro ⟨HΦ, ⟨%W', HO⟩, Hx, Ho⟩
    rw [show (dats (F := F) m ρ 0 c).owed t₀.succ = 0 from rfl]
    isplitl [HΦ]; · iexact HΦ
    isplitl [HO]
    · iexists W'; isplitr; · (ipureintro; exact fun _ _ => Or.inl trivial)
      iexact HO
    isplitl [Hx]
    · iexists _; isplitr; · (ipureintro; rfl)
      iexact Hx
    iexists _; isplitr; · (ipureintro; rfl)
    iexact Ho
end Cert.KernelIdeal.TR
end
-- ==== Proof.Run.lean ====
import proofs.«901104_g7700000000001105_dist_treered_v7x_i8_m2048_n1024_f32_1_alg».proof.Proof.Oblig
import proofs.«901104_g7700000000001105_dist_treered_v7x_i8_m2048_n1024_f32_1_alg».proof.Proof.LaunchG
set_option maxRecDepth 65536
noncomputable section
namespace Cert.KernelIdeal.TR
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
variable {F : FTy → Type} [FloatOps F]
local notation "𝕄" => MT nD τ sig Unit (Elt F) ℕ UU ℕ
variable (m : (ℓ : Loc nD τ sig) → Buf (Elt F) ℓ) (ρ : Dev nD → PrngReg)
theorem share_eq (c : Dev nD) (w : Fin cfg0.W) : (dats m ρ 0 c).share w = fullShare := by
  unfold Dat.share; split <;> rfl
theorem phi0_intro (c : Dev nD) :
    iprop(start (pay m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  iframe
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scr closedSems
  rw [bigSep_sep']
  iintro ⟨Hr, HzS, HzV⟩
  isplitr; · iempintro
  isplitl [HzS HzV]
  · isplitl [HzS] <;> iassumption
  iexact Hr
theorem waits (c : Dev nD) : (levAts L lv : sProp 𝕄) ⊢ Pipeline.cellsWaits cfgs (dats m ρ) () 0 c :=
  Pipeline.cellsWaits_intro cfgs (dats m ρ) () 0 c fun w s t =>
    mayWait_stage (pay m) c _ (by fin_cases w <;> fin_cases s <;> decide) _ (by
      rcases t with ⟨_ | _, ht⟩
      · exact Or.inl rfl
      · exact Or.inr rfl)
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀ (pay m)) (howed₀ := fun _ => rfl) (howedN := fun _ => rfl)
    (L := L) (lv := lv) (hL := L_of_ne) (hwaits := waits m ρ)
    (G := G (pay m)) (G' := G' (pay m)) (u₀ := u₀)
    (hu₀ := fund_u₀ (pay m))
    (hglob := glob (pay m))
    (hA := fun _ _ => rfl) (hpf := fun _ k => k.elim0)
    (X := start (pay m)) (Y := fun _ => iprop(emp)) (Z := fun _ => iprop(emp))
    (hX := start_intro (pay m) m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)
theorem finalA_x (c : Dev nD) : finalA m ρ c (0 : Fin 2) = (s₀ m ρ).mem (win0_0.arr.view.loc (c : Thread nD τ)) :=
  (dats (F := F) m ρ 0 c).arrAt_in (0 : Fin 2) rfl _
theorem finalA_out (c : Dev nD) : finalA m ρ c (1 : Fin 2) = (outAt m : Buf (Elt F) (win0_1.arr.view.loc (c : Thread nD τ))) := by
  unfold finalA
  have hs := (dats (F := F) m ρ 0 c).arrAt_succ (1 : Fin 2) t₀
  rw [if_pos (flush0_1 t₀)] at hs
  refine hs.trans ?_
  exact Memref.write_access_unit_zero_univ (Elt F) (main_v1 : Ref sig .tc) (off := fun a => win0_1.index t₀ a * win0_1.size a)
    (funext fun a => Nat.zero_mul _) (fun a => Pipeline.Clip.inb (win0_1.hclip (grid0.coords t₀) a)) _ (outAt m)
theorem run_arrays : θ_run defs (onTc (τ := τ) (main (F := F))) ⟨m, fun _ => 0, ρ⟩ (fun r => ∀ c : Dev nD,
    r.2.mem ((c.tc : Thread nD τ).loc main_v1) = (outAt m : Buf (Elt F) ((c.tc : Thread nD τ).loc main_v1))
    ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main m ρ)
end Cert.KernelIdeal.TR
end
-- ==== Proof.Final.lean ====
import proofs.«901104_g7700000000001105_dist_treered_v7x_i8_m2048_n1024_f32_1_alg».proof.Proof.Run
import proofs.«901104_g7700000000001105_dist_treered_v7x_i8_m2048_n1024_f32_1_alg».proof.Proof.RefSide
import proofs.«901104_g7700000000001105_dist_treered_v7x_i8_m2048_n1024_f32_1_alg».proof.Proof.Gen.Pre_finite_inputs_Kernel
set_option maxRecDepth 65536
noncomputable section
namespace Cert.KernelIdeal.TR
open Cert.KernelIdeal Cert.KernelIdeal.Gen
open Idealize.ShloMosaic Idealize.ShloMosaic.TcCoe Idealize.ShloMosaic.ValueIdx
open Idealize.SL.Sem
open Cert.ReferenceIdeal.RefValue (devSum devSum_apply ref_run)
theorem Gout_eq_devSum (m : (ℓ : Loc nD τ sig) → Buf (Elt Ideal) ℓ) :
    (Gout (F := Ideal) m : S2048x1024.Idx → Elt Ideal .f32) = devSum (fun d => m ((d.tc : Thread nD τ).loc main_arg0)) := by
  funext i
  refine (P3_eq_sum (partOf (i 0 : Fin 2048)) (xs m) (owner (i 0 : Fin 2048)) (i 0 : Fin 2048) (i 1 : Fin 1024)).trans ?_
  rfl
theorem kernel_run (m : (ℓ : Loc nD τ sig) → Buf (Elt Ideal) ℓ) (g : Dev nD → PrngReg) :
    θ_run (Cert.KernelIdeal.defs (F := Ideal)) (onTc (τ := τ) (main (F := Ideal))) ⟨m, fun _ => 0, g⟩ (fun r => ∀ c : Dev nD,
      r.2.mem ((c.tc : Thread nD τ).loc main_v1) = devSum (fun d => m ((d.tc : Thread nD τ).loc main_arg0))
      ∧ r.2.mem ((c.tc : Thread nD τ).loc main_arg0) = m ((c.tc : Thread nD τ).loc main_arg0)) :=
  (θ_run defs _ _).mono (fun _ h c => ⟨(h c).1.trans (Gout_eq_devSum m), (h c).2⟩) (run_arrays (F := Ideal) m g)
theorem frame_ki : Cert.frame_KernelIdeal := fun m g _ =>
  (θ_run defs _ _).mono (fun _ h c => (h c).2) (run_arrays (F := Ideal) m g)
theorem algebraic_ki_ri : Cert.algebraic_KernelIdeal_ReferenceIdeal := by
  intro m g m' g' _ hagree
  refine ⟨_, ?_, ref_run m' g'⟩
  have hm : (fun d : Dev nD => m ((d.tc : Thread nD τ).loc main_arg0))
      = fun d => Layout.block ⟨3, ![1, 2048, 1024]⟩ ⟨3, ![8, 2048, 1024]⟩ 0 8 d
          (m' (((0 : Dev Cert.ReferenceIdeal.nD).tc : Thread Cert.ReferenceIdeal.nD Cert.ReferenceIdeal.τ).loc Cert.ReferenceIdeal.main_arg0)) :=
    funext hagree
  rw [← hm]
  exact kernel_run m g
end Cert.KernelIdeal.TR
end
-- ==== Proof.FinalK.lean ====
import proofs.«901104_g7700000000001105_dist_treered_v7x_i8_m2048_n1024_f32_1_alg».proof.Defs
import proofs.«901104_g7700000000001105_dist_treered_v7x_i8_m2048_n1024_f32_1_alg».proof.Proof.Run
import proofs.«901104_g7700000000001105_dist_treered_v7x_i8_m2048_n1024_f32_1_alg».proof.Proof.Gen.Kernel
import proofs.«901104_g7700000000001105_dist_treered_v7x_i8_m2048_n1024_f32_1_alg».proof.Proof.Gen.Pre_finite_inputs_Kernel

noncomputable section

namespace Cert.Kernel.TR

open Idealize.ShloMosaic Idealize.ShloMosaic.TcCoe Idealize.SL.Sem

/-- The kernel as printed and its idealization are one program text: at every float instance the two body tables call the same body on the same buffers. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc ?_
  funext ℓ a
  rcases ℓ with ⟨_ | n, h⟩
  · rcases a with ⟨t, s⟩; rfl
  · exact absurd h (by omega)

theorem defs_eq {F : FTy → Type} [FloatOps F] : Cert.Kernel.defs (F := F) = Cert.KernelIdeal.defs (F := F) :=
  congrArg (Pipeline.defs Cert.KernelIdeal.pcfgs) defs₀_eq

/-- The run of the mesh is proved at an arbitrary float instance, so at word-level floats it is the run of the same program; the frame reads it at the argument array. -/
theorem frame_k : Cert.frame_Kernel := fun m g _ => by
  rw [defs_eq]
  exact (θ_run Cert.KernelIdeal.defs _ _).mono (fun _ h c => (h c).2) (Cert.KernelIdeal.TR.run_arrays (F := Bits) m g)

end Cert.Kernel.TR

end
-- ==== Proof.lean ====
import proofs.«901104_g7700000000001105_dist_treered_v7x_i8_m2048_n1024_f32_1_alg».proof.Defs
import proofs.«901104_g7700000000001105_dist_treered_v7x_i8_m2048_n1024_f32_1_alg».proof.Proof.Gen.Kernel
import proofs.«901104_g7700000000001105_dist_treered_v7x_i8_m2048_n1024_f32_1_alg».proof.Proof.Gen.KernelIdeal
import proofs.«901104_g7700000000001105_dist_treered_v7x_i8_m2048_n1024_f32_1_alg».proof.Proof.Gen.ReferenceIdeal
import proofs.«901104_g7700000000001105_dist_treered_v7x_i8_m2048_n1024_f32_1_alg».proof.Proof.Gen.Pre_finite_inputs_Kernel
import proofs.«901104_g7700000000001105_dist_treered_v7x_i8_m2048_n1024_f32_1_alg».proof.Proof.Gen.Pre_finite_inputs_ReferenceIdeal
import proofs.«901104_g7700000000001105_dist_treered_v7x_i8_m2048_n1024_f32_1_alg».proof.Proof.RefSide
import proofs.«901104_g7700000000001105_dist_treered_v7x_i8_m2048_n1024_f32_1_alg».proof.Proof.Final
import proofs.«901104_g7700000000001105_dist_treered_v7x_i8_m2048_n1024_f32_1_alg».proof.Proof.FinalK
noncomputable section
namespace Cert.Proof
open Idealize.ShloMosaic Idealize.SL.Sem
theorem frame_Kernel : Cert.frame_Kernel := Cert.Kernel.TR.frame_k
theorem frame_KernelIdeal : Cert.frame_KernelIdeal := Cert.KernelIdeal.TR.frame_ki
theorem frame_ReferenceIdeal : Cert.frame_ReferenceIdeal := Cert.ReferenceIdeal.RefValue.frame_ri
theorem preserves_Kernel_KernelIdeal : Cert.preserves_Kernel_KernelIdeal := trivial
theorem algebraic_KernelIdeal_ReferenceIdeal : Cert.algebraic_KernelIdeal_ReferenceIdeal := Cert.KernelIdeal.TR.algebraic_ki_ri
theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, preserves_Kernel_KernelIdeal, algebraic_KernelIdeal_ReferenceIdeal⟩
end Cert.Proof
end
